-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v133)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v133) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v184) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S100000 : Shape := ⟨1, ![100000]⟩
abbrev S256x16 : Shape := ⟨2, ![256, 16]⟩
abbrev S128x128 : Shape := ⟨2, ![128, 128]⟩
abbrev S128 : Shape := ⟨1, ![128]⟩
abbrev S144x2 : Shape := ⟨2, ![144, 2]⟩
abbrev S2 : Shape := ⟨1, ![2]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S256x16 : S_.BroadcastsInDim S256x16 (![] : Fin 0 → Fin S256x16.rank)
  reducesTo_S256x16_S_d0_1 : S256x16.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S144x2 : S_.BroadcastsInDim S144x2 (![] : Fin 0 → Fin S144x2.rank)
  reducesTo_S144x2_S_d0_1 : S144x2.ReducesTo [0, 1] S_
  bcast_S_S2 : S_.BroadcastsInDim S2 (![] : Fin 0 → Fin S2.rank)
  reducesTo_S2_S_d0 : S2.ReducesTo [0] S_

variable [Facts]

def fn_part4 {F : FTy → Type} [FloatOps F] (main_arg16 : FVec F S144x2 .f32) (main_arg17 : FVec F S2 .f32) (main_v63 : IVec S_ 1) (main_v67 : IVec S_ 1) : IVec S_ 1 :=
  let main_v68 : IVec S_ 1 := andi main_v63 main_v67
  let main_v69 : FVec F S144x2 .f32 := Host.absf main_arg16
  let main_cst_26 : FVec F S_ .f32 := constant S_ .f32 0x7F800000#32
  let main_v70 : FVec F S144x2 .f32 := broadcastInDim S144x2 ![] bcast_S_S144x2 main_cst_26
  let main_v71 : IVec S144x2 1 := cmpf .olt main_v69 main_v70
  let main_c_27 : IVec S_ 1 := constantI S_ 1 1#1
  let main_v72 : IVec S_ 1 := (fun x v => Host.reduce IntOp.andi x v reducesTo_S144x2_S_d0_1 h_S_) main_v71 main_c_27
  let main_v73 : IVec S_ 1 := andi main_v68 main_v72
  let main_v74 : FVec F S2 .f32 := Host.absf main_arg17
  let main_cst_28 : FVec F S_ .f32 := constant S_ .f32 0x7F800000#32
  let main_v75 : FVec F S2 .f32 := broadcastInDim S2 ![] bcast_S_S2 main_cst_28
  let main_v76 : IVec S2 1 := cmpf .olt main_v74 main_v75
  let main_c_29 : IVec S_ 1 := constantI S_ 1 1#1
  let main_v77 : IVec S_ 1 := (fun x v => Host.reduce IntOp.andi x v reducesTo_S2_S_d0 h_S_) main_v76 main_c_29
  let main_v78 : IVec S_ 1 := andi main_v73 main_v77
  main_v78

def fn_part3 {F : FTy → Type} [FloatOps F] (main_arg13 : FVec F S128 .f32) (main_arg14 : FVec F S128 .f32) (main_arg15 : FVec F S128 .f32) (main_arg16 : FVec F S144x2 .f32) (main_arg17 : FVec F S2 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg13
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg14
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128 .f32 := Host.absf main_arg15
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg16 main_arg17 main_v63 main_v67

def fn_part2 {F : FTy → Type} [FloatOps F] (main_arg9 : FVec F S128 .f32) (main_arg10 : FVec F S128 .f32) (main_arg11 : FVec F S128 .f32) (main_arg12 : FVec F S128 .f32) (main_arg13 : FVec F S128 .f32) (main_arg14 : FVec F S128 .f32) (main_arg15 : FVec F S128 .f32) (main_arg16 : FVec F S144x2 .f32) (main_arg17 : FVec F S2 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_arg13 main_arg14 main_arg15 main_arg16 main_arg17 main_v48 main_v49 main_v50

def fn_part1 {F : FTy → Type} [FloatOps F] (main_arg6 : FVec F S128x128 .f32) (main_arg7 : FVec F S128 .f32) (main_arg8 : FVec F S128x128 .f32) (main_arg9 : FVec F S128 .f32) (main_arg10 : FVec F S128 .f32) (main_arg11 : FVec F S128 .f32) (main_arg12 : FVec F S128 .f32) (main_arg13 : FVec F S128 .f32) (main_arg14 : FVec F S128 .f32) (main_arg15 : FVec F S128 .f32) (main_arg16 : FVec F S144x2 .f32) (main_arg17 : FVec F S2 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg9 main_arg10 main_arg11 main_arg12 main_arg13 main_arg14 main_arg15 main_arg16 main_arg17 main_v33

def fn {F : FTy → Type} [FloatOps F] (main_arg0 : FVec F S100000x128 .f32) (main_arg1 : IVec S2x1600000 32) (main_arg2 : IVec S100000 32) (main_arg3 : FVec F S256x16 .f32) (main_arg4 : FVec F S128x128 .f32) (main_arg5 : FVec F S128 .f32) (main_arg6 : FVec F S128x128 .f32) (main_arg7 : FVec F S128 .f32) (main_arg8 : FVec F S128x128 .f32) (main_arg9 : FVec F S128 .f32) (main_arg10 : FVec F S128 .f32) (main_arg11 : FVec F S128 .f32) (main_arg12 : FVec F S128 .f32) (main_arg13 : FVec F S128 .f32) (main_arg14 : FVec F S128 .f32) (main_arg15 : FVec F S128 .f32) (main_arg16 : FVec F S144x2 .f32) (main_arg17 : FVec F S2 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S256x16 .f32 := Host.absf main_arg3
  let main_cst_0 : FVec F S_ .f32 := constant S_ .f32 0x7F800000#32
  let main_v5 : FVec F S256x16 .f32 := broadcastInDim S256x16 ![] bcast_S_S256x16 main_cst_0
  let main_v6 : IVec S256x16 1 := cmpf .olt main_v4 main_v5
  let main_c_1 : IVec S_ 1 := constantI S_ 1 1#1
  let main_v7 : IVec S_ 1 := (fun x v => Host.reduce IntOp.andi x v reducesTo_S256x16_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_arg12 main_arg13 main_arg14 main_arg15 main_arg16 main_arg17 main_v13 main_v16
-- ==== Kernel.lean ====
abbrev S100000x128 : Shape := ⟨2, ![100000, 128]⟩
abbrev S2x1600000 : Shape := ⟨2, ![2, 1600000]⟩
abbrev S100000 : Shape := ⟨1, ![100000]⟩
abbrev S256x16 : Shape := ⟨2, ![256, 16]⟩
abbrev S128x128 : Shape := ⟨2, ![128, 128]⟩
abbrev S128 : Shape := ⟨1, ![128]⟩
abbrev S144x2 : Shape := ⟨2, ![144, 2]⟩
abbrev S2 : Shape := ⟨1, ![2]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S5000x128 : Shape := ⟨2, ![5000, 128]⟩
abbrev S1600000x128 : Shape := ⟨2, ![1600000, 128]⟩
abbrev S100000x1 : Shape := ⟨2, ![100000, 1]⟩
abbrev S1x128 : Shape := ⟨2, ![1, 128]⟩
abbrev S5000x1 : Shape := ⟨2, ![5000, 1]⟩
abbrev S256x128 : Shape := ⟨2, ![256, 128]⟩
abbrev S256x1 : Shape := ⟨2, ![256, 1]⟩
abbrev S5000x256 : Shape := ⟨2, ![5000, 256]⟩
abbrev S256x144 : Shape := ⟨2, ![256, 144]⟩
abbrev S1x2 : Shape := ⟨2, ![1, 2]⟩
abbrev S256x2 : Shape := ⟨2, ![256, 2]⟩

abbrev nBuf : Space → Nat
  | .hbm => 183
  | .vmem => 83
  | .smem => 0
  | _ => 0

abbrev hbmTy0_0 (i : Nat) : BufTy := match i % 128 with
  | 0 => ⟨S100000x128, .f32⟩
  | 1 => ⟨S2x1600000, .i32⟩
  | 2 => ⟨S100000, .i32⟩
  | 3 => ⟨S256x16, .f32⟩
  | 4 => ⟨S128x128, .f32⟩
  | 5 => ⟨S128, .f32⟩
  | 6 => ⟨S128x128, .f32⟩
  | 7 => ⟨S128, .f32⟩
  | 8 => ⟨S128x128, .f32⟩
  | 9 => ⟨S128, .f32⟩
  | 10 => ⟨S128, .f32⟩
  | 11 => ⟨S128, .f32⟩
  | 12 => ⟨S128, .f32⟩
  | 13 => ⟨S128, .f32⟩
  | 14 => ⟨S128, .f32⟩
  | 15 => ⟨S128, .f32⟩
  | 16 => ⟨S144x2, .f32⟩
  | 17 => ⟨S2, .f32⟩
  | 18 => ⟨S1x1600000, .i32⟩
  | 19 => ⟨S1600000, .i32⟩
  | 20 => ⟨S1x1600000, .i32⟩
  | 21 => ⟨S1600000, .i32⟩
  | 22 => ⟨S_, .f32⟩
  | 23 => ⟨S1600000, .f32⟩
  | 24 => ⟨S_, .f32⟩
  | 25 => ⟨S100000, .f32⟩
  | 26 => ⟨S1600000x1, .i32⟩
  | 27 => ⟨S100000, .f32⟩
  | 28 => ⟨S_, .f32⟩
  | 29 => ⟨S100000, .f32⟩
  | 30 => ⟨S100000, .f32⟩
  | 31 => ⟨S100000, .f32⟩
  | 32 => ⟨S_, .i32⟩
  | 33 => ⟨S1600000, .i32⟩
  | 34 => ⟨S1600000, .i1⟩
  | 35 => ⟨S_, .i32⟩
  | 36 => ⟨S1600000, .i32⟩
  | 37 => ⟨S1600000, .i32⟩
  | 38 => ⟨S1600000, .i32⟩
  | 39 => ⟨S1600000x1, .i32⟩
  | 40 => ⟨S1600000, .f32⟩
  | 41 => ⟨S_, .i32⟩
  | 42 => ⟨S1600000, .i32⟩
  | 43 => ⟨S1600000, .i1⟩
  | 44 => ⟨S_, .i32⟩
  | 45 => ⟨S1600000, .i32⟩
  | 46 => ⟨S1600000, .i32⟩
  | 47 => ⟨S1600000, .i32⟩
  | 48 => ⟨S1600000x1, .i32⟩
  | 49 => ⟨S1600000, .f32⟩
  | 50 => ⟨S1600000, .f32⟩
  | 51 => ⟨S100000, .f32⟩
  | 52 => ⟨S100000x128, .f32⟩
  | 53 => ⟨S1600000x1, .f32⟩
  | 54 => ⟨S_, .i32⟩
  | 55 => ⟨S1600000, .i32⟩
  | 56 => ⟨S1600000, .i1⟩
  | 57 => ⟨S_, .i32⟩
  | 58 => ⟨S1600000, .i32⟩
  | 59 => ⟨S1600000, .i32⟩
  | 60 => ⟨S1600000, .i32⟩
  | 61 => ⟨S1600000x1, .i32⟩
  | 62 => ⟨S1600000x128, .f32⟩
  | 63 => ⟨S1600000x128, .f32⟩
  | 64 => ⟨S1600000x128, .f32⟩
  | 65 => ⟨S_, .f32⟩
  | 66 => ⟨S100000x128, .f32⟩
  | 67 => ⟨S1600000x1, .i32⟩
  | 68 => ⟨S100000x128, .f32⟩
  | 69 => ⟨S100000x1, .f32⟩
  | 70 => ⟨S1x128, .f32⟩
  | 71 => ⟨S100000x128, .f32⟩
  | 72 => ⟨S1x128, .f32⟩
  | 73 => ⟨S1x128, .f32⟩
  | 74 => ⟨S128, .f32⟩
  | 75 => ⟨S128, .f32⟩
  | 76 => ⟨S_, .f32⟩
  | 77 => ⟨S128, .f32⟩
  | 78 => ⟨S128, .f32⟩
  | 79 => ⟨S_, .f32⟩
  | 80 => ⟨S128, .f32⟩
  | 81 => ⟨S128, .f32⟩
  | 82 => ⟨S128, .f32⟩
  | 83 => ⟨S128, .f32⟩
  | 84 => ⟨S_, .f32⟩
  | 85 => ⟨S128, .f32⟩
  | 86 => ⟨S128, .f32⟩
  | 87 => ⟨S128, .f32⟩
  | 88 => ⟨S128, .f32⟩
  | 89 => ⟨S128, .f32⟩
  | 90 => ⟨S128, .f32⟩
  | 91 => ⟨S1x128, .f32⟩
  | 92 => ⟨S1x128, .f32⟩
  | 93 => ⟨S100000x128, .f32⟩
  | 94 => ⟨S100000x128, .f32⟩
  | 95 => ⟨S1600000x1, .f32⟩
  | 96 => ⟨S_, .i32⟩
  | 97 => ⟨S1600000, .i32⟩
  | 98 => ⟨S1600000, .i1⟩
  | 99 => ⟨S_, .i32⟩
  | 100 => ⟨S1600000, .i32⟩
  | 101 => ⟨S1600000, .i32⟩
  | 102 => ⟨S1600000, .i32⟩
  | 103 => ⟨S1600000x1, .i32⟩
  | 104 => ⟨S1600000x128, .f32⟩
  | 105 => ⟨S1600000x128, .f32⟩
  | 106 => ⟨S1600000x128, .f32⟩
  | 107 => ⟨S_, .f32⟩
  | 108 => ⟨S100000x128, .f32⟩
  | 109 => ⟨S1600000x1, .i32⟩
  | 110 => ⟨S100000x128, .f32⟩
  | 111 => ⟨S100000x1, .f32⟩
  | 112 => ⟨S1x128, .f32⟩
  | 113 => ⟨S100000x128, .f32⟩
  | 114 => ⟨S1x128, .f32⟩
  | 115 => ⟨S1x128, .f32⟩
  | 116 => ⟨S128, .f32⟩
  | 117 => ⟨S128, .f32⟩
  | 118 => ⟨S_, .f32⟩
  | 119 => ⟨S128, .f32⟩
  | 120 => ⟨S128, .f32⟩
  | 121 => ⟨S_, .f32⟩
  | 122 => ⟨S128, .f32⟩
  | 123 => ⟨S128, .f32⟩
  | 124 => ⟨S128, .f32⟩
  | 125 => ⟨S128, .f32⟩
  | 126 => ⟨S_, .f32⟩
  | 127 => ⟨S128, .f32⟩
  | _ => ⟨S100000x128, .f32⟩

abbrev hbmTy0_1 (i : Nat) : BufTy := match i % 128 with
  | 0 => ⟨S128, .f32⟩
  | 1 => ⟨S128, .f32⟩
  | 2 => ⟨S128, .f32⟩
  | 3 => ⟨S128, .f32⟩
  | 4 => ⟨S128, .f32⟩
  | 5 => ⟨S1x128, .f32⟩
  | 6 => ⟨S1x128, .f32⟩
  | 7 => ⟨S100000x128, .f32⟩
  | 8 => ⟨S100000x128, .f32⟩
  | 9 => ⟨S1600000x1, .f32⟩
  | 10 => ⟨S_, .i32⟩
  | 11 => ⟨S1600000, .i32⟩
  | 12 => ⟨S1600000, .i1⟩
  | 13 => ⟨S_, .i32⟩
  | 14 => ⟨S1600000, .i32⟩
  | 15 => ⟨S1600000, .i32⟩
  | 16 => ⟨S1600000, .i32⟩
  | 17 => ⟨S1600000x1, .i32⟩
  | 18 => ⟨S1600000x128, .f32⟩
  | 19 => ⟨S1600000x128, .f32⟩
  | 20 => ⟨S1600000x128, .f32⟩
  | 21 => ⟨S_, .f32⟩
  | 22 => ⟨S100000x128, .f32⟩
  | 23 => ⟨S1600000x1, .i32⟩
  | 24 => ⟨S100000x128, .f32⟩
  | 25 => ⟨S100000x1, .f32⟩
  | 26 => ⟨S1x128, .f32⟩
  | 27 => ⟨S100000x128, .f32⟩
  | 28 => ⟨S1x128, .f32⟩
  | 29 => ⟨S1x128, .f32⟩
  | 30 => ⟨S128, .f32⟩
  | 31 => ⟨S128, .f32⟩
  | 32 => ⟨S_, .f32⟩
  | 33 => ⟨S128, .f32⟩
  | 34 => ⟨S128, .f32⟩
  | 35 => ⟨S_, .f32⟩
  | 36 => ⟨S128, .f32⟩
  | 37 => ⟨S128, .f32⟩
  | 38 => ⟨S128, .f32⟩
  | 39 => ⟨S128, .f32⟩
  | 40 => ⟨S_, .f32⟩
  | 41 => ⟨S128, .f32⟩
  | 42 => ⟨S128, .f32⟩
  | 43 => ⟨S128, .f32⟩
  | 44 => ⟨S128, .f32⟩
  | 45 => ⟨S128, .f32⟩
  | 46 => ⟨S128, .f32⟩
  | 47 => ⟨S1x128, .f32⟩
  | 48 => ⟨S1x128, .f32⟩
  | 49 => ⟨S100000x128, .f32⟩
  | 50 => ⟨S100000x1, .i32⟩
  | 51 => ⟨S256x128, .f32⟩
  | 52 => ⟨S256x144, .f32⟩
  | 53 => ⟨S1x2, .f32⟩
  | 54 => ⟨S256x2, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S1x128, .f32⟩
  | .local _ .vmem, ⟨12, _⟩ => ⟨S5000x128, .f32⟩
  | .local _ .vmem, ⟨13, _⟩ => ⟨S5000x128, .f32⟩
  | .local _ .vmem, ⟨14, _⟩ => ⟨S1x128, .f32⟩
  | .local _ .vmem, ⟨15, _⟩ => ⟨S1x128, .f32⟩
  | .local _ .vmem, ⟨16, _⟩ => ⟨S1x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | .local _ .vmem, ⟨20, _⟩ => ⟨S1x128, .f32⟩
  | .local _ .vmem, ⟨21, _⟩ => ⟨S1x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S128x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S5000x128, .f32⟩
  | .local _ .vmem, ⟨31, _⟩ => ⟨S5000x128, .f32⟩
  | .local _ .vmem, ⟨32, _⟩ => ⟨S5000x128, .f32⟩
  | .local _ .vmem, ⟨33, _⟩ => ⟨S5000x1, .f32⟩
  | .local _ .vmem, ⟨34, _⟩ => ⟨S5000x1, .f32⟩
  | .local _ .vmem, ⟨35, _⟩ => ⟨S1x128, .f32⟩
  | .local _ .vmem, ⟨36, _⟩ => ⟨S5000x128, .f32⟩
  | .local _ .vmem, ⟨37, _⟩ => ⟨S5000x128, .f32⟩
  | .local _ .vmem, ⟨38, _⟩ => ⟨S1x128, .f32⟩
  | .local _ .vmem, ⟨39, _⟩ => ⟨S1x128, .f32⟩
  | .local _ .vmem, ⟨40, _⟩ => ⟨S1x128, .f32⟩
  | .local _ .vmem, ⟨41, _⟩ => ⟨S1x128, .f32⟩
  | .local _ .vmem, ⟨42, _⟩ => ⟨S5000x128, .f32⟩
  | .local _ .vmem, ⟨43, _⟩ => ⟨S5000x128, .f32⟩
  | .local _ .vmem, ⟨44, _⟩ => ⟨S1x128, .f32⟩
  | .local _ .vmem, ⟨45, _⟩ => ⟨S1x128, .f32⟩
  | .local _ .vmem, ⟨46, _⟩ => ⟨S5000x128, .f32⟩
  | .local _ .vmem, ⟨47, _⟩ => ⟨S5000x128, .f32⟩
  | .local _ .vmem, ⟨48, _⟩ => ⟨S5000x128, .f32⟩
  | .local _ .vmem, ⟨49, _⟩ => ⟨S5000x128, .f32⟩
  | .local _ .vmem, ⟨50, _⟩ => ⟨S128x128, .f32⟩
  | .local _ .vmem, ⟨51, _⟩ => ⟨S5000x128, .f32⟩
  | .local _ .vmem, ⟨52, _⟩ => ⟨S5000x128, .f32⟩
  | .local _ .vmem, ⟨53, _⟩ => ⟨S5000x128, .f32⟩
  | .local _ .vmem, ⟨54, _⟩ => ⟨S5000x128, .f32⟩
  | .local _ .vmem, ⟨55, _⟩ => ⟨S5000x128, .f32⟩
  | .local _ .vmem, ⟨56, _⟩ => ⟨S5000x128, .f32⟩
  | .local _ .vmem, ⟨57, _⟩ => ⟨S5000x1, .f32⟩
  | .local _ .vmem, ⟨58, _⟩ => ⟨S5000x1, .f32⟩
  | .local _ .vmem, ⟨59, _⟩ => ⟨S1x128, .f32⟩
  | .local _ .vmem, ⟨60, _⟩ => ⟨S5000x128, .f32⟩
  | .local _ .vmem, ⟨61, _⟩ => ⟨S5000x128, .f32⟩
  | .local _ .vmem, ⟨62, _⟩ => ⟨S1x128, .f32⟩
  | .local _ .vmem, ⟨63, _⟩ => ⟨S1x128, .f32⟩
  | .local _ .vmem, ⟨64, _⟩ => ⟨S1x128, .f32⟩
  | .local _ .vmem, ⟨65, _⟩ => ⟨S1x128, .f32⟩
  | .local _ .vmem, ⟨66, _⟩ => ⟨S5000x128, .f32⟩
  | .local _ .vmem, ⟨67, _⟩ => ⟨S5000x128, .f32⟩
  | .local _ .vmem, ⟨68, _⟩ => ⟨S1x128, .f32⟩
  | .local _ .vmem, ⟨69, _⟩ => ⟨S1x128, .f32⟩
  | .local _ .vmem, ⟨70, _⟩ => ⟨S5000x128, .f32⟩
  | .local _ .vmem, ⟨71, _⟩ => ⟨S5000x128, .f32⟩
  | .local _ .vmem, ⟨72, _⟩ => ⟨S5000x128, .f32⟩
  | .local _ .vmem, ⟨73, _⟩ => ⟨S5000x128, .f32⟩
  | .local _ .vmem, ⟨74, _⟩ => ⟨S5000x1, .i32⟩
  | .local _ .vmem, ⟨75, _⟩ => ⟨S5000x1, .i32⟩
  | .local _ .vmem, ⟨76, _⟩ => ⟨S256x128, .f32⟩
  | .local _ .vmem, ⟨77, _⟩ => ⟨S256x128, .f32⟩
  | .local _ .vmem, ⟨78, _⟩ => ⟨S256x1, .f32⟩
  | .local _ .vmem, ⟨79, _⟩ => ⟨S256x144, .f32⟩
  | .local _ .vmem, ⟨80, _⟩ => ⟨S144x2, .f32⟩
  | .local _ .vmem, ⟨81, _⟩ => ⟨S1x2, .f32⟩
  | .local _ .vmem, ⟨82, _⟩ => ⟨S256x2, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | _, _ => false

abbrev semScoped : Fin 0 → Bool
  | ⟨_, h⟩ => absurd h (Nat.not_lt_zero _)

abbrev dmaSemScoped : Fin 75 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | _ => false

abbrev sig : RefSig :=
  ofTc nBuf bufTy 0 75 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_cst : Ref sig .tc := ⟨.hbm, 22, rfl⟩
abbrev main_v4 : Ref sig .tc := ⟨.hbm, 23, rfl⟩
abbrev main_cst_0 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_cst_1 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_c : Ref sig .tc := ⟨.hbm, 32, rfl⟩
abbrev main_v11 : Ref sig .tc := ⟨.hbm, 33, rfl⟩
abbrev main_v12 : Ref sig .tc := ⟨.hbm, 34, rfl⟩
abbrev main_c_2 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_c_3 : Ref sig .tc := ⟨.hbm, 41, rfl⟩
abbrev main_v18 : Ref sig .tc := ⟨.hbm, 42, rfl⟩
abbrev main_v19 : Ref sig .tc := ⟨.hbm, 43, rfl⟩
abbrev main_c_4 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_c_5 : Ref sig .tc := ⟨.hbm, 54, rfl⟩
abbrev main_v29 : Ref sig .tc := ⟨.hbm, 55, rfl⟩
abbrev main_v30 : Ref sig .tc := ⟨.hbm, 56, rfl⟩
abbrev main_c_6 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_cst_7 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43_0 : Ref sig .tc := ⟨.hbm, 71, rfl⟩
abbrev main_v43_1 : Ref sig .tc := ⟨.hbm, 72, rfl⟩
abbrev main_v43_2 : Ref sig .tc := ⟨.hbm, 73, rfl⟩
abbrev main_v44 : Ref sig .tc := ⟨.hbm, 74, rfl⟩
abbrev main_v45 : Ref sig .tc := ⟨.hbm, 75, rfl⟩
abbrev main_cst_8 : Ref sig .tc := ⟨.hbm, 76, rfl⟩
abbrev main_v46 : Ref sig .tc := ⟨.hbm, 77, rfl⟩
abbrev main_v47 : Ref sig .tc := ⟨.hbm, 78, rfl⟩
abbrev main_cst_9 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_cst_10 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_c_11 : Ref sig .tc := ⟨.hbm, 96, rfl⟩
abbrev main_v63 : Ref sig .tc := ⟨.hbm, 97, rfl⟩
abbrev main_v64 : Ref sig .tc := ⟨.hbm, 98, rfl⟩
abbrev main_c_12 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_cst_13 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77_0 : Ref sig .tc := ⟨.hbm, 113, rfl⟩
abbrev main_v77_1 : Ref sig .tc := ⟨.hbm, 114, rfl⟩
abbrev main_v77_2 : Ref sig .tc := ⟨.hbm, 115, rfl⟩
abbrev main_v78 : Ref sig .tc := ⟨.hbm, 116, rfl⟩
abbrev main_v79 : Ref sig .tc := ⟨.hbm, 117, rfl⟩
abbrev main_cst_14 : Ref sig .tc := ⟨.hbm, 118, rfl⟩
abbrev main_v80 : Ref sig .tc := ⟨.hbm, 119, rfl⟩
abbrev main_v81 : Ref sig .tc := ⟨.hbm, 120, rfl⟩
abbrev main_cst_15 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_cst_16 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_c_17 : Ref sig .tc := ⟨.hbm, 138, rfl⟩
abbrev main_v97 : Ref sig .tc := ⟨.hbm, 139, rfl⟩
abbrev main_v98 : Ref sig .tc := ⟨.hbm, 140, rfl⟩
abbrev main_c_18 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_cst_19 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev main_v109 : Ref sig .tc := ⟨.hbm, 153, rfl⟩
abbrev main_v110 : Ref sig .tc := ⟨.hbm, 154, rfl⟩
abbrev main_v111_0 : Ref sig .tc := ⟨.hbm, 155, rfl⟩
abbrev main_v111_1 : Ref sig .tc := ⟨.hbm, 156, rfl⟩
abbrev main_v111_2 : Ref sig .tc := ⟨.hbm, 157, rfl⟩
abbrev main_v112 : Ref sig .tc := ⟨.hbm, 158, rfl⟩
abbrev main_v113 : Ref sig .tc := ⟨.hbm, 159, rfl⟩
abbrev main_cst_20 : Ref sig .tc := ⟨.hbm, 160, rfl⟩
abbrev main_v114 : Ref sig .tc := ⟨.hbm, 161, rfl⟩
abbrev main_v115 : Ref sig .tc := ⟨.hbm, 162, rfl⟩
abbrev main_cst_21 : Ref sig .tc := ⟨.hbm, 163, rfl⟩
abbrev main_v116 : Ref sig .tc := ⟨.hbm, 164, rfl⟩
abbrev main_v117 : Ref sig .tc := ⟨.hbm, 165, rfl⟩
abbrev main_v118 : Ref sig .tc := ⟨.hbm, 166, rfl⟩
abbrev main_v119 : Ref sig .tc := ⟨.hbm, 167, rfl⟩
abbrev main_cst_22 : Ref sig .tc := ⟨.hbm, 168, rfl⟩
abbrev main_v120 : Ref sig .tc := ⟨.hbm, 169, rfl⟩
abbrev main_v121 : Ref sig .tc := ⟨.hbm, 170, rfl⟩
abbrev main_v122 : Ref sig .tc := ⟨.hbm, 171, rfl⟩
abbrev main_v123 : Ref sig .tc := ⟨.hbm, 172, rfl⟩
abbrev main_v124 : Ref sig .tc := ⟨.hbm, 173, rfl⟩
abbrev main_v125 : Ref sig .tc := ⟨.hbm, 174, rfl⟩
abbrev main_v126 : Ref sig .tc := ⟨.hbm, 175, rfl⟩
abbrev main_v127 : Ref sig .tc := ⟨.hbm, 176, rfl⟩
abbrev main_v128 : Ref sig .tc := ⟨.hbm, 177, rfl⟩
abbrev main_v129 : Ref sig .tc := ⟨.hbm, 178, rfl⟩
abbrev main_v130 : Ref sig .tc := ⟨.hbm, 179, rfl⟩
abbrev main_v131 : Ref sig .tc := ⟨.hbm, 180, rfl⟩
abbrev main_v132 : Ref sig .tc := ⟨.hbm, 181, rfl⟩
abbrev main_v133 : Ref sig .tc := ⟨.hbm, 182, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc1_stg5_0 : Ref sig .tc := ⟨.vmem, 14, rfl⟩
abbrev cc1_stg6_0 : Ref sig .tc := ⟨.vmem, 15, rfl⟩
abbrev cc1_scratch0 : Ref sig .tc := ⟨.vmem, 16, rfl⟩
abbrev cc1_scratch1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg3_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg2_0 : Ref sig .tc := ⟨.vmem, 27, rfl⟩
abbrev cc3_stg2_1 : Ref sig .tc := ⟨.vmem, 28, rfl⟩
abbrev cc4_stg0_0 : Ref sig .tc := ⟨.vmem, 29, rfl⟩
abbrev cc4_stg0_1 : Ref sig .tc := ⟨.vmem, 30, rfl⟩
abbrev cc4_stg1_0 : Ref sig .tc := ⟨.vmem, 31, rfl⟩
abbrev cc4_stg1_1 : Ref sig .tc := ⟨.vmem, 32, rfl⟩
abbrev cc4_stg2_0 : Ref sig .tc := ⟨.vmem, 33, rfl⟩
abbrev cc4_stg2_1 : Ref sig .tc := ⟨.vmem, 34, rfl⟩
abbrev cc4_stg3_0 : Ref sig .tc := ⟨.vmem, 35, rfl⟩
abbrev cc4_stg4_0 : Ref sig .tc := ⟨.vmem, 36, rfl⟩
abbrev cc4_stg4_1 : Ref sig .tc := ⟨.vmem, 37, rfl⟩
abbrev cc4_stg5_0 : Ref sig .tc := ⟨.vmem, 38, rfl⟩
abbrev cc4_stg6_0 : Ref sig .tc := ⟨.vmem, 39, rfl⟩
abbrev cc4_scratch0 : Ref sig .tc := ⟨.vmem, 40, rfl⟩
abbrev cc4_scratch1 : Ref sig .tc := ⟨.vmem, 41, rfl⟩
abbrev cc5_stg0_0 : Ref sig .tc := ⟨.vmem, 42, rfl⟩
abbrev cc5_stg0_1 : Ref sig .tc := ⟨.vmem, 43, rfl⟩
abbrev cc5_stg1_0 : Ref sig .tc := ⟨.vmem, 44, rfl⟩
abbrev cc5_stg2_0 : Ref sig .tc := ⟨.vmem, 45, rfl⟩
abbrev cc5_stg3_0 : Ref sig .tc := ⟨.vmem, 46, rfl⟩
abbrev cc5_stg3_1 : Ref sig .tc := ⟨.vmem, 47, rfl⟩
abbrev cc6_stg0_0 : Ref sig .tc := ⟨.vmem, 48, rfl⟩
abbrev cc6_stg0_1 : Ref sig .tc := ⟨.vmem, 49, rfl⟩
abbrev cc6_stg1_0 : Ref sig .tc := ⟨.vmem, 50, rfl⟩
abbrev cc6_stg2_0 : Ref sig .tc := ⟨.vmem, 51, rfl⟩
abbrev cc6_stg2_1 : Ref sig .tc := ⟨.vmem, 52, rfl⟩
abbrev cc7_stg0_0 : Ref sig .tc := ⟨.vmem, 53, rfl⟩
abbrev cc7_stg0_1 : Ref sig .tc := ⟨.vmem, 54, rfl⟩
abbrev cc7_stg1_0 : Ref sig .tc := ⟨.vmem, 55, rfl⟩
abbrev cc7_stg1_1 : Ref sig .tc := ⟨.vmem, 56, rfl⟩
abbrev cc7_stg2_0 : Ref sig .tc := ⟨.vmem, 57, rfl⟩
abbrev cc7_stg2_1 : Ref sig .tc := ⟨.vmem, 58, rfl⟩
abbrev cc7_stg3_0 : Ref sig .tc := ⟨.vmem, 59, rfl⟩
abbrev cc7_stg4_0 : Ref sig .tc := ⟨.vmem, 60, rfl⟩
abbrev cc7_stg4_1 : Ref sig .tc := ⟨.vmem, 61, rfl⟩
abbrev cc7_stg5_0 : Ref sig .tc := ⟨.vmem, 62, rfl⟩
abbrev cc7_stg6_0 : Ref sig .tc := ⟨.vmem, 63, rfl⟩
abbrev cc7_scratch0 : Ref sig .tc := ⟨.vmem, 64, rfl⟩
abbrev cc7_scratch1 : Ref sig .tc := ⟨.vmem, 65, rfl⟩
abbrev cc8_stg0_0 : Ref sig .tc := ⟨.vmem, 66, rfl⟩
abbrev cc8_stg0_1 : Ref sig .tc := ⟨.vmem, 67, rfl⟩
abbrev cc8_stg1_0 : Ref sig .tc := ⟨.vmem, 68, rfl⟩
abbrev cc8_stg2_0 : Ref sig .tc := ⟨.vmem, 69, rfl⟩
abbrev cc8_stg3_0 : Ref sig .tc := ⟨.vmem, 70, rfl⟩
abbrev cc8_stg3_1 : Ref sig .tc := ⟨.vmem, 71, rfl⟩
abbrev cc9_stg0_0 : Ref sig .tc := ⟨.vmem, 72, rfl⟩
abbrev cc9_stg0_1 : Ref sig .tc := ⟨.vmem, 73, rfl⟩
abbrev cc9_stg1_0 : Ref sig .tc := ⟨.vmem, 74, rfl⟩
abbrev cc9_stg1_1 : Ref sig .tc := ⟨.vmem, 75, rfl⟩
abbrev cc9_stg2_0 : Ref sig .tc := ⟨.vmem, 76, rfl⟩
abbrev cc9_scratch0 : Ref sig .tc := ⟨.vmem, 77, rfl⟩
abbrev cc9_scratch1 : Ref sig .tc := ⟨.vmem, 78, rfl⟩
abbrev cc10_stg0_0 : Ref sig .tc := ⟨.vmem, 79, rfl⟩
abbrev cc10_stg1_0 : Ref sig .tc := ⟨.vmem, 80, rfl⟩
abbrev cc10_stg2_0 : Ref sig .tc := ⟨.vmem, 81, rfl⟩
abbrev cc10_stg3_0 : Ref sig .tc := ⟨.vmem, 82, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc1_sem5_0 : DmaSem sig := 14
abbrev cc1_sem6_0 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem3_0 : DmaSem sig := 20
abbrev cc2_sem3_1 : DmaSem sig := 21
abbrev cc3_sem0_0 : DmaSem sig := 22
abbrev cc3_sem0_1 : DmaSem sig := 23
abbrev cc3_sem1_0 : DmaSem sig := 24
abbrev cc3_sem2_0 : DmaSem sig := 25
abbrev cc3_sem2_1 : DmaSem sig := 26
abbrev cc4_sem0_0 : DmaSem sig := 27
abbrev cc4_sem0_1 : DmaSem sig := 28
abbrev cc4_sem1_0 : DmaSem sig := 29
abbrev cc4_sem1_1 : DmaSem sig := 30
abbrev cc4_sem2_0 : DmaSem sig := 31
abbrev cc4_sem2_1 : DmaSem sig := 32
abbrev cc4_sem3_0 : DmaSem sig := 33
abbrev cc4_sem4_0 : DmaSem sig := 34
abbrev cc4_sem4_1 : DmaSem sig := 35
abbrev cc4_sem5_0 : DmaSem sig := 36
abbrev cc4_sem6_0 : DmaSem sig := 37
abbrev cc5_sem0_0 : DmaSem sig := 38
abbrev cc5_sem0_1 : DmaSem sig := 39
abbrev cc5_sem1_0 : DmaSem sig := 40
abbrev cc5_sem2_0 : DmaSem sig := 41
abbrev cc5_sem3_0 : DmaSem sig := 42
abbrev cc5_sem3_1 : DmaSem sig := 43
abbrev cc6_sem0_0 : DmaSem sig := 44
abbrev cc6_sem0_1 : DmaSem sig := 45
abbrev cc6_sem1_0 : DmaSem sig := 46
abbrev cc6_sem2_0 : DmaSem sig := 47
abbrev cc6_sem2_1 : DmaSem sig := 48
abbrev cc7_sem0_0 : DmaSem sig := 49
abbrev cc7_sem0_1 : DmaSem sig := 50
abbrev cc7_sem1_0 : DmaSem sig := 51
abbrev cc7_sem1_1 : DmaSem sig := 52
abbrev cc7_sem2_0 : DmaSem sig := 53
abbrev cc7_sem2_1 : DmaSem sig := 54
abbrev cc7_sem3_0 : DmaSem sig := 55
abbrev cc7_sem4_0 : DmaSem sig := 56
abbrev cc7_sem4_1 : DmaSem sig := 57
abbrev cc7_sem5_0 : DmaSem sig := 58
abbrev cc7_sem6_0 : DmaSem sig := 59
abbrev cc8_sem0_0 : DmaSem sig := 60
abbrev cc8_sem0_1 : DmaSem sig := 61
abbrev cc8_sem1_0 : DmaSem sig := 62
abbrev cc8_sem2_0 : DmaSem sig := 63
abbrev cc8_sem3_0 : DmaSem sig := 64
abbrev cc8_sem3_1 : DmaSem sig := 65
abbrev cc9_sem0_0 : DmaSem sig := 66
abbrev cc9_sem0_1 : DmaSem sig := 67
abbrev cc9_sem1_0 : DmaSem sig := 68
abbrev cc9_sem1_1 : DmaSem sig := 69
abbrev cc9_sem2_0 : DmaSem sig := 70
abbrev cc10_sem0_0 : DmaSem sig := 71
abbrev cc10_sem1_0 : DmaSem sig := 72
abbrev cc10_sem2_0 : DmaSem sig := 73
abbrev cc10_sem3_0 : DmaSem sig := 74

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S5000x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S5000x128 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev stage4_5 : Fin 1 → Memref sig .tc .vmem S1x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x128 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S5000x128 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S5000x128 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![20], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_6 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage7_0 : Fin 2 → Memref sig .tc .vmem S5000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S5000x128 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S5000x1 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev stage7_3 : Fin 1 → Memref sig .tc .vmem S1x128 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 2 → Memref sig .tc .vmem S5000x128 .f32 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![true]

abbrev stage7_5 : Fin 1 → Memref sig .tc .vmem S1x128 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

abbrev stage7_6 : Fin 1 → Memref sig .tc .vmem S1x128 .f32 := fun | 0 => Memref.whole cc7_stg6_0 | ⟨_ + 1, h⟩ => absurd h (Nat.not_lt.2 (Nat.le_add_left _ _))
abbrev sem7_6 : Fin 1 → DmaSem sig := fun | 0 => cc7_sem6_0 | ⟨_ + 1, h⟩ => absurd h (Nat.not_lt.2 (Nat.le_add_left _ _))
abbrev reads7_6 : Fin grid7.rank → Bool := ![false]

abbrev grid8 : Pipeline.Grid := ⟨1, ![20], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S5000x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S1x128 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x128 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 2 → Memref sig .tc .vmem S5000x128 .f32 := fun | 0 => Memref.whole cc8_stg3_0 | 1 => Memref.whole cc8_stg3_1 | ⟨_ + 2, h⟩ => absurd h (Nat.not_lt.2 (Nat.le_add_left _ _))
abbrev sem8_3 : Fin 2 → DmaSem sig := fun | 0 => cc8_sem3_0 | 1 => cc8_sem3_1 | ⟨_ + 2, h⟩ => absurd h (Nat.not_lt.2 (Nat.le_add_left _ _))
abbrev reads8_3 : Fin grid8.rank → Bool := ![true]

abbrev grid9 : Pipeline.Grid := ⟨1, ![20], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage9_0 : Fin 2 → Memref sig .tc .vmem S5000x128 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 2 → Memref sig .tc .vmem S5000x1 .i32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true]

abbrev stage9_2 : Fin 1 → Memref sig .tc .vmem S256x128 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev grid10 : Pipeline.Grid := ⟨1, ![1], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_1 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_2 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_3 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage10_0 : Fin 1 → Memref sig .tc .vmem S256x144 .f32 := fun | 0 => Memref.whole cc10_stg0_0 | ⟨_ + 1, h⟩ => absurd h (Nat.not_lt.2 (Nat.le_add_left _ _))
abbrev sem10_0 : Fin 1 → DmaSem sig := fun | 0 => cc10_sem0_0 | ⟨_ + 1, h⟩ => absurd h (Nat.not_lt.2 (Nat.le_add_left _ _))
abbrev reads10_0 : Fin grid10.rank → Bool := ![false]

abbrev stage10_1 : Fin 1 → Memref sig .tc .vmem S144x2 .f32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev stage10_2 : Fin 1 → Memref sig .tc .vmem S1x2 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false]

abbrev stage10_3 : Fin 1 → Memref sig .tc .vmem S256x2 .f32 := fun | 0 => Memref.whole cc10_stg3_0 | ⟨_ + 1, h⟩ => absurd h (Nat.not_lt.2 (Nat.le_add_left _ _))
abbrev sem10_3 : Fin 1 → DmaSem sig := fun | 0 => cc10_sem3_0 | ⟨_ + 1, h⟩ => absurd h (Nat.not_lt.2 (Nat.le_add_left _ _))
abbrev reads10_3 : Fin grid10.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  shapeCasts_S100000_S100000x1 : S100000.ShapeCasts S100000x1
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  broadcasts_S1x128_S5000x128 : S1x128.Broadcasts S5000x128
  reduces_S5000x128_S128 : S5000x128.Reduces [0] S128
  shapeCasts_S1x128_S128 : S1x128.ShapeCasts S128
  bcast_S_S128 : S_.BroadcastsInDim S128 (![] : Fin 0 → Fin S128.rank)
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S256x1_S256x1_0_0 : ∀ a, (![0, 0] : Fin 2 → Nat) a + S256x1.size a ≤ S256x1.size a
  h_S256x1 : 0 < S256x1.numel
  shapeCasts_S256x1_S256x1 : S256x1.ShapeCasts S256x1
  iota_S5000x256_d1_w32 : S5000x256.Iotas .tc 32 [1]
  broadcasts_S5000x1_S5000x256 : S5000x1.Broadcasts S5000x256
  natLt_1_32 : 1 < 32
  broadcasts_S256x1_S256x128 : S256x1.Broadcasts S256x128
  concatenates_S256x128_S256x16_S256x144_d1 : Shape.Concatenates [S256x128, S256x16] S256x144 1
  shapeCasts_S2_S1x2 : S2.ShapeCasts S1x2
  inb_S256x144_S256x144_0_0 : ∀ a, (![0, 0] : Fin 2 → Nat) a + S256x144.size a ≤ S256x144.size a
  h_S256x144 : 0 < S256x144.numel
  shapeCasts_S256x144_S256x144 : S256x144.ShapeCasts S256x144
  inb_S144x2_S144x2_0_0 : ∀ a, (![0, 0] : Fin 2 → Nat) a + S144x2.size a ≤ S144x2.size a
  h_S144x2 : 0 < S144x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S256x2 : S1x2.Broadcasts S256x2
  inb_S256x2_S256x2_0_0 : ∀ a, (![0, 0] : Fin 2 → Nat) a + S256x2.size a ≤ S256x2.size a
  h_S256x2 : 0 < S256x2.numel
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S5000x128_S128x128_S5000x128_1_0_0_1_n_n_wf : DotDims.WF S5000x128 S128x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x256_S5000x128_S256x128_0_0_1_1_n_n_wf : DotDims.WF S5000x256 S5000x128 S256x128 [0] [0] [1] [1] [] []
  dot_S5000x256_S5000x1_S256x1_0_0_1_1_n_n_wf : DotDims.WF S5000x256 S5000x1 S256x1 [0] [0] [1] [1] [] []
  dot_S256x144_S144x2_S256x2_1_0_0_1_n_n_wf : DotDims.WF S256x144 S144x2 S256x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S100000x128.size a
  hwx1_4 : ∀ i : grid1.Coords, EltTy.bits .f32 = 32 ∨ (Rect.block (s := S100000x128) S5000x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S100000x128.size a
  hwx2_3 : ∀ i : grid2.Coords, EltTy.bits .f32 = 32 ∨ (Rect.block (s := S100000x128) S5000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S100000x128.size a
  hwx3_2 : ∀ i : grid3.Coords, EltTy.bits .f32 = 32 ∨ (Rect.block (s := S100000x128) S5000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x128.size a ≤ S100000x128.size a
  hwx4_1 : ∀ i : grid4.Coords, EltTy.bits .f32 = 32 ∨ (Rect.block (s := S100000x128) S5000x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x1.size a ≤ S100000x1.size a
  hwx4_2 : ∀ i : grid4.Coords, EltTy.bits .f32 = 32 ∨ (Rect.block (s := S100000x1) S5000x1.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S5000x128.size a ≤ S100000x128.size a
  hwx4_4 : ∀ i : grid4.Coords, EltTy.bits .f32 = 32 ∨ (Rect.block (s := S100000x128) S5000x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x128.size a ≤ S1x128.size a
  hwx4_5 : ∀ i : grid4.Coords, EltTy.bits .f32 = 32 ∨ (Rect.block (s := S1x128) S1x128.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x128.size a ≤ S1x128.size a
  hwx4_6 : ∀ i : grid4.Coords, EltTy.bits .f32 = 32 ∨ (Rect.block (s := S1x128) S1x128.size (cc4_transform_6 i) (hinb4_6 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S100000x128.size a
  hwx5_0 : ∀ i : grid5.Coords, EltTy.bits .f32 = 32 ∨ (Rect.block (s := S100000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S5000x128.size a ≤ S100000x128.size a
  hwx5_3 : ∀ i : grid5.Coords, EltTy.bits .f32 = 32 ∨ (Rect.block (s := S100000x128) S5000x128.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S100000x128.size a
  hwx6_0 : ∀ i : grid6.Coords, EltTy.bits .f32 = 32 ∨ (Rect.block (s := S100000x128) S5000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x128.size a ≤ S128x128.size a
  hwx6_1 : ∀ i : grid6.Coords, EltTy.bits .f32 = 32 ∨ (Rect.block (s := S128x128) S128x128.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S5000x128.size a ≤ S100000x128.size a
  hwx6_2 : ∀ i : grid6.Coords, EltTy.bits .f32 = 32 ∨ (Rect.block (s := S100000x128) S5000x128.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x128.size a ≤ S100000x128.size a
  hwx7_0 : ∀ i : grid7.Coords, EltTy.bits .f32 = 32 ∨ (Rect.block (s := S100000x128) S5000x128.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S5000x128.size a ≤ S100000x128.size a
  hwx7_1 : ∀ i : grid7.Coords, EltTy.bits .f32 = 32 ∨ (Rect.block (s := S100000x128) S5000x128.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S5000x1.size a ≤ S100000x1.size a
  hwx7_2 : ∀ i : grid7.Coords, EltTy.bits .f32 = 32 ∨ (Rect.block (s := S100000x1) S5000x1.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x128.size a ≤ S1x128.size a
  hwx7_3 : ∀ i : grid7.Coords, EltTy.bits .f32 = 32 ∨ (Rect.block (s := S1x128) S1x128.size (cc7_transform_3 i) (hinb7_3 i)).WholeWords (EltTy.packing .f32)
  hstage7_4 : ∀ j, (stage7_4 j).IsWhole
  nbuf7_4 : grid7.bufCount reads7_4 false = 2
  hreads7_4 : ∀ i i' : grid7.Coords, (∀ a, reads7_4 a = true → i a = i' a) → cc7_transform_4 i = cc7_transform_4 i'
  hinb7_4 : ∀ (i : grid7.Coords) a, (cc7_transform_4 i a + 1) * S5000x128.size a ≤ S100000x128.size a
  hwx7_4 : ∀ i : grid7.Coords, EltTy.bits .f32 = 32 ∨ (Rect.block (s := S100000x128) S5000x128.size (cc7_transform_4 i) (hinb7_4 i)).WholeWords (EltTy.packing .f32)
  hstage7_5 : ∀ j, (stage7_5 j).IsWhole
  nbuf7_5 : grid7.bufCount reads7_5 true = 1
  hreads7_5 : ∀ i i' : grid7.Coords, (∀ a, reads7_5 a = true → i a = i' a) → cc7_transform_5 i = cc7_transform_5 i'
  hinb7_5 : ∀ (i : grid7.Coords) a, (cc7_transform_5 i a + 1) * S1x128.size a ≤ S1x128.size a
  hwx7_5 : ∀ i : grid7.Coords, EltTy.bits .f32 = 32 ∨ (Rect.block (s := S1x128) S1x128.size (cc7_transform_5 i) (hinb7_5 i)).WholeWords (EltTy.packing .f32)
  hstage7_6 : ∀ j, (stage7_6 j).IsWhole
  nbuf7_6 : grid7.bufCount reads7_6 true = 1
  hreads7_6 : ∀ i i' : grid7.Coords, (∀ a, reads7_6 a = true → i a = i' a) → cc7_transform_6 i = cc7_transform_6 i'
  hinb7_6 : ∀ (i : grid7.Coords) a, (cc7_transform_6 i a + 1) * S1x128.size a ≤ S1x128.size a
  hwx7_6 : ∀ i : grid7.Coords, EltTy.bits .f32 = 32 ∨ (Rect.block (s := S1x128) S1x128.size (cc7_transform_6 i) (hinb7_6 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x128.size a ≤ S100000x128.size a
  hwx8_0 : ∀ i : grid8.Coords, EltTy.bits .f32 = 32 ∨ (Rect.block (s := S100000x128) S5000x128.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S1x128.size a ≤ S1x128.size a
  hwx8_1 : ∀ i : grid8.Coords, EltTy.bits .f32 = 32 ∨ (Rect.block (s := S1x128) S1x128.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x128.size a ≤ S1x128.size a
  hwx8_2 : ∀ i : grid8.Coords, EltTy.bits .f32 = 32 ∨ (Rect.block (s := S1x128) S1x128.size (cc8_transform_2 i) (hinb8_2 i)).WholeWords (EltTy.packing .f32)
  hstage8_3 : ∀ j, (stage8_3 j).IsWhole
  nbuf8_3 : grid8.bufCount reads8_3 false = 2
  hreads8_3 : ∀ i i' : grid8.Coords, (∀ a, reads8_3 a = true → i a = i' a) → cc8_transform_3 i = cc8_transform_3 i'
  hinb8_3 : ∀ (i : grid8.Coords) a, (cc8_transform_3 i a + 1) * S5000x128.size a ≤ S100000x128.size a
  hwx8_3 : ∀ i : grid8.Coords, EltTy.bits .f32 = 32 ∨ (Rect.block (s := S100000x128) S5000x128.size (cc8_transform_3 i) (hinb8_3 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S5000x128.size a ≤ S100000x128.size a
  hwx9_0 : ∀ i : grid9.Coords, EltTy.bits .f32 = 32 ∨ (Rect.block (s := S100000x128) S5000x128.size (cc9_transform_0 i) (hinb9_0 i)).WholeWords (EltTy.packing .f32)
  hstage9_1 : ∀ j, (stage9_1 j).IsWhole
  nbuf9_1 : grid9.bufCount reads9_1 false = 2
  hreads9_1 : ∀ i i' : grid9.Coords, (∀ a, reads9_1 a = true → i a = i' a) → cc9_transform_1 i = cc9_transform_1 i'
  hinb9_1 : ∀ (i : grid9.Coords) a, (cc9_transform_1 i a + 1) * S5000x1.size a ≤ S100000x1.size a
  hwx9_1 : ∀ i : grid9.Coords, EltTy.bits .i32 = 32 ∨ (Rect.block (s := S100000x1) S5000x1.size (cc9_transform_1 i) (hinb9_1 i)).WholeWords (EltTy.packing .i32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S256x128.size a ≤ S256x128.size a
  hwx9_2 : ∀ i : grid9.Coords, EltTy.bits .f32 = 32 ∨ (Rect.block (s := S256x128) S256x128.size (cc9_transform_2 i) (hinb9_2 i)).WholeWords (EltTy.packing .f32)
  hrank10 : 0 < grid10.rank
  hstage10_0 : ∀ j, (stage10_0 j).IsWhole
  nbuf10_0 : grid10.bufCount reads10_0 true = 1
  hreads10_0 : ∀ i i' : grid10.Coords, (∀ a, reads10_0 a = true → i a = i' a) → cc10_transform_0 i = cc10_transform_0 i'
  hinb10_0 : ∀ (i : grid10.Coords) a, (cc10_transform_0 i a + 1) * S256x144.size a ≤ S256x144.size a
  hwx10_0 : ∀ i : grid10.Coords, EltTy.bits .f32 = 32 ∨ (Rect.block (s := S256x144) S256x144.size (cc10_transform_0 i) (hinb10_0 i)).WholeWords (EltTy.packing .f32)
  hstage10_1 : ∀ j, (stage10_1 j).IsWhole
  nbuf10_1 : grid10.bufCount reads10_1 true = 1
  hreads10_1 : ∀ i i' : grid10.Coords, (∀ a, reads10_1 a = true → i a = i' a) → cc10_transform_1 i = cc10_transform_1 i'
  hinb10_1 : ∀ (i : grid10.Coords) a, (cc10_transform_1 i a + 1) * S144x2.size a ≤ S144x2.size a
  hwx10_1 : ∀ i : grid10.Coords, EltTy.bits .f32 = 32 ∨ (Rect.block (s := S144x2) S144x2.size (cc10_transform_1 i) (hinb10_1 i)).WholeWords (EltTy.packing .f32)
  hstage10_2 : ∀ j, (stage10_2 j).IsWhole
  nbuf10_2 : grid10.bufCount reads10_2 true = 1
  hreads10_2 : ∀ i i' : grid10.Coords, (∀ a, reads10_2 a = true → i a = i' a) → cc10_transform_2 i = cc10_transform_2 i'
  hinb10_2 : ∀ (i : grid10.Coords) a, (cc10_transform_2 i a + 1) * S1x2.size a ≤ S1x2.size a
  hwx10_2 : ∀ i : grid10.Coords, EltTy.bits .f32 = 32 ∨ (Rect.block (s := S1x2) S1x2.size (cc10_transform_2 i) (hinb10_2 i)).WholeWords (EltTy.packing .f32)
  hstage10_3 : ∀ j, (stage10_3 j).IsWhole
  nbuf10_3 : grid10.bufCount reads10_3 true = 1
  hreads10_3 : ∀ i i' : grid10.Coords, (∀ a, reads10_3 a = true → i a = i' a) → cc10_transform_3 i = cc10_transform_3 i'
  hinb10_3 : ∀ (i : grid10.Coords) a, (cc10_transform_3 i a + 1) * S256x2.size a ≤ S256x2.size a
  hwx10_3 : ∀ i : grid10.Coords, EltTy.bits .f32 = 32 ∨ (Rect.block (s := S256x2) S256x2.size (cc10_transform_3 i) (hinb10_3 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x256_S5000x128_S256x128_0_0_1_1_n_n : DotDims S5000x256 S5000x128 S256x128 where
  lhsContracting := [0]
  rhsContracting := [0]
  lhsNonContracting := [1]
  rhsNonContracting := [1]
  lhsBatch := []
  rhsBatch := []
  wf := dot_S5000x256_S5000x128_S256x128_0_0_1_1_n_n_wf
def dot_S5000x256_S5000x1_S256x1_0_0_1_1_n_n : DotDims S5000x256 S5000x1 S256x1 where
  lhsContracting := [0]
  rhsContracting := [0]
  lhsNonContracting := [1]
  rhsNonContracting := [1]
  lhsBatch := []
  rhsBatch := []
  wf := dot_S5000x256_S5000x1_S256x1_0_0_1_1_n_n_wf
def dot_S256x144_S144x2_S256x2_1_0_0_1_n_n : DotDims S256x144 S144x2 S256x2 where
  lhsContracting := [1]
  rhsContracting := [0]
  lhsNonContracting := [0]
  rhsNonContracting := [1]
  lhsBatch := []
  rhsBatch := []
  wf := dot_S256x144_S144x2_S256x2_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v27) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v40) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v27) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v41) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v42) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v43_0) S5000x128.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v43_1) S1x128.size cc1_transform_5 reads1_5 true true 1 stage1_5 sem1_5
    hrank1 hreads1_5 hinb1_5 nbuf1_5 (Memref.isWhole_whole _) hwx1_5 hstage1_5

abbrev win1_6 : Pipeline.Window sig grid1 :=
  Pipeline.Window.ofSpec (Memref.whole main_v43_2) S1x128.size cc1_transform_6 reads1_6 true true 1 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v43_0) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v58) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v59) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v60) S5000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v60) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg6) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v61) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v74) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v61) S5000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v75) S5000x1.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v76) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v77_0) S5000x128.size cc4_transform_4 reads4_4 true false 2 stage4_4 sem4_4
    hrank4 hreads4_4 hinb4_4 nbuf4_4 (Memref.isWhole_whole _) hwx4_4 hstage4_4

abbrev win4_5 : Pipeline.Window sig grid4 :=
  Pipeline.Window.ofSpec (Memref.whole main_v77_1) S1x128.size cc4_transform_5 reads4_5 true true 1 stage4_5 sem4_5
    hrank4 hreads4_5 hinb4_5 nbuf4_5 (Memref.isWhole_whole _) hwx4_5 hstage4_5

abbrev win4_6 : Pipeline.Window sig grid4 :=
  Pipeline.Window.ofSpec (Memref.whole main_v77_2) S1x128.size cc4_transform_6 reads4_6 true true 1 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

abbrev win5_0 : Pipeline.Window sig grid5 :=
  Pipeline.Window.ofSpec (Memref.whole main_v77_0) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v92) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v93) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v94) S5000x128.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v94) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg8) S128x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v95) S5000x128.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v108) S5000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v95) S5000x128.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v109) S5000x1.size cc7_transform_2 reads7_2 false false 2 stage7_2 sem7_2
    hrank7 hreads7_2 hinb7_2 nbuf7_2 (Memref.isWhole_whole _) hwx7_2 hstage7_2

abbrev win7_3 : Pipeline.Window sig grid7 :=
  Pipeline.Window.ofSpec (Memref.whole main_v110) S1x128.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v111_0) S5000x128.size cc7_transform_4 reads7_4 true false 2 stage7_4 sem7_4
    hrank7 hreads7_4 hinb7_4 nbuf7_4 (Memref.isWhole_whole _) hwx7_4 hstage7_4

abbrev win7_5 : Pipeline.Window sig grid7 :=
  Pipeline.Window.ofSpec (Memref.whole main_v111_1) S1x128.size cc7_transform_5 reads7_5 true true 1 stage7_5 sem7_5
    hrank7 hreads7_5 hinb7_5 nbuf7_5 (Memref.isWhole_whole _) hwx7_5 hstage7_5

abbrev win7_6 : Pipeline.Window sig grid7 :=
  Pipeline.Window.ofSpec (Memref.whole main_v111_2) S1x128.size cc7_transform_6 reads7_6 true true 1 stage7_6 sem7_6
    hrank7 hreads7_6 hinb7_6 nbuf7_6 (Memref.isWhole_whole _) hwx7_6 hstage7_6

abbrev win7 : Fin 7 → Pipeline.Window sig grid7 := fun | 0 => win7_0 | 1 => win7_1 | 2 => win7_2 | 3 => win7_3 | 4 => win7_4 | 5 => win7_5 | 6 => win7_6 | ⟨_ + 7, h⟩ => absurd h (Nat.not_lt.2 (Nat.le_add_left _ _))
abbrev spec7 : Fin 7 → Pipeline.WinSpec sig grid7.rank := fun w => (win7 w).toWinSpec

abbrev win8_0 : Pipeline.Window sig grid8 :=
  Pipeline.Window.ofSpec (Memref.whole main_v111_0) S5000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v126) S1x128.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v127) S1x128.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v128) S5000x128.size cc8_transform_3 reads8_3 true false 2 stage8_3 sem8_3
    hrank8 hreads8_3 hinb8_3 nbuf8_3 (Memref.isWhole_whole _) hwx8_3 hstage8_3

abbrev win8 : Fin 4 → Pipeline.Window sig grid8 := fun | 0 => win8_0 | 1 => win8_1 | 2 => win8_2 | 3 => win8_3 | ⟨_ + 4, h⟩ => absurd h (Nat.not_lt.2 (Nat.le_add_left _ _))
abbrev spec8 : Fin 4 → Pipeline.WinSpec sig grid8.rank := fun w => (win8 w).toWinSpec

abbrev win9_0 : Pipeline.Window sig grid9 :=
  Pipeline.Window.ofSpec (Memref.whole main_v128) S5000x128.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v129) S5000x1.size cc9_transform_1 reads9_1 false false 2 stage9_1 sem9_1
    hrank9 hreads9_1 hinb9_1 nbuf9_1 (Memref.isWhole_whole _) hwx9_1 hstage9_1

abbrev win9_2 : Pipeline.Window sig grid9 :=
  Pipeline.Window.ofSpec (Memref.whole main_v130) S256x128.size cc9_transform_2 reads9_2 true true 1 stage9_2 sem9_2
    hrank9 hreads9_2 hinb9_2 nbuf9_2 (Memref.isWhole_whole _) hwx9_2 hstage9_2

abbrev win9 : Fin 3 → Pipeline.Window sig grid9 := fun | 0 => win9_0 | 1 => win9_1 | 2 => win9_2 | ⟨_ + 3, h⟩ => absurd h (Nat.not_lt.2 (Nat.le_add_left _ _))
abbrev spec9 : Fin 3 → Pipeline.WinSpec sig grid9.rank := fun w => (win9 w).toWinSpec

abbrev win10_0 : Pipeline.Window sig grid10 :=
  Pipeline.Window.ofSpec (Memref.whole main_v131) S256x144.size cc10_transform_0 reads10_0 false true 1 stage10_0 sem10_0
    hrank10 hreads10_0 hinb10_0 nbuf10_0 (Memref.isWhole_whole _) hwx10_0 hstage10_0

abbrev win10_1 : Pipeline.Window sig grid10 :=
  Pipeline.Window.ofSpec (Memref.whole main_arg16) S144x2.size cc10_transform_1 reads10_1 false true 1 stage10_1 sem10_1
    hrank10 hreads10_1 hinb10_1 nbuf10_1 (Memref.isWhole_whole _) hwx10_1 hstage10_1

abbrev win10_2 : Pipeline.Window sig grid10 :=
  Pipeline.Window.ofSpec (Memref.whole main_v132) S1x2.size cc10_transform_2 reads10_2 false true 1 stage10_2 sem10_2
    hrank10 hreads10_2 hinb10_2 nbuf10_2 (Memref.isWhole_whole _) hwx10_2 hstage10_2

abbrev win10_3 : Pipeline.Window sig grid10 :=
  Pipeline.Window.ofSpec (Memref.whole main_v133) S256x2.size cc10_transform_3 reads10_3 true true 1 stage10_3 sem10_3
    hrank10 hreads10_3 hinb10_3 nbuf10_3 (Memref.isWhole_whole _) hwx10_3 hstage10_3

abbrev win10 : Fin 4 → Pipeline.Window sig grid10 := fun | 0 => win10_0 | 1 => win10_1 | 2 => win10_2 | 3 => win10_3 | ⟨_ + 4, h⟩ => absurd h (Nat.not_lt.2 (Nat.le_add_left _ _))
abbrev spec10 : Fin 4 → Pipeline.WinSpec sig grid10.rank := fun w => (win10 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S100000 : Shape := ⟨1, ![100000]⟩
abbrev S256x16 : Shape := ⟨2, ![256, 16]⟩
abbrev S128x128 : Shape := ⟨2, ![128, 128]⟩
abbrev S128 : Shape := ⟨1, ![128]⟩
abbrev S144x2 : Shape := ⟨2, ![144, 2]⟩
abbrev S2 : Shape := ⟨1, ![2]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩
abbrev S256x128 : Shape := ⟨2, ![256, 128]⟩
abbrev S256 : Shape := ⟨1, ![256]⟩
abbrev S256x1 : Shape := ⟨2, ![256, 1]⟩
abbrev S256x144 : Shape := ⟨2, ![256, 144]⟩
abbrev S256x2 : Shape := ⟨2, ![256, 2]⟩
abbrev S1x2 : Shape := ⟨2, ![1, 2]⟩

abbrev nBuf : Space → Nat
  | .hbm => 244
  | .vmem => 0
  | .smem => 0
  | _ => 0

abbrev hbmTy0_0 (i : Nat) : BufTy := match i % 128 with
  | 0 => ⟨S100000x128, .f32⟩
  | 1 => ⟨S2x1600000, .i32⟩
  | 2 => ⟨S100000, .i32⟩
  | 3 => ⟨S256x16, .f32⟩
  | 4 => ⟨S128x128, .f32⟩
  | 5 => ⟨S128, .f32⟩
  | 6 => ⟨S128x128, .f32⟩
  | 7 => ⟨S128, .f32⟩
  | 8 => ⟨S128x128, .f32⟩
  | 9 => ⟨S128, .f32⟩
  | 10 => ⟨S128, .f32⟩
  | 11 => ⟨S128, .f32⟩
  | 12 => ⟨S128, .f32⟩
  | 13 => ⟨S128, .f32⟩
  | 14 => ⟨S128, .f32⟩
  | 15 => ⟨S128, .f32⟩
  | 16 => ⟨S144x2, .f32⟩
  | 17 => ⟨S2, .f32⟩
  | 18 => ⟨S1x1600000, .i32⟩
  | 19 => ⟨S1600000, .i32⟩
  | 20 => ⟨S1x1600000, .i32⟩
  | 21 => ⟨S1600000, .i32⟩
  | 22 => ⟨S_, .f32⟩
  | 23 => ⟨S1600000, .f32⟩
  | 24 => ⟨S_, .f32⟩
  | 25 => ⟨S100000, .f32⟩
  | 26 => ⟨S1600000x1, .i32⟩
  | 27 => ⟨S100000, .f32⟩
  | 28 => ⟨S_, .f32⟩
  | 29 => ⟨S100000, .f32⟩
  | 30 => ⟨S100000, .f32⟩
  | 31 => ⟨S100000, .f32⟩
  | 32 => ⟨S_, .i32⟩
  | 33 => ⟨S1600000, .i32⟩
  | 34 => ⟨S1600000, .i1⟩
  | 35 => ⟨S_, .i32⟩
  | 36 => ⟨S1600000, .i32⟩
  | 37 => ⟨S1600000, .i32⟩
  | 38 => ⟨S1600000, .i32⟩
  | 39 => ⟨S1600000x1, .i32⟩
  | 40 => ⟨S1600000, .f32⟩
  | 41 => ⟨S_, .i32⟩
  | 42 => ⟨S1600000, .i32⟩
  | 43 => ⟨S1600000, .i1⟩
  | 44 => ⟨S_, .i32⟩
  | 45 => ⟨S1600000, .i32⟩
  | 46 => ⟨S1600000, .i32⟩
  | 47 => ⟨S1600000, .i32⟩
  | 48 => ⟨S1600000x1, .i32⟩
  | 49 => ⟨S1600000, .f32⟩
  | 50 => ⟨S1600000, .f32⟩
  | 51 => ⟨S100000, .f32⟩
  | 52 => ⟨S100000x128, .f32⟩
  | 53 => ⟨S1600000x1, .f32⟩
  | 54 => ⟨S_, .i32⟩
  | 55 => ⟨S1600000, .i32⟩
  | 56 => ⟨S1600000, .i1⟩
  | 57 => ⟨S_, .i32⟩
  | 58 => ⟨S1600000, .i32⟩
  | 59 => ⟨S1600000, .i32⟩
  | 60 => ⟨S1600000, .i32⟩
  | 61 => ⟨S1600000x1, .i32⟩
  | 62 => ⟨S1600000x128, .f32⟩
  | 63 => ⟨S1600000x128, .f32⟩
  | 64 => ⟨S1600000x128, .f32⟩
  | 65 => ⟨S_, .f32⟩
  | 66 => ⟨S100000x128, .f32⟩
  | 67 => ⟨S1600000x1, .i32⟩
  | 68 => ⟨S100000x128, .f32⟩
  | 69 => ⟨S100000x1, .f32⟩
  | 70 => ⟨S100000x128, .f32⟩
  | 71 => ⟨S100000x128, .f32⟩
  | 72 => ⟨S100000x128, .f32⟩
  | 73 => ⟨S1x128, .f32⟩
  | 74 => ⟨S100000x128, .f32⟩
  | 75 => ⟨S100000x128, .f32⟩
  | 76 => ⟨S_, .f32⟩
  | 77 => ⟨S100000x128, .f32⟩
  | 78 => ⟨S100000x128, .f32⟩
  | 79 => ⟨S_, .f32⟩
  | 80 => ⟨S128, .f32⟩
  | 81 => ⟨S_, .f32⟩
  | 82 => ⟨S128, .f32⟩
  | 83 => ⟨S128, .f32⟩
  | 84 => ⟨S1x128, .f32⟩
  | 85 => ⟨S100000x128, .f32⟩
  | 86 => ⟨S100000x128, .f32⟩
  | 87 => ⟨S100000x128, .f32⟩
  | 88 => ⟨S_, .f32⟩
  | 89 => ⟨S128, .f32⟩
  | 90 => ⟨S_, .f32⟩
  | 91 => ⟨S128, .f32⟩
  | 92 => ⟨S128, .f32⟩
  | 93 => ⟨S1x128, .f32⟩
  | 94 => ⟨S100000x128, .f32⟩
  | 95 => ⟨S100000x128, .f32⟩
  | 96 => ⟨S_, .f32⟩
  | 97 => ⟨S128, .f32⟩
  | 98 => ⟨S128, .f32⟩
  | 99 => ⟨S128, .f32⟩
  | 100 => ⟨S1x128, .f32⟩
  | 101 => ⟨S100000x128, .f32⟩
  | 102 => ⟨S100000x128, .f32⟩
  | 103 => ⟨S1x128, .f32⟩
  | 104 => ⟨S100000x128, .f32⟩
  | 105 => ⟨S100000x128, .f32⟩
  | 106 => ⟨S1x128, .f32⟩
  | 107 => ⟨S100000x128, .f32⟩
  | 108 => ⟨S100000x128, .f32⟩
  | 109 => ⟨S100000x128, .f32⟩
  | 110 => ⟨S1600000x1, .f32⟩
  | 111 => ⟨S_, .i32⟩
  | 112 => ⟨S1600000, .i32⟩
  | 113 => ⟨S1600000, .i1⟩
  | 114 => ⟨S_, .i32⟩
  | 115 => ⟨S1600000, .i32⟩
  | 116 => ⟨S1600000, .i32⟩
  | 117 => ⟨S1600000, .i32⟩
  | 118 => ⟨S1600000x1, .i32⟩
  | 119 => ⟨S1600000x128, .f32⟩
  | 120 => ⟨S1600000x128, .f32⟩
  | 121 => ⟨S1600000x128, .f32⟩
  | 122 => ⟨S_, .f32⟩
  | 123 => ⟨S100000x128, .f32⟩
  | 124 => ⟨S1600000x1, .i32⟩
  | 125 => ⟨S100000x128, .f32⟩
  | 126 => ⟨S100000x1, .f32⟩
  | 127 => ⟨S100000x128, .f32⟩
  | _ => ⟨S100000x128, .f32⟩

abbrev hbmTy0_1 (i : Nat) : BufTy := match i % 128 with
  | 0 => ⟨S100000x128, .f32⟩
  | 1 => ⟨S100000x128, .f32⟩
  | 2 => ⟨S1x128, .f32⟩
  | 3 => ⟨S100000x128, .f32⟩
  | 4 => ⟨S100000x128, .f32⟩
  | 5 => ⟨S_, .f32⟩
  | 6 => ⟨S100000x128, .f32⟩
  | 7 => ⟨S100000x128, .f32⟩
  | 8 => ⟨S_, .f32⟩
  | 9 => ⟨S128, .f32⟩
  | 10 => ⟨S_, .f32⟩
  | 11 => ⟨S128, .f32⟩
  | 12 => ⟨S128, .f32⟩
  | 13 => ⟨S1x128, .f32⟩
  | 14 => ⟨S100000x128, .f32⟩
  | 15 => ⟨S100000x128, .f32⟩
  | 16 => ⟨S100000x128, .f32⟩
  | 17 => ⟨S_, .f32⟩
  | 18 => ⟨S128, .f32⟩
  | 19 => ⟨S_, .f32⟩
  | 20 => ⟨S128, .f32⟩
  | 21 => ⟨S128, .f32⟩
  | 22 => ⟨S1x128, .f32⟩
  | 23 => ⟨S100000x128, .f32⟩
  | 24 => ⟨S100000x128, .f32⟩
  | 25 => ⟨S_, .f32⟩
  | 26 => ⟨S128, .f32⟩
  | 27 => ⟨S128, .f32⟩
  | 28 => ⟨S128, .f32⟩
  | 29 => ⟨S1x128, .f32⟩
  | 30 => ⟨S100000x128, .f32⟩
  | 31 => ⟨S100000x128, .f32⟩
  | 32 => ⟨S1x128, .f32⟩
  | 33 => ⟨S100000x128, .f32⟩
  | 34 => ⟨S100000x128, .f32⟩
  | 35 => ⟨S1x128, .f32⟩
  | 36 => ⟨S100000x128, .f32⟩
  | 37 => ⟨S100000x128, .f32⟩
  | 38 => ⟨S100000x128, .f32⟩
  | 39 => ⟨S1600000x1, .f32⟩
  | 40 => ⟨S_, .i32⟩
  | 41 => ⟨S1600000, .i32⟩
  | 42 => ⟨S1600000, .i1⟩
  | 43 => ⟨S_, .i32⟩
  | 44 => ⟨S1600000, .i32⟩
  | 45 => ⟨S1600000, .i32⟩
  | 46 => ⟨S1600000, .i32⟩
  | 47 => ⟨S1600000x1, .i32⟩
  | 48 => ⟨S1600000x128, .f32⟩
  | 49 => ⟨S1600000x128, .f32⟩
  | 50 => ⟨S1600000x128, .f32⟩
  | 51 => ⟨S_, .f32⟩
  | 52 => ⟨S100000x128, .f32⟩
  | 53 => ⟨S1600000x1, .i32⟩
  | 54 => ⟨S100000x128, .f32⟩
  | 55 => ⟨S100000x1, .f32⟩
  | 56 => ⟨S100000x128, .f32⟩
  | 57 => ⟨S100000x128, .f32⟩
  | 58 => ⟨S100000x128, .f32⟩
  | 59 => ⟨S1x128, .f32⟩
  | 60 => ⟨S100000x128, .f32⟩
  | 61 => ⟨S100000x128, .f32⟩
  | 62 => ⟨S_, .f32⟩
  | 63 => ⟨S100000x128, .f32⟩
  | 64 => ⟨S100000x128, .f32⟩
  | 65 => ⟨S_, .f32⟩
  | 66 => ⟨S128, .f32⟩
  | 67 => ⟨S_, .f32⟩
  | 68 => ⟨S128, .f32⟩
  | 69 => ⟨S128, .f32⟩
  | 70 => ⟨S1x128, .f32⟩
  | 71 => ⟨S100000x128, .f32⟩
  | 72 => ⟨S100000x128, .f32⟩
  | 73 => ⟨S100000x128, .f32⟩
  | 74 => ⟨S_, .f32⟩
  | 75 => ⟨S128, .f32⟩
  | 76 => ⟨S_, .f32⟩
  | 77 => ⟨S128, .f32⟩
  | 78 => ⟨S128, .f32⟩
  | 79 => ⟨S1x128, .f32⟩
  | 80 => ⟨S100000x128, .f32⟩
  | 81 => ⟨S100000x128, .f32⟩
  | 82 => ⟨S_, .f32⟩
  | 83 => ⟨S128, .f32⟩
  | 84 => ⟨S128, .f32⟩
  | 85 => ⟨S128, .f32⟩
  | 86 => ⟨S1x128, .f32⟩
  | 87 => ⟨S100000x128, .f32⟩
  | 88 => ⟨S100000x128, .f32⟩
  | 89 => ⟨S1x128, .f32⟩
  | 90 => ⟨S100000x128, .f32⟩
  | 91 => ⟨S100000x128, .f32⟩
  | 92 => ⟨S1x128, .f32⟩
  | 93 => ⟨S100000x128, .f32⟩
  | 94 => ⟨S100000x128, .f32⟩
  | 95 => ⟨S_, .f32⟩
  | 96 => ⟨S256x128, .f32⟩
  | 97 => ⟨S100000x1, .i32⟩
  | 98 => ⟨S256x128, .f32⟩
  | 99 => ⟨S_, .f32⟩
  | 100 => ⟨S100000, .f32⟩
  | 101 => ⟨S_, .f32⟩
  | 102 => ⟨S256, .f32⟩
  | 103 => ⟨S100000x1, .i32⟩
  | 104 => ⟨S256, .f32⟩
  | 105 => ⟨S_, .f32⟩
  | 106 => ⟨S256, .f32⟩
  | 107 => ⟨S256, .f32⟩
  | 108 => ⟨S256x1, .f32⟩
  | 109 => ⟨S256x128, .f32⟩
  | 110 => ⟨S256x128, .f32⟩
  | 111 => ⟨S256x144, .f32⟩
  | 112 => ⟨S256x2, .f32⟩
  | 113 => ⟨S1x2, .f32⟩
  | 114 => ⟨S256x2, .f32⟩
  | 115 => ⟨S256x2, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_cst : Ref sig .tc := ⟨.hbm, 22, rfl⟩
abbrev main_v4 : Ref sig .tc := ⟨.hbm, 23, rfl⟩
abbrev main_cst_0 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_cst_1 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_c : Ref sig .tc := ⟨.hbm, 32, rfl⟩
abbrev main_v11 : Ref sig .tc := ⟨.hbm, 33, rfl⟩
abbrev main_v12 : Ref sig .tc := ⟨.hbm, 34, rfl⟩
abbrev main_c_2 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_c_3 : Ref sig .tc := ⟨.hbm, 41, rfl⟩
abbrev main_v18 : Ref sig .tc := ⟨.hbm, 42, rfl⟩
abbrev main_v19 : Ref sig .tc := ⟨.hbm, 43, rfl⟩
abbrev main_c_4 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_c_5 : Ref sig .tc := ⟨.hbm, 54, rfl⟩
abbrev main_v29 : Ref sig .tc := ⟨.hbm, 55, rfl⟩
abbrev main_v30 : Ref sig .tc := ⟨.hbm, 56, rfl⟩
abbrev main_c_6 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_cst_7 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_call0_cst : Ref sig .tc := ⟨.hbm, 76, rfl⟩
abbrev main_call0_v0 : Ref sig .tc := ⟨.hbm, 77, rfl⟩
abbrev main_v48 : Ref sig .tc := ⟨.hbm, 78, rfl⟩
abbrev main_cst_8 : Ref sig .tc := ⟨.hbm, 79, rfl⟩
abbrev main_v49 : Ref sig .tc := ⟨.hbm, 80, rfl⟩
abbrev main_cst_9 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_cst_10 : Ref sig .tc := ⟨.hbm, 88, rfl⟩
abbrev main_v56 : Ref sig .tc := ⟨.hbm, 89, rfl⟩
abbrev main_cst_11 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_cst_12 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_c_13 : Ref sig .tc := ⟨.hbm, 111, rfl⟩
abbrev main_v76 : Ref sig .tc := ⟨.hbm, 112, rfl⟩
abbrev main_v77 : Ref sig .tc := ⟨.hbm, 113, rfl⟩
abbrev main_c_14 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_cst_15 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_call1_cst : Ref sig .tc := ⟨.hbm, 133, rfl⟩
abbrev main_call1_v0 : Ref sig .tc := ⟨.hbm, 134, rfl⟩
abbrev main_v95 : Ref sig .tc := ⟨.hbm, 135, rfl⟩
abbrev main_cst_16 : Ref sig .tc := ⟨.hbm, 136, rfl⟩
abbrev main_v96 : Ref sig .tc := ⟨.hbm, 137, rfl⟩
abbrev main_cst_17 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_cst_18 : Ref sig .tc := ⟨.hbm, 145, rfl⟩
abbrev main_v103 : Ref sig .tc := ⟨.hbm, 146, rfl⟩
abbrev main_cst_19 : Ref sig .tc := ⟨.hbm, 147, rfl⟩
abbrev main_v104 : Ref sig .tc := ⟨.hbm, 148, rfl⟩
abbrev main_v105 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev main_cst_20 : Ref sig .tc := ⟨.hbm, 153, rfl⟩
abbrev main_v109 : Ref sig .tc := ⟨.hbm, 154, rfl⟩
abbrev main_v110 : Ref sig .tc := ⟨.hbm, 155, rfl⟩
abbrev main_v111 : Ref sig .tc := ⟨.hbm, 156, rfl⟩
abbrev main_v112 : Ref sig .tc := ⟨.hbm, 157, rfl⟩
abbrev main_v113 : Ref sig .tc := ⟨.hbm, 158, rfl⟩
abbrev main_v114 : Ref sig .tc := ⟨.hbm, 159, rfl⟩
abbrev main_v115 : Ref sig .tc := ⟨.hbm, 160, rfl⟩
abbrev main_v116 : Ref sig .tc := ⟨.hbm, 161, rfl⟩
abbrev main_v117 : Ref sig .tc := ⟨.hbm, 162, rfl⟩
abbrev main_v118 : Ref sig .tc := ⟨.hbm, 163, rfl⟩
abbrev main_v119 : Ref sig .tc := ⟨.hbm, 164, rfl⟩
abbrev main_v120 : Ref sig .tc := ⟨.hbm, 165, rfl⟩
abbrev main_v121 : Ref sig .tc := ⟨.hbm, 166, rfl⟩
abbrev main_v122 : Ref sig .tc := ⟨.hbm, 167, rfl⟩
abbrev main_c_21 : Ref sig .tc := ⟨.hbm, 168, rfl⟩
abbrev main_v123 : Ref sig .tc := ⟨.hbm, 169, rfl⟩
abbrev main_v124 : Ref sig .tc := ⟨.hbm, 170, rfl⟩
abbrev main_c_22 : Ref sig .tc := ⟨.hbm, 171, rfl⟩
abbrev main_v125 : Ref sig .tc := ⟨.hbm, 172, rfl⟩
abbrev main_v126 : Ref sig .tc := ⟨.hbm, 173, rfl⟩
abbrev main_v127 : Ref sig .tc := ⟨.hbm, 174, rfl⟩
abbrev main_v128 : Ref sig .tc := ⟨.hbm, 175, rfl⟩
abbrev main_v129 : Ref sig .tc := ⟨.hbm, 176, rfl⟩
abbrev main_v130 : Ref sig .tc := ⟨.hbm, 177, rfl⟩
abbrev main_v131 : Ref sig .tc := ⟨.hbm, 178, rfl⟩
abbrev main_cst_23 : Ref sig .tc := ⟨.hbm, 179, rfl⟩
abbrev main_v132 : Ref sig .tc := ⟨.hbm, 180, rfl⟩
abbrev main_v133 : Ref sig .tc := ⟨.hbm, 181, rfl⟩
abbrev main_v134 : Ref sig .tc := ⟨.hbm, 182, rfl⟩
abbrev main_v135 : Ref sig .tc := ⟨.hbm, 183, rfl⟩
abbrev main_v136 : Ref sig .tc := ⟨.hbm, 184, rfl⟩
abbrev main_v137 : Ref sig .tc := ⟨.hbm, 185, rfl⟩
abbrev main_v138 : Ref sig .tc := ⟨.hbm, 186, rfl⟩
abbrev main_v139 : Ref sig .tc := ⟨.hbm, 187, rfl⟩
abbrev main_v140 : Ref sig .tc := ⟨.hbm, 188, rfl⟩
abbrev main_v141 : Ref sig .tc := ⟨.hbm, 189, rfl⟩
abbrev main_call2_cst : Ref sig .tc := ⟨.hbm, 190, rfl⟩
abbrev main_call2_v0 : Ref sig .tc := ⟨.hbm, 191, rfl⟩
abbrev main_v142 : Ref sig .tc := ⟨.hbm, 192, rfl⟩
abbrev main_cst_24 : Ref sig .tc := ⟨.hbm, 193, rfl⟩
abbrev main_v143 : Ref sig .tc := ⟨.hbm, 194, rfl⟩
abbrev main_cst_25 : Ref sig .tc := ⟨.hbm, 195, rfl⟩
abbrev main_v144 : Ref sig .tc := ⟨.hbm, 196, rfl⟩
abbrev main_v145 : Ref sig .tc := ⟨.hbm, 197, rfl⟩
abbrev main_v146 : Ref sig .tc := ⟨.hbm, 198, rfl⟩
abbrev main_v147 : Ref sig .tc := ⟨.hbm, 199, rfl⟩
abbrev main_v148 : Ref sig .tc := ⟨.hbm, 200, rfl⟩
abbrev main_v149 : Ref sig .tc := ⟨.hbm, 201, rfl⟩
abbrev main_cst_26 : Ref sig .tc := ⟨.hbm, 202, rfl⟩
abbrev main_v150 : Ref sig .tc := ⟨.hbm, 203, rfl⟩
abbrev main_cst_27 : Ref sig .tc := ⟨.hbm, 204, rfl⟩
abbrev main_v151 : Ref sig .tc := ⟨.hbm, 205, rfl⟩
abbrev main_v152 : Ref sig .tc := ⟨.hbm, 206, rfl⟩
abbrev main_v153 : Ref sig .tc := ⟨.hbm, 207, rfl⟩
abbrev main_v154 : Ref sig .tc := ⟨.hbm, 208, rfl⟩
abbrev main_v155 : Ref sig .tc := ⟨.hbm, 209, rfl⟩
abbrev main_cst_28 : Ref sig .tc := ⟨.hbm, 210, rfl⟩
abbrev main_v156 : Ref sig .tc := ⟨.hbm, 211, rfl⟩
abbrev main_v157 : Ref sig .tc := ⟨.hbm, 212, rfl⟩
abbrev main_v158 : Ref sig .tc := ⟨.hbm, 213, rfl⟩
abbrev main_v159 : Ref sig .tc := ⟨.hbm, 214, rfl⟩
abbrev main_v160 : Ref sig .tc := ⟨.hbm, 215, rfl⟩
abbrev main_v161 : Ref sig .tc := ⟨.hbm, 216, rfl⟩
abbrev main_v162 : Ref sig .tc := ⟨.hbm, 217, rfl⟩
abbrev main_v163 : Ref sig .tc := ⟨.hbm, 218, rfl⟩
abbrev main_v164 : Ref sig .tc := ⟨.hbm, 219, rfl⟩
abbrev main_v165 : Ref sig .tc := ⟨.hbm, 220, rfl⟩
abbrev main_v166 : Ref sig .tc := ⟨.hbm, 221, rfl⟩
abbrev main_v167 : Ref sig .tc := ⟨.hbm, 222, rfl⟩
abbrev main_cst_29 : Ref sig .tc := ⟨.hbm, 223, rfl⟩
abbrev main_v168 : Ref sig .tc := ⟨.hbm, 224, rfl⟩
abbrev main_v169 : Ref sig .tc := ⟨.hbm, 225, rfl⟩
abbrev main_v170 : Ref sig .tc := ⟨.hbm, 226, rfl⟩
abbrev main_cst_30 : Ref sig .tc := ⟨.hbm, 227, rfl⟩
abbrev main_v171 : Ref sig .tc := ⟨.hbm, 228, rfl⟩
abbrev main_cst_31 : Ref sig .tc := ⟨.hbm, 229, rfl⟩
abbrev main_v172 : Ref sig .tc := ⟨.hbm, 230, rfl⟩
abbrev main_v173 : Ref sig .tc := ⟨.hbm, 231, rfl⟩
abbrev main_v174 : Ref sig .tc := ⟨.hbm, 232, rfl⟩
abbrev main_cst_32 : Ref sig .tc := ⟨.hbm, 233, rfl⟩
abbrev main_v175 : Ref sig .tc := ⟨.hbm, 234, rfl⟩
abbrev main_v176 : Ref sig .tc := ⟨.hbm, 235, rfl⟩
abbrev main_v177 : Ref sig .tc := ⟨.hbm, 236, rfl⟩
abbrev main_v178 : Ref sig .tc := ⟨.hbm, 237, rfl⟩
abbrev main_v179 : Ref sig .tc := ⟨.hbm, 238, rfl⟩
abbrev main_v180 : Ref sig .tc := ⟨.hbm, 239, rfl⟩
abbrev main_v181 : Ref sig .tc := ⟨.hbm, 240, rfl⟩
abbrev main_v182 : Ref sig .tc := ⟨.hbm, 241, rfl⟩
abbrev main_v183 : Ref sig .tc := ⟨.hbm, 242, rfl⟩
abbrev main_v184 : Ref sig .tc := ⟨.hbm, 243, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S128_d0 : S100000x128.ReducesTo [0] S128
  h_S_ : 0 < S_.numel
  bcast_S_S128 : S_.BroadcastsInDim S128 (![] : Fin 0 → Fin S128.rank)
  bcast_S_S256x128 : S_.BroadcastsInDim S256x128 (![] : Fin 0 → Fin S256x128.rank)
  bcast_S_S256 : S_.BroadcastsInDim S256 (![] : Fin 0 → Fin S256.rank)
  bcast_S256_S256x1_0 : S256.BroadcastsInDim S256x1 (![0] : Fin 1 → Fin S256x1.rank)
  bcast_S256x1_S256x128_0_1 : S256x1.BroadcastsInDim S256x128 (![0, 1] : Fin 2 → Fin S256x128.rank)
  concatenates_S256x128_S256x16_S256x144_d1 : Shape.Concatenates [S256x128, S256x16] S256x144 1
  bcast_S2_S1x2_1 : S2.BroadcastsInDim S1x2 (![1] : Fin 1 → Fin S1x2.rank)
  bcast_S1x2_S256x2_0_1 : S1x2.BroadcastsInDim S256x2 (![0, 1] : Fin 2 → Fin S256x2.rank)
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S100000x128_S128x128_S100000x128_1_0_0_1_n_n_wf : DotDims.WF S100000x128 S128x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S256x128_S100000x1_S100000x128_1_0_0_1_wf : ScatterDims.WF S256x128 S100000x1 S100000x128 [1] [0] [0] 1
  scatter_S256_S100000x1_S100000_n_0_0_1_wf : ScatterDims.WF S256 S100000x1 S100000 [] [0] [0] 1
  dot_S256x144_S144x2_S256x2_1_0_0_1_n_n_wf : DotDims.WF S256x144 S144x2 S256x2 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S256x128_S100000x1_S100000x128_1_0_0_1 : ScatterDims S256x128 S100000x1 S100000x128 where
  updateWindowDims := [1]
  insertedWindowDims := [0]
  scatterDimsToOperandDims := [0]
  indexVectorDim := 1
  wf := scatter_S256x128_S100000x1_S100000x128_1_0_0_1_wf
def scatter_S256_S100000x1_S100000_n_0_0_1 : ScatterDims S256 S100000x1 S100000 where
  updateWindowDims := []
  insertedWindowDims := [0]
  scatterDimsToOperandDims := [0]
  indexVectorDim := 1
  wf := scatter_S256_S100000x1_S100000_n_0_0_1_wf
def dot_S256x144_S144x2_S256x2_1_0_0_1_n_n : DotDims S256x144 S144x2 S256x2 where
  lhsContracting := [1]
  rhsContracting := [0]
  lhsNonContracting := [0]
  rhsNonContracting := [1]
  lhsBatch := []
  rhsBatch := []
  wf := dot_S256x144_S144x2_S256x2_1_0_0_1_n_n_wf

class Facts : Prop extends Facts₀ where

variable [Facts]
-- ==== Proof.KI.Reg0.lean ====
import proofs.«418928_j70858370450169_1_alg».proof.Proof.Gen.KernelIdeal.Launch
import proofs.«418928_j70858370450169_1_alg».proof.Proof.Gen.KernelIdeal.Skeleton
import proofs.«418928_j70858370450169_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

abbrev r0_0 : Rect S5000x128 := Rect.unit (s := S5000x128) ![0, 0] S5000x128.size inb_S5000x128_S5000x128_0_0
abbrev r0_1 : Rect S128x128 := Rect.unit (s := S128x128) ![0, 0] S128x128.size inb_S128x128_S128x128_0_0
abbrev r0_2 : Rect S5000x128 := Rect.unit (s := S5000x128) ![0, 0] S5000x128.size inb_S5000x128_S5000x128_0_0

def out0_2 (x0 : Vec F S5000x128 .f32) (x1 : Vec F S128x128 .f32) : Vec F S5000x128 .f32 :=
  View.canon [⟨r0_2, k0_pay1 (View.ld x0 r0_0) (View.ld x1 r0_1)⟩]

theorem cover0_2 (p0 : Vec F S5000x128 .f32) (y : S5000x128.Idx) :
    ∃ pc ∈ ([⟨r0_2, p0⟩] : List (View.Piece (Elt F) S5000x128 .f32)), y ∈ pc.1.set :=
  View.cover_of_tiled [⟨r0_2, p0⟩] S5000x128.size (by rfl) y

set_option maxHeartbeats 1000000 in

theorem sound_kernel0 (c : Dev nD) (E : Set ℕ) (i : grid0.Coords) (arg1 : Memref sig .tc .vmem S5000x128 .f32) (harg1 : arg1.IsWhole) (arg2 : Memref sig .tc .vmem S128x128 .f32) (harg2 : arg2.IsWhole) (arg3 : Memref sig .tc .vmem S5000x128 .f32) (harg3 : arg3.IsWhole)
    (x0 : Vec F S5000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

theorem hin0 (c : Dev nD) : Pipeline.ΦA spec0 c ⊢ (dat0 V c).Φ 0 := .rfl
theorem hout0 (c : Dev nD) : (dat0 V c).Φ (Fin.last cfg0.N) ⊢ Pipeline.ΦA spec0 c := .rfl

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Comb.lean ====
import proofs.«418928_j70858370450169_1_alg».proof.Proof.Gen.KernelIdeal.Launch
import proofs.«418928_j70858370450169_1_alg».proof.Proof.Gen.KernelIdeal.Skeleton
import proofs.«418928_j70858370450169_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

private theorem hz : (![0, 0] : Fin 2 → Nat) = fun _ => 0 := funext fun a => by fin_cases a <;> rfl

private theorem readCov_cons_unit_zero {Val : EltTy → Type} [∀ e, Nonempty (Val e)] {S : Shape} {e : EltTy}
    {sg : RefSig} {κ : Kind} {sp : Space} (v : View sg κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self, by
    show y ∈ (Rect.whole S).set; rw [Rect.set_whole]; exact Finset.mem_univ y⟩), View.canon_cons_unit_zero rfl, View.ld_unit_zero rfl]

abbrev cond1_0 (i : grid1.Coords) : Prop := (Scalar.cmpi .ne (Scalar.extui (Scalar.cmpi .eq (BitVec.ofNat 32 (i 0).val) 0#32)) 0#32) = 1#1

theorem hcond1_0 : ∀ t : Fin cfg1.N, cond1_0 (grid1.coords t) ↔ t.val % 20 = 0 :=
  (by decide +kernel : ∀ t : Fin grid1.N, cond1_0 (grid1.coords t) ↔ t.val % 20 = 0)

theorem hcond4_0 : ∀ t : Fin cfg4.N, cond1_0 (grid4.coords t) ↔ t.val % 20 = 0 :=
  (by decide +kernel : ∀ t : Fin grid4.N, cond1_0 (grid4.coords t) ↔ t.val % 20 = 0)
theorem hcond7_0 : ∀ t : Fin cfg7.N, cond1_0 (grid7.coords t) ↔ t.val % 20 = 0 :=
  (by decide +kernel : ∀ t : Fin grid7.N, cond1_0 (grid7.coords t) ↔ t.val % 20 = 0)

theorem cc4_eq : @cc4__combine_stats_kernel F _ = @cc1__combine_stats_kernel F _ := rfl
theorem cc7_eq : @cc7__combine_stats_kernel F _ = @cc1__combine_stats_kernel F _ := rfl

section

variable (c : Dev nD) (i : grid1.Coords) (arg1 : Memref sig .tc .vmem S5000x128 .f32) (harg1 : arg1.IsWhole) (arg2 : Memref sig .tc .vmem S5000x128 .f32) (harg2 : arg2.IsWhole) (arg3 : Memref sig .tc .vmem S5000x1 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole)
  (x0 : Vec F S5000x128 .f32) (x1 : Vec F S5000x128 .f32) (x2 : Vec F S5000x1 .f32) (x3 : Vec F S1x128 .f32)

set_option maxHeartbeats 1000000 in
noncomputable def kernelRun1_A (hc0 : cond1_0 i) :
    Σ' (L4 : List (View.Piece (Elt F) S5000x128 .f32)), Σ' (L5 : List (View.Piece (Elt F) S1x128 .f32)), Σ' (L6 : List (View.Piece (Elt F) S1x128 .f32)), Σ' (LS0 : List (View.Piece (Elt F) S1x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ (∃ d, owns (c : Thread nD τ) arg6 fullShare d) ∗ (∃ d, owns (c : Thread nD τ) arg7 fullShare d)
            ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f L4)
                ∗ (∃ f, arg6.view.loc (c : Thread nD τ) ↦[arg6.view.set]{fullShare} arg6.view.writes (Elt F) f L5)
                ∗ (∃ f, arg7.view.loc (c : Thread nD τ) ↦[arg7.view.set]{fullShare} arg7.view.writes (Elt F) f L6)
                ∗ (∃ f, arg8.view.loc (c : Thread nD τ) ↦[arg8.view.set]{fullShare} arg8.view.writes (Elt F) f LS0)
                ∗ (∃ f, arg9.view.loc (c : Thread nD τ) ↦[arg9.view.set]{fullShare} arg9.view.writes (Elt F) f LS1)) -∗ K ⟨⟩))
          ⊢ wp frame (wpE (defs₀ (F := F)) Variants.none c none) E (cc1__combine_stats_kernel i arg1 harg1 arg2 harg2 arg3 harg3 arg4 harg4 arg5 harg5 arg6 harg6 arg7 harg7 arg8 harg8 arg9 harg9) K } := by
  refine ⟨?_, ?_, ?_, ?_, ?_, fun E K => ?run⟩
  case run =>
    simp only [cc1__combine_stats_kernel_eq_skeleton]; unfold cc1__combine_stats_kernel_skel
    simp only [k1_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    isplitl [H6]; · iexists _; iexact H6
    isplitl [HS0]; · iexists _; iexact HS0
    iexists _; iexact HS1

set_option maxHeartbeats 1000000 in
noncomputable def kernelRun1_B (hc0 : ¬cond1_0 i) (xs0 : Vec F S1x128 .f32) (xs1 : Vec F S1x128 .f32) :
    Σ' (L4 : List (View.Piece (Elt F) S5000x128 .f32)), Σ' (L5 : List (View.Piece (Elt F) S1x128 .f32)), Σ' (L6 : List (View.Piece (Elt F) S1x128 .f32)), Σ' (LS0 : List (View.Piece (Elt F) S1x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ (∃ d, owns (c : Thread nD τ) arg6 fullShare d) ∗ (∃ d, owns (c : Thread nD τ) arg7 fullShare d)
            ∗ owns (c : Thread nD τ) arg8 fullShare xs0 ∗ owns (c : Thread nD τ) arg9 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f L4)
                ∗ (∃ f, arg6.view.loc (c : Thread nD τ) ↦[arg6.view.set]{fullShare} arg6.view.writes (Elt F) f L5)
                ∗ (∃ f, arg7.view.loc (c : Thread nD τ) ↦[arg7.view.set]{fullShare} arg7.view.writes (Elt F) f L6)
                ∗ (∃ f, arg8.view.loc (c : Thread nD τ) ↦[arg8.view.set]{fullShare} arg8.view.writes (Elt F) f LS0)
                ∗ (∃ f, arg9.view.loc (c : Thread nD τ) ↦[arg9.view.set]{fullShare} arg9.view.writes (Elt F) f LS1)) -∗ K ⟨⟩))
          ⊢ wp frame (wpE (defs₀ (F := F)) Variants.none c none) E (cc1__combine_stats_kernel i arg1 harg1 arg2 harg2 arg3 harg3 arg4 harg4 arg5 harg5 arg6 harg6 arg7 harg7 arg8 harg8 arg9 harg9) K } := by
  refine ⟨?_, ?_, ?_, ?_, ?_, fun E K => ?run⟩
  case run =>
    simp only [cc1__combine_stats_kernel_eq_skeleton]; unfold cc1__combine_stats_kernel_skel
    simp only [k1_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg8.eq_unread hfs0; obtain rfl := harg9.eq_unread hfs1
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    isplitl [H6]; · iexists _; iexact H6
    isplitl [HS0]; · iexists _; iexact HS0
    iexists _; iexact HS1

theorem cover1_A_4 (hc0 : cond1_0 i) (y : S5000x128.Idx) :
    ∃ pc ∈ (kernelRun1_A c i arg1 harg1 arg2 harg2 arg3 harg3 arg4 harg4 arg5 harg5 arg6 harg6 arg7 harg7 arg8 harg8 arg9 harg9 x0 x1 x2 x3 hc0).1, y ∈ pc.1.set :=
  View.cover_of_tiledL (kernelRun1_A c i arg1 harg1 arg2 harg2 arg3 harg3 arg4 harg4 arg5 harg5 arg6 harg6 arg7 harg7 arg8 harg8 arg9 harg9 x0 x1 x2 x3 hc0).1 S5000x128.size (by sl_kernel_rfl) y

theorem cover1_A_5 (hc0 : cond1_0 i) (y : S1x128.Idx) :
    ∃ pc ∈ (kernelRun1_A c i arg1 harg1 arg2 harg2 arg3 harg3 arg4 harg4 arg5 harg5 arg6 harg6 arg7 harg7 arg8 harg8 arg9 harg9 x0 x1 x2 x3 hc0).2.1, y ∈ pc.1.set :=
  View.cover_of_tiledL (kernelRun1_A c i arg1 harg1 arg2 harg2 arg3 harg3 arg4 harg4 arg5 harg5 arg6 harg6 arg7 harg7 arg8 harg8 arg9 harg9 x0 x1 x2 x3 hc0).2.1 S1x128.size (by sl_kernel_rfl) y

theorem cover1_A_6 (hc0 : cond1_0 i) (y : S1x128.Idx) :
    ∃ pc ∈ (kernelRun1_A c i arg1 harg1 arg2 harg2 arg3 harg3 arg4 harg4 arg5 harg5 arg6 harg6 arg7 harg7 arg8 harg8 arg9 harg9 x0 x1 x2 x3 hc0).2.2.1, y ∈ pc.1.set :=
  View.cover_of_tiledL (kernelRun1_A c i arg1 harg1 arg2 harg2 arg3 harg3 arg4 harg4 arg5 harg5 arg6 harg6 arg7 harg7 arg8 harg8 arg9 harg9 x0 x1 x2 x3 hc0).2.2.1 S1x128.size (by sl_kernel_rfl) y

theorem scover1_A_0 (hc0 : cond1_0 i) (y : S1x128.Idx) :
    ∃ pc ∈ (kernelRun1_A c i arg1 harg1 arg2 harg2 arg3 harg3 arg4 harg4 arg5 harg5 arg6 harg6 arg7 harg7 arg8 harg8 arg9 harg9 x0 x1 x2 x3 hc0).2.2.2.1, y ∈ pc.1.set :=
  View.cover_of_tiledL (kernelRun1_A c i arg1 harg1 arg2 harg2 arg3 harg3 arg4 harg4 arg5 harg5 arg6 harg6 arg7 harg7 arg8 harg8 arg9 harg9 x0 x1 x2 x3 hc0).2.2.2.1 S1x128.size (by sl_kernel_rfl) y

theorem scover1_A_1 (hc0 : cond1_0 i) (y : S1x128.Idx) :
    ∃ pc ∈ (kernelRun1_A c i arg1 harg1 arg2 harg2 arg3 harg3 arg4 harg4 arg5 harg5 arg6 harg6 arg7 harg7 arg8 harg8 arg9 harg9 x0 x1 x2 x3 hc0).2.2.2.2.1, y ∈ pc.1.set :=
  View.cover_of_tiledL (kernelRun1_A c i arg1 harg1 arg2 harg2 arg3 harg3 arg4 harg4 arg5 harg5 arg6 harg6 arg7 harg7 arg8 harg8 arg9 harg9 x0 x1 x2 x3 hc0).2.2.2.2.1 S1x128.size (by sl_kernel_rfl) y

theorem cover1_B_4 (hc0 : ¬cond1_0 i) (xs0 : Vec F S1x128 .f32) (xs1 : Vec F S1x128 .f32) (y : S5000x128.Idx) :
    ∃ pc ∈ (kernelRun1_B c i arg1 harg1 arg2 harg2 arg3 harg3 arg4 harg4 arg5 harg5 arg6 harg6 arg7 harg7 arg8 harg8 arg9 harg9 x0 x1 x2 x3 hc0 xs0 xs1).1, y ∈ pc.1.set :=
  View.cover_of_tiledL (kernelRun1_B c i arg1 harg1 arg2 harg2 arg3 harg3 arg4 harg4 arg5 harg5 arg6 harg6 arg7 harg7 arg8 harg8 arg9 harg9 x0 x1 x2 x3 hc0 xs0 xs1).1 S5000x128.size (by sl_kernel_rfl) y

theorem cover1_B_5 (hc0 : ¬cond1_0 i) (xs0 : Vec F S1x128 .f32) (xs1 : Vec F S1x128 .f32) (y : S1x128.Idx) :
    ∃ pc ∈ (kernelRun1_B c i arg1 harg1 arg2 harg2 arg3 harg3 arg4 harg4 arg5 harg5 arg6 harg6 arg7 harg7 arg8 harg8 arg9 harg9 x0 x1 x2 x3 hc0 xs0 xs1).2.1, y ∈ pc.1.set :=
  View.cover_of_tiledL (kernelRun1_B c i arg1 harg1 arg2 harg2 arg3 harg3 arg4 harg4 arg5 harg5 arg6 harg6 arg7 harg7 arg8 harg8 arg9 harg9 x0 x1 x2 x3 hc0 xs0 xs1).2.1 S1x128.size (by sl_kernel_rfl) y

theorem cover1_B_6 (hc0 : ¬cond1_0 i) (xs0 : Vec F S1x128 .f32) (xs1 : Vec F S1x128 .f32) (y : S1x128.Idx) :
    ∃ pc ∈ (kernelRun1_B c i arg1 harg1 arg2 harg2 arg3 harg3 arg4 harg4 arg5 harg5 arg6 harg6 arg7 harg7 arg8 harg8 arg9 harg9 x0 x1 x2 x3 hc0 xs0 xs1).2.2.1, y ∈ pc.1.set :=
  View.cover_of_tiledL (kernelRun1_B c i arg1 harg1 arg2 harg2 arg3 harg3 arg4 harg4 arg5 harg5 arg6 harg6 arg7 harg7 arg8 harg8 arg9 harg9 x0 x1 x2 x3 hc0 xs0 xs1).2.2.1 S1x128.size (by sl_kernel_rfl) y

theorem scover1_B_0 (hc0 : ¬cond1_0 i) (xs0 : Vec F S1x128 .f32) (xs1 : Vec F S1x128 .f32) (y : S1x128.Idx) :
    ∃ pc ∈ (kernelRun1_B c i arg1 harg1 arg2 harg2 arg3 harg3 arg4 harg4 arg5 harg5 arg6 harg6 arg7 harg7 arg8 harg8 arg9 harg9 x0 x1 x2 x3 hc0 xs0 xs1).2.2.2.1, y ∈ pc.1.set :=
  View.cover_of_tiledL (kernelRun1_B c i arg1 harg1 arg2 harg2 arg3 harg3 arg4 harg4 arg5 harg5 arg6 harg6 arg7 harg7 arg8 harg8 arg9 harg9 x0 x1 x2 x3 hc0 xs0 xs1).2.2.2.1 S1x128.size (by sl_kernel_rfl) y

theorem scover1_B_1 (hc0 : ¬cond1_0 i) (xs0 : Vec F S1x128 .f32) (xs1 : Vec F S1x128 .f32) (y : S1x128.Idx) :
    ∃ pc ∈ (kernelRun1_B c i arg1 harg1 arg2 harg2 arg3 harg3 arg4 harg4 arg5 harg5 arg6 harg6 arg7 harg7 arg8 harg8 arg9 harg9 x0 x1 x2 x3 hc0 xs0 xs1).2.2.2.2.1, y ∈ pc.1.set :=
  View.cover_of_tiledL (kernelRun1_B c i arg1 harg1 arg2 harg2 arg3 harg3 arg4 harg4 arg5 harg5 arg6 harg6 arg7 harg7 arg8 harg8 arg9 harg9 x0 x1 x2 x3 hc0 xs0 xs1).2.2.2.2.1 S1x128.size (by sl_kernel_rfl) y

def step1 (s : Vec F S1x128 .f32 × Vec F S1x128 .f32) : Vec F S1x128 .f32 × Vec F S1x128 .f32 :=
  (k1_pay5 x0 x2 x1 x3 s.1, k1_pay1 (k1_pay6 x0 x2 x1 x3 s.2))

def zero1 : Vec F S1x128 .f32 × Vec F S1x128 .f32 := (k1_pay2 (F := F), k1_pay3 (F := F))

theorem out1_A (hc0 : cond1_0 i) :
    View.canon (kernelRun1_A c i arg1 harg1 arg2 harg2 arg3 harg3 arg4 harg4 arg5 harg5 arg6 harg6 arg7 harg7 arg8 harg8 arg9 harg9 x0 x1 x2 x3 hc0).1 = k1_pay4 x0 x2 x1 x3
    ∧ View.canon (kernelRun1_A c i arg1 harg1 arg2 harg2 arg3 harg3 arg4 harg4 arg5 harg5 arg6 harg6 arg7 harg7 arg8 harg8 arg9 harg9 x0 x1 x2 x3 hc0).2.1 = k1_pay5 x0 x2 x1 x3 (k1_pay2 (F := F))
    ∧ View.canon (kernelRun1_A c i arg1 harg1 arg2 harg2 arg3 harg3 arg4 harg4 arg5 harg5 arg6 harg6 arg7 harg7 arg8 harg8 arg9 harg9 x0 x1 x2 x3 hc0).2.2.1 = k1_pay1 (k1_pay6 x0 x2 x1 x3 (k1_pay3 (F := F)))
    ∧ View.canon (kernelRun1_A c i arg1 harg1 arg2 harg2 arg3 harg3 arg4 harg4 arg5 harg5 arg6 harg6 arg7 harg7 arg8 harg8 arg9 harg9 x0 x1 x2 x3 hc0).2.2.2.1 = k1_pay5 x0 x2 x1 x3 (k1_pay2 (F := F))
    ∧ View.canon (kernelRun1_A c i arg1 harg1 arg2 harg2 arg3 harg3 arg4 harg4 arg5 harg5 arg6 harg6 arg7 harg7 arg8 harg8 arg9 harg9 x0 x1 x2 x3 hc0).2.2.2.2.1 = k1_pay1 (k1_pay6 x0 x2 x1 x3 (k1_pay3 (F := F))) := by
  unfold kernelRun1_A
  dsimp only
  try sl_unfold_words
  refine ⟨?_, ?_, ?_, ?_, ?_⟩ <;> simp only [View.canon_cons_unit_zero (S := S1x128) hz, View.canon_cons_unit_zero (S := S5000x128) hz, readCov_cons_unit_zero (S := S1x128) _ hz, View.readAt_eq_ld, harg1.read_unread, harg2.read_unread, harg3.read_unread, harg4.read_unread, harg8.read_unread, harg9.read_unread, View.ld_unit_zero (S := S5000x128) hz, View.ld_unit_zero (S := S5000x1) hz, View.ld_unit_zero (S := S1x128) hz]

theorem out1_B (hc0 : ¬cond1_0 i) (xs0 : Vec F S1x128 .f32) (xs1 : Vec F S1x128 .f32) :
    View.canon (kernelRun1_B c i arg1 harg1 arg2 harg2 arg3 harg3 arg4 harg4 arg5 harg5 arg6 harg6 arg7 harg7 arg8 harg8 arg9 harg9 x0 x1 x2 x3 hc0 xs0 xs1).1 = k1_pay4 x0 x2 x1 x3
    ∧ View.canon (kernelRun1_B c i arg1 harg1 arg2 harg2 arg3 harg3 arg4 harg4 arg5 harg5 arg6 harg6 arg7 harg7 arg8 harg8 arg9 harg9 x0 x1 x2 x3 hc0 xs0 xs1).2.1 = k1_pay5 x0 x2 x1 x3 xs0
    ∧ View.canon (kernelRun1_B c i arg1 harg1 arg2 harg2 arg3 harg3 arg4 harg4 arg5 harg5 arg6 harg6 arg7 harg7 arg8 harg8 arg9 harg9 x0 x1 x2 x3 hc0 xs0 xs1).2.2.1 = k1_pay1 (k1_pay6 x0 x2 x1 x3 xs1)
    ∧ View.canon (kernelRun1_B c i arg1 harg1 arg2 harg2 arg3 harg3 arg4 harg4 arg5 harg5 arg6 harg6 arg7 harg7 arg8 harg8 arg9 harg9 x0 x1 x2 x3 hc0 xs0 xs1).2.2.2.1 = k1_pay5 x0 x2 x1 x3 xs0
    ∧ View.canon (kernelRun1_B c i arg1 harg1 arg2 harg2 arg3 harg3 arg4 harg4 arg5 harg5 arg6 harg6 arg7 harg7 arg8 harg8 arg9 harg9 x0 x1 x2 x3 hc0 xs0 xs1).2.2.2.2.1 = k1_pay1 (k1_pay6 x0 x2 x1 x3 xs1) := by
  unfold kernelRun1_B
  dsimp only
  try sl_unfold_words
  refine ⟨?_, ?_, ?_, ?_, ?_⟩ <;> simp only [View.canon_cons_unit_zero (S := S1x128) hz, View.canon_cons_unit_zero (S := S5000x128) hz, readCov_cons_unit_zero (S := S1x128) _ hz, View.readAt_eq_ld, harg1.read_unread, harg2.read_unread, harg3.read_unread, harg4.read_unread, harg8.read_unread, harg9.read_unread, View.ld_unit_zero (S := S5000x128) hz, View.ld_unit_zero (S := S5000x1) hz, View.ld_unit_zero (S := S1x128) hz]

theorem sound_kernel1_A (hc0 : cond1_0 i) (E : Set ℕ) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ (∃ d, owns (c : Thread nD τ) arg5 fullShare d)
        ∗ (∃ d, owns (c : Thread nD τ) arg6 fullShare d)
        ∗ (∃ d, owns (c : Thread nD τ) arg7 fullShare d)
        ∗ (∃ d, owns (c : Thread nD τ) arg8 fullShare d)
        ∗ (∃ d, owns (c : Thread nD τ) arg9 fullShare d)
        ∗ (iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare (k1_pay4 x0 x2 x1 x3)
            ∗ owns (c : Thread nD τ) arg6 fullShare (step1 x0 x1 x2 x3 (zero1 (F := F))).1
            ∗ owns (c : Thread nD τ) arg7 fullShare (step1 x0 x1 x2 x3 (zero1 (F := F))).2
            ∗ owns (c : Thread nD τ) arg8 fullShare (step1 x0 x1 x2 x3 (zero1 (F := F))).1
            ∗ owns (c : Thread nD τ) arg9 fullShare (step1 x0 x1 x2 x3 (zero1 (F := F))).2) -∗ K ⟨⟩))
      ⊢ wp frame (wpE (defs₀ (F := F)) Variants.none c none) E (cc1__combine_stats_kernel i arg1 harg1 arg2 harg2 arg3 harg3 arg4 harg4 arg5 harg5 arg6 harg6 arg7 harg7 arg8 harg8 arg9 harg9) K := by
  iintro ⟨H0, H1, H2, H3, H4, H5, H6, HS0, HS1, Hk⟩
  iapply ((kernelRun1_A c i arg1 harg1 arg2 harg2 arg3 harg3 arg4 harg4 arg5 harg5 arg6 harg6 arg7 harg7 arg8 harg8 arg9 harg9 x0 x1 x2 x3 hc0).2.2.2.2.2 E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS0]; · iexact HS0
  isplitl [HS1]; · iexact HS1
  iintro ⟨H0, H1, H2, H3, ⟨%e4, H4⟩, ⟨%e5, H5⟩, ⟨%e6, H6⟩, ⟨%es0, HS0⟩, ⟨%es1, HS1⟩⟩
  iapply Hk
  isplitl [H0]; · iexact H0
  isplitl [H1]; · iexact H1
  isplitl [H2]; · iexact H2
  isplitl [H3]; · iexact H3
  isplitl [H4]
  · unfold owns; iexists _; isplitr
    swap; · iexact H4
    ipureintro; exact (View.read_writes_eq_canon _ _ _ (cover1_A_4 c i arg1 harg1 arg2 harg2 arg3 harg3 arg4 harg4 arg5 harg5 arg6 harg6 arg7 harg7 arg8 harg8 arg9 harg9 x0 x1 x2 x3 hc0)).trans (out1_A c i arg1 harg1 arg2 harg2 arg3 harg3 arg4 harg4 arg5 harg5 arg6 harg6 arg7 harg7 arg8 harg8 arg9 harg9 x0 x1 x2 x3 hc0).1
  isplitl [H5]
  · unfold owns; iexists _; isplitr
    swap; · iexact H5
    ipureintro; exact (View.read_writes_eq_canon _ _ _ (cover1_A_5 c i arg1 harg1 arg2 harg2 arg3 harg3 arg4 harg4 arg5 harg5 arg6 harg6 arg7 harg7 arg8 harg8 arg9 harg9 x0 x1 x2 x3 hc0)).trans (out1_A c i arg1 harg1 arg2 harg2 arg3 harg3 arg4 harg4 arg5 harg5 arg6 harg6 arg7 harg7 arg8 harg8 arg9 harg9 x0 x1 x2 x3 hc0).2.1
  isplitl [H6]
  · unfold owns; iexists _; isplitr
    swap; · iexact H6
    ipureintro; exact (View.read_writes_eq_canon _ _ _ (cover1_A_6 c i arg1 harg1 arg2 harg2 arg3 harg3 arg4 harg4 arg5 harg5 arg6 harg6 arg7 harg7 arg8 harg8 arg9 harg9 x0 x1 x2 x3 hc0)).trans (out1_A c i arg1 harg1 arg2 harg2 arg3 harg3 arg4 harg4 arg5 harg5 arg6 harg6 arg7 harg7 arg8 harg8 arg9 harg9 x0 x1 x2 x3 hc0).2.2.1
  isplitl [HS0]
  · unfold owns; iexists _; isplitr
    swap; · iexact HS0
    ipureintro; exact (View.read_writes_eq_canon _ _ _ (scover1_A_0 c i arg1 harg1 arg2 harg2 arg3 harg3 arg4 harg4 arg5 harg5 arg6 harg6 arg7 harg7 arg8 harg8 arg9 harg9 x0 x1 x2 x3 hc0)).trans (out1_A c i arg1 harg1 arg2 harg2 arg3 harg3 arg4 harg4 arg5 harg5 arg6 harg6 arg7 harg7 arg8 harg8 arg9 harg9 x0 x1 x2 x3 hc0).2.2.2.1
  unfold owns; iexists _; isplitr
  swap; · iexact HS1
  ipureintro; exact (View.read_writes_eq_canon _ _ _ (scover1_A_1 c i arg1 harg1 arg2 harg2 arg3 harg3 arg4 harg4 arg5 harg5 arg6 harg6 arg7 harg7 arg8 harg8 arg9 harg9 x0 x1 x2 x3 hc0)).trans (out1_A c i arg1 harg1 arg2 harg2 arg3 harg3 arg4 harg4 arg5 harg5 arg6 harg6 arg7 harg7 arg8 harg8 arg9 harg9 x0 x1 x2 x3 hc0).2.2.2.2

theorem sound_kernel1_B (hc0 : ¬cond1_0 i) (xs0 : Vec F S1x128 .f32) (xs1 : Vec F S1x128 .f32) (E : Set ℕ) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ (∃ d, owns (c : Thread nD τ) arg5 fullShare d)
        ∗ (∃ d, owns (c : Thread nD τ) arg6 fullShare d)
        ∗ (∃ d, owns (c : Thread nD τ) arg7 fullShare d)
        ∗ owns (c : Thread nD τ) arg8 fullShare xs0
        ∗ owns (c : Thread nD τ) arg9 fullShare xs1
        ∗ (iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare (k1_pay4 x0 x2 x1 x3)
            ∗ owns (c : Thread nD τ) arg6 fullShare (step1 x0 x1 x2 x3 (xs0, xs1)).1
            ∗ owns (c : Thread nD τ) arg7 fullShare (step1 x0 x1 x2 x3 (xs0, xs1)).2
            ∗ owns (c : Thread nD τ) arg8 fullShare (step1 x0 x1 x2 x3 (xs0, xs1)).1
            ∗ owns (c : Thread nD τ) arg9 fullShare (step1 x0 x1 x2 x3 (xs0, xs1)).2) -∗ K ⟨⟩))
      ⊢ wp frame (wpE (defs₀ (F := F)) Variants.none c none) E (cc1__combine_stats_kernel i arg1 harg1 arg2 harg2 arg3 harg3 arg4 harg4 arg5 harg5 arg6 harg6 arg7 harg7 arg8 harg8 arg9 harg9) K := by
  iintro ⟨H0, H1, H2, H3, H4, H5, H6, HS0, HS1, Hk⟩
  iapply ((kernelRun1_B c i arg1 harg1 arg2 harg2 arg3 harg3 arg4 harg4 arg5 harg5 arg6 harg6 arg7 harg7 arg8 harg8 arg9 harg9 x0 x1 x2 x3 hc0 xs0 xs1).2.2.2.2.2 E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS0]; · iexact HS0
  isplitl [HS1]; · iexact HS1
  iintro ⟨H0, H1, H2, H3, ⟨%e4, H4⟩, ⟨%e5, H5⟩, ⟨%e6, H6⟩, ⟨%es0, HS0⟩, ⟨%es1, HS1⟩⟩
  iapply Hk
  isplitl [H0]; · iexact H0
  isplitl [H1]; · iexact H1
  isplitl [H2]; · iexact H2
  isplitl [H3]; · iexact H3
  isplitl [H4]
  · unfold owns; iexists _; isplitr
    swap; · iexact H4
    ipureintro; exact (View.read_writes_eq_canon _ _ _ (cover1_B_4 c i arg1 harg1 arg2 harg2 arg3 harg3 arg4 harg4 arg5 harg5 arg6 harg6 arg7 harg7 arg8 harg8 arg9 harg9 x0 x1 x2 x3 hc0 xs0 xs1)).trans (out1_B c i arg1 harg1 arg2 harg2 arg3 harg3 arg4 harg4 arg5 harg5 arg6 harg6 arg7 harg7 arg8 harg8 arg9 harg9 x0 x1 x2 x3 hc0 xs0 xs1).1
  isplitl [H5]
  · unfold owns; iexists _; isplitr
    swap; · iexact H5
    ipureintro; exact (View.read_writes_eq_canon _ _ _ (cover1_B_5 c i arg1 harg1 arg2 harg2 arg3 harg3 arg4 harg4 arg5 harg5 arg6 harg6 arg7 harg7 arg8 harg8 arg9 harg9 x0 x1 x2 x3 hc0 xs0 xs1)).trans (out1_B c i arg1 harg1 arg2 harg2 arg3 harg3 arg4 harg4 arg5 harg5 arg6 harg6 arg7 harg7 arg8 harg8 arg9 harg9 x0 x1 x2 x3 hc0 xs0 xs1).2.1
  isplitl [H6]
  · unfold owns; iexists _; isplitr
    swap; · iexact H6
    ipureintro; exact (View.read_writes_eq_canon _ _ _ (cover1_B_6 c i arg1 harg1 arg2 harg2 arg3 harg3 arg4 harg4 arg5 harg5 arg6 harg6 arg7 harg7 arg8 harg8 arg9 harg9 x0 x1 x2 x3 hc0 xs0 xs1)).trans (out1_B c i arg1 harg1 arg2 harg2 arg3 harg3 arg4 harg4 arg5 harg5 arg6 harg6 arg7 harg7 arg8 harg8 arg9 harg9 x0 x1 x2 x3 hc0 xs0 xs1).2.2.1
  isplitl [HS0]
  · unfold owns; iexists _; isplitr
    swap; · iexact HS0
    ipureintro; exact (View.read_writes_eq_canon _ _ _ (scover1_B_0 c i arg1 harg1 arg2 harg2 arg3 harg3 arg4 harg4 arg5 harg5 arg6 harg6 arg7 harg7 arg8 harg8 arg9 harg9 x0 x1 x2 x3 hc0 xs0 xs1)).trans (out1_B c i arg1 harg1 arg2 harg2 arg3 harg3 arg4 harg4 arg5 harg5 arg6 harg6 arg7 harg7 arg8 harg8 arg9 harg9 x0 x1 x2 x3 hc0 xs0 xs1).2.2.2.1
  unfold owns; iexists _; isplitr
  swap; · iexact HS1
  ipureintro; exact (View.read_writes_eq_canon _ _ _ (scover1_B_1 c i arg1 harg1 arg2 harg2 arg3 harg3 arg4 harg4 arg5 harg5 arg6 harg6 arg7 harg7 arg8 harg8 arg9 harg9 x0 x1 x2 x3 hc0 xs0 xs1)).trans (out1_B c i arg1 harg1 arg2 harg2 arg3 harg3 arg4 harg4 arg5 harg5 arg6 harg6 arg7 harg7 arg8 harg8 arg9 harg9 x0 x1 x2 x3 hc0 xs0 xs1).2.2.2.2

end

end Cert.KernelIdeal.Hand

end
-- ==== Proof.KI.Reg1.lean ====
import proofs.«418928_j70858370450169_1_alg».proof.Proof.KI.Comb

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

abbrev scM1_0 : Memref sig .tc .vmem S1x128 .f32 := Memref.whole cc1_scratch0
abbrev scM1_1 : Memref sig .tc .vmem S1x128 .f32 := Memref.whole cc1_scratch1

theorem PhiA1_eq (c : Dev nD) :
    (Pipeline.ΦA spec1 c : sProp 𝕄)
      = iprop(iprop(iprop((∃ d, owns (c : Thread nD τ) scM1_0 fullShare d) ∗ (∃ d, owns (c : Thread nD τ) scM1_1 fullShare d))
          ∗ Pipeline.scopedRestBut (Ix := Unit) (Name := ℕ) (U := UR sig nD τ) (Lvl := ℕ) (Val := Elt F) spec1 c [cc1_scratch0, cc1_scratch1]) ∗ (∃ r, prngReg c r)) := by
  unfold Pipeline.ΦA; rw [scopedRest1_split]; simp only [scM1_0, scM1_1, owns_whole]; try rfl

def acc1 (c : Dev nD) : (n : ℕ) → n < cfg1.N → Vec F S1x128 .f32 × Vec F S1x128 .f32
  | 0, hn => step1 (iblk1 V c 0 ⟨0, hn⟩) (iblk1 V c 1 ⟨0, hn⟩) (iblk1 V c 2 ⟨0, hn⟩) (iblk1 V c 3 ⟨0, hn⟩) (zero1 (F := F))
  | n + 1, hn => step1 (iblk1 V c 0 ⟨n + 1, hn⟩) (iblk1 V c 1 ⟨n + 1, hn⟩) (iblk1 V c 2 ⟨n + 1, hn⟩) (iblk1 V c 3 ⟨n + 1, hn⟩) (acc1 c n (Nat.lt_of_succ_lt hn))

theorem acc1_first (c : Dev nD) (t : Fin cfg1.N) (h : t.val = 0) :
    acc1 V c t.val t.isLt = step1 (iblk1 V c 0 t) (iblk1 V c 1 t) (iblk1 V c 2 t) (iblk1 V c 3 t) (zero1 (F := F)) := by
  obtain ⟨n, hn⟩ := t
  cases n with
  | zero => rfl
  | succ n => exact absurd h (Nat.succ_ne_zero _)

theorem acc1_later (c : Dev nD) (t : Fin cfg1.N) (h : t.val ≠ 0) :
    acc1 V c t.val t.isLt = step1 (iblk1 V c 0 t) (iblk1 V c 1 t) (iblk1 V c 2 t) (iblk1 V c 3 t) (acc1 V c (t.val - 1) (Nat.lt_of_le_of_lt (Nat.sub_le _ _) t.isLt)) := by
  obtain ⟨n, hn⟩ := t
  cases n with
  | zero => exact absurd rfl h
  | succ n => rfl

def PhiS1 (c : Dev nD) : (n : ℕ) → n ≤ cfg1.N → sProp 𝕄
  | 0, _ => Pipeline.ΦA spec1 c
  | n + 1, hn => iprop(iprop(iprop(owns (c : Thread nD τ) scM1_0 fullShare (acc1 V c n hn).1 ∗ owns (c : Thread nD τ) scM1_1 fullShare (acc1 V c n hn).2)
      ∗ Pipeline.scopedRestBut (Ix := Unit) (Name := ℕ) (U := UR sig nD τ) (Lvl := ℕ) (Val := Elt F) spec1 c [cc1_scratch0, cc1_scratch1]) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(iprop(owns (c : Thread nD τ) scM1_0 fullShare (acc1 V c n hn).1 ∗ owns (c : Thread nD τ) scM1_1 fullShare (acc1 V c n hn).2)
      ∗ Pipeline.scopedRestBut (Ix := Unit) (Name := ℕ) (U := UR sig nD τ) (Lvl := ℕ) (Val := Elt F) spec1 c [cc1_scratch0, cc1_scratch1]) ∗ (∃ r, prngReg c r)) := rfl

theorem PhiS1_pos (c : Dev nD) (n : ℕ) (h : n ≤ cfg1.N) (hz : n ≠ 0) :
    PhiS1 V c n h = iprop(iprop(iprop(owns (c : Thread nD τ) scM1_0 fullShare (acc1 V c (n - 1) (by omega)).1 ∗ owns (c : Thread nD τ) scM1_1 fullShare (acc1 V c (n - 1) (by omega)).2)
      ∗ Pipeline.scopedRestBut (Ix := Unit) (Name := ℕ) (U := UR sig nD τ) (Lvl := ℕ) (Val := Elt F) spec1 c [cc1_scratch0, cc1_scratch1]) ∗ (∃ r, prngReg c r)) := by
  cases n with
  | zero => exact absurd rfl hz
  | succ n => rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => k1_pay4 (iblk1 V c 0 t) (iblk1 V c 2 t) (iblk1 V c 1 t) (iblk1 V c 3 t)
    | ⟨5, _⟩ => (acc1 V c t.val t.isLt).1
    | ⟨6, _⟩ => (acc1 V c t.val t.isLt).2
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = k1_pay4 (iblk1 V c 0 t) (iblk1 V c 2 t) (iblk1 V c 1 t) (iblk1 V c 3 t) := by dsimp only [dat1]
theorem after1_5 (c : Dev nD) (t : Fin cfg1.N) : (dat1 V c).after 5 t = (acc1 V c t.val t.isLt).1 := by dsimp only [dat1]
theorem after1_6 (c : Dev nD) (t : Fin cfg1.N) : (dat1 V c).after 6 t = (acc1 V c t.val t.isLt).2 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

set_option maxHeartbeats 4000000 in

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  rw [after1_0, after1_1, after1_2, after1_3, after1_4, after1_5, after1_6]
  rw [PhiS1_castSucc V c t]
  by_cases hz0 : t.val = 0
  · rw [PhiS1_zero V c _ _ hz0, PhiA1_eq, acc1_first V c t hz0]
    iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩⟩
    iapply (sound_kernel1_A c (grid1.coords t) _ _ _ _ _ _ _ _ _ _ _ _ _ _ _ _ _ _ (iblk1 V c 0 t) (iblk1 V c 1 t) (iblk1 V c 2 t) (iblk1 V c 3 t) ((hcond1_0 t).mpr (by rw [hz0])) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [HS0]; · iexact HS0
    isplitl [HS1]; · iexact HS1
    iintro ⟨H0, H1, H2, H3, H4, H5, H6, HS0, HS1⟩
    isplitl [HS0 HS1 HR Hg]
    · isplitl [HS0 HS1 HR]
      · isplitl [HS0 HS1]
        · isplitl [HS0]; · iexact HS0
          iexact HS1
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · rw [PhiS1_pos V c _ _ hz0, acc1_later V c t hz0]
    iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩⟩
    iapply (sound_kernel1_B c (grid1.coords t) _ _ _ _ _ _ _ _ _ _ _ _ _ _ _ _ _ _ (iblk1 V c 0 t) (iblk1 V c 1 t) (iblk1 V c 2 t) (iblk1 V c 3 t) (fun h => hz0 (by have h1 := (hcond1_0 t).mp h; have h2 := t.isLt; have h3 : cfg1.N = 20 := N_1; omega)) _ _ Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [HS0]; · iexact HS0
    isplitl [HS1]; · iexact HS1
    iintro ⟨H0, H1, H2, H3, H4, H5, H6, HS0, HS1⟩
    isplitl [HS0 HS1 HR Hg]
    · isplitl [HS0 HS1 HR]
      · isplitl [HS0 HS1]
        · isplitl [HS0]; · iexact HS0
          iexact HS1
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

theorem Phi1_out (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨⟨HS0, HS1⟩, HR⟩, Hg⟩
  isplitl [HS0 HS1 HR]
  · isplitl [HS0 HS1]
    · isplitl [HS0]; · iexists _; iexact HS0
      iexists _; iexact HS1
    iexact HR
  iexact Hg

theorem hout1 (c : Dev nD) : (dat1 V c).Φ (Fin.last cfg1.N) ⊢ Pipeline.ΦA spec1 c :=
  Phi1_out V c _ (by rw [Fin.val_last]; have : cfg1.N = 20 := N_1; omega)

end Cert.KernelIdeal.Hand

end
-- ==== Proof.KI.Norm.lean ====
import proofs.«418928_j70858370450169_1_alg».proof.Proof.Gen.KernelIdeal.Launch
import proofs.«418928_j70858370450169_1_alg».proof.Proof.Gen.KernelIdeal.Skeleton
import proofs.«418928_j70858370450169_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev r2_0 : Rect S5000x128 := Rect.unit (s := S5000x128) ![0, 0] S5000x128.size inb_S5000x128_S5000x128_0_0
abbrev r2_1 : Rect S1x128 := Rect.unit (s := S1x128) ![0, 0] S1x128.size inb_S1x128_S1x128_0_0

def out2_3 (x0 : Vec F S5000x128 .f32) (x1 : Vec F S1x128 .f32) (x2 : Vec F S1x128 .f32) : Vec F S5000x128 .f32 :=
  View.canon [⟨r2_0, k2_pay1 (View.ld x0 r2_0) (View.ld x1 r2_1) (View.ld x2 r2_1)⟩]

theorem cover2_3 (p0 : Vec F S5000x128 .f32) (y : S5000x128.Idx) :
    ∃ pc ∈ ([⟨r2_0, p0⟩] : List (View.Piece (Elt F) S5000x128 .f32)), y ∈ pc.1.set :=
  View.cover_of_tiled [⟨r2_0, p0⟩] S5000x128.size (by rfl) y

set_option maxHeartbeats 1000000 in
theorem sound_kernel2 (c : Dev nD) (E : Set ℕ) (i : grid2.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S5000x128 .f32) (harg4 : arg4.IsWhole)
    (x0 : Vec F S5000x128 .f32) (x1 : Vec F S1x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out2_3 x0 x1 x2)) -∗ K ⟨⟩))
      ⊢ wp frame (wpE (defs₀ (F := F)) Variants.none c none) E (cc2__normalize_kernel i arg1 harg1 arg2 harg2 arg3 harg3 arg4 harg4) K := by
  simp only [cc2__normalize_kernel_eq_skeleton]; unfold cc2__normalize_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

theorem cc5_eq : @cc5__normalize_kernel F _ = @cc2__normalize_kernel F _ := rfl
theorem cc8_eq : @cc8__normalize_kernel F _ = @cc2__normalize_kernel F _ := rfl

end Cert.KernelIdeal.Hand

end
-- ==== Proof.KI.Reg2.lean ====
import proofs.«418928_j70858370450169_1_alg».proof.Proof.KI.Norm

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation2 (c : Dev nD) : BodyObligation (dat2 (F := F) V c) (defs₀ (F := F)) Variants.none () Set.univ := fun t => by
  rw [bigSep_W2, bigSep_W2]
  exact sound_body2 V c t

theorem hin2 (c : Dev nD) : Pipeline.ΦA spec2 c ⊢ (dat2 V c).Φ 0 := .rfl

theorem hout2 (c : Dev nD) : (dat2 V c).Φ (Fin.last cfg2.N) ⊢ Pipeline.ΦA spec2 c := .rfl

end Cert.KernelIdeal.Hand

end
-- ==== Proof.KI.Reg3.lean ====
import proofs.«418928_j70858370450169_1_alg».proof.Proof.Gen.KernelIdeal.Launch
import proofs.«418928_j70858370450169_1_alg».proof.Proof.Gen.KernelIdeal.Skeleton
import proofs.«418928_j70858370450169_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

abbrev r3_0 : Rect S5000x128 := Rect.unit (s := S5000x128) ![0, 0] S5000x128.size inb_S5000x128_S5000x128_0_0
abbrev r3_1 : Rect S128x128 := Rect.unit (s := S128x128) ![0, 0] S128x128.size inb_S128x128_S128x128_0_0
abbrev r3_2 : Rect S5000x128 := Rect.unit (s := S5000x128) ![0, 0] S5000x128.size inb_S5000x128_S5000x128_0_0

def out3_2 (x0 : Vec F S5000x128 .f32) (x1 : Vec F S128x128 .f32) : Vec F S5000x128 .f32 :=
  View.canon [⟨r3_2, k3_pay1 (View.ld x0 r3_0) (View.ld x1 r3_1)⟩]

theorem cover3_2 (p0 : Vec F S5000x128 .f32) (y : S5000x128.Idx) :
    ∃ pc ∈ ([⟨r3_2, p0⟩] : List (View.Piece (Elt F) S5000x128 .f32)), y ∈ pc.1.set :=
  View.cover_of_tiled [⟨r3_2, p0⟩] S5000x128.size (by rfl) y

set_option maxHeartbeats 1000000 in

theorem sound_kernel3 (c : Dev nD) (E : Set ℕ) (i : grid3.Coords) (arg1 : Memref sig .tc .vmem S5000x128 .f32) (harg1 : arg1.IsWhole) (arg2 : Memref sig .tc .vmem S128x128 .f32) (harg2 : arg2.IsWhole) (arg3 : Memref sig .tc .vmem S5000x128 .f32) (harg3 : arg3.IsWhole)
    (x0 : Vec F S5000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out3_2 x0 x1)) -∗ K ⟨⟩))
      ⊢ wp frame (wpE (defs₀ (F := F)) Variants.none c none) E (cc3__matmul_kernel i arg1 harg1 arg2 harg2 arg3 harg3) K := by
  simp only [cc3__matmul_kernel_eq_skeleton]; unfold cc3__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

theorem hin3 (c : Dev nD) : Pipeline.ΦA spec3 c ⊢ (dat3 V c).Φ 0 := .rfl
theorem hout3 (c : Dev nD) : (dat3 V c).Φ (Fin.last cfg3.N) ⊢ Pipeline.ΦA spec3 c := .rfl

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.KI.Reg4.lean ====
import proofs.«418928_j70858370450169_1_alg».proof.Proof.KI.Comb

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

abbrev scM4_0 : Memref sig .tc .vmem S1x128 .f32 := Memref.whole cc4_scratch0
abbrev scM4_1 : Memref sig .tc .vmem S1x128 .f32 := Memref.whole cc4_scratch1

theorem PhiA4_eq (c : Dev nD) :
    (Pipeline.ΦA spec4 c : sProp 𝕄)
      = iprop(iprop(iprop((∃ d, owns (c : Thread nD τ) scM4_0 fullShare d) ∗ (∃ d, owns (c : Thread nD τ) scM4_1 fullShare d))
          ∗ Pipeline.scopedRestBut (Ix := Unit) (Name := ℕ) (U := UR sig nD τ) (Lvl := ℕ) (Val := Elt F) spec4 c [cc4_scratch0, cc4_scratch1]) ∗ (∃ r, prngReg c r)) := by
  unfold Pipeline.ΦA; rw [scopedRest4_split]; simp only [scM4_0, scM4_1, owns_whole]; try rfl

def acc4 (c : Dev nD) : (n : ℕ) → n < cfg4.N → Vec F S1x128 .f32 × Vec F S1x128 .f32
  | 0, hn => step1 (iblk4 V c 0 ⟨0, hn⟩) (iblk4 V c 1 ⟨0, hn⟩) (iblk4 V c 2 ⟨0, hn⟩) (iblk4 V c 3 ⟨0, hn⟩) (zero1 (F := F))
  | n + 1, hn => step1 (iblk4 V c 0 ⟨n + 1, hn⟩) (iblk4 V c 1 ⟨n + 1, hn⟩) (iblk4 V c 2 ⟨n + 1, hn⟩) (iblk4 V c 3 ⟨n + 1, hn⟩) (acc4 c n (Nat.lt_of_succ_lt hn))

theorem acc4_first (c : Dev nD) (t : Fin cfg4.N) (h : t.val = 0) :
    acc4 V c t.val t.isLt = step1 (iblk4 V c 0 t) (iblk4 V c 1 t) (iblk4 V c 2 t) (iblk4 V c 3 t) (zero1 (F := F)) := by
  obtain ⟨n, hn⟩ := t
  cases n with
  | zero => rfl
  | succ n => exact absurd h (Nat.succ_ne_zero _)

theorem acc4_later (c : Dev nD) (t : Fin cfg4.N) (h : t.val ≠ 0) :
    acc4 V c t.val t.isLt = step1 (iblk4 V c 0 t) (iblk4 V c 1 t) (iblk4 V c 2 t) (iblk4 V c 3 t) (acc4 V c (t.val - 1) (Nat.lt_of_le_of_lt (Nat.sub_le _ _) t.isLt)) := by
  obtain ⟨n, hn⟩ := t
  cases n with
  | zero => exact absurd rfl h
  | succ n => rfl

def PhiS4 (c : Dev nD) : (n : ℕ) → n ≤ cfg4.N → sProp 𝕄
  | 0, _ => Pipeline.ΦA spec4 c
  | n + 1, hn => iprop(iprop(iprop(owns (c : Thread nD τ) scM4_0 fullShare (acc4 V c n hn).1 ∗ owns (c : Thread nD τ) scM4_1 fullShare (acc4 V c n hn).2)
      ∗ Pipeline.scopedRestBut (Ix := Unit) (Name := ℕ) (U := UR sig nD τ) (Lvl := ℕ) (Val := Elt F) spec4 c [cc4_scratch0, cc4_scratch1]) ∗ (∃ r, prngReg c r))

theorem PhiS4_zero (c : Dev nD) (n : ℕ) (h : n ≤ cfg4.N) (hz : n = 0) : PhiS4 V c n h = Pipeline.ΦA spec4 c := by
  subst hz; rfl

theorem PhiS4_succ (c : Dev nD) (n : ℕ) (hn : n < cfg4.N) :
    PhiS4 V c (n + 1) hn = iprop(iprop(iprop(owns (c : Thread nD τ) scM4_0 fullShare (acc4 V c n hn).1 ∗ owns (c : Thread nD τ) scM4_1 fullShare (acc4 V c n hn).2)
      ∗ Pipeline.scopedRestBut (Ix := Unit) (Name := ℕ) (U := UR sig nD τ) (Lvl := ℕ) (Val := Elt F) spec4 c [cc4_scratch0, cc4_scratch1]) ∗ (∃ r, prngReg c r)) := rfl

theorem PhiS4_pos (c : Dev nD) (n : ℕ) (h : n ≤ cfg4.N) (hz : n ≠ 0) :
    PhiS4 V c n h = iprop(iprop(iprop(owns (c : Thread nD τ) scM4_0 fullShare (acc4 V c (n - 1) (by omega)).1 ∗ owns (c : Thread nD τ) scM4_1 fullShare (acc4 V c (n - 1) (by omega)).2)
      ∗ Pipeline.scopedRestBut (Ix := Unit) (Name := ℕ) (U := UR sig nD τ) (Lvl := ℕ) (Val := Elt F) spec4 c [cc4_scratch0, cc4_scratch1]) ∗ (∃ r, prngReg c r)) := by
  cases n with
  | zero => exact absurd rfl hz
  | succ n => rfl

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => k1_pay4 (iblk4 V c 0 t) (iblk4 V c 2 t) (iblk4 V c 1 t) (iblk4 V c 3 t)
    | ⟨5, _⟩ => (acc4 V c t.val t.isLt).1
    | ⟨6, _⟩ => (acc4 V c t.val t.isLt).2
  Φ t := PhiS4 V c t.val (Nat.le_of_lt_succ t.isLt)
  q _ := fullShare
  owed _ := 0

theorem A_eq4 (c : Dev nD) (w : Fin cfg4.W) : (dat4 V c).A w = V c (Pipeline.arrRef spec4 w) := by
  dsimp only [dat4]

theorem PhiS4_castSucc (c : Dev nD) (t : Fin cfg4.N) :
    (dat4 V c).Φ t.castSucc = PhiS4 V c t.val (Nat.le_of_lt t.isLt) := by
  dsimp only [dat4]; simp only [Fin.coe_castSucc]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = k1_pay4 (iblk4 V c 0 t) (iblk4 V c 2 t) (iblk4 V c 1 t) (iblk4 V c 3 t) := by dsimp only [dat4]
theorem after4_5 (c : Dev nD) (t : Fin cfg4.N) : (dat4 V c).after 5 t = (acc4 V c t.val t.isLt).1 := by dsimp only [dat4]
theorem after4_6 (c : Dev nD) (t : Fin cfg4.N) : (dat4 V c).after 6 t = (acc4 V c t.val t.isLt).2 := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d))
    ∗ (∃ d, owns (c : Thread nD τ) (st4_6 t) fullShare ((dat4 V c).before 6 t d)))

def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t)
    ∗ owns (c : Thread nD τ) (st4_6 t) fullShare ((dat4 V c).after 6 t))

set_option maxHeartbeats 4000000 in

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4; rw [cc4_eq]
  simp only [before4_0, before4_1, before4_2, before4_3]
  rw [show (dat4 V c).owesAt () t.succ = (dat4 V c).owesAt () t.castSucc from rfl]
  rw [show (dat4 V c).Φ t.succ = PhiS4 V c (t.val + 1) t.isLt from rfl, PhiS4_succ]
  rw [after4_0, after4_1, after4_2, after4_3, after4_4, after4_5, after4_6]
  rw [PhiS4_castSucc V c t]
  by_cases hz0 : t.val = 0
  · rw [PhiS4_zero V c _ _ hz0, PhiA4_eq, acc4_first V c t hz0]
    iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩⟩
    iapply (sound_kernel1_A c (grid4.coords t) _ _ _ _ _ _ _ _ _ _ _ _ _ _ _ _ _ _ (iblk4 V c 0 t) (iblk4 V c 1 t) (iblk4 V c 2 t) (iblk4 V c 3 t) ((hcond4_0 t).mpr (by rw [hz0])) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [HS0]; · iexact HS0
    isplitl [HS1]; · iexact HS1
    iintro ⟨H0, H1, H2, H3, H4, H5, H6, HS0, HS1⟩
    isplitl [HS0 HS1 HR Hg]
    · isplitl [HS0 HS1 HR]
      · isplitl [HS0 HS1]
        · isplitl [HS0]; · iexact HS0
          iexact HS1
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · rw [PhiS4_pos V c _ _ hz0, acc4_later V c t hz0]
    iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩⟩
    iapply (sound_kernel1_B c (grid4.coords t) _ _ _ _ _ _ _ _ _ _ _ _ _ _ _ _ _ _ (iblk4 V c 0 t) (iblk4 V c 1 t) (iblk4 V c 2 t) (iblk4 V c 3 t) (fun h => hz0 (by have h1 := (hcond4_0 t).mp h; have h2 := t.isLt; have h3 : cfg4.N = 20 := N_4; omega)) _ _ Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [HS0]; · iexact HS0
    isplitl [HS1]; · iexact HS1
    iintro ⟨H0, H1, H2, H3, H4, H5, H6, HS0, HS1⟩
    isplitl [HS0 HS1 HR Hg]
    · isplitl [HS0 HS1 HR]
      · isplitl [HS0 HS1]
        · isplitl [HS0]; · iexact HS0
          iexact HS1
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

theorem body_obligation4 (c : Dev nD) : BodyObligation (dat4 (F := F) V c) (defs₀ (F := F)) Variants.none () Set.univ := fun t => by
  rw [bigSep_W4, bigSep_W4]
  exact sound_body4 V c t

theorem hin4 (c : Dev nD) : Pipeline.ΦA spec4 c ⊢ (dat4 V c).Φ 0 := by
  rw [show (dat4 V c).Φ 0 = PhiS4 V c 0 (Nat.zero_le _) from rfl, PhiS4_zero V c 0 _ rfl]
  try exact Idealize.SL.BI.Entails.refl _

theorem Phi4_out (c : Dev nD) (t : Fin (cfg4.N + 1)) (ht : t.val ≠ 0) : (dat4 V c).Φ t ⊢ Pipeline.ΦA spec4 c := by
  rw [show (dat4 V c).Φ t = PhiS4 V c t.val (Nat.le_of_lt_succ t.isLt) from rfl, PhiS4_pos V c _ _ ht, PhiA4_eq]
  iintro ⟨⟨⟨HS0, HS1⟩, HR⟩, Hg⟩
  isplitl [HS0 HS1 HR]
  · isplitl [HS0 HS1]
    · isplitl [HS0]; · iexists _; iexact HS0
      iexists _; iexact HS1
    iexact HR
  iexact Hg

theorem hout4 (c : Dev nD) : (dat4 V c).Φ (Fin.last cfg4.N) ⊢ Pipeline.ΦA spec4 c :=
  Phi4_out V c _ (by rw [Fin.val_last]; have : cfg4.N = 20 := N_4; omega)

end Cert.KernelIdeal.Hand

end
-- ==== Proof.KI.Reg5.lean ====
import proofs.«418928_j70858370450169_1_alg».proof.Proof.KI.Norm

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => out2_3 (iblk5 V c 0 t) (iblk5 V c 1 t) (iblk5 V c 2 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = out2_3 (iblk5 V c 0 t) (iblk5 V c 1 t) (iblk5 V c 2 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d

def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d)))

def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t))

theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5; rw [cc5_eq]
  simp only [before5_0, before5_1, before5_2]
  rw [show (dat5 V c).Φ t.succ = (dat5 V c).Φ t.castSucc from rfl,
    show (dat5 V c).owesAt () t.succ = (dat5 V c).owesAt () t.castSucc from rfl,
    after5_0, after5_1, after5_2, after5_3]
  iintro ⟨HΦ, Ho, ⟨%d0, H0⟩, ⟨%d1, H1⟩, ⟨%d2, H2⟩, ⟨%d3, H3⟩⟩
  iapply (sound_kernel2 c Set.univ _ _ _ _ _ _ _ _ _ (iblk5 V c 0 t) (iblk5 V c 1 t) (iblk5 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation5 (c : Dev nD) : BodyObligation (dat5 (F := F) V c) (defs₀ (F := F)) Variants.none () Set.univ := fun t => by
  rw [bigSep_W5, bigSep_W5]
  exact sound_body5 V c t

theorem hin5 (c : Dev nD) : Pipeline.ΦA spec5 c ⊢ (dat5 V c).Φ 0 := .rfl

theorem hout5 (c : Dev nD) : (dat5 V c).Φ (Fin.last cfg5.N) ⊢ Pipeline.ΦA spec5 c := .rfl

end Cert.KernelIdeal.Hand

end
-- ==== Proof.KI.Reg6.lean ====
import proofs.«418928_j70858370450169_1_alg».proof.Proof.Gen.KernelIdeal.Launch
import proofs.«418928_j70858370450169_1_alg».proof.Proof.Gen.KernelIdeal.Skeleton
import proofs.«418928_j70858370450169_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

abbrev r6_0 : Rect S5000x128 := Rect.unit (s := S5000x128) ![0, 0] S5000x128.size inb_S5000x128_S5000x128_0_0
abbrev r6_1 : Rect S128x128 := Rect.unit (s := S128x128) ![0, 0] S128x128.size inb_S128x128_S128x128_0_0
abbrev r6_2 : Rect S5000x128 := Rect.unit (s := S5000x128) ![0, 0] S5000x128.size inb_S5000x128_S5000x128_0_0

def out6_2 (x0 : Vec F S5000x128 .f32) (x1 : Vec F S128x128 .f32) : Vec F S5000x128 .f32 :=
  View.canon [⟨r6_2, k6_pay1 (View.ld x0 r6_0) (View.ld x1 r6_1)⟩]

theorem cover6_2 (p0 : Vec F S5000x128 .f32) (y : S5000x128.Idx) :
    ∃ pc ∈ ([⟨r6_2, p0⟩] : List (View.Piece (Elt F) S5000x128 .f32)), y ∈ pc.1.set :=
  View.cover_of_tiled [⟨r6_2, p0⟩] S5000x128.size (by rfl) y

set_option maxHeartbeats 1000000 in

theorem sound_kernel6 (c : Dev nD) (E : Set ℕ) (i : grid6.Coords) (arg1 : Memref sig .tc .vmem S5000x128 .f32) (harg1 : arg1.IsWhole) (arg2 : Memref sig .tc .vmem S128x128 .f32) (harg2 : arg2.IsWhole) (arg3 : Memref sig .tc .vmem S5000x128 .f32) (harg3 : arg3.IsWhole)
    (x0 : Vec F S5000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out6_2 x0 x1)) -∗ K ⟨⟩))
      ⊢ wp frame (wpE (defs₀ (F := F)) Variants.none c none) E (cc6__matmul_kernel i arg1 harg1 arg2 harg2 arg3 harg3) K := by
  simp only [cc6__matmul_kernel_eq_skeleton]; unfold cc6__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover6_2 _)

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => out6_2 (iblk6 V c 0 t) (iblk6 V c 1 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = out6_2 (iblk6 V c 0 t) (iblk6 V c 1 t) := by dsimp only [dat6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d

theorem hin6 (c : Dev nD) : Pipeline.ΦA spec6 c ⊢ (dat6 V c).Φ 0 := .rfl
theorem hout6 (c : Dev nD) : (dat6 V c).Φ (Fin.last cfg6.N) ⊢ Pipeline.ΦA spec6 c := .rfl

def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d)))

def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t))

theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1]
  rw [show (dat6 V c).Φ t.succ = (dat6 V c).Φ t.castSucc from rfl,
    show (dat6 V c).owesAt () t.succ = (dat6 V c).owesAt () t.castSucc from rfl,
    after6_0, after6_1, after6_2]
  iintro ⟨HΦ, Ho, ⟨%d0, H0⟩, ⟨%d1, H1⟩, ⟨%d2, H2⟩⟩
  iapply (sound_kernel6 c Set.univ _ _ _ _ _ _ _ (iblk6 V c 0 t) (iblk6 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation6 (c : Dev nD) : BodyObligation (dat6 (F := F) V c) (defs₀ (F := F)) Variants.none () Set.univ := fun t => by
  rw [bigSep_W6, bigSep_W6]
  exact sound_body6 V c t

end Cert.KernelIdeal.Hand

end
-- ==== Proof.KI.Reg7.lean ====
import proofs.«418928_j70858370450169_1_alg».proof.Proof.KI.Comb

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

theorem before7_3_of {c : Dev nD} (dat : Dat τ (Elt F) Unit ℕ (UR sig nD τ) ℕ cfg7 c) (hA : dat.A 3 = V c (Pipeline.arrRef spec7 3))
    (hafter : ∀ t, dat.after 3 t = iblk7 V c 3 t) (t : Fin cfg7.N) (d) : dat.before 3 t d = iblk7 V c 3 t :=
  (dat.before_in_eq_fetched 3 rfl (fun _ => rfl) (fun _ _ _ => rfl) (fun t => by rw [hafter]; unfold Dat.blockOf iblk7; rw [hA]; try rfl) t d).trans
    (by unfold Dat.fetched Dat.blockOf iblk7; rw [hA]; try rfl)

abbrev scM7_0 : Memref sig .tc .vmem S1x128 .f32 := Memref.whole cc7_scratch0
abbrev scM7_1 : Memref sig .tc .vmem S1x128 .f32 := Memref.whole cc7_scratch1

theorem PhiA7_eq (c : Dev nD) :
    (Pipeline.ΦA spec7 c : sProp 𝕄)
      = iprop(iprop(iprop((∃ d, owns (c : Thread nD τ) scM7_0 fullShare d) ∗ (∃ d, owns (c : Thread nD τ) scM7_1 fullShare d))
          ∗ Pipeline.scopedRestBut (Ix := Unit) (Name := ℕ) (U := UR sig nD τ) (Lvl := ℕ) (Val := Elt F) spec7 c [cc7_scratch0, cc7_scratch1]) ∗ (∃ r, prngReg c r)) := by
  unfold Pipeline.ΦA; rw [scopedRest7_split]; simp only [scM7_0, scM7_1, owns_whole]; try rfl

def acc7 (c : Dev nD) : (n : ℕ) → n < cfg7.N → Vec F S1x128 .f32 × Vec F S1x128 .f32
  | 0, hn => step1 (iblk7 V c 0 ⟨0, hn⟩) (iblk7 V c 1 ⟨0, hn⟩) (iblk7 V c 2 ⟨0, hn⟩) (iblk7 V c 3 ⟨0, hn⟩) (zero1 (F := F))
  | n + 1, hn => step1 (iblk7 V c 0 ⟨n + 1, hn⟩) (iblk7 V c 1 ⟨n + 1, hn⟩) (iblk7 V c 2 ⟨n + 1, hn⟩) (iblk7 V c 3 ⟨n + 1, hn⟩) (acc7 c n (Nat.lt_of_succ_lt hn))

theorem acc7_first (c : Dev nD) (t : Fin cfg7.N) (h : t.val = 0) :
    acc7 V c t.val t.isLt = step1 (iblk7 V c 0 t) (iblk7 V c 1 t) (iblk7 V c 2 t) (iblk7 V c 3 t) (zero1 (F := F)) := by
  obtain ⟨n, hn⟩ := t
  cases n with
  | zero => rfl
  | succ n => exact absurd h (Nat.succ_ne_zero _)

theorem acc7_later (c : Dev nD) (t : Fin cfg7.N) (h : t.val ≠ 0) :
    acc7 V c t.val t.isLt = step1 (iblk7 V c 0 t) (iblk7 V c 1 t) (iblk7 V c 2 t) (iblk7 V c 3 t) (acc7 V c (t.val - 1) (Nat.lt_of_le_of_lt (Nat.sub_le _ _) t.isLt)) := by
  obtain ⟨n, hn⟩ := t
  cases n with
  | zero => exact absurd rfl h
  | succ n => rfl

def PhiS7 (c : Dev nD) : (n : ℕ) → n ≤ cfg7.N → sProp 𝕄
  | 0, _ => Pipeline.ΦA spec7 c
  | n + 1, hn => iprop(iprop(iprop(owns (c : Thread nD τ) scM7_0 fullShare (acc7 V c n hn).1 ∗ owns (c : Thread nD τ) scM7_1 fullShare (acc7 V c n hn).2)
      ∗ Pipeline.scopedRestBut (Ix := Unit) (Name := ℕ) (U := UR sig nD τ) (Lvl := ℕ) (Val := Elt F) spec7 c [cc7_scratch0, cc7_scratch1]) ∗ (∃ r, prngReg c r))

theorem PhiS7_zero (c : Dev nD) (n : ℕ) (h : n ≤ cfg7.N) (hz : n = 0) : PhiS7 V c n h = Pipeline.ΦA spec7 c := by
  subst hz; rfl

theorem PhiS7_succ (c : Dev nD) (n : ℕ) (hn : n < cfg7.N) :
    PhiS7 V c (n + 1) hn = iprop(iprop(iprop(owns (c : Thread nD τ) scM7_0 fullShare (acc7 V c n hn).1 ∗ owns (c : Thread nD τ) scM7_1 fullShare (acc7 V c n hn).2)
      ∗ Pipeline.scopedRestBut (Ix := Unit) (Name := ℕ) (U := UR sig nD τ) (Lvl := ℕ) (Val := Elt F) spec7 c [cc7_scratch0, cc7_scratch1]) ∗ (∃ r, prngReg c r)) := rfl

theorem PhiS7_pos (c : Dev nD) (n : ℕ) (h : n ≤ cfg7.N) (hz : n ≠ 0) :
    PhiS7 V c n h = iprop(iprop(iprop(owns (c : Thread nD τ) scM7_0 fullShare (acc7 V c (n - 1) (by omega)).1 ∗ owns (c : Thread nD τ) scM7_1 fullShare (acc7 V c (n - 1) (by omega)).2)
      ∗ Pipeline.scopedRestBut (Ix := Unit) (Name := ℕ) (U := UR sig nD τ) (Lvl := ℕ) (Val := Elt F) spec7 c [cc7_scratch0, cc7_scratch1]) ∗ (∃ r, prngReg c r)) := by
  cases n with
  | zero => exact absurd rfl hz
  | succ n => rfl

def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => k1_pay4 (iblk7 V c 0 t) (iblk7 V c 2 t) (iblk7 V c 1 t) (iblk7 V c 3 t)
    | ⟨5, _⟩ => (acc7 V c t.val t.isLt).1
    | ⟨6, _⟩ => (acc7 V c t.val t.isLt).2
  Φ t := PhiS7 V c t.val (Nat.le_of_lt_succ t.isLt)
  q _ := fullShare
  owed _ := 0

theorem A_eq7 (c : Dev nD) (w : Fin cfg7.W) : (dat7 V c).A w = V c (Pipeline.arrRef spec7 w) := by
  dsimp only [dat7]

theorem PhiS7_castSucc (c : Dev nD) (t : Fin cfg7.N) :
    (dat7 V c).Φ t.castSucc = PhiS7 V c t.val (Nat.le_of_lt t.isLt) := by
  dsimp only [dat7]; simp only [Fin.coe_castSucc]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = iblk7 V c 3 t := by dsimp only [dat7]
theorem after7_4 (c : Dev nD) (t : Fin cfg7.N) : (dat7 V c).after 4 t = k1_pay4 (iblk7 V c 0 t) (iblk7 V c 2 t) (iblk7 V c 1 t) (iblk7 V c 3 t) := by dsimp only [dat7]
theorem after7_5 (c : Dev nD) (t : Fin cfg7.N) : (dat7 V c).after 5 t = (acc7 V c t.val t.isLt).1 := by dsimp only [dat7]
theorem after7_6 (c : Dev nD) (t : Fin cfg7.N) : (dat7 V c).after 6 t = (acc7 V c t.val t.isLt).2 := by dsimp only [dat7]

theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d
theorem before7_3 (c : Dev nD) (t : Fin cfg7.N) (d) : (dat7 V c).before 3 t d = iblk7 V c 3 t :=
  before7_3_of V (dat7 V c) (A_eq7 V c 3) (after7_3 V c) t d

def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d))
    ∗ (∃ d, owns (c : Thread nD τ) (st7_4 t) fullShare ((dat7 V c).before 4 t d))
    ∗ (∃ d, owns (c : Thread nD τ) (st7_5 t) fullShare ((dat7 V c).before 5 t d))
    ∗ (∃ d, owns (c : Thread nD τ) (st7_6 t) fullShare ((dat7 V c).before 6 t d)))

def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t)
    ∗ owns (c : Thread nD τ) (st7_4 t) fullShare ((dat7 V c).after 4 t)
    ∗ owns (c : Thread nD τ) (st7_5 t) fullShare ((dat7 V c).after 5 t)
    ∗ owns (c : Thread nD τ) (st7_6 t) fullShare ((dat7 V c).after 6 t))

set_option maxHeartbeats 4000000 in

theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7; rw [cc7_eq]
  simp only [before7_0, before7_1, before7_2, before7_3]
  rw [show (dat7 V c).owesAt () t.succ = (dat7 V c).owesAt () t.castSucc from rfl]
  rw [show (dat7 V c).Φ t.succ = PhiS7 V c (t.val + 1) t.isLt from rfl, PhiS7_succ]
  rw [after7_0, after7_1, after7_2, after7_3, after7_4, after7_5, after7_6]
  rw [PhiS7_castSucc V c t]
  by_cases hz0 : t.val = 0
  · rw [PhiS7_zero V c _ _ hz0, PhiA7_eq, acc7_first V c t hz0]
    iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩⟩
    iapply (sound_kernel1_A c (grid7.coords t) _ _ _ _ _ _ _ _ _ _ _ _ _ _ _ _ _ _ (iblk7 V c 0 t) (iblk7 V c 1 t) (iblk7 V c 2 t) (iblk7 V c 3 t) ((hcond7_0 t).mpr (by rw [hz0])) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [HS0]; · iexact HS0
    isplitl [HS1]; · iexact HS1
    iintro ⟨H0, H1, H2, H3, H4, H5, H6, HS0, HS1⟩
    isplitl [HS0 HS1 HR Hg]
    · isplitl [HS0 HS1 HR]
      · isplitl [HS0 HS1]
        · isplitl [HS0]; · iexact HS0
          iexact HS1
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · rw [PhiS7_pos V c _ _ hz0, acc7_later V c t hz0]
    iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩⟩
    iapply (sound_kernel1_B c (grid7.coords t) _ _ _ _ _ _ _ _ _ _ _ _ _ _ _ _ _ _ (iblk7 V c 0 t) (iblk7 V c 1 t) (iblk7 V c 2 t) (iblk7 V c 3 t) (fun h => hz0 (by have h1 := (hcond7_0 t).mp h; have h2 := t.isLt; have h3 : cfg7.N = 20 := N_7; omega)) _ _ Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [HS0]; · iexact HS0
    isplitl [HS1]; · iexact HS1
    iintro ⟨H0, H1, H2, H3, H4, H5, H6, HS0, HS1⟩
    isplitl [HS0 HS1 HR Hg]
    · isplitl [HS0 HS1 HR]
      · isplitl [HS0 HS1]
        · isplitl [HS0]; · iexact HS0
          iexact HS1
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

theorem body_obligation7 (c : Dev nD) : BodyObligation (dat7 (F := F) V c) (defs₀ (F := F)) Variants.none () Set.univ := fun t => by
  rw [bigSep_W7, bigSep_W7]
  exact sound_body7 V c t

theorem hin7 (c : Dev nD) : Pipeline.ΦA spec7 c ⊢ (dat7 V c).Φ 0 := by
  rw [show (dat7 V c).Φ 0 = PhiS7 V c 0 (Nat.zero_le _) from rfl, PhiS7_zero V c 0 _ rfl]
  try exact Idealize.SL.BI.Entails.refl _

theorem Phi7_out (c : Dev nD) (t : Fin (cfg7.N + 1)) (ht : t.val ≠ 0) : (dat7 V c).Φ t ⊢ Pipeline.ΦA spec7 c := by
  rw [show (dat7 V c).Φ t = PhiS7 V c t.val (Nat.le_of_lt_succ t.isLt) from rfl, PhiS7_pos V c _ _ ht, PhiA7_eq]
  iintro ⟨⟨⟨HS0, HS1⟩, HR⟩, Hg⟩
  isplitl [HS0 HS1 HR]
  · isplitl [HS0 HS1]
    · isplitl [HS0]; · iexists _; iexact HS0
      iexists _; iexact HS1
    iexact HR
  iexact Hg

theorem hout7 (c : Dev nD) : (dat7 V c).Φ (Fin.last cfg7.N) ⊢ Pipeline.ΦA spec7 c :=
  Phi7_out V c _ (by rw [Fin.val_last]; have : cfg7.N = 20 := N_7; omega)

end Cert.KernelIdeal.Hand

end
-- ==== Proof.KI.Reg8.lean ====
import proofs.«418928_j70858370450169_1_alg».proof.Proof.KI.Norm

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)

theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)

theorem before8_2_of {c : Dev nD} (dat : Dat τ (Elt F) Unit ℕ (UR sig nD τ) ℕ cfg8 c) (hA : dat.A 2 = V c (Pipeline.arrRef spec8 2))
    (hafter : ∀ t, dat.after 2 t = iblk8 V c 2 t) (t : Fin cfg8.N) (d) : dat.before 2 t d = iblk8 V c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)

def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => out2_3 (iblk8 V c 0 t) (iblk8 V c 1 t) (iblk8 V c 2 t)
  Φ _ := Pipeline.ΦA spec8 c
  q _ := fullShare
  owed _ := 0

theorem A_eq8 (c : Dev nD) (w : Fin cfg8.W) : (dat8 V c).A w = V c (Pipeline.arrRef spec8 w) := by
  dsimp only [dat8]

theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = out2_3 (iblk8 V c 0 t) (iblk8 V c 1 t) (iblk8 V c 2 t) := by dsimp only [dat8]

theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d
theorem before8_2 (c : Dev nD) (t : Fin cfg8.N) (d) : (dat8 V c).before 2 t d = iblk8 V c 2 t :=
  before8_2_of V (dat8 V c) (A_eq8 V c 2) (after8_2 V c) t d

def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d)))

def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t)
    ∗ owns (c : Thread nD τ) (st8_3 t) fullShare ((dat8 V c).after 3 t))

theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8; rw [cc8_eq]
  simp only [before8_0, before8_1, before8_2]
  rw [show (dat8 V c).Φ t.succ = (dat8 V c).Φ t.castSucc from rfl,
    show (dat8 V c).owesAt () t.succ = (dat8 V c).owesAt () t.castSucc from rfl,
    after8_0, after8_1, after8_2, after8_3]
  iintro ⟨HΦ, Ho, ⟨%d0, H0⟩, ⟨%d1, H1⟩, ⟨%d2, H2⟩, ⟨%d3, H3⟩⟩
  iapply (sound_kernel2 c Set.univ _ _ _ _ _ _ _ _ _ (iblk8 V c 0 t) (iblk8 V c 1 t) (iblk8 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation8 (c : Dev nD) : BodyObligation (dat8 (F := F) V c) (defs₀ (F := F)) Variants.none () Set.univ := fun t => by
  rw [bigSep_W8, bigSep_W8]
  exact sound_body8 V c t

theorem hin8 (c : Dev nD) : Pipeline.ΦA spec8 c ⊢ (dat8 V c).Φ 0 := .rfl

theorem hout8 (c : Dev nD) : (dat8 V c).Φ (Fin.last cfg8.N) ⊢ Pipeline.ΦA spec8 c := .rfl

end Cert.KernelIdeal.Hand

end
-- ==== Proof.KI.Reg9.lean ====
import proofs.«418928_j70858370450169_1_alg».proof.Proof.Gen.KernelIdeal.Launch
import proofs.«418928_j70858370450169_1_alg».proof.Proof.Gen.KernelIdeal.Skeleton
import proofs.«418928_j70858370450169_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

abbrev hblk9 (c : Dev nD) (t : Fin cfg9.N) : Vec F S5000x128 .f32 := iblk9 V c 0 t

abbrev bblk9 (c : Dev nD) (t : Fin cfg9.N) : Vec F S5000x1 .i32 := iblk9 V c 1 t

theorem before9_0_of {c : Dev nD} (dat : Dat τ (Elt F) Unit ℕ (UR sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)

theorem before9_1_of {c : Dev nD} (dat : Dat τ (Elt F) Unit ℕ (UR sig nD τ) ℕ cfg9 c) (hA : dat.A 1 = V c (Pipeline.arrRef spec9 1))
    (hafter : ∀ t, dat.after 1 t = iblk9 V c 1 t) (t : Fin cfg9.N) (d) : dat.before 1 t d = iblk9 V c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)

abbrev cond9_0 (i : grid9.Coords) : Prop := (Scalar.cmpi .ne (Scalar.extui (Scalar.cmpi .eq (BitVec.ofNat 32 (i 0).val) 0#32)) 0#32) = 1#1

theorem hcond9_0 : ∀ t : Fin cfg9.N, cond9_0 (grid9.coords t) ↔ t.val % 20 = 0 :=
  (by decide +kernel : ∀ t : Fin grid9.N, cond9_0 (grid9.coords t) ↔ t.val % 20 = 0)

abbrev ms9_0 (t : Fin cfg9.N) : Memref sig .tc .vmem S5000x128 .f32 := win9_0.stage (cfg9.slots t 0)
abbrev hs9_0 (t : Fin cfg9.N) : (ms9_0 t).IsWhole := hstage9_0 ((cfg9.slots t 0).cast nbuf9_0)
abbrev ms9_1 (t : Fin cfg9.N) : Memref sig .tc .vmem S5000x1 .i32 := win9_1.stage (cfg9.slots t 1)
abbrev hs9_1 (t : Fin cfg9.N) : (ms9_1 t).IsWhole := hstage9_1 ((cfg9.slots t 1).cast nbuf9_1)
abbrev ms9_2 (t : Fin cfg9.N) : Memref sig .tc .vmem S256x128 .f32 := win9_2.stage (cfg9.slots t 2)
abbrev hs9_2 (t : Fin cfg9.N) : (ms9_2 t).IsWhole := hstage9_2 ((cfg9.slots t 2).cast nbuf9_2)

abbrev scM9_0 : Memref sig .tc .vmem S256x128 .f32 := Memref.whole cc9_scratch0
abbrev scM9_1 : Memref sig .tc .vmem S256x1 .f32 := Memref.whole cc9_scratch1

abbrev rest9 (c : Dev nD) : sProp 𝕄 :=
  Pipeline.scopedRestBut (Ix := Unit) (Name := ℕ) (U := UR sig nD τ) (Lvl := ℕ) (Val := Elt F) spec9 c [cc9_scratch0, cc9_scratch1]

theorem PhiA9_eq (c : Dev nD) :
    (Pipeline.ΦA spec9 c : sProp 𝕄)
      = iprop(iprop(iprop((∃ d, owns (c : Thread nD τ) scM9_0 fullShare d) ∗ (∃ d, owns (c : Thread nD τ) scM9_1 fullShare d)) ∗ rest9 c) ∗ (∃ r, prngReg c r)) := by
  unfold Pipeline.ΦA; rw [scopedRest9_split]; simp only [scM9_0, scM9_1, owns_whole]; try rfl

theorem hz2 : (![0, 0] : Fin 2 → Nat) = fun _ => 0 := funext fun a => by fin_cases a <;> rfl

theorem read_writes_cons_unit_zero {sg : RefSig} {κ : Kind} {sp : Space} {S : Shape} {e : EltTy}
    (v : View sg κ sp S e) (f : v.ty.Contents (Elt F)) {off : Fin S.rank → Nat} (h : off = fun _ => 0)
    (inb : ∀ a, off a + S.size a ≤ S.size a) (w : S.Idx → Elt F e) (L : List (View.Piece (Elt F) S e)) :
    v.read (Elt F) (v.writes (Elt F) f ((⟨Rect.unit off S.size inb, w⟩ : View.Piece (Elt F) S e) :: L)) = w := by
  rw [View.read_writes_eq_canon v f _ (fun y => ⟨_, List.Mem.head _, View.mem_set_unit_zero h inb y⟩),
    View.canon_cons_unit_zero h]

theorem readCov_cons_unit_zero {sg : RefSig} {κ : Kind} {sp : Space} {S : Shape} {e : EltTy}
    (v : View sg κ sp S e) {off : Fin S.rank → Nat} (h : off = fun _ => 0)
    (inb : ∀ a, off a + S.size a ≤ S.size a) (w : S.Idx → Elt F e) (L : List (View.Piece (Elt F) S e)) :
    v.readCov ((⟨Rect.unit off S.size inb, w⟩ : View.Piece (Elt F) S e) :: L) (Rect.unit off S.size inb).toLoadRect = w := by
  rw [View.readCov_eq_canon_ld _ _ _ (fun y => ⟨_, List.Mem.head _, View.mem_set_unit_zero h inb y⟩),
    View.canon_cons_unit_zero h, View.ld_unit_zero h]

set_option maxHeartbeats 1000000 in

theorem sound_kernel9_A (c : Dev nD) (E : Set ℕ) (i : grid9.Coords) (arg1 : Memref sig .tc .vmem S5000x128 .f32) (harg1 : arg1.IsWhole) (arg2 : Memref sig .tc .vmem S5000x1 .i32) (harg2 : arg2.IsWhole) (arg3 : Memref sig .tc .vmem S256x128 .f32) (harg3 : arg3.IsWhole) (arg4 : Memref sig .tc .vmem S256x128 .f32) (harg4 : arg4.IsWhole) (arg5 : Memref sig .tc .vmem S256x1 .f32) (harg5 : arg5.IsWhole)
    (hc0 : cond9_0 i) (x0 : Vec F S5000x128 .f32) (x1 : Vec F S5000x1 .i32) (K : PUnit → sProp 𝕄) :
    iprop(owns (c : Thread nD τ) arg1 fullShare x0 ∗ owns (c : Thread nD τ) arg2 fullShare x1 ∗ (∃ d, owns (c : Thread nD τ) arg3 fullShare d)
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1
            ∗ owns (c : Thread nD τ) arg3 fullShare (k9_pay6 (k9_pay4 x1 (k9_pay1 (F := F)) x0) (k9_pay5 x1 (k9_pay2 (F := F))))
            ∗ owns (c : Thread nD τ) arg4 fullShare (k9_pay4 x1 (k9_pay1 (F := F)) x0)
            ∗ owns (c : Thread nD τ) arg5 fullShare (k9_pay5 x1 (k9_pay2 (F := F)))) -∗ K ⟨⟩))
      ⊢ wp frame (wpE (defs₀ (F := F)) Variants.none c none) E (cc9__pool_kernel i arg1 harg1 arg2 harg2 arg3 harg3 arg4 harg4 arg5 harg5) K := by
  simp only [cc9__pool_kernel_eq_skeleton]; unfold cc9__pool_kernel_skel
  simp only [k9_part1_eq_skeleton]; unfold k9_part1_skel
  unfold owns
  iintro ⟨⟨%f0, %hf0, H0⟩, ⟨%f1, %hf1, H1⟩, ⟨%d2, %f2, -, H2⟩, ⟨%ds0, %fs0, -, HS0⟩, ⟨%ds1, %fs1, -, HS1⟩, Hk⟩
  obtain rfl := harg1.eq_unread hf0; obtain rfl := harg2.eq_unread hf1
  sl_exec (disch := first | exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr
    swap; · iexact H2
    ipureintro
    sl_unfold_run_names
    refine (read_writes_cons_unit_zero _ _ hz2 _ _ _).trans ?_
    simp only [View.readAt_eq_ld, harg1.read_unread, harg2.read_unread, View.ld_unit_zero (S := S5000x128) hz2,
      View.ld_unit_zero (S := S5000x1) hz2, readCov_cons_unit_zero (S := S256x128) _ hz2, readCov_cons_unit_zero (S := S256x1) _ hz2]
  isplitl [HS0]
  · iexists _; isplitr
    swap; · iexact HS0
    ipureintro
    sl_unfold_run_names
    refine (read_writes_cons_unit_zero _ _ hz2 _ _ _).trans ?_
    simp only [View.readAt_eq_ld, harg1.read_unread, harg2.read_unread, View.ld_unit_zero (S := S5000x128) hz2,
      View.ld_unit_zero (S := S5000x1) hz2, readCov_cons_unit_zero (S := S256x128) _ hz2, readCov_cons_unit_zero (S := S256x1) _ hz2]
  · iexists _; isplitr
    swap; · iexact HS1
    ipureintro
    sl_unfold_run_names
    refine (read_writes_cons_unit_zero _ _ hz2 _ _ _).trans ?_
    simp only [View.readAt_eq_ld, harg1.read_unread, harg2.read_unread, View.ld_unit_zero (S := S5000x128) hz2,
      View.ld_unit_zero (S := S5000x1) hz2, readCov_cons_unit_zero (S := S256x128) _ hz2, readCov_cons_unit_zero (S := S256x1) _ hz2]

set_option maxHeartbeats 1000000 in

theorem sound_kernel9_B (c : Dev nD) (E : Set ℕ) (i : grid9.Coords) (arg1 : Memref sig .tc .vmem S5000x128 .f32) (harg1 : arg1.IsWhole) (arg2 : Memref sig .tc .vmem S5000x1 .i32) (harg2 : arg2.IsWhole) (arg3 : Memref sig .tc .vmem S256x128 .f32) (harg3 : arg3.IsWhole) (arg4 : Memref sig .tc .vmem S256x128 .f32) (harg4 : arg4.IsWhole) (arg5 : Memref sig .tc .vmem S256x1 .f32) (harg5 : arg5.IsWhole)
    (hc0 : ¬cond9_0 i) (x0 : Vec F S5000x128 .f32) (x1 : Vec F S5000x1 .i32) (xs0 : Vec F S256x128 .f32) (xs1 : Vec F S256x1 .f32) (K : PUnit → sProp 𝕄) :
    iprop(owns (c : Thread nD τ) arg1 fullShare x0 ∗ owns (c : Thread nD τ) arg2 fullShare x1 ∗ (∃ d, owns (c : Thread nD τ) arg3 fullShare d)
        ∗ owns (c : Thread nD τ) arg4 fullShare xs0 ∗ owns (c : Thread nD τ) arg5 fullShare xs1
        ∗ (iprop(owns (c : Thread nD τ) arg1 fullShare x0 ∗ owns (c : Thread nD τ) arg2 fullShare x1
            ∗ owns (c : Thread nD τ) arg3 fullShare (k9_pay6 (k9_pay4 x1 xs0 x0) (k9_pay5 x1 xs1))
            ∗ owns (c : Thread nD τ) arg4 fullShare (k9_pay4 x1 xs0 x0)
            ∗ owns (c : Thread nD τ) arg5 fullShare (k9_pay5 x1 xs1)) -∗ K ⟨⟩))
      ⊢ wp frame (wpE (defs₀ (F := F)) Variants.none c none) E (cc9__pool_kernel i arg1 harg1 arg2 harg2 arg3 harg3 arg4 harg4 arg5 harg5) K := by
  simp only [cc9__pool_kernel_eq_skeleton]; unfold cc9__pool_kernel_skel
  simp only [k9_part1_eq_skeleton]; unfold k9_part1_skel
  unfold owns
  iintro ⟨⟨%f0, %hf0, H0⟩, ⟨%f1, %hf1, H1⟩, ⟨%d2, %f2, -, H2⟩, ⟨%fs0, %hfs0, HS0⟩, ⟨%fs1, %hfs1, HS1⟩, Hk⟩
  obtain rfl := harg1.eq_unread hf0; obtain rfl := harg2.eq_unread hf1
  obtain rfl := harg4.eq_unread hfs0; obtain rfl := harg5.eq_unread hfs1
  sl_exec (disch := first | exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr
    swap; · iexact H2
    ipureintro
    sl_unfold_run_names
    refine (read_writes_cons_unit_zero _ _ hz2 _ _ _).trans ?_
    simp only [View.readAt_eq_ld, harg1.read_unread, harg2.read_unread, harg4.read_unread, harg5.read_unread,
      View.ld_unit_zero (S := S5000x128) hz2, View.ld_unit_zero (S := S5000x1) hz2, View.ld_unit_zero (S := S256x128) hz2,
      View.ld_unit_zero (S := S256x1) hz2, readCov_cons_unit_zero (S := S256x128) _ hz2, readCov_cons_unit_zero (S := S256x1) _ hz2]
  isplitl [HS0]
  · iexists _; isplitr
    swap; · iexact HS0
    ipureintro
    sl_unfold_run_names
    refine (read_writes_cons_unit_zero _ _ hz2 _ _ _).trans ?_
    simp only [View.readAt_eq_ld, harg1.read_unread, harg2.read_unread, harg4.read_unread, harg5.read_unread,
      View.ld_unit_zero (S := S5000x128) hz2, View.ld_unit_zero (S := S5000x1) hz2, View.ld_unit_zero (S := S256x128) hz2,
      View.ld_unit_zero (S := S256x1) hz2, readCov_cons_unit_zero (S := S256x128) _ hz2, readCov_cons_unit_zero (S := S256x1) _ hz2]
  · iexists _; isplitr
    swap; · iexact HS1
    ipureintro
    sl_unfold_run_names
    refine (read_writes_cons_unit_zero _ _ hz2 _ _ _).trans ?_
    simp only [View.readAt_eq_ld, harg1.read_unread, harg2.read_unread, harg4.read_unread, harg5.read_unread,
      View.ld_unit_zero (S := S5000x128) hz2, View.ld_unit_zero (S := S5000x1) hz2, View.ld_unit_zero (S := S256x128) hz2,
      View.ld_unit_zero (S := S256x1) hz2, readCov_cons_unit_zero (S := S256x128) _ hz2, readCov_cons_unit_zero (S := S256x1) _ hz2]

def accAt9 (c : Dev nD) : (n : ℕ) → n < cfg9.N → Vec F S256x128 .f32 × Vec F S256x1 .f32
  | 0, hn => (k9_pay4 (bblk9 V c ⟨0, hn⟩) (k9_pay1 (F := F)) (hblk9 V c ⟨0, hn⟩), k9_pay5 (bblk9 V c ⟨0, hn⟩) (k9_pay2 (F := F)))
  | n + 1, hn => (k9_pay4 (bblk9 V c ⟨n + 1, hn⟩) (accAt9 c n (Nat.lt_of_succ_lt hn)).1 (hblk9 V c ⟨n + 1, hn⟩),
      k9_pay5 (bblk9 V c ⟨n + 1, hn⟩) (accAt9 c n (Nat.lt_of_succ_lt hn)).2)

theorem accAt9_first (c : Dev nD) (t : Fin cfg9.N) (hz : t.val = 0) :
    accAt9 V c t.val t.isLt = (k9_pay4 (bblk9 V c t) (k9_pay1 (F := F)) (hblk9 V c t), k9_pay5 (bblk9 V c t) (k9_pay2 (F := F))) := by
  obtain ⟨n, hn⟩ := t
  cases n with
  | zero => rfl
  | succ n => exact absurd hz (Nat.succ_ne_zero n)

theorem accAt9_next (c : Dev nD) (t : Fin cfg9.N) (hz : t.val ≠ 0) :
    accAt9 V c t.val t.isLt
      = (k9_pay4 (bblk9 V c t) (accAt9 V c (t.val - 1) (Nat.lt_of_le_of_lt (Nat.sub_le _ _) t.isLt)).1 (hblk9 V c t),
         k9_pay5 (bblk9 V c t) (accAt9 V c (t.val - 1) (Nat.lt_of_le_of_lt (Nat.sub_le _ _) t.isLt)).2) := by
  obtain ⟨n, hn⟩ := t
  cases n with
  | zero => exact absurd rfl hz
  | succ n => rfl

def out9_2 (c : Dev nD) (t : Fin cfg9.N) : Vec F S256x128 .f32 :=
  k9_pay6 (accAt9 V c t.val t.isLt).1 (accAt9 V c t.val t.isLt).2

def PhiS9 (c : Dev nD) : (n : ℕ) → n ≤ cfg9.N → sProp 𝕄
  | 0, _ => Pipeline.ΦA spec9 c
  | n + 1, hn => iprop(iprop(iprop(owns (c : Thread nD τ) scM9_0 fullShare ((accAt9 V c n hn).1) ∗ owns (c : Thread nD τ) scM9_1 fullShare ((accAt9 V c n hn).2)) ∗ rest9 c) ∗ (∃ r, prngReg c r))

theorem PhiS9_zero (c : Dev nD) (n : ℕ) (h : n ≤ cfg9.N) (hz : n = 0) : PhiS9 V c n h = Pipeline.ΦA spec9 c := by
  subst hz; rfl

theorem PhiS9_succ (c : Dev nD) (n : ℕ) (hn : n < cfg9.N) :
    PhiS9 V c (n + 1) hn = iprop(iprop(iprop(owns (c : Thread nD τ) scM9_0 fullShare ((accAt9 V c n hn).1) ∗ owns (c : Thread nD τ) scM9_1 fullShare ((accAt9 V c n hn).2)) ∗ rest9 c) ∗ (∃ r, prngReg c r)) := rfl

theorem PhiS9_pos (c : Dev nD) (n : ℕ) (h : n ≤ cfg9.N) (hz : n ≠ 0) :
    PhiS9 V c n h = iprop(iprop(iprop(owns (c : Thread nD τ) scM9_0 fullShare ((accAt9 V c (n - 1) (by omega)).1) ∗ owns (c : Thread nD τ) scM9_1 fullShare ((accAt9 V c (n - 1) (by omega)).2)) ∗ rest9 c) ∗ (∃ r, prngReg c r)) := by
  cases n with
  | zero => exact absurd rfl hz
  | succ n => rfl

def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => out9_2 V c t
  Φ t := PhiS9 V c t.val (Nat.le_of_lt_succ t.isLt)
  q _ := fullShare
  owed _ := 0

theorem A_eq9 (c : Dev nD) (w : Fin cfg9.W) : (dat9 V c).A w = V c (Pipeline.arrRef spec9 w) := by
  dsimp only [dat9]

theorem PhiS9_castSucc (c : Dev nD) (t : Fin cfg9.N) :
    (dat9 V c).Φ t.castSucc = PhiS9 V c t.val (Nat.le_of_lt t.isLt) := by
  dsimp only [dat9]; simp only [Fin.coe_castSucc]

theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = out9_2 V c t := by dsimp only [dat9]

theorem before9_0 (c : Dev nD) (t : Fin cfg9.N) (d) : (dat9 V c).before 0 t d = iblk9 V c 0 t :=
  before9_0_of V (dat9 V c) (A_eq9 V c 0) (after9_0 V c) t d
theorem before9_1 (c : Dev nD) (t : Fin cfg9.N) (d) : (dat9 V c).before 1 t d = iblk9 V c 1 t :=
  before9_1_of V (dat9 V c) (A_eq9 V c 1) (after9_1 V c) t d

def bodyPre9 (c : Dev nD) (t : Fin cfg9.N) : sProp 𝕄 :=
  iprop((dat9 V c).Φ t.castSucc ∗ (dat9 V c).owesAt () t.castSucc
    ∗ (∃ d, owns (c : Thread nD τ) (ms9_0 t) fullShare ((dat9 V c).before 0 t d))
    ∗ (∃ d, owns (c : Thread nD τ) (ms9_1 t) fullShare ((dat9 V c).before 1 t d))
    ∗ (∃ d, owns (c : Thread nD τ) (ms9_2 t) fullShare ((dat9 V c).before 2 t d)))

def bodyPost9 (c : Dev nD) (t : Fin cfg9.N) : sProp 𝕄 :=
  iprop((dat9 V c).Φ t.succ ∗ (dat9 V c).owesAt () t.succ
    ∗ owns (c : Thread nD τ) (ms9_0 t) fullShare ((dat9 V c).after 0 t)
    ∗ owns (c : Thread nD τ) (ms9_1 t) fullShare ((dat9 V c).after 1 t)
    ∗ owns (c : Thread nD τ) (ms9_2 t) fullShare ((dat9 V c).after 2 t))

set_option maxHeartbeats 1600000 in

theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1]
  rw [show (dat9 V c).owesAt () t.succ = (dat9 V c).owesAt () t.castSucc from rfl]
  rw [show (dat9 V c).Φ t.succ = PhiS9 V c (t.val + 1) t.isLt from rfl, PhiS9_succ]
  rw [after9_0, after9_1, after9_2]
  unfold out9_2
  have hN : t.val < 20 := lt_of_lt_of_eq t.isLt (show cfg9.N = 20 from N_9)
  by_cases hz : t.val = 0
  · rw [PhiS9_castSucc V c t, PhiS9_zero V c _ _ hz, PhiA9_eq, accAt9_first V c t hz]
    iintro ⟨⟨⟨⟨HS0, HS1⟩, HR⟩, Hg⟩, Ho, ⟨%d0, H0⟩, ⟨%d1, H1⟩, ⟨%d2, H2⟩⟩
    iapply (sound_kernel9_A c Set.univ (grid9.coords t) _ _ _ _ _ _ _ _ _ _ ((hcond9_0 t).mpr (by omega)) (hblk9 V c t) (bblk9 V c t) _)
    isplitl [H0]; · iexact H0
    isplitl [H1]; · iexact H1
    isplitl [H2]; · iexists _; iexact H2
    isplitl [HS0]; · iexact HS0
    isplitl [HS1]; · iexact HS1
    iintro ⟨H0, H1, H2, HS0, HS1⟩
    isplitl [HS0 HS1 HR Hg]
    · isplitl [HS0 HS1 HR]
      · isplitl [HS0 HS1]
        · isplitl [HS0]; · iexact HS0
          iexact HS1
        iexact HR
      iexact Hg
    isplitl [Ho]; · iexact Ho
    isplitl [H0]; · iexact H0
    isplitl [H1]; · iexact H1
    iexact H2
  · rw [PhiS9_castSucc V c t, PhiS9_pos V c _ _ hz, accAt9_next V c t hz]
    iintro ⟨⟨⟨⟨HS0, HS1⟩, HR⟩, Hg⟩, Ho, ⟨%d0, H0⟩, ⟨%d1, H1⟩, ⟨%d2, H2⟩⟩
    iapply (sound_kernel9_B c Set.univ (grid9.coords t) _ _ _ _ _ _ _ _ _ _ (fun h => hz (by have := (hcond9_0 t).mp h; omega)) (hblk9 V c t) (bblk9 V c t) _ _ _)
    isplitl [H0]; · iexact H0
    isplitl [H1]; · iexact H1
    isplitl [H2]; · iexists _; iexact H2
    isplitl [HS0]; · iexact HS0
    isplitl [HS1]; · iexact HS1
    iintro ⟨H0, H1, H2, HS0, HS1⟩
    isplitl [HS0 HS1 HR Hg]
    · isplitl [HS0 HS1 HR]
      · isplitl [HS0 HS1]
        · isplitl [HS0]; · iexact HS0
          iexact HS1
        iexact HR
      iexact Hg
    isplitl [Ho]; · iexact Ho
    isplitl [H0]; · iexact H0
    isplitl [H1]; · iexact H1
    iexact H2

theorem body_obligation9 (c : Dev nD) : BodyObligation (dat9 (F := F) V c) (defs₀ (F := F)) Variants.none () Set.univ := fun t => by
  rw [bigSep_W9, bigSep_W9]
  exact sound_body9 V c t

theorem hin9 (c : Dev nD) : Pipeline.ΦA spec9 c ⊢ (dat9 V c).Φ 0 := by
  rw [show (dat9 V c).Φ 0 = PhiS9 V c 0 (Nat.zero_le _) from rfl, PhiS9_zero V c 0 _ rfl]
  try exact Idealize.SL.BI.Entails.refl _

theorem Phi_out9 (c : Dev nD) (t : Fin (cfg9.N + 1)) (ht : t.val ≠ 0) : (dat9 V c).Φ t ⊢ Pipeline.ΦA spec9 c := by
  rw [show (dat9 V c).Φ t = PhiS9 V c t.val (Nat.le_of_lt_succ t.isLt) from rfl, PhiS9_pos V c _ _ ht, PhiA9_eq]
  iintro ⟨⟨⟨HS0, HS1⟩, HR⟩, Hg⟩
  isplitl [HS0 HS1 HR]
  · isplitl [HS0 HS1]
    · isplitl [HS0]; · iexists _; iexact HS0
      iexists _; iexact HS1
    iexact HR
  iexact Hg

theorem hout9 (c : Dev nD) : (dat9 V c).Φ (Fin.last cfg9.N) ⊢ Pipeline.ΦA spec9 c :=
  Phi_out9 V c _ (by rw [Fin.val_last]; have : cfg9.N = 20 := N_9; omega)

end Cert.KernelIdeal.Hand

end
-- ==== Proof.KI.Reg10.lean ====
import proofs.«418928_j70858370450169_1_alg».proof.Proof.Gen.KernelIdeal.Launch
import proofs.«418928_j70858370450169_1_alg».proof.Proof.Gen.KernelIdeal.Skeleton
import proofs.«418928_j70858370450169_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

theorem before10_0_of {c : Dev nD} (dat : Dat τ (Elt F) Unit ℕ (UR sig nD τ) ℕ cfg10 c) (hA : dat.A 0 = V c (Pipeline.arrRef spec10 0))
    (hafter : ∀ t, dat.after 0 t = iblk10 V c 0 t) (t : Fin cfg10.N) (d) : dat.before 0 t d = iblk10 V c 0 t :=
  (dat.before_in_eq_fetched 0 rfl (fun _ => rfl) (fun _ _ _ => rfl) (fun t => by rw [hafter]; unfold Dat.blockOf iblk10; rw [hA]; try rfl) t d).trans
    (by unfold Dat.fetched Dat.blockOf iblk10; rw [hA]; try rfl)

theorem before10_1_of {c : Dev nD} (dat : Dat τ (Elt F) Unit ℕ (UR sig nD τ) ℕ cfg10 c) (hA : dat.A 1 = V c (Pipeline.arrRef spec10 1))
    (hafter : ∀ t, dat.after 1 t = iblk10 V c 1 t) (t : Fin cfg10.N) (d) : dat.before 1 t d = iblk10 V c 1 t :=
  (dat.before_in_eq_fetched 1 rfl (fun _ => rfl) (fun _ _ _ => rfl) (fun t => by rw [hafter]; unfold Dat.blockOf iblk10; rw [hA]; try rfl) t d).trans
    (by unfold Dat.fetched Dat.blockOf iblk10; rw [hA]; try rfl)

theorem before10_2_of {c : Dev nD} (dat : Dat τ (Elt F) Unit ℕ (UR sig nD τ) ℕ cfg10 c) (hA : dat.A 2 = V c (Pipeline.arrRef spec10 2))
    (hafter : ∀ t, dat.after 2 t = iblk10 V c 2 t) (t : Fin cfg10.N) (d) : dat.before 2 t d = iblk10 V c 2 t :=
  (dat.before_in_eq_fetched 2 rfl (fun _ => rfl) (fun _ _ _ => rfl) (fun t => by rw [hafter]; unfold Dat.blockOf iblk10; rw [hA]; try rfl) t d).trans
    (by unfold Dat.fetched Dat.blockOf iblk10; rw [hA]; try rfl)

abbrev r10_0 : Rect S256x144 := Rect.unit (s := S256x144) ![0, 0] S256x144.size inb_S256x144_S256x144_0_0
abbrev r10_1 : Rect S144x2 := Rect.unit (s := S144x2) ![0, 0] S144x2.size inb_S144x2_S144x2_0_0
abbrev r10_2 : Rect S1x2 := Rect.unit (s := S1x2) ![0, 0] S1x2.size inb_S1x2_S1x2_0_0
abbrev r10_3 : Rect S256x2 := Rect.unit (s := S256x2) ![0, 0] S256x2.size inb_S256x2_S256x2_0_0

def out10_3 (x0 : Vec F S256x144 .f32) (x1 : Vec F S144x2 .f32) (x2 : Vec F S1x2 .f32) : Vec F S256x2 .f32 :=
  View.canon [⟨r10_3, k10_pay1 (View.ld x0 r10_0) (View.ld x1 r10_1) (View.ld x2 r10_2)⟩]

theorem cover10_3 (p0 : Vec F S256x2 .f32) (y : S256x2.Idx) :
    ∃ pc ∈ ([⟨r10_3, p0⟩] : List (View.Piece (Elt F) S256x2 .f32)), y ∈ pc.1.set :=
  View.cover_of_tiled [⟨r10_3, p0⟩] S256x2.size (by rfl) y

set_option maxHeartbeats 1000000 in

theorem sound_kernel10 (c : Dev nD) (E : Set ℕ) (i : grid10.Coords)
    (arg1 : Memref sig .tc .vmem S256x144 .f32) (harg1 : arg1.IsWhole) (arg2 : Memref sig .tc .vmem S144x2 .f32) (harg2 : arg2.IsWhole)
    (arg3 : Memref sig .tc .vmem S1x2 .f32) (harg3 : arg3.IsWhole) (arg4 : Memref sig .tc .vmem S256x2 .f32) (harg4 : arg4.IsWhole)
    (x0 : Vec F S256x144 .f32) (x1 : Vec F S144x2 .f32) (x2 : Vec F S1x2 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out10_3 x0 x1 x2)) -∗ K ⟨⟩))
      ⊢ wp frame (wpE (defs₀ (F := F)) Variants.none c none) E (cc10__classify_kernel i arg1 harg1 arg2 harg2 arg3 harg3 arg4 harg4) K := by
  simp only [cc10__classify_kernel_eq_skeleton]; unfold cc10__classify_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover10_3 _)

def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => iblk10 V c 1 t
    | ⟨2, _⟩ => iblk10 V c 2 t
    | ⟨3, _⟩ => out10_3 (iblk10 V c 0 t) (iblk10 V c 1 t) (iblk10 V c 2 t)
  Φ _ := Pipeline.ΦA spec10 c
  q _ := fullShare
  owed _ := 0

theorem A_eq10 (c : Dev nD) (w : Fin cfg10.W) : (dat10 V c).A w = V c (Pipeline.arrRef spec10 w) := by
  dsimp only [dat10]

theorem after10_0 (c : Dev nD) (t : Fin cfg10.N) : (dat10 V c).after 0 t = iblk10 V c 0 t := by dsimp only [dat10]
theorem after10_1 (c : Dev nD) (t : Fin cfg10.N) : (dat10 V c).after 1 t = iblk10 V c 1 t := by dsimp only [dat10]
theorem after10_2 (c : Dev nD) (t : Fin cfg10.N) : (dat10 V c).after 2 t = iblk10 V c 2 t := by dsimp only [dat10]
theorem after10_3 (c : Dev nD) (t : Fin cfg10.N) :
    (dat10 V c).after 3 t = out10_3 (iblk10 V c 0 t) (iblk10 V c 1 t) (iblk10 V c 2 t) := by dsimp only [dat10]

theorem before10_0 (c : Dev nD) (t : Fin cfg10.N) (d) : (dat10 V c).before 0 t d = iblk10 V c 0 t :=
  before10_0_of V (dat10 V c) (A_eq10 V c 0) (after10_0 V c) t d
theorem before10_1 (c : Dev nD) (t : Fin cfg10.N) (d) : (dat10 V c).before 1 t d = iblk10 V c 1 t :=
  before10_1_of V (dat10 V c) (A_eq10 V c 1) (after10_1 V c) t d
theorem before10_2 (c : Dev nD) (t : Fin cfg10.N) (d) : (dat10 V c).before 2 t d = iblk10 V c 2 t :=
  before10_2_of V (dat10 V c) (A_eq10 V c 2) (after10_2 V c) t d

def bodyPre10 (c : Dev nD) (t : Fin cfg10.N) : sProp 𝕄 :=
  iprop((dat10 V c).Φ t.castSucc ∗ (dat10 V c).owesAt () t.castSucc
    ∗ (∃ d, owns (c : Thread nD τ) (st10_0 t) fullShare ((dat10 V c).before 0 t d))
    ∗ (∃ d, owns (c : Thread nD τ) (st10_1 t) fullShare ((dat10 V c).before 1 t d))
    ∗ (∃ d, owns (c : Thread nD τ) (st10_2 t) fullShare ((dat10 V c).before 2 t d))
    ∗ (∃ d, owns (c : Thread nD τ) (st10_3 t) fullShare ((dat10 V c).before 3 t d)))

def bodyPost10 (c : Dev nD) (t : Fin cfg10.N) : sProp 𝕄 :=
  iprop((dat10 V c).Φ t.succ ∗ (dat10 V c).owesAt () t.succ
    ∗ owns (c : Thread nD τ) (st10_0 t) fullShare ((dat10 V c).after 0 t)
    ∗ owns (c : Thread nD τ) (st10_1 t) fullShare ((dat10 V c).after 1 t)
    ∗ owns (c : Thread nD τ) (st10_2 t) fullShare ((dat10 V c).after 2 t)
    ∗ owns (c : Thread nD τ) (st10_3 t) fullShare ((dat10 V c).after 3 t))

theorem sound_body10 (c : Dev nD) (t : Fin cfg10.N) :
    bodyPre10 V c t ⊢ wp frame (wpE (defs₀ (F := F)) Variants.none c none) Set.univ (bodyAt10 t) (fun _ => bodyPost10 V c t) := by
  unfold bodyPre10 bodyPost10 bodyAt10
  simp only [before10_0, before10_1, before10_2]
  rw [show (dat10 V c).Φ t.succ = (dat10 V c).Φ t.castSucc from rfl,
    show (dat10 V c).owesAt () t.succ = (dat10 V c).owesAt () t.castSucc from rfl,
    after10_0, after10_1, after10_2, after10_3]
  iintro ⟨HΦ, Ho, ⟨%d0, H0⟩, ⟨%d1, H1⟩, ⟨%d2, H2⟩, ⟨%d3, H3⟩⟩
  iapply (sound_kernel10 c Set.univ _ _ _ _ _ _ _ _ _ (iblk10 V c 0 t) (iblk10 V c 1 t) (iblk10 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation10 (c : Dev nD) : BodyObligation (dat10 (F := F) V c) (defs₀ (F := F)) Variants.none () Set.univ := fun t => by
  rw [bigSep_W10, bigSep_W10]
  exact sound_body10 V c t

theorem hin10 (c : Dev nD) : Pipeline.ΦA spec10 c ⊢ (dat10 V c).Φ 0 := .rfl

theorem hout10 (c : Dev nD) : (dat10 V c).Φ (Fin.last cfg10.N) ⊢ Pipeline.ΦA spec10 c := .rfl

end Cert.KernelIdeal.Hand

end
-- ==== Proof.KI.Fold.lean ====
import proofs.«418928_j70858370450169_1_alg».proof.Proof.Gen.KernelIdeal.Regions
import proofs.«418928_j70858370450169_1_alg».proof.Proof.KI.Reg0
import proofs.«418928_j70858370450169_1_alg».proof.Proof.KI.Reg1
import proofs.«418928_j70858370450169_1_alg».proof.Proof.KI.Reg2
import proofs.«418928_j70858370450169_1_alg».proof.Proof.KI.Reg3
import proofs.«418928_j70858370450169_1_alg».proof.Proof.KI.Reg4
import proofs.«418928_j70858370450169_1_alg».proof.Proof.KI.Reg5
import proofs.«418928_j70858370450169_1_alg».proof.Proof.KI.Reg6
import proofs.«418928_j70858370450169_1_alg».proof.Proof.KI.Reg7
import proofs.«418928_j70858370450169_1_alg».proof.Proof.KI.Reg8
import proofs.«418928_j70858370450169_1_alg».proof.Proof.KI.Reg9
import proofs.«418928_j70858370450169_1_alg».proof.Proof.KI.Reg10

set_option maxRecDepth 16384

noncomputable section

namespace Cert.KernelIdeal.Hand

open Cert.KernelIdeal Cert.KernelIdeal.Gen
open Idealize.ShloMosaic Idealize.ShloMosaic.TcCoe
open Idealize.ShloMosaic.Pipeline (Dat)

variable {F : FTy → Type} [FloatOps F]

variable (m : (ℓ : Loc nD τ sig) → Buf (Elt F) ℓ)

abbrev TcVal (F : FTy → Type) : Type := (c : Dev nD) → (b : Ref sig .tc) → Buf (Elt F) ((c : Thread nD τ).loc b)

def U0 (c : Dev nD) : Valuation τ sig (Elt F) := V0 m c

def U1 (c : Dev nD) : Valuation τ sig (Elt F) := StableHlo.after hostOps0 (U0 m c)
abbrev U1v : TcVal F := fun c b => U1 m c b

def U2 (c : Dev nD) : Valuation τ sig (Elt F) :=
  Function.update (U1 m c) main_v27 ((dat0 (U1v m) c).arrAt 2 cfg0.N)
abbrev U2v : TcVal F := fun c b => U2 m c b

def U3 (c : Dev nD) : Valuation τ sig (Elt F) := StableHlo.after hostOps1 (U2 m c)
abbrev U3v : TcVal F := fun c b => U3 m c b

def U4 (c : Dev nD) : Valuation τ sig (Elt F) :=
  Function.update (Function.update (Function.update (U3 m c)
    main_v43_0 ((dat1 (U3v m) c).arrAt 4 cfg1.N)) main_v43_1 ((dat1 (U3v m) c).arrAt 5 cfg1.N)) main_v43_2 ((dat1 (U3v m) c).arrAt 6 cfg1.N)
abbrev U4v : TcVal F := fun c b => U4 m c b

def U5 (c : Dev nD) : Valuation τ sig (Elt F) := StableHlo.after hostOps2 (U4 m c)
abbrev U5v : TcVal F := fun c b => U5 m c b

def U6 (c : Dev nD) : Valuation τ sig (Elt F) :=
  Function.update (U5 m c) main_v60 ((dat2 (U5v m) c).arrAt 3 cfg2.N)
abbrev U6v : TcVal F := fun c b => U6 m c b

def U7 (c : Dev nD) : Valuation τ sig (Elt F) :=
  Function.update (U6 m c) main_v61 ((dat3 (U6v m) c).arrAt 2 cfg3.N)
abbrev U7v : TcVal F := fun c b => U7 m c b

def U8 (c : Dev nD) : Valuation τ sig (Elt F) := StableHlo.after hostOps4 (U7 m c)
abbrev U8v : TcVal F := fun c b => U8 m c b

def U9 (c : Dev nD) : Valuation τ sig (Elt F) :=
  Function.update (Function.update (Function.update (U8 m c)
    main_v77_0 ((dat4 (U8v m) c).arrAt 4 cfg4.N)) main_v77_1 ((dat4 (U8v m) c).arrAt 5 cfg4.N)) main_v77_2 ((dat4 (U8v m) c).arrAt 6 cfg4.N)
abbrev U9v : TcVal F := fun c b => U9 m c b

def U10 (c : Dev nD) : Valuation τ sig (Elt F) := StableHlo.after hostOps5 (U9 m c)
abbrev U10v : TcVal F := fun c b => U10 m c b

def U11 (c : Dev nD) : Valuation τ sig (Elt F) :=
  Function.update (U10 m c) main_v94 ((dat5 (U10v m) c).arrAt 3 cfg5.N)
abbrev U11v : TcVal F := fun c b => U11 m c b

def U12 (c : Dev nD) : Valuation τ sig (Elt F) :=
  Function.update (U11 m c) main_v95 ((dat6 (U11v m) c).arrAt 2 cfg6.N)
abbrev U12v : TcVal F := fun c b => U12 m c b

def U13 (c : Dev nD) : Valuation τ sig (Elt F) := StableHlo.after hostOps7 (U12 m c)
abbrev U13v : TcVal F := fun c b => U13 m c b

def U14 (c : Dev nD) : Valuation τ sig (Elt F) :=
  Function.update (Function.update (Function.update (U13 m c)
    main_v111_0 ((dat7 (U13v m) c).arrAt 4 cfg7.N)) main_v111_1 ((dat7 (U13v m) c).arrAt 5 cfg7.N)) main_v111_2 ((dat7 (U13v m) c).arrAt 6 cfg7.N)
abbrev U14v : TcVal F := fun c b => U14 m c b

def U15 (c : Dev nD) : Valuation τ sig (Elt F) := StableHlo.after hostOps8 (U14 m c)
abbrev U15v : TcVal F := fun c b => U15 m c b

def U16 (c : Dev nD) : Valuation τ sig (Elt F) :=
  Function.update (U15 m c) main_v128 ((dat8 (U15v m) c).arrAt 3 cfg8.N)
abbrev U16v : TcVal F := fun c b => U16 m c b

def U17 (c : Dev nD) : Valuation τ sig (Elt F) := StableHlo.after hostOps9 (U16 m c)
abbrev U17v : TcVal F := fun c b => U17 m c b

def U18 (c : Dev nD) : Valuation τ sig (Elt F) :=
  Function.update (U17 m c) main_v130 ((dat9 (U17v m) c).arrAt 2 cfg9.N)
abbrev U18v : TcVal F := fun c b => U18 m c b

def U19 (c : Dev nD) : Valuation τ sig (Elt F) := StableHlo.after hostOps10 (U18 m c)
abbrev U19v : TcVal F := fun c b => U19 m c b

def U20 (c : Dev nD) : Valuation τ sig (Elt F) :=
  Function.update (U19 m c) main_v133 ((dat10 (U19v m) c).arrAt 3 cfg10.N)
abbrev U20v : TcVal F := fun c b => U20 m c b

theorem U2_main_v27 (c : Dev nD) : U2 m c main_v27 = (dat0 (U1v m) c).arrAt 2 cfg0.N := by
  unfold U2; exact Function.update_self _ _ _
theorem U4_main_v43_0 (c : Dev nD) : U4 m c main_v43_0 = (dat1 (U3v m) c).arrAt 4 cfg1.N := by
  unfold U4
  rw [Function.update_of_ne (by decide), Function.update_of_ne (by decide)]; exact Function.update_self _ _ _
theorem U4_main_v43_1 (c : Dev nD) : U4 m c main_v43_1 = (dat1 (U3v m) c).arrAt 5 cfg1.N := by
  unfold U4
  rw [Function.update_of_ne (by decide)]; exact Function.update_self _ _ _
theorem U4_main_v43_2 (c : Dev nD) : U4 m c main_v43_2 = (dat1 (U3v m) c).arrAt 6 cfg1.N := by
  unfold U4; exact Function.update_self _ _ _
theorem U6_main_v60 (c : Dev nD) : U6 m c main_v60 = (dat2 (U5v m) c).arrAt 3 cfg2.N := by
  unfold U6; exact Function.update_self _ _ _
theorem U7_main_v61 (c : Dev nD) : U7 m c main_v61 = (dat3 (U6v m) c).arrAt 2 cfg3.N := by
  unfold U7; exact Function.update_self _ _ _
theorem U9_main_v77_0 (c : Dev nD) : U9 m c main_v77_0 = (dat4 (U8v m) c).arrAt 4 cfg4.N := by
  unfold U9
  rw [Function.update_of_ne (by decide), Function.update_of_ne (by decide)]; exact Function.update_self _ _ _
theorem U9_main_v77_1 (c : Dev nD) : U9 m c main_v77_1 = (dat4 (U8v m) c).arrAt 5 cfg4.N := by
  unfold U9
  rw [Function.update_of_ne (by decide)]; exact Function.update_self _ _ _
theorem U9_main_v77_2 (c : Dev nD) : U9 m c main_v77_2 = (dat4 (U8v m) c).arrAt 6 cfg4.N := by
  unfold U9; exact Function.update_self _ _ _
theorem U11_main_v94 (c : Dev nD) : U11 m c main_v94 = (dat5 (U10v m) c).arrAt 3 cfg5.N := by
  unfold U11; exact Function.update_self _ _ _
theorem U12_main_v95 (c : Dev nD) : U12 m c main_v95 = (dat6 (U11v m) c).arrAt 2 cfg6.N := by
  unfold U12; exact Function.update_self _ _ _
theorem U14_main_v111_0 (c : Dev nD) : U14 m c main_v111_0 = (dat7 (U13v m) c).arrAt 4 cfg7.N := by
  unfold U14
  rw [Function.update_of_ne (by decide), Function.update_of_ne (by decide)]; exact Function.update_self _ _ _
theorem U14_main_v111_1 (c : Dev nD) : U14 m c main_v111_1 = (dat7 (U13v m) c).arrAt 5 cfg7.N := by
  unfold U14
  rw [Function.update_of_ne (by decide)]; exact Function.update_self _ _ _
theorem U14_main_v111_2 (c : Dev nD) : U14 m c main_v111_2 = (dat7 (U13v m) c).arrAt 6 cfg7.N := by
  unfold U14; exact Function.update_self _ _ _
theorem U16_main_v128 (c : Dev nD) : U16 m c main_v128 = (dat8 (U15v m) c).arrAt 3 cfg8.N := by
  unfold U16; exact Function.update_self _ _ _
theorem U18_main_v130 (c : Dev nD) : U18 m c main_v130 = (dat9 (U17v m) c).arrAt 2 cfg9.N := by
  unfold U18; exact Function.update_self _ _ _
theorem U20_main_v133 (c : Dev nD) : U20 m c main_v133 = (dat10 (U19v m) c).arrAt 3 cfg10.N := by
  unfold U20; exact Function.update_self _ _ _

theorem U2_of_ne (c : Dev nD) (b : Ref sig .tc) (h : b ≠ main_v27) : U2 m c b = U1 m c b := by
  unfold U2; exact Function.update_of_ne (fun e => h (Proc.devRef_injective _ e)) _ _
theorem U4_of_ne (c : Dev nD) (b : Ref sig .tc) (h0 : b ≠ main_v43_0) (h1 : b ≠ main_v43_1) (h2 : b ≠ main_v43_2) : U4 m c b = U3 m c b := by
  unfold U4
  rw [Function.update_of_ne (fun e => h2 (Proc.devRef_injective _ e)), Function.update_of_ne (fun e => h1 (Proc.devRef_injective _ e))]
  exact Function.update_of_ne (fun e => h0 (Proc.devRef_injective _ e)) _ _
theorem U6_of_ne (c : Dev nD) (b : Ref sig .tc) (h : b ≠ main_v60) : U6 m c b = U5 m c b := by
  unfold U6; exact Function.update_of_ne (fun e => h (Proc.devRef_injective _ e)) _ _
theorem U7_of_ne (c : Dev nD) (b : Ref sig .tc) (h : b ≠ main_v61) : U7 m c b = U6 m c b := by
  unfold U7; exact Function.update_of_ne (fun e => h (Proc.devRef_injective _ e)) _ _
theorem U9_of_ne (c : Dev nD) (b : Ref sig .tc) (h0 : b ≠ main_v77_0) (h1 : b ≠ main_v77_1) (h2 : b ≠ main_v77_2) : U9 m c b = U8 m c b := by
  unfold U9
  rw [Function.update_of_ne (fun e => h2 (Proc.devRef_injective _ e)), Function.update_of_ne (fun e => h1 (Proc.devRef_injective _ e))]
  exact Function.update_of_ne (fun e => h0 (Proc.devRef_injective _ e)) _ _
theorem U11_of_ne (c : Dev nD) (b : Ref sig .tc) (h : b ≠ main_v94) : U11 m c b = U10 m c b := by
  unfold U11; exact Function.update_of_ne (fun e => h (Proc.devRef_injective _ e)) _ _
theorem U12_of_ne (c : Dev nD) (b : Ref sig .tc) (h : b ≠ main_v95) : U12 m c b = U11 m c b := by
  unfold U12; exact Function.update_of_ne (fun e => h (Proc.devRef_injective _ e)) _ _
theorem U14_of_ne (c : Dev nD) (b : Ref sig .tc) (h0 : b ≠ main_v111_0) (h1 : b ≠ main_v111_1) (h2 : b ≠ main_v111_2) : U14 m c b = U13 m c b := by
  unfold U14
  rw [Function.update_of_ne (fun e => h2 (Proc.devRef_injective _ e)), Function.update_of_ne (fun e => h1 (Proc.devRef_injective _ e))]
  exact Function.update_of_ne (fun e => h0 (Proc.devRef_injective _ e)) _ _
theorem U16_of_ne (c : Dev nD) (b : Ref sig .tc) (h : b ≠ main_v128) : U16 m c b = U15 m c b := by
  unfold U16; exact Function.update_of_ne (fun e => h (Proc.devRef_injective _ e)) _ _
theorem U18_of_ne (c : Dev nD) (b : Ref sig .tc) (h : b ≠ main_v130) : U18 m c b = U17 m c b := by
  unfold U18; exact Function.update_of_ne (fun e => h (Proc.devRef_injective _ e)) _ _
theorem U20_of_ne (c : Dev nD) (b : Ref sig .tc) (h : b ≠ main_v133) : U20 m c b = U19 m c b := by
  unfold U20; exact Function.update_of_ne (fun e => h (Proc.devRef_injective _ e)) _ _

def outsOf : Outs (F := F) := fun J r c =>
  match J with
  | 2 => U2 m c r
  | 4 => U4 m c r
  | 6 => U6 m c r
  | 7 => U7 m c r
  | 9 => U9 m c r
  | 11 => U11 m c r
  | 12 => U12 m c r
  | 14 => U14 m c r
  | 16 => U16 m c r
  | 18 => U18 m c r
  | 20 => U20 m c r
  | _ => U0 m c r

theorem V1_eq (c : Dev nD) : V1 m c = U1 m c := rfl
theorem V2_eq (c : Dev nD) : V2 m (outsOf m) c = U2 m c := by
  show Function.update (V1 m c) main_v27 (U2 m c main_v27) = U2 m c
  rw [U2_main_v27, V1_eq]; rfl
theorem V3_eq (c : Dev nD) : V3 m (outsOf m) c = U3 m c := by
  show StableHlo.after hostOps1 (V2 m (outsOf m) c) = U3 m c
  rw [V2_eq]; rfl
theorem V4_eq (c : Dev nD) : V4 m (outsOf m) c = U4 m c := by
  show Function.update (Function.update (Function.update (V3 m (outsOf m) c) main_v43_0 (U4 m c main_v43_0)) main_v43_1 (U4 m c main_v43_1)) main_v43_2 (U4 m c main_v43_2) = U4 m c
  rw [U4_main_v43_0, U4_main_v43_1, U4_main_v43_2, V3_eq]; rfl
theorem V5_eq (c : Dev nD) : V5 m (outsOf m) c = U5 m c := by
  show StableHlo.after hostOps2 (V4 m (outsOf m) c) = U5 m c
  rw [V4_eq]; rfl
theorem V6_eq (c : Dev nD) : V6 m (outsOf m) c = U6 m c := by
  show Function.update (V5 m (outsOf m) c) main_v60 (U6 m c main_v60) = U6 m c
  rw [U6_main_v60, V5_eq]; rfl
theorem V7_eq (c : Dev nD) : V7 m (outsOf m) c = U7 m c := by
  show Function.update (V6 m (outsOf m) c) main_v61 (U7 m c main_v61) = U7 m c
  rw [U7_main_v61, V6_eq]; rfl
theorem V8_eq (c : Dev nD) : V8 m (outsOf m) c = U8 m c := by
  show StableHlo.after hostOps4 (V7 m (outsOf m) c) = U8 m c
  rw [V7_eq]; rfl
theorem V9_eq (c : Dev nD) : V9 m (outsOf m) c = U9 m c := by
  show Function.update (Function.update (Function.update (V8 m (outsOf m) c) main_v77_0 (U9 m c main_v77_0)) main_v77_1 (U9 m c main_v77_1)) main_v77_2 (U9 m c main_v77_2) = U9 m c
  rw [U9_main_v77_0, U9_main_v77_1, U9_main_v77_2, V8_eq]; rfl
theorem V10_eq (c : Dev nD) : V10 m (outsOf m) c = U10 m c := by
  show StableHlo.after hostOps5 (V9 m (outsOf m) c) = U10 m c
  rw [V9_eq]; rfl
theorem V11_eq (c : Dev nD) : V11 m (outsOf m) c = U11 m c := by
  show Function.update (V10 m (outsOf m) c) main_v94 (U11 m c main_v94) = U11 m c
  rw [U11_main_v94, V10_eq]; rfl
theorem V12_eq (c : Dev nD) : V12 m (outsOf m) c = U12 m c := by
  show Function.update (V11 m (outsOf m) c) main_v95 (U12 m c main_v95) = U12 m c
  rw [U12_main_v95, V11_eq]; rfl
theorem V13_eq (c : Dev nD) : V13 m (outsOf m) c = U13 m c := by
  show StableHlo.after hostOps7 (V12 m (outsOf m) c) = U13 m c
  rw [V12_eq]; rfl
theorem V14_eq (c : Dev nD) : V14 m (outsOf m) c = U14 m c := by
  show Function.update (Function.update (Function.update (V13 m (outsOf m) c) main_v111_0 (U14 m c main_v111_0)) main_v111_1 (U14 m c main_v111_1)) main_v111_2 (U14 m c main_v111_2) = U14 m c
  rw [U14_main_v111_0, U14_main_v111_1, U14_main_v111_2, V13_eq]; rfl
theorem V15_eq (c : Dev nD) : V15 m (outsOf m) c = U15 m c := by
  show StableHlo.after hostOps8 (V14 m (outsOf m) c) = U15 m c
  rw [V14_eq]; rfl
theorem V16_eq (c : Dev nD) : V16 m (outsOf m) c = U16 m c := by
  show Function.update (V15 m (outsOf m) c) main_v128 (U16 m c main_v128) = U16 m c
  rw [U16_main_v128, V15_eq]; rfl
theorem V17_eq (c : Dev nD) : V17 m (outsOf m) c = U17 m c := by
  show StableHlo.after hostOps9 (V16 m (outsOf m) c) = U17 m c
  rw [V16_eq]; rfl
theorem V18_eq (c : Dev nD) : V18 m (outsOf m) c = U18 m c := by
  show Function.update (V17 m (outsOf m) c) main_v130 (U18 m c main_v130) = U18 m c
  rw [U18_main_v130, V17_eq]; rfl
theorem V19_eq (c : Dev nD) : V19 m (outsOf m) c = U19 m c := by
  show StableHlo.after hostOps10 (V18 m (outsOf m) c) = U19 m c
  rw [V18_eq]; rfl
theorem V20_eq (c : Dev nD) : V20 m (outsOf m) c = U20 m c := by
  show Function.update (V19 m (outsOf m) c) main_v133 (U20 m c main_v133) = U20 m c
  rw [U20_main_v133, V19_eq]; rfl

end Cert.KernelIdeal.Hand

end
-- ==== Proof.KI.SegBase.lean ====
import proofs.«418928_j70858370450169_1_alg».proof.Proof.KI.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

abbrev E : Fin 12 → Dev nD → sProp 𝕄 := fun _ c =>
  iprop((∃ r, prngReg c r) ∗ ∃ W, owes (c : Thread nD τ) (0 : CellTallies nD τ sig Unit) W)

def pdats : (p : Fin 11) → (c : Dev nD) → Dat τ (Elt F) Unit ℕ (UR sig nD τ) ℕ (cfgs p) c
  | ⟨0, _⟩ => fun c => dat0 (U1v m) c
  | ⟨1, _⟩ => fun c => dat1 (U3v m) c
  | ⟨2, _⟩ => fun c => dat2 (U5v m) c
  | ⟨3, _⟩ => fun c => dat3 (U6v m) c
  | ⟨4, _⟩ => fun c => dat4 (U8v m) c
  | ⟨5, _⟩ => fun c => dat5 (U10v m) c
  | ⟨6, _⟩ => fun c => dat6 (U11v m) c
  | ⟨7, _⟩ => fun c => dat7 (U13v m) c
  | ⟨8, _⟩ => fun c => dat8 (U15v m) c
  | ⟨9, _⟩ => fun c => dat9 (U17v m) c
  | ⟨10, _⟩ => fun c => dat10 (U19v m) c

abbrev 𝒱₀ : Variants := Variants.none

abbrev L : GSem nD τ sig → Finset Unit := fun _ => ∅
abbrev lv : GSem nD τ sig → Unit → ℕ := fun _ _ => 0

abbrev tcv (V : Dev nD → Valuation τ sig (Elt F)) : TcVal F := fun c b => V c b

theorem owesAt_intro {cfg : Cfg sig Λ₀} {c : Dev nD} (dat : Dat τ (Elt F) Unit ℕ (UR sig nD τ) ℕ cfg c) (t : Fin (cfg.N + 1))
    (h0 : dat.owed t = 0) (hrec : ∀ x, x ∈ dat.recorded t) :
    (iprop(∃ W, owes (c : Thread nD τ) (0 : CellTallies nD τ sig Unit) W) : sProp 𝕄) ⊢ dat.owesAt () t := by
  unfold Pipeline.Dat.owesAt Pipeline.owesWithin; rw [h0]
  iintro ⟨%W, HO⟩; iexists W; isplitr; · ipureintro; exact fun x _ => Or.inl (hrec x)
  iexact HO

theorem owesAt_elim {cfg : Cfg sig Λ₀} {c : Dev nD} (dat : Dat τ (Elt F) Unit ℕ (UR sig nD τ) ℕ cfg c) (t : Fin (cfg.N + 1))
    (h0 : dat.owed t = 0) :
    dat.owesAt () t ⊢ (iprop(∃ W, owes (c : Thread nD τ) (0 : CellTallies nD τ sig Unit) W) : sProp 𝕄) := by
  unfold Pipeline.Dat.owesAt Pipeline.owesWithin; rw [h0]
  iintro ⟨%W, -, HO⟩; iexists W; iexact HO

theorem pdats_share (p : Fin 11) (c : Dev nD) : ∀ w, (pdats m p c).share w = fullShare := by
  fin_cases p <;> exact Dat.share_full _ fun _ => rfl
theorem pdats_owed (p : Fin 11) (c : Dev nD) : ∀ t, (pdats m p c).owed t = 0 := by
  fin_cases p <;> exact fun _ => rfl
theorem pdats_rec (p : Fin 11) (c : Dev nD) : ∀ x, x ∈ (pdats m p c).recorded 0 := by
  fin_cases p <;> exact fun _ => trivial

set_option backward.isDefEq.respectTransparency.types false in
def mkReg (p : Fin 11) (lf : Pipeline.LaunchFacts (nD := nD) (τ := τ) cfgs p)
    (Uin Uout : Dev nD → Valuation τ sig (Elt F))
    (hbody : ∀ c, BodyObligation (pdats m p c) defs₀ 𝒱₀ () Set.univ)
    (hA : ∀ c w, (pdats m p c).A w = tcv Uin c (Pipeline.arrRef (cfgs p).spec w))
    (hF : ∀ c w, (pdats m p c).arrAt w (cfgs p).N = tcv Uout c (Pipeline.arrRef (cfgs p).spec w))
    (hrest : ∀ c b, b ∉ Finset.univ.image (Pipeline.arrRef (cfgs p).spec) → tcv Uout c b = tcv Uin c b)
    (hin : ∀ c, Pipeline.ΦA (cfgs p).spec c ⊢ (pdats m p c).Φ 0)
    (hout : ∀ c, (pdats m p c).Φ (Fin.last (cfgs p).N) ⊢ Pipeline.ΦA (cfgs p).spec c) :
    RegionSeg (pcfgs (F := F)) adm (pdats m) () defs₀ 𝒱₀ L lv p where
  win := lf.win.to₀
  block_pos := lf.block_pos
  stage_whole := lf.stage_whole
  K := PEmpty
  osem k := k.elim
  ho := Pipeline.OwnSemFacts.none _
  hbody c := (hbody c).loose
  hwaits := Pipeline.hwaits_of_owed_zero (pcfgs (F := F)) adm (pdats m) () L lv p (pdats_owed m p)
  pre c := iprop(StableHlo.held (c : Thread nD τ) (Pipeline.ucRefs τ sig) (Uin c) ∗ E p.castSucc c)
  post c := iprop(StableHlo.held (c : Thread nD τ) (Pipeline.ucRefs τ sig) (Uout c) ∗ E p.succ c)
  X c := iprop(∃ r, prngReg c r)
  Y c := iprop(∃ r, prngReg c r)
  Z c := Pipeline.unscopedRest (Ix := Unit) (Name := ℕ) (U := UR sig nD τ) (Lvl := ℕ) (cfgs p).spec c (tcv Uin c)
  hentry c := by
    rw [Pipeline.ownSems0_none]
    have hsplit := Pipeline.arrays_of_unscopedBufs (p := p) (pcfgs (F := F)) adm (pdats m) lf.win lf.arr_whole c
      (pdats_share m p c) (tcv Uin c) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply owesAt_intro (pdats m p c) 0 (pdats_owed m p c 0) (pdats_rec m p c); iexact HO
    isplitl [Hp]; · iexact Hp
    iexact Hrest
  hin c := by
    refine .trans ?_ (hin c)
    unfold Pipeline.ΦA
    iintro ⟨Hp, -, Hr⟩
    isplitl [Hr]; · iexact Hr
    iexact Hp
  hout c := by
    refine .trans (hout c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      lf.win lf.arr_whole c (pdats m) (pdats_share m p c)
      (tcv Uin c) (tcv Uout c) ((pdats m p c).arrAt · (cfgs p).N) (hF c) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    iapply owesAt_elim (pdats m p c) (Fin.last _) (pdats_owed m p c _); iexact HO

end Cert.KernelIdeal.Hand

end
-- ==== Proof.KI.Seg0.lean ====
import proofs.«418928_j70858370450169_1_alg».proof.Proof.KI.SegBase

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

theorem hF0_0 (c : Dev nD) : (dat0 (U1v m) c).arrAt 0 cfg0.N = U2v m c main_arg0 :=
  ((dat0 (U1v m) c).arrAt_in 0 rfl cfg0.N).trans ((A_eq0 (U1v m) c 0).trans (U2_of_ne m c main_arg0 (by decide)).symm)
theorem hF0_1 (c : Dev nD) : (dat0 (U1v m) c).arrAt 1 cfg0.N = U2v m c main_arg4 :=
  ((dat0 (U1v m) c).arrAt_in 1 rfl cfg0.N).trans ((A_eq0 (U1v m) c 1).trans (U2_of_ne m c main_arg4 (by decide)).symm)
theorem hF0_2 (c : Dev nD) : (dat0 (U1v m) c).arrAt 2 cfg0.N = U2v m c main_v27 := (U2_main_v27 m c).symm
set_option maxHeartbeats 1000000 in
theorem hF0 (c : Dev nD) : ∀ w : Fin 3, (dat0 (U1v m) c).arrAt w cfg0.N = U2v m c (Pipeline.arrRef spec0 w) := fun
  | 0 => hF0_0 m c
  | 1 => hF0_1 m c
  | 2 => hF0_2 m c
  | ⟨_ + 3, h⟩ => absurd h (Nat.not_lt.2 (Nat.le_add_left _ _))

theorem hrest0 (c : Dev nD) : ∀ b, b ∉ Finset.univ.image (Pipeline.arrRef spec0) → U2v m c b = U1v m c b :=
  fun b hb => U2_of_ne m c b
    (fun e => hb (Finset.mem_image.mpr ⟨2, Finset.mem_univ _, e.symm⟩))

def reg0 : RegionSeg (pcfgs (F := F)) adm (pdats m) () defs₀ 𝒱₀ L lv 0 :=
  mkReg m 0 launch0 (U1 m) (U2 m) (body_obligation0 (U1v m))
    (A_eq0 (U1v m)) (hF0 m) (hrest0 m) (hin0 (U1v m)) (hout0 (U1v m))

end Cert.KernelIdeal.Hand

end
-- ==== Proof.KI.Seg1.lean ====
import proofs.«418928_j70858370450169_1_alg».proof.Proof.KI.SegBase

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

theorem hF1_0 (c : Dev nD) : (dat1 (U3v m) c).arrAt 0 cfg1.N = U4v m c main_v40 :=
  ((dat1 (U3v m) c).arrAt_in 0 rfl cfg1.N).trans ((A_eq1 (U3v m) c 0).trans (U4_of_ne m c main_v40 (by decide) (by decide) (by decide)).symm)
theorem hF1_1 (c : Dev nD) : (dat1 (U3v m) c).arrAt 1 cfg1.N = U4v m c main_v27 :=
  ((dat1 (U3v m) c).arrAt_in 1 rfl cfg1.N).trans ((A_eq1 (U3v m) c 1).trans (U4_of_ne m c main_v27 (by decide) (by decide) (by decide)).symm)
theorem hF1_2 (c : Dev nD) : (dat1 (U3v m) c).arrAt 2 cfg1.N = U4v m c main_v41 :=
  ((dat1 (U3v m) c).arrAt_in 2 rfl cfg1.N).trans ((A_eq1 (U3v m) c 2).trans (U4_of_ne m c main_v41 (by decide) (by decide) (by decide)).symm)
theorem hF1_3 (c : Dev nD) : (dat1 (U3v m) c).arrAt 3 cfg1.N = U4v m c main_v42 :=
  ((dat1 (U3v m) c).arrAt_in 3 rfl cfg1.N).trans ((A_eq1 (U3v m) c 3).trans (U4_of_ne m c main_v42 (by decide) (by decide) (by decide)).symm)
theorem hF1_4 (c : Dev nD) : (dat1 (U3v m) c).arrAt 4 cfg1.N = U4v m c main_v43_0 := (U4_main_v43_0 m c).symm
theorem hF1_5 (c : Dev nD) : (dat1 (U3v m) c).arrAt 5 cfg1.N = U4v m c main_v43_1 := (U4_main_v43_1 m c).symm
theorem hF1_6 (c : Dev nD) : (dat1 (U3v m) c).arrAt 6 cfg1.N = U4v m c main_v43_2 := (U4_main_v43_2 m c).symm
set_option maxHeartbeats 1000000 in
theorem hF1 (c : Dev nD) : ∀ w : Fin 7, (dat1 (U3v m) c).arrAt w cfg1.N = U4v m c (Pipeline.arrRef spec1 w) := fun
  | 0 => hF1_0 m c
  | 1 => hF1_1 m c
  | 2 => hF1_2 m c
  | 3 => hF1_3 m c
  | 4 => hF1_4 m c
  | 5 => hF1_5 m c
  | 6 => hF1_6 m c
  | ⟨_ + 7, h⟩ => absurd h (Nat.not_lt.2 (Nat.le_add_left _ _))

theorem hrest1 (c : Dev nD) : ∀ b, b ∉ Finset.univ.image (Pipeline.arrRef spec1) → U4v m c b = U3v m c b :=
  fun b hb => U4_of_ne m c b
    (fun e => hb (Finset.mem_image.mpr ⟨4, Finset.mem_univ _, e.symm⟩))
    (fun e => hb (Finset.mem_image.mpr ⟨5, Finset.mem_univ _, e.symm⟩))
    (fun e => hb (Finset.mem_image.mpr ⟨6, Finset.mem_univ _, e.symm⟩))

def reg1 : RegionSeg (pcfgs (F := F)) adm (pdats m) () defs₀ 𝒱₀ L lv 1 :=
  mkReg m 1 launch1 (U3 m) (U4 m) (body_obligation1 (U3v m))
    (A_eq1 (U3v m)) (hF1 m) (hrest1 m) (hin1 (U3v m)) (hout1 (U3v m))

end Cert.KernelIdeal.Hand

end
-- ==== Proof.KI.Seg2.lean ====
import proofs.«418928_j70858370450169_1_alg».proof.Proof.KI.SegBase

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

theorem hF2_0 (c : Dev nD) : (dat2 (U5v m) c).arrAt 0 cfg2.N = U6v m c main_v43_0 :=
  ((dat2 (U5v m) c).arrAt_in 0 rfl cfg2.N).trans ((A_eq2 (U5v m) c 0).trans (U6_of_ne m c main_v43_0 (by decide)).symm)
theorem hF2_1 (c : Dev nD) : (dat2 (U5v m) c).arrAt 1 cfg2.N = U6v m c main_v58 :=
  ((dat2 (U5v m) c).arrAt_in 1 rfl cfg2.N).trans ((A_eq2 (U5v m) c 1).trans (U6_of_ne m c main_v58 (by decide)).symm)
theorem hF2_2 (c : Dev nD) : (dat2 (U5v m) c).arrAt 2 cfg2.N = U6v m c main_v59 :=
  ((dat2 (U5v m) c).arrAt_in 2 rfl cfg2.N).trans ((A_eq2 (U5v m) c 2).trans (U6_of_ne m c main_v59 (by decide)).symm)
theorem hF2_3 (c : Dev nD) : (dat2 (U5v m) c).arrAt 3 cfg2.N = U6v m c main_v60 := (U6_main_v60 m c).symm
set_option maxHeartbeats 1000000 in
theorem hF2 (c : Dev nD) : ∀ w : Fin 4, (dat2 (U5v m) c).arrAt w cfg2.N = U6v m c (Pipeline.arrRef spec2 w) := fun
  | 0 => hF2_0 m c
  | 1 => hF2_1 m c
  | 2 => hF2_2 m c
  | 3 => hF2_3 m c
  | ⟨_ + 4, h⟩ => absurd h (Nat.not_lt.2 (Nat.le_add_left _ _))

theorem hrest2 (c : Dev nD) : ∀ b, b ∉ Finset.univ.image (Pipeline.arrRef spec2) → U6v m c b = U5v m c b :=
  fun b hb => U6_of_ne m c b
    (fun e => hb (Finset.mem_image.mpr ⟨3, Finset.mem_univ _, e.symm⟩))

def reg2 : RegionSeg (pcfgs (F := F)) adm (pdats m) () defs₀ 𝒱₀ L lv 2 :=
  mkReg m 2 launch2 (U5 m) (U6 m) (body_obligation2 (U5v m))
    (A_eq2 (U5v m)) (hF2 m) (hrest2 m) (hin2 (U5v m)) (hout2 (U5v m))

end Cert.KernelIdeal.Hand

end
-- ==== Proof.KI.Seg3.lean ====
import proofs.«418928_j70858370450169_1_alg».proof.Proof.KI.SegBase

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

theorem hF3_0 (c : Dev nD) : (dat3 (U6v m) c).arrAt 0 cfg3.N = U7v m c main_v60 :=
  ((dat3 (U6v m) c).arrAt_in 0 rfl cfg3.N).trans ((A_eq3 (U6v m) c 0).trans (U7_of_ne m c main_v60 (by decide)).symm)
theorem hF3_1 (c : Dev nD) : (dat3 (U6v m) c).arrAt 1 cfg3.N = U7v m c main_arg6 :=
  ((dat3 (U6v m) c).arrAt_in 1 rfl cfg3.N).trans ((A_eq3 (U6v m) c 1).trans (U7_of_ne m c main_arg6 (by decide)).symm)
theorem hF3_2 (c : Dev nD) : (dat3 (U6v m) c).arrAt 2 cfg3.N = U7v m c main_v61 := (U7_main_v61 m c).symm
set_option maxHeartbeats 1000000 in
theorem hF3 (c : Dev nD) : ∀ w : Fin 3, (dat3 (U6v m) c).arrAt w cfg3.N = U7v m c (Pipeline.arrRef spec3 w) := fun
  | 0 => hF3_0 m c
  | 1 => hF3_1 m c
  | 2 => hF3_2 m c
  | ⟨_ + 3, h⟩ => absurd h (Nat.not_lt.2 (Nat.le_add_left _ _))

theorem hrest3 (c : Dev nD) : ∀ b, b ∉ Finset.univ.image (Pipeline.arrRef spec3) → U7v m c b = U6v m c b :=
  fun b hb => U7_of_ne m c b
    (fun e => hb (Finset.mem_image.mpr ⟨2, Finset.mem_univ _, e.symm⟩))

def reg3 : RegionSeg (pcfgs (F := F)) adm (pdats m) () defs₀ 𝒱₀ L lv 3 :=
  mkReg m 3 launch3 (U6 m) (U7 m) (body_obligation3 (U6v m))
    (A_eq3 (U6v m)) (hF3 m) (hrest3 m) (hin3 (U6v m)) (hout3 (U6v m))

end Cert.KernelIdeal.Hand

end
-- ==== Proof.KI.Seg4.lean ====
import proofs.«418928_j70858370450169_1_alg».proof.Proof.KI.SegBase

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

theorem hF4_0 (c : Dev nD) : (dat4 (U8v m) c).arrAt 0 cfg4.N = U9v m c main_v74 :=
  ((dat4 (U8v m) c).arrAt_in 0 rfl cfg4.N).trans ((A_eq4 (U8v m) c 0).trans (U9_of_ne m c main_v74 (by decide) (by decide) (by decide)).symm)
theorem hF4_1 (c : Dev nD) : (dat4 (U8v m) c).arrAt 1 cfg4.N = U9v m c main_v61 :=
  ((dat4 (U8v m) c).arrAt_in 1 rfl cfg4.N).trans ((A_eq4 (U8v m) c 1).trans (U9_of_ne m c main_v61 (by decide) (by decide) (by decide)).symm)
theorem hF4_2 (c : Dev nD) : (dat4 (U8v m) c).arrAt 2 cfg4.N = U9v m c main_v75 :=
  ((dat4 (U8v m) c).arrAt_in 2 rfl cfg4.N).trans ((A_eq4 (U8v m) c 2).trans (U9_of_ne m c main_v75 (by decide) (by decide) (by decide)).symm)
theorem hF4_3 (c : Dev nD) : (dat4 (U8v m) c).arrAt 3 cfg4.N = U9v m c main_v76 :=
  ((dat4 (U8v m) c).arrAt_in 3 rfl cfg4.N).trans ((A_eq4 (U8v m) c 3).trans (U9_of_ne m c main_v76 (by decide) (by decide) (by decide)).symm)
theorem hF4_4 (c : Dev nD) : (dat4 (U8v m) c).arrAt 4 cfg4.N = U9v m c main_v77_0 := (U9_main_v77_0 m c).symm
theorem hF4_5 (c : Dev nD) : (dat4 (U8v m) c).arrAt 5 cfg4.N = U9v m c main_v77_1 := (U9_main_v77_1 m c).symm
theorem hF4_6 (c : Dev nD) : (dat4 (U8v m) c).arrAt 6 cfg4.N = U9v m c main_v77_2 := (U9_main_v77_2 m c).symm
set_option maxHeartbeats 1000000 in
theorem hF4 (c : Dev nD) : ∀ w : Fin 7, (dat4 (U8v m) c).arrAt w cfg4.N = U9v m c (Pipeline.arrRef spec4 w) := fun
  | 0 => hF4_0 m c
  | 1 => hF4_1 m c
  | 2 => hF4_2 m c
  | 3 => hF4_3 m c
  | 4 => hF4_4 m c
  | 5 => hF4_5 m c
  | 6 => hF4_6 m c
  | ⟨_ + 7, h⟩ => absurd h (Nat.not_lt.2 (Nat.le_add_left _ _))

theorem hrest4 (c : Dev nD) : ∀ b, b ∉ Finset.univ.image (Pipeline.arrRef spec4) → U9v m c b = U8v m c b :=
  fun b hb => U9_of_ne m c b
    (fun e => hb (Finset.mem_image.mpr ⟨4, Finset.mem_univ _, e.symm⟩))
    (fun e => hb (Finset.mem_image.mpr ⟨5, Finset.mem_univ _, e.symm⟩))
    (fun e => hb (Finset.mem_image.mpr ⟨6, Finset.mem_univ _, e.symm⟩))

def reg4 : RegionSeg (pcfgs (F := F)) adm (pdats m) () defs₀ 𝒱₀ L lv 4 :=
  mkReg m 4 launch4 (U8 m) (U9 m) (body_obligation4 (U8v m))
    (A_eq4 (U8v m)) (hF4 m) (hrest4 m) (hin4 (U8v m)) (hout4 (U8v m))

end Cert.KernelIdeal.Hand

end
-- ==== Proof.KI.Seg5.lean ====
import proofs.«418928_j70858370450169_1_alg».proof.Proof.KI.SegBase

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

theorem hF5_0 (c : Dev nD) : (dat5 (U10v m) c).arrAt 0 cfg5.N = U11v m c main_v77_0 :=
  ((dat5 (U10v m) c).arrAt_in 0 rfl cfg5.N).trans ((A_eq5 (U10v m) c 0).trans (U11_of_ne m c main_v77_0 (by decide)).symm)
theorem hF5_1 (c : Dev nD) : (dat5 (U10v m) c).arrAt 1 cfg5.N = U11v m c main_v92 :=
  ((dat5 (U10v m) c).arrAt_in 1 rfl cfg5.N).trans ((A_eq5 (U10v m) c 1).trans (U11_of_ne m c main_v92 (by decide)).symm)
theorem hF5_2 (c : Dev nD) : (dat5 (U10v m) c).arrAt 2 cfg5.N = U11v m c main_v93 :=
  ((dat5 (U10v m) c).arrAt_in 2 rfl cfg5.N).trans ((A_eq5 (U10v m) c 2).trans (U11_of_ne m c main_v93 (by decide)).symm)
theorem hF5_3 (c : Dev nD) : (dat5 (U10v m) c).arrAt 3 cfg5.N = U11v m c main_v94 := (U11_main_v94 m c).symm
set_option maxHeartbeats 1000000 in
theorem hF5 (c : Dev nD) : ∀ w : Fin 4, (dat5 (U10v m) c).arrAt w cfg5.N = U11v m c (Pipeline.arrRef spec5 w) := fun
  | 0 => hF5_0 m c
  | 1 => hF5_1 m c
  | 2 => hF5_2 m c
  | 3 => hF5_3 m c
  | ⟨_ + 4, h⟩ => absurd h (Nat.not_lt.2 (Nat.le_add_left _ _))

theorem hrest5 (c : Dev nD) : ∀ b, b ∉ Finset.univ.image (Pipeline.arrRef spec5) → U11v m c b = U10v m c b :=
  fun b hb => U11_of_ne m c b
    (fun e => hb (Finset.mem_image.mpr ⟨3, Finset.mem_univ _, e.symm⟩))

def reg5 : RegionSeg (pcfgs (F := F)) adm (pdats m) () defs₀ 𝒱₀ L lv 5 :=
  mkReg m 5 launch5 (U10 m) (U11 m) (body_obligation5 (U10v m))
    (A_eq5 (U10v m)) (hF5 m) (hrest5 m) (hin5 (U10v m)) (hout5 (U10v m))

end Cert.KernelIdeal.Hand

end
-- ==== Proof.KI.Seg6.lean ====
import proofs.«418928_j70858370450169_1_alg».proof.Proof.KI.SegBase

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

theorem hF6_0 (c : Dev nD) : (dat6 (U11v m) c).arrAt 0 cfg6.N = U12v m c main_v94 :=
  ((dat6 (U11v m) c).arrAt_in 0 rfl cfg6.N).trans ((A_eq6 (U11v m) c 0).trans (U12_of_ne m c main_v94 (by decide)).symm)
theorem hF6_1 (c : Dev nD) : (dat6 (U11v m) c).arrAt 1 cfg6.N = U12v m c main_arg8 :=
  ((dat6 (U11v m) c).arrAt_in 1 rfl cfg6.N).trans ((A_eq6 (U11v m) c 1).trans (U12_of_ne m c main_arg8 (by decide)).symm)
theorem hF6_2 (c : Dev nD) : (dat6 (U11v m) c).arrAt 2 cfg6.N = U12v m c main_v95 := (U12_main_v95 m c).symm
set_option maxHeartbeats 1000000 in
theorem hF6 (c : Dev nD) : ∀ w : Fin 3, (dat6 (U11v m) c).arrAt w cfg6.N = U12v m c (Pipeline.arrRef spec6 w) := fun
  | 0 => hF6_0 m c
  | 1 => hF6_1 m c
  | 2 => hF6_2 m c
  | ⟨_ + 3, h⟩ => absurd h (Nat.not_lt.2 (Nat.le_add_left _ _))

theorem hrest6 (c : Dev nD) : ∀ b, b ∉ Finset.univ.image (Pipeline.arrRef spec6) → U12v m c b = U11v m c b :=
  fun b hb => U12_of_ne m c b
    (fun e => hb (Finset.mem_image.mpr ⟨2, Finset.mem_univ _, e.symm⟩))

def reg6 : RegionSeg (pcfgs (F := F)) adm (pdats m) () defs₀ 𝒱₀ L lv 6 :=
  mkReg m 6 launch6 (U11 m) (U12 m) (body_obligation6 (U11v m))
    (A_eq6 (U11v m)) (hF6 m) (hrest6 m) (hin6 (U11v m)) (hout6 (U11v m))

end Cert.KernelIdeal.Hand

end
-- ==== Proof.KI.Seg7.lean ====
import proofs.«418928_j70858370450169_1_alg».proof.Proof.KI.SegBase

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

theorem hF7_0 (c : Dev nD) : (dat7 (U13v m) c).arrAt 0 cfg7.N = U14v m c main_v108 :=
  ((dat7 (U13v m) c).arrAt_in 0 rfl cfg7.N).trans ((A_eq7 (U13v m) c 0).trans (U14_of_ne m c main_v108 (by decide) (by decide) (by decide)).symm)
theorem hF7_1 (c : Dev nD) : (dat7 (U13v m) c).arrAt 1 cfg7.N = U14v m c main_v95 :=
  ((dat7 (U13v m) c).arrAt_in 1 rfl cfg7.N).trans ((A_eq7 (U13v m) c 1).trans (U14_of_ne m c main_v95 (by decide) (by decide) (by decide)).symm)
theorem hF7_2 (c : Dev nD) : (dat7 (U13v m) c).arrAt 2 cfg7.N = U14v m c main_v109 :=
  ((dat7 (U13v m) c).arrAt_in 2 rfl cfg7.N).trans ((A_eq7 (U13v m) c 2).trans (U14_of_ne m c main_v109 (by decide) (by decide) (by decide)).symm)
theorem hF7_3 (c : Dev nD) : (dat7 (U13v m) c).arrAt 3 cfg7.N = U14v m c main_v110 :=
  ((dat7 (U13v m) c).arrAt_in 3 rfl cfg7.N).trans ((A_eq7 (U13v m) c 3).trans (U14_of_ne m c main_v110 (by decide) (by decide) (by decide)).symm)
theorem hF7_4 (c : Dev nD) : (dat7 (U13v m) c).arrAt 4 cfg7.N = U14v m c main_v111_0 := (U14_main_v111_0 m c).symm
theorem hF7_5 (c : Dev nD) : (dat7 (U13v m) c).arrAt 5 cfg7.N = U14v m c main_v111_1 := (U14_main_v111_1 m c).symm
theorem hF7_6 (c : Dev nD) : (dat7 (U13v m) c).arrAt 6 cfg7.N = U14v m c main_v111_2 := (U14_main_v111_2 m c).symm
set_option maxHeartbeats 1000000 in
theorem hF7 (c : Dev nD) : ∀ w : Fin 7, (dat7 (U13v m) c).arrAt w cfg7.N = U14v m c (Pipeline.arrRef spec7 w) := fun
  | 0 => hF7_0 m c
  | 1 => hF7_1 m c
  | 2 => hF7_2 m c
  | 3 => hF7_3 m c
  | 4 => hF7_4 m c
  | 5 => hF7_5 m c
  | 6 => hF7_6 m c
  | ⟨_ + 7, h⟩ => absurd h (Nat.not_lt.2 (Nat.le_add_left _ _))

theorem hrest7 (c : Dev nD) : ∀ b, b ∉ Finset.univ.image (Pipeline.arrRef spec7) → U14v m c b = U13v m c b :=
  fun b hb => U14_of_ne m c b
    (fun e => hb (Finset.mem_image.mpr ⟨4, Finset.mem_univ _, e.symm⟩))
    (fun e => hb (Finset.mem_image.mpr ⟨5, Finset.mem_univ _, e.symm⟩))
    (fun e => hb (Finset.mem_image.mpr ⟨6, Finset.mem_univ _, e.symm⟩))

def reg7 : RegionSeg (pcfgs (F := F)) adm (pdats m) () defs₀ 𝒱₀ L lv 7 :=
  mkReg m 7 launch7 (U13 m) (U14 m) (body_obligation7 (U13v m))
    (A_eq7 (U13v m)) (hF7 m) (hrest7 m) (hin7 (U13v m)) (hout7 (U13v m))

end Cert.KernelIdeal.Hand

end
-- ==== Proof.KI.Seg8.lean ====
import proofs.«418928_j70858370450169_1_alg».proof.Proof.KI.SegBase

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

theorem hF8_0 (c : Dev nD) : (dat8 (U15v m) c).arrAt 0 cfg8.N = U16v m c main_v111_0 :=
  ((dat8 (U15v m) c).arrAt_in 0 rfl cfg8.N).trans ((A_eq8 (U15v m) c 0).trans (U16_of_ne m c main_v111_0 (by decide)).symm)
theorem hF8_1 (c : Dev nD) : (dat8 (U15v m) c).arrAt 1 cfg8.N = U16v m c main_v126 :=
  ((dat8 (U15v m) c).arrAt_in 1 rfl cfg8.N).trans ((A_eq8 (U15v m) c 1).trans (U16_of_ne m c main_v126 (by decide)).symm)
theorem hF8_2 (c : Dev nD) : (dat8 (U15v m) c).arrAt 2 cfg8.N = U16v m c main_v127 :=
  ((dat8 (U15v m) c).arrAt_in 2 rfl cfg8.N).trans ((A_eq8 (U15v m) c 2).trans (U16_of_ne m c main_v127 (by decide)).symm)
theorem hF8_3 (c : Dev nD) : (dat8 (U15v m) c).arrAt 3 cfg8.N = U16v m c main_v128 := (U16_main_v128 m c).symm
set_option maxHeartbeats 1000000 in
theorem hF8 (c : Dev nD) : ∀ w : Fin 4, (dat8 (U15v m) c).arrAt w cfg8.N = U16v m c (Pipeline.arrRef spec8 w) := fun
  | 0 => hF8_0 m c
  | 1 => hF8_1 m c
  | 2 => hF8_2 m c
  | 3 => hF8_3 m c
  | ⟨_ + 4, h⟩ => absurd h (Nat.not_lt.2 (Nat.le_add_left _ _))

theorem hrest8 (c : Dev nD) : ∀ b, b ∉ Finset.univ.image (Pipeline.arrRef spec8) → U16v m c b = U15v m c b :=
  fun b hb => U16_of_ne m c b
    (fun e => hb (Finset.mem_image.mpr ⟨3, Finset.mem_univ _, e.symm⟩))

def reg8 : RegionSeg (pcfgs (F := F)) adm (pdats m) () defs₀ 𝒱₀ L lv 8 :=
  mkReg m 8 launch8 (U15 m) (U16 m) (body_obligation8 (U15v m))
    (A_eq8 (U15v m)) (hF8 m) (hrest8 m) (hin8 (U15v m)) (hout8 (U15v m))

end Cert.KernelIdeal.Hand

end
-- ==== Proof.KI.Seg9.lean ====
import proofs.«418928_j70858370450169_1_alg».proof.Proof.KI.SegBase

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

theorem hF9_0 (c : Dev nD) : (dat9 (U17v m) c).arrAt 0 cfg9.N = U18v m c main_v128 :=
  ((dat9 (U17v m) c).arrAt_in 0 rfl cfg9.N).trans ((A_eq9 (U17v m) c 0).trans (U18_of_ne m c main_v128 (by decide)).symm)
theorem hF9_1 (c : Dev nD) : (dat9 (U17v m) c).arrAt 1 cfg9.N = U18v m c main_v129 :=
  ((dat9 (U17v m) c).arrAt_in 1 rfl cfg9.N).trans ((A_eq9 (U17v m) c 1).trans (U18_of_ne m c main_v129 (by decide)).symm)
theorem hF9_2 (c : Dev nD) : (dat9 (U17v m) c).arrAt 2 cfg9.N = U18v m c main_v130 := (U18_main_v130 m c).symm
set_option maxHeartbeats 1000000 in
theorem hF9 (c : Dev nD) : ∀ w : Fin 3, (dat9 (U17v m) c).arrAt w cfg9.N = U18v m c (Pipeline.arrRef spec9 w) := fun
  | 0 => hF9_0 m c
  | 1 => hF9_1 m c
  | 2 => hF9_2 m c
  | ⟨_ + 3, h⟩ => absurd h (Nat.not_lt.2 (Nat.le_add_left _ _))

theorem hrest9 (c : Dev nD) : ∀ b, b ∉ Finset.univ.image (Pipeline.arrRef spec9) → U18v m c b = U17v m c b :=
  fun b hb => U18_of_ne m c b
    (fun e => hb (Finset.mem_image.mpr ⟨2, Finset.mem_univ _, e.symm⟩))

def reg9 : RegionSeg (pcfgs (F := F)) adm (pdats m) () defs₀ 𝒱₀ L lv 9 :=
  mkReg m 9 launch9 (U17 m) (U18 m) (body_obligation9 (U17v m))
    (A_eq9 (U17v m)) (hF9 m) (hrest9 m) (hin9 (U17v m)) (hout9 (U17v m))

end Cert.KernelIdeal.Hand

end
-- ==== Proof.KI.Seg10.lean ====
import proofs.«418928_j70858370450169_1_alg».proof.Proof.KI.SegBase

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

theorem hF10_0 (c : Dev nD) : (dat10 (U19v m) c).arrAt 0 cfg10.N = U20v m c main_v131 :=
  ((dat10 (U19v m) c).arrAt_in 0 rfl cfg10.N).trans ((A_eq10 (U19v m) c 0).trans (U20_of_ne m c main_v131 (by decide)).symm)
theorem hF10_1 (c : Dev nD) : (dat10 (U19v m) c).arrAt 1 cfg10.N = U20v m c main_arg16 :=
  ((dat10 (U19v m) c).arrAt_in 1 rfl cfg10.N).trans ((A_eq10 (U19v m) c 1).trans (U20_of_ne m c main_arg16 (by decide)).symm)
theorem hF10_2 (c : Dev nD) : (dat10 (U19v m) c).arrAt 2 cfg10.N = U20v m c main_v132 :=
  ((dat10 (U19v m) c).arrAt_in 2 rfl cfg10.N).trans ((A_eq10 (U19v m) c 2).trans (U20_of_ne m c main_v132 (by decide)).symm)
theorem hF10_3 (c : Dev nD) : (dat10 (U19v m) c).arrAt 3 cfg10.N = U20v m c main_v133 := (U20_main_v133 m c).symm
set_option maxHeartbeats 1000000 in
theorem hF10 (c : Dev nD) : ∀ w : Fin 4, (dat10 (U19v m) c).arrAt w cfg10.N = U20v m c (Pipeline.arrRef spec10 w) := fun
  | 0 => hF10_0 m c
  | 1 => hF10_1 m c
  | 2 => hF10_2 m c
  | 3 => hF10_3 m c
  | ⟨_ + 4, h⟩ => absurd h (Nat.not_lt.2 (Nat.le_add_left _ _))

theorem hrest10 (c : Dev nD) : ∀ b, b ∉ Finset.univ.image (Pipeline.arrRef spec10) → U20v m c b = U19v m c b :=
  fun b hb => U20_of_ne m c b
    (fun e => hb (Finset.mem_image.mpr ⟨3, Finset.mem_univ _, e.symm⟩))

def reg10 : RegionSeg (pcfgs (F := F)) adm (pdats m) () defs₀ 𝒱₀ L lv 10 :=
  mkReg m 10 launch10 (U19 m) (U20 m) (body_obligation10 (U19v m))
    (A_eq10 (U19v m)) (hF10 m) (hrest10 m) (hin10 (U19v m)) (hout10 (U19v m))

end Cert.KernelIdeal.Hand

end
-- ==== Proof.KI.Segs.lean ====
import proofs.«418928_j70858370450169_1_alg».proof.Proof.KI.RunCond
import proofs.«418928_j70858370450169_1_alg».proof.Proof.KI.Seg0
import proofs.«418928_j70858370450169_1_alg».proof.Proof.KI.Seg1
import proofs.«418928_j70858370450169_1_alg».proof.Proof.KI.Seg2
import proofs.«418928_j70858370450169_1_alg».proof.Proof.KI.Seg3
import proofs.«418928_j70858370450169_1_alg».proof.Proof.KI.Seg4
import proofs.«418928_j70858370450169_1_alg».proof.Proof.KI.Seg5
import proofs.«418928_j70858370450169_1_alg».proof.Proof.KI.Seg6
import proofs.«418928_j70858370450169_1_alg».proof.Proof.KI.Seg7
import proofs.«418928_j70858370450169_1_alg».proof.Proof.KI.Seg8
import proofs.«418928_j70858370450169_1_alg».proof.Proof.KI.Seg9
import proofs.«418928_j70858370450169_1_alg».proof.Proof.KI.Seg10

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

theorem launch_init :
    (ownU (initOf (Pipeline.cells cfgs cellOf_inj) (Pipeline.launchToks cfgs cellOf_inj)) : sProp 𝕄)
      ⊢ |={Set.univ}=> iprop(BI.own (emb₁ (initOf (Pipeline.cells cfgs cellOf_inj) (Pipeline.launchToks cfgs cellOf_inj)))
          ∗ bigSep Finset.univ fun _ : Dev nD => (BI.emp : sProp 𝕄)) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

theorem rest_init (ρ : Dev nD → PrngReg) :
    iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp 𝕄))) ∗ levAts L lv)
      ⊢ (|={Set.univ}=> bigSep Finset.univ (E (F := F) 0) : sProp 𝕄) := by
  refine Pipeline.initEach L lv fun c => ?_
  iintro ⟨⟨-, HO, -, Hp, -⟩, -⟩
  imodintro
  isplitl [Hp]; · iexists _; iexact Hp
  iexists ∅; iexact HO

theorem rest_final (c : Dev nD) :
    E (F := F) 11 c ⊢ (iprop(∃ W, owes (c : Thread nD τ) (0 : CellTallies nD τ sig Unit) W) : sProp 𝕄) := by
  iintro ⟨-, H⟩; iexact H

set_option backward.isDefEq.respectTransparency.types false in

theorem run_all (ρ : Dev nD → PrngReg) :
    θ_run defs (onTc (τ := τ) (main (F := F))) ⟨m, fun _ => 0, ρ⟩ (fun r => ∀ c : Dev nD,
      r.2.mem ((c.tc : Thread nD τ).loc main_v133) = U20 m c main_v133
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun r h c => ⟨(h c).1.trans (congrFun (V20_eq m c) _), (h c).2⟩)
    (run_cond m emb₁ () 𝒱₀ L lv (fun _ _ => rfl) ρ (outsOf m) (pdats m) 0 (fun _ => iprop(emp))
      (initOf (Pipeline.cells cfgs cellOf_inj) (Pipeline.launchToks cfgs cellOf_inj))
      launch_init E (rest_init ρ) rest_final
      (reg0 m) (fun c => by exact .rfl) (fun c => by rw [V2_eq]; exact .rfl)
      (reg1 m) (fun c => by rw [V3_eq]; exact .rfl) (fun c => by rw [V4_eq]; exact .rfl)
      (reg2 m) (fun c => by rw [V5_eq]; exact .rfl) (fun c => by rw [V6_eq]; exact .rfl)
      (reg3 m) (fun c => by rw [V6_eq]; exact .rfl) (fun c => by rw [V7_eq]; exact .rfl)
      (reg4 m) (fun c => by rw [V8_eq]; exact .rfl) (fun c => by rw [V9_eq]; exact .rfl)
      (reg5 m) (fun c => by rw [V10_eq]; exact .rfl) (fun c => by rw [V11_eq]; exact .rfl)
      (reg6 m) (fun c => by rw [V11_eq]; exact .rfl) (fun c => by rw [V12_eq]; exact .rfl)
      (reg7 m) (fun c => by rw [V13_eq]; exact .rfl) (fun c => by rw [V14_eq]; exact .rfl)
      (reg8 m) (fun c => by rw [V15_eq]; exact .rfl) (fun c => by rw [V16_eq]; exact .rfl)
      (reg9 m) (fun c => by rw [V17_eq]; exact .rfl) (fun c => by rw [V18_eq]; exact .rfl)
      (reg10 m) (fun c => by rw [V19_eq]; exact .rfl) (fun c => by rw [V20_eq]; exact .rfl))

end Cert.KernelIdeal.Hand

end
-- ==== Proof.K.Reg0.lean ====
import proofs.«418928_j70858370450169_1_alg».proof.Proof.Gen.Kernel.Launch
import proofs.«418928_j70858370450169_1_alg».proof.Proof.Gen.Kernel.Skeleton
import proofs.«418928_j70858370450169_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

abbrev r0_0 : Rect S5000x128 := Rect.unit (s := S5000x128) ![0, 0] S5000x128.size inb_S5000x128_S5000x128_0_0
abbrev r0_1 : Rect S128x128 := Rect.unit (s := S128x128) ![0, 0] S128x128.size inb_S128x128_S128x128_0_0
abbrev r0_2 : Rect S5000x128 := Rect.unit (s := S5000x128) ![0, 0] S5000x128.size inb_S5000x128_S5000x128_0_0

def out0_2 (x0 : Vec F S5000x128 .f32) (x1 : Vec F S128x128 .f32) : Vec F S5000x128 .f32 :=
  View.canon [⟨r0_2, k0_pay1 (View.ld x0 r0_0) (View.ld x1 r0_1)⟩]

theorem cover0_2 (p0 : Vec F S5000x128 .f32) (y : S5000x128.Idx) :
    ∃ pc ∈ ([⟨r0_2, p0⟩] : List (View.Piece (Elt F) S5000x128 .f32)), y ∈ pc.1.set :=
  View.cover_of_tiled [⟨r0_2, p0⟩] S5000x128.size (by rfl) y

set_option maxHeartbeats 1000000 in

theorem sound_kernel0 (c : Dev nD) (E : Set ℕ) (i : grid0.Coords) (arg1 : Memref sig .tc .vmem S5000x128 .f32) (harg1 : arg1.IsWhole) (arg2 : Memref sig .tc .vmem S128x128 .f32) (harg2 : arg2.IsWhole) (arg3 : Memref sig .tc .vmem S5000x128 .f32) (harg3 : arg3.IsWhole)
    (x0 : Vec F S5000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

theorem hin0 (c : Dev nD) : Pipeline.ΦA spec0 c ⊢ (dat0 V c).Φ 0 := .rfl
theorem hout0 (c : Dev nD) : (dat0 V c).Φ (Fin.last cfg0.N) ⊢ Pipeline.ΦA spec0 c := .rfl

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Comb.lean ====
import proofs.«418928_j70858370450169_1_alg».proof.Proof.Gen.Kernel.Launch
import proofs.«418928_j70858370450169_1_alg».proof.Proof.Gen.Kernel.Skeleton
import proofs.«418928_j70858370450169_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

private theorem hz : (![0, 0] : Fin 2 → Nat) = fun _ => 0 := funext fun a => by fin_cases a <;> rfl

private theorem readCov_cons_unit_zero {Val : EltTy → Type} [∀ e, Nonempty (Val e)] {S : Shape} {e : EltTy}
    {sg : RefSig} {κ : Kind} {sp : Space} (v : View sg κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self, by
    show y ∈ (Rect.whole S).set; rw [Rect.set_whole]; exact Finset.mem_univ y⟩), View.canon_cons_unit_zero rfl, View.ld_unit_zero rfl]

abbrev cond1_0 (i : grid1.Coords) : Prop := (Scalar.cmpi .ne (Scalar.extui (Scalar.cmpi .eq (BitVec.ofNat 32 (i 0).val) 0#32)) 0#32) = 1#1

theorem hcond1_0 : ∀ t : Fin cfg1.N, cond1_0 (grid1.coords t) ↔ t.val % 20 = 0 :=
  (by decide +kernel : ∀ t : Fin grid1.N, cond1_0 (grid1.coords t) ↔ t.val % 20 = 0)

theorem hcond4_0 : ∀ t : Fin cfg4.N, cond1_0 (grid4.coords t) ↔ t.val % 20 = 0 :=
  (by decide +kernel : ∀ t : Fin grid4.N, cond1_0 (grid4.coords t) ↔ t.val % 20 = 0)
theorem hcond7_0 : ∀ t : Fin cfg7.N, cond1_0 (grid7.coords t) ↔ t.val % 20 = 0 :=
  (by decide +kernel : ∀ t : Fin grid7.N, cond1_0 (grid7.coords t) ↔ t.val % 20 = 0)

theorem cc4_eq : @cc4__combine_stats_kernel F _ = @cc1__combine_stats_kernel F _ := rfl
theorem cc7_eq : @cc7__combine_stats_kernel F _ = @cc1__combine_stats_kernel F _ := rfl

section

variable (c : Dev nD) (i : grid1.Coords) (arg1 : Memref sig .tc .vmem S5000x128 .f32) (harg1 : arg1.IsWhole) (arg2 : Memref sig .tc .vmem S5000x128 .f32) (harg2 : arg2.IsWhole) (arg3 : Memref sig .tc .vmem S5000x1 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole)
  (x0 : Vec F S5000x128 .f32) (x1 : Vec F S5000x128 .f32) (x2 : Vec F S5000x1 .f32) (x3 : Vec F S1x128 .f32)

set_option maxHeartbeats 1000000 in
noncomputable def kernelRun1_A (hc0 : cond1_0 i) :
    Σ' (L4 : List (View.Piece (Elt F) S5000x128 .f32)), Σ' (L5 : List (View.Piece (Elt F) S1x128 .f32)), Σ' (L6 : List (View.Piece (Elt F) S1x128 .f32)), Σ' (LS0 : List (View.Piece (Elt F) S1x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ (∃ d, owns (c : Thread nD τ) arg6 fullShare d) ∗ (∃ d, owns (c : Thread nD τ) arg7 fullShare d)
            ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f L4)
                ∗ (∃ f, arg6.view.loc (c : Thread nD τ) ↦[arg6.view.set]{fullShare} arg6.view.writes (Elt F) f L5)
                ∗ (∃ f, arg7.view.loc (c : Thread nD τ) ↦[arg7.view.set]{fullShare} arg7.view.writes (Elt F) f L6)
                ∗ (∃ f, arg8.view.loc (c : Thread nD τ) ↦[arg8.view.set]{fullShare} arg8.view.writes (Elt F) f LS0)
                ∗ (∃ f, arg9.view.loc (c : Thread nD τ) ↦[arg9.view.set]{fullShare} arg9.view.writes (Elt F) f LS1)) -∗ K ⟨⟩))
          ⊢ wp frame (wpE (defs₀ (F := F)) Variants.none c none) E (cc1__combine_stats_kernel i arg1 harg1 arg2 harg2 arg3 harg3 arg4 harg4 arg5 harg5 arg6 harg6 arg7 harg7 arg8 harg8 arg9 harg9) K } := by
  refine ⟨?_, ?_, ?_, ?_, ?_, fun E K => ?run⟩
  case run =>
    simp only [cc1__combine_stats_kernel_eq_skeleton]; unfold cc1__combine_stats_kernel_skel
    simp only [k1_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    isplitl [H6]; · iexists _; iexact H6
    isplitl [HS0]; · iexists _; iexact HS0
    iexists _; iexact HS1

set_option maxHeartbeats 1000000 in
noncomputable def kernelRun1_B (hc0 : ¬cond1_0 i) (xs0 : Vec F S1x128 .f32) (xs1 : Vec F S1x128 .f32) :
    Σ' (L4 : List (View.Piece (Elt F) S5000x128 .f32)), Σ' (L5 : List (View.Piece (Elt F) S1x128 .f32)), Σ' (L6 : List (View.Piece (Elt F) S1x128 .f32)), Σ' (LS0 : List (View.Piece (Elt F) S1x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ (∃ d, owns (c : Thread nD τ) arg6 fullShare d) ∗ (∃ d, owns (c : Thread nD τ) arg7 fullShare d)
            ∗ owns (c : Thread nD τ) arg8 fullShare xs0 ∗ owns (c : Thread nD τ) arg9 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f L4)
                ∗ (∃ f, arg6.view.loc (c : Thread nD τ) ↦[arg6.view.set]{fullShare} arg6.view.writes (Elt F) f L5)
                ∗ (∃ f, arg7.view.loc (c : Thread nD τ) ↦[arg7.view.set]{fullShare} arg7.view.writes (Elt F) f L6)
                ∗ (∃ f, arg8.view.loc (c : Thread nD τ) ↦[arg8.view.set]{fullShare} arg8.view.writes (Elt F) f LS0)
                ∗ (∃ f, arg9.view.loc (c : Thread nD τ) ↦[arg9.view.set]{fullShare} arg9.view.writes (Elt F) f LS1)) -∗ K ⟨⟩))
          ⊢ wp frame (wpE (defs₀ (F := F)) Variants.none c none) E (cc1__combine_stats_kernel i arg1 harg1 arg2 harg2 arg3 harg3 arg4 harg4 arg5 harg5 arg6 harg6 arg7 harg7 arg8 harg8 arg9 harg9) K } := by
  refine ⟨?_, ?_, ?_, ?_, ?_, fun E K => ?run⟩
  case run =>
    simp only [cc1__combine_stats_kernel_eq_skeleton]; unfold cc1__combine_stats_kernel_skel
    simp only [k1_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg8.eq_unread hfs0; obtain rfl := harg9.eq_unread hfs1
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    isplitl [H6]; · iexists _; iexact H6
    isplitl [HS0]; · iexists _; iexact HS0
    iexists _; iexact HS1

theorem cover1_A_4 (hc0 : cond1_0 i) (y : S5000x128.Idx) :
    ∃ pc ∈ (kernelRun1_A c i arg1 harg1 arg2 harg2 arg3 harg3 arg4 harg4 arg5 harg5 arg6 harg6 arg7 harg7 arg8 harg8 arg9 harg9 x0 x1 x2 x3 hc0).1, y ∈ pc.1.set :=
  View.cover_of_tiledL (kernelRun1_A c i arg1 harg1 arg2 harg2 arg3 harg3 arg4 harg4 arg5 harg5 arg6 harg6 arg7 harg7 arg8 harg8 arg9 harg9 x0 x1 x2 x3 hc0).1 S5000x128.size (by sl_kernel_rfl) y

theorem cover1_A_5 (hc0 : cond1_0 i) (y : S1x128.Idx) :
    ∃ pc ∈ (kernelRun1_A c i arg1 harg1 arg2 harg2 arg3 harg3 arg4 harg4 arg5 harg5 arg6 harg6 arg7 harg7 arg8 harg8 arg9 harg9 x0 x1 x2 x3 hc0).2.1, y ∈ pc.1.set :=
  View.cover_of_tiledL (kernelRun1_A c i arg1 harg1 arg2 harg2 arg3 harg3 arg4 harg4 arg5 harg5 arg6 harg6 arg7 harg7 arg8 harg8 arg9 harg9 x0 x1 x2 x3 hc0).2.1 S1x128.size (by sl_kernel_rfl) y

theorem cover1_A_6 (hc0 : cond1_0 i) (y : S1x128.Idx) :
    ∃ pc ∈ (kernelRun1_A c i arg1 harg1 arg2 harg2 arg3 harg3 arg4 harg4 arg5 harg5 arg6 harg6 arg7 harg7 arg8 harg8 arg9 harg9 x0 x1 x2 x3 hc0).2.2.1, y ∈ pc.1.set :=
  View.cover_of_tiledL (kernelRun1_A c i arg1 harg1 arg2 harg2 arg3 harg3 arg4 harg4 arg5 harg5 arg6 harg6 arg7 harg7 arg8 harg8 arg9 harg9 x0 x1 x2 x3 hc0).2.2.1 S1x128.size (by sl_kernel_rfl) y

theorem scover1_A_0 (hc0 : cond1_0 i) (y : S1x128.Idx) :
    ∃ pc ∈ (kernelRun1_A c i arg1 harg1 arg2 harg2 arg3 harg3 arg4 harg4 arg5 harg5 arg6 harg6 arg7 harg7 arg8 harg8 arg9 harg9 x0 x1 x2 x3 hc0).2.2.2.1, y ∈ pc.1.set :=
  View.cover_of_tiledL (kernelRun1_A c i arg1 harg1 arg2 harg2 arg3 harg3 arg4 harg4 arg5 harg5 arg6 harg6 arg7 harg7 arg8 harg8 arg9 harg9 x0 x1 x2 x3 hc0).2.2.2.1 S1x128.size (by sl_kernel_rfl) y

theorem scover1_A_1 (hc0 : cond1_0 i) (y : S1x128.Idx) :
    ∃ pc ∈ (kernelRun1_A c i arg1 harg1 arg2 harg2 arg3 harg3 arg4 harg4 arg5 harg5 arg6 harg6 arg7 harg7 arg8 harg8 arg9 harg9 x0 x1 x2 x3 hc0).2.2.2.2.1, y ∈ pc.1.set :=
  View.cover_of_tiledL (kernelRun1_A c i arg1 harg1 arg2 harg2 arg3 harg3 arg4 harg4 arg5 harg5 arg6 harg6 arg7 harg7 arg8 harg8 arg9 harg9 x0 x1 x2 x3 hc0).2.2.2.2.1 S1x128.size (by sl_kernel_rfl) y

theorem cover1_B_4 (hc0 : ¬cond1_0 i) (xs0 : Vec F S1x128 .f32) (xs1 : Vec F S1x128 .f32) (y : S5000x128.Idx) :
    ∃ pc ∈ (kernelRun1_B c i arg1 harg1 arg2 harg2 arg3 harg3 arg4 harg4 arg5 harg5 arg6 harg6 arg7 harg7 arg8 harg8 arg9 harg9 x0 x1 x2 x3 hc0 xs0 xs1).1, y ∈ pc.1.set :=
  View.cover_of_tiledL (kernelRun1_B c i arg1 harg1 arg2 harg2 arg3 harg3 arg4 harg4 arg5 harg5 arg6 harg6 arg7 harg7 arg8 harg8 arg9 harg9 x0 x1 x2 x3 hc0 xs0 xs1).1 S5000x128.size (by sl_kernel_rfl) y

theorem cover1_B_5 (hc0 : ¬cond1_0 i) (xs0 : Vec F S1x128 .f32) (xs1 : Vec F S1x128 .f32) (y : S1x128.Idx) :
    ∃ pc ∈ (kernelRun1_B c i arg1 harg1 arg2 harg2 arg3 harg3 arg4 harg4 arg5 harg5 arg6 harg6 arg7 harg7 arg8 harg8 arg9 harg9 x0 x1 x2 x3 hc0 xs0 xs1).2.1, y ∈ pc.1.set :=
  View.cover_of_tiledL (kernelRun1_B c i arg1 harg1 arg2 harg2 arg3 harg3 arg4 harg4 arg5 harg5 arg6 harg6 arg7 harg7 arg8 harg8 arg9 harg9 x0 x1 x2 x3 hc0 xs0 xs1).2.1 S1x128.size (by sl_kernel_rfl) y

theorem cover1_B_6 (hc0 : ¬cond1_0 i) (xs0 : Vec F S1x128 .f32) (xs1 : Vec F S1x128 .f32) (y : S1x128.Idx) :
    ∃ pc ∈ (kernelRun1_B c i arg1 harg1 arg2 harg2 arg3 harg3 arg4 harg4 arg5 harg5 arg6 harg6 arg7 harg7 arg8 harg8 arg9 harg9 x0 x1 x2 x3 hc0 xs0 xs1).2.2.1, y ∈ pc.1.set :=
  View.cover_of_tiledL (kernelRun1_B c i arg1 harg1 arg2 harg2 arg3 harg3 arg4 harg4 arg5 harg5 arg6 harg6 arg7 harg7 arg8 harg8 arg9 harg9 x0 x1 x2 x3 hc0 xs0 xs1).2.2.1 S1x128.size (by sl_kernel_rfl) y

theorem scover1_B_0 (hc0 : ¬cond1_0 i) (xs0 : Vec F S1x128 .f32) (xs1 : Vec F S1x128 .f32) (y : S1x128.Idx) :
    ∃ pc ∈ (kernelRun1_B c i arg1 harg1 arg2 harg2 arg3 harg3 arg4 harg4 arg5 harg5 arg6 harg6 arg7 harg7 arg8 harg8 arg9 harg9 x0 x1 x2 x3 hc0 xs0 xs1).2.2.2.1, y ∈ pc.1.set :=
  View.cover_of_tiledL (kernelRun1_B c i arg1 harg1 arg2 harg2 arg3 harg3 arg4 harg4 arg5 harg5 arg6 harg6 arg7 harg7 arg8 harg8 arg9 harg9 x0 x1 x2 x3 hc0 xs0 xs1).2.2.2.1 S1x128.size (by sl_kernel_rfl) y

theorem scover1_B_1 (hc0 : ¬cond1_0 i) (xs0 : Vec F S1x128 .f32) (xs1 : Vec F S1x128 .f32) (y : S1x128.Idx) :
    ∃ pc ∈ (kernelRun1_B c i arg1 harg1 arg2 harg2 arg3 harg3 arg4 harg4 arg5 harg5 arg6 harg6 arg7 harg7 arg8 harg8 arg9 harg9 x0 x1 x2 x3 hc0 xs0 xs1).2.2.2.2.1, y ∈ pc.1.set :=
  View.cover_of_tiledL (kernelRun1_B c i arg1 harg1 arg2 harg2 arg3 harg3 arg4 harg4 arg5 harg5 arg6 harg6 arg7 harg7 arg8 harg8 arg9 harg9 x0 x1 x2 x3 hc0 xs0 xs1).2.2.2.2.1 S1x128.size (by sl_kernel_rfl) y

def step1 (s : Vec F S1x128 .f32 × Vec F S1x128 .f32) : Vec F S1x128 .f32 × Vec F S1x128 .f32 :=
  (k1_pay5 x0 x2 x1 x3 s.1, k1_pay1 (k1_pay6 x0 x2 x1 x3 s.2))

def zero1 : Vec F S1x128 .f32 × Vec F S1x128 .f32 := (k1_pay2 (F := F), k1_pay3 (F := F))

theorem out1_A (hc0 : cond1_0 i) :
    View.canon (kernelRun1_A c i arg1 harg1 arg2 harg2 arg3 harg3 arg4 harg4 arg5 harg5 arg6 harg6 arg7 harg7 arg8 harg8 arg9 harg9 x0 x1 x2 x3 hc0).1 = k1_pay4 x0 x2 x1 x3
    ∧ View.canon (kernelRun1_A c i arg1 harg1 arg2 harg2 arg3 harg3 arg4 harg4 arg5 harg5 arg6 harg6 arg7 harg7 arg8 harg8 arg9 harg9 x0 x1 x2 x3 hc0).2.1 = k1_pay5 x0 x2 x1 x3 (k1_pay2 (F := F))
    ∧ View.canon (kernelRun1_A c i arg1 harg1 arg2 harg2 arg3 harg3 arg4 harg4 arg5 harg5 arg6 harg6 arg7 harg7 arg8 harg8 arg9 harg9 x0 x1 x2 x3 hc0).2.2.1 = k1_pay1 (k1_pay6 x0 x2 x1 x3 (k1_pay3 (F := F)))
    ∧ View.canon (kernelRun1_A c i arg1 harg1 arg2 harg2 arg3 harg3 arg4 harg4 arg5 harg5 arg6 harg6 arg7 harg7 arg8 harg8 arg9 harg9 x0 x1 x2 x3 hc0).2.2.2.1 = k1_pay5 x0 x2 x1 x3 (k1_pay2 (F := F))
    ∧ View.canon (kernelRun1_A c i arg1 harg1 arg2 harg2 arg3 harg3 arg4 harg4 arg5 harg5 arg6 harg6 arg7 harg7 arg8 harg8 arg9 harg9 x0 x1 x2 x3 hc0).2.2.2.2.1 = k1_pay1 (k1_pay6 x0 x2 x1 x3 (k1_pay3 (F := F))) := by
  unfold kernelRun1_A
  dsimp only
  try sl_unfold_words
  refine ⟨?_, ?_, ?_, ?_, ?_⟩ <;> simp only [View.canon_cons_unit_zero (S := S1x128) hz, View.canon_cons_unit_zero (S := S5000x128) hz, readCov_cons_unit_zero (S := S1x128) _ hz, View.readAt_eq_ld, harg1.read_unread, harg2.read_unread, harg3.read_unread, harg4.read_unread, harg8.read_unread, harg9.read_unread, View.ld_unit_zero (S := S5000x128) hz, View.ld_unit_zero (S := S5000x1) hz, View.ld_unit_zero (S := S1x128) hz]

theorem out1_B (hc0 : ¬cond1_0 i) (xs0 : Vec F S1x128 .f32) (xs1 : Vec F S1x128 .f32) :
    View.canon (kernelRun1_B c i arg1 harg1 arg2 harg2 arg3 harg3 arg4 harg4 arg5 harg5 arg6 harg6 arg7 harg7 arg8 harg8 arg9 harg9 x0 x1 x2 x3 hc0 xs0 xs1).1 = k1_pay4 x0 x2 x1 x3
    ∧ View.canon (kernelRun1_B c i arg1 harg1 arg2 harg2 arg3 harg3 arg4 harg4 arg5 harg5 arg6 harg6 arg7 harg7 arg8 harg8 arg9 harg9 x0 x1 x2 x3 hc0 xs0 xs1).2.1 = k1_pay5 x0 x2 x1 x3 xs0
    ∧ View.canon (kernelRun1_B c i arg1 harg1 arg2 harg2 arg3 harg3 arg4 harg4 arg5 harg5 arg6 harg6 arg7 harg7 arg8 harg8 arg9 harg9 x0 x1 x2 x3 hc0 xs0 xs1).2.2.1 = k1_pay1 (k1_pay6 x0 x2 x1 x3 xs1)
    ∧ View.canon (kernelRun1_B c i arg1 harg1 arg2 harg2 arg3 harg3 arg4 harg4 arg5 harg5 arg6 harg6 arg7 harg7 arg8 harg8 arg9 harg9 x0 x1 x2 x3 hc0 xs0 xs1).2.2.2.1 = k1_pay5 x0 x2 x1 x3 xs0
    ∧ View.canon (kernelRun1_B c i arg1 harg1 arg2 harg2 arg3 harg3 arg4 harg4 arg5 harg5 arg6 harg6 arg7 harg7 arg8 harg8 arg9 harg9 x0 x1 x2 x3 hc0 xs0 xs1).2.2.2.2.1 = k1_pay1 (k1_pay6 x0 x2 x1 x3 xs1) := by
  unfold kernelRun1_B
  dsimp only
  try sl_unfold_words
  refine ⟨?_, ?_, ?_, ?_, ?_⟩ <;> simp only [View.canon_cons_unit_zero (S := S1x128) hz, View.canon_cons_unit_zero (S := S5000x128) hz, readCov_cons_unit_zero (S := S1x128) _ hz, View.readAt_eq_ld, harg1.read_unread, harg2.read_unread, harg3.read_unread, harg4.read_unread, harg8.read_unread, harg9.read_unread, View.ld_unit_zero (S := S5000x128) hz, View.ld_unit_zero (S := S5000x1) hz, View.ld_unit_zero (S := S1x128) hz]

theorem sound_kernel1_A (hc0 : cond1_0 i) (E : Set ℕ) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ (∃ d, owns (c : Thread nD τ) arg5 fullShare d)
        ∗ (∃ d, owns (c : Thread nD τ) arg6 fullShare d)
        ∗ (∃ d, owns (c : Thread nD τ) arg7 fullShare d)
        ∗ (∃ d, owns (c : Thread nD τ) arg8 fullShare d)
        ∗ (∃ d, owns (c : Thread nD τ) arg9 fullShare d)
        ∗ (iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare (k1_pay4 x0 x2 x1 x3)
            ∗ owns (c : Thread nD τ) arg6 fullShare (step1 x0 x1 x2 x3 (zero1 (F := F))).1
            ∗ owns (c : Thread nD τ) arg7 fullShare (step1 x0 x1 x2 x3 (zero1 (F := F))).2
            ∗ owns (c : Thread nD τ) arg8 fullShare (step1 x0 x1 x2 x3 (zero1 (F := F))).1
            ∗ owns (c : Thread nD τ) arg9 fullShare (step1 x0 x1 x2 x3 (zero1 (F := F))).2) -∗ K ⟨⟩))
      ⊢ wp frame (wpE (defs₀ (F := F)) Variants.none c none) E (cc1__combine_stats_kernel i arg1 harg1 arg2 harg2 arg3 harg3 arg4 harg4 arg5 harg5 arg6 harg6 arg7 harg7 arg8 harg8 arg9 harg9) K := by
  iintro ⟨H0, H1, H2, H3, H4, H5, H6, HS0, HS1, Hk⟩
  iapply ((kernelRun1_A c i arg1 harg1 arg2 harg2 arg3 harg3 arg4 harg4 arg5 harg5 arg6 harg6 arg7 harg7 arg8 harg8 arg9 harg9 x0 x1 x2 x3 hc0).2.2.2.2.2 E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS0]; · iexact HS0
  isplitl [HS1]; · iexact HS1
  iintro ⟨H0, H1, H2, H3, ⟨%e4, H4⟩, ⟨%e5, H5⟩, ⟨%e6, H6⟩, ⟨%es0, HS0⟩, ⟨%es1, HS1⟩⟩
  iapply Hk
  isplitl [H0]; · iexact H0
  isplitl [H1]; · iexact H1
  isplitl [H2]; · iexact H2
  isplitl [H3]; · iexact H3
  isplitl [H4]
  · unfold owns; iexists _; isplitr
    swap; · iexact H4
    ipureintro; exact (View.read_writes_eq_canon _ _ _ (cover1_A_4 c i arg1 harg1 arg2 harg2 arg3 harg3 arg4 harg4 arg5 harg5 arg6 harg6 arg7 harg7 arg8 harg8 arg9 harg9 x0 x1 x2 x3 hc0)).trans (out1_A c i arg1 harg1 arg2 harg2 arg3 harg3 arg4 harg4 arg5 harg5 arg6 harg6 arg7 harg7 arg8 harg8 arg9 harg9 x0 x1 x2 x3 hc0).1
  isplitl [H5]
  · unfold owns; iexists _; isplitr
    swap; · iexact H5
    ipureintro; exact (View.read_writes_eq_canon _ _ _ (cover1_A_5 c i arg1 harg1 arg2 harg2 arg3 harg3 arg4 harg4 arg5 harg5 arg6 harg6 arg7 harg7 arg8 harg8 arg9 harg9 x0 x1 x2 x3 hc0)).trans (out1_A c i arg1 harg1 arg2 harg2 arg3 harg3 arg4 harg4 arg5 harg5 arg6 harg6 arg7 harg7 arg8 harg8 arg9 harg9 x0 x1 x2 x3 hc0).2.1
  isplitl [H6]
  · unfold owns; iexists _; isplitr
    swap; · iexact H6
    ipureintro; exact (View.read_writes_eq_canon _ _ _ (cover1_A_6 c i arg1 harg1 arg2 harg2 arg3 harg3 arg4 harg4 arg5 harg5 arg6 harg6 arg7 harg7 arg8 harg8 arg9 harg9 x0 x1 x2 x3 hc0)).trans (out1_A c i arg1 harg1 arg2 harg2 arg3 harg3 arg4 harg4 arg5 harg5 arg6 harg6 arg7 harg7 arg8 harg8 arg9 harg9 x0 x1 x2 x3 hc0).2.2.1
  isplitl [HS0]
  · unfold owns; iexists _; isplitr
    swap; · iexact HS0
    ipureintro; exact (View.read_writes_eq_canon _ _ _ (scover1_A_0 c i arg1 harg1 arg2 harg2 arg3 harg3 arg4 harg4 arg5 harg5 arg6 harg6 arg7 harg7 arg8 harg8 arg9 harg9 x0 x1 x2 x3 hc0)).trans (out1_A c i arg1 harg1 arg2 harg2 arg3 harg3 arg4 harg4 arg5 harg5 arg6 harg6 arg7 harg7 arg8 harg8 arg9 harg9 x0 x1 x2 x3 hc0).2.2.2.1
  unfold owns; iexists _; isplitr
  swap; · iexact HS1
  ipureintro; exact (View.read_writes_eq_canon _ _ _ (scover1_A_1 c i arg1 harg1 arg2 harg2 arg3 harg3 arg4 harg4 arg5 harg5 arg6 harg6 arg7 harg7 arg8 harg8 arg9 harg9 x0 x1 x2 x3 hc0)).trans (out1_A c i arg1 harg1 arg2 harg2 arg3 harg3 arg4 harg4 arg5 harg5 arg6 harg6 arg7 harg7 arg8 harg8 arg9 harg9 x0 x1 x2 x3 hc0).2.2.2.2

theorem sound_kernel1_B (hc0 : ¬cond1_0 i) (xs0 : Vec F S1x128 .f32) (xs1 : Vec F S1x128 .f32) (E : Set ℕ) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ (∃ d, owns (c : Thread nD τ) arg5 fullShare d)
        ∗ (∃ d, owns (c : Thread nD τ) arg6 fullShare d)
        ∗ (∃ d, owns (c : Thread nD τ) arg7 fullShare d)
        ∗ owns (c : Thread nD τ) arg8 fullShare xs0
        ∗ owns (c : Thread nD τ) arg9 fullShare xs1
        ∗ (iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare (k1_pay4 x0 x2 x1 x3)
            ∗ owns (c : Thread nD τ) arg6 fullShare (step1 x0 x1 x2 x3 (xs0, xs1)).1
            ∗ owns (c : Thread nD τ) arg7 fullShare (step1 x0 x1 x2 x3 (xs0, xs1)).2
            ∗ owns (c : Thread nD τ) arg8 fullShare (step1 x0 x1 x2 x3 (xs0, xs1)).1
            ∗ owns (c : Thread nD τ) arg9 fullShare (step1 x0 x1 x2 x3 (xs0, xs1)).2) -∗ K ⟨⟩))
      ⊢ wp frame (wpE (defs₀ (F := F)) Variants.none c none) E (cc1__combine_stats_kernel i arg1 harg1 arg2 harg2 arg3 harg3 arg4 harg4 arg5 harg5 arg6 harg6 arg7 harg7 arg8 harg8 arg9 harg9) K := by
  iintro ⟨H0, H1, H2, H3, H4, H5, H6, HS0, HS1, Hk⟩
  iapply ((kernelRun1_B c i arg1 harg1 arg2 harg2 arg3 harg3 arg4 harg4 arg5 harg5 arg6 harg6 arg7 harg7 arg8 harg8 arg9 harg9 x0 x1 x2 x3 hc0 xs0 xs1).2.2.2.2.2 E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS0]; · iexact HS0
  isplitl [HS1]; · iexact HS1
  iintro ⟨H0, H1, H2, H3, ⟨%e4, H4⟩, ⟨%e5, H5⟩, ⟨%e6, H6⟩, ⟨%es0, HS0⟩, ⟨%es1, HS1⟩⟩
  iapply Hk
  isplitl [H0]; · iexact H0
  isplitl [H1]; · iexact H1
  isplitl [H2]; · iexact H2
  isplitl [H3]; · iexact H3
  isplitl [H4]
  · unfold owns; iexists _; isplitr
    swap; · iexact H4
    ipureintro; exact (View.read_writes_eq_canon _ _ _ (cover1_B_4 c i arg1 harg1 arg2 harg2 arg3 harg3 arg4 harg4 arg5 harg5 arg6 harg6 arg7 harg7 arg8 harg8 arg9 harg9 x0 x1 x2 x3 hc0 xs0 xs1)).trans (out1_B c i arg1 harg1 arg2 harg2 arg3 harg3 arg4 harg4 arg5 harg5 arg6 harg6 arg7 harg7 arg8 harg8 arg9 harg9 x0 x1 x2 x3 hc0 xs0 xs1).1
  isplitl [H5]
  · unfold owns; iexists _; isplitr
    swap; · iexact H5
    ipureintro; exact (View.read_writes_eq_canon _ _ _ (cover1_B_5 c i arg1 harg1 arg2 harg2 arg3 harg3 arg4 harg4 arg5 harg5 arg6 harg6 arg7 harg7 arg8 harg8 arg9 harg9 x0 x1 x2 x3 hc0 xs0 xs1)).trans (out1_B c i arg1 harg1 arg2 harg2 arg3 harg3 arg4 harg4 arg5 harg5 arg6 harg6 arg7 harg7 arg8 harg8 arg9 harg9 x0 x1 x2 x3 hc0 xs0 xs1).2.1
  isplitl [H6]
  · unfold owns; iexists _; isplitr
    swap; · iexact H6
    ipureintro; exact (View.read_writes_eq_canon _ _ _ (cover1_B_6 c i arg1 harg1 arg2 harg2 arg3 harg3 arg4 harg4 arg5 harg5 arg6 harg6 arg7 harg7 arg8 harg8 arg9 harg9 x0 x1 x2 x3 hc0 xs0 xs1)).trans (out1_B c i arg1 harg1 arg2 harg2 arg3 harg3 arg4 harg4 arg5 harg5 arg6 harg6 arg7 harg7 arg8 harg8 arg9 harg9 x0 x1 x2 x3 hc0 xs0 xs1).2.2.1
  isplitl [HS0]
  · unfold owns; iexists _; isplitr
    swap; · iexact HS0
    ipureintro; exact (View.read_writes_eq_canon _ _ _ (scover1_B_0 c i arg1 harg1 arg2 harg2 arg3 harg3 arg4 harg4 arg5 harg5 arg6 harg6 arg7 harg7 arg8 harg8 arg9 harg9 x0 x1 x2 x3 hc0 xs0 xs1)).trans (out1_B c i arg1 harg1 arg2 harg2 arg3 harg3 arg4 harg4 arg5 harg5 arg6 harg6 arg7 harg7 arg8 harg8 arg9 harg9 x0 x1 x2 x3 hc0 xs0 xs1).2.2.2.1
  unfold owns; iexists _; isplitr
  swap; · iexact HS1
  ipureintro; exact (View.read_writes_eq_canon _ _ _ (scover1_B_1 c i arg1 harg1 arg2 harg2 arg3 harg3 arg4 harg4 arg5 harg5 arg6 harg6 arg7 harg7 arg8 harg8 arg9 harg9 x0 x1 x2 x3 hc0 xs0 xs1)).trans (out1_B c i arg1 harg1 arg2 harg2 arg3 harg3 arg4 harg4 arg5 harg5 arg6 harg6 arg7 harg7 arg8 harg8 arg9 harg9 x0 x1 x2 x3 hc0 xs0 xs1).2.2.2.2

end

end Cert.Kernel.Hand

end
-- ==== Proof.K.Reg1.lean ====
import proofs.«418928_j70858370450169_1_alg».proof.Proof.K.Comb

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

abbrev scM1_0 : Memref sig .tc .vmem S1x128 .f32 := Memref.whole cc1_scratch0
abbrev scM1_1 : Memref sig .tc .vmem S1x128 .f32 := Memref.whole cc1_scratch1

theorem PhiA1_eq (c : Dev nD) :
    (Pipeline.ΦA spec1 c : sProp 𝕄)
      = iprop(iprop(iprop((∃ d, owns (c : Thread nD τ) scM1_0 fullShare d) ∗ (∃ d, owns (c : Thread nD τ) scM1_1 fullShare d))
          ∗ Pipeline.scopedRestBut (Ix := Unit) (Name := ℕ) (U := UR sig nD τ) (Lvl := ℕ) (Val := Elt F) spec1 c [cc1_scratch0, cc1_scratch1]) ∗ (∃ r, prngReg c r)) := by
  unfold Pipeline.ΦA; rw [scopedRest1_split]; simp only [scM1_0, scM1_1, owns_whole]; try rfl

def acc1 (c : Dev nD) : (n : ℕ) → n < cfg1.N → Vec F S1x128 .f32 × Vec F S1x128 .f32
  | 0, hn => step1 (iblk1 V c 0 ⟨0, hn⟩) (iblk1 V c 1 ⟨0, hn⟩) (iblk1 V c 2 ⟨0, hn⟩) (iblk1 V c 3 ⟨0, hn⟩) (zero1 (F := F))
  | n + 1, hn => step1 (iblk1 V c 0 ⟨n + 1, hn⟩) (iblk1 V c 1 ⟨n + 1, hn⟩) (iblk1 V c 2 ⟨n + 1, hn⟩) (iblk1 V c 3 ⟨n + 1, hn⟩) (acc1 c n (Nat.lt_of_succ_lt hn))

theorem acc1_first (c : Dev nD) (t : Fin cfg1.N) (h : t.val = 0) :
    acc1 V c t.val t.isLt = step1 (iblk1 V c 0 t) (iblk1 V c 1 t) (iblk1 V c 2 t) (iblk1 V c 3 t) (zero1 (F := F)) := by
  obtain ⟨n, hn⟩ := t
  cases n with
  | zero => rfl
  | succ n => exact absurd h (Nat.succ_ne_zero _)

theorem acc1_later (c : Dev nD) (t : Fin cfg1.N) (h : t.val ≠ 0) :
    acc1 V c t.val t.isLt = step1 (iblk1 V c 0 t) (iblk1 V c 1 t) (iblk1 V c 2 t) (iblk1 V c 3 t) (acc1 V c (t.val - 1) (Nat.lt_of_le_of_lt (Nat.sub_le _ _) t.isLt)) := by
  obtain ⟨n, hn⟩ := t
  cases n with
  | zero => exact absurd rfl h
  | succ n => rfl

def PhiS1 (c : Dev nD) : (n : ℕ) → n ≤ cfg1.N → sProp 𝕄
  | 0, _ => Pipeline.ΦA spec1 c
  | n + 1, hn => iprop(iprop(iprop(owns (c : Thread nD τ) scM1_0 fullShare (acc1 V c n hn).1 ∗ owns (c : Thread nD τ) scM1_1 fullShare (acc1 V c n hn).2)
      ∗ Pipeline.scopedRestBut (Ix := Unit) (Name := ℕ) (U := UR sig nD τ) (Lvl := ℕ) (Val := Elt F) spec1 c [cc1_scratch0, cc1_scratch1]) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(iprop(owns (c : Thread nD τ) scM1_0 fullShare (acc1 V c n hn).1 ∗ owns (c : Thread nD τ) scM1_1 fullShare (acc1 V c n hn).2)
      ∗ Pipeline.scopedRestBut (Ix := Unit) (Name := ℕ) (U := UR sig nD τ) (Lvl := ℕ) (Val := Elt F) spec1 c [cc1_scratch0, cc1_scratch1]) ∗ (∃ r, prngReg c r)) := rfl

theorem PhiS1_pos (c : Dev nD) (n : ℕ) (h : n ≤ cfg1.N) (hz : n ≠ 0) :
    PhiS1 V c n h = iprop(iprop(iprop(owns (c : Thread nD τ) scM1_0 fullShare (acc1 V c (n - 1) (by omega)).1 ∗ owns (c : Thread nD τ) scM1_1 fullShare (acc1 V c (n - 1) (by omega)).2)
      ∗ Pipeline.scopedRestBut (Ix := Unit) (Name := ℕ) (U := UR sig nD τ) (Lvl := ℕ) (Val := Elt F) spec1 c [cc1_scratch0, cc1_scratch1]) ∗ (∃ r, prngReg c r)) := by
  cases n with
  | zero => exact absurd rfl hz
  | succ n => rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => k1_pay4 (iblk1 V c 0 t) (iblk1 V c 2 t) (iblk1 V c 1 t) (iblk1 V c 3 t)
    | ⟨5, _⟩ => (acc1 V c t.val t.isLt).1
    | ⟨6, _⟩ => (acc1 V c t.val t.isLt).2
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = k1_pay4 (iblk1 V c 0 t) (iblk1 V c 2 t) (iblk1 V c 1 t) (iblk1 V c 3 t) := by dsimp only [dat1]
theorem after1_5 (c : Dev nD) (t : Fin cfg1.N) : (dat1 V c).after 5 t = (acc1 V c t.val t.isLt).1 := by dsimp only [dat1]
theorem after1_6 (c : Dev nD) (t : Fin cfg1.N) : (dat1 V c).after 6 t = (acc1 V c t.val t.isLt).2 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

set_option maxHeartbeats 4000000 in

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  rw [after1_0, after1_1, after1_2, after1_3, after1_4, after1_5, after1_6]
  rw [PhiS1_castSucc V c t]
  by_cases hz0 : t.val = 0
  · rw [PhiS1_zero V c _ _ hz0, PhiA1_eq, acc1_first V c t hz0]
    iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩⟩
    iapply (sound_kernel1_A c (grid1.coords t) _ _ _ _ _ _ _ _ _ _ _ _ _ _ _ _ _ _ (iblk1 V c 0 t) (iblk1 V c 1 t) (iblk1 V c 2 t) (iblk1 V c 3 t) ((hcond1_0 t).mpr (by rw [hz0])) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [HS0]; · iexact HS0
    isplitl [HS1]; · iexact HS1
    iintro ⟨H0, H1, H2, H3, H4, H5, H6, HS0, HS1⟩
    isplitl [HS0 HS1 HR Hg]
    · isplitl [HS0 HS1 HR]
      · isplitl [HS0 HS1]
        · isplitl [HS0]; · iexact HS0
          iexact HS1
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · rw [PhiS1_pos V c _ _ hz0, acc1_later V c t hz0]
    iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩⟩
    iapply (sound_kernel1_B c (grid1.coords t) _ _ _ _ _ _ _ _ _ _ _ _ _ _ _ _ _ _ (iblk1 V c 0 t) (iblk1 V c 1 t) (iblk1 V c 2 t) (iblk1 V c 3 t) (fun h => hz0 (by have h1 := (hcond1_0 t).mp h; have h2 := t.isLt; have h3 : cfg1.N = 20 := N_1; omega)) _ _ Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [HS0]; · iexact HS0
    isplitl [HS1]; · iexact HS1
    iintro ⟨H0, H1, H2, H3, H4, H5, H6, HS0, HS1⟩
    isplitl [HS0 HS1 HR Hg]
    · isplitl [HS0 HS1 HR]
      · isplitl [HS0 HS1]
        · isplitl [HS0]; · iexact HS0
          iexact HS1
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

theorem Phi1_out (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨⟨HS0, HS1⟩, HR⟩, Hg⟩
  isplitl [HS0 HS1 HR]
  · isplitl [HS0 HS1]
    · isplitl [HS0]; · iexists _; iexact HS0
      iexists _; iexact HS1
    iexact HR
  iexact Hg

theorem hout1 (c : Dev nD) : (dat1 V c).Φ (Fin.last cfg1.N) ⊢ Pipeline.ΦA spec1 c :=
  Phi1_out V c _ (by rw [Fin.val_last]; have : cfg1.N = 20 := N_1; omega)

end Cert.Kernel.Hand

end
-- ==== Proof.K.Norm.lean ====
import proofs.«418928_j70858370450169_1_alg».proof.Proof.Gen.Kernel.Launch
import proofs.«418928_j70858370450169_1_alg».proof.Proof.Gen.Kernel.Skeleton
import proofs.«418928_j70858370450169_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev r2_0 : Rect S5000x128 := Rect.unit (s := S5000x128) ![0, 0] S5000x128.size inb_S5000x128_S5000x128_0_0
abbrev r2_1 : Rect S1x128 := Rect.unit (s := S1x128) ![0, 0] S1x128.size inb_S1x128_S1x128_0_0

def out2_3 (x0 : Vec F S5000x128 .f32) (x1 : Vec F S1x128 .f32) (x2 : Vec F S1x128 .f32) : Vec F S5000x128 .f32 :=
  View.canon [⟨r2_0, k2_pay1 (View.ld x0 r2_0) (View.ld x1 r2_1) (View.ld x2 r2_1)⟩]

theorem cover2_3 (p0 : Vec F S5000x128 .f32) (y : S5000x128.Idx) :
    ∃ pc ∈ ([⟨r2_0, p0⟩] : List (View.Piece (Elt F) S5000x128 .f32)), y ∈ pc.1.set :=
  View.cover_of_tiled [⟨r2_0, p0⟩] S5000x128.size (by rfl) y

set_option maxHeartbeats 1000000 in
theorem sound_kernel2 (c : Dev nD) (E : Set ℕ) (i : grid2.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S5000x128 .f32) (harg4 : arg4.IsWhole)
    (x0 : Vec F S5000x128 .f32) (x1 : Vec F S1x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out2_3 x0 x1 x2)) -∗ K ⟨⟩))
      ⊢ wp frame (wpE (defs₀ (F := F)) Variants.none c none) E (cc2__normalize_kernel i arg1 harg1 arg2 harg2 arg3 harg3 arg4 harg4) K := by
  simp only [cc2__normalize_kernel_eq_skeleton]; unfold cc2__normalize_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

theorem cc5_eq : @cc5__normalize_kernel F _ = @cc2__normalize_kernel F _ := rfl
theorem cc8_eq : @cc8__normalize_kernel F _ = @cc2__normalize_kernel F _ := rfl

end Cert.Kernel.Hand

end
-- ==== Proof.K.Reg2.lean ====
import proofs.«418928_j70858370450169_1_alg».proof.Proof.K.Norm

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation2 (c : Dev nD) : BodyObligation (dat2 (F := F) V c) (defs₀ (F := F)) Variants.none () Set.univ := fun t => by
  rw [bigSep_W2, bigSep_W2]
  exact sound_body2 V c t

theorem hin2 (c : Dev nD) : Pipeline.ΦA spec2 c ⊢ (dat2 V c).Φ 0 := .rfl

theorem hout2 (c : Dev nD) : (dat2 V c).Φ (Fin.last cfg2.N) ⊢ Pipeline.ΦA spec2 c := .rfl

end Cert.Kernel.Hand

end
-- ==== Proof.K.Reg3.lean ====
import proofs.«418928_j70858370450169_1_alg».proof.Proof.Gen.Kernel.Launch
import proofs.«418928_j70858370450169_1_alg».proof.Proof.Gen.Kernel.Skeleton
import proofs.«418928_j70858370450169_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

abbrev r3_0 : Rect S5000x128 := Rect.unit (s := S5000x128) ![0, 0] S5000x128.size inb_S5000x128_S5000x128_0_0
abbrev r3_1 : Rect S128x128 := Rect.unit (s := S128x128) ![0, 0] S128x128.size inb_S128x128_S128x128_0_0
abbrev r3_2 : Rect S5000x128 := Rect.unit (s := S5000x128) ![0, 0] S5000x128.size inb_S5000x128_S5000x128_0_0

def out3_2 (x0 : Vec F S5000x128 .f32) (x1 : Vec F S128x128 .f32) : Vec F S5000x128 .f32 :=
  View.canon [⟨r3_2, k3_pay1 (View.ld x0 r3_0) (View.ld x1 r3_1)⟩]

theorem cover3_2 (p0 : Vec F S5000x128 .f32) (y : S5000x128.Idx) :
    ∃ pc ∈ ([⟨r3_2, p0⟩] : List (View.Piece (Elt F) S5000x128 .f32)), y ∈ pc.1.set :=
  View.cover_of_tiled [⟨r3_2, p0⟩] S5000x128.size (by rfl) y

set_option maxHeartbeats 1000000 in

theorem sound_kernel3 (c : Dev nD) (E : Set ℕ) (i : grid3.Coords) (arg1 : Memref sig .tc .vmem S5000x128 .f32) (harg1 : arg1.IsWhole) (arg2 : Memref sig .tc .vmem S128x128 .f32) (harg2 : arg2.IsWhole) (arg3 : Memref sig .tc .vmem S5000x128 .f32) (harg3 : arg3.IsWhole)
    (x0 : Vec F S5000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out3_2 x0 x1)) -∗ K ⟨⟩))
      ⊢ wp frame (wpE (defs₀ (F := F)) Variants.none c none) E (cc3__matmul_kernel i arg1 harg1 arg2 harg2 arg3 harg3) K := by
  simp only [cc3__matmul_kernel_eq_skeleton]; unfold cc3__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

theorem hin3 (c : Dev nD) : Pipeline.ΦA spec3 c ⊢ (dat3 V c).Φ 0 := .rfl
theorem hout3 (c : Dev nD) : (dat3 V c).Φ (Fin.last cfg3.N) ⊢ Pipeline.ΦA spec3 c := .rfl

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.K.Reg4.lean ====
import proofs.«418928_j70858370450169_1_alg».proof.Proof.K.Comb

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

abbrev scM4_0 : Memref sig .tc .vmem S1x128 .f32 := Memref.whole cc4_scratch0
abbrev scM4_1 : Memref sig .tc .vmem S1x128 .f32 := Memref.whole cc4_scratch1

theorem PhiA4_eq (c : Dev nD) :
    (Pipeline.ΦA spec4 c : sProp 𝕄)
      = iprop(iprop(iprop((∃ d, owns (c : Thread nD τ) scM4_0 fullShare d) ∗ (∃ d, owns (c : Thread nD τ) scM4_1 fullShare d))
          ∗ Pipeline.scopedRestBut (Ix := Unit) (Name := ℕ) (U := UR sig nD τ) (Lvl := ℕ) (Val := Elt F) spec4 c [cc4_scratch0, cc4_scratch1]) ∗ (∃ r, prngReg c r)) := by
  unfold Pipeline.ΦA; rw [scopedRest4_split]; simp only [scM4_0, scM4_1, owns_whole]; try rfl

def acc4 (c : Dev nD) : (n : ℕ) → n < cfg4.N → Vec F S1x128 .f32 × Vec F S1x128 .f32
  | 0, hn => step1 (iblk4 V c 0 ⟨0, hn⟩) (iblk4 V c 1 ⟨0, hn⟩) (iblk4 V c 2 ⟨0, hn⟩) (iblk4 V c 3 ⟨0, hn⟩) (zero1 (F := F))
  | n + 1, hn => step1 (iblk4 V c 0 ⟨n + 1, hn⟩) (iblk4 V c 1 ⟨n + 1, hn⟩) (iblk4 V c 2 ⟨n + 1, hn⟩) (iblk4 V c 3 ⟨n + 1, hn⟩) (acc4 c n (Nat.lt_of_succ_lt hn))

theorem acc4_first (c : Dev nD) (t : Fin cfg4.N) (h : t.val = 0) :
    acc4 V c t.val t.isLt = step1 (iblk4 V c 0 t) (iblk4 V c 1 t) (iblk4 V c 2 t) (iblk4 V c 3 t) (zero1 (F := F)) := by
  obtain ⟨n, hn⟩ := t
  cases n with
  | zero => rfl
  | succ n => exact absurd h (Nat.succ_ne_zero _)

theorem acc4_later (c : Dev nD) (t : Fin cfg4.N) (h : t.val ≠ 0) :
    acc4 V c t.val t.isLt = step1 (iblk4 V c 0 t) (iblk4 V c 1 t) (iblk4 V c 2 t) (iblk4 V c 3 t) (acc4 V c (t.val - 1) (Nat.lt_of_le_of_lt (Nat.sub_le _ _) t.isLt)) := by
  obtain ⟨n, hn⟩ := t
  cases n with
  | zero => exact absurd rfl h
  | succ n => rfl

def PhiS4 (c : Dev nD) : (n : ℕ) → n ≤ cfg4.N → sProp 𝕄
  | 0, _ => Pipeline.ΦA spec4 c
  | n + 1, hn => iprop(iprop(iprop(owns (c : Thread nD τ) scM4_0 fullShare (acc4 V c n hn).1 ∗ owns (c : Thread nD τ) scM4_1 fullShare (acc4 V c n hn).2)
      ∗ Pipeline.scopedRestBut (Ix := Unit) (Name := ℕ) (U := UR sig nD τ) (Lvl := ℕ) (Val := Elt F) spec4 c [cc4_scratch0, cc4_scratch1]) ∗ (∃ r, prngReg c r))

theorem PhiS4_zero (c : Dev nD) (n : ℕ) (h : n ≤ cfg4.N) (hz : n = 0) : PhiS4 V c n h = Pipeline.ΦA spec4 c := by
  subst hz; rfl

theorem PhiS4_succ (c : Dev nD) (n : ℕ) (hn : n < cfg4.N) :
    PhiS4 V c (n + 1) hn = iprop(iprop(iprop(owns (c : Thread nD τ) scM4_0 fullShare (acc4 V c n hn).1 ∗ owns (c : Thread nD τ) scM4_1 fullShare (acc4 V c n hn).2)
      ∗ Pipeline.scopedRestBut (Ix := Unit) (Name := ℕ) (U := UR sig nD τ) (Lvl := ℕ) (Val := Elt F) spec4 c [cc4_scratch0, cc4_scratch1]) ∗ (∃ r, prngReg c r)) := rfl

theorem PhiS4_pos (c : Dev nD) (n : ℕ) (h : n ≤ cfg4.N) (hz : n ≠ 0) :
    PhiS4 V c n h = iprop(iprop(iprop(owns (c : Thread nD τ) scM4_0 fullShare (acc4 V c (n - 1) (by omega)).1 ∗ owns (c : Thread nD τ) scM4_1 fullShare (acc4 V c (n - 1) (by omega)).2)
      ∗ Pipeline.scopedRestBut (Ix := Unit) (Name := ℕ) (U := UR sig nD τ) (Lvl := ℕ) (Val := Elt F) spec4 c [cc4_scratch0, cc4_scratch1]) ∗ (∃ r, prngReg c r)) := by
  cases n with
  | zero => exact absurd rfl hz
  | succ n => rfl

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => k1_pay4 (iblk4 V c 0 t) (iblk4 V c 2 t) (iblk4 V c 1 t) (iblk4 V c 3 t)
    | ⟨5, _⟩ => (acc4 V c t.val t.isLt).1
    | ⟨6, _⟩ => (acc4 V c t.val t.isLt).2
  Φ t := PhiS4 V c t.val (Nat.le_of_lt_succ t.isLt)
  q _ := fullShare
  owed _ := 0

theorem A_eq4 (c : Dev nD) (w : Fin cfg4.W) : (dat4 V c).A w = V c (Pipeline.arrRef spec4 w) := by
  dsimp only [dat4]

theorem PhiS4_castSucc (c : Dev nD) (t : Fin cfg4.N) :
    (dat4 V c).Φ t.castSucc = PhiS4 V c t.val (Nat.le_of_lt t.isLt) := by
  dsimp only [dat4]; simp only [Fin.coe_castSucc]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = k1_pay4 (iblk4 V c 0 t) (iblk4 V c 2 t) (iblk4 V c 1 t) (iblk4 V c 3 t) := by dsimp only [dat4]
theorem after4_5 (c : Dev nD) (t : Fin cfg4.N) : (dat4 V c).after 5 t = (acc4 V c t.val t.isLt).1 := by dsimp only [dat4]
theorem after4_6 (c : Dev nD) (t : Fin cfg4.N) : (dat4 V c).after 6 t = (acc4 V c t.val t.isLt).2 := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d))
    ∗ (∃ d, owns (c : Thread nD τ) (st4_6 t) fullShare ((dat4 V c).before 6 t d)))

def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t)
    ∗ owns (c : Thread nD τ) (st4_6 t) fullShare ((dat4 V c).after 6 t))

set_option maxHeartbeats 4000000 in

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4; rw [cc4_eq]
  simp only [before4_0, before4_1, before4_2, before4_3]
  rw [show (dat4 V c).owesAt () t.succ = (dat4 V c).owesAt () t.castSucc from rfl]
  rw [show (dat4 V c).Φ t.succ = PhiS4 V c (t.val + 1) t.isLt from rfl, PhiS4_succ]
  rw [after4_0, after4_1, after4_2, after4_3, after4_4, after4_5, after4_6]
  rw [PhiS4_castSucc V c t]
  by_cases hz0 : t.val = 0
  · rw [PhiS4_zero V c _ _ hz0, PhiA4_eq, acc4_first V c t hz0]
    iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩⟩
    iapply (sound_kernel1_A c (grid4.coords t) _ _ _ _ _ _ _ _ _ _ _ _ _ _ _ _ _ _ (iblk4 V c 0 t) (iblk4 V c 1 t) (iblk4 V c 2 t) (iblk4 V c 3 t) ((hcond4_0 t).mpr (by rw [hz0])) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [HS0]; · iexact HS0
    isplitl [HS1]; · iexact HS1
    iintro ⟨H0, H1, H2, H3, H4, H5, H6, HS0, HS1⟩
    isplitl [HS0 HS1 HR Hg]
    · isplitl [HS0 HS1 HR]
      · isplitl [HS0 HS1]
        · isplitl [HS0]; · iexact HS0
          iexact HS1
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · rw [PhiS4_pos V c _ _ hz0, acc4_later V c t hz0]
    iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩⟩
    iapply (sound_kernel1_B c (grid4.coords t) _ _ _ _ _ _ _ _ _ _ _ _ _ _ _ _ _ _ (iblk4 V c 0 t) (iblk4 V c 1 t) (iblk4 V c 2 t) (iblk4 V c 3 t) (fun h => hz0 (by have h1 := (hcond4_0 t).mp h; have h2 := t.isLt; have h3 : cfg4.N = 20 := N_4; omega)) _ _ Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [HS0]; · iexact HS0
    isplitl [HS1]; · iexact HS1
    iintro ⟨H0, H1, H2, H3, H4, H5, H6, HS0, HS1⟩
    isplitl [HS0 HS1 HR Hg]
    · isplitl [HS0 HS1 HR]
      · isplitl [HS0 HS1]
        · isplitl [HS0]; · iexact HS0
          iexact HS1
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

theorem body_obligation4 (c : Dev nD) : BodyObligation (dat4 (F := F) V c) (defs₀ (F := F)) Variants.none () Set.univ := fun t => by
  rw [bigSep_W4, bigSep_W4]
  exact sound_body4 V c t

theorem hin4 (c : Dev nD) : Pipeline.ΦA spec4 c ⊢ (dat4 V c).Φ 0 := by
  rw [show (dat4 V c).Φ 0 = PhiS4 V c 0 (Nat.zero_le _) from rfl, PhiS4_zero V c 0 _ rfl]
  try exact Idealize.SL.BI.Entails.refl _

theorem Phi4_out (c : Dev nD) (t : Fin (cfg4.N + 1)) (ht : t.val ≠ 0) : (dat4 V c).Φ t ⊢ Pipeline.ΦA spec4 c := by
  rw [show (dat4 V c).Φ t = PhiS4 V c t.val (Nat.le_of_lt_succ t.isLt) from rfl, PhiS4_pos V c _ _ ht, PhiA4_eq]
  iintro ⟨⟨⟨HS0, HS1⟩, HR⟩, Hg⟩
  isplitl [HS0 HS1 HR]
  · isplitl [HS0 HS1]
    · isplitl [HS0]; · iexists _; iexact HS0
      iexists _; iexact HS1
    iexact HR
  iexact Hg

theorem hout4 (c : Dev nD) : (dat4 V c).Φ (Fin.last cfg4.N) ⊢ Pipeline.ΦA spec4 c :=
  Phi4_out V c _ (by rw [Fin.val_last]; have : cfg4.N = 20 := N_4; omega)

end Cert.Kernel.Hand

end
-- ==== Proof.K.Reg5.lean ====
import proofs.«418928_j70858370450169_1_alg».proof.Proof.K.Norm

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => out2_3 (iblk5 V c 0 t) (iblk5 V c 1 t) (iblk5 V c 2 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = out2_3 (iblk5 V c 0 t) (iblk5 V c 1 t) (iblk5 V c 2 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d

def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d)))

def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t))

theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5; rw [cc5_eq]
  simp only [before5_0, before5_1, before5_2]
  rw [show (dat5 V c).Φ t.succ = (dat5 V c).Φ t.castSucc from rfl,
    show (dat5 V c).owesAt () t.succ = (dat5 V c).owesAt () t.castSucc from rfl,
    after5_0, after5_1, after5_2, after5_3]
  iintro ⟨HΦ, Ho, ⟨%d0, H0⟩, ⟨%d1, H1⟩, ⟨%d2, H2⟩, ⟨%d3, H3⟩⟩
  iapply (sound_kernel2 c Set.univ _ _ _ _ _ _ _ _ _ (iblk5 V c 0 t) (iblk5 V c 1 t) (iblk5 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation5 (c : Dev nD) : BodyObligation (dat5 (F := F) V c) (defs₀ (F := F)) Variants.none () Set.univ := fun t => by
  rw [bigSep_W5, bigSep_W5]
  exact sound_body5 V c t

theorem hin5 (c : Dev nD) : Pipeline.ΦA spec5 c ⊢ (dat5 V c).Φ 0 := .rfl

theorem hout5 (c : Dev nD) : (dat5 V c).Φ (Fin.last cfg5.N) ⊢ Pipeline.ΦA spec5 c := .rfl

end Cert.Kernel.Hand

end
-- ==== Proof.K.Reg6.lean ====
import proofs.«418928_j70858370450169_1_alg».proof.Proof.Gen.Kernel.Launch
import proofs.«418928_j70858370450169_1_alg».proof.Proof.Gen.Kernel.Skeleton
import proofs.«418928_j70858370450169_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

abbrev r6_0 : Rect S5000x128 := Rect.unit (s := S5000x128) ![0, 0] S5000x128.size inb_S5000x128_S5000x128_0_0
abbrev r6_1 : Rect S128x128 := Rect.unit (s := S128x128) ![0, 0] S128x128.size inb_S128x128_S128x128_0_0
abbrev r6_2 : Rect S5000x128 := Rect.unit (s := S5000x128) ![0, 0] S5000x128.size inb_S5000x128_S5000x128_0_0

def out6_2 (x0 : Vec F S5000x128 .f32) (x1 : Vec F S128x128 .f32) : Vec F S5000x128 .f32 :=
  View.canon [⟨r6_2, k6_pay1 (View.ld x0 r6_0) (View.ld x1 r6_1)⟩]

theorem cover6_2 (p0 : Vec F S5000x128 .f32) (y : S5000x128.Idx) :
    ∃ pc ∈ ([⟨r6_2, p0⟩] : List (View.Piece (Elt F) S5000x128 .f32)), y ∈ pc.1.set :=
  View.cover_of_tiled [⟨r6_2, p0⟩] S5000x128.size (by rfl) y

set_option maxHeartbeats 1000000 in

theorem sound_kernel6 (c : Dev nD) (E : Set ℕ) (i : grid6.Coords) (arg1 : Memref sig .tc .vmem S5000x128 .f32) (harg1 : arg1.IsWhole) (arg2 : Memref sig .tc .vmem S128x128 .f32) (harg2 : arg2.IsWhole) (arg3 : Memref sig .tc .vmem S5000x128 .f32) (harg3 : arg3.IsWhole)
    (x0 : Vec F S5000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out6_2 x0 x1)) -∗ K ⟨⟩))
      ⊢ wp frame (wpE (defs₀ (F := F)) Variants.none c none) E (cc6__matmul_kernel i arg1 harg1 arg2 harg2 arg3 harg3) K := by
  simp only [cc6__matmul_kernel_eq_skeleton]; unfold cc6__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover6_2 _)

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => out6_2 (iblk6 V c 0 t) (iblk6 V c 1 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = out6_2 (iblk6 V c 0 t) (iblk6 V c 1 t) := by dsimp only [dat6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d

theorem hin6 (c : Dev nD) : Pipeline.ΦA spec6 c ⊢ (dat6 V c).Φ 0 := .rfl
theorem hout6 (c : Dev nD) : (dat6 V c).Φ (Fin.last cfg6.N) ⊢ Pipeline.ΦA spec6 c := .rfl

def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d)))

def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t))

theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1]
  rw [show (dat6 V c).Φ t.succ = (dat6 V c).Φ t.castSucc from rfl,
    show (dat6 V c).owesAt () t.succ = (dat6 V c).owesAt () t.castSucc from rfl,
    after6_0, after6_1, after6_2]
  iintro ⟨HΦ, Ho, ⟨%d0, H0⟩, ⟨%d1, H1⟩, ⟨%d2, H2⟩⟩
  iapply (sound_kernel6 c Set.univ _ _ _ _ _ _ _ (iblk6 V c 0 t) (iblk6 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation6 (c : Dev nD) : BodyObligation (dat6 (F := F) V c) (defs₀ (F := F)) Variants.none () Set.univ := fun t => by
  rw [bigSep_W6, bigSep_W6]
  exact sound_body6 V c t

end Cert.Kernel.Hand

end
-- ==== Proof.K.Reg7.lean ====
import proofs.«418928_j70858370450169_1_alg».proof.Proof.K.Comb

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

theorem before7_3_of {c : Dev nD} (dat : Dat τ (Elt F) Unit ℕ (UR sig nD τ) ℕ cfg7 c) (hA : dat.A 3 = V c (Pipeline.arrRef spec7 3))
    (hafter : ∀ t, dat.after 3 t = iblk7 V c 3 t) (t : Fin cfg7.N) (d) : dat.before 3 t d = iblk7 V c 3 t :=
  (dat.before_in_eq_fetched 3 rfl (fun _ => rfl) (fun _ _ _ => rfl) (fun t => by rw [hafter]; unfold Dat.blockOf iblk7; rw [hA]; try rfl) t d).trans
    (by unfold Dat.fetched Dat.blockOf iblk7; rw [hA]; try rfl)

abbrev scM7_0 : Memref sig .tc .vmem S1x128 .f32 := Memref.whole cc7_scratch0
abbrev scM7_1 : Memref sig .tc .vmem S1x128 .f32 := Memref.whole cc7_scratch1

theorem PhiA7_eq (c : Dev nD) :
    (Pipeline.ΦA spec7 c : sProp 𝕄)
      = iprop(iprop(iprop((∃ d, owns (c : Thread nD τ) scM7_0 fullShare d) ∗ (∃ d, owns (c : Thread nD τ) scM7_1 fullShare d))
          ∗ Pipeline.scopedRestBut (Ix := Unit) (Name := ℕ) (U := UR sig nD τ) (Lvl := ℕ) (Val := Elt F) spec7 c [cc7_scratch0, cc7_scratch1]) ∗ (∃ r, prngReg c r)) := by
  unfold Pipeline.ΦA; rw [scopedRest7_split]; simp only [scM7_0, scM7_1, owns_whole]; try rfl

def acc7 (c : Dev nD) : (n : ℕ) → n < cfg7.N → Vec F S1x128 .f32 × Vec F S1x128 .f32
  | 0, hn => step1 (iblk7 V c 0 ⟨0, hn⟩) (iblk7 V c 1 ⟨0, hn⟩) (iblk7 V c 2 ⟨0, hn⟩) (iblk7 V c 3 ⟨0, hn⟩) (zero1 (F := F))
  | n + 1, hn => step1 (iblk7 V c 0 ⟨n + 1, hn⟩) (iblk7 V c 1 ⟨n + 1, hn⟩) (iblk7 V c 2 ⟨n + 1, hn⟩) (iblk7 V c 3 ⟨n + 1, hn⟩) (acc7 c n (Nat.lt_of_succ_lt hn))

theorem acc7_first (c : Dev nD) (t : Fin cfg7.N) (h : t.val = 0) :
    acc7 V c t.val t.isLt = step1 (iblk7 V c 0 t) (iblk7 V c 1 t) (iblk7 V c 2 t) (iblk7 V c 3 t) (zero1 (F := F)) := by
  obtain ⟨n, hn⟩ := t
  cases n with
  | zero => rfl
  | succ n => exact absurd h (Nat.succ_ne_zero _)

theorem acc7_later (c : Dev nD) (t : Fin cfg7.N) (h : t.val ≠ 0) :
    acc7 V c t.val t.isLt = step1 (iblk7 V c 0 t) (iblk7 V c 1 t) (iblk7 V c 2 t) (iblk7 V c 3 t) (acc7 V c (t.val - 1) (Nat.lt_of_le_of_lt (Nat.sub_le _ _) t.isLt)) := by
  obtain ⟨n, hn⟩ := t
  cases n with
  | zero => exact absurd rfl h
  | succ n => rfl

def PhiS7 (c : Dev nD) : (n : ℕ) → n ≤ cfg7.N → sProp 𝕄
  | 0, _ => Pipeline.ΦA spec7 c
  | n + 1, hn => iprop(iprop(iprop(owns (c : Thread nD τ) scM7_0 fullShare (acc7 V c n hn).1 ∗ owns (c : Thread nD τ) scM7_1 fullShare (acc7 V c n hn).2)
      ∗ Pipeline.scopedRestBut (Ix := Unit) (Name := ℕ) (U := UR sig nD τ) (Lvl := ℕ) (Val := Elt F) spec7 c [cc7_scratch0, cc7_scratch1]) ∗ (∃ r, prngReg c r))

theorem PhiS7_zero (c : Dev nD) (n : ℕ) (h : n ≤ cfg7.N) (hz : n = 0) : PhiS7 V c n h = Pipeline.ΦA spec7 c := by
  subst hz; rfl

theorem PhiS7_succ (c : Dev nD) (n : ℕ) (hn : n < cfg7.N) :
    PhiS7 V c (n + 1) hn = iprop(iprop(iprop(owns (c : Thread nD τ) scM7_0 fullShare (acc7 V c n hn).1 ∗ owns (c : Thread nD τ) scM7_1 fullShare (acc7 V c n hn).2)
      ∗ Pipeline.scopedRestBut (Ix := Unit) (Name := ℕ) (U := UR sig nD τ) (Lvl := ℕ) (Val := Elt F) spec7 c [cc7_scratch0, cc7_scratch1]) ∗ (∃ r, prngReg c r)) := rfl

theorem PhiS7_pos (c : Dev nD) (n : ℕ) (h : n ≤ cfg7.N) (hz : n ≠ 0) :
    PhiS7 V c n h = iprop(iprop(iprop(owns (c : Thread nD τ) scM7_0 fullShare (acc7 V c (n - 1) (by omega)).1 ∗ owns (c : Thread nD τ) scM7_1 fullShare (acc7 V c (n - 1) (by omega)).2)
      ∗ Pipeline.scopedRestBut (Ix := Unit) (Name := ℕ) (U := UR sig nD τ) (Lvl := ℕ) (Val := Elt F) spec7 c [cc7_scratch0, cc7_scratch1]) ∗ (∃ r, prngReg c r)) := by
  cases n with
  | zero => exact absurd rfl hz
  | succ n => rfl

def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => k1_pay4 (iblk7 V c 0 t) (iblk7 V c 2 t) (iblk7 V c 1 t) (iblk7 V c 3 t)
    | ⟨5, _⟩ => (acc7 V c t.val t.isLt).1
    | ⟨6, _⟩ => (acc7 V c t.val t.isLt).2
  Φ t := PhiS7 V c t.val (Nat.le_of_lt_succ t.isLt)
  q _ := fullShare
  owed _ := 0

theorem A_eq7 (c : Dev nD) (w : Fin cfg7.W) : (dat7 V c).A w = V c (Pipeline.arrRef spec7 w) := by
  dsimp only [dat7]

theorem PhiS7_castSucc (c : Dev nD) (t : Fin cfg7.N) :
    (dat7 V c).Φ t.castSucc = PhiS7 V c t.val (Nat.le_of_lt t.isLt) := by
  dsimp only [dat7]; simp only [Fin.coe_castSucc]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = iblk7 V c 3 t := by dsimp only [dat7]
theorem after7_4 (c : Dev nD) (t : Fin cfg7.N) : (dat7 V c).after 4 t = k1_pay4 (iblk7 V c 0 t) (iblk7 V c 2 t) (iblk7 V c 1 t) (iblk7 V c 3 t) := by dsimp only [dat7]
theorem after7_5 (c : Dev nD) (t : Fin cfg7.N) : (dat7 V c).after 5 t = (acc7 V c t.val t.isLt).1 := by dsimp only [dat7]
theorem after7_6 (c : Dev nD) (t : Fin cfg7.N) : (dat7 V c).after 6 t = (acc7 V c t.val t.isLt).2 := by dsimp only [dat7]

theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d
theorem before7_3 (c : Dev nD) (t : Fin cfg7.N) (d) : (dat7 V c).before 3 t d = iblk7 V c 3 t :=
  before7_3_of V (dat7 V c) (A_eq7 V c 3) (after7_3 V c) t d

def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d))
    ∗ (∃ d, owns (c : Thread nD τ) (st7_4 t) fullShare ((dat7 V c).before 4 t d))
    ∗ (∃ d, owns (c : Thread nD τ) (st7_5 t) fullShare ((dat7 V c).before 5 t d))
    ∗ (∃ d, owns (c : Thread nD τ) (st7_6 t) fullShare ((dat7 V c).before 6 t d)))

def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t)
    ∗ owns (c : Thread nD τ) (st7_4 t) fullShare ((dat7 V c).after 4 t)
    ∗ owns (c : Thread nD τ) (st7_5 t) fullShare ((dat7 V c).after 5 t)
    ∗ owns (c : Thread nD τ) (st7_6 t) fullShare ((dat7 V c).after 6 t))

set_option maxHeartbeats 4000000 in

theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7; rw [cc7_eq]
  simp only [before7_0, before7_1, before7_2, before7_3]
  rw [show (dat7 V c).owesAt () t.succ = (dat7 V c).owesAt () t.castSucc from rfl]
  rw [show (dat7 V c).Φ t.succ = PhiS7 V c (t.val + 1) t.isLt from rfl, PhiS7_succ]
  rw [after7_0, after7_1, after7_2, after7_3, after7_4, after7_5, after7_6]
  rw [PhiS7_castSucc V c t]
  by_cases hz0 : t.val = 0
  · rw [PhiS7_zero V c _ _ hz0, PhiA7_eq, acc7_first V c t hz0]
    iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩⟩
    iapply (sound_kernel1_A c (grid7.coords t) _ _ _ _ _ _ _ _ _ _ _ _ _ _ _ _ _ _ (iblk7 V c 0 t) (iblk7 V c 1 t) (iblk7 V c 2 t) (iblk7 V c 3 t) ((hcond7_0 t).mpr (by rw [hz0])) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [HS0]; · iexact HS0
    isplitl [HS1]; · iexact HS1
    iintro ⟨H0, H1, H2, H3, H4, H5, H6, HS0, HS1⟩
    isplitl [HS0 HS1 HR Hg]
    · isplitl [HS0 HS1 HR]
      · isplitl [HS0 HS1]
        · isplitl [HS0]; · iexact HS0
          iexact HS1
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · rw [PhiS7_pos V c _ _ hz0, acc7_later V c t hz0]
    iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩⟩
    iapply (sound_kernel1_B c (grid7.coords t) _ _ _ _ _ _ _ _ _ _ _ _ _ _ _ _ _ _ (iblk7 V c 0 t) (iblk7 V c 1 t) (iblk7 V c 2 t) (iblk7 V c 3 t) (fun h => hz0 (by have h1 := (hcond7_0 t).mp h; have h2 := t.isLt; have h3 : cfg7.N = 20 := N_7; omega)) _ _ Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [HS0]; · iexact HS0
    isplitl [HS1]; · iexact HS1
    iintro ⟨H0, H1, H2, H3, H4, H5, H6, HS0, HS1⟩
    isplitl [HS0 HS1 HR Hg]
    · isplitl [HS0 HS1 HR]
      · isplitl [HS0 HS1]
        · isplitl [HS0]; · iexact HS0
          iexact HS1
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

theorem body_obligation7 (c : Dev nD) : BodyObligation (dat7 (F := F) V c) (defs₀ (F := F)) Variants.none () Set.univ := fun t => by
  rw [bigSep_W7, bigSep_W7]
  exact sound_body7 V c t

theorem hin7 (c : Dev nD) : Pipeline.ΦA spec7 c ⊢ (dat7 V c).Φ 0 := by
  rw [show (dat7 V c).Φ 0 = PhiS7 V c 0 (Nat.zero_le _) from rfl, PhiS7_zero V c 0 _ rfl]
  try exact Idealize.SL.BI.Entails.refl _

theorem Phi7_out (c : Dev nD) (t : Fin (cfg7.N + 1)) (ht : t.val ≠ 0) : (dat7 V c).Φ t ⊢ Pipeline.ΦA spec7 c := by
  rw [show (dat7 V c).Φ t = PhiS7 V c t.val (Nat.le_of_lt_succ t.isLt) from rfl, PhiS7_pos V c _ _ ht, PhiA7_eq]
  iintro ⟨⟨⟨HS0, HS1⟩, HR⟩, Hg⟩
  isplitl [HS0 HS1 HR]
  · isplitl [HS0 HS1]
    · isplitl [HS0]; · iexists _; iexact HS0
      iexists _; iexact HS1
    iexact HR
  iexact Hg

theorem hout7 (c : Dev nD) : (dat7 V c).Φ (Fin.last cfg7.N) ⊢ Pipeline.ΦA spec7 c :=
  Phi7_out V c _ (by rw [Fin.val_last]; have : cfg7.N = 20 := N_7; omega)

end Cert.Kernel.Hand

end
-- ==== Proof.K.Reg8.lean ====
import proofs.«418928_j70858370450169_1_alg».proof.Proof.K.Norm

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)

theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)

theorem before8_2_of {c : Dev nD} (dat : Dat τ (Elt F) Unit ℕ (UR sig nD τ) ℕ cfg8 c) (hA : dat.A 2 = V c (Pipeline.arrRef spec8 2))
    (hafter : ∀ t, dat.after 2 t = iblk8 V c 2 t) (t : Fin cfg8.N) (d) : dat.before 2 t d = iblk8 V c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)

def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => out2_3 (iblk8 V c 0 t) (iblk8 V c 1 t) (iblk8 V c 2 t)
  Φ _ := Pipeline.ΦA spec8 c
  q _ := fullShare
  owed _ := 0

theorem A_eq8 (c : Dev nD) (w : Fin cfg8.W) : (dat8 V c).A w = V c (Pipeline.arrRef spec8 w) := by
  dsimp only [dat8]

theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = out2_3 (iblk8 V c 0 t) (iblk8 V c 1 t) (iblk8 V c 2 t) := by dsimp only [dat8]

theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d
theorem before8_2 (c : Dev nD) (t : Fin cfg8.N) (d) : (dat8 V c).before 2 t d = iblk8 V c 2 t :=
  before8_2_of V (dat8 V c) (A_eq8 V c 2) (after8_2 V c) t d

def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d)))

def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t)
    ∗ owns (c : Thread nD τ) (st8_3 t) fullShare ((dat8 V c).after 3 t))

theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8; rw [cc8_eq]
  simp only [before8_0, before8_1, before8_2]
  rw [show (dat8 V c).Φ t.succ = (dat8 V c).Φ t.castSucc from rfl,
    show (dat8 V c).owesAt () t.succ = (dat8 V c).owesAt () t.castSucc from rfl,
    after8_0, after8_1, after8_2, after8_3]
  iintro ⟨HΦ, Ho, ⟨%d0, H0⟩, ⟨%d1, H1⟩, ⟨%d2, H2⟩, ⟨%d3, H3⟩⟩
  iapply (sound_kernel2 c Set.univ _ _ _ _ _ _ _ _ _ (iblk8 V c 0 t) (iblk8 V c 1 t) (iblk8 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation8 (c : Dev nD) : BodyObligation (dat8 (F := F) V c) (defs₀ (F := F)) Variants.none () Set.univ := fun t => by
  rw [bigSep_W8, bigSep_W8]
  exact sound_body8 V c t

theorem hin8 (c : Dev nD) : Pipeline.ΦA spec8 c ⊢ (dat8 V c).Φ 0 := .rfl

theorem hout8 (c : Dev nD) : (dat8 V c).Φ (Fin.last cfg8.N) ⊢ Pipeline.ΦA spec8 c := .rfl

end Cert.Kernel.Hand

end
-- ==== Proof.K.Reg9.lean ====
import proofs.«418928_j70858370450169_1_alg».proof.Proof.Gen.Kernel.Launch
import proofs.«418928_j70858370450169_1_alg».proof.Proof.Gen.Kernel.Skeleton
import proofs.«418928_j70858370450169_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

abbrev hblk9 (c : Dev nD) (t : Fin cfg9.N) : Vec F S5000x128 .f32 := iblk9 V c 0 t

abbrev bblk9 (c : Dev nD) (t : Fin cfg9.N) : Vec F S5000x1 .i32 := iblk9 V c 1 t

theorem before9_0_of {c : Dev nD} (dat : Dat τ (Elt F) Unit ℕ (UR sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)

theorem before9_1_of {c : Dev nD} (dat : Dat τ (Elt F) Unit ℕ (UR sig nD τ) ℕ cfg9 c) (hA : dat.A 1 = V c (Pipeline.arrRef spec9 1))
    (hafter : ∀ t, dat.after 1 t = iblk9 V c 1 t) (t : Fin cfg9.N) (d) : dat.before 1 t d = iblk9 V c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)

abbrev cond9_0 (i : grid9.Coords) : Prop := (Scalar.cmpi .ne (Scalar.extui (Scalar.cmpi .eq (BitVec.ofNat 32 (i 0).val) 0#32)) 0#32) = 1#1

theorem hcond9_0 : ∀ t : Fin cfg9.N, cond9_0 (grid9.coords t) ↔ t.val % 20 = 0 :=
  (by decide +kernel : ∀ t : Fin grid9.N, cond9_0 (grid9.coords t) ↔ t.val % 20 = 0)

abbrev ms9_0 (t : Fin cfg9.N) : Memref sig .tc .vmem S5000x128 .f32 := win9_0.stage (cfg9.slots t 0)
abbrev hs9_0 (t : Fin cfg9.N) : (ms9_0 t).IsWhole := hstage9_0 ((cfg9.slots t 0).cast nbuf9_0)
abbrev ms9_1 (t : Fin cfg9.N) : Memref sig .tc .vmem S5000x1 .i32 := win9_1.stage (cfg9.slots t 1)
abbrev hs9_1 (t : Fin cfg9.N) : (ms9_1 t).IsWhole := hstage9_1 ((cfg9.slots t 1).cast nbuf9_1)
abbrev ms9_2 (t : Fin cfg9.N) : Memref sig .tc .vmem S256x128 .f32 := win9_2.stage (cfg9.slots t 2)
abbrev hs9_2 (t : Fin cfg9.N) : (ms9_2 t).IsWhole := hstage9_2 ((cfg9.slots t 2).cast nbuf9_2)

abbrev scM9_0 : Memref sig .tc .vmem S256x128 .f32 := Memref.whole cc9_scratch0
abbrev scM9_1 : Memref sig .tc .vmem S256x1 .f32 := Memref.whole cc9_scratch1

abbrev rest9 (c : Dev nD) : sProp 𝕄 :=
  Pipeline.scopedRestBut (Ix := Unit) (Name := ℕ) (U := UR sig nD τ) (Lvl := ℕ) (Val := Elt F) spec9 c [cc9_scratch0, cc9_scratch1]

theorem PhiA9_eq (c : Dev nD) :
    (Pipeline.ΦA spec9 c : sProp 𝕄)
      = iprop(iprop(iprop((∃ d, owns (c : Thread nD τ) scM9_0 fullShare d) ∗ (∃ d, owns (c : Thread nD τ) scM9_1 fullShare d)) ∗ rest9 c) ∗ (∃ r, prngReg c r)) := by
  unfold Pipeline.ΦA; rw [scopedRest9_split]; simp only [scM9_0, scM9_1, owns_whole]; try rfl

theorem hz2 : (![0, 0] : Fin 2 → Nat) = fun _ => 0 := funext fun a => by fin_cases a <;> rfl

theorem read_writes_cons_unit_zero {sg : RefSig} {κ : Kind} {sp : Space} {S : Shape} {e : EltTy}
    (v : View sg κ sp S e) (f : v.ty.Contents (Elt F)) {off : Fin S.rank → Nat} (h : off = fun _ => 0)
    (inb : ∀ a, off a + S.size a ≤ S.size a) (w : S.Idx → Elt F e) (L : List (View.Piece (Elt F) S e)) :
    v.read (Elt F) (v.writes (Elt F) f ((⟨Rect.unit off S.size inb, w⟩ : View.Piece (Elt F) S e) :: L)) = w := by
  rw [View.read_writes_eq_canon v f _ (fun y => ⟨_, List.Mem.head _, View.mem_set_unit_zero h inb y⟩),
    View.canon_cons_unit_zero h]

theorem readCov_cons_unit_zero {sg : RefSig} {κ : Kind} {sp : Space} {S : Shape} {e : EltTy}
    (v : View sg κ sp S e) {off : Fin S.rank → Nat} (h : off = fun _ => 0)
    (inb : ∀ a, off a + S.size a ≤ S.size a) (w : S.Idx → Elt F e) (L : List (View.Piece (Elt F) S e)) :
    v.readCov ((⟨Rect.unit off S.size inb, w⟩ : View.Piece (Elt F) S e) :: L) (Rect.unit off S.size inb).toLoadRect = w := by
  rw [View.readCov_eq_canon_ld _ _ _ (fun y => ⟨_, List.Mem.head _, View.mem_set_unit_zero h inb y⟩),
    View.canon_cons_unit_zero h, View.ld_unit_zero h]

set_option maxHeartbeats 1000000 in

theorem sound_kernel9_A (c : Dev nD) (E : Set ℕ) (i : grid9.Coords) (arg1 : Memref sig .tc .vmem S5000x128 .f32) (harg1 : arg1.IsWhole) (arg2 : Memref sig .tc .vmem S5000x1 .i32) (harg2 : arg2.IsWhole) (arg3 : Memref sig .tc .vmem S256x128 .f32) (harg3 : arg3.IsWhole) (arg4 : Memref sig .tc .vmem S256x128 .f32) (harg4 : arg4.IsWhole) (arg5 : Memref sig .tc .vmem S256x1 .f32) (harg5 : arg5.IsWhole)
    (hc0 : cond9_0 i) (x0 : Vec F S5000x128 .f32) (x1 : Vec F S5000x1 .i32) (K : PUnit → sProp 𝕄) :
    iprop(owns (c : Thread nD τ) arg1 fullShare x0 ∗ owns (c : Thread nD τ) arg2 fullShare x1 ∗ (∃ d, owns (c : Thread nD τ) arg3 fullShare d)
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1
            ∗ owns (c : Thread nD τ) arg3 fullShare (k9_pay6 (k9_pay4 x1 (k9_pay1 (F := F)) x0) (k9_pay5 x1 (k9_pay2 (F := F))))
            ∗ owns (c : Thread nD τ) arg4 fullShare (k9_pay4 x1 (k9_pay1 (F := F)) x0)
            ∗ owns (c : Thread nD τ) arg5 fullShare (k9_pay5 x1 (k9_pay2 (F := F)))) -∗ K ⟨⟩))
      ⊢ wp frame (wpE (defs₀ (F := F)) Variants.none c none) E (cc9__pool_kernel i arg1 harg1 arg2 harg2 arg3 harg3 arg4 harg4 arg5 harg5) K := by
  simp only [cc9__pool_kernel_eq_skeleton]; unfold cc9__pool_kernel_skel
  simp only [k9_part1_eq_skeleton]; unfold k9_part1_skel
  unfold owns
  iintro ⟨⟨%f0, %hf0, H0⟩, ⟨%f1, %hf1, H1⟩, ⟨%d2, %f2, -, H2⟩, ⟨%ds0, %fs0, -, HS0⟩, ⟨%ds1, %fs1, -, HS1⟩, Hk⟩
  obtain rfl := harg1.eq_unread hf0; obtain rfl := harg2.eq_unread hf1
  sl_exec (disch := first | exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr
    swap; · iexact H2
    ipureintro
    sl_unfold_run_names
    refine (read_writes_cons_unit_zero _ _ hz2 _ _ _).trans ?_
    simp only [View.readAt_eq_ld, harg1.read_unread, harg2.read_unread, View.ld_unit_zero (S := S5000x128) hz2,
      View.ld_unit_zero (S := S5000x1) hz2, readCov_cons_unit_zero (S := S256x128) _ hz2, readCov_cons_unit_zero (S := S256x1) _ hz2]
  isplitl [HS0]
  · iexists _; isplitr
    swap; · iexact HS0
    ipureintro
    sl_unfold_run_names
    refine (read_writes_cons_unit_zero _ _ hz2 _ _ _).trans ?_
    simp only [View.readAt_eq_ld, harg1.read_unread, harg2.read_unread, View.ld_unit_zero (S := S5000x128) hz2,
      View.ld_unit_zero (S := S5000x1) hz2, readCov_cons_unit_zero (S := S256x128) _ hz2, readCov_cons_unit_zero (S := S256x1) _ hz2]
  · iexists _; isplitr
    swap; · iexact HS1
    ipureintro
    sl_unfold_run_names
    refine (read_writes_cons_unit_zero _ _ hz2 _ _ _).trans ?_
    simp only [View.readAt_eq_ld, harg1.read_unread, harg2.read_unread, View.ld_unit_zero (S := S5000x128) hz2,
      View.ld_unit_zero (S := S5000x1) hz2, readCov_cons_unit_zero (S := S256x128) _ hz2, readCov_cons_unit_zero (S := S256x1) _ hz2]

set_option maxHeartbeats 1000000 in

theorem sound_kernel9_B (c : Dev nD) (E : Set ℕ) (i : grid9.Coords) (arg1 : Memref sig .tc .vmem S5000x128 .f32) (harg1 : arg1.IsWhole) (arg2 : Memref sig .tc .vmem S5000x1 .i32) (harg2 : arg2.IsWhole) (arg3 : Memref sig .tc .vmem S256x128 .f32) (harg3 : arg3.IsWhole) (arg4 : Memref sig .tc .vmem S256x128 .f32) (harg4 : arg4.IsWhole) (arg5 : Memref sig .tc .vmem S256x1 .f32) (harg5 : arg5.IsWhole)
    (hc0 : ¬cond9_0 i) (x0 : Vec F S5000x128 .f32) (x1 : Vec F S5000x1 .i32) (xs0 : Vec F S256x128 .f32) (xs1 : Vec F S256x1 .f32) (K : PUnit → sProp 𝕄) :
    iprop(owns (c : Thread nD τ) arg1 fullShare x0 ∗ owns (c : Thread nD τ) arg2 fullShare x1 ∗ (∃ d, owns (c : Thread nD τ) arg3 fullShare d)
        ∗ owns (c : Thread nD τ) arg4 fullShare xs0 ∗ owns (c : Thread nD τ) arg5 fullShare xs1
        ∗ (iprop(owns (c : Thread nD τ) arg1 fullShare x0 ∗ owns (c : Thread nD τ) arg2 fullShare x1
            ∗ owns (c : Thread nD τ) arg3 fullShare (k9_pay6 (k9_pay4 x1 xs0 x0) (k9_pay5 x1 xs1))
            ∗ owns (c : Thread nD τ) arg4 fullShare (k9_pay4 x1 xs0 x0)
            ∗ owns (c : Thread nD τ) arg5 fullShare (k9_pay5 x1 xs1)) -∗ K ⟨⟩))
      ⊢ wp frame (wpE (defs₀ (F := F)) Variants.none c none) E (cc9__pool_kernel i arg1 harg1 arg2 harg2 arg3 harg3 arg4 harg4 arg5 harg5) K := by
  simp only [cc9__pool_kernel_eq_skeleton]; unfold cc9__pool_kernel_skel
  simp only [k9_part1_eq_skeleton]; unfold k9_part1_skel
  unfold owns
  iintro ⟨⟨%f0, %hf0, H0⟩, ⟨%f1, %hf1, H1⟩, ⟨%d2, %f2, -, H2⟩, ⟨%fs0, %hfs0, HS0⟩, ⟨%fs1, %hfs1, HS1⟩, Hk⟩
  obtain rfl := harg1.eq_unread hf0; obtain rfl := harg2.eq_unread hf1
  obtain rfl := harg4.eq_unread hfs0; obtain rfl := harg5.eq_unread hfs1
  sl_exec (disch := first | exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr
    swap; · iexact H2
    ipureintro
    sl_unfold_run_names
    refine (read_writes_cons_unit_zero _ _ hz2 _ _ _).trans ?_
    simp only [View.readAt_eq_ld, harg1.read_unread, harg2.read_unread, harg4.read_unread, harg5.read_unread,
      View.ld_unit_zero (S := S5000x128) hz2, View.ld_unit_zero (S := S5000x1) hz2, View.ld_unit_zero (S := S256x128) hz2,
      View.ld_unit_zero (S := S256x1) hz2, readCov_cons_unit_zero (S := S256x128) _ hz2, readCov_cons_unit_zero (S := S256x1) _ hz2]
  isplitl [HS0]
  · iexists _; isplitr
    swap; · iexact HS0
    ipureintro
    sl_unfold_run_names
    refine (read_writes_cons_unit_zero _ _ hz2 _ _ _).trans ?_
    simp only [View.readAt_eq_ld, harg1.read_unread, harg2.read_unread, harg4.read_unread, harg5.read_unread,
      View.ld_unit_zero (S := S5000x128) hz2, View.ld_unit_zero (S := S5000x1) hz2, View.ld_unit_zero (S := S256x128) hz2,
      View.ld_unit_zero (S := S256x1) hz2, readCov_cons_unit_zero (S := S256x128) _ hz2, readCov_cons_unit_zero (S := S256x1) _ hz2]
  · iexists _; isplitr
    swap; · iexact HS1
    ipureintro
    sl_unfold_run_names
    refine (read_writes_cons_unit_zero _ _ hz2 _ _ _).trans ?_
    simp only [View.readAt_eq_ld, harg1.read_unread, harg2.read_unread, harg4.read_unread, harg5.read_unread,
      View.ld_unit_zero (S := S5000x128) hz2, View.ld_unit_zero (S := S5000x1) hz2, View.ld_unit_zero (S := S256x128) hz2,
      View.ld_unit_zero (S := S256x1) hz2, readCov_cons_unit_zero (S := S256x128) _ hz2, readCov_cons_unit_zero (S := S256x1) _ hz2]

def accAt9 (c : Dev nD) : (n : ℕ) → n < cfg9.N → Vec F S256x128 .f32 × Vec F S256x1 .f32
  | 0, hn => (k9_pay4 (bblk9 V c ⟨0, hn⟩) (k9_pay1 (F := F)) (hblk9 V c ⟨0, hn⟩), k9_pay5 (bblk9 V c ⟨0, hn⟩) (k9_pay2 (F := F)))
  | n + 1, hn => (k9_pay4 (bblk9 V c ⟨n + 1, hn⟩) (accAt9 c n (Nat.lt_of_succ_lt hn)).1 (hblk9 V c ⟨n + 1, hn⟩),
      k9_pay5 (bblk9 V c ⟨n + 1, hn⟩) (accAt9 c n (Nat.lt_of_succ_lt hn)).2)

theorem accAt9_first (c : Dev nD) (t : Fin cfg9.N) (hz : t.val = 0) :
    accAt9 V c t.val t.isLt = (k9_pay4 (bblk9 V c t) (k9_pay1 (F := F)) (hblk9 V c t), k9_pay5 (bblk9 V c t) (k9_pay2 (F := F))) := by
  obtain ⟨n, hn⟩ := t
  cases n with
  | zero => rfl
  | succ n => exact absurd hz (Nat.succ_ne_zero n)

theorem accAt9_next (c : Dev nD) (t : Fin cfg9.N) (hz : t.val ≠ 0) :
    accAt9 V c t.val t.isLt
      = (k9_pay4 (bblk9 V c t) (accAt9 V c (t.val - 1) (Nat.lt_of_le_of_lt (Nat.sub_le _ _) t.isLt)).1 (hblk9 V c t),
         k9_pay5 (bblk9 V c t) (accAt9 V c (t.val - 1) (Nat.lt_of_le_of_lt (Nat.sub_le _ _) t.isLt)).2) := by
  obtain ⟨n, hn⟩ := t
  cases n with
  | zero => exact absurd rfl hz
  | succ n => rfl

def out9_2 (c : Dev nD) (t : Fin cfg9.N) : Vec F S256x128 .f32 :=
  k9_pay6 (accAt9 V c t.val t.isLt).1 (accAt9 V c t.val t.isLt).2

def PhiS9 (c : Dev nD) : (n : ℕ) → n ≤ cfg9.N → sProp 𝕄
  | 0, _ => Pipeline.ΦA spec9 c
  | n + 1, hn => iprop(iprop(iprop(owns (c : Thread nD τ) scM9_0 fullShare ((accAt9 V c n hn).1) ∗ owns (c : Thread nD τ) scM9_1 fullShare ((accAt9 V c n hn).2)) ∗ rest9 c) ∗ (∃ r, prngReg c r))

theorem PhiS9_zero (c : Dev nD) (n : ℕ) (h : n ≤ cfg9.N) (hz : n = 0) : PhiS9 V c n h = Pipeline.ΦA spec9 c := by
  subst hz; rfl

theorem PhiS9_succ (c : Dev nD) (n : ℕ) (hn : n < cfg9.N) :
    PhiS9 V c (n + 1) hn = iprop(iprop(iprop(owns (c : Thread nD τ) scM9_0 fullShare ((accAt9 V c n hn).1) ∗ owns (c : Thread nD τ) scM9_1 fullShare ((accAt9 V c n hn).2)) ∗ rest9 c) ∗ (∃ r, prngReg c r)) := rfl

theorem PhiS9_pos (c : Dev nD) (n : ℕ) (h : n ≤ cfg9.N) (hz : n ≠ 0) :
    PhiS9 V c n h = iprop(iprop(iprop(owns (c : Thread nD τ) scM9_0 fullShare ((accAt9 V c (n - 1) (by omega)).1) ∗ owns (c : Thread nD τ) scM9_1 fullShare ((accAt9 V c (n - 1) (by omega)).2)) ∗ rest9 c) ∗ (∃ r, prngReg c r)) := by
  cases n with
  | zero => exact absurd rfl hz
  | succ n => rfl

def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => out9_2 V c t
  Φ t := PhiS9 V c t.val (Nat.le_of_lt_succ t.isLt)
  q _ := fullShare
  owed _ := 0

theorem A_eq9 (c : Dev nD) (w : Fin cfg9.W) : (dat9 V c).A w = V c (Pipeline.arrRef spec9 w) := by
  dsimp only [dat9]

theorem PhiS9_castSucc (c : Dev nD) (t : Fin cfg9.N) :
    (dat9 V c).Φ t.castSucc = PhiS9 V c t.val (Nat.le_of_lt t.isLt) := by
  dsimp only [dat9]; simp only [Fin.coe_castSucc]

theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = out9_2 V c t := by dsimp only [dat9]

theorem before9_0 (c : Dev nD) (t : Fin cfg9.N) (d) : (dat9 V c).before 0 t d = iblk9 V c 0 t :=
  before9_0_of V (dat9 V c) (A_eq9 V c 0) (after9_0 V c) t d
theorem before9_1 (c : Dev nD) (t : Fin cfg9.N) (d) : (dat9 V c).before 1 t d = iblk9 V c 1 t :=
  before9_1_of V (dat9 V c) (A_eq9 V c 1) (after9_1 V c) t d

def bodyPre9 (c : Dev nD) (t : Fin cfg9.N) : sProp 𝕄 :=
  iprop((dat9 V c).Φ t.castSucc ∗ (dat9 V c).owesAt () t.castSucc
    ∗ (∃ d, owns (c : Thread nD τ) (ms9_0 t) fullShare ((dat9 V c).before 0 t d))
    ∗ (∃ d, owns (c : Thread nD τ) (ms9_1 t) fullShare ((dat9 V c).before 1 t d))
    ∗ (∃ d, owns (c : Thread nD τ) (ms9_2 t) fullShare ((dat9 V c).before 2 t d)))

def bodyPost9 (c : Dev nD) (t : Fin cfg9.N) : sProp 𝕄 :=
  iprop((dat9 V c).Φ t.succ ∗ (dat9 V c).owesAt () t.succ
    ∗ owns (c : Thread nD τ) (ms9_0 t) fullShare ((dat9 V c).after 0 t)
    ∗ owns (c : Thread nD τ) (ms9_1 t) fullShare ((dat9 V c).after 1 t)
    ∗ owns (c : Thread nD τ) (ms9_2 t) fullShare ((dat9 V c).after 2 t))

set_option maxHeartbeats 1600000 in

theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1]
  rw [show (dat9 V c).owesAt () t.succ = (dat9 V c).owesAt () t.castSucc from rfl]
  rw [show (dat9 V c).Φ t.succ = PhiS9 V c (t.val + 1) t.isLt from rfl, PhiS9_succ]
  rw [after9_0, after9_1, after9_2]
  unfold out9_2
  have hN : t.val < 20 := lt_of_lt_of_eq t.isLt (show cfg9.N = 20 from N_9)
  by_cases hz : t.val = 0
  · rw [PhiS9_castSucc V c t, PhiS9_zero V c _ _ hz, PhiA9_eq, accAt9_first V c t hz]
    iintro ⟨⟨⟨⟨HS0, HS1⟩, HR⟩, Hg⟩, Ho, ⟨%d0, H0⟩, ⟨%d1, H1⟩, ⟨%d2, H2⟩⟩
    iapply (sound_kernel9_A c Set.univ (grid9.coords t) _ _ _ _ _ _ _ _ _ _ ((hcond9_0 t).mpr (by omega)) (hblk9 V c t) (bblk9 V c t) _)
    isplitl [H0]; · iexact H0
    isplitl [H1]; · iexact H1
    isplitl [H2]; · iexists _; iexact H2
    isplitl [HS0]; · iexact HS0
    isplitl [HS1]; · iexact HS1
    iintro ⟨H0, H1, H2, HS0, HS1⟩
    isplitl [HS0 HS1 HR Hg]
    · isplitl [HS0 HS1 HR]
      · isplitl [HS0 HS1]
        · isplitl [HS0]; · iexact HS0
          iexact HS1
        iexact HR
      iexact Hg
    isplitl [Ho]; · iexact Ho
    isplitl [H0]; · iexact H0
    isplitl [H1]; · iexact H1
    iexact H2
  · rw [PhiS9_castSucc V c t, PhiS9_pos V c _ _ hz, accAt9_next V c t hz]
    iintro ⟨⟨⟨⟨HS0, HS1⟩, HR⟩, Hg⟩, Ho, ⟨%d0, H0⟩, ⟨%d1, H1⟩, ⟨%d2, H2⟩⟩
    iapply (sound_kernel9_B c Set.univ (grid9.coords t) _ _ _ _ _ _ _ _ _ _ (fun h => hz (by have := (hcond9_0 t).mp h; omega)) (hblk9 V c t) (bblk9 V c t) _ _ _)
    isplitl [H0]; · iexact H0
    isplitl [H1]; · iexact H1
    isplitl [H2]; · iexists _; iexact H2
    isplitl [HS0]; · iexact HS0
    isplitl [HS1]; · iexact HS1
    iintro ⟨H0, H1, H2, HS0, HS1⟩
    isplitl [HS0 HS1 HR Hg]
    · isplitl [HS0 HS1 HR]
      · isplitl [HS0 HS1]
        · isplitl [HS0]; · iexact HS0
          iexact HS1
        iexact HR
      iexact Hg
    isplitl [Ho]; · iexact Ho
    isplitl [H0]; · iexact H0
    isplitl [H1]; · iexact H1
    iexact H2

theorem body_obligation9 (c : Dev nD) : BodyObligation (dat9 (F := F) V c) (defs₀ (F := F)) Variants.none () Set.univ := fun t => by
  rw [bigSep_W9, bigSep_W9]
  exact sound_body9 V c t

theorem hin9 (c : Dev nD) : Pipeline.ΦA spec9 c ⊢ (dat9 V c).Φ 0 := by
  rw [show (dat9 V c).Φ 0 = PhiS9 V c 0 (Nat.zero_le _) from rfl, PhiS9_zero V c 0 _ rfl]
  try exact Idealize.SL.BI.Entails.refl _

theorem Phi_out9 (c : Dev nD) (t : Fin (cfg9.N + 1)) (ht : t.val ≠ 0) : (dat9 V c).Φ t ⊢ Pipeline.ΦA spec9 c := by
  rw [show (dat9 V c).Φ t = PhiS9 V c t.val (Nat.le_of_lt_succ t.isLt) from rfl, PhiS9_pos V c _ _ ht, PhiA9_eq]
  iintro ⟨⟨⟨HS0, HS1⟩, HR⟩, Hg⟩
  isplitl [HS0 HS1 HR]
  · isplitl [HS0 HS1]
    · isplitl [HS0]; · iexists _; iexact HS0
      iexists _; iexact HS1
    iexact HR
  iexact Hg

theorem hout9 (c : Dev nD) : (dat9 V c).Φ (Fin.last cfg9.N) ⊢ Pipeline.ΦA spec9 c :=
  Phi_out9 V c _ (by rw [Fin.val_last]; have : cfg9.N = 20 := N_9; omega)

end Cert.Kernel.Hand

end
-- ==== Proof.K.Reg10.lean ====
import proofs.«418928_j70858370450169_1_alg».proof.Proof.Gen.Kernel.Launch
import proofs.«418928_j70858370450169_1_alg».proof.Proof.Gen.Kernel.Skeleton
import proofs.«418928_j70858370450169_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

theorem before10_0_of {c : Dev nD} (dat : Dat τ (Elt F) Unit ℕ (UR sig nD τ) ℕ cfg10 c) (hA : dat.A 0 = V c (Pipeline.arrRef spec10 0))
    (hafter : ∀ t, dat.after 0 t = iblk10 V c 0 t) (t : Fin cfg10.N) (d) : dat.before 0 t d = iblk10 V c 0 t :=
  (dat.before_in_eq_fetched 0 rfl (fun _ => rfl) (fun _ _ _ => rfl) (fun t => by rw [hafter]; unfold Dat.blockOf iblk10; rw [hA]; try rfl) t d).trans
    (by unfold Dat.fetched Dat.blockOf iblk10; rw [hA]; try rfl)

theorem before10_1_of {c : Dev nD} (dat : Dat τ (Elt F) Unit ℕ (UR sig nD τ) ℕ cfg10 c) (hA : dat.A 1 = V c (Pipeline.arrRef spec10 1))
    (hafter : ∀ t, dat.after 1 t = iblk10 V c 1 t) (t : Fin cfg10.N) (d) : dat.before 1 t d = iblk10 V c 1 t :=
  (dat.before_in_eq_fetched 1 rfl (fun _ => rfl) (fun _ _ _ => rfl) (fun t => by rw [hafter]; unfold Dat.blockOf iblk10; rw [hA]; try rfl) t d).trans
    (by unfold Dat.fetched Dat.blockOf iblk10; rw [hA]; try rfl)

theorem before10_2_of {c : Dev nD} (dat : Dat τ (Elt F) Unit ℕ (UR sig nD τ) ℕ cfg10 c) (hA : dat.A 2 = V c (Pipeline.arrRef spec10 2))
    (hafter : ∀ t, dat.after 2 t = iblk10 V c 2 t) (t : Fin cfg10.N) (d) : dat.before 2 t d = iblk10 V c 2 t :=
  (dat.before_in_eq_fetched 2 rfl (fun _ => rfl) (fun _ _ _ => rfl) (fun t => by rw [hafter]; unfold Dat.blockOf iblk10; rw [hA]; try rfl) t d).trans
    (by unfold Dat.fetched Dat.blockOf iblk10; rw [hA]; try rfl)

abbrev r10_0 : Rect S256x144 := Rect.unit (s := S256x144) ![0, 0] S256x144.size inb_S256x144_S256x144_0_0
abbrev r10_1 : Rect S144x2 := Rect.unit (s := S144x2) ![0, 0] S144x2.size inb_S144x2_S144x2_0_0
abbrev r10_2 : Rect S1x2 := Rect.unit (s := S1x2) ![0, 0] S1x2.size inb_S1x2_S1x2_0_0
abbrev r10_3 : Rect S256x2 := Rect.unit (s := S256x2) ![0, 0] S256x2.size inb_S256x2_S256x2_0_0

def out10_3 (x0 : Vec F S256x144 .f32) (x1 : Vec F S144x2 .f32) (x2 : Vec F S1x2 .f32) : Vec F S256x2 .f32 :=
  View.canon [⟨r10_3, k10_pay1 (View.ld x0 r10_0) (View.ld x1 r10_1) (View.ld x2 r10_2)⟩]

theorem cover10_3 (p0 : Vec F S256x2 .f32) (y : S256x2.Idx) :
    ∃ pc ∈ ([⟨r10_3, p0⟩] : List (View.Piece (Elt F) S256x2 .f32)), y ∈ pc.1.set :=
  View.cover_of_tiled [⟨r10_3, p0⟩] S256x2.size (by rfl) y

set_option maxHeartbeats 1000000 in

theorem sound_kernel10 (c : Dev nD) (E : Set ℕ) (i : grid10.Coords)
    (arg1 : Memref sig .tc .vmem S256x144 .f32) (harg1 : arg1.IsWhole) (arg2 : Memref sig .tc .vmem S144x2 .f32) (harg2 : arg2.IsWhole)
    (arg3 : Memref sig .tc .vmem S1x2 .f32) (harg3 : arg3.IsWhole) (arg4 : Memref sig .tc .vmem S256x2 .f32) (harg4 : arg4.IsWhole)
    (x0 : Vec F S256x144 .f32) (x1 : Vec F S144x2 .f32) (x2 : Vec F S1x2 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out10_3 x0 x1 x2)) -∗ K ⟨⟩))
      ⊢ wp frame (wpE (defs₀ (F := F)) Variants.none c none) E (cc10__classify_kernel i arg1 harg1 arg2 harg2 arg3 harg3 arg4 harg4) K := by
  simp only [cc10__classify_kernel_eq_skeleton]; unfold cc10__classify_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover10_3 _)

def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => iblk10 V c 1 t
    | ⟨2, _⟩ => iblk10 V c 2 t
    | ⟨3, _⟩ => out10_3 (iblk10 V c 0 t) (iblk10 V c 1 t) (iblk10 V c 2 t)
  Φ _ := Pipeline.ΦA spec10 c
  q _ := fullShare
  owed _ := 0

theorem A_eq10 (c : Dev nD) (w : Fin cfg10.W) : (dat10 V c).A w = V c (Pipeline.arrRef spec10 w) := by
  dsimp only [dat10]

theorem after10_0 (c : Dev nD) (t : Fin cfg10.N) : (dat10 V c).after 0 t = iblk10 V c 0 t := by dsimp only [dat10]
theorem after10_1 (c : Dev nD) (t : Fin cfg10.N) : (dat10 V c).after 1 t = iblk10 V c 1 t := by dsimp only [dat10]
theorem after10_2 (c : Dev nD) (t : Fin cfg10.N) : (dat10 V c).after 2 t = iblk10 V c 2 t := by dsimp only [dat10]
theorem after10_3 (c : Dev nD) (t : Fin cfg10.N) :
    (dat10 V c).after 3 t = out10_3 (iblk10 V c 0 t) (iblk10 V c 1 t) (iblk10 V c 2 t) := by dsimp only [dat10]

theorem before10_0 (c : Dev nD) (t : Fin cfg10.N) (d) : (dat10 V c).before 0 t d = iblk10 V c 0 t :=
  before10_0_of V (dat10 V c) (A_eq10 V c 0) (after10_0 V c) t d
theorem before10_1 (c : Dev nD) (t : Fin cfg10.N) (d) : (dat10 V c).before 1 t d = iblk10 V c 1 t :=
  before10_1_of V (dat10 V c) (A_eq10 V c 1) (after10_1 V c) t d
theorem before10_2 (c : Dev nD) (t : Fin cfg10.N) (d) : (dat10 V c).before 2 t d = iblk10 V c 2 t :=
  before10_2_of V (dat10 V c) (A_eq10 V c 2) (after10_2 V c) t d

def bodyPre10 (c : Dev nD) (t : Fin cfg10.N) : sProp 𝕄 :=
  iprop((dat10 V c).Φ t.castSucc ∗ (dat10 V c).owesAt () t.castSucc
    ∗ (∃ d, owns (c : Thread nD τ) (st10_0 t) fullShare ((dat10 V c).before 0 t d))
    ∗ (∃ d, owns (c : Thread nD τ) (st10_1 t) fullShare ((dat10 V c).before 1 t d))
    ∗ (∃ d, owns (c : Thread nD τ) (st10_2 t) fullShare ((dat10 V c).before 2 t d))
    ∗ (∃ d, owns (c : Thread nD τ) (st10_3 t) fullShare ((dat10 V c).before 3 t d)))

def bodyPost10 (c : Dev nD) (t : Fin cfg10.N) : sProp 𝕄 :=
  iprop((dat10 V c).Φ t.succ ∗ (dat10 V c).owesAt () t.succ
    ∗ owns (c : Thread nD τ) (st10_0 t) fullShare ((dat10 V c).after 0 t)
    ∗ owns (c : Thread nD τ) (st10_1 t) fullShare ((dat10 V c).after 1 t)
    ∗ owns (c : Thread nD τ) (st10_2 t) fullShare ((dat10 V c).after 2 t)
    ∗ owns (c : Thread nD τ) (st10_3 t) fullShare ((dat10 V c).after 3 t))

theorem sound_body10 (c : Dev nD) (t : Fin cfg10.N) :
    bodyPre10 V c t ⊢ wp frame (wpE (defs₀ (F := F)) Variants.none c none) Set.univ (bodyAt10 t) (fun _ => bodyPost10 V c t) := by
  unfold bodyPre10 bodyPost10 bodyAt10
  simp only [before10_0, before10_1, before10_2]
  rw [show (dat10 V c).Φ t.succ = (dat10 V c).Φ t.castSucc from rfl,
    show (dat10 V c).owesAt () t.succ = (dat10 V c).owesAt () t.castSucc from rfl,
    after10_0, after10_1, after10_2, after10_3]
  iintro ⟨HΦ, Ho, ⟨%d0, H0⟩, ⟨%d1, H1⟩, ⟨%d2, H2⟩, ⟨%d3, H3⟩⟩
  iapply (sound_kernel10 c Set.univ _ _ _ _ _ _ _ _ _ (iblk10 V c 0 t) (iblk10 V c 1 t) (iblk10 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation10 (c : Dev nD) : BodyObligation (dat10 (F := F) V c) (defs₀ (F := F)) Variants.none () Set.univ := fun t => by
  rw [bigSep_W10, bigSep_W10]
  exact sound_body10 V c t

theorem hin10 (c : Dev nD) : Pipeline.ΦA spec10 c ⊢ (dat10 V c).Φ 0 := .rfl

theorem hout10 (c : Dev nD) : (dat10 V c).Φ (Fin.last cfg10.N) ⊢ Pipeline.ΦA spec10 c := .rfl

end Cert.Kernel.Hand

end
-- ==== Proof.K.Fold.lean ====
import proofs.«418928_j70858370450169_1_alg».proof.Proof.Gen.Kernel.Regions
import proofs.«418928_j70858370450169_1_alg».proof.Proof.K.Reg0
import proofs.«418928_j70858370450169_1_alg».proof.Proof.K.Reg1
import proofs.«418928_j70858370450169_1_alg».proof.Proof.K.Reg2
import proofs.«418928_j70858370450169_1_alg».proof.Proof.K.Reg3
import proofs.«418928_j70858370450169_1_alg».proof.Proof.K.Reg4
import proofs.«418928_j70858370450169_1_alg».proof.Proof.K.Reg5
import proofs.«418928_j70858370450169_1_alg».proof.Proof.K.Reg6
import proofs.«418928_j70858370450169_1_alg».proof.Proof.K.Reg7
import proofs.«418928_j70858370450169_1_alg».proof.Proof.K.Reg8
import proofs.«418928_j70858370450169_1_alg».proof.Proof.K.Reg9
import proofs.«418928_j70858370450169_1_alg».proof.Proof.K.Reg10

set_option maxRecDepth 16384

noncomputable section

namespace Cert.Kernel.Hand

open Cert.Kernel Cert.Kernel.Gen
open Idealize.ShloMosaic Idealize.ShloMosaic.TcCoe
open Idealize.ShloMosaic.Pipeline (Dat)

variable {F : FTy → Type} [FloatOps F]

variable (m : (ℓ : Loc nD τ sig) → Buf (Elt F) ℓ)

abbrev TcVal (F : FTy → Type) : Type := (c : Dev nD) → (b : Ref sig .tc) → Buf (Elt F) ((c : Thread nD τ).loc b)

def U0 (c : Dev nD) : Valuation τ sig (Elt F) := V0 m c

def U1 (c : Dev nD) : Valuation τ sig (Elt F) := StableHlo.after hostOps0 (U0 m c)
abbrev U1v : TcVal F := fun c b => U1 m c b

def U2 (c : Dev nD) : Valuation τ sig (Elt F) :=
  Function.update (U1 m c) main_v27 ((dat0 (U1v m) c).arrAt 2 cfg0.N)
abbrev U2v : TcVal F := fun c b => U2 m c b

def U3 (c : Dev nD) : Valuation τ sig (Elt F) := StableHlo.after hostOps1 (U2 m c)
abbrev U3v : TcVal F := fun c b => U3 m c b

def U4 (c : Dev nD) : Valuation τ sig (Elt F) :=
  Function.update (Function.update (Function.update (U3 m c)
    main_v43_0 ((dat1 (U3v m) c).arrAt 4 cfg1.N)) main_v43_1 ((dat1 (U3v m) c).arrAt 5 cfg1.N)) main_v43_2 ((dat1 (U3v m) c).arrAt 6 cfg1.N)
abbrev U4v : TcVal F := fun c b => U4 m c b

def U5 (c : Dev nD) : Valuation τ sig (Elt F) := StableHlo.after hostOps2 (U4 m c)
abbrev U5v : TcVal F := fun c b => U5 m c b

def U6 (c : Dev nD) : Valuation τ sig (Elt F) :=
  Function.update (U5 m c) main_v60 ((dat2 (U5v m) c).arrAt 3 cfg2.N)
abbrev U6v : TcVal F := fun c b => U6 m c b

def U7 (c : Dev nD) : Valuation τ sig (Elt F) :=
  Function.update (U6 m c) main_v61 ((dat3 (U6v m) c).arrAt 2 cfg3.N)
abbrev U7v : TcVal F := fun c b => U7 m c b

def U8 (c : Dev nD) : Valuation τ sig (Elt F) := StableHlo.after hostOps4 (U7 m c)
abbrev U8v : TcVal F := fun c b => U8 m c b

def U9 (c : Dev nD) : Valuation τ sig (Elt F) :=
  Function.update (Function.update (Function.update (U8 m c)
    main_v77_0 ((dat4 (U8v m) c).arrAt 4 cfg4.N)) main_v77_1 ((dat4 (U8v m) c).arrAt 5 cfg4.N)) main_v77_2 ((dat4 (U8v m) c).arrAt 6 cfg4.N)
abbrev U9v : TcVal F := fun c b => U9 m c b

def U10 (c : Dev nD) : Valuation τ sig (Elt F) := StableHlo.after hostOps5 (U9 m c)
abbrev U10v : TcVal F := fun c b => U10 m c b

def U11 (c : Dev nD) : Valuation τ sig (Elt F) :=
  Function.update (U10 m c) main_v94 ((dat5 (U10v m) c).arrAt 3 cfg5.N)
abbrev U11v : TcVal F := fun c b => U11 m c b

def U12 (c : Dev nD) : Valuation τ sig (Elt F) :=
  Function.update (U11 m c) main_v95 ((dat6 (U11v m) c).arrAt 2 cfg6.N)
abbrev U12v : TcVal F := fun c b => U12 m c b

def U13 (c : Dev nD) : Valuation τ sig (Elt F) := StableHlo.after hostOps7 (U12 m c)
abbrev U13v : TcVal F := fun c b => U13 m c b

def U14 (c : Dev nD) : Valuation τ sig (Elt F) :=
  Function.update (Function.update (Function.update (U13 m c)
    main_v111_0 ((dat7 (U13v m) c).arrAt 4 cfg7.N)) main_v111_1 ((dat7 (U13v m) c).arrAt 5 cfg7.N)) main_v111_2 ((dat7 (U13v m) c).arrAt 6 cfg7.N)
abbrev U14v : TcVal F := fun c b => U14 m c b

def U15 (c : Dev nD) : Valuation τ sig (Elt F) := StableHlo.after hostOps8 (U14 m c)
abbrev U15v : TcVal F := fun c b => U15 m c b

def U16 (c : Dev nD) : Valuation τ sig (Elt F) :=
  Function.update (U15 m c) main_v128 ((dat8 (U15v m) c).arrAt 3 cfg8.N)
abbrev U16v : TcVal F := fun c b => U16 m c b

def U17 (c : Dev nD) : Valuation τ sig (Elt F) := StableHlo.after hostOps9 (U16 m c)
abbrev U17v : TcVal F := fun c b => U17 m c b

def U18 (c : Dev nD) : Valuation τ sig (Elt F) :=
  Function.update (U17 m c) main_v130 ((dat9 (U17v m) c).arrAt 2 cfg9.N)
abbrev U18v : TcVal F := fun c b => U18 m c b

def U19 (c : Dev nD) : Valuation τ sig (Elt F) := StableHlo.after hostOps10 (U18 m c)
abbrev U19v : TcVal F := fun c b => U19 m c b

def U20 (c : Dev nD) : Valuation τ sig (Elt F) :=
  Function.update (U19 m c) main_v133 ((dat10 (U19v m) c).arrAt 3 cfg10.N)
abbrev U20v : TcVal F := fun c b => U20 m c b

theorem U2_main_v27 (c : Dev nD) : U2 m c main_v27 = (dat0 (U1v m) c).arrAt 2 cfg0.N := by
  unfold U2; exact Function.update_self _ _ _
theorem U4_main_v43_0 (c : Dev nD) : U4 m c main_v43_0 = (dat1 (U3v m) c).arrAt 4 cfg1.N := by
  unfold U4
  rw [Function.update_of_ne (by decide), Function.update_of_ne (by decide)]; exact Function.update_self _ _ _
theorem U4_main_v43_1 (c : Dev nD) : U4 m c main_v43_1 = (dat1 (U3v m) c).arrAt 5 cfg1.N := by
  unfold U4
  rw [Function.update_of_ne (by decide)]; exact Function.update_self _ _ _
theorem U4_main_v43_2 (c : Dev nD) : U4 m c main_v43_2 = (dat1 (U3v m) c).arrAt 6 cfg1.N := by
  unfold U4; exact Function.update_self _ _ _
theorem U6_main_v60 (c : Dev nD) : U6 m c main_v60 = (dat2 (U5v m) c).arrAt 3 cfg2.N := by
  unfold U6; exact Function.update_self _ _ _
theorem U7_main_v61 (c : Dev nD) : U7 m c main_v61 = (dat3 (U6v m) c).arrAt 2 cfg3.N := by
  unfold U7; exact Function.update_self _ _ _
theorem U9_main_v77_0 (c : Dev nD) : U9 m c main_v77_0 = (dat4 (U8v m) c).arrAt 4 cfg4.N := by
  unfold U9
  rw [Function.update_of_ne (by decide), Function.update_of_ne (by decide)]; exact Function.update_self _ _ _
theorem U9_main_v77_1 (c : Dev nD) : U9 m c main_v77_1 = (dat4 (U8v m) c).arrAt 5 cfg4.N := by
  unfold U9
  rw [Function.update_of_ne (by decide)]; exact Function.update_self _ _ _
theorem U9_main_v77_2 (c : Dev nD) : U9 m c main_v77_2 = (dat4 (U8v m) c).arrAt 6 cfg4.N := by
  unfold U9; exact Function.update_self _ _ _
theorem U11_main_v94 (c : Dev nD) : U11 m c main_v94 = (dat5 (U10v m) c).arrAt 3 cfg5.N := by
  unfold U11; exact Function.update_self _ _ _
theorem U12_main_v95 (c : Dev nD) : U12 m c main_v95 = (dat6 (U11v m) c).arrAt 2 cfg6.N := by
  unfold U12; exact Function.update_self _ _ _
theorem U14_main_v111_0 (c : Dev nD) : U14 m c main_v111_0 = (dat7 (U13v m) c).arrAt 4 cfg7.N := by
  unfold U14
  rw [Function.update_of_ne (by decide), Function.update_of_ne (by decide)]; exact Function.update_self _ _ _
theorem U14_main_v111_1 (c : Dev nD) : U14 m c main_v111_1 = (dat7 (U13v m) c).arrAt 5 cfg7.N := by
  unfold U14
  rw [Function.update_of_ne (by decide)]; exact Function.update_self _ _ _
theorem U14_main_v111_2 (c : Dev nD) : U14 m c main_v111_2 = (dat7 (U13v m) c).arrAt 6 cfg7.N := by
  unfold U14; exact Function.update_self _ _ _
theorem U16_main_v128 (c : Dev nD) : U16 m c main_v128 = (dat8 (U15v m) c).arrAt 3 cfg8.N := by
  unfold U16; exact Function.update_self _ _ _
theorem U18_main_v130 (c : Dev nD) : U18 m c main_v130 = (dat9 (U17v m) c).arrAt 2 cfg9.N := by
  unfold U18; exact Function.update_self _ _ _
theorem U20_main_v133 (c : Dev nD) : U20 m c main_v133 = (dat10 (U19v m) c).arrAt 3 cfg10.N := by
  unfold U20; exact Function.update_self _ _ _

theorem U2_of_ne (c : Dev nD) (b : Ref sig .tc) (h : b ≠ main_v27) : U2 m c b = U1 m c b := by
  unfold U2; exact Function.update_of_ne (fun e => h (Proc.devRef_injective _ e)) _ _
theorem U4_of_ne (c : Dev nD) (b : Ref sig .tc) (h0 : b ≠ main_v43_0) (h1 : b ≠ main_v43_1) (h2 : b ≠ main_v43_2) : U4 m c b = U3 m c b := by
  unfold U4
  rw [Function.update_of_ne (fun e => h2 (Proc.devRef_injective _ e)), Function.update_of_ne (fun e => h1 (Proc.devRef_injective _ e))]
  exact Function.update_of_ne (fun e => h0 (Proc.devRef_injective _ e)) _ _
theorem U6_of_ne (c : Dev nD) (b : Ref sig .tc) (h : b ≠ main_v60) : U6 m c b = U5 m c b := by
  unfold U6; exact Function.update_of_ne (fun e => h (Proc.devRef_injective _ e)) _ _
theorem U7_of_ne (c : Dev nD) (b : Ref sig .tc) (h : b ≠ main_v61) : U7 m c b = U6 m c b := by
  unfold U7; exact Function.update_of_ne (fun e => h (Proc.devRef_injective _ e)) _ _
theorem U9_of_ne (c : Dev nD) (b : Ref sig .tc) (h0 : b ≠ main_v77_0) (h1 : b ≠ main_v77_1) (h2 : b ≠ main_v77_2) : U9 m c b = U8 m c b := by
  unfold U9
  rw [Function.update_of_ne (fun e => h2 (Proc.devRef_injective _ e)), Function.update_of_ne (fun e => h1 (Proc.devRef_injective _ e))]
  exact Function.update_of_ne (fun e => h0 (Proc.devRef_injective _ e)) _ _
theorem U11_of_ne (c : Dev nD) (b : Ref sig .tc) (h : b ≠ main_v94) : U11 m c b = U10 m c b := by
  unfold U11; exact Function.update_of_ne (fun e => h (Proc.devRef_injective _ e)) _ _
theorem U12_of_ne (c : Dev nD) (b : Ref sig .tc) (h : b ≠ main_v95) : U12 m c b = U11 m c b := by
  unfold U12; exact Function.update_of_ne (fun e => h (Proc.devRef_injective _ e)) _ _
theorem U14_of_ne (c : Dev nD) (b : Ref sig .tc) (h0 : b ≠ main_v111_0) (h1 : b ≠ main_v111_1) (h2 : b ≠ main_v111_2) : U14 m c b = U13 m c b := by
  unfold U14
  rw [Function.update_of_ne (fun e => h2 (Proc.devRef_injective _ e)), Function.update_of_ne (fun e => h1 (Proc.devRef_injective _ e))]
  exact Function.update_of_ne (fun e => h0 (Proc.devRef_injective _ e)) _ _
theorem U16_of_ne (c : Dev nD) (b : Ref sig .tc) (h : b ≠ main_v128) : U16 m c b = U15 m c b := by
  unfold U16; exact Function.update_of_ne (fun e => h (Proc.devRef_injective _ e)) _ _
theorem U18_of_ne (c : Dev nD) (b : Ref sig .tc) (h : b ≠ main_v130) : U18 m c b = U17 m c b := by
  unfold U18; exact Function.update_of_ne (fun e => h (Proc.devRef_injective _ e)) _ _
theorem U20_of_ne (c : Dev nD) (b : Ref sig .tc) (h : b ≠ main_v133) : U20 m c b = U19 m c b := by
  unfold U20; exact Function.update_of_ne (fun e => h (Proc.devRef_injective _ e)) _ _

def outsOf : Outs (F := F) := fun J r c =>
  match J with
  | 2 => U2 m c r
  | 4 => U4 m c r
  | 6 => U6 m c r
  | 7 => U7 m c r
  | 9 => U9 m c r
  | 11 => U11 m c r
  | 12 => U12 m c r
  | 14 => U14 m c r
  | 16 => U16 m c r
  | 18 => U18 m c r
  | 20 => U20 m c r
  | _ => U0 m c r

theorem V1_eq (c : Dev nD) : V1 m c = U1 m c := rfl
theorem V2_eq (c : Dev nD) : V2 m (outsOf m) c = U2 m c := by
  show Function.update (V1 m c) main_v27 (U2 m c main_v27) = U2 m c
  rw [U2_main_v27, V1_eq]; rfl
theorem V3_eq (c : Dev nD) : V3 m (outsOf m) c = U3 m c := by
  show StableHlo.after hostOps1 (V2 m (outsOf m) c) = U3 m c
  rw [V2_eq]; rfl
theorem V4_eq (c : Dev nD) : V4 m (outsOf m) c = U4 m c := by
  show Function.update (Function.update (Function.update (V3 m (outsOf m) c) main_v43_0 (U4 m c main_v43_0)) main_v43_1 (U4 m c main_v43_1)) main_v43_2 (U4 m c main_v43_2) = U4 m c
  rw [U4_main_v43_0, U4_main_v43_1, U4_main_v43_2, V3_eq]; rfl
theorem V5_eq (c : Dev nD) : V5 m (outsOf m) c = U5 m c := by
  show StableHlo.after hostOps2 (V4 m (outsOf m) c) = U5 m c
  rw [V4_eq]; rfl
theorem V6_eq (c : Dev nD) : V6 m (outsOf m) c = U6 m c := by
  show Function.update (V5 m (outsOf m) c) main_v60 (U6 m c main_v60) = U6 m c
  rw [U6_main_v60, V5_eq]; rfl
theorem V7_eq (c : Dev nD) : V7 m (outsOf m) c = U7 m c := by
  show Function.update (V6 m (outsOf m) c) main_v61 (U7 m c main_v61) = U7 m c
  rw [U7_main_v61, V6_eq]; rfl
theorem V8_eq (c : Dev nD) : V8 m (outsOf m) c = U8 m c := by
  show StableHlo.after hostOps4 (V7 m (outsOf m) c) = U8 m c
  rw [V7_eq]; rfl
theorem V9_eq (c : Dev nD) : V9 m (outsOf m) c = U9 m c := by
  show Function.update (Function.update (Function.update (V8 m (outsOf m) c) main_v77_0 (U9 m c main_v77_0)) main_v77_1 (U9 m c main_v77_1)) main_v77_2 (U9 m c main_v77_2) = U9 m c
  rw [U9_main_v77_0, U9_main_v77_1, U9_main_v77_2, V8_eq]; rfl
theorem V10_eq (c : Dev nD) : V10 m (outsOf m) c = U10 m c := by
  show StableHlo.after hostOps5 (V9 m (outsOf m) c) = U10 m c
  rw [V9_eq]; rfl
theorem V11_eq (c : Dev nD) : V11 m (outsOf m) c = U11 m c := by
  show Function.update (V10 m (outsOf m) c) main_v94 (U11 m c main_v94) = U11 m c
  rw [U11_main_v94, V10_eq]; rfl
theorem V12_eq (c : Dev nD) : V12 m (outsOf m) c = U12 m c := by
  show Function.update (V11 m (outsOf m) c) main_v95 (U12 m c main_v95) = U12 m c
  rw [U12_main_v95, V11_eq]; rfl
theorem V13_eq (c : Dev nD) : V13 m (outsOf m) c = U13 m c := by
  show StableHlo.after hostOps7 (V12 m (outsOf m) c) = U13 m c
  rw [V12_eq]; rfl
theorem V14_eq (c : Dev nD) : V14 m (outsOf m) c = U14 m c := by
  show Function.update (Function.update (Function.update (V13 m (outsOf m) c) main_v111_0 (U14 m c main_v111_0)) main_v111_1 (U14 m c main_v111_1)) main_v111_2 (U14 m c main_v111_2) = U14 m c
  rw [U14_main_v111_0, U14_main_v111_1, U14_main_v111_2, V13_eq]; rfl
theorem V15_eq (c : Dev nD) : V15 m (outsOf m) c = U15 m c := by
  show StableHlo.after hostOps8 (V14 m (outsOf m) c) = U15 m c
  rw [V14_eq]; rfl
theorem V16_eq (c : Dev nD) : V16 m (outsOf m) c = U16 m c := by
  show Function.update (V15 m (outsOf m) c) main_v128 (U16 m c main_v128) = U16 m c
  rw [U16_main_v128, V15_eq]; rfl
theorem V17_eq (c : Dev nD) : V17 m (outsOf m) c = U17 m c := by
  show StableHlo.after hostOps9 (V16 m (outsOf m) c) = U17 m c
  rw [V16_eq]; rfl
theorem V18_eq (c : Dev nD) : V18 m (outsOf m) c = U18 m c := by
  show Function.update (V17 m (outsOf m) c) main_v130 (U18 m c main_v130) = U18 m c
  rw [U18_main_v130, V17_eq]; rfl
theorem V19_eq (c : Dev nD) : V19 m (outsOf m) c = U19 m c := by
  show StableHlo.after hostOps10 (V18 m (outsOf m) c) = U19 m c
  rw [V18_eq]; rfl
theorem V20_eq (c : Dev nD) : V20 m (outsOf m) c = U20 m c := by
  show Function.update (V19 m (outsOf m) c) main_v133 (U20 m c main_v133) = U20 m c
  rw [U20_main_v133, V19_eq]; rfl

end Cert.Kernel.Hand

end
-- ==== Proof.K.SegBase.lean ====
import proofs.«418928_j70858370450169_1_alg».proof.Proof.K.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

abbrev E : Fin 12 → Dev nD → sProp 𝕄 := fun _ c =>
  iprop((∃ r, prngReg c r) ∗ ∃ W, owes (c : Thread nD τ) (0 : CellTallies nD τ sig Unit) W)

def pdats : (p : Fin 11) → (c : Dev nD) → Dat τ (Elt F) Unit ℕ (UR sig nD τ) ℕ (cfgs p) c
  | ⟨0, _⟩ => fun c => dat0 (U1v m) c
  | ⟨1, _⟩ => fun c => dat1 (U3v m) c
  | ⟨2, _⟩ => fun c => dat2 (U5v m) c
  | ⟨3, _⟩ => fun c => dat3 (U6v m) c
  | ⟨4, _⟩ => fun c => dat4 (U8v m) c
  | ⟨5, _⟩ => fun c => dat5 (U10v m) c
  | ⟨6, _⟩ => fun c => dat6 (U11v m) c
  | ⟨7, _⟩ => fun c => dat7 (U13v m) c
  | ⟨8, _⟩ => fun c => dat8 (U15v m) c
  | ⟨9, _⟩ => fun c => dat9 (U17v m) c
  | ⟨10, _⟩ => fun c => dat10 (U19v m) c

abbrev 𝒱₀ : Variants := Variants.none

abbrev L : GSem nD τ sig → Finset Unit := fun _ => ∅
abbrev lv : GSem nD τ sig → Unit → ℕ := fun _ _ => 0

abbrev tcv (V : Dev nD → Valuation τ sig (Elt F)) : TcVal F := fun c b => V c b

theorem owesAt_intro {cfg : Cfg sig Λ₀} {c : Dev nD} (dat : Dat τ (Elt F) Unit ℕ (UR sig nD τ) ℕ cfg c) (t : Fin (cfg.N + 1))
    (h0 : dat.owed t = 0) (hrec : ∀ x, x ∈ dat.recorded t) :
    (iprop(∃ W, owes (c : Thread nD τ) (0 : CellTallies nD τ sig Unit) W) : sProp 𝕄) ⊢ dat.owesAt () t := by
  unfold Pipeline.Dat.owesAt Pipeline.owesWithin; rw [h0]
  iintro ⟨%W, HO⟩; iexists W; isplitr; · ipureintro; exact fun x _ => Or.inl (hrec x)
  iexact HO

theorem owesAt_elim {cfg : Cfg sig Λ₀} {c : Dev nD} (dat : Dat τ (Elt F) Unit ℕ (UR sig nD τ) ℕ cfg c) (t : Fin (cfg.N + 1))
    (h0 : dat.owed t = 0) :
    dat.owesAt () t ⊢ (iprop(∃ W, owes (c : Thread nD τ) (0 : CellTallies nD τ sig Unit) W) : sProp 𝕄) := by
  unfold Pipeline.Dat.owesAt Pipeline.owesWithin; rw [h0]
  iintro ⟨%W, -, HO⟩; iexists W; iexact HO

theorem pdats_share (p : Fin 11) (c : Dev nD) : ∀ w, (pdats m p c).share w = fullShare := by
  fin_cases p <;> exact Dat.share_full _ fun _ => rfl
theorem pdats_owed (p : Fin 11) (c : Dev nD) : ∀ t, (pdats m p c).owed t = 0 := by
  fin_cases p <;> exact fun _ => rfl
theorem pdats_rec (p : Fin 11) (c : Dev nD) : ∀ x, x ∈ (pdats m p c).recorded 0 := by
  fin_cases p <;> exact fun _ => trivial

set_option backward.isDefEq.respectTransparency.types false in
def mkReg (p : Fin 11) (lf : Pipeline.LaunchFacts (nD := nD) (τ := τ) cfgs p)
    (Uin Uout : Dev nD → Valuation τ sig (Elt F))
    (hbody : ∀ c, BodyObligation (pdats m p c) defs₀ 𝒱₀ () Set.univ)
    (hA : ∀ c w, (pdats m p c).A w = tcv Uin c (Pipeline.arrRef (cfgs p).spec w))
    (hF : ∀ c w, (pdats m p c).arrAt w (cfgs p).N = tcv Uout c (Pipeline.arrRef (cfgs p).spec w))
    (hrest : ∀ c b, b ∉ Finset.univ.image (Pipeline.arrRef (cfgs p).spec) → tcv Uout c b = tcv Uin c b)
    (hin : ∀ c, Pipeline.ΦA (cfgs p).spec c ⊢ (pdats m p c).Φ 0)
    (hout : ∀ c, (pdats m p c).Φ (Fin.last (cfgs p).N) ⊢ Pipeline.ΦA (cfgs p).spec c) :
    RegionSeg (pcfgs (F := F)) adm (pdats m) () defs₀ 𝒱₀ L lv p where
  win := lf.win.to₀
  block_pos := lf.block_pos
  stage_whole := lf.stage_whole
  K := PEmpty
  osem k := k.elim
  ho := Pipeline.OwnSemFacts.none _
  hbody c := (hbody c).loose
  hwaits := Pipeline.hwaits_of_owed_zero (pcfgs (F := F)) adm (pdats m) () L lv p (pdats_owed m p)
  pre c := iprop(StableHlo.held (c : Thread nD τ) (Pipeline.ucRefs τ sig) (Uin c) ∗ E p.castSucc c)
  post c := iprop(StableHlo.held (c : Thread nD τ) (Pipeline.ucRefs τ sig) (Uout c) ∗ E p.succ c)
  X c := iprop(∃ r, prngReg c r)
  Y c := iprop(∃ r, prngReg c r)
  Z c := Pipeline.unscopedRest (Ix := Unit) (Name := ℕ) (U := UR sig nD τ) (Lvl := ℕ) (cfgs p).spec c (tcv Uin c)
  hentry c := by
    rw [Pipeline.ownSems0_none]
    have hsplit := Pipeline.arrays_of_unscopedBufs (p := p) (pcfgs (F := F)) adm (pdats m) lf.win lf.arr_whole c
      (pdats_share m p c) (tcv Uin c) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply owesAt_intro (pdats m p c) 0 (pdats_owed m p c 0) (pdats_rec m p c); iexact HO
    isplitl [Hp]; · iexact Hp
    iexact Hrest
  hin c := by
    refine .trans ?_ (hin c)
    unfold Pipeline.ΦA
    iintro ⟨Hp, -, Hr⟩
    isplitl [Hr]; · iexact Hr
    iexact Hp
  hout c := by
    refine .trans (hout c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      lf.win lf.arr_whole c (pdats m) (pdats_share m p c)
      (tcv Uin c) (tcv Uout c) ((pdats m p c).arrAt · (cfgs p).N) (hF c) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    iapply owesAt_elim (pdats m p c) (Fin.last _) (pdats_owed m p c _); iexact HO

end Cert.Kernel.Hand

end
-- ==== Proof.K.Seg0.lean ====
import proofs.«418928_j70858370450169_1_alg».proof.Proof.K.SegBase

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

theorem hF0_0 (c : Dev nD) : (dat0 (U1v m) c).arrAt 0 cfg0.N = U2v m c main_arg0 :=
  ((dat0 (U1v m) c).arrAt_in 0 rfl cfg0.N).trans ((A_eq0 (U1v m) c 0).trans (U2_of_ne m c main_arg0 (by decide)).symm)
theorem hF0_1 (c : Dev nD) : (dat0 (U1v m) c).arrAt 1 cfg0.N = U2v m c main_arg4 :=
  ((dat0 (U1v m) c).arrAt_in 1 rfl cfg0.N).trans ((A_eq0 (U1v m) c 1).trans (U2_of_ne m c main_arg4 (by decide)).symm)
theorem hF0_2 (c : Dev nD) : (dat0 (U1v m) c).arrAt 2 cfg0.N = U2v m c main_v27 := (U2_main_v27 m c).symm
set_option maxHeartbeats 1000000 in
theorem hF0 (c : Dev nD) : ∀ w : Fin 3, (dat0 (U1v m) c).arrAt w cfg0.N = U2v m c (Pipeline.arrRef spec0 w) := fun
  | 0 => hF0_0 m c
  | 1 => hF0_1 m c
  | 2 => hF0_2 m c
  | ⟨_ + 3, h⟩ => absurd h (Nat.not_lt.2 (Nat.le_add_left _ _))

theorem hrest0 (c : Dev nD) : ∀ b, b ∉ Finset.univ.image (Pipeline.arrRef spec0) → U2v m c b = U1v m c b :=
  fun b hb => U2_of_ne m c b
    (fun e => hb (Finset.mem_image.mpr ⟨2, Finset.mem_univ _, e.symm⟩))

def reg0 : RegionSeg (pcfgs (F := F)) adm (pdats m) () defs₀ 𝒱₀ L lv 0 :=
  mkReg m 0 launch0 (U1 m) (U2 m) (body_obligation0 (U1v m))
    (A_eq0 (U1v m)) (hF0 m) (hrest0 m) (hin0 (U1v m)) (hout0 (U1v m))

end Cert.Kernel.Hand

end
-- ==== Proof.K.Seg1.lean ====
import proofs.«418928_j70858370450169_1_alg».proof.Proof.K.SegBase

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

theorem hF1_0 (c : Dev nD) : (dat1 (U3v m) c).arrAt 0 cfg1.N = U4v m c main_v40 :=
  ((dat1 (U3v m) c).arrAt_in 0 rfl cfg1.N).trans ((A_eq1 (U3v m) c 0).trans (U4_of_ne m c main_v40 (by decide) (by decide) (by decide)).symm)
theorem hF1_1 (c : Dev nD) : (dat1 (U3v m) c).arrAt 1 cfg1.N = U4v m c main_v27 :=
  ((dat1 (U3v m) c).arrAt_in 1 rfl cfg1.N).trans ((A_eq1 (U3v m) c 1).trans (U4_of_ne m c main_v27 (by decide) (by decide) (by decide)).symm)
theorem hF1_2 (c : Dev nD) : (dat1 (U3v m) c).arrAt 2 cfg1.N = U4v m c main_v41 :=
  ((dat1 (U3v m) c).arrAt_in 2 rfl cfg1.N).trans ((A_eq1 (U3v m) c 2).trans (U4_of_ne m c main_v41 (by decide) (by decide) (by decide)).symm)
theorem hF1_3 (c : Dev nD) : (dat1 (U3v m) c).arrAt 3 cfg1.N = U4v m c main_v42 :=
  ((dat1 (U3v m) c).arrAt_in 3 rfl cfg1.N).trans ((A_eq1 (U3v m) c 3).trans (U4_of_ne m c main_v42 (by decide) (by decide) (by decide)).symm)
theorem hF1_4 (c : Dev nD) : (dat1 (U3v m) c).arrAt 4 cfg1.N = U4v m c main_v43_0 := (U4_main_v43_0 m c).symm
theorem hF1_5 (c : Dev nD) : (dat1 (U3v m) c).arrAt 5 cfg1.N = U4v m c main_v43_1 := (U4_main_v43_1 m c).symm
theorem hF1_6 (c : Dev nD) : (dat1 (U3v m) c).arrAt 6 cfg1.N = U4v m c main_v43_2 := (U4_main_v43_2 m c).symm
set_option maxHeartbeats 1000000 in
theorem hF1 (c : Dev nD) : ∀ w : Fin 7, (dat1 (U3v m) c).arrAt w cfg1.N = U4v m c (Pipeline.arrRef spec1 w) := fun
  | 0 => hF1_0 m c
  | 1 => hF1_1 m c
  | 2 => hF1_2 m c
  | 3 => hF1_3 m c
  | 4 => hF1_4 m c
  | 5 => hF1_5 m c
  | 6 => hF1_6 m c
  | ⟨_ + 7, h⟩ => absurd h (Nat.not_lt.2 (Nat.le_add_left _ _))

theorem hrest1 (c : Dev nD) : ∀ b, b ∉ Finset.univ.image (Pipeline.arrRef spec1) → U4v m c b = U3v m c b :=
  fun b hb => U4_of_ne m c b
    (fun e => hb (Finset.mem_image.mpr ⟨4, Finset.mem_univ _, e.symm⟩))
    (fun e => hb (Finset.mem_image.mpr ⟨5, Finset.mem_univ _, e.symm⟩))
    (fun e => hb (Finset.mem_image.mpr ⟨6, Finset.mem_univ _, e.symm⟩))

def reg1 : RegionSeg (pcfgs (F := F)) adm (pdats m) () defs₀ 𝒱₀ L lv 1 :=
  mkReg m 1 launch1 (U3 m) (U4 m) (body_obligation1 (U3v m))
    (A_eq1 (U3v m)) (hF1 m) (hrest1 m) (hin1 (U3v m)) (hout1 (U3v m))

end Cert.Kernel.Hand

end
-- ==== Proof.K.Seg2.lean ====
import proofs.«418928_j70858370450169_1_alg».proof.Proof.K.SegBase

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

theorem hF2_0 (c : Dev nD) : (dat2 (U5v m) c).arrAt 0 cfg2.N = U6v m c main_v43_0 :=
  ((dat2 (U5v m) c).arrAt_in 0 rfl cfg2.N).trans ((A_eq2 (U5v m) c 0).trans (U6_of_ne m c main_v43_0 (by decide)).symm)
theorem hF2_1 (c : Dev nD) : (dat2 (U5v m) c).arrAt 1 cfg2.N = U6v m c main_v58 :=
  ((dat2 (U5v m) c).arrAt_in 1 rfl cfg2.N).trans ((A_eq2 (U5v m) c 1).trans (U6_of_ne m c main_v58 (by decide)).symm)
theorem hF2_2 (c : Dev nD) : (dat2 (U5v m) c).arrAt 2 cfg2.N = U6v m c main_v59 :=
  ((dat2 (U5v m) c).arrAt_in 2 rfl cfg2.N).trans ((A_eq2 (U5v m) c 2).trans (U6_of_ne m c main_v59 (by decide)).symm)
theorem hF2_3 (c : Dev nD) : (dat2 (U5v m) c).arrAt 3 cfg2.N = U6v m c main_v60 := (U6_main_v60 m c).symm
set_option maxHeartbeats 1000000 in
theorem hF2 (c : Dev nD) : ∀ w : Fin 4, (dat2 (U5v m) c).arrAt w cfg2.N = U6v m c (Pipeline.arrRef spec2 w) := fun
  | 0 => hF2_0 m c
  | 1 => hF2_1 m c
  | 2 => hF2_2 m c
  | 3 => hF2_3 m c
  | ⟨_ + 4, h⟩ => absurd h (Nat.not_lt.2 (Nat.le_add_left _ _))

theorem hrest2 (c : Dev nD) : ∀ b, b ∉ Finset.univ.image (Pipeline.arrRef spec2) → U6v m c b = U5v m c b :=
  fun b hb => U6_of_ne m c b
    (fun e => hb (Finset.mem_image.mpr ⟨3, Finset.mem_univ _, e.symm⟩))

def reg2 : RegionSeg (pcfgs (F := F)) adm (pdats m) () defs₀ 𝒱₀ L lv 2 :=
  mkReg m 2 launch2 (U5 m) (U6 m) (body_obligation2 (U5v m))
    (A_eq2 (U5v m)) (hF2 m) (hrest2 m) (hin2 (U5v m)) (hout2 (U5v m))

end Cert.Kernel.Hand

end
-- ==== Proof.K.Seg3.lean ====
import proofs.«418928_j70858370450169_1_alg».proof.Proof.K.SegBase

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

theorem hF3_0 (c : Dev nD) : (dat3 (U6v m) c).arrAt 0 cfg3.N = U7v m c main_v60 :=
  ((dat3 (U6v m) c).arrAt_in 0 rfl cfg3.N).trans ((A_eq3 (U6v m) c 0).trans (U7_of_ne m c main_v60 (by decide)).symm)
theorem hF3_1 (c : Dev nD) : (dat3 (U6v m) c).arrAt 1 cfg3.N = U7v m c main_arg6 :=
  ((dat3 (U6v m) c).arrAt_in 1 rfl cfg3.N).trans ((A_eq3 (U6v m) c 1).trans (U7_of_ne m c main_arg6 (by decide)).symm)
theorem hF3_2 (c : Dev nD) : (dat3 (U6v m) c).arrAt 2 cfg3.N = U7v m c main_v61 := (U7_main_v61 m c).symm
set_option maxHeartbeats 1000000 in
theorem hF3 (c : Dev nD) : ∀ w : Fin 3, (dat3 (U6v m) c).arrAt w cfg3.N = U7v m c (Pipeline.arrRef spec3 w) := fun
  | 0 => hF3_0 m c
  | 1 => hF3_1 m c
  | 2 => hF3_2 m c
  | ⟨_ + 3, h⟩ => absurd h (Nat.not_lt.2 (Nat.le_add_left _ _))

theorem hrest3 (c : Dev nD) : ∀ b, b ∉ Finset.univ.image (Pipeline.arrRef spec3) → U7v m c b = U6v m c b :=
  fun b hb => U7_of_ne m c b
    (fun e => hb (Finset.mem_image.mpr ⟨2, Finset.mem_univ _, e.symm⟩))

def reg3 : RegionSeg (pcfgs (F := F)) adm (pdats m) () defs₀ 𝒱₀ L lv 3 :=
  mkReg m 3 launch3 (U6 m) (U7 m) (body_obligation3 (U6v m))
    (A_eq3 (U6v m)) (hF3 m) (hrest3 m) (hin3 (U6v m)) (hout3 (U6v m))

end Cert.Kernel.Hand

end
-- ==== Proof.K.Seg4.lean ====
import proofs.«418928_j70858370450169_1_alg».proof.Proof.K.SegBase

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

theorem hF4_0 (c : Dev nD) : (dat4 (U8v m) c).arrAt 0 cfg4.N = U9v m c main_v74 :=
  ((dat4 (U8v m) c).arrAt_in 0 rfl cfg4.N).trans ((A_eq4 (U8v m) c 0).trans (U9_of_ne m c main_v74 (by decide) (by decide) (by decide)).symm)
theorem hF4_1 (c : Dev nD) : (dat4 (U8v m) c).arrAt 1 cfg4.N = U9v m c main_v61 :=
  ((dat4 (U8v m) c).arrAt_in 1 rfl cfg4.N).trans ((A_eq4 (U8v m) c 1).trans (U9_of_ne m c main_v61 (by decide) (by decide) (by decide)).symm)
theorem hF4_2 (c : Dev nD) : (dat4 (U8v m) c).arrAt 2 cfg4.N = U9v m c main_v75 :=
  ((dat4 (U8v m) c).arrAt_in 2 rfl cfg4.N).trans ((A_eq4 (U8v m) c 2).trans (U9_of_ne m c main_v75 (by decide) (by decide) (by decide)).symm)
theorem hF4_3 (c : Dev nD) : (dat4 (U8v m) c).arrAt 3 cfg4.N = U9v m c main_v76 :=
  ((dat4 (U8v m) c).arrAt_in 3 rfl cfg4.N).trans ((A_eq4 (U8v m) c 3).trans (U9_of_ne m c main_v76 (by decide) (by decide) (by decide)).symm)
theorem hF4_4 (c : Dev nD) : (dat4 (U8v m) c).arrAt 4 cfg4.N = U9v m c main_v77_0 := (U9_main_v77_0 m c).symm
theorem hF4_5 (c : Dev nD) : (dat4 (U8v m) c).arrAt 5 cfg4.N = U9v m c main_v77_1 := (U9_main_v77_1 m c).symm
theorem hF4_6 (c : Dev nD) : (dat4 (U8v m) c).arrAt 6 cfg4.N = U9v m c main_v77_2 := (U9_main_v77_2 m c).symm
set_option maxHeartbeats 1000000 in
theorem hF4 (c : Dev nD) : ∀ w : Fin 7, (dat4 (U8v m) c).arrAt w cfg4.N = U9v m c (Pipeline.arrRef spec4 w) := fun
  | 0 => hF4_0 m c
  | 1 => hF4_1 m c
  | 2 => hF4_2 m c
  | 3 => hF4_3 m c
  | 4 => hF4_4 m c
  | 5 => hF4_5 m c
  | 6 => hF4_6 m c
  | ⟨_ + 7, h⟩ => absurd h (Nat.not_lt.2 (Nat.le_add_left _ _))

theorem hrest4 (c : Dev nD) : ∀ b, b ∉ Finset.univ.image (Pipeline.arrRef spec4) → U9v m c b = U8v m c b :=
  fun b hb => U9_of_ne m c b
    (fun e => hb (Finset.mem_image.mpr ⟨4, Finset.mem_univ _, e.symm⟩))
    (fun e => hb (Finset.mem_image.mpr ⟨5, Finset.mem_univ _, e.symm⟩))
    (fun e => hb (Finset.mem_image.mpr ⟨6, Finset.mem_univ _, e.symm⟩))

def reg4 : RegionSeg (pcfgs (F := F)) adm (pdats m) () defs₀ 𝒱₀ L lv 4 :=
  mkReg m 4 launch4 (U8 m) (U9 m) (body_obligation4 (U8v m))
    (A_eq4 (U8v m)) (hF4 m) (hrest4 m) (hin4 (U8v m)) (hout4 (U8v m))

end Cert.Kernel.Hand

end
-- ==== Proof.K.Seg5.lean ====
import proofs.«418928_j70858370450169_1_alg».proof.Proof.K.SegBase

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

theorem hF5_0 (c : Dev nD) : (dat5 (U10v m) c).arrAt 0 cfg5.N = U11v m c main_v77_0 :=
  ((dat5 (U10v m) c).arrAt_in 0 rfl cfg5.N).trans ((A_eq5 (U10v m) c 0).trans (U11_of_ne m c main_v77_0 (by decide)).symm)
theorem hF5_1 (c : Dev nD) : (dat5 (U10v m) c).arrAt 1 cfg5.N = U11v m c main_v92 :=
  ((dat5 (U10v m) c).arrAt_in 1 rfl cfg5.N).trans ((A_eq5 (U10v m) c 1).trans (U11_of_ne m c main_v92 (by decide)).symm)
theorem hF5_2 (c : Dev nD) : (dat5 (U10v m) c).arrAt 2 cfg5.N = U11v m c main_v93 :=
  ((dat5 (U10v m) c).arrAt_in 2 rfl cfg5.N).trans ((A_eq5 (U10v m) c 2).trans (U11_of_ne m c main_v93 (by decide)).symm)
theorem hF5_3 (c : Dev nD) : (dat5 (U10v m) c).arrAt 3 cfg5.N = U11v m c main_v94 := (U11_main_v94 m c).symm
set_option maxHeartbeats 1000000 in
theorem hF5 (c : Dev nD) : ∀ w : Fin 4, (dat5 (U10v m) c).arrAt w cfg5.N = U11v m c (Pipeline.arrRef spec5 w) := fun
  | 0 => hF5_0 m c
  | 1 => hF5_1 m c
  | 2 => hF5_2 m c
  | 3 => hF5_3 m c
  | ⟨_ + 4, h⟩ => absurd h (Nat.not_lt.2 (Nat.le_add_left _ _))

theorem hrest5 (c : Dev nD) : ∀ b, b ∉ Finset.univ.image (Pipeline.arrRef spec5) → U11v m c b = U10v m c b :=
  fun b hb => U11_of_ne m c b
    (fun e => hb (Finset.mem_image.mpr ⟨3, Finset.mem_univ _, e.symm⟩))

def reg5 : RegionSeg (pcfgs (F := F)) adm (pdats m) () defs₀ 𝒱₀ L lv 5 :=
  mkReg m 5 launch5 (U10 m) (U11 m) (body_obligation5 (U10v m))
    (A_eq5 (U10v m)) (hF5 m) (hrest5 m) (hin5 (U10v m)) (hout5 (U10v m))

end Cert.Kernel.Hand

end
-- ==== Proof.K.Seg6.lean ====
import proofs.«418928_j70858370450169_1_alg».proof.Proof.K.SegBase

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

theorem hF6_0 (c : Dev nD) : (dat6 (U11v m) c).arrAt 0 cfg6.N = U12v m c main_v94 :=
  ((dat6 (U11v m) c).arrAt_in 0 rfl cfg6.N).trans ((A_eq6 (U11v m) c 0).trans (U12_of_ne m c main_v94 (by decide)).symm)
theorem hF6_1 (c : Dev nD) : (dat6 (U11v m) c).arrAt 1 cfg6.N = U12v m c main_arg8 :=
  ((dat6 (U11v m) c).arrAt_in 1 rfl cfg6.N).trans ((A_eq6 (U11v m) c 1).trans (U12_of_ne m c main_arg8 (by decide)).symm)
theorem hF6_2 (c : Dev nD) : (dat6 (U11v m) c).arrAt 2 cfg6.N = U12v m c main_v95 := (U12_main_v95 m c).symm
set_option maxHeartbeats 1000000 in
theorem hF6 (c : Dev nD) : ∀ w : Fin 3, (dat6 (U11v m) c).arrAt w cfg6.N = U12v m c (Pipeline.arrRef spec6 w) := fun
  | 0 => hF6_0 m c
  | 1 => hF6_1 m c
  | 2 => hF6_2 m c
  | ⟨_ + 3, h⟩ => absurd h (Nat.not_lt.2 (Nat.le_add_left _ _))

theorem hrest6 (c : Dev nD) : ∀ b, b ∉ Finset.univ.image (Pipeline.arrRef spec6) → U12v m c b = U11v m c b :=
  fun b hb => U12_of_ne m c b
    (fun e => hb (Finset.mem_image.mpr ⟨2, Finset.mem_univ _, e.symm⟩))

def reg6 : RegionSeg (pcfgs (F := F)) adm (pdats m) () defs₀ 𝒱₀ L lv 6 :=
  mkReg m 6 launch6 (U11 m) (U12 m) (body_obligation6 (U11v m))
    (A_eq6 (U11v m)) (hF6 m) (hrest6 m) (hin6 (U11v m)) (hout6 (U11v m))

end Cert.Kernel.Hand

end
-- ==== Proof.K.Seg7.lean ====
import proofs.«418928_j70858370450169_1_alg».proof.Proof.K.SegBase

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

theorem hF7_0 (c : Dev nD) : (dat7 (U13v m) c).arrAt 0 cfg7.N = U14v m c main_v108 :=
  ((dat7 (U13v m) c).arrAt_in 0 rfl cfg7.N).trans ((A_eq7 (U13v m) c 0).trans (U14_of_ne m c main_v108 (by decide) (by decide) (by decide)).symm)
theorem hF7_1 (c : Dev nD) : (dat7 (U13v m) c).arrAt 1 cfg7.N = U14v m c main_v95 :=
  ((dat7 (U13v m) c).arrAt_in 1 rfl cfg7.N).trans ((A_eq7 (U13v m) c 1).trans (U14_of_ne m c main_v95 (by decide) (by decide) (by decide)).symm)
theorem hF7_2 (c : Dev nD) : (dat7 (U13v m) c).arrAt 2 cfg7.N = U14v m c main_v109 :=
  ((dat7 (U13v m) c).arrAt_in 2 rfl cfg7.N).trans ((A_eq7 (U13v m) c 2).trans (U14_of_ne m c main_v109 (by decide) (by decide) (by decide)).symm)
theorem hF7_3 (c : Dev nD) : (dat7 (U13v m) c).arrAt 3 cfg7.N = U14v m c main_v110 :=
  ((dat7 (U13v m) c).arrAt_in 3 rfl cfg7.N).trans ((A_eq7 (U13v m) c 3).trans (U14_of_ne m c main_v110 (by decide) (by decide) (by decide)).symm)
theorem hF7_4 (c : Dev nD) : (dat7 (U13v m) c).arrAt 4 cfg7.N = U14v m c main_v111_0 := (U14_main_v111_0 m c).symm
theorem hF7_5 (c : Dev nD) : (dat7 (U13v m) c).arrAt 5 cfg7.N = U14v m c main_v111_1 := (U14_main_v111_1 m c).symm
theorem hF7_6 (c : Dev nD) : (dat7 (U13v m) c).arrAt 6 cfg7.N = U14v m c main_v111_2 := (U14_main_v111_2 m c).symm
set_option maxHeartbeats 1000000 in
theorem hF7 (c : Dev nD) : ∀ w : Fin 7, (dat7 (U13v m) c).arrAt w cfg7.N = U14v m c (Pipeline.arrRef spec7 w) := fun
  | 0 => hF7_0 m c
  | 1 => hF7_1 m c
  | 2 => hF7_2 m c
  | 3 => hF7_3 m c
  | 4 => hF7_4 m c
  | 5 => hF7_5 m c
  | 6 => hF7_6 m c
  | ⟨_ + 7, h⟩ => absurd h (Nat.not_lt.2 (Nat.le_add_left _ _))

theorem hrest7 (c : Dev nD) : ∀ b, b ∉ Finset.univ.image (Pipeline.arrRef spec7) → U14v m c b = U13v m c b :=
  fun b hb => U14_of_ne m c b
    (fun e => hb (Finset.mem_image.mpr ⟨4, Finset.mem_univ _, e.symm⟩))
    (fun e => hb (Finset.mem_image.mpr ⟨5, Finset.mem_univ _, e.symm⟩))
    (fun e => hb (Finset.mem_image.mpr ⟨6, Finset.mem_univ _, e.symm⟩))

def reg7 : RegionSeg (pcfgs (F := F)) adm (pdats m) () defs₀ 𝒱₀ L lv 7 :=
  mkReg m 7 launch7 (U13 m) (U14 m) (body_obligation7 (U13v m))
    (A_eq7 (U13v m)) (hF7 m) (hrest7 m) (hin7 (U13v m)) (hout7 (U13v m))

end Cert.Kernel.Hand

end
-- ==== Proof.K.Seg8.lean ====
import proofs.«418928_j70858370450169_1_alg».proof.Proof.K.SegBase

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

theorem hF8_0 (c : Dev nD) : (dat8 (U15v m) c).arrAt 0 cfg8.N = U16v m c main_v111_0 :=
  ((dat8 (U15v m) c).arrAt_in 0 rfl cfg8.N).trans ((A_eq8 (U15v m) c 0).trans (U16_of_ne m c main_v111_0 (by decide)).symm)
theorem hF8_1 (c : Dev nD) : (dat8 (U15v m) c).arrAt 1 cfg8.N = U16v m c main_v126 :=
  ((dat8 (U15v m) c).arrAt_in 1 rfl cfg8.N).trans ((A_eq8 (U15v m) c 1).trans (U16_of_ne m c main_v126 (by decide)).symm)
theorem hF8_2 (c : Dev nD) : (dat8 (U15v m) c).arrAt 2 cfg8.N = U16v m c main_v127 :=
  ((dat8 (U15v m) c).arrAt_in 2 rfl cfg8.N).trans ((A_eq8 (U15v m) c 2).trans (U16_of_ne m c main_v127 (by decide)).symm)
theorem hF8_3 (c : Dev nD) : (dat8 (U15v m) c).arrAt 3 cfg8.N = U16v m c main_v128 := (U16_main_v128 m c).symm
set_option maxHeartbeats 1000000 in
theorem hF8 (c : Dev nD) : ∀ w : Fin 4, (dat8 (U15v m) c).arrAt w cfg8.N = U16v m c (Pipeline.arrRef spec8 w) := fun
  | 0 => hF8_0 m c
  | 1 => hF8_1 m c
  | 2 => hF8_2 m c
  | 3 => hF8_3 m c
  | ⟨_ + 4, h⟩ => absurd h (Nat.not_lt.2 (Nat.le_add_left _ _))

theorem hrest8 (c : Dev nD) : ∀ b, b ∉ Finset.univ.image (Pipeline.arrRef spec8) → U16v m c b = U15v m c b :=
  fun b hb => U16_of_ne m c b
    (fun e => hb (Finset.mem_image.mpr ⟨3, Finset.mem_univ _, e.symm⟩))

def reg8 : RegionSeg (pcfgs (F := F)) adm (pdats m) () defs₀ 𝒱₀ L lv 8 :=
  mkReg m 8 launch8 (U15 m) (U16 m) (body_obligation8 (U15v m))
    (A_eq8 (U15v m)) (hF8 m) (hrest8 m) (hin8 (U15v m)) (hout8 (U15v m))

end Cert.Kernel.Hand

end
-- ==== Proof.K.Seg9.lean ====
import proofs.«418928_j70858370450169_1_alg».proof.Proof.K.SegBase

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

theorem hF9_0 (c : Dev nD) : (dat9 (U17v m) c).arrAt 0 cfg9.N = U18v m c main_v128 :=
  ((dat9 (U17v m) c).arrAt_in 0 rfl cfg9.N).trans ((A_eq9 (U17v m) c 0).trans (U18_of_ne m c main_v128 (by decide)).symm)
theorem hF9_1 (c : Dev nD) : (dat9 (U17v m) c).arrAt 1 cfg9.N = U18v m c main_v129 :=
  ((dat9 (U17v m) c).arrAt_in 1 rfl cfg9.N).trans ((A_eq9 (U17v m) c 1).trans (U18_of_ne m c main_v129 (by decide)).symm)
theorem hF9_2 (c : Dev nD) : (dat9 (U17v m) c).arrAt 2 cfg9.N = U18v m c main_v130 := (U18_main_v130 m c).symm
set_option maxHeartbeats 1000000 in
theorem hF9 (c : Dev nD) : ∀ w : Fin 3, (dat9 (U17v m) c).arrAt w cfg9.N = U18v m c (Pipeline.arrRef spec9 w) := fun
  | 0 => hF9_0 m c
  | 1 => hF9_1 m c
  | 2 => hF9_2 m c
  | ⟨_ + 3, h⟩ => absurd h (Nat.not_lt.2 (Nat.le_add_left _ _))

theorem hrest9 (c : Dev nD) : ∀ b, b ∉ Finset.univ.image (Pipeline.arrRef spec9) → U18v m c b = U17v m c b :=
  fun b hb => U18_of_ne m c b
    (fun e => hb (Finset.mem_image.mpr ⟨2, Finset.mem_univ _, e.symm⟩))

def reg9 : RegionSeg (pcfgs (F := F)) adm (pdats m) () defs₀ 𝒱₀ L lv 9 :=
  mkReg m 9 launch9 (U17 m) (U18 m) (body_obligation9 (U17v m))
    (A_eq9 (U17v m)) (hF9 m) (hrest9 m) (hin9 (U17v m)) (hout9 (U17v m))

end Cert.Kernel.Hand

end
-- ==== Proof.K.Seg10.lean ====
import proofs.«418928_j70858370450169_1_alg».proof.Proof.K.SegBase

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

theorem hF10_0 (c : Dev nD) : (dat10 (U19v m) c).arrAt 0 cfg10.N = U20v m c main_v131 :=
  ((dat10 (U19v m) c).arrAt_in 0 rfl cfg10.N).trans ((A_eq10 (U19v m) c 0).trans (U20_of_ne m c main_v131 (by decide)).symm)
theorem hF10_1 (c : Dev nD) : (dat10 (U19v m) c).arrAt 1 cfg10.N = U20v m c main_arg16 :=
  ((dat10 (U19v m) c).arrAt_in 1 rfl cfg10.N).trans ((A_eq10 (U19v m) c 1).trans (U20_of_ne m c main_arg16 (by decide)).symm)
theorem hF10_2 (c : Dev nD) : (dat10 (U19v m) c).arrAt 2 cfg10.N = U20v m c main_v132 :=
  ((dat10 (U19v m) c).arrAt_in 2 rfl cfg10.N).trans ((A_eq10 (U19v m) c 2).trans (U20_of_ne m c main_v132 (by decide)).symm)
theorem hF10_3 (c : Dev nD) : (dat10 (U19v m) c).arrAt 3 cfg10.N = U20v m c main_v133 := (U20_main_v133 m c).symm
set_option maxHeartbeats 1000000 in
theorem hF10 (c : Dev nD) : ∀ w : Fin 4, (dat10 (U19v m) c).arrAt w cfg10.N = U20v m c (Pipeline.arrRef spec10 w) := fun
  | 0 => hF10_0 m c
  | 1 => hF10_1 m c
  | 2 => hF10_2 m c
  | 3 => hF10_3 m c
  | ⟨_ + 4, h⟩ => absurd h (Nat.not_lt.2 (Nat.le_add_left _ _))

theorem hrest10 (c : Dev nD) : ∀ b, b ∉ Finset.univ.image (Pipeline.arrRef spec10) → U20v m c b = U19v m c b :=
  fun b hb => U20_of_ne m c b
    (fun e => hb (Finset.mem_image.mpr ⟨3, Finset.mem_univ _, e.symm⟩))

def reg10 : RegionSeg (pcfgs (F := F)) adm (pdats m) () defs₀ 𝒱₀ L lv 10 :=
  mkReg m 10 launch10 (U19 m) (U20 m) (body_obligation10 (U19v m))
    (A_eq10 (U19v m)) (hF10 m) (hrest10 m) (hin10 (U19v m)) (hout10 (U19v m))

end Cert.Kernel.Hand

end
-- ==== Proof.K.Segs.lean ====
import proofs.«418928_j70858370450169_1_alg».proof.Proof.K.RunCond
import proofs.«418928_j70858370450169_1_alg».proof.Proof.K.Seg0
import proofs.«418928_j70858370450169_1_alg».proof.Proof.K.Seg1
import proofs.«418928_j70858370450169_1_alg».proof.Proof.K.Seg2
import proofs.«418928_j70858370450169_1_alg».proof.Proof.K.Seg3
import proofs.«418928_j70858370450169_1_alg».proof.Proof.K.Seg4
import proofs.«418928_j70858370450169_1_alg».proof.Proof.K.Seg5
import proofs.«418928_j70858370450169_1_alg».proof.Proof.K.Seg6
import proofs.«418928_j70858370450169_1_alg».proof.Proof.K.Seg7
import proofs.«418928_j70858370450169_1_alg».proof.Proof.K.Seg8
import proofs.«418928_j70858370450169_1_alg».proof.Proof.K.Seg9
import proofs.«418928_j70858370450169_1_alg».proof.Proof.K.Seg10

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

theorem launch_init :
    (ownU (initOf (Pipeline.cells cfgs cellOf_inj) (Pipeline.launchToks cfgs cellOf_inj)) : sProp 𝕄)
      ⊢ |={Set.univ}=> iprop(BI.own (emb₁ (initOf (Pipeline.cells cfgs cellOf_inj) (Pipeline.launchToks cfgs cellOf_inj)))
          ∗ bigSep Finset.univ fun _ : Dev nD => (BI.emp : sProp 𝕄)) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

theorem rest_init (ρ : Dev nD → PrngReg) :
    iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp 𝕄))) ∗ levAts L lv)
      ⊢ (|={Set.univ}=> bigSep Finset.univ (E (F := F) 0) : sProp 𝕄) := by
  refine Pipeline.initEach L lv fun c => ?_
  iintro ⟨⟨-, HO, -, Hp, -⟩, -⟩
  imodintro
  isplitl [Hp]; · iexists _; iexact Hp
  iexists ∅; iexact HO

theorem rest_final (c : Dev nD) :
    E (F := F) 11 c ⊢ (iprop(∃ W, owes (c : Thread nD τ) (0 : CellTallies nD τ sig Unit) W) : sProp 𝕄) := by
  iintro ⟨-, H⟩; iexact H

set_option backward.isDefEq.respectTransparency.types false in

theorem run_all (ρ : Dev nD → PrngReg) :
    θ_run defs (onTc (τ := τ) (main (F := F))) ⟨m, fun _ => 0, ρ⟩ (fun r => ∀ c : Dev nD,
      r.2.mem ((c.tc : Thread nD τ).loc main_v133) = U20 m c main_v133
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun r h c => ⟨(h c).1.trans (congrFun (V20_eq m c) _), (h c).2⟩)
    (run_cond m emb₁ () 𝒱₀ L lv (fun _ _ => rfl) ρ (outsOf m) (pdats m) 0 (fun _ => iprop(emp))
      (initOf (Pipeline.cells cfgs cellOf_inj) (Pipeline.launchToks cfgs cellOf_inj))
      launch_init E (rest_init ρ) rest_final
      (reg0 m) (fun c => by exact .rfl) (fun c => by rw [V2_eq]; exact .rfl)
      (reg1 m) (fun c => by rw [V3_eq]; exact .rfl) (fun c => by rw [V4_eq]; exact .rfl)
      (reg2 m) (fun c => by rw [V5_eq]; exact .rfl) (fun c => by rw [V6_eq]; exact .rfl)
      (reg3 m) (fun c => by rw [V6_eq]; exact .rfl) (fun c => by rw [V7_eq]; exact .rfl)
      (reg4 m) (fun c => by rw [V8_eq]; exact .rfl) (fun c => by rw [V9_eq]; exact .rfl)
      (reg5 m) (fun c => by rw [V10_eq]; exact .rfl) (fun c => by rw [V11_eq]; exact .rfl)
      (reg6 m) (fun c => by rw [V11_eq]; exact .rfl) (fun c => by rw [V12_eq]; exact .rfl)
      (reg7 m) (fun c => by rw [V13_eq]; exact .rfl) (fun c => by rw [V14_eq]; exact .rfl)
      (reg8 m) (fun c => by rw [V15_eq]; exact .rfl) (fun c => by rw [V16_eq]; exact .rfl)
      (reg9 m) (fun c => by rw [V17_eq]; exact .rfl) (fun c => by rw [V18_eq]; exact .rfl)
      (reg10 m) (fun c => by rw [V19_eq]; exact .rfl) (fun c => by rw [V20_eq]; exact .rfl))

end Cert.Kernel.Hand

end
-- ==== Proof.Spec.lean ====
import Idealize.ShloMosaic.PureOps.Ideal
import Idealize.ShloMosaic.Lib.ValueIdx

noncomputable section

open scoped BigOperators
open Idealize.ShloMosaic Idealize.ShloMosaic.ValueIdx

namespace Cert.Spec

abbrev SNH : Shape := ⟨2, ![100000, 128]⟩
abbrev SHH : Shape := ⟨2, ![128, 128]⟩
abbrev S1H : Shape := ⟨2, ![1, 128]⟩
abbrev SN1 : Shape := ⟨2, ![100000, 1]⟩
abbrev SGH : Shape := ⟨2, ![256, 128]⟩
abbrev SGZ : Shape := ⟨2, ![256, 144]⟩
abbrev SZK : Shape := ⟨2, ![144, 2]⟩
abbrev S1K : Shape := ⟨2, ![1, 2]⟩
abbrev SGK : Shape := ⟨2, ![256, 2]⟩

def mm (a : SNH.Idx → EReal) (w : SHH.Idx → EReal) : SNH.Idx → EReal :=
  fun i => ∑ k : Fin 128, a (ix2 (i 0) k) * w (ix2 k (i 1))

def comb (agg xw : SNH.Idx → EReal) (sn : SN1.Idx → EReal) (b : S1H.Idx → EReal) : SNH.Idx → EReal :=
  fun i => max ((agg i + sn (ix2 (i 0) 0) * xw i) + b (ix2 0 (i 1))) 0

def colsum (r : SNH.Idx → EReal) : S1H.Idx → EReal :=
  fun j => ∑ n : Fin 100000, r (ix2 n (j 1))

def colsumsq (r : SNH.Idx → EReal) : S1H.Idx → EReal :=
  fun j => ∑ n : Fin 100000, r (ix2 n (j 1)) * r (ix2 n (j 1))

def affine (r : SNH.Idx → EReal) (sc sh : S1H.Idx → EReal) : SNH.Idx → EReal :=
  fun i => r i * sc (ix2 0 (i 1)) + sh (ix2 0 (i 1))

def hit (b : BitVec 32) (g : Fin 256) : EReal := if b = BitVec.ofNat 32 g.val then 1 else 0

def pool (h : SNH.Idx → EReal) (bt : SN1.Idx → BitVec 32) : SGH.Idx → EReal :=
  fun i => Ideal.div (∑ n : Fin 100000, hit (bt (ix2 n 0)) (i 0) * h (ix2 n (i 1)))
    (max (∑ n : Fin 100000, hit (bt (ix2 n 0)) (i 0)) 1)

def cls (z : SGZ.Idx → EReal) (w : SZK.Idx → EReal) (b : S1K.Idx → EReal) : SGK.Idx → EReal :=
  fun i => (∑ k : Fin 144, z (ix2 (i 0) k) * w (ix2 k (i 1))) + b (ix2 0 (i 1))

end Cert.Spec

end
-- ==== Proof.Model.lean ====
import proofs.«418928_j70858370450169_1_alg».proof.Proof.Spec

noncomputable section

open scoped BigOperators
open Idealize.ShloMosaic Idealize.ShloMosaic.ValueIdx

namespace Cert.Model

open Cert.Spec

abbrev SH : Shape := ⟨1, ![128]⟩
abbrev SK : Shape := ⟨1, ![2]⟩
abbrev SGC : Shape := ⟨2, ![256, 16]⟩

def cN : EReal := Ideal.ofBits .f32 0x47C35000#32

def cEps : EReal := Ideal.ofBits .f32 0x3727C5AC#32

def row (v : SH.Idx → EReal) : S1H.Idx → EReal := fun j => v (ix1 (j 1))

def row2 (v : SK.Idx → EReal) : S1K.Idx → EReal := fun j => v (ix1 (j 1))

variable (agg : (SNH.Idx → EReal) → SNH.Idx → EReal) (sn : SN1.Idx → EReal)

def conv (h : SNH.Idx → EReal) (W : SHH.Idx → EReal) (b : SH.Idx → EReal) : SNH.Idx → EReal :=
  comb (agg (mm h W)) (mm h W) sn (row b)

def mean (r : SNH.Idx → EReal) (j : Fin 128) : EReal := Ideal.div (∑ n : Fin 100000, r (ix2 n j)) cN

def varRef (r : SNH.Idx → EReal) (j : Fin 128) : EReal :=
  Ideal.div (∑ n : Fin 100000, (r (ix2 n j) - mean r j) * (r (ix2 n j) - mean r j)) cN

def varKer (r : SNH.Idx → EReal) (j : Fin 128) : EReal :=
  Ideal.div (∑ n : Fin 100000, r (ix2 n j) * r (ix2 n j)) cN - mean r j * mean r j

def bnRef (r : SNH.Idx → EReal) (γ β : SH.Idx → EReal) : SNH.Idx → EReal :=
  fun i => ((r i - mean r (i 1)) * Ideal.rsqrt (varRef r (i 1) + cEps)) * γ (ix1 (i 1)) + β (ix1 (i 1))

def scaleKer (r : SNH.Idx → EReal) (γ : SH.Idx → EReal) (j : Fin 128) : EReal :=
  γ (ix1 j) * Ideal.rsqrt (varKer r j + cEps)
def shiftKer (r : SNH.Idx → EReal) (γ β : SH.Idx → EReal) (j : Fin 128) : EReal :=
  β (ix1 j) - mean r j * scaleKer r γ j

def bnKer (r : SNH.Idx → EReal) (γ β : SH.Idx → EReal) : SNH.Idx → EReal :=
  fun i => r i * scaleKer r γ (i 1) + shiftKer r γ β (i 1)

def layerRef (h : SNH.Idx → EReal) (W : SHH.Idx → EReal) (b γ β : SH.Idx → EReal) : SNH.Idx → EReal :=
  bnRef (conv agg sn h W b) γ β
def layerKer (h : SNH.Idx → EReal) (W : SHH.Idx → EReal) (b γ β : SH.Idx → EReal) : SNH.Idx → EReal :=
  bnKer (conv agg sn h W b) γ β

def poolRef (h : SNH.Idx → EReal) (bt : SN1.Idx → BitVec 32) : SGH.Idx → EReal :=
  fun i => Ideal.div
    (∑ n ∈ Finset.univ.filter (fun n : Fin 100000 => (bt (ix2 n 0)).toInt = ((i 0).val : Int)), h (ix2 n (i 1)))
    (max (∑ _n ∈ Finset.univ.filter (fun n : Fin 100000 => (bt (ix2 n 0)).toInt = ((i 0).val : Int)), (1 : EReal)) 1)

variable (cat : (SGH.Idx → EReal) → (SGC.Idx → EReal) → SGZ.Idx → EReal)

def netKer (x : SNH.Idx → EReal) (bt : SN1.Idx → BitVec 32) (cl : SGC.Idx → EReal)
    (W1 : SHH.Idx → EReal) (b1 : SH.Idx → EReal) (W2 : SHH.Idx → EReal) (b2 : SH.Idx → EReal)
    (W3 : SHH.Idx → EReal) (b3 : SH.Idx → EReal) (g1 be1 g2 be2 g3 be3 : SH.Idx → EReal)
    (Wc : SZK.Idx → EReal) (bc : SK.Idx → EReal) : SGK.Idx → EReal :=
  cls (cat (pool (layerKer agg sn (layerKer agg sn (layerKer agg sn x W1 b1 g1 be1) W2 b2 g2 be2) W3 b3 g3 be3) bt) cl)
    Wc (row2 bc)

def netRef (x : SNH.Idx → EReal) (bt : SN1.Idx → BitVec 32) (cl : SGC.Idx → EReal)
    (W1 : SHH.Idx → EReal) (b1 : SH.Idx → EReal) (W2 : SHH.Idx → EReal) (b2 : SH.Idx → EReal)
    (W3 : SHH.Idx → EReal) (b3 : SH.Idx → EReal) (g1 be1 g2 be2 g3 be3 : SH.Idx → EReal)
    (Wc : SZK.Idx → EReal) (bc : SK.Idx → EReal) : SGK.Idx → EReal :=
  cls (cat (poolRef (layerRef agg sn (layerRef agg sn (layerRef agg sn x W1 b1 g1 be1) W2 b2 g2 be2) W3 b3 g3 be3) bt) cl)
    Wc (row2 bc)

def IsReal {s : Shape} (a : s.Idx → EReal) : Prop := ∀ i, ∃ r : ℝ, a i = (r : EReal)

end Cert.Model

end
-- ==== Proof.KI.HostTerms.lean ====
import proofs.«418928_j70858370450169_1_alg».proof.Proof.Gen.KernelIdeal
import proofs.«418928_j70858370450169_1_alg».proof.Proof.Model

noncomputable section

namespace Cert.KernelIdeal.Hand

open Cert.KernelIdeal Cert.KernelIdeal.Gen
open Idealize.ShloMosaic
open Cert.Spec Cert.Model

abbrev ArrF (s : Shape) : Type := FVec Ideal s .f32
abbrev ArrI (s : Shape) : Type := IVec s 32

def srcK (ei : ArrI S2x1600000) : ArrI S1600000 :=
  shapeCast S1600000 (extractStridedSlice S1x1600000 ![0, 0] ei slices_S2x1600000_S1x1600000_0_0) shapeCasts_S1x1600000_S1600000

def dstK (ei : ArrI S2x1600000) : ArrI S1600000 :=
  shapeCast S1600000 (extractStridedSlice S1x1600000 ![1, 0] ei slices_S2x1600000_S1x1600000_1_0) shapeCasts_S1x1600000_S1600000

def wrapK (i : ArrI S1600000) : ArrI S1600000 :=
  select (cmpi .slt i (broadcastInDim S1600000 ![] bcast_S_S1600000 (constantI S_ 32 0#32)))
    (addi i (broadcastInDim S1600000 ![] bcast_S_S1600000 (constantI S_ 32 100000#32))) i

def degK (ei : ArrI S2x1600000) : ArrF S100000 :=
  addf
    (Host.scatterAdd scatter_S100000_S1600000x1_S1600000_n_0_0_1
      (broadcastInDim S100000 ![] bcast_S_S100000 (constant (F := Ideal) S_ .f32 0x00000000#32))
      (broadcastInDim S1600000x1 ![0] bcast_S1600000_S1600000x1_0 (dstK ei))
      (broadcastInDim S1600000 ![] bcast_S_S1600000 (constant (F := Ideal) S_ .f32 0x3F800000#32)))
    (broadcastInDim S100000 ![] bcast_S_S100000 (constant (F := Ideal) S_ .f32 0x3F800000#32))

def disK (ei : ArrI S2x1600000) : ArrF S100000 := Host.rsqrt (degK ei)

def normK (ei : ArrI S2x1600000) : ArrF S1600000 :=
  mulf
    (Host.gather gather_S100000_S1600000x1_S1600000_n_0_n_n_0_1_1 (disK ei)
      (broadcastInDim S1600000x1 ![0] bcast_S1600000_S1600000x1_0 (wrapK (srcK ei))))
    (Host.gather gather_S100000_S1600000x1_S1600000_n_0_n_n_0_1_1 (disK ei)
      (broadcastInDim S1600000x1 ![0] bcast_S1600000_S1600000x1_0 (wrapK (dstK ei))))

def selfK (ei : ArrI S2x1600000) : ArrF S100000 := mulf (disK ei) (disK ei)

def aggT (nrm : ArrF S1600000) (src dst : ArrI S1600000) (f : ArrF S100000x128) : ArrF S100000x128 :=
  Host.scatterAdd scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 dst)
    (mulf
      (broadcastInDim S1600000x128 ![0, 1] bcast_S1600000x1_S1600000x128_0_1
        (broadcastInDim S1600000x1 ![0] bcast_S1600000_S1600000x1_0 nrm))
      (Host.gather gather_S100000x128_S1600000x1_S1600000x128_1_0_n_n_0_1_1128 f
        (broadcastInDim S1600000x1 ![0] bcast_S1600000_S1600000x1_0 (wrapK src))))

def aggK (ei : ArrI S2x1600000) (f : SNH.Idx → EReal) : SNH.Idx → EReal :=
  aggT (normK ei) (srcK ei) (dstK ei) f

def snK (ei : ArrI S2x1600000) : SN1.Idx → EReal :=
  shapeCast S100000x1 (selfK ei) shapeCasts_S100000_S100000x1

def catK (a : SGH.Idx → EReal) (b : SGC.Idx → EReal) : SGZ.Idx → EReal :=
  concatenate S256x144 1 [⟨S256x128, a⟩, ⟨S256x16, b⟩] concatenates_S256x128_S256x16_S256x144_d1

def btK (b : ArrI S100000) : SN1.Idx → BitVec 32 :=
  shapeCast S100000x1 b shapeCasts_S100000_S100000x1

end Cert.KernelIdeal.Hand

end
-- ==== Proof.KI.Val0.lean ====
import proofs.«418928_j70858370450169_1_alg».proof.Proof.KI.Reg0
import proofs.«418928_j70858370450169_1_alg».proof.Proof.Spec
import Idealize.ShloMosaic.Lib.Pipeline.Value
import Idealize.ShloMosaic.Lib.ValueIdx
import Idealize.ShloMosaic.PureOps.Ideal.Laws
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)

open Cert.Spec
open scoped BigOperators
open Idealize.ShloMosaic.ValueIdx

variable (V : (c : Dev nD) → (b : Ref sig .tc) → Buf (Elt Ideal) ((c : Thread nD τ).loc b))

theorem hz0 : (![0, 0] : Fin 2 → Nat) = fun _ => 0 := funext fun a => by fin_cases a <;> rfl

theorem lhs0_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl

theorem lhs0_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q

theorem rhs0_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q

theorem rhs0_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

theorem pay0_apply (x0 : FVec Ideal S5000x128 .f32) (x1 : FVec Ideal S128x128 .f32) (p : Fin 5000) (q : Fin 128) :
    (k0_pay1 (F := Ideal) x0 x1) (ix2 p q) = ∑ k : Fin 128, x0 (ix2 p k) * x1 (ix2 k q) := by
  unfold k0_pay1
  refine (Ideal.matmul_constant_zero_apply dot_S5000x128_S128x128_S5000x128_1_0_0_1_n_n none _ _ (ix2 p q)).trans ?_
  rw [← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact lhs0_0 _ _
    | ⟨1, _⟩ => exact (lhs0_1 _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (rhs0_0 _ _).trans hk
    | ⟨1, _⟩ => exact rhs0_1 _ _)
  rw [el, er]
  simp only [truncf_apply, shapeCast_self]

theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

theorem iblk0_0_apply (c : Dev nD) (t : Fin cfg0.N) (x : S5000x128.Idx) (i : S100000x128.Idx)
    (h0 : (i 0).val = 5000 * t.val + (x 0).val) (h1 : (i 1).val = (x 1).val) :
    (iblk0 V c 0 t : Vec Ideal S5000x128 .f32) x = (V c main_arg0 : S100000x128.Idx → EReal) i := by
  obtain ⟨e00, e01, -, -, -, -⟩ := idx_facts0 t
  unfold iblk0
  rw [View.read_apply]
  show V c main_arg0 _ = V c main_arg0 _
  congr 1
  funext a
  apply Fin.ext
  match a with
  | ⟨0, _⟩ => show win0_0.index t 0 * 5000 + 1 * (x 0).val = (i 0).val; rw [e00, h0]; omega
  | ⟨1, _⟩ => show win0_0.index t 1 * 128 + 1 * (x 1).val = (i 1).val; rw [e01, h1]; omega

theorem iblk0_1_apply (c : Dev nD) (t : Fin cfg0.N) (x : S128x128.Idx) (i : S128x128.Idx)
    (h0 : (i 0).val = (x 0).val) (h1 : (i 1).val = (x 1).val) :
    (iblk0 V c 1 t : Vec Ideal S128x128 .f32) x = (V c main_arg4 : S128x128.Idx → EReal) i := by
  obtain ⟨-, -, e10, e11, -, -⟩ := idx_facts0 t
  unfold iblk0
  rw [View.read_apply]
  show V c main_arg4 _ = V c main_arg4 _
  congr 1
  funext a
  apply Fin.ext
  match a with
  | ⟨0, _⟩ => show win0_1.index t 0 * 128 + 1 * (x 0).val = (i 0).val; rw [e10, h0]; omega
  | ⟨1, _⟩ => show win0_1.index t 1 * 128 + 1 * (x 1).val = (i 1).val; rw [e11, h1]; omega

theorem flushed0_2_eq (c : Dev nD) (t : Fin cfg0.N) :
    (dat0 V c).flushed 2 t = ((cfg0.win 2).blk t).view.read (Elt Ideal) (mm (V c main_arg0) (V c main_arg4)) := by
  show (cfg0.win 2).cut (grid0.coords t) ((dat0 V c).after 2 t) = _
  rw [after0_2]
  unfold out0_2
  rw [View.canon_unit_zero hz0]
  simp only [View.ld_unit_zero (S := S5000x128) hz0, View.ld_unit_zero (S := S128x128) hz0]
  obtain ⟨-, -, -, -, e20, e21⟩ := idx_facts0 t
  funext j
  obtain ⟨p, q, rfl⟩ : ∃ (p : Fin 5000) (q : Fin 128), j = ix2 p q := ⟨j 0, j 1, eq_ix2 j⟩
  show (k0_pay1 (F := Ideal) (iblk0 V c 0 t) (iblk0 V c 1 t)) (ix2 p q)
    = mm (V c main_arg0) (V c main_arg4) (((cfg0.win 2).blk t).view.emb (ix2 p q))
  refine (pay0_apply (iblk0 V c 0 t) (iblk0 V c 1 t) p q).trans ?_
  unfold mm
  refine Finset.sum_congr rfl fun k _ => ?_
  refine congrArg₂ (· * ·) (iblk0_0_apply V c t (ix2 p k) _ ?_ rfl) (iblk0_1_apply V c t (ix2 k q) _ rfl ?_)
  · show win0_2.index t 0 * 5000 + 1 * p.val = 5000 * t.val + p.val
    rw [e20]; omega
  · show win0_2.index t 1 * 128 + 1 * q.val = q.val
    rw [e21]; omega

theorem mem_blk0_2 (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v27).slice (win0_2.rect t)).set ↔ _
  rw [View.set_slice_whole, Rect.mem_set_unit]
  exact Iff.rfl

theorem tiles0_2 (i : S100000x128.Idx) :
    ∃ t : Fin cfg0.N, (cfg0.win 2).flush t = true ∧ i ∈ ((cfg0.win 2).blk t).view.set := by
  have hi0 : (i 0).val < 100000 := idx2_lt0 i
  have hi1 : (i 1).val < 128 := idx2_lt1 i
  have hN : cfg0.N = 20 := N_0
  obtain ⟨t, ht⟩ : ∃ t : Fin cfg0.N, t.val = (i 0).val / 5000 := ⟨⟨(i 0).val / 5000, by rw [hN]; omega⟩, rfl⟩
  obtain ⟨-, -, -, -, e20, e21⟩ := idx_facts0 t
  refine ⟨t, flush0_2 t, ?_⟩
  rw [mem_blk0_2]
  intro a
  match a with
  | ⟨0, _⟩ => show win0_2.index t (0 : Fin 2) * 5000 ≤ (i 0).val ∧ (i 0).val < win0_2.index t (0 : Fin 2) * 5000 + 5000; rw [e20, ht]; omega
  | ⟨1, _⟩ => show win0_2.index t (1 : Fin 2) * 128 ≤ (i 1).val ∧ (i 1).val < win0_2.index t (1 : Fin 2) * 128 + 128; rw [e21]; omega

theorem val0_2 (c : Dev nD) : (dat0 (F := Ideal) V c).arrAt 2 cfg0.N = mm (V c main_arg0) (V c main_arg4) :=
  (dat0 V c).arrAt_eq_of_cover 2 (mm (V c main_arg0) (V c main_arg4)) (fun t _ => flushed0_2_eq V c t) tiles0_2

end Cert.KernelIdeal.Hand

end
-- ==== Proof.KI.Pay1.lean ====
import proofs.«418928_j70858370450169_1_alg».proof.Proof.Gen.KernelIdeal.Skeleton
import Idealize.ShloMosaic.Lib.ValueIdx
import Idealize.ShloMosaic.Lib.ValueLayout
import Idealize.ShloMosaic.PureOps.Ideal.Laws

noncomputable section

open scoped BigOperators
open Idealize.ShloMosaic Idealize.ShloMosaic.ValueIdx

namespace Cert.KernelIdeal.Hand

open Cert.KernelIdeal Cert.KernelIdeal.Gen

theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

theorem lift_axis0 (j : Fin 128) (k : Fin 5000) :
    reduces_S5000x128_S128.lift (ix1 j) k = (ix2 k j : S5000x128.Idx) := by
  funext c
  match c with
  | ⟨0, _⟩ => rfl
  | ⟨1, _⟩ => rfl

theorem colsum_tile_apply (src : FVec Ideal S5000x128 .f32) (hφ : FKind.Formats .f32)
    (hacc : (0x00000000#32 : BitVec 32) = 0x00000000#32) (j : Fin 128) :
    multiReduction .add [0] S128 src 0x00000000#32 reduces_S5000x128_S128 hφ hacc (ix1 j)
      = ∑ r : Fin 5000, src (ix2 r j) := by
  refine (Ideal.multiReduction_add_single src 0x00000000#32 reduces_S5000x128_S128 hφ hacc (ix1 j)).trans ?_
  exact Finset.sum_congr rfl fun k _ => congrArg src (lift_axis0 j k)

theorem k1_pay4_apply (v3 : Vec Ideal S5000x128 .f32) (v5 : Vec Ideal S5000x1 .f32) (v7 : Vec Ideal S5000x128 .f32)
    (v12 : Vec Ideal S1x128 .f32) (r : Fin 5000) (j : Fin 128) :
    k1_pay4 v3 v5 v7 v12 (ix2 r j)
      = max ((v3 (ix2 r j) + v5 (ix2 r 0) * v7 (ix2 r j)) + v12 (ix2 0 j)) 0 := by
  unfold k1_pay4
  simp only [shapeCast_self]
  rw [maximumf_apply, addf_apply, addf_apply, mulf_apply, broadcastTo_a1_ab_apply, broadcastTo_1b_ab_apply,
    broadcast_apply]
  show max _ (Ideal.ofBits .f32 0x00000000#32) = _
  rw [Ideal.ofBits_zero_f32]

theorem k1_pay5_apply (v3 : Vec Ideal S5000x128 .f32) (v5 : Vec Ideal S5000x1 .f32) (v7 : Vec Ideal S5000x128 .f32)
    (v12 : Vec Ideal S1x128 .f32) (v19 : Vec Ideal S1x128 .f32) (j : Fin 128) :
    k1_pay5 v3 v5 v7 v12 v19 (ix2 0 j)
      = v19 (ix2 0 j) + ∑ r : Fin 5000, k1_pay4 v3 v5 v7 v12 (ix2 r j) := by
  unfold k1_pay5
  simp only [shapeCast_self]
  rw [addf_apply, shapeCast_a_1a_apply, colsum_tile_apply]

theorem k1_pay6_apply (v3 : Vec Ideal S5000x128 .f32) (v5 : Vec Ideal S5000x1 .f32) (v7 : Vec Ideal S5000x128 .f32)
    (v12 : Vec Ideal S1x128 .f32) (v26 : Vec Ideal S1x128 .f32) (j : Fin 128) :
    k1_pay6 v3 v5 v7 v12 v26 (ix2 0 j)
      = v26 (ix2 0 j)
        + ∑ r : Fin 5000, k1_pay4 v3 v5 v7 v12 (ix2 r j) * k1_pay4 v3 v5 v7 v12 (ix2 r j) := by
  unfold k1_pay6
  rw [addf_apply, shapeCast_a_1a_apply, colsum_tile_apply]
  simp only [mulf_apply]

theorem k1_pay1_eq (v30 : FVec Ideal S1x128 .f32) : k1_pay1 v30 = v30 := by
  unfold k1_pay1
  exact shapeCast_self _ _

theorem k1_pay1_apply (v30 : FVec Ideal S1x128 .f32) (i : S1x128.Idx) : k1_pay1 v30 i = v30 i := by
  rw [k1_pay1_eq]

theorem k1_pay2_apply (i : S1x128.Idx) : (k1_pay2 (F := Ideal)) i = 0 := by
  unfold k1_pay2
  simp only [shapeCast_self]
  rw [broadcast_apply]
  exact Ideal.ofBits_zero_f32

theorem k1_pay3_apply (i : S1x128.Idx) : (k1_pay3 (F := Ideal)) i = 0 := by
  unfold k1_pay3
  simp only [shapeCast_self]
  rw [broadcast_apply]
  exact Ideal.ofBits_zero_f32

end Cert.KernelIdeal.Hand

end
-- ==== Proof.LibTiles.lean ====
import Mathlib.Algebra.BigOperators.Fin
import Mathlib.Data.Fintype.BigOperators
import Mathlib.Logic.Equiv.Fin.Basic

open scoped BigOperators

namespace Cert.LibTiles

theorem tile_lt {T R t r : ℕ} (ht : t < T) (hr : r < R) : R * t + r < T * R := by
  calc R * t + r < R * t + R := Nat.add_lt_add_left hr _
    _ = R * (t + 1) := (Nat.mul_succ R t).symm
    _ ≤ R * T := Nat.mul_le_mul_left R ht
    _ = T * R := Nat.mul_comm R T

theorem div_lt_of_lt_mul {T R n : ℕ} (h : n < T * R) : n / R < T :=
  Nat.div_lt_of_lt_mul (by rwa [Nat.mul_comm] at h)

theorem tile_pos {T R n : ℕ} (h : n < T * R) : 0 < R := by
  rcases Nat.eq_zero_or_pos R with h0 | h0
  · subst h0; simp at h
  · exact h0

theorem mod_lt_of_lt_mul {T R n : ℕ} (h : n < T * R) : n % R < R := Nat.mod_lt _ (tile_pos h)

theorem eq_tile_add_offset (R n : ℕ) : n = R * (n / R) + n % R := (Nat.div_add_mod n R).symm

theorem tile_of {R t r : ℕ} (hr : r < R) : (R * t + r) / R = t := by
  have hR : 0 < R := Nat.lt_of_le_of_lt (Nat.zero_le r) hr
  rw [Nat.mul_add_div hR, Nat.div_eq_of_lt hr, Nat.add_zero]

theorem offset_of {R t r : ℕ} (hr : r < R) : (R * t + r) % R = r := by
  rw [Nat.mul_add_mod, Nat.mod_eq_of_lt hr]

theorem tile_unique {R t t' r r' : ℕ} (hr : r < R) (hr' : r' < R) (h : R * t + r = R * t' + r') :
    t = t' ∧ r = r' := by
  have ht : t = t' := by rw [← tile_of (t := t) hr, h, tile_of hr']
  subst ht
  exact ⟨rfl, Nat.add_left_cancel h⟩

theorem exists_tile {T R n : ℕ} (h : n < T * R) : ∃ t r, t < T ∧ r < R ∧ n = R * t + r :=
  ⟨n / R, n % R, div_lt_of_lt_mul h, mod_lt_of_lt_mul h, eq_tile_add_offset R n⟩

section Sums

variable {M : Type*} [AddCommMonoid M]

theorem sum_tiles_of {T R N : ℕ} (h : T * R = N) (f : Fin N → M)
    (hlt : ∀ (t : Fin T) (r : Fin R), R * t.val + r.val < N) :
    ∑ t : Fin T, ∑ r : Fin R, f ⟨R * t.val + r.val, hlt t r⟩ = ∑ n : Fin N, f n := by
  subst h
  rw [← Equiv.sum_comp finProdFinEquiv f, Fintype.sum_prod_type]
  refine Finset.sum_congr rfl fun t _ => Finset.sum_congr rfl fun r _ => congrArg f (Fin.ext ?_)
  simp only [finProdFinEquiv_apply_val]
  exact Nat.add_comm _ _

theorem sum_tiles {T R : ℕ} (f : Fin (T * R) → M) :
    ∑ t : Fin T, ∑ r : Fin R, f ⟨R * t.val + r.val, tile_lt t.isLt r.isLt⟩ = ∑ n : Fin (T * R), f n :=
  sum_tiles_of rfl f _

theorem sum_tiles_eq {T R N : ℕ} (h : T * R = N) (f : Fin N → M) :
    ∑ t : Fin T, ∑ r : Fin R, f ⟨R * t.val + r.val, h ▸ tile_lt t.isLt r.isLt⟩ = ∑ n : Fin N, f n :=
  sum_tiles_of h f _

theorem sum_tiles_nat {T R N : ℕ} (h : T * R = N) (g : ℕ → M) :
    ∑ t : Fin T, ∑ r : Fin R, g (R * t.val + r.val) = ∑ n : Fin N, g n.val :=
  sum_tiles_of h (fun n => g n.val) (fun t r => h ▸ tile_lt t.isLt r.isLt)

theorem acc_range {T : ℕ} (acc s : ℕ → M) (z : M) (h0 : acc 0 = z + s 0)
    (hstep : ∀ n, n + 1 < T → acc (n + 1) = acc n + s (n + 1)) :
    ∀ n, n < T → acc n = z + ∑ t ∈ Finset.range (n + 1), s t := by
  intro n
  induction n with
  | zero => intro _; rw [h0, Finset.sum_range_one]
  | succ n ih =>
    intro hn
    rw [hstep n hn, ih (Nat.lt_of_succ_lt hn), Finset.sum_range_succ _ (n + 1), add_assoc]

theorem acc_range' (acc s : ℕ → M) (z : M) (h0 : acc 0 = z + s 0)
    (hstep : ∀ n, acc (n + 1) = acc n + s (n + 1)) (n : ℕ) :
    acc n = z + ∑ t ∈ Finset.range (n + 1), s t :=
  acc_range (T := n + 1) acc s z h0 (fun m _ => hstep m) n (Nat.lt_succ_self n)

theorem pre_range {T : ℕ} (acc s : ℕ → M) (z : M) (h0 : acc 0 = z)
    (hstep : ∀ n, n < T → acc (n + 1) = acc n + s n) :
    ∀ n, n ≤ T → acc n = z + ∑ t ∈ Finset.range n, s t := by
  intro n
  induction n with
  | zero => intro _; rw [h0, Finset.sum_range_zero, add_zero]
  | succ n ih =>
    intro hn
    rw [hstep n hn, ih (Nat.le_of_succ_le hn), Finset.sum_range_succ, add_assoc]

theorem acc_fin {T : ℕ} (acc s : Fin T → M) (z : M)
    (h0 : ∀ h : 0 < T, acc ⟨0, h⟩ = z + s ⟨0, h⟩)
    (hstep : ∀ (n : ℕ) (h : n + 1 < T), acc ⟨n + 1, h⟩ = acc ⟨n, Nat.lt_of_succ_lt h⟩ + s ⟨n + 1, h⟩)
    (t : Fin T) : acc t = z + ∑ u : Fin (t.val + 1), s ⟨u.val, Nat.lt_of_lt_of_le u.isLt t.isLt⟩ := by
  obtain ⟨n, hn⟩ := t
  induction n with
  | zero => rw [h0 hn]; simp
  | succ n ih =>
    rw [hstep n hn, ih (Nat.lt_of_succ_lt hn), Fin.sum_univ_castSucc (n := n + 1), add_assoc]
    rfl

theorem acc_fin_last {T : ℕ} (acc s : Fin T → M) (z : M)
    (h0 : ∀ h : 0 < T, acc ⟨0, h⟩ = z + s ⟨0, h⟩)
    (hstep : ∀ (n : ℕ) (h : n + 1 < T), acc ⟨n + 1, h⟩ = acc ⟨n, Nat.lt_of_succ_lt h⟩ + s ⟨n + 1, h⟩)
    (hT : 0 < T) : acc ⟨T - 1, Nat.sub_lt hT Nat.one_pos⟩ = z + ∑ t : Fin T, s t := by
  rw [acc_fin acc s z h0 hstep]
  obtain ⟨k, rfl⟩ : ∃ k, T = k + 1 := ⟨T - 1, (Nat.sub_add_cancel hT).symm⟩
  rfl

theorem sum_range_eq_sum_fin (T : ℕ) (s : ℕ → M) : ∑ t ∈ Finset.range T, s t = ∑ t : Fin T, s t.val :=
  Finset.sum_range s

end Sums

end Cert.LibTiles
-- ==== Proof.KI.Val1.lean ====
import proofs.«418928_j70858370450169_1_alg».proof.Proof.KI.Reg1
import proofs.«418928_j70858370450169_1_alg».proof.Proof.KI.Pay1
import proofs.«418928_j70858370450169_1_alg».proof.Proof.Spec
import proofs.«418928_j70858370450169_1_alg».proof.Proof.LibTiles
import Idealize.ShloMosaic.Lib.Pipeline.Value
import Idealize.ShloMosaic.Lib.ValueIdx
import Idealize.ShloMosaic.PureOps.Ideal.Laws
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)
open Cert.Spec
open scoped BigOperators
open Idealize.ShloMosaic.ValueIdx

variable (V : (c : Dev nD) → (b : Ref sig .tc) → Buf (Elt Ideal) ((c : Thread nD τ).loc b))

theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0 :=
  (by decide +kernel : ∀ t : Fin grid1.N, _)

theorem iblk1_0_apply (c : Dev nD) (t : Fin cfg1.N) (x : S5000x128.Idx) (i : S100000x128.Idx)
    (h0 : (i 0).val = 5000 * t.val + (x 0).val) (h1 : (i 1).val = (x 1).val) :
    (iblk1 V c 0 t : Vec Ideal S5000x128 .f32) x = (V c main_v40 : S100000x128.Idx → EReal) i := by
  have e0 : win1_0.index t (0 : Fin 2) = t.val := (idx_facts1 t).1
  have e1 : win1_0.index t (1 : Fin 2) = 0 := (idx_facts1 t).2.1
  unfold iblk1
  rw [View.read_apply]
  show V c main_v40 _ = V c main_v40 _
  congr 1
  funext a
  apply Fin.ext
  match a with
  | ⟨0, _⟩ => show win1_0.index t 0 * 5000 + 1 * (x 0).val = (i 0).val; rw [e0, h0]; omega
  | ⟨1, _⟩ => show win1_0.index t 1 * 128 + 1 * (x 1).val = (i 1).val; rw [e1, h1]; omega

theorem iblk1_1_apply (c : Dev nD) (t : Fin cfg1.N) (x : S5000x128.Idx) (i : S100000x128.Idx)
    (h0 : (i 0).val = 5000 * t.val + (x 0).val) (h1 : (i 1).val = (x 1).val) :
    (iblk1 V c 1 t : Vec Ideal S5000x128 .f32) x = (V c main_v27 : S100000x128.Idx → EReal) i := by
  have e0 : win1_1.index t (0 : Fin 2) = t.val := (idx_facts1 t).2.2.1
  have e1 : win1_1.index t (1 : Fin 2) = 0 := (idx_facts1 t).2.2.2.1
  unfold iblk1
  rw [View.read_apply]
  show V c main_v27 _ = V c main_v27 _
  congr 1
  funext a
  apply Fin.ext
  match a with
  | ⟨0, _⟩ => show win1_1.index t 0 * 5000 + 1 * (x 0).val = (i 0).val; rw [e0, h0]; omega
  | ⟨1, _⟩ => show win1_1.index t 1 * 128 + 1 * (x 1).val = (i 1).val; rw [e1, h1]; omega

theorem iblk1_2_apply (c : Dev nD) (t : Fin cfg1.N) (x : S5000x1.Idx) (i : S100000x1.Idx)
    (h0 : (i 0).val = 5000 * t.val + (x 0).val) (h1 : (i 1).val = (x 1).val) :
    (iblk1 V c 2 t : Vec Ideal S5000x1 .f32) x = (V c main_v41 : S100000x1.Idx → EReal) i := by
  have e0 : win1_2.index t (0 : Fin 2) = t.val := (idx_facts1 t).2.2.2.2.1
  have e1 : win1_2.index t (1 : Fin 2) = 0 := (idx_facts1 t).2.2.2.2.2.1
  unfold iblk1
  rw [View.read_apply]
  show V c main_v41 _ = V c main_v41 _
  congr 1
  funext a
  apply Fin.ext
  match a with
  | ⟨0, _⟩ => show win1_2.index t 0 * 5000 + 1 * (x 0).val = (i 0).val; rw [e0, h0]; omega
  | ⟨1, _⟩ => show win1_2.index t 1 * 1 + 1 * (x 1).val = (i 1).val; rw [e1, h1]; omega

theorem iblk1_3_apply (c : Dev nD) (t : Fin cfg1.N) (x : S1x128.Idx) (i : S1x128.Idx)
    (h0 : (i 0).val = (x 0).val) (h1 : (i 1).val = (x 1).val) :
    (iblk1 V c 3 t : Vec Ideal S1x128 .f32) x = (V c main_v42 : S1x128.Idx → EReal) i := by
  have e0 : win1_3.index t (0 : Fin 2) = 0 := (idx_facts1 t).2.2.2.2.2.2.1
  have e1 : win1_3.index t (1 : Fin 2) = 0 := (idx_facts1 t).2.2.2.2.2.2.2.1
  unfold iblk1
  rw [View.read_apply]
  show V c main_v42 _ = V c main_v42 _
  congr 1
  funext a
  apply Fin.ext
  match a with
  | ⟨0, _⟩ => show win1_3.index t 0 * 1 + 1 * (x 0).val = (i 0).val; rw [e0, h0]; omega
  | ⟨1, _⟩ => show win1_3.index t 1 * 128 + 1 * (x 1).val = (i 1).val; rw [e1, h1]; omega

theorem act1_apply (c : Dev nD) (t : Fin cfg1.N) (r : Fin 5000) (j : Fin 128) (i : S100000x128.Idx)
    (h0 : (i 0).val = 5000 * t.val + r.val) (h1 : (i 1).val = j.val) :
    k1_pay4 (F := Ideal) (iblk1 V c 0 t) (iblk1 V c 2 t) (iblk1 V c 1 t) (iblk1 V c 3 t) (ix2 r j) = comb (V c main_v40) (V c main_v27) (V c main_v41) (V c main_v42) i := by
  refine (k1_pay4_apply (iblk1 V c 0 t) (iblk1 V c 2 t) (iblk1 V c 1 t) (iblk1 V c 3 t) r j).trans ?_
  unfold comb
  refine congrArg (fun z => max z 0) ?_
  refine congrArg₂ (· + ·) (congrArg₂ (· + ·) (iblk1_0_apply V c t (ix2 r j) i h0 h1)
    (congrArg₂ (· * ·) (iblk1_2_apply V c t (ix2 r (0 : Fin 1)) (ix2 (i 0) (0 : Fin 1)) h0 rfl) (iblk1_1_apply V c t (ix2 r j) i h0 h1)))
    (iblk1_3_apply V c t (ix2 (0 : Fin 1) j) (ix2 (0 : Fin 1) (i 1)) rfl h1)

abbrev row1 (t : Fin cfg1.N) (r : Fin 5000) : Fin 100000 :=
  ⟨5000 * t.val + r.val, by have := t.isLt; have hN : cfg1.N = 20 := N_1; omega⟩

theorem flushed1_4_eq (c : Dev nD) (t : Fin cfg1.N) :
    (dat1 V c).flushed 4 t = ((cfg1.win 4).blk t).view.read (Elt Ideal) (comb (V c main_v40) (V c main_v27) (V c main_v41) (V c main_v42)) := by
  show (cfg1.win 4).cut (grid1.coords t) ((dat1 V c).after 4 t) = _
  rw [after1_4]
  have e0 : win1_4.index t (0 : Fin 2) = t.val := (idx_facts1 t).2.2.2.2.2.2.2.2.1
  have e1 : win1_4.index t (1 : Fin 2) = 0 := (idx_facts1 t).2.2.2.2.2.2.2.2.2.1
  funext y
  obtain ⟨r, j, rfl⟩ : ∃ (r : Fin 5000) (j : Fin 128), y = ix2 r j := ⟨y 0, y 1, eq_ix2 y⟩
  show k1_pay4 (F := Ideal) (iblk1 V c 0 t) (iblk1 V c 2 t) (iblk1 V c 1 t) (iblk1 V c 3 t) (ix2 r j)
    = comb (V c main_v40) (V c main_v27) (V c main_v41) (V c main_v42) (((cfg1.win 4).blk t).view.emb (ix2 r j))
  refine act1_apply V c t r j _ ?_ ?_
  · show win1_4.index t 0 * 5000 + 1 * r.val = 5000 * t.val + r.val
    rw [e0]; omega
  · show win1_4.index t 1 * 128 + 1 * j.val = j.val
    rw [e1]; omega

theorem mem_blk1_4 (t : Fin cfg1.N) (i : S100000x128.Idx) :
    i ∈ ((cfg1.win 4).blk t).view.set ↔ ∀ a : Fin 2, win1_4.index t a * S5000x128.size a ≤ (i a).val ∧ (i a).val < win1_4.index t a * S5000x128.size a + S5000x128.size a := by
  show i ∈ ((View.whole main_v43_0).slice (win1_4.rect t)).set ↔ _
  rw [View.set_slice_whole, Rect.mem_set_unit]
  exact Iff.rfl

theorem tiles1_4 (i : S100000x128.Idx) :
    ∃ t : Fin cfg1.N, (cfg1.win 4).flush t = true ∧ i ∈ ((cfg1.win 4).blk t).view.set := by
  have hi0 : (i 0).val < 100000 := idx2_lt0 i
  have hi1 : (i 1).val < 128 := idx2_lt1 i
  have hN : cfg1.N = 20 := N_1
  obtain ⟨t, ht⟩ : ∃ t : Fin cfg1.N, t.val = (i 0).val / 5000 := ⟨⟨(i 0).val / 5000, by rw [hN]; omega⟩, rfl⟩
  have e0 : win1_4.index t (0 : Fin 2) = t.val := (idx_facts1 t).2.2.2.2.2.2.2.2.1
  have e1 : win1_4.index t (1 : Fin 2) = 0 := (idx_facts1 t).2.2.2.2.2.2.2.2.2.1
  refine ⟨t, flush1_4 t, ?_⟩
  rw [mem_blk1_4]
  intro a
  match a with
  | ⟨0, _⟩ => show win1_4.index t (0 : Fin 2) * 5000 ≤ (i 0).val ∧ (i 0).val < win1_4.index t (0 : Fin 2) * 5000 + 5000; rw [e0, ht]; omega
  | ⟨1, _⟩ => show win1_4.index t (1 : Fin 2) * 128 ≤ (i 1).val ∧ (i 1).val < win1_4.index t (1 : Fin 2) * 128 + 128; rw [e1]; omega

theorem val1_4 (c : Dev nD) : (dat1 (F := Ideal) V c).arrAt 4 cfg1.N = comb (V c main_v40) (V c main_v27) (V c main_v41) (V c main_v42) :=
  (dat1 V c).arrAt_eq_of_cover 4 (comb (V c main_v40) (V c main_v27) (V c main_v41) (V c main_v42)) (fun t _ => flushed1_4_eq V c t) tiles1_4

theorem rows1 : cfg1.N * 5000 = 100000 := by rw [show cfg1.N = 20 from N_1]

abbrev last1 : Fin cfg1.N := ⟨cfg1.N - 1, by have hN : cfg1.N = 20 := N_1; omega⟩

theorem acc1_fst_last (c : Dev nD) (j : Fin 128) (t : Fin cfg1.N) (ht : t = last1) :
    (acc1 V c t.val t.isLt).1 (ix2 (0 : Fin 1) j) = ∑ n : Fin 100000, comb (V c main_v40) (V c main_v27) (V c main_v41) (V c main_v42) (ix2 n j) := by
  subst ht
  have hN : cfg1.N = 20 := N_1
  have h := Cert.LibTiles.acc_fin_last (T := cfg1.N)
    (fun t : Fin cfg1.N => (acc1 V c t.val t.isLt).1 (ix2 (0 : Fin 1) j))
    (fun t : Fin cfg1.N => ∑ r : Fin 5000, k1_pay4 (F := Ideal) (iblk1 V c 0 t) (iblk1 V c 2 t) (iblk1 V c 1 t) (iblk1 V c 3 t) (ix2 r j))
    (0 : EReal)
    (fun h0 => by
      show k1_pay5 (F := Ideal) (iblk1 V c 0 ⟨0, h0⟩) (iblk1 V c 2 ⟨0, h0⟩) (iblk1 V c 1 ⟨0, h0⟩) (iblk1 V c 3 ⟨0, h0⟩) (k1_pay2 (F := Ideal)) (ix2 (0 : Fin 1) j) = _
      refine (k1_pay5_apply (iblk1 V c 0 ⟨0, h0⟩) (iblk1 V c 2 ⟨0, h0⟩) (iblk1 V c 1 ⟨0, h0⟩) (iblk1 V c 3 ⟨0, h0⟩) (k1_pay2 (F := Ideal)) j).trans ?_
      rw [k1_pay2_apply])
    (fun n hn => by
      show k1_pay5 (F := Ideal) (iblk1 V c 0 ⟨n + 1, hn⟩) (iblk1 V c 2 ⟨n + 1, hn⟩) (iblk1 V c 1 ⟨n + 1, hn⟩) (iblk1 V c 3 ⟨n + 1, hn⟩) (acc1 V c n (Nat.lt_of_succ_lt hn)).1 (ix2 (0 : Fin 1) j) = _
      exact k1_pay5_apply (iblk1 V c 0 ⟨n + 1, hn⟩) (iblk1 V c 2 ⟨n + 1, hn⟩) (iblk1 V c 1 ⟨n + 1, hn⟩) (iblk1 V c 3 ⟨n + 1, hn⟩) (acc1 V c n (Nat.lt_of_succ_lt hn)).1 j)
    (by omega)
  refine h.trans ?_
  rw [zero_add]
  rw [← Cert.LibTiles.sum_tiles_of (T := cfg1.N) (R := 5000) rows1 (fun n : Fin 100000 => comb (V c main_v40) (V c main_v27) (V c main_v41) (V c main_v42) (ix2 n j))
    (fun t r => (row1 t r).isLt)]
  refine Finset.sum_congr rfl fun t _ => Finset.sum_congr rfl fun r _ => ?_
  exact act1_apply V c t r j (ix2 (row1 t r) j) rfl rfl

theorem acc1_snd_last (c : Dev nD) (j : Fin 128) (t : Fin cfg1.N) (ht : t = last1) :
    (acc1 V c t.val t.isLt).2 (ix2 (0 : Fin 1) j)
      = ∑ n : Fin 100000, comb (V c main_v40) (V c main_v27) (V c main_v41) (V c main_v42) (ix2 n j) * comb (V c main_v40) (V c main_v27) (V c main_v41) (V c main_v42) (ix2 n j) := by
  subst ht
  have hN : cfg1.N = 20 := N_1
  have h := Cert.LibTiles.acc_fin_last (T := cfg1.N)
    (fun t : Fin cfg1.N => (acc1 V c t.val t.isLt).2 (ix2 (0 : Fin 1) j))
    (fun t : Fin cfg1.N => ∑ r : Fin 5000, k1_pay4 (F := Ideal) (iblk1 V c 0 t) (iblk1 V c 2 t) (iblk1 V c 1 t) (iblk1 V c 3 t) (ix2 r j) * k1_pay4 (F := Ideal) (iblk1 V c 0 t) (iblk1 V c 2 t) (iblk1 V c 1 t) (iblk1 V c 3 t) (ix2 r j))
    (0 : EReal)
    (fun h0 => by
      show k1_pay1 (F := Ideal) (k1_pay6 (F := Ideal) (iblk1 V c 0 ⟨0, h0⟩) (iblk1 V c 2 ⟨0, h0⟩) (iblk1 V c 1 ⟨0, h0⟩) (iblk1 V c 3 ⟨0, h0⟩) (k1_pay3 (F := Ideal))) (ix2 (0 : Fin 1) j) = _
      rw [k1_pay1_eq]
      refine (k1_pay6_apply (iblk1 V c 0 ⟨0, h0⟩) (iblk1 V c 2 ⟨0, h0⟩) (iblk1 V c 1 ⟨0, h0⟩) (iblk1 V c 3 ⟨0, h0⟩) (k1_pay3 (F := Ideal)) j).trans ?_
      rw [k1_pay3_apply])
    (fun n hn => by
      show k1_pay1 (F := Ideal) (k1_pay6 (F := Ideal) (iblk1 V c 0 ⟨n + 1, hn⟩) (iblk1 V c 2 ⟨n + 1, hn⟩) (iblk1 V c 1 ⟨n + 1, hn⟩) (iblk1 V c 3 ⟨n + 1, hn⟩) (acc1 V c n (Nat.lt_of_succ_lt hn)).2) (ix2 (0 : Fin 1) j) = _
      rw [k1_pay1_eq]
      exact k1_pay6_apply (iblk1 V c 0 ⟨n + 1, hn⟩) (iblk1 V c 2 ⟨n + 1, hn⟩) (iblk1 V c 1 ⟨n + 1, hn⟩) (iblk1 V c 3 ⟨n + 1, hn⟩) (acc1 V c n (Nat.lt_of_succ_lt hn)).2 j)
    (by omega)
  refine h.trans ?_
  rw [zero_add]
  rw [← Cert.LibTiles.sum_tiles_of (T := cfg1.N) (R := 5000) rows1 (fun n : Fin 100000 => comb (V c main_v40) (V c main_v27) (V c main_v41) (V c main_v42) (ix2 n j) * comb (V c main_v40) (V c main_v27) (V c main_v41) (V c main_v42) (ix2 n j))
    (fun t r => (row1 t r).isLt)]
  refine Finset.sum_congr rfl fun t _ => Finset.sum_congr rfl fun r _ => ?_
  rw [act1_apply V c t r j (ix2 (row1 t r) j) rfl rfl]

theorem flush1_last (t : Fin cfg1.N) (h : t.val % 20 = 19) : t = last1 := by
  have hN : cfg1.N = 20 := N_1
  exact Fin.ext (by show t.val = cfg1.N - 1; have := t.isLt; omega)

theorem whole1_5 (t : Fin cfg1.N) (G : Vec Ideal S1x128 .f32) :
    (cfg1.win 5).cut (grid1.coords t) G = ((cfg1.win 5).blk t).view.read (Elt Ideal) G := by
  have e0 : win1_5.index t (0 : Fin 2) = 0 := (idx_facts1 t).2.2.2.2.2.2.2.2.2.2.1
  have e1 : win1_5.index t (1 : Fin 2) = 0 := (idx_facts1 t).2.2.2.2.2.2.2.2.2.2.2.1
  have hz' : (fun a => win1_5.index t a * main_v43_1.ty.shape.size a) = fun _ => 0 := funext fun a => by
    match a with
    | ⟨0, _⟩ => show win1_5.index t 0 * 1 = 0; rw [e0]
    | ⟨1, _⟩ => show win1_5.index t 1 * 128 = 0; rw [e1]
  exact (Memref.read_access_unit_zero (Elt Ideal) main_v43_1 hz' (fun a => by rw [congrFun hz' a]; simp) G).symm

theorem flushed1_5_eq (c : Dev nD) (t : Fin cfg1.N) (hf : (cfg1.win 5).flush t = true) :
    (dat1 V c).flushed 5 t = ((cfg1.win 5).blk t).view.read (Elt Ideal) (colsum (comb (V c main_v40) (V c main_v27) (V c main_v41) (V c main_v42))) := by
  have ht : t = last1 := flush1_last t ((flush1_5 t).mp hf)
  have hG : (acc1 V c t.val t.isLt).1 = colsum (comb (V c main_v40) (V c main_v27) (V c main_v41) (V c main_v42)) := by
    funext y
    obtain ⟨u, j, rfl⟩ : ∃ (u : Fin 1) (j : Fin 128), y = ix2 u j := ⟨y 0, y 1, eq_ix2 y⟩
    obtain rfl : u = 0 := Subsingleton.elim _ _
    unfold colsum
    exact acc1_fst_last V c j t ht
  show (cfg1.win 5).cut (grid1.coords t) ((dat1 V c).after 5 t) = _
  rw [after1_5, hG]
  exact whole1_5 t _

theorem tiles1_5 (i : S1x128.Idx) :
    ∃ t : Fin cfg1.N, (cfg1.win 5).flush t = true ∧ i ∈ ((cfg1.win 5).blk t).view.set := by
  have hi0 : (i 0).val < 1 := idx2_lt0 i
  have hi1 : (i 1).val < 128 := idx2_lt1 i
  have hN : cfg1.N = 20 := N_1
  have e0 : win1_5.index last1 (0 : Fin 2) = 0 := (idx_facts1 last1).2.2.2.2.2.2.2.2.2.2.1
  have e1 : win1_5.index last1 (1 : Fin 2) = 0 := (idx_facts1 last1).2.2.2.2.2.2.2.2.2.2.2.1
  refine ⟨last1, (flush1_5 last1).mpr (by show (cfg1.N - 1) % 20 = 19; omega), ?_⟩
  show i ∈ ((View.whole main_v43_1).slice (win1_5.rect last1)).set
  rw [View.set_slice_whole, Rect.mem_set_unit]
  intro a
  match a with
  | ⟨0, _⟩ => show win1_5.index last1 (0 : Fin 2) * 1 ≤ (i 0).val ∧ (i 0).val < win1_5.index last1 (0 : Fin 2) * 1 + 1; rw [e0]; omega
  | ⟨1, _⟩ => show win1_5.index last1 (1 : Fin 2) * 128 ≤ (i 1).val ∧ (i 1).val < win1_5.index last1 (1 : Fin 2) * 128 + 128; rw [e1]; omega

theorem val1_5 (c : Dev nD) : (dat1 (F := Ideal) V c).arrAt 5 cfg1.N = colsum (comb (V c main_v40) (V c main_v27) (V c main_v41) (V c main_v42)) :=
  (dat1 V c).arrAt_eq_of_cover 5 (colsum (comb (V c main_v40) (V c main_v27) (V c main_v41) (V c main_v42))) (flushed1_5_eq V c) tiles1_5

theorem whole1_6 (t : Fin cfg1.N) (G : Vec Ideal S1x128 .f32) :
    (cfg1.win 6).cut (grid1.coords t) G = ((cfg1.win 6).blk t).view.read (Elt Ideal) G := by
  have e0 : win1_6.index t (0 : Fin 2) = 0 := (idx_facts1 t).2.2.2.2.2.2.2.2.2.2.2.2.1
  have e1 : win1_6.index t (1 : Fin 2) = 0 := (idx_facts1 t).2.2.2.2.2.2.2.2.2.2.2.2.2
  have hz' : (fun a => win1_6.index t a * main_v43_2.ty.shape.size a) = fun _ => 0 := funext fun a => by
    match a with
    | ⟨0, _⟩ => show win1_6.index t 0 * 1 = 0; rw [e0]
    | ⟨1, _⟩ => show win1_6.index t 1 * 128 = 0; rw [e1]
  exact (Memref.read_access_unit_zero (Elt Ideal) main_v43_2 hz' (fun a => by rw [congrFun hz' a]; simp) G).symm

theorem flushed1_6_eq (c : Dev nD) (t : Fin cfg1.N) (hf : (cfg1.win 6).flush t = true) :
    (dat1 V c).flushed 6 t = ((cfg1.win 6).blk t).view.read (Elt Ideal) (colsumsq (comb (V c main_v40) (V c main_v27) (V c main_v41) (V c main_v42))) := by
  have ht : t = last1 := flush1_last t ((flush1_6 t).mp hf)
  have hG : (acc1 V c t.val t.isLt).2 = colsumsq (comb (V c main_v40) (V c main_v27) (V c main_v41) (V c main_v42)) := by
    funext y
    obtain ⟨u, j, rfl⟩ : ∃ (u : Fin 1) (j : Fin 128), y = ix2 u j := ⟨y 0, y 1, eq_ix2 y⟩
    obtain rfl : u = 0 := Subsingleton.elim _ _
    unfold colsumsq
    exact acc1_snd_last V c j t ht
  show (cfg1.win 6).cut (grid1.coords t) ((dat1 V c).after 6 t) = _
  rw [after1_6, hG]
  exact whole1_6 t _

theorem tiles1_6 (i : S1x128.Idx) :
    ∃ t : Fin cfg1.N, (cfg1.win 6).flush t = true ∧ i ∈ ((cfg1.win 6).blk t).view.set := by
  have hi0 : (i 0).val < 1 := idx2_lt0 i
  have hi1 : (i 1).val < 128 := idx2_lt1 i
  have hN : cfg1.N = 20 := N_1
  have e0 : win1_6.index last1 (0 : Fin 2) = 0 := (idx_facts1 last1).2.2.2.2.2.2.2.2.2.2.2.2.1
  have e1 : win1_6.index last1 (1 : Fin 2) = 0 := (idx_facts1 last1).2.2.2.2.2.2.2.2.2.2.2.2.2
  refine ⟨last1, (flush1_6 last1).mpr (by show (cfg1.N - 1) % 20 = 19; omega), ?_⟩
  show i ∈ ((View.whole main_v43_2).slice (win1_6.rect last1)).set
  rw [View.set_slice_whole, Rect.mem_set_unit]
  intro a
  match a with
  | ⟨0, _⟩ => show win1_6.index last1 (0 : Fin 2) * 1 ≤ (i 0).val ∧ (i 0).val < win1_6.index last1 (0 : Fin 2) * 1 + 1; rw [e0]; omega
  | ⟨1, _⟩ => show win1_6.index last1 (1 : Fin 2) * 128 ≤ (i 1).val ∧ (i 1).val < win1_6.index last1 (1 : Fin 2) * 128 + 128; rw [e1]; omega

theorem val1_6 (c : Dev nD) : (dat1 (F := Ideal) V c).arrAt 6 cfg1.N = colsumsq (comb (V c main_v40) (V c main_v27) (V c main_v41) (V c main_v42)) :=
  (dat1 V c).arrAt_eq_of_cover 6 (colsumsq (comb (V c main_v40) (V c main_v27) (V c main_v41) (V c main_v42))) (flushed1_6_eq V c) tiles1_6

end Cert.KernelIdeal.Hand

end
-- ==== Proof.KI.Pay2.lean ====
import proofs.«418928_j70858370450169_1_alg».proof.Proof.Gen.KernelIdeal.Skeleton
import proofs.«418928_j70858370450169_1_alg».proof.Proof.Spec
import Idealize.ShloMosaic.Lib.Pipeline.Value
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)

section Value

open Cert.Spec
open Idealize.ShloMosaic.ValueIdx

theorem val2_hz : (![0, 0] : Fin 2 → Nat) = fun _ => 0 := funext fun a => by fin_cases a <;> rfl

theorem val2_pay (x0 : Vec Ideal S5000x128 .f32) (x1 : Vec Ideal S1x128 .f32) (x2 : Vec Ideal S1x128 .f32) (r : Fin 5000) (j : Fin 128) :
    (k2_pay1 (F := Ideal) x0 x1 x2) (ix2 r j) = x0 (ix2 r j) * x1 (ix2 (0 : Fin 1) j) + x2 (ix2 (0 : Fin 1) j) := by
  unfold k2_pay1
  show (shapeCast S5000x128 x0 shapeCasts_S5000x128_S5000x128) (ix2 r j)
        * (broadcastTo S5000x128 (shapeCast S1x128 x1 shapeCasts_S1x128_S1x128) broadcasts_S1x128_S5000x128) (ix2 r j)
      + (broadcastTo S5000x128 (shapeCast S1x128 x2 shapeCasts_S1x128_S1x128) broadcasts_S1x128_S5000x128) (ix2 r j) = _
  rw [shapeCast_self, shapeCast_self, shapeCast_self, broadcastTo_1b_ab_apply, broadcastTo_1b_ab_apply]

end Value

end Cert.KernelIdeal.Hand

end
-- ==== Proof.KI.Val2.lean ====
import proofs.«418928_j70858370450169_1_alg».proof.Proof.KI.Reg2
import proofs.«418928_j70858370450169_1_alg».proof.Proof.KI.Pay2
import proofs.«418928_j70858370450169_1_alg».proof.Proof.Spec
import Idealize.ShloMosaic.Lib.Pipeline.Value
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)

section Value

open Cert.Spec
open Idealize.ShloMosaic.ValueIdx

theorem val2_idx : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

variable (V : (c : Dev nD) → (b : Ref sig .tc) → Buf (Elt Ideal) ((c : Thread nD τ).loc b))

abbrev val2_act (c : Dev nD) : SNH.Idx → EReal := V c main_v43_0
abbrev val2_scale (c : Dev nD) : S1H.Idx → EReal := V c main_v58
abbrev val2_shift (c : Dev nD) : S1H.Idx → EReal := V c main_v59

theorem val2_flushed (c : Dev nD) (t : Fin cfg2.N) :
    (dat2 (F := Ideal) V c).flushed 3 t
      = ((cfg2.win 3).blk t).view.read (Elt Ideal) (affine (V c main_v43_0) (V c main_v58) (V c main_v59)) := by
  show (cfg2.win 3).cut (grid2.coords t) ((dat2 (F := Ideal) V c).after 3 t) = _
  rw [after2_3]
  unfold out2_3
  rw [View.canon_unit_zero val2_hz]
  simp only [View.ld_unit_zero (S := S5000x128) val2_hz, View.ld_unit_zero (S := S1x128) val2_hz]
  obtain ⟨e0, e1, e2, e3, e4, e5, e6, e7⟩ := val2_idx t
  funext y
  obtain ⟨r, j, rfl⟩ : ∃ (r : Fin 5000) (j : Fin 128), y = ix2 r j := ⟨y 0, y 1, eq_ix2 y⟩
  refine (val2_pay (iblk2 V c 0 t) (iblk2 V c 1 t) (iblk2 V c 2 t) r j).trans ?_

  show val2_act V c (((cfg2.win 0).blk t).view.emb (ix2 r j)) * val2_scale V c (((cfg2.win 1).blk t).view.emb (ix2 (0 : Fin 1) j))
      + val2_shift V c (((cfg2.win 2).blk t).view.emb (ix2 (0 : Fin 1) j))
    = affine (val2_act V c) (val2_scale V c) (val2_shift V c) (((cfg2.win 3).blk t).view.emb (ix2 r j))
  have h0 : ((cfg2.win 0).blk t).view.emb (ix2 r j) = ((cfg2.win 3).blk t).view.emb (ix2 r j) := by
    funext a; apply Fin.ext
    match a with
    | ⟨0, _⟩ => show win2_0.index t (0 : Fin 2) * 5000 + 1 * r.val = win2_3.index t (0 : Fin 2) * 5000 + 1 * r.val; omega
    | ⟨1, _⟩ => show win2_0.index t (1 : Fin 2) * 128 + 1 * j.val = win2_3.index t (1 : Fin 2) * 128 + 1 * j.val; omega
  have h1 : ((cfg2.win 1).blk t).view.emb (ix2 (0 : Fin 1) j) = ix2 (0 : Fin 1) ((((cfg2.win 3).blk t).view.emb (ix2 r j)) 1) := by
    funext a; apply Fin.ext
    match a with
    | ⟨0, _⟩ => show win2_1.index t (0 : Fin 2) * 1 + 1 * 0 = 0; omega
    | ⟨1, _⟩ => show win2_1.index t (1 : Fin 2) * 128 + 1 * j.val = win2_3.index t (1 : Fin 2) * 128 + 1 * j.val; omega
  have h2 : ((cfg2.win 2).blk t).view.emb (ix2 (0 : Fin 1) j) = ix2 (0 : Fin 1) ((((cfg2.win 3).blk t).view.emb (ix2 r j)) 1) := by
    funext a; apply Fin.ext
    match a with
    | ⟨0, _⟩ => show win2_2.index t (0 : Fin 2) * 1 + 1 * 0 = 0; omega
    | ⟨1, _⟩ => show win2_2.index t (1 : Fin 2) * 128 + 1 * j.val = win2_3.index t (1 : Fin 2) * 128 + 1 * j.val; omega
  rw [h0, h1, h2]
  rfl

theorem val2_mem (t : Fin cfg2.N) (i : S100000x128.Idx) :
    i ∈ ((cfg2.win 3).blk t).view.set ↔ ∀ a : Fin 2, win2_3.index t a * S5000x128.size a ≤ (i a).val ∧ (i a).val < win2_3.index t a * S5000x128.size a + S5000x128.size a := by
  show i ∈ ((View.whole main_v60).slice (win2_3.rect t)).set ↔ _
  rw [View.set_slice_whole, Rect.mem_set_unit]
  exact Iff.rfl

theorem val2_cover (i : S100000x128.Idx) : ∃ t : Fin cfg2.N, (cfg2.win 3).flush t = true ∧ i ∈ ((cfg2.win 3).blk t).view.set := by
  have hi0 : (i 0).val < 100000 := (i 0).isLt
  have hi1 : (i 1).val < 128 := (i 1).isLt
  refine ⟨⟨(i 0).val / 5000, by show (i 0).val / 5000 < 20; omega⟩, flush2_3 _, ?_⟩
  obtain ⟨-, -, -, -, -, -, e6, e7⟩ := val2_idx ⟨(i 0).val / 5000, by show (i 0).val / 5000 < 20; omega⟩
  rw [val2_mem]
  intro a
  match a with
  | ⟨0, _⟩ =>
    show win2_3.index _ (0 : Fin 2) * 5000 ≤ (i 0).val ∧ (i 0).val < win2_3.index _ (0 : Fin 2) * 5000 + 5000
    rw [e6]; show (i 0).val / 5000 * 5000 ≤ (i 0).val ∧ (i 0).val < (i 0).val / 5000 * 5000 + 5000; omega
  | ⟨1, _⟩ =>
    show win2_3.index _ (1 : Fin 2) * 128 ≤ (i 1).val ∧ (i 1).val < win2_3.index _ (1 : Fin 2) * 128 + 128
    rw [e7]; omega

theorem val2_3 (c : Dev nD) : (dat2 (F := Ideal) V c).arrAt 3 cfg2.N = affine (V c main_v43_0) (V c main_v58) (V c main_v59) :=
  (dat2 (F := Ideal) V c).arrAt_eq_of_cover 3 (affine (V c main_v43_0) (V c main_v58) (V c main_v59))
    (fun t _ => val2_flushed V c t) val2_cover

end Value

end Cert.KernelIdeal.Hand

end
-- ==== Proof.KI.Val3.lean ====
import proofs.«418928_j70858370450169_1_alg».proof.Proof.KI.Reg3
import proofs.«418928_j70858370450169_1_alg».proof.Proof.Spec
import Idealize.ShloMosaic.Lib.Pipeline.Value
import Idealize.ShloMosaic.Lib.ValueIdx
import Idealize.ShloMosaic.PureOps.Ideal.Laws
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)

open Cert.Spec
open scoped BigOperators
open Idealize.ShloMosaic.ValueIdx

variable (V : (c : Dev nD) → (b : Ref sig .tc) → Buf (Elt Ideal) ((c : Thread nD τ).loc b))

theorem hz3 : (![0, 0] : Fin 2 → Nat) = fun _ => 0 := funext fun a => by fin_cases a <;> rfl

theorem lhs3_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl

theorem lhs3_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q

theorem rhs3_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q

theorem rhs3_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

theorem pay3_apply (x0 : FVec Ideal S5000x128 .f32) (x1 : FVec Ideal S128x128 .f32) (p : Fin 5000) (q : Fin 128) :
    (k3_pay1 (F := Ideal) x0 x1) (ix2 p q) = ∑ k : Fin 128, x0 (ix2 p k) * x1 (ix2 k q) := by
  unfold k3_pay1
  refine (Ideal.matmul_constant_zero_apply dot_S5000x128_S128x128_S5000x128_1_0_0_1_n_n none _ _ (ix2 p q)).trans ?_
  rw [← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact lhs3_0 _ _
    | ⟨1, _⟩ => exact (lhs3_1 _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (rhs3_0 _ _).trans hk
    | ⟨1, _⟩ => exact rhs3_1 _ _)
  rw [el, er]
  simp only [truncf_apply, shapeCast_self]

theorem idx_facts3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

theorem iblk3_0_apply (c : Dev nD) (t : Fin cfg3.N) (x : S5000x128.Idx) (i : S100000x128.Idx)
    (h0 : (i 0).val = 5000 * t.val + (x 0).val) (h1 : (i 1).val = (x 1).val) :
    (iblk3 V c 0 t : Vec Ideal S5000x128 .f32) x = (V c main_v60 : S100000x128.Idx → EReal) i := by
  obtain ⟨e00, e01, -, -, -, -⟩ := idx_facts3 t
  unfold iblk3
  rw [View.read_apply]
  show V c main_v60 _ = V c main_v60 _
  congr 1
  funext a
  apply Fin.ext
  match a with
  | ⟨0, _⟩ => show win3_0.index t 0 * 5000 + 1 * (x 0).val = (i 0).val; rw [e00, h0]; omega
  | ⟨1, _⟩ => show win3_0.index t 1 * 128 + 1 * (x 1).val = (i 1).val; rw [e01, h1]; omega

theorem iblk3_1_apply (c : Dev nD) (t : Fin cfg3.N) (x : S128x128.Idx) (i : S128x128.Idx)
    (h0 : (i 0).val = (x 0).val) (h1 : (i 1).val = (x 1).val) :
    (iblk3 V c 1 t : Vec Ideal S128x128 .f32) x = (V c main_arg6 : S128x128.Idx → EReal) i := by
  obtain ⟨-, -, e10, e11, -, -⟩ := idx_facts3 t
  unfold iblk3
  rw [View.read_apply]
  show V c main_arg6 _ = V c main_arg6 _
  congr 1
  funext a
  apply Fin.ext
  match a with
  | ⟨0, _⟩ => show win3_1.index t 0 * 128 + 1 * (x 0).val = (i 0).val; rw [e10, h0]; omega
  | ⟨1, _⟩ => show win3_1.index t 1 * 128 + 1 * (x 1).val = (i 1).val; rw [e11, h1]; omega

theorem flushed3_2_eq (c : Dev nD) (t : Fin cfg3.N) :
    (dat3 V c).flushed 2 t = ((cfg3.win 2).blk t).view.read (Elt Ideal) (mm (V c main_v60) (V c main_arg6)) := by
  show (cfg3.win 2).cut (grid3.coords t) ((dat3 V c).after 2 t) = _
  rw [after3_2]
  unfold out3_2
  rw [View.canon_unit_zero hz3]
  simp only [View.ld_unit_zero (S := S5000x128) hz3, View.ld_unit_zero (S := S128x128) hz3]
  obtain ⟨-, -, -, -, e20, e21⟩ := idx_facts3 t
  funext j
  obtain ⟨p, q, rfl⟩ : ∃ (p : Fin 5000) (q : Fin 128), j = ix2 p q := ⟨j 0, j 1, eq_ix2 j⟩
  show (k3_pay1 (F := Ideal) (iblk3 V c 0 t) (iblk3 V c 1 t)) (ix2 p q)
    = mm (V c main_v60) (V c main_arg6) (((cfg3.win 2).blk t).view.emb (ix2 p q))
  refine (pay3_apply (iblk3 V c 0 t) (iblk3 V c 1 t) p q).trans ?_
  unfold mm
  refine Finset.sum_congr rfl fun k _ => ?_
  refine congrArg₂ (· * ·) (iblk3_0_apply V c t (ix2 p k) _ ?_ rfl) (iblk3_1_apply V c t (ix2 k q) _ rfl ?_)
  · show win3_2.index t 0 * 5000 + 1 * p.val = 5000 * t.val + p.val
    rw [e20]; omega
  · show win3_2.index t 1 * 128 + 1 * q.val = q.val
    rw [e21]; omega

theorem mem_blk3_2 (t : Fin cfg3.N) (i : S100000x128.Idx) :
    i ∈ ((cfg3.win 2).blk t).view.set ↔ ∀ a : Fin 2, win3_2.index t a * S5000x128.size a ≤ (i a).val ∧ (i a).val < win3_2.index t a * S5000x128.size a + S5000x128.size a := by
  show i ∈ ((View.whole main_v61).slice (win3_2.rect t)).set ↔ _
  rw [View.set_slice_whole, Rect.mem_set_unit]
  exact Iff.rfl

theorem tiles3_2 (i : S100000x128.Idx) :
    ∃ t : Fin cfg3.N, (cfg3.win 2).flush t = true ∧ i ∈ ((cfg3.win 2).blk t).view.set := by
  have hi0 : (i 0).val < 100000 := idx2_lt0 i
  have hi1 : (i 1).val < 128 := idx2_lt1 i
  have hN : cfg3.N = 20 := N_3
  obtain ⟨t, ht⟩ : ∃ t : Fin cfg3.N, t.val = (i 0).val / 5000 := ⟨⟨(i 0).val / 5000, by rw [hN]; omega⟩, rfl⟩
  obtain ⟨-, -, -, -, e20, e21⟩ := idx_facts3 t
  refine ⟨t, flush3_2 t, ?_⟩
  rw [mem_blk3_2]
  intro a
  match a with
  | ⟨0, _⟩ => show win3_2.index t (0 : Fin 2) * 5000 ≤ (i 0).val ∧ (i 0).val < win3_2.index t (0 : Fin 2) * 5000 + 5000; rw [e20, ht]; omega
  | ⟨1, _⟩ => show win3_2.index t (1 : Fin 2) * 128 ≤ (i 1).val ∧ (i 1).val < win3_2.index t (1 : Fin 2) * 128 + 128; rw [e21]; omega

theorem val3_2 (c : Dev nD) : (dat3 (F := Ideal) V c).arrAt 2 cfg3.N = mm (V c main_v60) (V c main_arg6) :=
  (dat3 V c).arrAt_eq_of_cover 2 (mm (V c main_v60) (V c main_arg6)) (fun t _ => flushed3_2_eq V c t) tiles3_2

end Cert.KernelIdeal.Hand

end
-- ==== Proof.KI.Val4.lean ====
import proofs.«418928_j70858370450169_1_alg».proof.Proof.KI.Reg4
import proofs.«418928_j70858370450169_1_alg».proof.Proof.KI.Pay1
import proofs.«418928_j70858370450169_1_alg».proof.Proof.Spec
import proofs.«418928_j70858370450169_1_alg».proof.Proof.LibTiles
import Idealize.ShloMosaic.Lib.Pipeline.Value
import Idealize.ShloMosaic.Lib.ValueIdx
import Idealize.ShloMosaic.PureOps.Ideal.Laws
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)
open Cert.Spec
open scoped BigOperators
open Idealize.ShloMosaic.ValueIdx

variable (V : (c : Dev nD) → (b : Ref sig .tc) → Buf (Elt Ideal) ((c : Thread nD τ).loc b))

theorem idx_facts4 : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0
    ∧ win4_3.index t (0 : Fin 2) = 0 ∧ win4_3.index t (1 : Fin 2) = 0
    ∧ win4_4.index t (0 : Fin 2) = t.val ∧ win4_4.index t (1 : Fin 2) = 0
    ∧ win4_5.index t (0 : Fin 2) = 0 ∧ win4_5.index t (1 : Fin 2) = 0
    ∧ win4_6.index t (0 : Fin 2) = 0 ∧ win4_6.index t (1 : Fin 2) = 0 :=
  (by decide +kernel : ∀ t : Fin grid4.N, _)

theorem iblk4_0_apply (c : Dev nD) (t : Fin cfg4.N) (x : S5000x128.Idx) (i : S100000x128.Idx)
    (h0 : (i 0).val = 5000 * t.val + (x 0).val) (h1 : (i 1).val = (x 1).val) :
    (iblk4 V c 0 t : Vec Ideal S5000x128 .f32) x = (V c main_v74 : S100000x128.Idx → EReal) i := by
  have e0 : win4_0.index t (0 : Fin 2) = t.val := (idx_facts4 t).1
  have e1 : win4_0.index t (1 : Fin 2) = 0 := (idx_facts4 t).2.1
  unfold iblk4
  rw [View.read_apply]
  show V c main_v74 _ = V c main_v74 _
  congr 1
  funext a
  apply Fin.ext
  match a with
  | ⟨0, _⟩ => show win4_0.index t 0 * 5000 + 1 * (x 0).val = (i 0).val; rw [e0, h0]; omega
  | ⟨1, _⟩ => show win4_0.index t 1 * 128 + 1 * (x 1).val = (i 1).val; rw [e1, h1]; omega

theorem iblk4_1_apply (c : Dev nD) (t : Fin cfg4.N) (x : S5000x128.Idx) (i : S100000x128.Idx)
    (h0 : (i 0).val = 5000 * t.val + (x 0).val) (h1 : (i 1).val = (x 1).val) :
    (iblk4 V c 1 t : Vec Ideal S5000x128 .f32) x = (V c main_v61 : S100000x128.Idx → EReal) i := by
  have e0 : win4_1.index t (0 : Fin 2) = t.val := (idx_facts4 t).2.2.1
  have e1 : win4_1.index t (1 : Fin 2) = 0 := (idx_facts4 t).2.2.2.1
  unfold iblk4
  rw [View.read_apply]
  show V c main_v61 _ = V c main_v61 _
  congr 1
  funext a
  apply Fin.ext
  match a with
  | ⟨0, _⟩ => show win4_1.index t 0 * 5000 + 1 * (x 0).val = (i 0).val; rw [e0, h0]; omega
  | ⟨1, _⟩ => show win4_1.index t 1 * 128 + 1 * (x 1).val = (i 1).val; rw [e1, h1]; omega

theorem iblk4_2_apply (c : Dev nD) (t : Fin cfg4.N) (x : S5000x1.Idx) (i : S100000x1.Idx)
    (h0 : (i 0).val = 5000 * t.val + (x 0).val) (h1 : (i 1).val = (x 1).val) :
    (iblk4 V c 2 t : Vec Ideal S5000x1 .f32) x = (V c main_v75 : S100000x1.Idx → EReal) i := by
  have e0 : win4_2.index t (0 : Fin 2) = t.val := (idx_facts4 t).2.2.2.2.1
  have e1 : win4_2.index t (1 : Fin 2) = 0 := (idx_facts4 t).2.2.2.2.2.1
  unfold iblk4
  rw [View.read_apply]
  show V c main_v75 _ = V c main_v75 _
  congr 1
  funext a
  apply Fin.ext
  match a with
  | ⟨0, _⟩ => show win4_2.index t 0 * 5000 + 1 * (x 0).val = (i 0).val; rw [e0, h0]; omega
  | ⟨1, _⟩ => show win4_2.index t 1 * 1 + 1 * (x 1).val = (i 1).val; rw [e1, h1]; omega

theorem iblk4_3_apply (c : Dev nD) (t : Fin cfg4.N) (x : S1x128.Idx) (i : S1x128.Idx)
    (h0 : (i 0).val = (x 0).val) (h1 : (i 1).val = (x 1).val) :
    (iblk4 V c 3 t : Vec Ideal S1x128 .f32) x = (V c main_v76 : S1x128.Idx → EReal) i := by
  have e0 : win4_3.index t (0 : Fin 2) = 0 := (idx_facts4 t).2.2.2.2.2.2.1
  have e1 : win4_3.index t (1 : Fin 2) = 0 := (idx_facts4 t).2.2.2.2.2.2.2.1
  unfold iblk4
  rw [View.read_apply]
  show V c main_v76 _ = V c main_v76 _
  congr 1
  funext a
  apply Fin.ext
  match a with
  | ⟨0, _⟩ => show win4_3.index t 0 * 1 + 1 * (x 0).val = (i 0).val; rw [e0, h0]; omega
  | ⟨1, _⟩ => show win4_3.index t 1 * 128 + 1 * (x 1).val = (i 1).val; rw [e1, h1]; omega

theorem act4_apply (c : Dev nD) (t : Fin cfg4.N) (r : Fin 5000) (j : Fin 128) (i : S100000x128.Idx)
    (h0 : (i 0).val = 5000 * t.val + r.val) (h1 : (i 1).val = j.val) :
    k1_pay4 (F := Ideal) (iblk4 V c 0 t) (iblk4 V c 2 t) (iblk4 V c 1 t) (iblk4 V c 3 t) (ix2 r j) = comb (V c main_v74) (V c main_v61) (V c main_v75) (V c main_v76) i := by
  refine (k1_pay4_apply (iblk4 V c 0 t) (iblk4 V c 2 t) (iblk4 V c 1 t) (iblk4 V c 3 t) r j).trans ?_
  unfold comb
  refine congrArg (fun z => max z 0) ?_
  refine congrArg₂ (· + ·) (congrArg₂ (· + ·) (iblk4_0_apply V c t (ix2 r j) i h0 h1)
    (congrArg₂ (· * ·) (iblk4_2_apply V c t (ix2 r (0 : Fin 1)) (ix2 (i 0) (0 : Fin 1)) h0 rfl) (iblk4_1_apply V c t (ix2 r j) i h0 h1)))
    (iblk4_3_apply V c t (ix2 (0 : Fin 1) j) (ix2 (0 : Fin 1) (i 1)) rfl h1)

abbrev row4 (t : Fin cfg4.N) (r : Fin 5000) : Fin 100000 :=
  ⟨5000 * t.val + r.val, by have := t.isLt; have hN : cfg4.N = 20 := N_4; omega⟩

theorem flushed4_4_eq (c : Dev nD) (t : Fin cfg4.N) :
    (dat4 V c).flushed 4 t = ((cfg4.win 4).blk t).view.read (Elt Ideal) (comb (V c main_v74) (V c main_v61) (V c main_v75) (V c main_v76)) := by
  show (cfg4.win 4).cut (grid4.coords t) ((dat4 V c).after 4 t) = _
  rw [after4_4]
  have e0 : win4_4.index t (0 : Fin 2) = t.val := (idx_facts4 t).2.2.2.2.2.2.2.2.1
  have e1 : win4_4.index t (1 : Fin 2) = 0 := (idx_facts4 t).2.2.2.2.2.2.2.2.2.1
  funext y
  obtain ⟨r, j, rfl⟩ : ∃ (r : Fin 5000) (j : Fin 128), y = ix2 r j := ⟨y 0, y 1, eq_ix2 y⟩
  show k1_pay4 (F := Ideal) (iblk4 V c 0 t) (iblk4 V c 2 t) (iblk4 V c 1 t) (iblk4 V c 3 t) (ix2 r j)
    = comb (V c main_v74) (V c main_v61) (V c main_v75) (V c main_v76) (((cfg4.win 4).blk t).view.emb (ix2 r j))
  refine act4_apply V c t r j _ ?_ ?_
  · show win4_4.index t 0 * 5000 + 1 * r.val = 5000 * t.val + r.val
    rw [e0]; omega
  · show win4_4.index t 1 * 128 + 1 * j.val = j.val
    rw [e1]; omega

theorem mem_blk4_4 (t : Fin cfg4.N) (i : S100000x128.Idx) :
    i ∈ ((cfg4.win 4).blk t).view.set ↔ ∀ a : Fin 2, win4_4.index t a * S5000x128.size a ≤ (i a).val ∧ (i a).val < win4_4.index t a * S5000x128.size a + S5000x128.size a := by
  show i ∈ ((View.whole main_v77_0).slice (win4_4.rect t)).set ↔ _
  rw [View.set_slice_whole, Rect.mem_set_unit]
  exact Iff.rfl

theorem tiles4_4 (i : S100000x128.Idx) :
    ∃ t : Fin cfg4.N, (cfg4.win 4).flush t = true ∧ i ∈ ((cfg4.win 4).blk t).view.set := by
  have hi0 : (i 0).val < 100000 := idx2_lt0 i
  have hi1 : (i 1).val < 128 := idx2_lt1 i
  have hN : cfg4.N = 20 := N_4
  obtain ⟨t, ht⟩ : ∃ t : Fin cfg4.N, t.val = (i 0).val / 5000 := ⟨⟨(i 0).val / 5000, by rw [hN]; omega⟩, rfl⟩
  have e0 : win4_4.index t (0 : Fin 2) = t.val := (idx_facts4 t).2.2.2.2.2.2.2.2.1
  have e1 : win4_4.index t (1 : Fin 2) = 0 := (idx_facts4 t).2.2.2.2.2.2.2.2.2.1
  refine ⟨t, flush4_4 t, ?_⟩
  rw [mem_blk4_4]
  intro a
  match a with
  | ⟨0, _⟩ => show win4_4.index t (0 : Fin 2) * 5000 ≤ (i 0).val ∧ (i 0).val < win4_4.index t (0 : Fin 2) * 5000 + 5000; rw [e0, ht]; omega
  | ⟨1, _⟩ => show win4_4.index t (1 : Fin 2) * 128 ≤ (i 1).val ∧ (i 1).val < win4_4.index t (1 : Fin 2) * 128 + 128; rw [e1]; omega

theorem val4_4 (c : Dev nD) : (dat4 (F := Ideal) V c).arrAt 4 cfg4.N = comb (V c main_v74) (V c main_v61) (V c main_v75) (V c main_v76) :=
  (dat4 V c).arrAt_eq_of_cover 4 (comb (V c main_v74) (V c main_v61) (V c main_v75) (V c main_v76)) (fun t _ => flushed4_4_eq V c t) tiles4_4

theorem rows4 : cfg4.N * 5000 = 100000 := by rw [show cfg4.N = 20 from N_4]

abbrev last4 : Fin cfg4.N := ⟨cfg4.N - 1, by have hN : cfg4.N = 20 := N_4; omega⟩

theorem acc4_fst_last (c : Dev nD) (j : Fin 128) (t : Fin cfg4.N) (ht : t = last4) :
    (acc4 V c t.val t.isLt).1 (ix2 (0 : Fin 1) j) = ∑ n : Fin 100000, comb (V c main_v74) (V c main_v61) (V c main_v75) (V c main_v76) (ix2 n j) := by
  subst ht
  have hN : cfg4.N = 20 := N_4
  have h := Cert.LibTiles.acc_fin_last (T := cfg4.N)
    (fun t : Fin cfg4.N => (acc4 V c t.val t.isLt).1 (ix2 (0 : Fin 1) j))
    (fun t : Fin cfg4.N => ∑ r : Fin 5000, k1_pay4 (F := Ideal) (iblk4 V c 0 t) (iblk4 V c 2 t) (iblk4 V c 1 t) (iblk4 V c 3 t) (ix2 r j))
    (0 : EReal)
    (fun h0 => by
      show k1_pay5 (F := Ideal) (iblk4 V c 0 ⟨0, h0⟩) (iblk4 V c 2 ⟨0, h0⟩) (iblk4 V c 1 ⟨0, h0⟩) (iblk4 V c 3 ⟨0, h0⟩) (k1_pay2 (F := Ideal)) (ix2 (0 : Fin 1) j) = _
      refine (k1_pay5_apply (iblk4 V c 0 ⟨0, h0⟩) (iblk4 V c 2 ⟨0, h0⟩) (iblk4 V c 1 ⟨0, h0⟩) (iblk4 V c 3 ⟨0, h0⟩) (k1_pay2 (F := Ideal)) j).trans ?_
      rw [k1_pay2_apply])
    (fun n hn => by
      show k1_pay5 (F := Ideal) (iblk4 V c 0 ⟨n + 1, hn⟩) (iblk4 V c 2 ⟨n + 1, hn⟩) (iblk4 V c 1 ⟨n + 1, hn⟩) (iblk4 V c 3 ⟨n + 1, hn⟩) (acc4 V c n (Nat.lt_of_succ_lt hn)).1 (ix2 (0 : Fin 1) j) = _
      exact k1_pay5_apply (iblk4 V c 0 ⟨n + 1, hn⟩) (iblk4 V c 2 ⟨n + 1, hn⟩) (iblk4 V c 1 ⟨n + 1, hn⟩) (iblk4 V c 3 ⟨n + 1, hn⟩) (acc4 V c n (Nat.lt_of_succ_lt hn)).1 j)
    (by omega)
  refine h.trans ?_
  rw [zero_add]
  rw [← Cert.LibTiles.sum_tiles_of (T := cfg4.N) (R := 5000) rows4 (fun n : Fin 100000 => comb (V c main_v74) (V c main_v61) (V c main_v75) (V c main_v76) (ix2 n j))
    (fun t r => (row4 t r).isLt)]
  refine Finset.sum_congr rfl fun t _ => Finset.sum_congr rfl fun r _ => ?_
  exact act4_apply V c t r j (ix2 (row4 t r) j) rfl rfl

theorem acc4_snd_last (c : Dev nD) (j : Fin 128) (t : Fin cfg4.N) (ht : t = last4) :
    (acc4 V c t.val t.isLt).2 (ix2 (0 : Fin 1) j)
      = ∑ n : Fin 100000, comb (V c main_v74) (V c main_v61) (V c main_v75) (V c main_v76) (ix2 n j) * comb (V c main_v74) (V c main_v61) (V c main_v75) (V c main_v76) (ix2 n j) := by
  subst ht
  have hN : cfg4.N = 20 := N_4
  have h := Cert.LibTiles.acc_fin_last (T := cfg4.N)
    (fun t : Fin cfg4.N => (acc4 V c t.val t.isLt).2 (ix2 (0 : Fin 1) j))
    (fun t : Fin cfg4.N => ∑ r : Fin 5000, k1_pay4 (F := Ideal) (iblk4 V c 0 t) (iblk4 V c 2 t) (iblk4 V c 1 t) (iblk4 V c 3 t) (ix2 r j) * k1_pay4 (F := Ideal) (iblk4 V c 0 t) (iblk4 V c 2 t) (iblk4 V c 1 t) (iblk4 V c 3 t) (ix2 r j))
    (0 : EReal)
    (fun h0 => by
      show k1_pay1 (F := Ideal) (k1_pay6 (F := Ideal) (iblk4 V c 0 ⟨0, h0⟩) (iblk4 V c 2 ⟨0, h0⟩) (iblk4 V c 1 ⟨0, h0⟩) (iblk4 V c 3 ⟨0, h0⟩) (k1_pay3 (F := Ideal))) (ix2 (0 : Fin 1) j) = _
      rw [k1_pay1_eq]
      refine (k1_pay6_apply (iblk4 V c 0 ⟨0, h0⟩) (iblk4 V c 2 ⟨0, h0⟩) (iblk4 V c 1 ⟨0, h0⟩) (iblk4 V c 3 ⟨0, h0⟩) (k1_pay3 (F := Ideal)) j).trans ?_
      rw [k1_pay3_apply])
    (fun n hn => by
      show k1_pay1 (F := Ideal) (k1_pay6 (F := Ideal) (iblk4 V c 0 ⟨n + 1, hn⟩) (iblk4 V c 2 ⟨n + 1, hn⟩) (iblk4 V c 1 ⟨n + 1, hn⟩) (iblk4 V c 3 ⟨n + 1, hn⟩) (acc4 V c n (Nat.lt_of_succ_lt hn)).2) (ix2 (0 : Fin 1) j) = _
      rw [k1_pay1_eq]
      exact k1_pay6_apply (iblk4 V c 0 ⟨n + 1, hn⟩) (iblk4 V c 2 ⟨n + 1, hn⟩) (iblk4 V c 1 ⟨n + 1, hn⟩) (iblk4 V c 3 ⟨n + 1, hn⟩) (acc4 V c n (Nat.lt_of_succ_lt hn)).2 j)
    (by omega)
  refine h.trans ?_
  rw [zero_add]
  rw [← Cert.LibTiles.sum_tiles_of (T := cfg4.N) (R := 5000) rows4 (fun n : Fin 100000 => comb (V c main_v74) (V c main_v61) (V c main_v75) (V c main_v76) (ix2 n j) * comb (V c main_v74) (V c main_v61) (V c main_v75) (V c main_v76) (ix2 n j))
    (fun t r => (row4 t r).isLt)]
  refine Finset.sum_congr rfl fun t _ => Finset.sum_congr rfl fun r _ => ?_
  rw [act4_apply V c t r j (ix2 (row4 t r) j) rfl rfl]

theorem flush4_last (t : Fin cfg4.N) (h : t.val % 20 = 19) : t = last4 := by
  have hN : cfg4.N = 20 := N_4
  exact Fin.ext (by show t.val = cfg4.N - 1; have := t.isLt; omega)

theorem whole4_5 (t : Fin cfg4.N) (G : Vec Ideal S1x128 .f32) :
    (cfg4.win 5).cut (grid4.coords t) G = ((cfg4.win 5).blk t).view.read (Elt Ideal) G := by
  have e0 : win4_5.index t (0 : Fin 2) = 0 := (idx_facts4 t).2.2.2.2.2.2.2.2.2.2.1
  have e1 : win4_5.index t (1 : Fin 2) = 0 := (idx_facts4 t).2.2.2.2.2.2.2.2.2.2.2.1
  have hz' : (fun a => win4_5.index t a * main_v77_1.ty.shape.size a) = fun _ => 0 := funext fun a => by
    match a with
    | ⟨0, _⟩ => show win4_5.index t 0 * 1 = 0; rw [e0]
    | ⟨1, _⟩ => show win4_5.index t 1 * 128 = 0; rw [e1]
  exact (Memref.read_access_unit_zero (Elt Ideal) main_v77_1 hz' (fun a => by rw [congrFun hz' a]; simp) G).symm

theorem flushed4_5_eq (c : Dev nD) (t : Fin cfg4.N) (hf : (cfg4.win 5).flush t = true) :
    (dat4 V c).flushed 5 t = ((cfg4.win 5).blk t).view.read (Elt Ideal) (colsum (comb (V c main_v74) (V c main_v61) (V c main_v75) (V c main_v76))) := by
  have ht : t = last4 := flush4_last t ((flush4_5 t).mp hf)
  have hG : (acc4 V c t.val t.isLt).1 = colsum (comb (V c main_v74) (V c main_v61) (V c main_v75) (V c main_v76)) := by
    funext y
    obtain ⟨u, j, rfl⟩ : ∃ (u : Fin 1) (j : Fin 128), y = ix2 u j := ⟨y 0, y 1, eq_ix2 y⟩
    obtain rfl : u = 0 := Subsingleton.elim _ _
    unfold colsum
    exact acc4_fst_last V c j t ht
  show (cfg4.win 5).cut (grid4.coords t) ((dat4 V c).after 5 t) = _
  rw [after4_5, hG]
  exact whole4_5 t _

theorem tiles4_5 (i : S1x128.Idx) :
    ∃ t : Fin cfg4.N, (cfg4.win 5).flush t = true ∧ i ∈ ((cfg4.win 5).blk t).view.set := by
  have hi0 : (i 0).val < 1 := idx2_lt0 i
  have hi1 : (i 1).val < 128 := idx2_lt1 i
  have hN : cfg4.N = 20 := N_4
  have e0 : win4_5.index last4 (0 : Fin 2) = 0 := (idx_facts4 last4).2.2.2.2.2.2.2.2.2.2.1
  have e1 : win4_5.index last4 (1 : Fin 2) = 0 := (idx_facts4 last4).2.2.2.2.2.2.2.2.2.2.2.1
  refine ⟨last4, (flush4_5 last4).mpr (by show (cfg4.N - 1) % 20 = 19; omega), ?_⟩
  show i ∈ ((View.whole main_v77_1).slice (win4_5.rect last4)).set
  rw [View.set_slice_whole, Rect.mem_set_unit]
  intro a
  match a with
  | ⟨0, _⟩ => show win4_5.index last4 (0 : Fin 2) * 1 ≤ (i 0).val ∧ (i 0).val < win4_5.index last4 (0 : Fin 2) * 1 + 1; rw [e0]; omega
  | ⟨1, _⟩ => show win4_5.index last4 (1 : Fin 2) * 128 ≤ (i 1).val ∧ (i 1).val < win4_5.index last4 (1 : Fin 2) * 128 + 128; rw [e1]; omega

theorem val4_5 (c : Dev nD) : (dat4 (F := Ideal) V c).arrAt 5 cfg4.N = colsum (comb (V c main_v74) (V c main_v61) (V c main_v75) (V c main_v76)) :=
  (dat4 V c).arrAt_eq_of_cover 5 (colsum (comb (V c main_v74) (V c main_v61) (V c main_v75) (V c main_v76))) (flushed4_5_eq V c) tiles4_5

theorem whole4_6 (t : Fin cfg4.N) (G : Vec Ideal S1x128 .f32) :
    (cfg4.win 6).cut (grid4.coords t) G = ((cfg4.win 6).blk t).view.read (Elt Ideal) G := by
  have e0 : win4_6.index t (0 : Fin 2) = 0 := (idx_facts4 t).2.2.2.2.2.2.2.2.2.2.2.2.1
  have e1 : win4_6.index t (1 : Fin 2) = 0 := (idx_facts4 t).2.2.2.2.2.2.2.2.2.2.2.2.2
  have hz' : (fun a => win4_6.index t a * main_v77_2.ty.shape.size a) = fun _ => 0 := funext fun a => by
    match a with
    | ⟨0, _⟩ => show win4_6.index t 0 * 1 = 0; rw [e0]
    | ⟨1, _⟩ => show win4_6.index t 1 * 128 = 0; rw [e1]
  exact (Memref.read_access_unit_zero (Elt Ideal) main_v77_2 hz' (fun a => by rw [congrFun hz' a]; simp) G).symm

theorem flushed4_6_eq (c : Dev nD) (t : Fin cfg4.N) (hf : (cfg4.win 6).flush t = true) :
    (dat4 V c).flushed 6 t = ((cfg4.win 6).blk t).view.read (Elt Ideal) (colsumsq (comb (V c main_v74) (V c main_v61) (V c main_v75) (V c main_v76))) := by
  have ht : t = last4 := flush4_last t ((flush4_6 t).mp hf)
  have hG : (acc4 V c t.val t.isLt).2 = colsumsq (comb (V c main_v74) (V c main_v61) (V c main_v75) (V c main_v76)) := by
    funext y
    obtain ⟨u, j, rfl⟩ : ∃ (u : Fin 1) (j : Fin 128), y = ix2 u j := ⟨y 0, y 1, eq_ix2 y⟩
    obtain rfl : u = 0 := Subsingleton.elim _ _
    unfold colsumsq
    exact acc4_snd_last V c j t ht
  show (cfg4.win 6).cut (grid4.coords t) ((dat4 V c).after 6 t) = _
  rw [after4_6, hG]
  exact whole4_6 t _

theorem tiles4_6 (i : S1x128.Idx) :
    ∃ t : Fin cfg4.N, (cfg4.win 6).flush t = true ∧ i ∈ ((cfg4.win 6).blk t).view.set := by
  have hi0 : (i 0).val < 1 := idx2_lt0 i
  have hi1 : (i 1).val < 128 := idx2_lt1 i
  have hN : cfg4.N = 20 := N_4
  have e0 : win4_6.index last4 (0 : Fin 2) = 0 := (idx_facts4 last4).2.2.2.2.2.2.2.2.2.2.2.2.1
  have e1 : win4_6.index last4 (1 : Fin 2) = 0 := (idx_facts4 last4).2.2.2.2.2.2.2.2.2.2.2.2.2
  refine ⟨last4, (flush4_6 last4).mpr (by show (cfg4.N - 1) % 20 = 19; omega), ?_⟩
  show i ∈ ((View.whole main_v77_2).slice (win4_6.rect last4)).set
  rw [View.set_slice_whole, Rect.mem_set_unit]
  intro a
  match a with
  | ⟨0, _⟩ => show win4_6.index last4 (0 : Fin 2) * 1 ≤ (i 0).val ∧ (i 0).val < win4_6.index last4 (0 : Fin 2) * 1 + 1; rw [e0]; omega
  | ⟨1, _⟩ => show win4_6.index last4 (1 : Fin 2) * 128 ≤ (i 1).val ∧ (i 1).val < win4_6.index last4 (1 : Fin 2) * 128 + 128; rw [e1]; omega

theorem val4_6 (c : Dev nD) : (dat4 (F := Ideal) V c).arrAt 6 cfg4.N = colsumsq (comb (V c main_v74) (V c main_v61) (V c main_v75) (V c main_v76)) :=
  (dat4 V c).arrAt_eq_of_cover 6 (colsumsq (comb (V c main_v74) (V c main_v61) (V c main_v75) (V c main_v76))) (flushed4_6_eq V c) tiles4_6

end Cert.KernelIdeal.Hand

end
-- ==== Proof.KI.Val5.lean ====
import proofs.«418928_j70858370450169_1_alg».proof.Proof.KI.Reg5
import proofs.«418928_j70858370450169_1_alg».proof.Proof.KI.Pay2
import proofs.«418928_j70858370450169_1_alg».proof.Proof.Spec
import Idealize.ShloMosaic.Lib.Pipeline.Value
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)

section Value

open Cert.Spec
open Idealize.ShloMosaic.ValueIdx

theorem val5_idx : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0 :=
  (by decide +kernel : ∀ t : Fin grid5.N, _)

variable (V : (c : Dev nD) → (b : Ref sig .tc) → Buf (Elt Ideal) ((c : Thread nD τ).loc b))

abbrev val5_act (c : Dev nD) : SNH.Idx → EReal := V c main_v77_0
abbrev val5_scale (c : Dev nD) : S1H.Idx → EReal := V c main_v92
abbrev val5_shift (c : Dev nD) : S1H.Idx → EReal := V c main_v93

theorem val5_flushed (c : Dev nD) (t : Fin cfg5.N) :
    (dat5 (F := Ideal) V c).flushed 3 t
      = ((cfg5.win 3).blk t).view.read (Elt Ideal) (affine (V c main_v77_0) (V c main_v92) (V c main_v93)) := by
  show (cfg5.win 3).cut (grid5.coords t) ((dat5 (F := Ideal) V c).after 3 t) = _
  rw [after5_3]
  unfold out2_3
  rw [View.canon_unit_zero val2_hz]
  simp only [View.ld_unit_zero (S := S5000x128) val2_hz, View.ld_unit_zero (S := S1x128) val2_hz]
  obtain ⟨e0, e1, e2, e3, e4, e5, e6, e7⟩ := val5_idx t
  funext y
  obtain ⟨r, j, rfl⟩ : ∃ (r : Fin 5000) (j : Fin 128), y = ix2 r j := ⟨y 0, y 1, eq_ix2 y⟩
  refine (val2_pay (iblk5 V c 0 t) (iblk5 V c 1 t) (iblk5 V c 2 t) r j).trans ?_

  show val5_act V c (((cfg5.win 0).blk t).view.emb (ix2 r j)) * val5_scale V c (((cfg5.win 1).blk t).view.emb (ix2 (0 : Fin 1) j))
      + val5_shift V c (((cfg5.win 2).blk t).view.emb (ix2 (0 : Fin 1) j))
    = affine (val5_act V c) (val5_scale V c) (val5_shift V c) (((cfg5.win 3).blk t).view.emb (ix2 r j))
  have h0 : ((cfg5.win 0).blk t).view.emb (ix2 r j) = ((cfg5.win 3).blk t).view.emb (ix2 r j) := by
    funext a; apply Fin.ext
    match a with
    | ⟨0, _⟩ => show win5_0.index t (0 : Fin 2) * 5000 + 1 * r.val = win5_3.index t (0 : Fin 2) * 5000 + 1 * r.val; omega
    | ⟨1, _⟩ => show win5_0.index t (1 : Fin 2) * 128 + 1 * j.val = win5_3.index t (1 : Fin 2) * 128 + 1 * j.val; omega
  have h1 : ((cfg5.win 1).blk t).view.emb (ix2 (0 : Fin 1) j) = ix2 (0 : Fin 1) ((((cfg5.win 3).blk t).view.emb (ix2 r j)) 1) := by
    funext a; apply Fin.ext
    match a with
    | ⟨0, _⟩ => show win5_1.index t (0 : Fin 2) * 1 + 1 * 0 = 0; omega
    | ⟨1, _⟩ => show win5_1.index t (1 : Fin 2) * 128 + 1 * j.val = win5_3.index t (1 : Fin 2) * 128 + 1 * j.val; omega
  have h2 : ((cfg5.win 2).blk t).view.emb (ix2 (0 : Fin 1) j) = ix2 (0 : Fin 1) ((((cfg5.win 3).blk t).view.emb (ix2 r j)) 1) := by
    funext a; apply Fin.ext
    match a with
    | ⟨0, _⟩ => show win5_2.index t (0 : Fin 2) * 1 + 1 * 0 = 0; omega
    | ⟨1, _⟩ => show win5_2.index t (1 : Fin 2) * 128 + 1 * j.val = win5_3.index t (1 : Fin 2) * 128 + 1 * j.val; omega
  rw [h0, h1, h2]
  rfl

theorem val5_mem (t : Fin cfg5.N) (i : S100000x128.Idx) :
    i ∈ ((cfg5.win 3).blk t).view.set ↔ ∀ a : Fin 2, win5_3.index t a * S5000x128.size a ≤ (i a).val ∧ (i a).val < win5_3.index t a * S5000x128.size a + S5000x128.size a := by
  show i ∈ ((View.whole main_v94).slice (win5_3.rect t)).set ↔ _
  rw [View.set_slice_whole, Rect.mem_set_unit]
  exact Iff.rfl

theorem val5_cover (i : S100000x128.Idx) : ∃ t : Fin cfg5.N, (cfg5.win 3).flush t = true ∧ i ∈ ((cfg5.win 3).blk t).view.set := by
  have hi0 : (i 0).val < 100000 := (i 0).isLt
  have hi1 : (i 1).val < 128 := (i 1).isLt
  refine ⟨⟨(i 0).val / 5000, by show (i 0).val / 5000 < 20; omega⟩, flush5_3 _, ?_⟩
  obtain ⟨-, -, -, -, -, -, e6, e7⟩ := val5_idx ⟨(i 0).val / 5000, by show (i 0).val / 5000 < 20; omega⟩
  rw [val5_mem]
  intro a
  match a with
  | ⟨0, _⟩ =>
    show win5_3.index _ (0 : Fin 2) * 5000 ≤ (i 0).val ∧ (i 0).val < win5_3.index _ (0 : Fin 2) * 5000 + 5000
    rw [e6]; show (i 0).val / 5000 * 5000 ≤ (i 0).val ∧ (i 0).val < (i 0).val / 5000 * 5000 + 5000; omega
  | ⟨1, _⟩ =>
    show win5_3.index _ (1 : Fin 2) * 128 ≤ (i 1).val ∧ (i 1).val < win5_3.index _ (1 : Fin 2) * 128 + 128
    rw [e7]; omega

theorem val5_3 (c : Dev nD) : (dat5 (F := Ideal) V c).arrAt 3 cfg5.N = affine (V c main_v77_0) (V c main_v92) (V c main_v93) :=
  (dat5 (F := Ideal) V c).arrAt_eq_of_cover 3 (affine (V c main_v77_0) (V c main_v92) (V c main_v93))
    (fun t _ => val5_flushed V c t) val5_cover

end Value

end Cert.KernelIdeal.Hand

end
-- ==== Proof.KI.Val6.lean ====
import proofs.«418928_j70858370450169_1_alg».proof.Proof.KI.Reg6
import proofs.«418928_j70858370450169_1_alg».proof.Proof.Spec
import Idealize.ShloMosaic.Lib.Pipeline.Value
import Idealize.ShloMosaic.Lib.ValueIdx
import Idealize.ShloMosaic.PureOps.Ideal.Laws
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)

open Cert.Spec
open scoped BigOperators
open Idealize.ShloMosaic.ValueIdx

variable (V : (c : Dev nD) → (b : Ref sig .tc) → Buf (Elt Ideal) ((c : Thread nD τ).loc b))

theorem hz6 : (![0, 0] : Fin 2 → Nat) = fun _ => 0 := funext fun a => by fin_cases a <;> rfl

theorem lhs6_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl

theorem lhs6_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q

theorem rhs6_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q

theorem rhs6_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

theorem pay6_apply (x0 : FVec Ideal S5000x128 .f32) (x1 : FVec Ideal S128x128 .f32) (p : Fin 5000) (q : Fin 128) :
    (k6_pay1 (F := Ideal) x0 x1) (ix2 p q) = ∑ k : Fin 128, x0 (ix2 p k) * x1 (ix2 k q) := by
  unfold k6_pay1
  refine (Ideal.matmul_constant_zero_apply dot_S5000x128_S128x128_S5000x128_1_0_0_1_n_n none _ _ (ix2 p q)).trans ?_
  rw [← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact lhs6_0 _ _
    | ⟨1, _⟩ => exact (lhs6_1 _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (rhs6_0 _ _).trans hk
    | ⟨1, _⟩ => exact rhs6_1 _ _)
  rw [el, er]
  simp only [truncf_apply, shapeCast_self]

theorem idx_facts6 : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0 :=
  (by decide +kernel : ∀ t : Fin grid6.N, _)

theorem iblk6_0_apply (c : Dev nD) (t : Fin cfg6.N) (x : S5000x128.Idx) (i : S100000x128.Idx)
    (h0 : (i 0).val = 5000 * t.val + (x 0).val) (h1 : (i 1).val = (x 1).val) :
    (iblk6 V c 0 t : Vec Ideal S5000x128 .f32) x = (V c main_v94 : S100000x128.Idx → EReal) i := by
  obtain ⟨e00, e01, -, -, -, -⟩ := idx_facts6 t
  unfold iblk6
  rw [View.read_apply]
  show V c main_v94 _ = V c main_v94 _
  congr 1
  funext a
  apply Fin.ext
  match a with
  | ⟨0, _⟩ => show win6_0.index t 0 * 5000 + 1 * (x 0).val = (i 0).val; rw [e00, h0]; omega
  | ⟨1, _⟩ => show win6_0.index t 1 * 128 + 1 * (x 1).val = (i 1).val; rw [e01, h1]; omega

theorem iblk6_1_apply (c : Dev nD) (t : Fin cfg6.N) (x : S128x128.Idx) (i : S128x128.Idx)
    (h0 : (i 0).val = (x 0).val) (h1 : (i 1).val = (x 1).val) :
    (iblk6 V c 1 t : Vec Ideal S128x128 .f32) x = (V c main_arg8 : S128x128.Idx → EReal) i := by
  obtain ⟨-, -, e10, e11, -, -⟩ := idx_facts6 t
  unfold iblk6
  rw [View.read_apply]
  show V c main_arg8 _ = V c main_arg8 _
  congr 1
  funext a
  apply Fin.ext
  match a with
  | ⟨0, _⟩ => show win6_1.index t 0 * 128 + 1 * (x 0).val = (i 0).val; rw [e10, h0]; omega
  | ⟨1, _⟩ => show win6_1.index t 1 * 128 + 1 * (x 1).val = (i 1).val; rw [e11, h1]; omega

theorem flushed6_2_eq (c : Dev nD) (t : Fin cfg6.N) :
    (dat6 V c).flushed 2 t = ((cfg6.win 2).blk t).view.read (Elt Ideal) (mm (V c main_v94) (V c main_arg8)) := by
  show (cfg6.win 2).cut (grid6.coords t) ((dat6 V c).after 2 t) = _
  rw [after6_2]
  unfold out6_2
  rw [View.canon_unit_zero hz6]
  simp only [View.ld_unit_zero (S := S5000x128) hz6, View.ld_unit_zero (S := S128x128) hz6]
  obtain ⟨-, -, -, -, e20, e21⟩ := idx_facts6 t
  funext j
  obtain ⟨p, q, rfl⟩ : ∃ (p : Fin 5000) (q : Fin 128), j = ix2 p q := ⟨j 0, j 1, eq_ix2 j⟩
  show (k6_pay1 (F := Ideal) (iblk6 V c 0 t) (iblk6 V c 1 t)) (ix2 p q)
    = mm (V c main_v94) (V c main_arg8) (((cfg6.win 2).blk t).view.emb (ix2 p q))
  refine (pay6_apply (iblk6 V c 0 t) (iblk6 V c 1 t) p q).trans ?_
  unfold mm
  refine Finset.sum_congr rfl fun k _ => ?_
  refine congrArg₂ (· * ·) (iblk6_0_apply V c t (ix2 p k) _ ?_ rfl) (iblk6_1_apply V c t (ix2 k q) _ rfl ?_)
  · show win6_2.index t 0 * 5000 + 1 * p.val = 5000 * t.val + p.val
    rw [e20]; omega
  · show win6_2.index t 1 * 128 + 1 * q.val = q.val
    rw [e21]; omega

theorem mem_blk6_2 (t : Fin cfg6.N) (i : S100000x128.Idx) :
    i ∈ ((cfg6.win 2).blk t).view.set ↔ ∀ a : Fin 2, win6_2.index t a * S5000x128.size a ≤ (i a).val ∧ (i a).val < win6_2.index t a * S5000x128.size a + S5000x128.size a := by
  show i ∈ ((View.whole main_v95).slice (win6_2.rect t)).set ↔ _
  rw [View.set_slice_whole, Rect.mem_set_unit]
  exact Iff.rfl

theorem tiles6_2 (i : S100000x128.Idx) :
    ∃ t : Fin cfg6.N, (cfg6.win 2).flush t = true ∧ i ∈ ((cfg6.win 2).blk t).view.set := by
  have hi0 : (i 0).val < 100000 := idx2_lt0 i
  have hi1 : (i 1).val < 128 := idx2_lt1 i
  have hN : cfg6.N = 20 := N_6
  obtain ⟨t, ht⟩ : ∃ t : Fin cfg6.N, t.val = (i 0).val / 5000 := ⟨⟨(i 0).val / 5000, by rw [hN]; omega⟩, rfl⟩
  obtain ⟨-, -, -, -, e20, e21⟩ := idx_facts6 t
  refine ⟨t, flush6_2 t, ?_⟩
  rw [mem_blk6_2]
  intro a
  match a with
  | ⟨0, _⟩ => show win6_2.index t (0 : Fin 2) * 5000 ≤ (i 0).val ∧ (i 0).val < win6_2.index t (0 : Fin 2) * 5000 + 5000; rw [e20, ht]; omega
  | ⟨1, _⟩ => show win6_2.index t (1 : Fin 2) * 128 ≤ (i 1).val ∧ (i 1).val < win6_2.index t (1 : Fin 2) * 128 + 128; rw [e21]; omega

theorem val6_2 (c : Dev nD) : (dat6 (F := Ideal) V c).arrAt 2 cfg6.N = mm (V c main_v94) (V c main_arg8) :=
  (dat6 V c).arrAt_eq_of_cover 2 (mm (V c main_v94) (V c main_arg8)) (fun t _ => flushed6_2_eq V c t) tiles6_2

end Cert.KernelIdeal.Hand

end
-- ==== Proof.KI.Val7.lean ====
import proofs.«418928_j70858370450169_1_alg».proof.Proof.KI.Reg7
import proofs.«418928_j70858370450169_1_alg».proof.Proof.KI.Pay1
import proofs.«418928_j70858370450169_1_alg».proof.Proof.Spec
import proofs.«418928_j70858370450169_1_alg».proof.Proof.LibTiles
import Idealize.ShloMosaic.Lib.Pipeline.Value
import Idealize.ShloMosaic.Lib.ValueIdx
import Idealize.ShloMosaic.PureOps.Ideal.Laws
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)
open Cert.Spec
open scoped BigOperators
open Idealize.ShloMosaic.ValueIdx

variable (V : (c : Dev nD) → (b : Ref sig .tc) → Buf (Elt Ideal) ((c : Thread nD τ).loc b))

theorem idx_facts7 : ∀ t : Fin cfg7.N,
    win7_0.index t (0 : Fin 2) = t.val ∧ win7_0.index t (1 : Fin 2) = 0
    ∧ win7_1.index t (0 : Fin 2) = t.val ∧ win7_1.index t (1 : Fin 2) = 0
    ∧ win7_2.index t (0 : Fin 2) = t.val ∧ win7_2.index t (1 : Fin 2) = 0
    ∧ win7_3.index t (0 : Fin 2) = 0 ∧ win7_3.index t (1 : Fin 2) = 0
    ∧ win7_4.index t (0 : Fin 2) = t.val ∧ win7_4.index t (1 : Fin 2) = 0
    ∧ win7_5.index t (0 : Fin 2) = 0 ∧ win7_5.index t (1 : Fin 2) = 0
    ∧ win7_6.index t (0 : Fin 2) = 0 ∧ win7_6.index t (1 : Fin 2) = 0 :=
  (by decide +kernel : ∀ t : Fin grid7.N, _)

theorem iblk7_0_apply (c : Dev nD) (t : Fin cfg7.N) (x : S5000x128.Idx) (i : S100000x128.Idx)
    (h0 : (i 0).val = 5000 * t.val + (x 0).val) (h1 : (i 1).val = (x 1).val) :
    (iblk7 V c 0 t : Vec Ideal S5000x128 .f32) x = (V c main_v108 : S100000x128.Idx → EReal) i := by
  have e0 : win7_0.index t (0 : Fin 2) = t.val := (idx_facts7 t).1
  have e1 : win7_0.index t (1 : Fin 2) = 0 := (idx_facts7 t).2.1
  unfold iblk7
  rw [View.read_apply]
  show V c main_v108 _ = V c main_v108 _
  congr 1
  funext a
  apply Fin.ext
  match a with
  | ⟨0, _⟩ => show win7_0.index t 0 * 5000 + 1 * (x 0).val = (i 0).val; rw [e0, h0]; omega
  | ⟨1, _⟩ => show win7_0.index t 1 * 128 + 1 * (x 1).val = (i 1).val; rw [e1, h1]; omega

theorem iblk7_1_apply (c : Dev nD) (t : Fin cfg7.N) (x : S5000x128.Idx) (i : S100000x128.Idx)
    (h0 : (i 0).val = 5000 * t.val + (x 0).val) (h1 : (i 1).val = (x 1).val) :
    (iblk7 V c 1 t : Vec Ideal S5000x128 .f32) x = (V c main_v95 : S100000x128.Idx → EReal) i := by
  have e0 : win7_1.index t (0 : Fin 2) = t.val := (idx_facts7 t).2.2.1
  have e1 : win7_1.index t (1 : Fin 2) = 0 := (idx_facts7 t).2.2.2.1
  unfold iblk7
  rw [View.read_apply]
  show V c main_v95 _ = V c main_v95 _
  congr 1
  funext a
  apply Fin.ext
  match a with
  | ⟨0, _⟩ => show win7_1.index t 0 * 5000 + 1 * (x 0).val = (i 0).val; rw [e0, h0]; omega
  | ⟨1, _⟩ => show win7_1.index t 1 * 128 + 1 * (x 1).val = (i 1).val; rw [e1, h1]; omega

theorem iblk7_2_apply (c : Dev nD) (t : Fin cfg7.N) (x : S5000x1.Idx) (i : S100000x1.Idx)
    (h0 : (i 0).val = 5000 * t.val + (x 0).val) (h1 : (i 1).val = (x 1).val) :
    (iblk7 V c 2 t : Vec Ideal S5000x1 .f32) x = (V c main_v109 : S100000x1.Idx → EReal) i := by
  have e0 : win7_2.index t (0 : Fin 2) = t.val := (idx_facts7 t).2.2.2.2.1
  have e1 : win7_2.index t (1 : Fin 2) = 0 := (idx_facts7 t).2.2.2.2.2.1
  unfold iblk7
  rw [View.read_apply]
  show V c main_v109 _ = V c main_v109 _
  congr 1
  funext a
  apply Fin.ext
  match a with
  | ⟨0, _⟩ => show win7_2.index t 0 * 5000 + 1 * (x 0).val = (i 0).val; rw [e0, h0]; omega
  | ⟨1, _⟩ => show win7_2.index t 1 * 1 + 1 * (x 1).val = (i 1).val; rw [e1, h1]; omega

theorem iblk7_3_apply (c : Dev nD) (t : Fin cfg7.N) (x : S1x128.Idx) (i : S1x128.Idx)
    (h0 : (i 0).val = (x 0).val) (h1 : (i 1).val = (x 1).val) :
    (iblk7 V c 3 t : Vec Ideal S1x128 .f32) x = (V c main_v110 : S1x128.Idx → EReal) i := by
  have e0 : win7_3.index t (0 : Fin 2) = 0 := (idx_facts7 t).2.2.2.2.2.2.1
  have e1 : win7_3.index t (1 : Fin 2) = 0 := (idx_facts7 t).2.2.2.2.2.2.2.1
  unfold iblk7
  rw [View.read_apply]
  show V c main_v110 _ = V c main_v110 _
  congr 1
  funext a
  apply Fin.ext
  match a with
  | ⟨0, _⟩ => show win7_3.index t 0 * 1 + 1 * (x 0).val = (i 0).val; rw [e0, h0]; omega
  | ⟨1, _⟩ => show win7_3.index t 1 * 128 + 1 * (x 1).val = (i 1).val; rw [e1, h1]; omega

theorem act7_apply (c : Dev nD) (t : Fin cfg7.N) (r : Fin 5000) (j : Fin 128) (i : S100000x128.Idx)
    (h0 : (i 0).val = 5000 * t.val + r.val) (h1 : (i 1).val = j.val) :
    k1_pay4 (F := Ideal) (iblk7 V c 0 t) (iblk7 V c 2 t) (iblk7 V c 1 t) (iblk7 V c 3 t) (ix2 r j) = comb (V c main_v108) (V c main_v95) (V c main_v109) (V c main_v110) i := by
  refine (k1_pay4_apply (iblk7 V c 0 t) (iblk7 V c 2 t) (iblk7 V c 1 t) (iblk7 V c 3 t) r j).trans ?_
  unfold comb
  refine congrArg (fun z => max z 0) ?_
  refine congrArg₂ (· + ·) (congrArg₂ (· + ·) (iblk7_0_apply V c t (ix2 r j) i h0 h1)
    (congrArg₂ (· * ·) (iblk7_2_apply V c t (ix2 r (0 : Fin 1)) (ix2 (i 0) (0 : Fin 1)) h0 rfl) (iblk7_1_apply V c t (ix2 r j) i h0 h1)))
    (iblk7_3_apply V c t (ix2 (0 : Fin 1) j) (ix2 (0 : Fin 1) (i 1)) rfl h1)

abbrev row7 (t : Fin cfg7.N) (r : Fin 5000) : Fin 100000 :=
  ⟨5000 * t.val + r.val, by have := t.isLt; have hN : cfg7.N = 20 := N_7; omega⟩

theorem flushed7_4_eq (c : Dev nD) (t : Fin cfg7.N) :
    (dat7 V c).flushed 4 t = ((cfg7.win 4).blk t).view.read (Elt Ideal) (comb (V c main_v108) (V c main_v95) (V c main_v109) (V c main_v110)) := by
  show (cfg7.win 4).cut (grid7.coords t) ((dat7 V c).after 4 t) = _
  rw [after7_4]
  have e0 : win7_4.index t (0 : Fin 2) = t.val := (idx_facts7 t).2.2.2.2.2.2.2.2.1
  have e1 : win7_4.index t (1 : Fin 2) = 0 := (idx_facts7 t).2.2.2.2.2.2.2.2.2.1
  funext y
  obtain ⟨r, j, rfl⟩ : ∃ (r : Fin 5000) (j : Fin 128), y = ix2 r j := ⟨y 0, y 1, eq_ix2 y⟩
  show k1_pay4 (F := Ideal) (iblk7 V c 0 t) (iblk7 V c 2 t) (iblk7 V c 1 t) (iblk7 V c 3 t) (ix2 r j)
    = comb (V c main_v108) (V c main_v95) (V c main_v109) (V c main_v110) (((cfg7.win 4).blk t).view.emb (ix2 r j))
  refine act7_apply V c t r j _ ?_ ?_
  · show win7_4.index t 0 * 5000 + 1 * r.val = 5000 * t.val + r.val
    rw [e0]; omega
  · show win7_4.index t 1 * 128 + 1 * j.val = j.val
    rw [e1]; omega

theorem mem_blk7_4 (t : Fin cfg7.N) (i : S100000x128.Idx) :
    i ∈ ((cfg7.win 4).blk t).view.set ↔ ∀ a : Fin 2, win7_4.index t a * S5000x128.size a ≤ (i a).val ∧ (i a).val < win7_4.index t a * S5000x128.size a + S5000x128.size a := by
  show i ∈ ((View.whole main_v111_0).slice (win7_4.rect t)).set ↔ _
  rw [View.set_slice_whole, Rect.mem_set_unit]
  exact Iff.rfl

theorem tiles7_4 (i : S100000x128.Idx) :
    ∃ t : Fin cfg7.N, (cfg7.win 4).flush t = true ∧ i ∈ ((cfg7.win 4).blk t).view.set := by
  have hi0 : (i 0).val < 100000 := idx2_lt0 i
  have hi1 : (i 1).val < 128 := idx2_lt1 i
  have hN : cfg7.N = 20 := N_7
  obtain ⟨t, ht⟩ : ∃ t : Fin cfg7.N, t.val = (i 0).val / 5000 := ⟨⟨(i 0).val / 5000, by rw [hN]; omega⟩, rfl⟩
  have e0 : win7_4.index t (0 : Fin 2) = t.val := (idx_facts7 t).2.2.2.2.2.2.2.2.1
  have e1 : win7_4.index t (1 : Fin 2) = 0 := (idx_facts7 t).2.2.2.2.2.2.2.2.2.1
  refine ⟨t, flush7_4 t, ?_⟩
  rw [mem_blk7_4]
  intro a
  match a with
  | ⟨0, _⟩ => show win7_4.index t (0 : Fin 2) * 5000 ≤ (i 0).val ∧ (i 0).val < win7_4.index t (0 : Fin 2) * 5000 + 5000; rw [e0, ht]; omega
  | ⟨1, _⟩ => show win7_4.index t (1 : Fin 2) * 128 ≤ (i 1).val ∧ (i 1).val < win7_4.index t (1 : Fin 2) * 128 + 128; rw [e1]; omega

theorem val7_4 (c : Dev nD) : (dat7 (F := Ideal) V c).arrAt 4 cfg7.N = comb (V c main_v108) (V c main_v95) (V c main_v109) (V c main_v110) :=
  (dat7 V c).arrAt_eq_of_cover 4 (comb (V c main_v108) (V c main_v95) (V c main_v109) (V c main_v110)) (fun t _ => flushed7_4_eq V c t) tiles7_4

theorem rows7 : cfg7.N * 5000 = 100000 := by rw [show cfg7.N = 20 from N_7]

abbrev last7 : Fin cfg7.N := ⟨cfg7.N - 1, by have hN : cfg7.N = 20 := N_7; omega⟩

theorem acc7_fst_last (c : Dev nD) (j : Fin 128) (t : Fin cfg7.N) (ht : t = last7) :
    (acc7 V c t.val t.isLt).1 (ix2 (0 : Fin 1) j) = ∑ n : Fin 100000, comb (V c main_v108) (V c main_v95) (V c main_v109) (V c main_v110) (ix2 n j) := by
  subst ht
  have hN : cfg7.N = 20 := N_7
  have h := Cert.LibTiles.acc_fin_last (T := cfg7.N)
    (fun t : Fin cfg7.N => (acc7 V c t.val t.isLt).1 (ix2 (0 : Fin 1) j))
    (fun t : Fin cfg7.N => ∑ r : Fin 5000, k1_pay4 (F := Ideal) (iblk7 V c 0 t) (iblk7 V c 2 t) (iblk7 V c 1 t) (iblk7 V c 3 t) (ix2 r j))
    (0 : EReal)
    (fun h0 => by
      show k1_pay5 (F := Ideal) (iblk7 V c 0 ⟨0, h0⟩) (iblk7 V c 2 ⟨0, h0⟩) (iblk7 V c 1 ⟨0, h0⟩) (iblk7 V c 3 ⟨0, h0⟩) (k1_pay2 (F := Ideal)) (ix2 (0 : Fin 1) j) = _
      refine (k1_pay5_apply (iblk7 V c 0 ⟨0, h0⟩) (iblk7 V c 2 ⟨0, h0⟩) (iblk7 V c 1 ⟨0, h0⟩) (iblk7 V c 3 ⟨0, h0⟩) (k1_pay2 (F := Ideal)) j).trans ?_
      rw [k1_pay2_apply])
    (fun n hn => by
      show k1_pay5 (F := Ideal) (iblk7 V c 0 ⟨n + 1, hn⟩) (iblk7 V c 2 ⟨n + 1, hn⟩) (iblk7 V c 1 ⟨n + 1, hn⟩) (iblk7 V c 3 ⟨n + 1, hn⟩) (acc7 V c n (Nat.lt_of_succ_lt hn)).1 (ix2 (0 : Fin 1) j) = _
      exact k1_pay5_apply (iblk7 V c 0 ⟨n + 1, hn⟩) (iblk7 V c 2 ⟨n + 1, hn⟩) (iblk7 V c 1 ⟨n + 1, hn⟩) (iblk7 V c 3 ⟨n + 1, hn⟩) (acc7 V c n (Nat.lt_of_succ_lt hn)).1 j)
    (by omega)
  refine h.trans ?_
  rw [zero_add]
  rw [← Cert.LibTiles.sum_tiles_of (T := cfg7.N) (R := 5000) rows7 (fun n : Fin 100000 => comb (V c main_v108) (V c main_v95) (V c main_v109) (V c main_v110) (ix2 n j))
    (fun t r => (row7 t r).isLt)]
  refine Finset.sum_congr rfl fun t _ => Finset.sum_congr rfl fun r _ => ?_
  exact act7_apply V c t r j (ix2 (row7 t r) j) rfl rfl

theorem acc7_snd_last (c : Dev nD) (j : Fin 128) (t : Fin cfg7.N) (ht : t = last7) :
    (acc7 V c t.val t.isLt).2 (ix2 (0 : Fin 1) j)
      = ∑ n : Fin 100000, comb (V c main_v108) (V c main_v95) (V c main_v109) (V c main_v110) (ix2 n j) * comb (V c main_v108) (V c main_v95) (V c main_v109) (V c main_v110) (ix2 n j) := by
  subst ht
  have hN : cfg7.N = 20 := N_7
  have h := Cert.LibTiles.acc_fin_last (T := cfg7.N)
    (fun t : Fin cfg7.N => (acc7 V c t.val t.isLt).2 (ix2 (0 : Fin 1) j))
    (fun t : Fin cfg7.N => ∑ r : Fin 5000, k1_pay4 (F := Ideal) (iblk7 V c 0 t) (iblk7 V c 2 t) (iblk7 V c 1 t) (iblk7 V c 3 t) (ix2 r j) * k1_pay4 (F := Ideal) (iblk7 V c 0 t) (iblk7 V c 2 t) (iblk7 V c 1 t) (iblk7 V c 3 t) (ix2 r j))
    (0 : EReal)
    (fun h0 => by
      show k1_pay1 (F := Ideal) (k1_pay6 (F := Ideal) (iblk7 V c 0 ⟨0, h0⟩) (iblk7 V c 2 ⟨0, h0⟩) (iblk7 V c 1 ⟨0, h0⟩) (iblk7 V c 3 ⟨0, h0⟩) (k1_pay3 (F := Ideal))) (ix2 (0 : Fin 1) j) = _
      rw [k1_pay1_eq]
      refine (k1_pay6_apply (iblk7 V c 0 ⟨0, h0⟩) (iblk7 V c 2 ⟨0, h0⟩) (iblk7 V c 1 ⟨0, h0⟩) (iblk7 V c 3 ⟨0, h0⟩) (k1_pay3 (F := Ideal)) j).trans ?_
      rw [k1_pay3_apply])
    (fun n hn => by
      show k1_pay1 (F := Ideal) (k1_pay6 (F := Ideal) (iblk7 V c 0 ⟨n + 1, hn⟩) (iblk7 V c 2 ⟨n + 1, hn⟩) (iblk7 V c 1 ⟨n + 1, hn⟩) (iblk7 V c 3 ⟨n + 1, hn⟩) (acc7 V c n (Nat.lt_of_succ_lt hn)).2) (ix2 (0 : Fin 1) j) = _
      rw [k1_pay1_eq]
      exact k1_pay6_apply (iblk7 V c 0 ⟨n + 1, hn⟩) (iblk7 V c 2 ⟨n + 1, hn⟩) (iblk7 V c 1 ⟨n + 1, hn⟩) (iblk7 V c 3 ⟨n + 1, hn⟩) (acc7 V c n (Nat.lt_of_succ_lt hn)).2 j)
    (by omega)
  refine h.trans ?_
  rw [zero_add]
  rw [← Cert.LibTiles.sum_tiles_of (T := cfg7.N) (R := 5000) rows7 (fun n : Fin 100000 => comb (V c main_v108) (V c main_v95) (V c main_v109) (V c main_v110) (ix2 n j) * comb (V c main_v108) (V c main_v95) (V c main_v109) (V c main_v110) (ix2 n j))
    (fun t r => (row7 t r).isLt)]
  refine Finset.sum_congr rfl fun t _ => Finset.sum_congr rfl fun r _ => ?_
  rw [act7_apply V c t r j (ix2 (row7 t r) j) rfl rfl]

theorem flush7_last (t : Fin cfg7.N) (h : t.val % 20 = 19) : t = last7 := by
  have hN : cfg7.N = 20 := N_7
  exact Fin.ext (by show t.val = cfg7.N - 1; have := t.isLt; omega)

theorem whole7_5 (t : Fin cfg7.N) (G : Vec Ideal S1x128 .f32) :
    (cfg7.win 5).cut (grid7.coords t) G = ((cfg7.win 5).blk t).view.read (Elt Ideal) G := by
  have e0 : win7_5.index t (0 : Fin 2) = 0 := (idx_facts7 t).2.2.2.2.2.2.2.2.2.2.1
  have e1 : win7_5.index t (1 : Fin 2) = 0 := (idx_facts7 t).2.2.2.2.2.2.2.2.2.2.2.1
  have hz' : (fun a => win7_5.index t a * main_v111_1.ty.shape.size a) = fun _ => 0 := funext fun a => by
    match a with
    | ⟨0, _⟩ => show win7_5.index t 0 * 1 = 0; rw [e0]
    | ⟨1, _⟩ => show win7_5.index t 1 * 128 = 0; rw [e1]
  exact (Memref.read_access_unit_zero (Elt Ideal) main_v111_1 hz' (fun a => by rw [congrFun hz' a]; simp) G).symm

theorem flushed7_5_eq (c : Dev nD) (t : Fin cfg7.N) (hf : (cfg7.win 5).flush t = true) :
    (dat7 V c).flushed 5 t = ((cfg7.win 5).blk t).view.read (Elt Ideal) (colsum (comb (V c main_v108) (V c main_v95) (V c main_v109) (V c main_v110))) := by
  have ht : t = last7 := flush7_last t ((flush7_5 t).mp hf)
  have hG : (acc7 V c t.val t.isLt).1 = colsum (comb (V c main_v108) (V c main_v95) (V c main_v109) (V c main_v110)) := by
    funext y
    obtain ⟨u, j, rfl⟩ : ∃ (u : Fin 1) (j : Fin 128), y = ix2 u j := ⟨y 0, y 1, eq_ix2 y⟩
    obtain rfl : u = 0 := Subsingleton.elim _ _
    unfold colsum
    exact acc7_fst_last V c j t ht
  show (cfg7.win 5).cut (grid7.coords t) ((dat7 V c).after 5 t) = _
  rw [after7_5, hG]
  exact whole7_5 t _

theorem tiles7_5 (i : S1x128.Idx) :
    ∃ t : Fin cfg7.N, (cfg7.win 5).flush t = true ∧ i ∈ ((cfg7.win 5).blk t).view.set := by
  have hi0 : (i 0).val < 1 := idx2_lt0 i
  have hi1 : (i 1).val < 128 := idx2_lt1 i
  have hN : cfg7.N = 20 := N_7
  have e0 : win7_5.index last7 (0 : Fin 2) = 0 := (idx_facts7 last7).2.2.2.2.2.2.2.2.2.2.1
  have e1 : win7_5.index last7 (1 : Fin 2) = 0 := (idx_facts7 last7).2.2.2.2.2.2.2.2.2.2.2.1
  refine ⟨last7, (flush7_5 last7).mpr (by show (cfg7.N - 1) % 20 = 19; omega), ?_⟩
  show i ∈ ((View.whole main_v111_1).slice (win7_5.rect last7)).set
  rw [View.set_slice_whole, Rect.mem_set_unit]
  intro a
  match a with
  | ⟨0, _⟩ => show win7_5.index last7 (0 : Fin 2) * 1 ≤ (i 0).val ∧ (i 0).val < win7_5.index last7 (0 : Fin 2) * 1 + 1; rw [e0]; omega
  | ⟨1, _⟩ => show win7_5.index last7 (1 : Fin 2) * 128 ≤ (i 1).val ∧ (i 1).val < win7_5.index last7 (1 : Fin 2) * 128 + 128; rw [e1]; omega

theorem val7_5 (c : Dev nD) : (dat7 (F := Ideal) V c).arrAt 5 cfg7.N = colsum (comb (V c main_v108) (V c main_v95) (V c main_v109) (V c main_v110)) :=
  (dat7 V c).arrAt_eq_of_cover 5 (colsum (comb (V c main_v108) (V c main_v95) (V c main_v109) (V c main_v110))) (flushed7_5_eq V c) tiles7_5

theorem whole7_6 (t : Fin cfg7.N) (G : Vec Ideal S1x128 .f32) :
    (cfg7.win 6).cut (grid7.coords t) G = ((cfg7.win 6).blk t).view.read (Elt Ideal) G := by
  have e0 : win7_6.index t (0 : Fin 2) = 0 := (idx_facts7 t).2.2.2.2.2.2.2.2.2.2.2.2.1
  have e1 : win7_6.index t (1 : Fin 2) = 0 := (idx_facts7 t).2.2.2.2.2.2.2.2.2.2.2.2.2
  have hz' : (fun a => win7_6.index t a * main_v111_2.ty.shape.size a) = fun _ => 0 := funext fun a => by
    match a with
    | ⟨0, _⟩ => show win7_6.index t 0 * 1 = 0; rw [e0]
    | ⟨1, _⟩ => show win7_6.index t 1 * 128 = 0; rw [e1]
  exact (Memref.read_access_unit_zero (Elt Ideal) main_v111_2 hz' (fun a => by rw [congrFun hz' a]; simp) G).symm

theorem flushed7_6_eq (c : Dev nD) (t : Fin cfg7.N) (hf : (cfg7.win 6).flush t = true) :
    (dat7 V c).flushed 6 t = ((cfg7.win 6).blk t).view.read (Elt Ideal) (colsumsq (comb (V c main_v108) (V c main_v95) (V c main_v109) (V c main_v110))) := by
  have ht : t = last7 := flush7_last t ((flush7_6 t).mp hf)
  have hG : (acc7 V c t.val t.isLt).2 = colsumsq (comb (V c main_v108) (V c main_v95) (V c main_v109) (V c main_v110)) := by
    funext y
    obtain ⟨u, j, rfl⟩ : ∃ (u : Fin 1) (j : Fin 128), y = ix2 u j := ⟨y 0, y 1, eq_ix2 y⟩
    obtain rfl : u = 0 := Subsingleton.elim _ _
    unfold colsumsq
    exact acc7_snd_last V c j t ht
  show (cfg7.win 6).cut (grid7.coords t) ((dat7 V c).after 6 t) = _
  rw [after7_6, hG]
  exact whole7_6 t _

theorem tiles7_6 (i : S1x128.Idx) :
    ∃ t : Fin cfg7.N, (cfg7.win 6).flush t = true ∧ i ∈ ((cfg7.win 6).blk t).view.set := by
  have hi0 : (i 0).val < 1 := idx2_lt0 i
  have hi1 : (i 1).val < 128 := idx2_lt1 i
  have hN : cfg7.N = 20 := N_7
  have e0 : win7_6.index last7 (0 : Fin 2) = 0 := (idx_facts7 last7).2.2.2.2.2.2.2.2.2.2.2.2.1
  have e1 : win7_6.index last7 (1 : Fin 2) = 0 := (idx_facts7 last7).2.2.2.2.2.2.2.2.2.2.2.2.2
  refine ⟨last7, (flush7_6 last7).mpr (by show (cfg7.N - 1) % 20 = 19; omega), ?_⟩
  show i ∈ ((View.whole main_v111_2).slice (win7_6.rect last7)).set
  rw [View.set_slice_whole, Rect.mem_set_unit]
  intro a
  match a with
  | ⟨0, _⟩ => show win7_6.index last7 (0 : Fin 2) * 1 ≤ (i 0).val ∧ (i 0).val < win7_6.index last7 (0 : Fin 2) * 1 + 1; rw [e0]; omega
  | ⟨1, _⟩ => show win7_6.index last7 (1 : Fin 2) * 128 ≤ (i 1).val ∧ (i 1).val < win7_6.index last7 (1 : Fin 2) * 128 + 128; rw [e1]; omega

theorem val7_6 (c : Dev nD) : (dat7 (F := Ideal) V c).arrAt 6 cfg7.N = colsumsq (comb (V c main_v108) (V c main_v95) (V c main_v109) (V c main_v110)) :=
  (dat7 V c).arrAt_eq_of_cover 6 (colsumsq (comb (V c main_v108) (V c main_v95) (V c main_v109) (V c main_v110))) (flushed7_6_eq V c) tiles7_6

end Cert.KernelIdeal.Hand

end
-- ==== Proof.KI.Val8.lean ====
import proofs.«418928_j70858370450169_1_alg».proof.Proof.KI.Reg8
import proofs.«418928_j70858370450169_1_alg».proof.Proof.KI.Pay2
import proofs.«418928_j70858370450169_1_alg».proof.Proof.Spec
import Idealize.ShloMosaic.Lib.Pipeline.Value
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)

section Value

open Cert.Spec
open Idealize.ShloMosaic.ValueIdx

theorem val8_idx : ∀ t : Fin cfg8.N, win8_0.index t (0 : Fin 2) = t.val ∧ win8_0.index t (1 : Fin 2) = 0
    ∧ win8_1.index t (0 : Fin 2) = 0 ∧ win8_1.index t (1 : Fin 2) = 0
    ∧ win8_2.index t (0 : Fin 2) = 0 ∧ win8_2.index t (1 : Fin 2) = 0
    ∧ win8_3.index t (0 : Fin 2) = t.val ∧ win8_3.index t (1 : Fin 2) = 0 :=
  (by decide +kernel : ∀ t : Fin grid8.N, _)

variable (V : (c : Dev nD) → (b : Ref sig .tc) → Buf (Elt Ideal) ((c : Thread nD τ).loc b))

abbrev val8_act (c : Dev nD) : SNH.Idx → EReal := V c main_v111_0
abbrev val8_scale (c : Dev nD) : S1H.Idx → EReal := V c main_v126
abbrev val8_shift (c : Dev nD) : S1H.Idx → EReal := V c main_v127

theorem val8_flushed (c : Dev nD) (t : Fin cfg8.N) :
    (dat8 (F := Ideal) V c).flushed 3 t
      = ((cfg8.win 3).blk t).view.read (Elt Ideal) (affine (V c main_v111_0) (V c main_v126) (V c main_v127)) := by
  show (cfg8.win 3).cut (grid8.coords t) ((dat8 (F := Ideal) V c).after 3 t) = _
  rw [after8_3]
  unfold out2_3
  rw [View.canon_unit_zero val2_hz]
  simp only [View.ld_unit_zero (S := S5000x128) val2_hz, View.ld_unit_zero (S := S1x128) val2_hz]
  obtain ⟨e0, e1, e2, e3, e4, e5, e6, e7⟩ := val8_idx t
  funext y
  obtain ⟨r, j, rfl⟩ : ∃ (r : Fin 5000) (j : Fin 128), y = ix2 r j := ⟨y 0, y 1, eq_ix2 y⟩
  refine (val2_pay (iblk8 V c 0 t) (iblk8 V c 1 t) (iblk8 V c 2 t) r j).trans ?_

  show val8_act V c (((cfg8.win 0).blk t).view.emb (ix2 r j)) * val8_scale V c (((cfg8.win 1).blk t).view.emb (ix2 (0 : Fin 1) j))
      + val8_shift V c (((cfg8.win 2).blk t).view.emb (ix2 (0 : Fin 1) j))
    = affine (val8_act V c) (val8_scale V c) (val8_shift V c) (((cfg8.win 3).blk t).view.emb (ix2 r j))
  have h0 : ((cfg8.win 0).blk t).view.emb (ix2 r j) = ((cfg8.win 3).blk t).view.emb (ix2 r j) := by
    funext a; apply Fin.ext
    match a with
    | ⟨0, _⟩ => show win8_0.index t (0 : Fin 2) * 5000 + 1 * r.val = win8_3.index t (0 : Fin 2) * 5000 + 1 * r.val; omega
    | ⟨1, _⟩ => show win8_0.index t (1 : Fin 2) * 128 + 1 * j.val = win8_3.index t (1 : Fin 2) * 128 + 1 * j.val; omega
  have h1 : ((cfg8.win 1).blk t).view.emb (ix2 (0 : Fin 1) j) = ix2 (0 : Fin 1) ((((cfg8.win 3).blk t).view.emb (ix2 r j)) 1) := by
    funext a; apply Fin.ext
    match a with
    | ⟨0, _⟩ => show win8_1.index t (0 : Fin 2) * 1 + 1 * 0 = 0; omega
    | ⟨1, _⟩ => show win8_1.index t (1 : Fin 2) * 128 + 1 * j.val = win8_3.index t (1 : Fin 2) * 128 + 1 * j.val; omega
  have h2 : ((cfg8.win 2).blk t).view.emb (ix2 (0 : Fin 1) j) = ix2 (0 : Fin 1) ((((cfg8.win 3).blk t).view.emb (ix2 r j)) 1) := by
    funext a; apply Fin.ext
    match a with
    | ⟨0, _⟩ => show win8_2.index t (0 : Fin 2) * 1 + 1 * 0 = 0; omega
    | ⟨1, _⟩ => show win8_2.index t (1 : Fin 2) * 128 + 1 * j.val = win8_3.index t (1 : Fin 2) * 128 + 1 * j.val; omega
  rw [h0, h1, h2]
  rfl

theorem val8_mem (t : Fin cfg8.N) (i : S100000x128.Idx) :
    i ∈ ((cfg8.win 3).blk t).view.set ↔ ∀ a : Fin 2, win8_3.index t a * S5000x128.size a ≤ (i a).val ∧ (i a).val < win8_3.index t a * S5000x128.size a + S5000x128.size a := by
  show i ∈ ((View.whole main_v128).slice (win8_3.rect t)).set ↔ _
  rw [View.set_slice_whole, Rect.mem_set_unit]
  exact Iff.rfl

theorem val8_cover (i : S100000x128.Idx) : ∃ t : Fin cfg8.N, (cfg8.win 3).flush t = true ∧ i ∈ ((cfg8.win 3).blk t).view.set := by
  have hi0 : (i 0).val < 100000 := (i 0).isLt
  have hi1 : (i 1).val < 128 := (i 1).isLt
  refine ⟨⟨(i 0).val / 5000, by show (i 0).val / 5000 < 20; omega⟩, flush8_3 _, ?_⟩
  obtain ⟨-, -, -, -, -, -, e6, e7⟩ := val8_idx ⟨(i 0).val / 5000, by show (i 0).val / 5000 < 20; omega⟩
  rw [val8_mem]
  intro a
  match a with
  | ⟨0, _⟩ =>
    show win8_3.index _ (0 : Fin 2) * 5000 ≤ (i 0).val ∧ (i 0).val < win8_3.index _ (0 : Fin 2) * 5000 + 5000
    rw [e6]; show (i 0).val / 5000 * 5000 ≤ (i 0).val ∧ (i 0).val < (i 0).val / 5000 * 5000 + 5000; omega
  | ⟨1, _⟩ =>
    show win8_3.index _ (1 : Fin 2) * 128 ≤ (i 1).val ∧ (i 1).val < win8_3.index _ (1 : Fin 2) * 128 + 128
    rw [e7]; omega

theorem val8_3 (c : Dev nD) : (dat8 (F := Ideal) V c).arrAt 3 cfg8.N = affine (V c main_v111_0) (V c main_v126) (V c main_v127) :=
  (dat8 (F := Ideal) V c).arrAt_eq_of_cover 3 (affine (V c main_v111_0) (V c main_v126) (V c main_v127))
    (fun t _ => val8_flushed V c t) val8_cover

end Value

end Cert.KernelIdeal.Hand

end
-- ==== Proof.KI.Pay9.lean ====
import proofs.«418928_j70858370450169_1_alg».proof.Proof.Gen.KernelIdeal.Skeleton
import proofs.«418928_j70858370450169_1_alg».proof.Proof.Spec
import Idealize.ShloMosaic.PureOps.Ideal.Laws
import Idealize.ShloMosaic.Lib.Pipeline.Value
import Idealize.ShloMosaic.Lib.ValueIdx
import Idealize.ShloMosaic.Lib.ValueLayout
import Idealize.ShloMosaic.Lib.IdealHost

set_option maxRecDepth 16384

noncomputable section

namespace Cert.KernelIdeal.Hand

open Cert.KernelIdeal Cert.KernelIdeal.Gen
open Idealize.ShloMosaic
open Cert.Spec
open Idealize.ShloMosaic.ValueIdx
open scoped BigOperators

theorem broadcastTo_a1_ab_apply_9 {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

theorem k9_pay1_apply (i : S256x128.Idx) : (k9_pay1 (F := Ideal)) i = 0 := by
  unfold k9_pay1
  rw [shapeCast_self, broadcast_apply]
  exact Ideal.ofBits_zero_f32

theorem k9_pay2_apply (i : S256x1.Idx) : (k9_pay2 (F := Ideal)) i = 0 := by
  unfold k9_pay2
  rw [shapeCast_self, broadcast_apply]
  exact Ideal.ofBits_zero_f32

theorem k9_pay3_apply (v4 : Vec Ideal S5000x1 .i32) (r : Fin 5000) (g : Fin 256) :
    k9_pay3 (F := Ideal) v4 (ix2 r g) = hit (v4 (ix2 r 0)) g := by
  unfold k9_pay3
  rw [sitofp_apply, extui_apply]
  show FloatOps.sitofp (F := Ideal) .f32 ((IntOp.cmpi .eq (broadcastTo S5000x256 (shapeCast S5000x1 v4 shapeCasts_S5000x1_S5000x1) broadcasts_S5000x1_S5000x256 (ix2 r g)) (iota .tc S5000x256 32 [1] iota_S5000x256_d1_w32 (ix2 r g))).setWidth 32) = _
  rw [iota_single_apply, shapeCast_self, broadcastTo_a1_ab_apply_9]
  show FloatOps.sitofp (F := Ideal) .f32 (BitVec.setWidth 32 (IntOp.cmpi .eq (v4 (ix2 r 0)) (BitVec.ofNat 32 g.val))) = _
  unfold hit
  by_cases h : v4 (ix2 r 0) = BitVec.ofNat 32 g.val
  · have hc : IntOp.cmpi .eq (v4 (ix2 r 0)) (BitVec.ofNat 32 g.val) = 1#1 := by simp [IntOp.cmpi, h]
    rw [if_pos h, hc]
    show (((BitVec.setWidth 32 1#1).toInt : ℝ) : EReal) = 1
    rw [show (BitVec.setWidth 32 1#1).toInt = 1 from by decide]
    norm_num
  · have hb : (v4 (ix2 r 0) == BitVec.ofNat 32 g.val) = false := beq_eq_false_iff_ne.mpr h
    have hc : IntOp.cmpi .eq (v4 (ix2 r 0)) (BitVec.ofNat 32 g.val) = 0#1 := by simp only [IntOp.cmpi, hb]; rfl
    rw [if_neg h, hc]
    show (((BitVec.setWidth 32 0#1).toInt : ℝ) : EReal) = 0
    rw [show (BitVec.setWidth 32 0#1).toInt = 0 from by decide]
    norm_num

theorem k9_pay6_apply (v25 : Vec Ideal S256x128 .f32) (v26 : Vec Ideal S256x1 .f32) (g : Fin 256) (j : Fin 128) :
    k9_pay6 (F := Ideal) v25 v26 (ix2 g j) = Ideal.div (v25 (ix2 g j)) (max (v26 (ix2 g 0)) 1) := by
  unfold k9_pay6
  rw [divf_apply, broadcastTo_a1_ab_apply_9, maximumf_apply, broadcast_apply]
  show Ideal.div _ (max _ (Ideal.ofBits .f32 0x3F800000#32)) = _
  rw [Ideal.ofBits_one_f32]

theorem lhs_sum9_0 (i : S256x128.Idx) (q : dot_S5000x256_S5000x128_S256x128_0_0_1_1_n_n.contr.Idx) :
    (dot_S5000x256_S5000x128_S256x128_0_0_1_1_n_n.lhsIdx i q 0).val = (q ⟨0, by decide⟩).val :=
  dot_S5000x256_S5000x128_S256x128_0_0_1_1_n_n.lhsIdx_val_of_single rfl i q
theorem lhs_sum9_1 (i : S256x128.Idx) (q : dot_S5000x256_S5000x128_S256x128_0_0_1_1_n_n.contr.Idx) :
    (dot_S5000x256_S5000x128_S256x128_0_0_1_1_n_n.lhsIdx i q 1).val = (i 0).val := by
  unfold DotDims.lhsIdx
  rw [dif_neg (show ¬(1 : Fin S5000x256.rank) ∈ dot_S5000x256_S5000x128_S256x128_0_0_1_1_n_n.lhsBatch by decide), dif_pos (show (1 : Fin S5000x256.rank) ∈ dot_S5000x256_S5000x128_S256x128_0_0_1_1_n_n.lhsNonContracting by decide)]
  rfl
theorem rhs_sum9_0 (i : S256x128.Idx) (q : dot_S5000x256_S5000x128_S256x128_0_0_1_1_n_n.contr.Idx) :
    (dot_S5000x256_S5000x128_S256x128_0_0_1_1_n_n.rhsIdx i q 0).val = (q ⟨0, by decide⟩).val :=
  dot_S5000x256_S5000x128_S256x128_0_0_1_1_n_n.rhsIdx_val_of_single rfl i q
theorem rhs_sum9_1 (i : S256x128.Idx) (q : dot_S5000x256_S5000x128_S256x128_0_0_1_1_n_n.contr.Idx) :
    (dot_S5000x256_S5000x128_S256x128_0_0_1_1_n_n.rhsIdx i q 1).val = (i 1).val := by
  unfold DotDims.rhsIdx
  rw [dif_neg (show ¬(1 : Fin S5000x128.rank) ∈ dot_S5000x256_S5000x128_S256x128_0_0_1_1_n_n.rhsBatch by decide), dif_pos (show (1 : Fin S5000x128.rank) ∈ dot_S5000x256_S5000x128_S256x128_0_0_1_1_n_n.rhsNonContracting by decide)]
  rfl

theorem lhs_cnt9_0 (i : S256x1.Idx) (q : dot_S5000x256_S5000x1_S256x1_0_0_1_1_n_n.contr.Idx) :
    (dot_S5000x256_S5000x1_S256x1_0_0_1_1_n_n.lhsIdx i q 0).val = (q ⟨0, by decide⟩).val :=
  dot_S5000x256_S5000x1_S256x1_0_0_1_1_n_n.lhsIdx_val_of_single rfl i q
theorem lhs_cnt9_1 (i : S256x1.Idx) (q : dot_S5000x256_S5000x1_S256x1_0_0_1_1_n_n.contr.Idx) :
    (dot_S5000x256_S5000x1_S256x1_0_0_1_1_n_n.lhsIdx i q 1).val = (i 0).val := by
  unfold DotDims.lhsIdx
  rw [dif_neg (show ¬(1 : Fin S5000x256.rank) ∈ dot_S5000x256_S5000x1_S256x1_0_0_1_1_n_n.lhsBatch by decide), dif_pos (show (1 : Fin S5000x256.rank) ∈ dot_S5000x256_S5000x1_S256x1_0_0_1_1_n_n.lhsNonContracting by decide)]
  rfl
theorem rhs_cnt9_0 (i : S256x1.Idx) (q : dot_S5000x256_S5000x1_S256x1_0_0_1_1_n_n.contr.Idx) :
    (dot_S5000x256_S5000x1_S256x1_0_0_1_1_n_n.rhsIdx i q 0).val = (q ⟨0, by decide⟩).val :=
  dot_S5000x256_S5000x1_S256x1_0_0_1_1_n_n.rhsIdx_val_of_single rfl i q
theorem rhs_cnt9_1 (i : S256x1.Idx) (q : dot_S5000x256_S5000x1_S256x1_0_0_1_1_n_n.contr.Idx) :
    (dot_S5000x256_S5000x1_S256x1_0_0_1_1_n_n.rhsIdx i q 1).val = (i 1).val := by
  unfold DotDims.rhsIdx
  rw [dif_neg (show ¬(1 : Fin S5000x1.rank) ∈ dot_S5000x256_S5000x1_S256x1_0_0_1_1_n_n.rhsBatch by decide), dif_pos (show (1 : Fin S5000x1.rank) ∈ dot_S5000x256_S5000x1_S256x1_0_0_1_1_n_n.rhsNonContracting by decide)]
  rfl

theorem k9_pay4_apply (v4 : Vec Ideal S5000x1 .i32) (v10 : Vec Ideal S256x128 .f32) (v11 : Vec Ideal S5000x128 .f32) (g : Fin 256) (j : Fin 128) :
    k9_pay4 (F := Ideal) v4 v10 v11 (ix2 g j) = v10 (ix2 g j) + ∑ r : Fin 5000, hit (v4 (ix2 r 0)) g * v11 (ix2 r j) := by
  unfold k9_pay4
  rw [shapeCast_self, shapeCast_self, addf_apply]
  simp only [matmul]
  rw [Ideal.matmul_constant_zero_apply, ← Equiv.sum_comp (contrEquiv1 dot_S5000x256_S5000x128_S256x128_0_0_1_1_n_n 5000 rfl rfl).symm]
  refine congrArg (v10 (ix2 g j) + ·) (Finset.sum_congr rfl fun r _ => ?_)
  have hk := contrEquiv1_symm_val dot_S5000x256_S5000x128_S256x128_0_0_1_1_n_n 5000 rfl rfl r
  have el : dot_S5000x256_S5000x128_S256x128_0_0_1_1_n_n.lhsIdx (ix2 g j) ((contrEquiv1 dot_S5000x256_S5000x128_S256x128_0_0_1_1_n_n 5000 rfl rfl).symm r) = ix2 r g := funext fun a => Fin.ext (by
    match a with
    | ⟨0, _⟩ => exact (lhs_sum9_0 _ _).trans hk
    | ⟨1, _⟩ => exact lhs_sum9_1 _ _)
  have er : dot_S5000x256_S5000x128_S256x128_0_0_1_1_n_n.rhsIdx (ix2 g j) ((contrEquiv1 dot_S5000x256_S5000x128_S256x128_0_0_1_1_n_n 5000 rfl rfl).symm r) = ix2 r j := funext fun a => Fin.ext (by
    match a with
    | ⟨0, _⟩ => exact (rhs_sum9_0 _ _).trans hk
    | ⟨1, _⟩ => exact rhs_sum9_1 _ _)
  rw [el, er, k9_pay3_apply]

theorem k9_pay5_apply (v4 : Vec Ideal S5000x1 .i32) (v19 : Vec Ideal S256x1 .f32) (g : Fin 256) :
    k9_pay5 (F := Ideal) v4 v19 (ix2 g (0 : Fin 1)) = v19 (ix2 g (0 : Fin 1)) + ∑ r : Fin 5000, hit (v4 (ix2 r 0)) g := by
  unfold k9_pay5
  rw [shapeCast_self, addf_apply]
  simp only [matmul]
  rw [Ideal.matmul_constant_zero_apply, ← Equiv.sum_comp (contrEquiv1 dot_S5000x256_S5000x1_S256x1_0_0_1_1_n_n 5000 rfl rfl).symm]
  refine congrArg (v19 (ix2 g (0 : Fin 1)) + ·) (Finset.sum_congr rfl fun r _ => ?_)
  have hk := contrEquiv1_symm_val dot_S5000x256_S5000x1_S256x1_0_0_1_1_n_n 5000 rfl rfl r
  have el : dot_S5000x256_S5000x1_S256x1_0_0_1_1_n_n.lhsIdx (ix2 g (0 : Fin 1)) ((contrEquiv1 dot_S5000x256_S5000x1_S256x1_0_0_1_1_n_n 5000 rfl rfl).symm r) = ix2 r g := funext fun a => Fin.ext (by
    match a with
    | ⟨0, _⟩ => exact (lhs_cnt9_0 _ _).trans hk
    | ⟨1, _⟩ => exact lhs_cnt9_1 _ _)
  rw [el, k9_pay3_apply, broadcast_apply]
  show hit _ g * Ideal.ofBits .f32 0x3F800000#32 = _
  rw [Ideal.ofBits_one_f32, mul_one]

end Cert.KernelIdeal.Hand

end
-- ==== Proof.KI.Val9.lean ====
import proofs.«418928_j70858370450169_1_alg».proof.Proof.KI.Reg9
import proofs.«418928_j70858370450169_1_alg».proof.Proof.KI.Pay9
import proofs.«418928_j70858370450169_1_alg».proof.Proof.Spec
import proofs.«418928_j70858370450169_1_alg».proof.Proof.LibTiles
import Idealize.ShloMosaic.Lib.Pipeline.Value
import Idealize.ShloMosaic.Lib.ValueIdx
import Idealize.ShloMosaic.PureOps.Ideal.Laws
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)
open Cert.Spec
open scoped BigOperators
open Idealize.ShloMosaic.ValueIdx

variable (V : (c : Dev nD) → (b : Ref sig .tc) → Buf (Elt Ideal) ((c : Thread nD τ).loc b))

theorem idx_facts9 : ∀ t : Fin cfg9.N, win9_0.index t (0 : Fin 2) = t.val ∧ win9_0.index t (1 : Fin 2) = 0
    ∧ win9_1.index t (0 : Fin 2) = t.val ∧ win9_1.index t (1 : Fin 2) = 0
    ∧ win9_2.index t (0 : Fin 2) = 0 ∧ win9_2.index t (1 : Fin 2) = 0 :=
  (by decide +kernel : ∀ t : Fin grid9.N, _)

theorem hblk9_apply (c : Dev nD) (t : Fin cfg9.N) (x : S5000x128.Idx) (i : S100000x128.Idx)
    (h0 : (i 0).val = 5000 * t.val + (x 0).val) (h1 : (i 1).val = (x 1).val) :
    (hblk9 V c t) x = (V c main_v128 : S100000x128.Idx → EReal) i := by
  obtain ⟨e00, e01, -, -, -, -⟩ := idx_facts9 t
  show iblk9 V c 0 t x = _
  unfold iblk9
  rw [View.read_apply]
  show V c main_v128 _ = V c main_v128 _
  congr 1
  funext a
  apply Fin.ext
  match a with
  | ⟨0, _⟩ => show win9_0.index t 0 * 5000 + 1 * (x 0).val = (i 0).val; rw [e00, h0]; omega
  | ⟨1, _⟩ => show win9_0.index t 1 * 128 + 1 * (x 1).val = (i 1).val; rw [e01, h1]; omega

theorem bblk9_apply (c : Dev nD) (t : Fin cfg9.N) (x : S5000x1.Idx) (i : S100000x1.Idx)
    (h0 : (i 0).val = 5000 * t.val + (x 0).val) (h1 : (i 1).val = (x 1).val) :
    (bblk9 V c t) x = (V c main_v129 : S100000x1.Idx → BitVec 32) i := by
  obtain ⟨-, -, e10, e11, -, -⟩ := idx_facts9 t
  show iblk9 V c 1 t x = _
  unfold iblk9
  rw [View.read_apply]
  show V c main_v129 _ = V c main_v129 _
  congr 1
  funext a
  apply Fin.ext
  match a with
  | ⟨0, _⟩ => show win9_1.index t 0 * 5000 + 1 * (x 0).val = (i 0).val; rw [e10, h0]; omega
  | ⟨1, _⟩ => show win9_1.index t 1 * 1 + 1 * (x 1).val = (i 1).val; rw [e11, h1]; omega

theorem lt9 (t : Fin 20) : t.val < cfg9.N := lt_of_lt_of_eq t.isLt N_9.symm

theorem accS_last (c : Dev nD) (h19 : 19 < cfg9.N) (g : Fin 256) (j : Fin 128) :
    (accAt9 V c 19 h19).1 (ix2 g j)
      = ∑ n : Fin 100000, hit ((V c main_v129 : S100000x1.Idx → BitVec 32) (ix2 n 0)) g * (V c main_v128 : S100000x128.Idx → EReal) (ix2 n j) := by
  have key := Cert.LibTiles.acc_fin_last (T := 20)
    (fun t => (accAt9 V c t.val (lt9 t)).1 (ix2 g j))
    (fun t => ∑ r : Fin 5000, hit (bblk9 V c ⟨t.val, lt9 t⟩ (ix2 r 0)) g * hblk9 V c ⟨t.val, lt9 t⟩ (ix2 r j))
    0
    (fun h => by
      show (k9_pay4 (F := Ideal) (bblk9 V c ⟨0, lt9 ⟨0, h⟩⟩) (k9_pay1 (F := Ideal)) (hblk9 V c ⟨0, lt9 ⟨0, h⟩⟩)) (ix2 g j) = _
      refine (k9_pay4_apply (bblk9 V c ⟨0, lt9 ⟨0, h⟩⟩) (k9_pay1 (F := Ideal)) (hblk9 V c ⟨0, lt9 ⟨0, h⟩⟩) g j).trans ?_
      rw [k9_pay1_apply (ix2 g j)])
    (fun n h => by
      show (k9_pay4 (F := Ideal) (bblk9 V c ⟨n + 1, lt9 ⟨n + 1, h⟩⟩) (accAt9 V c n (Nat.lt_of_succ_lt (lt9 ⟨n + 1, h⟩))).1 (hblk9 V c ⟨n + 1, lt9 ⟨n + 1, h⟩⟩)) (ix2 g j) = _
      exact k9_pay4_apply (bblk9 V c ⟨n + 1, lt9 ⟨n + 1, h⟩⟩) (accAt9 V c n (Nat.lt_of_succ_lt (lt9 ⟨n + 1, h⟩))).1 (hblk9 V c ⟨n + 1, lt9 ⟨n + 1, h⟩⟩) g j)
    (by norm_num)
  refine (key.trans ?_)
  rw [zero_add, ← Cert.LibTiles.sum_tiles_of (T := 20) (R := 5000) rfl
    (fun n : Fin 100000 => hit ((V c main_v129 : S100000x1.Idx → BitVec 32) (ix2 n 0)) g * (V c main_v128 : S100000x128.Idx → EReal) (ix2 n j))
    (fun t r => by have := t.isLt; have := r.isLt; omega)]
  refine Finset.sum_congr rfl fun t _ => Finset.sum_congr rfl fun r _ => ?_
  exact congrArg₂ (· * ·)
    (congrArg (fun b => hit b g) (bblk9_apply V c ⟨t.val, lt9 t⟩ (ix2 r 0) (ix2 ⟨5000 * t.val + r.val, by have := t.isLt; have := r.isLt; omega⟩ 0) rfl rfl))
    (hblk9_apply V c ⟨t.val, lt9 t⟩ (ix2 r j) (ix2 ⟨5000 * t.val + r.val, by have := t.isLt; have := r.isLt; omega⟩ j) rfl rfl)

theorem accC_last (c : Dev nD) (h19 : 19 < cfg9.N) (g : Fin 256) :
    (accAt9 V c 19 h19).2 (ix2 g 0)
      = ∑ n : Fin 100000, hit ((V c main_v129 : S100000x1.Idx → BitVec 32) (ix2 n 0)) g := by
  have key := Cert.LibTiles.acc_fin_last (T := 20)
    (fun t => (accAt9 V c t.val (lt9 t)).2 (ix2 g 0))
    (fun t => ∑ r : Fin 5000, hit (bblk9 V c ⟨t.val, lt9 t⟩ (ix2 r 0)) g)
    0
    (fun h => by
      show (k9_pay5 (F := Ideal) (bblk9 V c ⟨0, lt9 ⟨0, h⟩⟩) (k9_pay2 (F := Ideal))) (ix2 g 0) = _
      refine (k9_pay5_apply (bblk9 V c ⟨0, lt9 ⟨0, h⟩⟩) (k9_pay2 (F := Ideal)) g).trans ?_
      rw [k9_pay2_apply (ix2 g 0)])
    (fun n h => by
      show (k9_pay5 (F := Ideal) (bblk9 V c ⟨n + 1, lt9 ⟨n + 1, h⟩⟩) (accAt9 V c n (Nat.lt_of_succ_lt (lt9 ⟨n + 1, h⟩))).2) (ix2 g 0) = _
      exact k9_pay5_apply (bblk9 V c ⟨n + 1, lt9 ⟨n + 1, h⟩⟩) (accAt9 V c n (Nat.lt_of_succ_lt (lt9 ⟨n + 1, h⟩))).2 g)
    (by norm_num)
  refine (key.trans ?_)
  rw [zero_add, ← Cert.LibTiles.sum_tiles_of (T := 20) (R := 5000) rfl
    (fun n : Fin 100000 => hit ((V c main_v129 : S100000x1.Idx → BitVec 32) (ix2 n 0)) g)
    (fun t r => by have := t.isLt; have := r.isLt; omega)]
  refine Finset.sum_congr rfl fun t _ => Finset.sum_congr rfl fun r _ => ?_
  exact congrArg (fun b => hit b g) (bblk9_apply V c ⟨t.val, lt9 t⟩ (ix2 r 0) (ix2 ⟨5000 * t.val + r.val, by have := t.isLt; have := r.isLt; omega⟩ 0) rfl rfl)

theorem out9_last (c : Dev nD) (t : Fin cfg9.N) (ht : t.val = 19) :
    out9_2 V c t = pool (V c main_v128) (V c main_v129) := by
  obtain ⟨n, hn⟩ := t
  dsimp only at ht
  subst ht
  funext i
  obtain ⟨g, j, rfl⟩ : ∃ (g : Fin 256) (j : Fin 128), i = ix2 g j := ⟨i 0, i 1, eq_ix2 i⟩
  unfold out9_2
  refine (k9_pay6_apply (accAt9 V c 19 hn).1 (accAt9 V c 19 hn).2 g j).trans ?_
  rw [accS_last V c hn g j, accC_last V c hn g]
  rfl

theorem flushed9_2_eq (c : Dev nD) (t : Fin cfg9.N) (hf : (cfg9.win 2).flush t = true) :
    (dat9 V c).flushed 2 t = ((cfg9.win 2).blk t).view.read (Elt Ideal) (pool (V c main_v128) (V c main_v129)) := by
  have h19 : t.val = 19 := by
    have h1 := (flush9_2 t).mp hf
    have h2 := lt_of_lt_of_eq t.isLt (show cfg9.N = 20 from N_9)
    omega
  show (cfg9.win 2).cut (grid9.coords t) ((dat9 V c).after 2 t) = _
  rw [after9_2, out9_last V c t h19]
  obtain ⟨-, -, -, -, e20, e21⟩ := idx_facts9 t
  have hz' : (fun a => win9_2.index t a * main_v130.ty.shape.size a) = fun _ => 0 := funext fun a => by
    match a with
    | ⟨0, _⟩ => show win9_2.index t 0 * _ = 0; rw [e20]; exact Nat.zero_mul _
    | ⟨1, _⟩ => show win9_2.index t 1 * _ = 0; rw [e21]; exact Nat.zero_mul _
  exact (Memref.read_access_unit_zero (Elt Ideal) main_v130 hz' (fun a => by rw [congrFun hz' a]; simp) (pool (V c main_v128) (V c main_v129))).symm

theorem mem_blk9_2 (t : Fin cfg9.N) (i : S256x128.Idx) :
    i ∈ ((cfg9.win 2).blk t).view.set ↔ ∀ a : Fin 2, win9_2.index t a * S256x128.size a ≤ (i a).val ∧ (i a).val < win9_2.index t a * S256x128.size a + S256x128.size a := by
  show i ∈ ((View.whole main_v130).slice (win9_2.rect t)).set ↔ _
  rw [View.set_slice_whole, Rect.mem_set_unit]
  exact Iff.rfl

theorem tiles9_2 (i : S256x128.Idx) :
    ∃ t : Fin cfg9.N, (cfg9.win 2).flush t = true ∧ i ∈ ((cfg9.win 2).blk t).view.set := by
  have hi0 : (i 0).val < 256 := idx2_lt0 i
  have hi1 : (i 1).val < 128 := idx2_lt1 i
  obtain ⟨t, ht⟩ : ∃ t : Fin cfg9.N, t.val = 19 := ⟨⟨19, lt_of_lt_of_eq (by decide : 19 < 20) N_9.symm⟩, rfl⟩
  obtain ⟨-, -, -, -, e20, e21⟩ := idx_facts9 t
  refine ⟨t, (flush9_2 t).mpr (by rw [ht]), ?_⟩
  rw [mem_blk9_2]
  intro a
  match a with
  | ⟨0, _⟩ => show win9_2.index t (0 : Fin 2) * 256 ≤ (i 0).val ∧ (i 0).val < win9_2.index t (0 : Fin 2) * 256 + 256; rw [e20]; omega
  | ⟨1, _⟩ => show win9_2.index t (1 : Fin 2) * 128 ≤ (i 1).val ∧ (i 1).val < win9_2.index t (1 : Fin 2) * 128 + 128; rw [e21]; omega

theorem val9_2 (c : Dev nD) : (dat9 (F := Ideal) V c).arrAt 2 cfg9.N = pool (V c main_v128) (V c main_v129) :=
  (dat9 V c).arrAt_eq_of_cover 2 (pool (V c main_v128) (V c main_v129)) (fun t hf => flushed9_2_eq V c t hf) tiles9_2

end Cert.KernelIdeal.Hand

end
-- ==== Proof.KI.Val10.lean ====
import proofs.«418928_j70858370450169_1_alg».proof.Proof.KI.Reg10
import proofs.«418928_j70858370450169_1_alg».proof.Proof.Spec
import Idealize.ShloMosaic.PureOps.Ideal.Laws
import Idealize.ShloMosaic.Lib.Pipeline.Value
import Idealize.ShloMosaic.Lib.ValueIdx
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.Pipeline (Dat Cfg Window BodyObligation cellOf)
open Cert.Spec
open Idealize.ShloMosaic.ValueIdx
open scoped BigOperators

theorem lhs_cls_0 (i : S256x2.Idx) (q : dot_S256x144_S144x2_S256x2_1_0_0_1_n_n.contr.Idx) :
    (dot_S256x144_S144x2_S256x2_1_0_0_1_n_n.lhsIdx i q 0).val = (i 0).val := by
  unfold DotDims.lhsIdx
  rw [dif_neg (show ¬(0 : Fin S256x144.rank) ∈ dot_S256x144_S144x2_S256x2_1_0_0_1_n_n.lhsBatch by decide), dif_pos (show (0 : Fin S256x144.rank) ∈ dot_S256x144_S144x2_S256x2_1_0_0_1_n_n.lhsNonContracting by decide)]
  rfl
theorem lhs_cls_1 (i : S256x2.Idx) (q : dot_S256x144_S144x2_S256x2_1_0_0_1_n_n.contr.Idx) :
    (dot_S256x144_S144x2_S256x2_1_0_0_1_n_n.lhsIdx i q 1).val = (q ⟨0, by decide⟩).val :=
  dot_S256x144_S144x2_S256x2_1_0_0_1_n_n.lhsIdx_val_of_single rfl i q
theorem rhs_cls_0 (i : S256x2.Idx) (q : dot_S256x144_S144x2_S256x2_1_0_0_1_n_n.contr.Idx) :
    (dot_S256x144_S144x2_S256x2_1_0_0_1_n_n.rhsIdx i q 0).val = (q ⟨0, by decide⟩).val :=
  dot_S256x144_S144x2_S256x2_1_0_0_1_n_n.rhsIdx_val_of_single rfl i q
theorem rhs_cls_1 (i : S256x2.Idx) (q : dot_S256x144_S144x2_S256x2_1_0_0_1_n_n.contr.Idx) :
    (dot_S256x144_S144x2_S256x2_1_0_0_1_n_n.rhsIdx i q 1).val = (i 1).val := by
  unfold DotDims.rhsIdx
  rw [dif_neg (show ¬(1 : Fin S144x2.rank) ∈ dot_S256x144_S144x2_S256x2_1_0_0_1_n_n.rhsBatch by decide), dif_pos (show (1 : Fin S144x2.rank) ∈ dot_S256x144_S144x2_S256x2_1_0_0_1_n_n.rhsNonContracting by decide)]
  rfl

theorem pay10_apply (x0 : Vec Ideal S256x144 .f32) (x1 : Vec Ideal S144x2 .f32) (x2 : Vec Ideal S1x2 .f32) (p : Fin 256) (j : Fin 2) :
    (k10_pay1 (F := Ideal) x0 x1 x2) (ix2 p j) = (∑ k : Fin 144, x0 (ix2 p k) * x1 (ix2 k j)) + x2 (ix2 (0 : Fin 1) j) := by
  unfold k10_pay1
  rw [addf_apply, broadcastTo_1b_ab_apply, shapeCast_self, shapeCast_self]
  simp only [matmul]
  rw [Ideal.matmul_constant_zero_apply, ← Equiv.sum_comp (contrEquiv1 dot_S256x144_S144x2_S256x2_1_0_0_1_n_n 144 rfl rfl).symm]
  congr 1
  refine Finset.sum_congr rfl fun k _ => ?_
  have hk := contrEquiv1_symm_val dot_S256x144_S144x2_S256x2_1_0_0_1_n_n 144 rfl rfl k
  have el : dot_S256x144_S144x2_S256x2_1_0_0_1_n_n.lhsIdx (ix2 p j) ((contrEquiv1 dot_S256x144_S144x2_S256x2_1_0_0_1_n_n 144 rfl rfl).symm k) = ix2 p k := funext fun a => Fin.ext (by
    match a with
    | ⟨0, _⟩ => exact lhs_cls_0 _ _
    | ⟨1, _⟩ => exact (lhs_cls_1 _ _).trans hk)
  have er : dot_S256x144_S144x2_S256x2_1_0_0_1_n_n.rhsIdx (ix2 p j) ((contrEquiv1 dot_S256x144_S144x2_S256x2_1_0_0_1_n_n 144 rfl rfl).symm k) = ix2 k j := funext fun a => Fin.ext (by
    match a with
    | ⟨0, _⟩ => exact (rhs_cls_0 _ _).trans hk
    | ⟨1, _⟩ => exact rhs_cls_1 _ _)
  rw [truncf_apply, truncf_apply, el, er]

variable (V : (c : Dev nD) → (b : Ref sig .tc) → Buf (Elt Ideal) ((c : Thread nD τ).loc b))

theorem hz10 : (![0, 0] : Fin 2 → Nat) = fun _ => 0 := funext fun a => by fin_cases a <;> rfl

theorem idx_facts10 : ∀ t : Fin cfg10.N, win10_0.index t (0 : Fin 2) = 0 ∧ win10_0.index t (1 : Fin 2) = 0
    ∧ win10_1.index t (0 : Fin 2) = 0 ∧ win10_1.index t (1 : Fin 2) = 0
    ∧ win10_2.index t (0 : Fin 2) = 0 ∧ win10_2.index t (1 : Fin 2) = 0
    ∧ win10_3.index t (0 : Fin 2) = 0 ∧ win10_3.index t (1 : Fin 2) = 0 :=
  (by decide +kernel : ∀ t : Fin grid10.N, _)

theorem iblk10_0_eq (c : Dev nD) (t : Fin cfg10.N) :
    (iblk10 V c 0 t : Vec Ideal S256x144 .f32) = (V c main_v131 : S256x144.Idx → EReal) := by
  obtain ⟨e0, e1, -⟩ := idx_facts10 t
  funext x
  unfold iblk10
  rw [View.read_apply]
  show V c main_v131 _ = V c main_v131 x
  congr 1
  funext a; apply Fin.ext
  match a with
  | ⟨0, _⟩ => show win10_0.index t (0 : Fin 2) * 256 + 1 * (x 0).val = (x 0).val; rw [e0]; omega
  | ⟨1, _⟩ => show win10_0.index t (1 : Fin 2) * 144 + 1 * (x 1).val = (x 1).val; rw [e1]; omega

theorem iblk10_1_eq (c : Dev nD) (t : Fin cfg10.N) :
    (iblk10 V c 1 t : Vec Ideal S144x2 .f32) = (V c main_arg16 : S144x2.Idx → EReal) := by
  obtain ⟨-, -, e0, e1, -⟩ := idx_facts10 t
  funext x
  unfold iblk10
  rw [View.read_apply]
  show V c main_arg16 _ = V c main_arg16 x
  congr 1
  funext a; apply Fin.ext
  match a with
  | ⟨0, _⟩ => show win10_1.index t (0 : Fin 2) * 144 + 1 * (x 0).val = (x 0).val; rw [e0]; omega
  | ⟨1, _⟩ => show win10_1.index t (1 : Fin 2) * 2 + 1 * (x 1).val = (x 1).val; rw [e1]; omega

theorem iblk10_2_eq (c : Dev nD) (t : Fin cfg10.N) :
    (iblk10 V c 2 t : Vec Ideal S1x2 .f32) = (V c main_v132 : S1x2.Idx → EReal) := by
  obtain ⟨-, -, -, -, e0, e1, -⟩ := idx_facts10 t
  funext x
  unfold iblk10
  rw [View.read_apply]
  show V c main_v132 _ = V c main_v132 x
  congr 1
  funext a; apply Fin.ext
  match a with
  | ⟨0, _⟩ => show win10_2.index t (0 : Fin 2) * 1 + 1 * (x 0).val = (x 0).val; rw [e0]; omega
  | ⟨1, _⟩ => show win10_2.index t (1 : Fin 2) * 2 + 1 * (x 1).val = (x 1).val; rw [e1]; omega

theorem flushed10_eq (c : Dev nD) (t : Fin cfg10.N) :
    (dat10 (F := Ideal) V c).flushed 3 t
      = ((cfg10.win 3).blk t).view.read (Elt Ideal) (cls (V c main_v131) (V c main_arg16) (V c main_v132)) := by
  show (cfg10.win 3).cut (grid10.coords t) ((dat10 V c).after 3 t) = _
  rw [after10_3]
  unfold out10_3
  rw [View.canon_unit_zero hz10]
  simp only [View.ld_unit_zero (S := S256x144) hz10, View.ld_unit_zero (S := S144x2) hz10, View.ld_unit_zero (S := S1x2) hz10]
  obtain ⟨-, -, -, -, -, -, e0, e1⟩ := idx_facts10 t
  funext y
  obtain ⟨p, j, rfl⟩ : ∃ (p : Fin 256) (j : Fin 2), y = (ix2 p j : S256x2.Idx) := ⟨y 0, y 1, eq_ix2 (n0 := 256) (n1 := 2) y⟩
  show k10_pay1 (F := Ideal) (iblk10 V c 0 t) (iblk10 V c 1 t) (iblk10 V c 2 t) (ix2 p j)
    = cls (V c main_v131) (V c main_arg16) (V c main_v132) (((cfg10.win 3).blk t).view.emb (ix2 p j))
  have he : ((cfg10.win 3).blk t).view.emb (ix2 p j) = (ix2 p j : S256x2.Idx) := by
    funext a; apply Fin.ext
    match a with
    | ⟨0, _⟩ => show win10_3.index t (0 : Fin 2) * 256 + 1 * p.val = p.val; rw [e0]; omega
    | ⟨1, _⟩ => show win10_3.index t (1 : Fin 2) * 2 + 1 * j.val = j.val; rw [e1]; omega
  rw [he, pay10_apply, iblk10_0_eq, iblk10_1_eq, iblk10_2_eq]
  rfl

theorem mem_blk10 (t : Fin cfg10.N) (i : S256x2.Idx) :
    i ∈ ((cfg10.win 3).blk t).view.set ↔ ∀ a : Fin 2, win10_3.index t a * S256x2.size a ≤ (i a).val ∧ (i a).val < win10_3.index t a * S256x2.size a + S256x2.size a := by
  show i ∈ ((View.whole main_v133).slice (win10_3.rect t)).set ↔ _
  rw [View.set_slice_whole, Rect.mem_set_unit]
  exact Iff.rfl

theorem cover10 (i : S256x2.Idx) : ∃ t : Fin cfg10.N, (cfg10.win 3).flush t = true ∧ i ∈ ((cfg10.win 3).blk t).view.set := by
  refine ⟨t10_0, flush10_3 t10_0, ?_⟩
  rw [mem_blk10]
  obtain ⟨-, -, -, -, -, -, e0, e1⟩ := idx_facts10 t10_0
  have h0 : (i 0).val < 256 := (i 0).isLt
  have h1 : (i 1).val < 2 := (i 1).isLt
  intro a
  match a with
  | ⟨0, _⟩ => show win10_3.index t10_0 (0 : Fin 2) * 256 ≤ (i 0).val ∧ (i 0).val < win10_3.index t10_0 (0 : Fin 2) * 256 + 256; rw [e0]; omega
  | ⟨1, _⟩ => show win10_3.index t10_0 (1 : Fin 2) * 2 ≤ (i 1).val ∧ (i 1).val < win10_3.index t10_0 (1 : Fin 2) * 2 + 2; rw [e1]; omega

theorem val10_3 (c : Dev nD) :
    (dat10 (F := Ideal) V c).arrAt 3 cfg10.N = cls (V c main_v131) (V c main_arg16) (V c main_v132) :=
  (dat10 (F := Ideal) V c).arrAt_eq_of_cover 3 (cls (V c main_v131) (V c main_arg16) (V c main_v132))
    (fun t _ => flushed10_eq V c t) cover10

end Cert.KernelIdeal.Hand

end
-- ==== Proof.KI.Chain.lean ====
import proofs.«418928_j70858370450169_1_alg».proof.Proof.KI.Fold
import proofs.«418928_j70858370450169_1_alg».proof.Proof.KI.HostTerms
import proofs.«418928_j70858370450169_1_alg».proof.Proof.KI.Val0
import proofs.«418928_j70858370450169_1_alg».proof.Proof.KI.Val1
import proofs.«418928_j70858370450169_1_alg».proof.Proof.KI.Val2
import proofs.«418928_j70858370450169_1_alg».proof.Proof.KI.Val3
import proofs.«418928_j70858370450169_1_alg».proof.Proof.KI.Val4
import proofs.«418928_j70858370450169_1_alg».proof.Proof.KI.Val5
import proofs.«418928_j70858370450169_1_alg».proof.Proof.KI.Val6
import proofs.«418928_j70858370450169_1_alg».proof.Proof.KI.Val7
import proofs.«418928_j70858370450169_1_alg».proof.Proof.KI.Val8
import proofs.«418928_j70858370450169_1_alg».proof.Proof.KI.Val9
import proofs.«418928_j70858370450169_1_alg».proof.Proof.KI.Val10
import proofs.«418928_j70858370450169_1_alg».proof.Proof.Model
import Idealize.ShloMosaic.Lib.StableHlo.Run
import Idealize.ShloMosaic.Lib.ValueLayout
import Idealize.ShloMosaic.Lib.IdealHost
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat)
open Cert.Spec Cert.Model
open scoped BigOperators

def meanT (s : ArrF S1x128) : ArrF S128 :=
  Host.divf (shapeCast S128 s shapeCasts_S1x128_S128)
    (broadcastInDim S128 ![] bcast_S_S128 (constant (F := Ideal) S_ .f32 0x47C35000#32))

def scaleT (s q : ArrF S1x128) (γ : ArrF S128) : ArrF S128 :=
  mulf γ (Host.rsqrt (addf (subf (meanT q) (mulf (meanT s) (meanT s)))
    (broadcastInDim S128 ![] bcast_S_S128 (constant (F := Ideal) S_ .f32 0x3727C5AC#32))))

def shiftT (s q : ArrF S1x128) (γ β : ArrF S128) : ArrF S128 :=
  subf β (mulf (meanT s) (scaleT s q γ))

section Stretches

variable (V : Valuation τ sig (Elt Ideal))

theorem h0_v1 : StableHlo.after (hostOps0 (F := Ideal)) V (Proc.devRef .tc main_v1) = srcK (V (Proc.devRef .tc main_arg1)) := by
  after_results; rfl
theorem h0_v3 : StableHlo.after (hostOps0 (F := Ideal)) V (Proc.devRef .tc main_v3) = dstK (V (Proc.devRef .tc main_arg1)) := by
  after_results; rfl
theorem h0_v26 : StableHlo.after (hostOps0 (F := Ideal)) V (Proc.devRef .tc main_v26) = selfK (V (Proc.devRef .tc main_arg1)) := by
  after_results; rfl
theorem h0_v25 : StableHlo.after (hostOps0 (F := Ideal)) V (Proc.devRef .tc main_v25) = normK (V (Proc.devRef .tc main_arg1)) := by
  after_results_simp; rfl

theorem h1_v40 : StableHlo.after (hostOps1 (F := Ideal)) V (Proc.devRef .tc main_v40)
    = aggT (V (Proc.devRef .tc main_v25)) (V (Proc.devRef .tc main_v1)) (V (Proc.devRef .tc main_v3)) (V (Proc.devRef .tc main_v27)) := by
  after_results_simp; rfl
theorem h1_v41 : StableHlo.after (hostOps1 (F := Ideal)) V (Proc.devRef .tc main_v41)
    = shapeCast S100000x1 (V (Proc.devRef .tc main_v26)) shapeCasts_S100000_S100000x1 := by
  after_results; rfl
theorem h1_v42 : StableHlo.after (hostOps1 (F := Ideal)) V (Proc.devRef .tc main_v42)
    = shapeCast S1x128 (V (Proc.devRef .tc main_arg5)) shapeCasts_S128_S1x128 := by
  after_results; rfl

theorem h2_v58 : StableHlo.after (hostOps2 (F := Ideal)) V (Proc.devRef .tc main_v58)
    = shapeCast S1x128 (scaleT (V (Proc.devRef .tc main_v43_1)) (V (Proc.devRef .tc main_v43_2)) (V (Proc.devRef .tc main_arg10))) shapeCasts_S128_S1x128 := by
  after_results_simp; rfl
theorem h2_v59 : StableHlo.after (hostOps2 (F := Ideal)) V (Proc.devRef .tc main_v59)
    = shapeCast S1x128 (shiftT (V (Proc.devRef .tc main_v43_1)) (V (Proc.devRef .tc main_v43_2)) (V (Proc.devRef .tc main_arg10)) (V (Proc.devRef .tc main_arg11))) shapeCasts_S128_S1x128 := by
  after_results_simp; rfl

theorem h9_v129 : StableHlo.after (hostOps9 (F := Ideal)) V (Proc.devRef .tc main_v129) = btK (V (Proc.devRef .tc main_arg2)) := by
  after_results; rfl

theorem h10_v131 : StableHlo.after (hostOps10 (F := Ideal)) V (Proc.devRef .tc main_v131)
    = catK (V (Proc.devRef .tc main_v130)) (V (Proc.devRef .tc main_arg3)) := by
  after_results; rfl
theorem h10_v132 : StableHlo.after (hostOps10 (F := Ideal)) V (Proc.devRef .tc main_v132)
    = shapeCast S1x2 (V (Proc.devRef .tc main_arg17)) shapeCasts_S2_S1x2 := by
  after_results; rfl

end Stretches

theorem rowcast (v : ArrF S128) : (shapeCast S1x128 v shapeCasts_S128_S1x128 : S1H.Idx → EReal) = row v := by
  funext j; rw [eq_ix2 j]; exact shapeCast_a_1a_apply v _ _ _

theorem row2cast (v : FVec Ideal S2 .f32) : (shapeCast S1x2 v shapeCasts_S2_S1x2 : S1K.Idx → EReal) = row2 v := by
  funext j; rw [eq_ix2 j]; exact shapeCast_a_1a_apply v _ _ _

theorem meanT_apply (s : ArrF S1x128) (j : Fin 128) : meanT s (ix1 j) = Ideal.div (s (ix2 0 j)) cN := by
  unfold meanT Host.divf
  rw [Ideal.hostDivf_def, shapeCast_1a_a_apply, broadcastInDim_scalar_apply, constant_apply]; rfl

theorem scaleT_apply (r : SNH.Idx → EReal) (γ : SH.Idx → EReal) (j : Fin 128) :
    scaleT (colsum r) (colsumsq r) γ (ix1 j) = scaleKer r γ j := by
  unfold scaleT Host.rsqrt
  rw [mulf_apply, Ideal.hostUnary_rsqrt_def, addf_apply, subf_apply, mulf_apply, meanT_apply, meanT_apply,
    broadcastInDim_scalar_apply, constant_apply]
  rfl

theorem shiftT_apply (r : SNH.Idx → EReal) (γ β : SH.Idx → EReal) (j : Fin 128) :
    shiftT (colsum r) (colsumsq r) γ β (ix1 j) = shiftKer r γ β j := by
  unfold shiftT
  rw [subf_apply, mulf_apply, meanT_apply, scaleT_apply]; rfl

theorem affine_bnKer (r : SNH.Idx → EReal) (γ β : SH.Idx → EReal) :
    affine r (shapeCast S1x128 (scaleT (colsum r) (colsumsq r) γ) shapeCasts_S128_S1x128)
      (shapeCast S1x128 (shiftT (colsum r) (colsumsq r) γ β) shapeCasts_S128_S1x128) = bnKer r γ β := by
  funext i
  unfold affine bnKer
  rw [rowcast, rowcast]
  exact congrArg₂ (fun a b => r i * a + b) (scaleT_apply r γ (i 1)) (shiftT_apply r γ β (i 1))

section Stretches23

variable (V : Valuation τ sig (Elt Ideal))

theorem h4_v74 : StableHlo.after (hostOps4 (F := Ideal)) V (Proc.devRef .tc main_v74)
    = aggT (V (Proc.devRef .tc main_v25)) (V (Proc.devRef .tc main_v1)) (V (Proc.devRef .tc main_v3)) (V (Proc.devRef .tc main_v61)) := by
  after_results_simp; rfl
theorem h4_v75 : StableHlo.after (hostOps4 (F := Ideal)) V (Proc.devRef .tc main_v75)
    = shapeCast S100000x1 (V (Proc.devRef .tc main_v26)) shapeCasts_S100000_S100000x1 := by
  after_results; rfl
theorem h4_v76 : StableHlo.after (hostOps4 (F := Ideal)) V (Proc.devRef .tc main_v76)
    = shapeCast S1x128 (V (Proc.devRef .tc main_arg7)) shapeCasts_S128_S1x128 := by
  after_results; rfl

theorem h5_v92 : StableHlo.after (hostOps5 (F := Ideal)) V (Proc.devRef .tc main_v92)
    = shapeCast S1x128 (scaleT (V (Proc.devRef .tc main_v77_1)) (V (Proc.devRef .tc main_v77_2)) (V (Proc.devRef .tc main_arg12))) shapeCasts_S128_S1x128 := by
  after_results_simp; rfl
theorem h5_v93 : StableHlo.after (hostOps5 (F := Ideal)) V (Proc.devRef .tc main_v93)
    = shapeCast S1x128 (shiftT (V (Proc.devRef .tc main_v77_1)) (V (Proc.devRef .tc main_v77_2)) (V (Proc.devRef .tc main_arg12)) (V (Proc.devRef .tc main_arg13))) shapeCasts_S128_S1x128 := by
  after_results_simp; rfl

theorem h7_v108 : StableHlo.after (hostOps7 (F := Ideal)) V (Proc.devRef .tc main_v108)
    = aggT (V (Proc.devRef .tc main_v25)) (V (Proc.devRef .tc main_v1)) (V (Proc.devRef .tc main_v3)) (V (Proc.devRef .tc main_v95)) := by
  after_results_simp; rfl
theorem h7_v109 : StableHlo.after (hostOps7 (F := Ideal)) V (Proc.devRef .tc main_v109)
    = shapeCast S100000x1 (V (Proc.devRef .tc main_v26)) shapeCasts_S100000_S100000x1 := by
  after_results; rfl
theorem h7_v110 : StableHlo.after (hostOps7 (F := Ideal)) V (Proc.devRef .tc main_v110)
    = shapeCast S1x128 (V (Proc.devRef .tc main_arg9)) shapeCasts_S128_S1x128 := by
  after_results; rfl

theorem h8_v126 : StableHlo.after (hostOps8 (F := Ideal)) V (Proc.devRef .tc main_v126)
    = shapeCast S1x128 (scaleT (V (Proc.devRef .tc main_v111_1)) (V (Proc.devRef .tc main_v111_2)) (V (Proc.devRef .tc main_arg14))) shapeCasts_S128_S1x128 := by
  after_results_simp; rfl
theorem h8_v127 : StableHlo.after (hostOps8 (F := Ideal)) V (Proc.devRef .tc main_v127)
    = shapeCast S1x128 (shiftT (V (Proc.devRef .tc main_v111_1)) (V (Proc.devRef .tc main_v111_2)) (V (Proc.devRef .tc main_arg14)) (V (Proc.devRef .tc main_arg15))) shapeCasts_S128_S1x128 := by
  after_results_simp; rfl

end Stretches23

section Keep

variable (m : (ℓ : Loc nD τ sig) → Buf (Elt Ideal) ℓ) (c : Dev nD)

theorem U1_of (r : Ref sig .tc) (h : r ∉ hostOps0_W) : U1 m c (Proc.devRef .tc r) = U0 m c (Proc.devRef .tc r) := by
  unfold U1; exact StableHlo.after_of_writes_sub hostOps0 _ hostOps0_writes h
theorem U3_of (r : Ref sig .tc) (h : r ∉ hostOps1_W) : U3 m c (Proc.devRef .tc r) = U2 m c (Proc.devRef .tc r) := by
  unfold U3; exact StableHlo.after_of_writes_sub hostOps1 _ hostOps1_writes h
theorem U5_of (r : Ref sig .tc) (h : r ∉ hostOps2_W) : U5 m c (Proc.devRef .tc r) = U4 m c (Proc.devRef .tc r) := by
  unfold U5; exact StableHlo.after_of_writes_sub hostOps2 _ hostOps2_writes h
theorem U8_of (r : Ref sig .tc) (h : r ∉ hostOps4_W) : U8 m c (Proc.devRef .tc r) = U7 m c (Proc.devRef .tc r) := by
  unfold U8; exact StableHlo.after_of_writes_sub hostOps4 _ hostOps4_writes h
theorem U10_of (r : Ref sig .tc) (h : r ∉ hostOps5_W) : U10 m c (Proc.devRef .tc r) = U9 m c (Proc.devRef .tc r) := by
  unfold U10; exact StableHlo.after_of_writes_sub hostOps5 _ hostOps5_writes h
theorem U13_of (r : Ref sig .tc) (h : r ∉ hostOps7_W) : U13 m c (Proc.devRef .tc r) = U12 m c (Proc.devRef .tc r) := by
  unfold U13; exact StableHlo.after_of_writes_sub hostOps7 _ hostOps7_writes h
theorem U15_of (r : Ref sig .tc) (h : r ∉ hostOps8_W) : U15 m c (Proc.devRef .tc r) = U14 m c (Proc.devRef .tc r) := by
  unfold U15; exact StableHlo.after_of_writes_sub hostOps8 _ hostOps8_writes h
theorem U17_of (r : Ref sig .tc) (h : r ∉ hostOps9_W) : U17 m c (Proc.devRef .tc r) = U16 m c (Proc.devRef .tc r) := by
  unfold U17; exact StableHlo.after_of_writes_sub hostOps9 _ hostOps9_writes h
theorem U19_of (r : Ref sig .tc) (h : r ∉ hostOps10_W) : U19 m c (Proc.devRef .tc r) = U18 m c (Proc.devRef .tc r) := by
  unfold U19; exact StableHlo.after_of_writes_sub hostOps10 _ hostOps10_writes h

end Keep

macro "keep" : tactic => `(tactic| repeat (first
  | (rw [U20_of_ne]; rotate_left; decide)
  | (rw [U19_of]; rotate_left; decide)
  | (rw [U18_of_ne]; rotate_left; decide)
  | (rw [U17_of]; rotate_left; decide)
  | (rw [U16_of_ne]; rotate_left; decide)
  | (rw [U15_of]; rotate_left; decide)
  | (rw [U14_of_ne]; rotate_left; decide; decide; decide)
  | (rw [U13_of]; rotate_left; decide)
  | (rw [U12_of_ne]; rotate_left; decide)
  | (rw [U11_of_ne]; rotate_left; decide)
  | (rw [U10_of]; rotate_left; decide)
  | (rw [U9_of_ne]; rotate_left; decide; decide; decide)
  | (rw [U8_of]; rotate_left; decide)
  | (rw [U7_of_ne]; rotate_left; decide)
  | (rw [U6_of_ne]; rotate_left; decide)
  | (rw [U5_of]; rotate_left; decide)
  | (rw [U4_of_ne]; rotate_left; decide; decide; decide)
  | (rw [U3_of]; rotate_left; decide)
  | (rw [U2_of_ne]; rotate_left; decide)
  | (rw [U1_of]; rotate_left; decide)))

section Chain

variable (m : (ℓ : Loc nD τ sig) → Buf (Elt Ideal) ℓ) (c : Dev nD)

abbrev argAt (r : Ref sig .tc) : Buf (Elt Ideal) ((c : Thread nD τ).loc r) := m ((c : Thread nD τ).loc r)

theorem U0_arg (r : Ref sig .tc) : U0 m c (Proc.devRef .tc r) = argAt m c r := rfl

abbrev X0 : SNH.Idx → EReal := argAt m c main_arg0

abbrev R1 : SNH.Idx → EReal :=
  conv (aggK (argAt m c main_arg1)) (snK (argAt m c main_arg1)) (X0 m c) (argAt m c main_arg4) (argAt m c main_arg5)
abbrev L1 : SNH.Idx → EReal :=
  layerKer (aggK (argAt m c main_arg1)) (snK (argAt m c main_arg1)) (X0 m c) (argAt m c main_arg4) (argAt m c main_arg5)
    (argAt m c main_arg10) (argAt m c main_arg11)

abbrev R2 : SNH.Idx → EReal :=
  conv (aggK (argAt m c main_arg1)) (snK (argAt m c main_arg1)) (L1 m c) (argAt m c main_arg6) (argAt m c main_arg7)
abbrev L2 : SNH.Idx → EReal :=
  layerKer (aggK (argAt m c main_arg1)) (snK (argAt m c main_arg1)) (L1 m c) (argAt m c main_arg6) (argAt m c main_arg7)
    (argAt m c main_arg12) (argAt m c main_arg13)

abbrev R3 : SNH.Idx → EReal :=
  conv (aggK (argAt m c main_arg1)) (snK (argAt m c main_arg1)) (L2 m c) (argAt m c main_arg8) (argAt m c main_arg9)
abbrev L3 : SNH.Idx → EReal :=
  layerKer (aggK (argAt m c main_arg1)) (snK (argAt m c main_arg1)) (L2 m c) (argAt m c main_arg8) (argAt m c main_arg9)
    (argAt m c main_arg14) (argAt m c main_arg15)

theorem U1_v1 : U1 m c (Proc.devRef .tc main_v1) = srcK (argAt m c main_arg1) := by unfold U1; exact h0_v1 _
theorem U1_v3 : U1 m c (Proc.devRef .tc main_v3) = dstK (argAt m c main_arg1) := by unfold U1; exact h0_v3 _
theorem U1_v25 : U1 m c (Proc.devRef .tc main_v25) = normK (argAt m c main_arg1) := by unfold U1; exact h0_v25 _
theorem U1_v26 : U1 m c (Proc.devRef .tc main_v26) = selfK (argAt m c main_arg1) := by unfold U1; exact h0_v26 _

theorem xw1 : (U2 m c (Proc.devRef .tc main_v27) : SNH.Idx → EReal) = mm (X0 m c) (argAt m c main_arg4) := by
  rw [U2_main_v27, val0_2]; dsimp only [U1v]
  have ex : U1 m c (Proc.devRef .tc main_arg0) = argAt m c main_arg0 := by keep; rfl
  have eW : U1 m c (Proc.devRef .tc main_arg4) = argAt m c main_arg4 := by keep; rfl
  rw [ex, eW]

theorem U3_xw1 : (U3 m c (Proc.devRef .tc main_v27) : SNH.Idx → EReal) = mm (X0 m c) (argAt m c main_arg4) := by
  keep; exact xw1 m c

theorem U3_agg1 : (U3 m c (Proc.devRef .tc main_v40) : SNH.Idx → EReal)
    = aggK (argAt m c main_arg1) (mm (X0 m c) (argAt m c main_arg4)) := by
  unfold U3; rw [h1_v40]
  have e25 : U2 m c (Proc.devRef .tc main_v25) = normK (argAt m c main_arg1) := by keep; exact U1_v25 m c
  have e1 : U2 m c (Proc.devRef .tc main_v1) = srcK (argAt m c main_arg1) := by keep; exact U1_v1 m c
  have e3 : U2 m c (Proc.devRef .tc main_v3) = dstK (argAt m c main_arg1) := by keep; exact U1_v3 m c
  rw [e25, e1, e3, xw1]; rfl

theorem U3_sn1 : (U3 m c (Proc.devRef .tc main_v41) : SN1.Idx → EReal) = snK (argAt m c main_arg1) := by
  unfold U3; rw [h1_v41]
  have e26 : U2 m c (Proc.devRef .tc main_v26) = selfK (argAt m c main_arg1) := by keep; exact U1_v26 m c
  rw [e26]; rfl

theorem U3_b1 : (U3 m c (Proc.devRef .tc main_v42) : S1H.Idx → EReal) = row (argAt m c main_arg5) := by
  unfold U3; rw [h1_v42, rowcast]
  have eb : U2 m c (Proc.devRef .tc main_arg5) = argAt m c main_arg5 := by keep; rfl
  rw [eb]

theorem conv1 : (U4 m c (Proc.devRef .tc main_v43_0) : SNH.Idx → EReal) = R1 m c := by
  rw [U4_main_v43_0, val1_4]; dsimp only [U3v]
  rw [U3_agg1, U3_xw1, U3_sn1, U3_b1]; rfl
theorem sum1 : (U4 m c (Proc.devRef .tc main_v43_1) : S1H.Idx → EReal) = colsum (R1 m c) := by
  rw [U4_main_v43_1, val1_5]; dsimp only [U3v]
  rw [U3_agg1, U3_xw1, U3_sn1, U3_b1]; rfl
theorem sumsq1 : (U4 m c (Proc.devRef .tc main_v43_2) : S1H.Idx → EReal) = colsumsq (R1 m c) := by
  rw [U4_main_v43_2, val1_6]; dsimp only [U3v]
  rw [U3_agg1, U3_xw1, U3_sn1, U3_b1]; rfl

theorem U5_scale1 : (U5 m c (Proc.devRef .tc main_v58) : S1H.Idx → EReal)
    = shapeCast S1x128 (scaleT (colsum (R1 m c)) (colsumsq (R1 m c)) (argAt m c main_arg10)) shapeCasts_S128_S1x128 := by
  unfold U5; rw [h2_v58, sum1, sumsq1]
  have eg : U4 m c (Proc.devRef .tc main_arg10) = argAt m c main_arg10 := by keep; rfl
  rw [eg]
theorem U5_shift1 : (U5 m c (Proc.devRef .tc main_v59) : S1H.Idx → EReal)
    = shapeCast S1x128 (shiftT (colsum (R1 m c)) (colsumsq (R1 m c)) (argAt m c main_arg10) (argAt m c main_arg11)) shapeCasts_S128_S1x128 := by
  unfold U5; rw [h2_v59, sum1, sumsq1]
  have eg : U4 m c (Proc.devRef .tc main_arg10) = argAt m c main_arg10 := by keep; rfl
  have ebe : U4 m c (Proc.devRef .tc main_arg11) = argAt m c main_arg11 := by keep; rfl
  rw [eg, ebe]
theorem U5_r1 : (U5 m c (Proc.devRef .tc main_v43_0) : SNH.Idx → EReal) = R1 m c := by
  keep; exact conv1 m c

theorem out1 : (U6 m c (Proc.devRef .tc main_v60) : SNH.Idx → EReal) = L1 m c := by
  rw [U6_main_v60, val2_3]; dsimp only [U5v]
  rw [U5_r1, U5_scale1, U5_shift1, affine_bnKer]; rfl

theorem xw2 : (U7 m c (Proc.devRef .tc main_v61) : SNH.Idx → EReal) = mm (L1 m c) (argAt m c main_arg6) := by
  rw [U7_main_v61, val3_2]; dsimp only [U6v]
  have eW : U6 m c (Proc.devRef .tc main_arg6) = argAt m c main_arg6 := by keep; rfl
  rw [eW, out1]

theorem U8_xw2 : (U8 m c (Proc.devRef .tc main_v61) : SNH.Idx → EReal) = mm (L1 m c) (argAt m c main_arg6) := by
  keep; exact xw2 m c

theorem U8_agg2 : (U8 m c (Proc.devRef .tc main_v74) : SNH.Idx → EReal)
    = aggK (argAt m c main_arg1) (mm (L1 m c) (argAt m c main_arg6)) := by
  unfold U8; rw [h4_v74]
  have e25 : U7 m c (Proc.devRef .tc main_v25) = normK (argAt m c main_arg1) := by keep; exact U1_v25 m c
  have e1 : U7 m c (Proc.devRef .tc main_v1) = srcK (argAt m c main_arg1) := by keep; exact U1_v1 m c
  have e3 : U7 m c (Proc.devRef .tc main_v3) = dstK (argAt m c main_arg1) := by keep; exact U1_v3 m c
  rw [e25, e1, e3, xw2]; rfl

theorem U8_sn2 : (U8 m c (Proc.devRef .tc main_v75) : SN1.Idx → EReal) = snK (argAt m c main_arg1) := by
  unfold U8; rw [h4_v75]
  have e26 : U7 m c (Proc.devRef .tc main_v26) = selfK (argAt m c main_arg1) := by keep; exact U1_v26 m c
  rw [e26]; rfl

theorem U8_b2 : (U8 m c (Proc.devRef .tc main_v76) : S1H.Idx → EReal) = row (argAt m c main_arg7) := by
  unfold U8; rw [h4_v76, rowcast]
  have eb : U7 m c (Proc.devRef .tc main_arg7) = argAt m c main_arg7 := by keep; rfl
  rw [eb]

theorem conv2 : (U9 m c (Proc.devRef .tc main_v77_0) : SNH.Idx → EReal) = R2 m c := by
  rw [U9_main_v77_0, val4_4]; dsimp only [U8v]
  rw [U8_agg2, U8_xw2, U8_sn2, U8_b2]; rfl
theorem sum2 : (U9 m c (Proc.devRef .tc main_v77_1) : S1H.Idx → EReal) = colsum (R2 m c) := by
  rw [U9_main_v77_1, val4_5]; dsimp only [U8v]
  rw [U8_agg2, U8_xw2, U8_sn2, U8_b2]; rfl
theorem sumsq2 : (U9 m c (Proc.devRef .tc main_v77_2) : S1H.Idx → EReal) = colsumsq (R2 m c) := by
  rw [U9_main_v77_2, val4_6]; dsimp only [U8v]
  rw [U8_agg2, U8_xw2, U8_sn2, U8_b2]; rfl

theorem U10_scale2 : (U10 m c (Proc.devRef .tc main_v92) : S1H.Idx → EReal)
    = shapeCast S1x128 (scaleT (colsum (R2 m c)) (colsumsq (R2 m c)) (argAt m c main_arg12)) shapeCasts_S128_S1x128 := by
  unfold U10; rw [h5_v92, sum2, sumsq2]
  have eg : U9 m c (Proc.devRef .tc main_arg12) = argAt m c main_arg12 := by keep; rfl
  rw [eg]
theorem U10_shift2 : (U10 m c (Proc.devRef .tc main_v93) : S1H.Idx → EReal)
    = shapeCast S1x128 (shiftT (colsum (R2 m c)) (colsumsq (R2 m c)) (argAt m c main_arg12) (argAt m c main_arg13)) shapeCasts_S128_S1x128 := by
  unfold U10; rw [h5_v93, sum2, sumsq2]
  have eg : U9 m c (Proc.devRef .tc main_arg12) = argAt m c main_arg12 := by keep; rfl
  have ebe : U9 m c (Proc.devRef .tc main_arg13) = argAt m c main_arg13 := by keep; rfl
  rw [eg, ebe]
theorem U10_r2 : (U10 m c (Proc.devRef .tc main_v77_0) : SNH.Idx → EReal) = R2 m c := by
  keep; exact conv2 m c

theorem out2 : (U11 m c (Proc.devRef .tc main_v94) : SNH.Idx → EReal) = L2 m c := by
  rw [U11_main_v94, val5_3]; dsimp only [U10v]
  rw [U10_r2, U10_scale2, U10_shift2, affine_bnKer]; rfl

theorem xw3 : (U12 m c (Proc.devRef .tc main_v95) : SNH.Idx → EReal) = mm (L2 m c) (argAt m c main_arg8) := by
  rw [U12_main_v95, val6_2]; dsimp only [U11v]
  have eW : U11 m c (Proc.devRef .tc main_arg8) = argAt m c main_arg8 := by keep; rfl
  rw [eW, out2]

theorem U13_xw3 : (U13 m c (Proc.devRef .tc main_v95) : SNH.Idx → EReal) = mm (L2 m c) (argAt m c main_arg8) := by
  keep; exact xw3 m c

theorem U13_agg3 : (U13 m c (Proc.devRef .tc main_v108) : SNH.Idx → EReal)
    = aggK (argAt m c main_arg1) (mm (L2 m c) (argAt m c main_arg8)) := by
  unfold U13; rw [h7_v108]
  have e25 : U12 m c (Proc.devRef .tc main_v25) = normK (argAt m c main_arg1) := by keep; exact U1_v25 m c
  have e1 : U12 m c (Proc.devRef .tc main_v1) = srcK (argAt m c main_arg1) := by keep; exact U1_v1 m c
  have e3 : U12 m c (Proc.devRef .tc main_v3) = dstK (argAt m c main_arg1) := by keep; exact U1_v3 m c
  rw [e25, e1, e3, xw3]; rfl

theorem U13_sn3 : (U13 m c (Proc.devRef .tc main_v109) : SN1.Idx → EReal) = snK (argAt m c main_arg1) := by
  unfold U13; rw [h7_v109]
  have e26 : U12 m c (Proc.devRef .tc main_v26) = selfK (argAt m c main_arg1) := by keep; exact U1_v26 m c
  rw [e26]; rfl

theorem U13_b3 : (U13 m c (Proc.devRef .tc main_v110) : S1H.Idx → EReal) = row (argAt m c main_arg9) := by
  unfold U13; rw [h7_v110, rowcast]
  have eb : U12 m c (Proc.devRef .tc main_arg9) = argAt m c main_arg9 := by keep; rfl
  rw [eb]

theorem conv3 : (U14 m c (Proc.devRef .tc main_v111_0) : SNH.Idx → EReal) = R3 m c := by
  rw [U14_main_v111_0, val7_4]; dsimp only [U13v]
  rw [U13_agg3, U13_xw3, U13_sn3, U13_b3]; rfl
theorem sum3 : (U14 m c (Proc.devRef .tc main_v111_1) : S1H.Idx → EReal) = colsum (R3 m c) := by
  rw [U14_main_v111_1, val7_5]; dsimp only [U13v]
  rw [U13_agg3, U13_xw3, U13_sn3, U13_b3]; rfl
theorem sumsq3 : (U14 m c (Proc.devRef .tc main_v111_2) : S1H.Idx → EReal) = colsumsq (R3 m c) := by
  rw [U14_main_v111_2, val7_6]; dsimp only [U13v]
  rw [U13_agg3, U13_xw3, U13_sn3, U13_b3]; rfl

theorem U15_scale3 : (U15 m c (Proc.devRef .tc main_v126) : S1H.Idx → EReal)
    = shapeCast S1x128 (scaleT (colsum (R3 m c)) (colsumsq (R3 m c)) (argAt m c main_arg14)) shapeCasts_S128_S1x128 := by
  unfold U15; rw [h8_v126, sum3, sumsq3]
  have eg : U14 m c (Proc.devRef .tc main_arg14) = argAt m c main_arg14 := by keep; rfl
  rw [eg]
theorem U15_shift3 : (U15 m c (Proc.devRef .tc main_v127) : S1H.Idx → EReal)
    = shapeCast S1x128 (shiftT (colsum (R3 m c)) (colsumsq (R3 m c)) (argAt m c main_arg14) (argAt m c main_arg15)) shapeCasts_S128_S1x128 := by
  unfold U15; rw [h8_v127, sum3, sumsq3]
  have eg : U14 m c (Proc.devRef .tc main_arg14) = argAt m c main_arg14 := by keep; rfl
  have ebe : U14 m c (Proc.devRef .tc main_arg15) = argAt m c main_arg15 := by keep; rfl
  rw [eg, ebe]
theorem U15_r3 : (U15 m c (Proc.devRef .tc main_v111_0) : SNH.Idx → EReal) = R3 m c := by
  keep; exact conv3 m c

theorem out3 : (U16 m c (Proc.devRef .tc main_v128) : SNH.Idx → EReal) = L3 m c := by
  rw [U16_main_v128, val8_3]; dsimp only [U15v]
  rw [U15_r3, U15_scale3, U15_shift3, affine_bnKer]; rfl

theorem U17_h : (U17 m c (Proc.devRef .tc main_v128) : SNH.Idx → EReal) = L3 m c := by
  keep; exact out3 m c

theorem U17_bt : (U17 m c (Proc.devRef .tc main_v129) : SN1.Idx → BitVec 32) = btK (argAt m c main_arg2) := by
  unfold U17; rw [h9_v129]
  have e2 : U16 m c (Proc.devRef .tc main_arg2) = argAt m c main_arg2 := by keep; rfl
  rw [e2]

theorem pooled : (U18 m c (Proc.devRef .tc main_v130) : SGH.Idx → EReal) = pool (L3 m c) (btK (argAt m c main_arg2)) := by
  rw [U18_main_v130, val9_2]; dsimp only [U17v]
  rw [U17_h, U17_bt]

theorem U19_z : (U19 m c (Proc.devRef .tc main_v131) : SGZ.Idx → EReal)
    = catK (pool (L3 m c) (btK (argAt m c main_arg2))) (argAt m c main_arg3) := by
  unfold U19; rw [h10_v131, pooled]
  have e3 : U18 m c (Proc.devRef .tc main_arg3) = argAt m c main_arg3 := by keep; rfl
  rw [e3]

theorem U19_bc : (U19 m c (Proc.devRef .tc main_v132) : S1K.Idx → EReal) = row2 (argAt m c main_arg17) := by
  unfold U19; rw [h10_v132, row2cast]
  have e17 : U18 m c (Proc.devRef .tc main_arg17) = argAt m c main_arg17 := by keep; rfl
  rw [e17]

theorem U19_Wc : U19 m c (Proc.devRef .tc main_arg16) = argAt m c main_arg16 := by keep; rfl

theorem chain : (U20 (F := Ideal) m c (Proc.devRef .tc main_v133) : SGK.Idx → EReal)
    = netKer (aggK (argAt m c main_arg1)) (snK (argAt m c main_arg1)) catK
        (argAt m c main_arg0) (btK (argAt m c main_arg2)) (argAt m c main_arg3)
        (argAt m c main_arg4) (argAt m c main_arg5) (argAt m c main_arg6) (argAt m c main_arg7)
        (argAt m c main_arg8) (argAt m c main_arg9)
        (argAt m c main_arg10) (argAt m c main_arg11) (argAt m c main_arg12) (argAt m c main_arg13)
        (argAt m c main_arg14) (argAt m c main_arg15)
        (argAt m c main_arg16) (argAt m c main_arg17) := by
  rw [U20_main_v133, val10_3]; dsimp only [U19v]
  rw [U19_z, U19_Wc, U19_bc]; rfl

end Chain

end Cert.KernelIdeal.Hand

end
-- ==== Proof.Ref.RunHandOps.lean ====
import proofs.«418928_j70858370450169_1_alg».proof.Proof.Gen.ReferenceIdeal
import Idealize.ShloMosaic.Lib.StableHlo.Run

noncomputable section

namespace Cert.ReferenceIdeal.RunHand

open Cert.ReferenceIdeal Cert.ReferenceIdeal.Gen Idealize.ShloMosaic Idealize.ShloMosaic.TcCoe Idealize.SL.Sem Idealize.ShloMosaic.StableHlo

variable {F : FTy → Type} [FloatOps F]

abbrev ops0 : List (HloOp τ sig (Elt F)) :=
  [ unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    reshape main_v0 main_v1 rfl shapeCasts_S1x1600000_S1600000 ]

abbrev ops1 : List (HloOp τ sig (Elt F)) :=
  [ unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    reshape main_v2 main_v3 rfl shapeCasts_S1x1600000_S1600000 ]

abbrev ops2 : List (HloOp τ sig (Elt F)) :=
  [ nullary main_cst (constant S_ .f32 0x3F800000#32),
    unary main_cst main_v4 (broadcastInDim S1600000 ![] bcast_S_S1600000 : (⟨S_, .f32⟩ : BufTy).Contents (Elt F) → (⟨S1600000, .f32⟩ : BufTy).Contents (Elt F)),
    nullary main_cst_0 (constant S_ .f32 0x00000000#32),
    unary main_cst_0 main_v5 (broadcastInDim S100000 ![] bcast_S_S100000 : (⟨S_, .f32⟩ : BufTy).Contents (Elt F) → (⟨S100000, .f32⟩ : BufTy).Contents (Elt F)),
    unary main_v3 main_v6 (broadcastInDim S1600000x1 ![0] bcast_S1600000_S1600000x1_0 : (⟨S1600000, .i32⟩ : BufTy).Contents (Elt F) → (⟨S1600000x1, .i32⟩ : BufTy).Contents (Elt F)),
    ternary main_v5 main_v6 main_v4 main_v7 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_cst_1 (constant S_ .f32 0x3F800000#32),
    unary main_cst_1 main_v8 (broadcastInDim S100000 ![] bcast_S_S100000 : (⟨S_, .f32⟩ : BufTy).Contents (Elt F) → (⟨S100000, .f32⟩ : BufTy).Contents (Elt F)),
    binary main_v7 main_v8 main_v9 (addf : (⟨S100000, .f32⟩ : BufTy).Contents (Elt F) → (⟨S100000, .f32⟩ : BufTy).Contents (Elt F) → (⟨S100000, .f32⟩ : BufTy).Contents (Elt F)),
    unary main_v9 main_v10 (Host.rsqrt : (⟨S100000, .f32⟩ : BufTy).Contents (Elt F) → (⟨S100000, .f32⟩ : BufTy).Contents (Elt F)) ]

abbrev ops3 : List (HloOp τ sig (Elt F)) :=
  [ nullary main_c (constantI S_ 32 0#32),
    unary main_c main_v11 (broadcastInDim S1600000 ![] bcast_S_S1600000 : (⟨S_, .i32⟩ : BufTy).Contents (Elt F) → (⟨S1600000, .i32⟩ : BufTy).Contents (Elt F)),
    binary main_v1 main_v11 main_v12 (cmpi .slt : (⟨S1600000, .i32⟩ : BufTy).Contents (Elt F) → (⟨S1600000, .i32⟩ : BufTy).Contents (Elt F) → (⟨S1600000, .i1⟩ : BufTy).Contents (Elt F)),
    nullary main_c_2 (constantI S_ 32 100000#32),
    unary main_c_2 main_v13 (broadcastInDim S1600000 ![] bcast_S_S1600000 : (⟨S_, .i32⟩ : BufTy).Contents (Elt F) → (⟨S1600000, .i32⟩ : BufTy).Contents (Elt F)),
    binary main_v1 main_v13 main_v14 (addi : (⟨S1600000, .i32⟩ : BufTy).Contents (Elt F) → (⟨S1600000, .i32⟩ : BufTy).Contents (Elt F) → (⟨S1600000, .i32⟩ : BufTy).Contents (Elt F)),
    ternary main_v12 main_v14 main_v1 main_v15 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v15 main_v16 (broadcastInDim S1600000x1 ![0] bcast_S1600000_S1600000x1_0 : (⟨S1600000, .i32⟩ : BufTy).Contents (Elt F) → (⟨S1600000x1, .i32⟩ : BufTy).Contents (Elt F)),
    binary main_v10 main_v16 main_v17 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    nullary main_c_3 (constantI S_ 32 0#32) ]

abbrev ops4 : List (HloOp τ sig (Elt F)) :=
  [ unary main_c_3 main_v18 (broadcastInDim S1600000 ![] bcast_S_S1600000 : (⟨S_, .i32⟩ : BufTy).Contents (Elt F) → (⟨S1600000, .i32⟩ : BufTy).Contents (Elt F)),
    binary main_v3 main_v18 main_v19 (cmpi .slt : (⟨S1600000, .i32⟩ : BufTy).Contents (Elt F) → (⟨S1600000, .i32⟩ : BufTy).Contents (Elt F) → (⟨S1600000, .i1⟩ : BufTy).Contents (Elt F)),
    nullary main_c_4 (constantI S_ 32 100000#32),
    unary main_c_4 main_v20 (broadcastInDim S1600000 ![] bcast_S_S1600000 : (⟨S_, .i32⟩ : BufTy).Contents (Elt F) → (⟨S1600000, .i32⟩ : BufTy).Contents (Elt F)),
    binary main_v3 main_v20 main_v21 (addi : (⟨S1600000, .i32⟩ : BufTy).Contents (Elt F) → (⟨S1600000, .i32⟩ : BufTy).Contents (Elt F) → (⟨S1600000, .i32⟩ : BufTy).Contents (Elt F)),
    ternary main_v19 main_v21 main_v3 main_v22 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v22 main_v23 (broadcastInDim S1600000x1 ![0] bcast_S1600000_S1600000x1_0 : (⟨S1600000, .i32⟩ : BufTy).Contents (Elt F) → (⟨S1600000x1, .i32⟩ : BufTy).Contents (Elt F)),
    binary main_v10 main_v23 main_v24 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    binary main_v17 main_v24 main_v25 (mulf : (⟨S1600000, .f32⟩ : BufTy).Contents (Elt F) → (⟨S1600000, .f32⟩ : BufTy).Contents (Elt F) → (⟨S1600000, .f32⟩ : BufTy).Contents (Elt F)) ]

abbrev ops5 : List (HloOp τ sig (Elt F)) :=
  [ binary main_v10 main_v10 main_v26 (mulf : (⟨S100000, .f32⟩ : BufTy).Contents (Elt F) → (⟨S100000, .f32⟩ : BufTy).Contents (Elt F) → (⟨S100000, .f32⟩ : BufTy).Contents (Elt F)) ]

abbrev ops6 : List (HloOp τ sig (Elt F)) :=
  [ binary main_arg0 main_arg4 main_v27 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)) ]

abbrev ops7 : List (HloOp τ sig (Elt F)) :=
  [ unary main_v25 main_v28 (broadcastInDim S1600000x1 ![0] bcast_S1600000_S1600000x1_0 : (⟨S1600000, .f32⟩ : BufTy).Contents (Elt F) → (⟨S1600000x1, .f32⟩ : BufTy).Contents (Elt F)),
    nullary main_c_5 (constantI S_ 32 0#32),
    unary main_c_5 main_v29 (broadcastInDim S1600000 ![] bcast_S_S1600000 : (⟨S_, .i32⟩ : BufTy).Contents (Elt F) → (⟨S1600000, .i32⟩ : BufTy).Contents (Elt F)),
    binary main_v1 main_v29 main_v30 (cmpi .slt : (⟨S1600000, .i32⟩ : BufTy).Contents (Elt F) → (⟨S1600000, .i32⟩ : BufTy).Contents (Elt F) → (⟨S1600000, .i1⟩ : BufTy).Contents (Elt F)),
    nullary main_c_6 (constantI S_ 32 100000#32),
    unary main_c_6 main_v31 (broadcastInDim S1600000 ![] bcast_S_S1600000 : (⟨S_, .i32⟩ : BufTy).Contents (Elt F) → (⟨S1600000, .i32⟩ : BufTy).Contents (Elt F)),
    binary main_v1 main_v31 main_v32 (addi : (⟨S1600000, .i32⟩ : BufTy).Contents (Elt F) → (⟨S1600000, .i32⟩ : BufTy).Contents (Elt F) → (⟨S1600000, .i32⟩ : BufTy).Contents (Elt F)),
    ternary main_v30 main_v32 main_v1 main_v33 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v33 main_v34 (broadcastInDim S1600000x1 ![0] bcast_S1600000_S1600000x1_0 : (⟨S1600000, .i32⟩ : BufTy).Contents (Elt F) → (⟨S1600000x1, .i32⟩ : BufTy).Contents (Elt F)),
    binary main_v27 main_v34 main_v35 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    unary main_v28 main_v36 (broadcastInDim S1600000x128 ![0, 1] bcast_S1600000x1_S1600000x128_0_1 : (⟨S1600000x1, .f32⟩ : BufTy).Contents (Elt F) → (⟨S1600000x128, .f32⟩ : BufTy).Contents (Elt F)),
    binary main_v36 main_v35 main_v37 (mulf : (⟨S1600000x128, .f32⟩ : BufTy).Contents (Elt F) → (⟨S1600000x128, .f32⟩ : BufTy).Contents (Elt F) → (⟨S1600000x128, .f32⟩ : BufTy).Contents (Elt F)),
    nullary main_cst_7 (constant S_ .f32 0x00000000#32) ]

abbrev ops8 : List (HloOp τ sig (Elt F)) :=
  [ unary main_cst_7 main_v38 (broadcastInDim S100000x128 ![] bcast_S_S100000x128 : (⟨S_, .f32⟩ : BufTy).Contents (Elt F) → (⟨S100000x128, .f32⟩ : BufTy).Contents (Elt F)),
    unary main_v3 main_v39 (broadcastInDim S1600000x1 ![0] bcast_S1600000_S1600000x1_0 : (⟨S1600000, .i32⟩ : BufTy).Contents (Elt F) → (⟨S1600000x1, .i32⟩ : BufTy).Contents (Elt F)),
    ternary main_v38 main_v39 main_v37 main_v40 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    unary main_v26 main_v41 (broadcastInDim S100000x1 ![0] bcast_S100000_S100000x1_0 : (⟨S100000, .f32⟩ : BufTy).Contents (Elt F) → (⟨S100000x1, .f32⟩ : BufTy).Contents (Elt F)),
    unary main_v41 main_v42 (broadcastInDim S100000x128 ![0, 1] bcast_S100000x1_S100000x128_0_1 : (⟨S100000x1, .f32⟩ : BufTy).Contents (Elt F) → (⟨S100000x128, .f32⟩ : BufTy).Contents (Elt F)),
    binary main_v42 main_v27 main_v43 (mulf : (⟨S100000x128, .f32⟩ : BufTy).Contents (Elt F) → (⟨S100000x128, .f32⟩ : BufTy).Contents (Elt F) → (⟨S100000x128, .f32⟩ : BufTy).Contents (Elt F)),
    binary main_v40 main_v43 main_v44 (addf : (⟨S100000x128, .f32⟩ : BufTy).Contents (Elt F) → (⟨S100000x128, .f32⟩ : BufTy).Contents (Elt F) → (⟨S100000x128, .f32⟩ : BufTy).Contents (Elt F)),
    unary main_arg5 main_v45 (broadcastInDim S1x128 ![1] bcast_S128_S1x128_1 : (⟨S128, .f32⟩ : BufTy).Contents (Elt F) → (⟨S1x128, .f32⟩ : BufTy).Contents (Elt F)),
    unary main_v45 main_v46 (broadcastInDim S100000x128 ![0, 1] bcast_S1x128_S100000x128_0_1 : (⟨S1x128, .f32⟩ : BufTy).Contents (Elt F) → (⟨S100000x128, .f32⟩ : BufTy).Contents (Elt F)),
    binary main_v44 main_v46 main_v47 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S100000x128, .f32⟩) main_call0_v0) (broadcastInDim S100000x128 ![] bcast_S_S100000x128),
    TRef.binary (TRef.of (T := ⟨S100000x128, .f32⟩) main_v47) (TRef.of (T := ⟨S100000x128, .f32⟩) main_call0_v0) (TRef.of (T := ⟨S100000x128, .f32⟩) main_v48) maximumf ]

abbrev ops9 : List (HloOp τ sig (Elt F)) :=
  [ nullary main_cst_8 (constant S_ .f32 0x00000000#32),
    binary main_v48 main_cst_8 main_v49 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_9 (constant S_ .f32 0x47C35000#32),
    unary main_cst_9 main_v50 (broadcastInDim S128 ![] bcast_S_S128 : (⟨S_, .f32⟩ : BufTy).Contents (Elt F) → (⟨S128, .f32⟩ : BufTy).Contents (Elt F)),
    binary main_v49 main_v50 main_v51 (Host.divf : (⟨S128, .f32⟩ : BufTy).Contents (Elt F) → (⟨S128, .f32⟩ : BufTy).Contents (Elt F) → (⟨S128, .f32⟩ : BufTy).Contents (Elt F)) ]

abbrev ops10 : List (HloOp τ sig (Elt F)) :=
  [ unary main_v51 main_v52 (broadcastInDim S1x128 ![1] bcast_S128_S1x128_1 : (⟨S128, .f32⟩ : BufTy).Contents (Elt F) → (⟨S1x128, .f32⟩ : BufTy).Contents (Elt F)),
    unary main_v52 main_v53 (broadcastInDim S100000x128 ![0, 1] bcast_S1x128_S100000x128_0_1 : (⟨S1x128, .f32⟩ : BufTy).Contents (Elt F) → (⟨S100000x128, .f32⟩ : BufTy).Contents (Elt F)),
    binary main_v48 main_v53 main_v54 (subf : (⟨S100000x128, .f32⟩ : BufTy).Contents (Elt F) → (⟨S100000x128, .f32⟩ : BufTy).Contents (Elt F) → (⟨S100000x128, .f32⟩ : BufTy).Contents (Elt F)) ]

abbrev ops11 : List (HloOp τ sig (Elt F)) :=
  [ binary main_v54 main_v54 main_v55 (mulf : (⟨S100000x128, .f32⟩ : BufTy).Contents (Elt F) → (⟨S100000x128, .f32⟩ : BufTy).Contents (Elt F) → (⟨S100000x128, .f32⟩ : BufTy).Contents (Elt F)),
    nullary main_cst_10 (constant S_ .f32 0x00000000#32),
    binary main_v55 main_cst_10 main_v56 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_11 (constant S_ .f32 0x47C35000#32),
    unary main_cst_11 main_v57 (broadcastInDim S128 ![] bcast_S_S128 : (⟨S_, .f32⟩ : BufTy).Contents (Elt F) → (⟨S128, .f32⟩ : BufTy).Contents (Elt F)),
    binary main_v56 main_v57 main_v58 (Host.divf : (⟨S128, .f32⟩ : BufTy).Contents (Elt F) → (⟨S128, .f32⟩ : BufTy).Contents (Elt F) → (⟨S128, .f32⟩ : BufTy).Contents (Elt F)),
    unary main_v51 main_v59 (broadcastInDim S1x128 ![1] bcast_S128_S1x128_1 : (⟨S128, .f32⟩ : BufTy).Contents (Elt F) → (⟨S1x128, .f32⟩ : BufTy).Contents (Elt F)),
    unary main_v59 main_v60 (broadcastInDim S100000x128 ![0, 1] bcast_S1x128_S100000x128_0_1 : (⟨S1x128, .f32⟩ : BufTy).Contents (Elt F) → (⟨S100000x128, .f32⟩ : BufTy).Contents (Elt F)),
    binary main_v48 main_v60 main_v61 (subf : (⟨S100000x128, .f32⟩ : BufTy).Contents (Elt F) → (⟨S100000x128, .f32⟩ : BufTy).Contents (Elt F) → (⟨S100000x128, .f32⟩ : BufTy).Contents (Elt F)),
    nullary main_cst_12 (constant S_ .f32 0x3727C5AC#32),
    unary main_cst_12 main_v62 (broadcastInDim S128 ![] bcast_S_S128 : (⟨S_, .f32⟩ : BufTy).Contents (Elt F) → (⟨S128, .f32⟩ : BufTy).Contents (Elt F)),
    binary main_v58 main_v62 main_v63 (addf : (⟨S128, .f32⟩ : BufTy).Contents (Elt F) → (⟨S128, .f32⟩ : BufTy).Contents (Elt F) → (⟨S128, .f32⟩ : BufTy).Contents (Elt F)) ]

abbrev ops12 : List (HloOp τ sig (Elt F)) :=
  [ unary main_v63 main_v64 (Host.rsqrt : (⟨S128, .f32⟩ : BufTy).Contents (Elt F) → (⟨S128, .f32⟩ : BufTy).Contents (Elt F)),
    unary main_v64 main_v65 (broadcastInDim S1x128 ![1] bcast_S128_S1x128_1 : (⟨S128, .f32⟩ : BufTy).Contents (Elt F) → (⟨S1x128, .f32⟩ : BufTy).Contents (Elt F)),
    unary main_v65 main_v66 (broadcastInDim S100000x128 ![0, 1] bcast_S1x128_S100000x128_0_1 : (⟨S1x128, .f32⟩ : BufTy).Contents (Elt F) → (⟨S100000x128, .f32⟩ : BufTy).Contents (Elt F)),
    binary main_v61 main_v66 main_v67 (mulf : (⟨S100000x128, .f32⟩ : BufTy).Contents (Elt F) → (⟨S100000x128, .f32⟩ : BufTy).Contents (Elt F) → (⟨S100000x128, .f32⟩ : BufTy).Contents (Elt F)),
    unary main_arg10 main_v68 (broadcastInDim S1x128 ![1] bcast_S128_S1x128_1 : (⟨S128, .f32⟩ : BufTy).Contents (Elt F) → (⟨S1x128, .f32⟩ : BufTy).Contents (Elt F)),
    unary main_v68 main_v69 (broadcastInDim S100000x128 ![0, 1] bcast_S1x128_S100000x128_0_1 : (⟨S1x128, .f32⟩ : BufTy).Contents (Elt F) → (⟨S100000x128, .f32⟩ : BufTy).Contents (Elt F)),
    binary main_v67 main_v69 main_v70 (mulf : (⟨S100000x128, .f32⟩ : BufTy).Contents (Elt F) → (⟨S100000x128, .f32⟩ : BufTy).Contents (Elt F) → (⟨S100000x128, .f32⟩ : BufTy).Contents (Elt F)),
    unary main_arg11 main_v71 (broadcastInDim S1x128 ![1] bcast_S128_S1x128_1 : (⟨S128, .f32⟩ : BufTy).Contents (Elt F) → (⟨S1x128, .f32⟩ : BufTy).Contents (Elt F)),
    unary main_v71 main_v72 (broadcastInDim S100000x128 ![0, 1] bcast_S1x128_S100000x128_0_1 : (⟨S1x128, .f32⟩ : BufTy).Contents (Elt F) → (⟨S100000x128, .f32⟩ : BufTy).Contents (Elt F)),
    binary main_v70 main_v72 main_v73 (addf : (⟨S100000x128, .f32⟩ : BufTy).Contents (Elt F) → (⟨S100000x128, .f32⟩ : BufTy).Contents (Elt F) → (⟨S100000x128, .f32⟩ : BufTy).Contents (Elt F)),
    binary main_v73 main_arg6 main_v74 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)) ]

abbrev ops13 : List (HloOp τ sig (Elt F)) :=
  [ unary main_v25 main_v75 (broadcastInDim S1600000x1 ![0] bcast_S1600000_S1600000x1_0 : (⟨S1600000, .f32⟩ : BufTy).Contents (Elt F) → (⟨S1600000x1, .f32⟩ : BufTy).Contents (Elt F)),
    nullary main_c_13 (constantI S_ 32 0#32),
    unary main_c_13 main_v76 (broadcastInDim S1600000 ![] bcast_S_S1600000 : (⟨S_, .i32⟩ : BufTy).Contents (Elt F) → (⟨S1600000, .i32⟩ : BufTy).Contents (Elt F)),
    binary main_v1 main_v76 main_v77 (cmpi .slt : (⟨S1600000, .i32⟩ : BufTy).Contents (Elt F) → (⟨S1600000, .i32⟩ : BufTy).Contents (Elt F) → (⟨S1600000, .i1⟩ : BufTy).Contents (Elt F)),
    nullary main_c_14 (constantI S_ 32 100000#32),
    unary main_c_14 main_v78 (broadcastInDim S1600000 ![] bcast_S_S1600000 : (⟨S_, .i32⟩ : BufTy).Contents (Elt F) → (⟨S1600000, .i32⟩ : BufTy).Contents (Elt F)),
    binary main_v1 main_v78 main_v79 (addi : (⟨S1600000, .i32⟩ : BufTy).Contents (Elt F) → (⟨S1600000, .i32⟩ : BufTy).Contents (Elt F) → (⟨S1600000, .i32⟩ : BufTy).Contents (Elt F)),
    ternary main_v77 main_v79 main_v1 main_v80 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v80 main_v81 (broadcastInDim S1600000x1 ![0] bcast_S1600000_S1600000x1_0 : (⟨S1600000, .i32⟩ : BufTy).Contents (Elt F) → (⟨S1600000x1, .i32⟩ : BufTy).Contents (Elt F)),
    binary main_v74 main_v81 main_v82 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    unary main_v75 main_v83 (broadcastInDim S1600000x128 ![0, 1] bcast_S1600000x1_S1600000x128_0_1 : (⟨S1600000x1, .f32⟩ : BufTy).Contents (Elt F) → (⟨S1600000x128, .f32⟩ : BufTy).Contents (Elt F)),
    binary main_v83 main_v82 main_v84 (mulf : (⟨S1600000x128, .f32⟩ : BufTy).Contents (Elt F) → (⟨S1600000x128, .f32⟩ : BufTy).Contents (Elt F) → (⟨S1600000x128, .f32⟩ : BufTy).Contents (Elt F)),
    nullary main_cst_15 (constant S_ .f32 0x00000000#32) ]

abbrev ops14 : List (HloOp τ sig (Elt F)) :=
  [ unary main_cst_15 main_v85 (broadcastInDim S100000x128 ![] bcast_S_S100000x128 : (⟨S_, .f32⟩ : BufTy).Contents (Elt F) → (⟨S100000x128, .f32⟩ : BufTy).Contents (Elt F)),
    unary main_v3 main_v86 (broadcastInDim S1600000x1 ![0] bcast_S1600000_S1600000x1_0 : (⟨S1600000, .i32⟩ : BufTy).Contents (Elt F) → (⟨S1600000x1, .i32⟩ : BufTy).Contents (Elt F)),
    ternary main_v85 main_v86 main_v84 main_v87 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    unary main_v26 main_v88 (broadcastInDim S100000x1 ![0] bcast_S100000_S100000x1_0 : (⟨S100000, .f32⟩ : BufTy).Contents (Elt F) → (⟨S100000x1, .f32⟩ : BufTy).Contents (Elt F)),
    unary main_v88 main_v89 (broadcastInDim S100000x128 ![0, 1] bcast_S100000x1_S100000x128_0_1 : (⟨S100000x1, .f32⟩ : BufTy).Contents (Elt F) → (⟨S100000x128, .f32⟩ : BufTy).Contents (Elt F)),
    binary main_v89 main_v74 main_v90 (mulf : (⟨S100000x128, .f32⟩ : BufTy).Contents (Elt F) → (⟨S100000x128, .f32⟩ : BufTy).Contents (Elt F) → (⟨S100000x128, .f32⟩ : BufTy).Contents (Elt F)),
    binary main_v87 main_v90 main_v91 (addf : (⟨S100000x128, .f32⟩ : BufTy).Contents (Elt F) → (⟨S100000x128, .f32⟩ : BufTy).Contents (Elt F) → (⟨S100000x128, .f32⟩ : BufTy).Contents (Elt F)),
    unary main_arg7 main_v92 (broadcastInDim S1x128 ![1] bcast_S128_S1x128_1 : (⟨S128, .f32⟩ : BufTy).Contents (Elt F) → (⟨S1x128, .f32⟩ : BufTy).Contents (Elt F)),
    unary main_v92 main_v93 (broadcastInDim S100000x128 ![0, 1] bcast_S1x128_S100000x128_0_1 : (⟨S1x128, .f32⟩ : BufTy).Contents (Elt F) → (⟨S100000x128, .f32⟩ : BufTy).Contents (Elt F)),
    binary main_v91 main_v93 main_v94 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x128, .f32⟩) main_call1_v0) (broadcastInDim S100000x128 ![] bcast_S_S100000x128),
    TRef.binary (TRef.of (T := ⟨S100000x128, .f32⟩) main_v94) (TRef.of (T := ⟨S100000x128, .f32⟩) main_call1_v0) (TRef.of (T := ⟨S100000x128, .f32⟩) main_v95) maximumf ]

abbrev ops15 : List (HloOp τ sig (Elt F)) :=
  [ nullary main_cst_16 (constant S_ .f32 0x00000000#32),
    binary main_v95 main_cst_16 main_v96 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_17 (constant S_ .f32 0x47C35000#32),
    unary main_cst_17 main_v97 (broadcastInDim S128 ![] bcast_S_S128 : (⟨S_, .f32⟩ : BufTy).Contents (Elt F) → (⟨S128, .f32⟩ : BufTy).Contents (Elt F)),
    binary main_v96 main_v97 main_v98 (Host.divf : (⟨S128, .f32⟩ : BufTy).Contents (Elt F) → (⟨S128, .f32⟩ : BufTy).Contents (Elt F) → (⟨S128, .f32⟩ : BufTy).Contents (Elt F)) ]

abbrev ops16 : List (HloOp τ sig (Elt F)) :=
  [ unary main_v98 main_v99 (broadcastInDim S1x128 ![1] bcast_S128_S1x128_1 : (⟨S128, .f32⟩ : BufTy).Contents (Elt F) → (⟨S1x128, .f32⟩ : BufTy).Contents (Elt F)),
    unary main_v99 main_v100 (broadcastInDim S100000x128 ![0, 1] bcast_S1x128_S100000x128_0_1 : (⟨S1x128, .f32⟩ : BufTy).Contents (Elt F) → (⟨S100000x128, .f32⟩ : BufTy).Contents (Elt F)),
    binary main_v95 main_v100 main_v101 (subf : (⟨S100000x128, .f32⟩ : BufTy).Contents (Elt F) → (⟨S100000x128, .f32⟩ : BufTy).Contents (Elt F) → (⟨S100000x128, .f32⟩ : BufTy).Contents (Elt F)) ]

abbrev ops17 : List (HloOp τ sig (Elt F)) :=
  [ binary main_v101 main_v101 main_v102 (mulf : (⟨S100000x128, .f32⟩ : BufTy).Contents (Elt F) → (⟨S100000x128, .f32⟩ : BufTy).Contents (Elt F) → (⟨S100000x128, .f32⟩ : BufTy).Contents (Elt F)),
    nullary main_cst_18 (constant S_ .f32 0x00000000#32),
    binary main_v102 main_cst_18 main_v103 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_19 (constant S_ .f32 0x47C35000#32),
    unary main_cst_19 main_v104 (broadcastInDim S128 ![] bcast_S_S128 : (⟨S_, .f32⟩ : BufTy).Contents (Elt F) → (⟨S128, .f32⟩ : BufTy).Contents (Elt F)),
    binary main_v103 main_v104 main_v105 (Host.divf : (⟨S128, .f32⟩ : BufTy).Contents (Elt F) → (⟨S128, .f32⟩ : BufTy).Contents (Elt F) → (⟨S128, .f32⟩ : BufTy).Contents (Elt F)),
    unary main_v98 main_v106 (broadcastInDim S1x128 ![1] bcast_S128_S1x128_1 : (⟨S128, .f32⟩ : BufTy).Contents (Elt F) → (⟨S1x128, .f32⟩ : BufTy).Contents (Elt F)),
    unary main_v106 main_v107 (broadcastInDim S100000x128 ![0, 1] bcast_S1x128_S100000x128_0_1 : (⟨S1x128, .f32⟩ : BufTy).Contents (Elt F) → (⟨S100000x128, .f32⟩ : BufTy).Contents (Elt F)),
    binary main_v95 main_v107 main_v108 (subf : (⟨S100000x128, .f32⟩ : BufTy).Contents (Elt F) → (⟨S100000x128, .f32⟩ : BufTy).Contents (Elt F) → (⟨S100000x128, .f32⟩ : BufTy).Contents (Elt F)),
    nullary main_cst_20 (constant S_ .f32 0x3727C5AC#32),
    unary main_cst_20 main_v109 (broadcastInDim S128 ![] bcast_S_S128 : (⟨S_, .f32⟩ : BufTy).Contents (Elt F) → (⟨S128, .f32⟩ : BufTy).Contents (Elt F)),
    binary main_v105 main_v109 main_v110 (addf : (⟨S128, .f32⟩ : BufTy).Contents (Elt F) → (⟨S128, .f32⟩ : BufTy).Contents (Elt F) → (⟨S128, .f32⟩ : BufTy).Contents (Elt F)) ]

abbrev ops18 : List (HloOp τ sig (Elt F)) :=
  [ unary main_v110 main_v111 (Host.rsqrt : (⟨S128, .f32⟩ : BufTy).Contents (Elt F) → (⟨S128, .f32⟩ : BufTy).Contents (Elt F)),
    unary main_v111 main_v112 (broadcastInDim S1x128 ![1] bcast_S128_S1x128_1 : (⟨S128, .f32⟩ : BufTy).Contents (Elt F) → (⟨S1x128, .f32⟩ : BufTy).Contents (Elt F)),
    unary main_v112 main_v113 (broadcastInDim S100000x128 ![0, 1] bcast_S1x128_S100000x128_0_1 : (⟨S1x128, .f32⟩ : BufTy).Contents (Elt F) → (⟨S100000x128, .f32⟩ : BufTy).Contents (Elt F)),
    binary main_v108 main_v113 main_v114 (mulf : (⟨S100000x128, .f32⟩ : BufTy).Contents (Elt F) → (⟨S100000x128, .f32⟩ : BufTy).Contents (Elt F) → (⟨S100000x128, .f32⟩ : BufTy).Contents (Elt F)),
    unary main_arg12 main_v115 (broadcastInDim S1x128 ![1] bcast_S128_S1x128_1 : (⟨S128, .f32⟩ : BufTy).Contents (Elt F) → (⟨S1x128, .f32⟩ : BufTy).Contents (Elt F)),
    unary main_v115 main_v116 (broadcastInDim S100000x128 ![0, 1] bcast_S1x128_S100000x128_0_1 : (⟨S1x128, .f32⟩ : BufTy).Contents (Elt F) → (⟨S100000x128, .f32⟩ : BufTy).Contents (Elt F)),
    binary main_v114 main_v116 main_v117 (mulf : (⟨S100000x128, .f32⟩ : BufTy).Contents (Elt F) → (⟨S100000x128, .f32⟩ : BufTy).Contents (Elt F) → (⟨S100000x128, .f32⟩ : BufTy).Contents (Elt F)),
    unary main_arg13 main_v118 (broadcastInDim S1x128 ![1] bcast_S128_S1x128_1 : (⟨S128, .f32⟩ : BufTy).Contents (Elt F) → (⟨S1x128, .f32⟩ : BufTy).Contents (Elt F)),
    unary main_v118 main_v119 (broadcastInDim S100000x128 ![0, 1] bcast_S1x128_S100000x128_0_1 : (⟨S1x128, .f32⟩ : BufTy).Contents (Elt F) → (⟨S100000x128, .f32⟩ : BufTy).Contents (Elt F)),
    binary main_v117 main_v119 main_v120 (addf : (⟨S100000x128, .f32⟩ : BufTy).Contents (Elt F) → (⟨S100000x128, .f32⟩ : BufTy).Contents (Elt F) → (⟨S100000x128, .f32⟩ : BufTy).Contents (Elt F)),
    binary main_v120 main_arg8 main_v121 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)) ]

abbrev ops19 : List (HloOp τ sig (Elt F)) :=
  [ unary main_v25 main_v122 (broadcastInDim S1600000x1 ![0] bcast_S1600000_S1600000x1_0 : (⟨S1600000, .f32⟩ : BufTy).Contents (Elt F) → (⟨S1600000x1, .f32⟩ : BufTy).Contents (Elt F)),
    nullary main_c_21 (constantI S_ 32 0#32),
    unary main_c_21 main_v123 (broadcastInDim S1600000 ![] bcast_S_S1600000 : (⟨S_, .i32⟩ : BufTy).Contents (Elt F) → (⟨S1600000, .i32⟩ : BufTy).Contents (Elt F)),
    binary main_v1 main_v123 main_v124 (cmpi .slt : (⟨S1600000, .i32⟩ : BufTy).Contents (Elt F) → (⟨S1600000, .i32⟩ : BufTy).Contents (Elt F) → (⟨S1600000, .i1⟩ : BufTy).Contents (Elt F)),
    nullary main_c_22 (constantI S_ 32 100000#32),
    unary main_c_22 main_v125 (broadcastInDim S1600000 ![] bcast_S_S1600000 : (⟨S_, .i32⟩ : BufTy).Contents (Elt F) → (⟨S1600000, .i32⟩ : BufTy).Contents (Elt F)),
    binary main_v1 main_v125 main_v126 (addi : (⟨S1600000, .i32⟩ : BufTy).Contents (Elt F) → (⟨S1600000, .i32⟩ : BufTy).Contents (Elt F) → (⟨S1600000, .i32⟩ : BufTy).Contents (Elt F)),
    ternary main_v124 main_v126 main_v1 main_v127 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v127 main_v128 (broadcastInDim S1600000x1 ![0] bcast_S1600000_S1600000x1_0 : (⟨S1600000, .i32⟩ : BufTy).Contents (Elt F) → (⟨S1600000x1, .i32⟩ : BufTy).Contents (Elt F)),
    binary main_v121 main_v128 main_v129 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    unary main_v122 main_v130 (broadcastInDim S1600000x128 ![0, 1] bcast_S1600000x1_S1600000x128_0_1 : (⟨S1600000x1, .f32⟩ : BufTy).Contents (Elt F) → (⟨S1600000x128, .f32⟩ : BufTy).Contents (Elt F)),
    binary main_v130 main_v129 main_v131 (mulf : (⟨S1600000x128, .f32⟩ : BufTy).Contents (Elt F) → (⟨S1600000x128, .f32⟩ : BufTy).Contents (Elt F) → (⟨S1600000x128, .f32⟩ : BufTy).Contents (Elt F)),
    nullary main_cst_23 (constant S_ .f32 0x00000000#32) ]

abbrev ops20 : List (HloOp τ sig (Elt F)) :=
  [ unary main_cst_23 main_v132 (broadcastInDim S100000x128 ![] bcast_S_S100000x128 : (⟨S_, .f32⟩ : BufTy).Contents (Elt F) → (⟨S100000x128, .f32⟩ : BufTy).Contents (Elt F)),
    unary main_v3 main_v133 (broadcastInDim S1600000x1 ![0] bcast_S1600000_S1600000x1_0 : (⟨S1600000, .i32⟩ : BufTy).Contents (Elt F) → (⟨S1600000x1, .i32⟩ : BufTy).Contents (Elt F)),
    ternary main_v132 main_v133 main_v131 main_v134 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    unary main_v26 main_v135 (broadcastInDim S100000x1 ![0] bcast_S100000_S100000x1_0 : (⟨S100000, .f32⟩ : BufTy).Contents (Elt F) → (⟨S100000x1, .f32⟩ : BufTy).Contents (Elt F)),
    unary main_v135 main_v136 (broadcastInDim S100000x128 ![0, 1] bcast_S100000x1_S100000x128_0_1 : (⟨S100000x1, .f32⟩ : BufTy).Contents (Elt F) → (⟨S100000x128, .f32⟩ : BufTy).Contents (Elt F)),
    binary main_v136 main_v121 main_v137 (mulf : (⟨S100000x128, .f32⟩ : BufTy).Contents (Elt F) → (⟨S100000x128, .f32⟩ : BufTy).Contents (Elt F) → (⟨S100000x128, .f32⟩ : BufTy).Contents (Elt F)),
    binary main_v134 main_v137 main_v138 (addf : (⟨S100000x128, .f32⟩ : BufTy).Contents (Elt F) → (⟨S100000x128, .f32⟩ : BufTy).Contents (Elt F) → (⟨S100000x128, .f32⟩ : BufTy).Contents (Elt F)),
    unary main_arg9 main_v139 (broadcastInDim S1x128 ![1] bcast_S128_S1x128_1 : (⟨S128, .f32⟩ : BufTy).Contents (Elt F) → (⟨S1x128, .f32⟩ : BufTy).Contents (Elt F)),
    unary main_v139 main_v140 (broadcastInDim S100000x128 ![0, 1] bcast_S1x128_S100000x128_0_1 : (⟨S1x128, .f32⟩ : BufTy).Contents (Elt F) → (⟨S100000x128, .f32⟩ : BufTy).Contents (Elt F)),
    binary main_v138 main_v140 main_v141 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S100000x128, .f32⟩) main_call2_v0) (broadcastInDim S100000x128 ![] bcast_S_S100000x128),
    TRef.binary (TRef.of (T := ⟨S100000x128, .f32⟩) main_v141) (TRef.of (T := ⟨S100000x128, .f32⟩) main_call2_v0) (TRef.of (T := ⟨S100000x128, .f32⟩) main_v142) maximumf ]

abbrev ops21 : List (HloOp τ sig (Elt F)) :=
  [ nullary main_cst_24 (constant S_ .f32 0x00000000#32),
    binary main_v142 main_cst_24 main_v143 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_25 (constant S_ .f32 0x47C35000#32),
    unary main_cst_25 main_v144 (broadcastInDim S128 ![] bcast_S_S128 : (⟨S_, .f32⟩ : BufTy).Contents (Elt F) → (⟨S128, .f32⟩ : BufTy).Contents (Elt F)),
    binary main_v143 main_v144 main_v145 (Host.divf : (⟨S128, .f32⟩ : BufTy).Contents (Elt F) → (⟨S128, .f32⟩ : BufTy).Contents (Elt F) → (⟨S128, .f32⟩ : BufTy).Contents (Elt F)) ]

abbrev ops22 : List (HloOp τ sig (Elt F)) :=
  [ unary main_v145 main_v146 (broadcastInDim S1x128 ![1] bcast_S128_S1x128_1 : (⟨S128, .f32⟩ : BufTy).Contents (Elt F) → (⟨S1x128, .f32⟩ : BufTy).Contents (Elt F)),
    unary main_v146 main_v147 (broadcastInDim S100000x128 ![0, 1] bcast_S1x128_S100000x128_0_1 : (⟨S1x128, .f32⟩ : BufTy).Contents (Elt F) → (⟨S100000x128, .f32⟩ : BufTy).Contents (Elt F)),
    binary main_v142 main_v147 main_v148 (subf : (⟨S100000x128, .f32⟩ : BufTy).Contents (Elt F) → (⟨S100000x128, .f32⟩ : BufTy).Contents (Elt F) → (⟨S100000x128, .f32⟩ : BufTy).Contents (Elt F)) ]

abbrev ops23 : List (HloOp τ sig (Elt F)) :=
  [ binary main_v148 main_v148 main_v149 (mulf : (⟨S100000x128, .f32⟩ : BufTy).Contents (Elt F) → (⟨S100000x128, .f32⟩ : BufTy).Contents (Elt F) → (⟨S100000x128, .f32⟩ : BufTy).Contents (Elt F)),
    nullary main_cst_26 (constant S_ .f32 0x00000000#32),
    binary main_v149 main_cst_26 main_v150 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_27 (constant S_ .f32 0x47C35000#32),
    unary main_cst_27 main_v151 (broadcastInDim S128 ![] bcast_S_S128 : (⟨S_, .f32⟩ : BufTy).Contents (Elt F) → (⟨S128, .f32⟩ : BufTy).Contents (Elt F)),
    binary main_v150 main_v151 main_v152 (Host.divf : (⟨S128, .f32⟩ : BufTy).Contents (Elt F) → (⟨S128, .f32⟩ : BufTy).Contents (Elt F) → (⟨S128, .f32⟩ : BufTy).Contents (Elt F)),
    unary main_v145 main_v153 (broadcastInDim S1x128 ![1] bcast_S128_S1x128_1 : (⟨S128, .f32⟩ : BufTy).Contents (Elt F) → (⟨S1x128, .f32⟩ : BufTy).Contents (Elt F)),
    unary main_v153 main_v154 (broadcastInDim S100000x128 ![0, 1] bcast_S1x128_S100000x128_0_1 : (⟨S1x128, .f32⟩ : BufTy).Contents (Elt F) → (⟨S100000x128, .f32⟩ : BufTy).Contents (Elt F)),
    binary main_v142 main_v154 main_v155 (subf : (⟨S100000x128, .f32⟩ : BufTy).Contents (Elt F) → (⟨S100000x128, .f32⟩ : BufTy).Contents (Elt F) → (⟨S100000x128, .f32⟩ : BufTy).Contents (Elt F)),
    nullary main_cst_28 (constant S_ .f32 0x3727C5AC#32),
    unary main_cst_28 main_v156 (broadcastInDim S128 ![] bcast_S_S128 : (⟨S_, .f32⟩ : BufTy).Contents (Elt F) → (⟨S128, .f32⟩ : BufTy).Contents (Elt F)),
    binary main_v152 main_v156 main_v157 (addf : (⟨S128, .f32⟩ : BufTy).Contents (Elt F) → (⟨S128, .f32⟩ : BufTy).Contents (Elt F) → (⟨S128, .f32⟩ : BufTy).Contents (Elt F)),
    unary main_v157 main_v158 (Host.rsqrt : (⟨S128, .f32⟩ : BufTy).Contents (Elt F) → (⟨S128, .f32⟩ : BufTy).Contents (Elt F)),
    unary main_v158 main_v159 (broadcastInDim S1x128 ![1] bcast_S128_S1x128_1 : (⟨S128, .f32⟩ : BufTy).Contents (Elt F) → (⟨S1x128, .f32⟩ : BufTy).Contents (Elt F)),
    unary main_v159 main_v160 (broadcastInDim S100000x128 ![0, 1] bcast_S1x128_S100000x128_0_1 : (⟨S1x128, .f32⟩ : BufTy).Contents (Elt F) → (⟨S100000x128, .f32⟩ : BufTy).Contents (Elt F)) ]

abbrev ops24 : List (HloOp τ sig (Elt F)) :=
  [ binary main_v155 main_v160 main_v161 (mulf : (⟨S100000x128, .f32⟩ : BufTy).Contents (Elt F) → (⟨S100000x128, .f32⟩ : BufTy).Contents (Elt F) → (⟨S100000x128, .f32⟩ : BufTy).Contents (Elt F)),
    unary main_arg14 main_v162 (broadcastInDim S1x128 ![1] bcast_S128_S1x128_1 : (⟨S128, .f32⟩ : BufTy).Contents (Elt F) → (⟨S1x128, .f32⟩ : BufTy).Contents (Elt F)),
    unary main_v162 main_v163 (broadcastInDim S100000x128 ![0, 1] bcast_S1x128_S100000x128_0_1 : (⟨S1x128, .f32⟩ : BufTy).Contents (Elt F) → (⟨S100000x128, .f32⟩ : BufTy).Contents (Elt F)),
    binary main_v161 main_v163 main_v164 (mulf : (⟨S100000x128, .f32⟩ : BufTy).Contents (Elt F) → (⟨S100000x128, .f32⟩ : BufTy).Contents (Elt F) → (⟨S100000x128, .f32⟩ : BufTy).Contents (Elt F)),
    unary main_arg15 main_v165 (broadcastInDim S1x128 ![1] bcast_S128_S1x128_1 : (⟨S128, .f32⟩ : BufTy).Contents (Elt F) → (⟨S1x128, .f32⟩ : BufTy).Contents (Elt F)),
    unary main_v165 main_v166 (broadcastInDim S100000x128 ![0, 1] bcast_S1x128_S100000x128_0_1 : (⟨S1x128, .f32⟩ : BufTy).Contents (Elt F) → (⟨S100000x128, .f32⟩ : BufTy).Contents (Elt F)),
    binary main_v164 main_v166 main_v167 (addf : (⟨S100000x128, .f32⟩ : BufTy).Contents (Elt F) → (⟨S100000x128, .f32⟩ : BufTy).Contents (Elt F) → (⟨S100000x128, .f32⟩ : BufTy).Contents (Elt F)),
    nullary main_cst_29 (constant S_ .f32 0x00000000#32),
    unary main_cst_29 main_v168 (broadcastInDim S256x128 ![] bcast_S_S256x128 : (⟨S_, .f32⟩ : BufTy).Contents (Elt F) → (⟨S256x128, .f32⟩ : BufTy).Contents (Elt F)),
    unary main_arg2 main_v169 (broadcastInDim S100000x1 ![0] bcast_S100000_S100000x1_0 : (⟨S100000, .i32⟩ : BufTy).Contents (Elt F) → (⟨S100000x1, .i32⟩ : BufTy).Contents (Elt F)),
    ternary main_v168 main_v169 main_v167 main_v170 ((fun x i u => Host.scatterAdd scatter_S256x128_S100000x1_S100000x128_1_0_0_1 x i u) : (⟨S256x128, .f32⟩ : BufTy).Contents (Elt F) → (⟨S100000x1, .i32⟩ : BufTy).Contents (Elt F) → (⟨S100000x128, .f32⟩ : BufTy).Contents (Elt F) → (⟨S256x128, .f32⟩ : BufTy).Contents (Elt F)),
    nullary main_cst_30 (constant S_ .f32 0x3F800000#32),
    unary main_cst_30 main_v171 (broadcastInDim S100000 ![] bcast_S_S100000 : (⟨S_, .f32⟩ : BufTy).Contents (Elt F) → (⟨S100000, .f32⟩ : BufTy).Contents (Elt F)),
    nullary main_cst_31 (constant S_ .f32 0x00000000#32),
    unary main_cst_31 main_v172 (broadcastInDim S256 ![] bcast_S_S256 : (⟨S_, .f32⟩ : BufTy).Contents (Elt F) → (⟨S256, .f32⟩ : BufTy).Contents (Elt F)) ]

abbrev ops25 : List (HloOp τ sig (Elt F)) :=
  [ unary main_arg2 main_v173 (broadcastInDim S100000x1 ![0] bcast_S100000_S100000x1_0 : (⟨S100000, .i32⟩ : BufTy).Contents (Elt F) → (⟨S100000x1, .i32⟩ : BufTy).Contents (Elt F)),
    ternary main_v172 main_v173 main_v171 main_v174 ((fun x i u => Host.scatterAdd scatter_S256_S100000x1_S100000_n_0_0_1 x i u) : (⟨S256, .f32⟩ : BufTy).Contents (Elt F) → (⟨S100000x1, .i32⟩ : BufTy).Contents (Elt F) → (⟨S100000, .f32⟩ : BufTy).Contents (Elt F) → (⟨S256, .f32⟩ : BufTy).Contents (Elt F)),
    nullary main_cst_32 (constant S_ .f32 0x3F800000#32),
    unary main_cst_32 main_v175 (broadcastInDim S256 ![] bcast_S_S256 : (⟨S_, .f32⟩ : BufTy).Contents (Elt F) → (⟨S256, .f32⟩ : BufTy).Contents (Elt F)),
    binary main_v174 main_v175 main_v176 (maximumf : (⟨S256, .f32⟩ : BufTy).Contents (Elt F) → (⟨S256, .f32⟩ : BufTy).Contents (Elt F) → (⟨S256, .f32⟩ : BufTy).Contents (Elt F)),
    unary main_v176 main_v177 (broadcastInDim S256x1 ![0] bcast_S256_S256x1_0 : (⟨S256, .f32⟩ : BufTy).Contents (Elt F) → (⟨S256x1, .f32⟩ : BufTy).Contents (Elt F)),
    unary main_v177 main_v178 (broadcastInDim S256x128 ![0, 1] bcast_S256x1_S256x128_0_1 : (⟨S256x1, .f32⟩ : BufTy).Contents (Elt F) → (⟨S256x128, .f32⟩ : BufTy).Contents (Elt F)),
    binary main_v170 main_v178 main_v179 (Host.divf : (⟨S256x128, .f32⟩ : BufTy).Contents (Elt F) → (⟨S256x128, .f32⟩ : BufTy).Contents (Elt F) → (⟨S256x128, .f32⟩ : BufTy).Contents (Elt F)),
    binary main_v179 main_arg3 main_v180 ((fun a b => concatenate S256x144 1 [⟨S256x128, a⟩, ⟨S256x16, b⟩] concatenates_S256x128_S256x16_S256x144_d1) : (⟨S256x128, .f32⟩ : BufTy).Contents (Elt F) → (⟨S256x16, .f32⟩ : BufTy).Contents (Elt F) → (⟨S256x144, .f32⟩ : BufTy).Contents (Elt F)),
    binary main_v180 main_arg16 main_v181 ((fun l r => Host.dotGeneral dot_S256x144_S144x2_S256x2_1_0_0_1_n_n none l r) : (⟨S256x144, .f32⟩ : BufTy).Contents (Elt F) → (⟨S144x2, .f32⟩ : BufTy).Contents (Elt F) → (⟨S256x2, .f32⟩ : BufTy).Contents (Elt F)),
    unary main_arg17 main_v182 (broadcastInDim S1x2 ![1] bcast_S2_S1x2_1 : (⟨S2, .f32⟩ : BufTy).Contents (Elt F) → (⟨S1x2, .f32⟩ : BufTy).Contents (Elt F)),
    unary main_v182 main_v183 (broadcastInDim S256x2 ![0, 1] bcast_S1x2_S256x2_0_1 : (⟨S1x2, .f32⟩ : BufTy).Contents (Elt F) → (⟨S256x2, .f32⟩ : BufTy).Contents (Elt F)),
    binary main_v181 main_v183 main_v184 (addf : (⟨S256x2, .f32⟩ : BufTy).Contents (Elt F) → (⟨S256x2, .f32⟩ : BufTy).Contents (Elt F) → (⟨S256x2, .f32⟩ : BufTy).Contents (Elt F)) ]

abbrev opsAll : List (HloOp τ sig (Elt F)) := ops0 ++ (ops1 ++ (ops2 ++ (ops3 ++ (ops4 ++ (ops5 ++ (ops6 ++ (ops7 ++ (ops8 ++ (ops9 ++ (ops10 ++ (ops11 ++ (ops12 ++ (ops13 ++ (ops14 ++ (ops15 ++ (ops16 ++ (ops17 ++ (ops18 ++ (ops19 ++ (ops20 ++ (ops21 ++ (ops22 ++ (ops23 ++ (ops24 ++ (ops25)))))))))))))))))))))))))

set_option maxRecDepth 8192 in
set_option maxHeartbeats 4000000 in
theorem main_eq (c : Dev nD) : main (F := F) c = seq opsAll := rfl
theorem scopedRefs_eq : (Finset.univ.filter fun b : Ref sig .tc => b.isScoped) = ∅ := by decide
theorem scopedSems_eq : (Finset.univ.filter fun sm : SemLoc sig => sm.isScoped .tc) = ∅ := by decide

theorem ops0_sub : (ops0 : List (HloOp τ sig (Elt F))).Forall fun op => op.bufs ⊆ tcRefs τ sig :=
  ⟨unary_bufs_sub .., reshape_bufs_sub ..⟩
theorem ops0_fresh : (ops0 : List (HloOp τ sig (Elt F))).Forall fun op => op.fresh = ∅ := by
  simp only [List.Forall]; repeat' constructor

abbrev ops0_W : List (Ref sig .tc) := [main_v0, main_v1]
theorem ops0_writes : (ops0 : List (HloOp τ sig (Elt F))).Forall fun op => op.writes ⊆ (ops0_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

theorem ops1_sub : (ops1 : List (HloOp τ sig (Elt F))).Forall fun op => op.bufs ⊆ tcRefs τ sig :=
  ⟨unary_bufs_sub .., reshape_bufs_sub ..⟩
theorem ops1_fresh : (ops1 : List (HloOp τ sig (Elt F))).Forall fun op => op.fresh = ∅ := by
  simp only [List.Forall]; repeat' constructor

abbrev ops1_W : List (Ref sig .tc) := [main_v2, main_v3]
theorem ops1_writes : (ops1 : List (HloOp τ sig (Elt F))).Forall fun op => op.writes ⊆ (ops1_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

theorem ops2_sub : (ops2 : List (HloOp τ sig (Elt F))).Forall fun op => op.bufs ⊆ tcRefs τ sig :=
  ⟨nullary_bufs_sub .., unary_bufs_sub .., nullary_bufs_sub .., unary_bufs_sub .., unary_bufs_sub .., ternary_bufs_sub .., nullary_bufs_sub .., unary_bufs_sub .., binary_bufs_sub .., unary_bufs_sub ..⟩
theorem ops2_fresh : (ops2 : List (HloOp τ sig (Elt F))).Forall fun op => op.fresh = ∅ := by
  simp only [List.Forall]; repeat' constructor

abbrev ops2_W : List (Ref sig .tc) := [main_cst, main_v4, main_cst_0, main_v5, main_v6, main_v7, main_cst_1, main_v8, main_v9, main_v10]
theorem ops2_writes : (ops2 : List (HloOp τ sig (Elt F))).Forall fun op => op.writes ⊆ (ops2_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

theorem ops3_sub : (ops3 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub ..⟩
theorem ops3_fresh : (ops3 : List (HloOp τ sig (Elt F))).Forall fun op => op.fresh = ∅ := by
  simp only [List.Forall]; repeat' constructor

abbrev ops3_W : List (Ref sig .tc) := [main_c, main_v11, main_v12, main_c_2, main_v13, main_v14, main_v15, main_v16, main_v17, main_c_3]
theorem ops3_writes : (ops3 : List (HloOp τ sig (Elt F))).Forall fun op => op.writes ⊆ (ops3_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

theorem ops4_sub : (ops4 : List (HloOp τ sig (Elt F))).Forall fun op => op.bufs ⊆ tcRefs τ sig :=
  ⟨unary_bufs_sub .., binary_bufs_sub .., nullary_bufs_sub .., unary_bufs_sub .., binary_bufs_sub .., ternary_bufs_sub .., unary_bufs_sub .., binary_bufs_sub .., binary_bufs_sub ..⟩
theorem ops4_fresh : (ops4 : List (HloOp τ sig (Elt F))).Forall fun op => op.fresh = ∅ := by
  simp only [List.Forall]; repeat' constructor

abbrev ops4_W : List (Ref sig .tc) := [main_v18, main_v19, main_c_4, main_v20, main_v21, main_v22, main_v23, main_v24, main_v25]
theorem ops4_writes : (ops4 : List (HloOp τ sig (Elt F))).Forall fun op => op.writes ⊆ (ops4_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

theorem ops5_sub : (ops5 : List (HloOp τ sig (Elt F))).Forall fun op => op.bufs ⊆ tcRefs τ sig :=
  binary_bufs_sub ..
theorem ops5_fresh : (ops5 : List (HloOp τ sig (Elt F))).Forall fun op => op.fresh = ∅ := by
  show _ = _; rfl

abbrev ops5_W : List (Ref sig .tc) := [main_v26]
theorem ops5_writes : (ops5 : List (HloOp τ sig (Elt F))).Forall fun op => op.writes ⊆ (ops5_W.map (Proc.devRef (τ := τ) .tc)).toFinset := by
  simp only [List.Forall]
  simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)

theorem ops6_sub : (ops6 : List (HloOp τ sig (Elt F))).Forall fun op => op.bufs ⊆ tcRefs τ sig :=
  binary_bufs_sub ..
theorem ops6_fresh : (ops6 : List (HloOp τ sig (Elt F))).Forall fun op => op.fresh = ∅ := by
  show _ = _; rfl

abbrev ops6_W : List (Ref sig .tc) := [main_v27]
theorem ops6_writes : (ops6 : List (HloOp τ sig (Elt F))).Forall fun op => op.writes ⊆ (ops6_W.map (Proc.devRef (τ := τ) .tc)).toFinset := by
  simp only [List.Forall]
  simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)

theorem ops7_sub : (ops7 : List (HloOp τ sig (Elt F))).Forall fun op => op.bufs ⊆ tcRefs τ sig :=
  ⟨unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub ..⟩
theorem ops7_fresh : (ops7 : List (HloOp τ sig (Elt F))).Forall fun op => op.fresh = ∅ := by
  simp only [List.Forall]; repeat' constructor

abbrev ops7_W : List (Ref sig .tc) := [main_v28, main_c_5, main_v29, main_v30, main_c_6, main_v31, main_v32, main_v33, main_v34, main_v35, main_v36, main_v37, main_cst_7]
theorem ops7_writes : (ops7 : List (HloOp τ sig (Elt F))).Forall fun op => op.writes ⊆ (ops7_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

theorem ops8_sub : (ops8 : List (HloOp τ sig (Elt F))).Forall fun op => op.bufs ⊆ tcRefs τ sig :=
  ⟨unary_bufs_sub .., unary_bufs_sub .., ternary_bufs_sub .., unary_bufs_sub .., unary_bufs_sub .., binary_bufs_sub .., binary_bufs_sub .., unary_bufs_sub .., unary_bufs_sub .., binary_bufs_sub .., nullary_bufs_sub .., unary_bufs_sub .., binary_bufs_sub ..⟩
theorem ops8_fresh : (ops8 : List (HloOp τ sig (Elt F))).Forall fun op => op.fresh = ∅ := by
  simp only [List.Forall]; repeat' constructor

abbrev ops8_W : List (Ref sig .tc) := [main_v38, main_v39, main_v40, main_v41, main_v42, main_v43, main_v44, main_v45, main_v46, main_v47, main_call0_cst, main_call0_v0, main_v48]
theorem ops8_writes : (ops8 : List (HloOp τ sig (Elt F))).Forall fun op => op.writes ⊆ (ops8_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

theorem ops9_sub : (ops9 : List (HloOp τ sig (Elt F))).Forall fun op => op.bufs ⊆ tcRefs τ sig :=
  ⟨nullary_bufs_sub .., binary_bufs_sub .., nullary_bufs_sub .., unary_bufs_sub .., binary_bufs_sub ..⟩
theorem ops9_fresh : (ops9 : List (HloOp τ sig (Elt F))).Forall fun op => op.fresh = ∅ := by
  simp only [List.Forall]; repeat' constructor

abbrev ops9_W : List (Ref sig .tc) := [main_cst_8, main_v49, main_cst_9, main_v50, main_v51]
theorem ops9_writes : (ops9 : List (HloOp τ sig (Elt F))).Forall fun op => op.writes ⊆ (ops9_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

theorem ops10_sub : (ops10 : List (HloOp τ sig (Elt F))).Forall fun op => op.bufs ⊆ tcRefs τ sig :=
  ⟨unary_bufs_sub .., unary_bufs_sub .., binary_bufs_sub ..⟩
theorem ops10_fresh : (ops10 : List (HloOp τ sig (Elt F))).Forall fun op => op.fresh = ∅ := by
  simp only [List.Forall]; repeat' constructor

abbrev ops10_W : List (Ref sig .tc) := [main_v52, main_v53, main_v54]
theorem ops10_writes : (ops10 : List (HloOp τ sig (Elt F))).Forall fun op => op.writes ⊆ (ops10_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

theorem ops11_sub : (ops11 : List (HloOp τ sig (Elt F))).Forall fun op => op.bufs ⊆ tcRefs τ sig :=
  ⟨binary_bufs_sub .., nullary_bufs_sub .., binary_bufs_sub .., nullary_bufs_sub .., unary_bufs_sub .., binary_bufs_sub .., unary_bufs_sub .., unary_bufs_sub .., binary_bufs_sub .., nullary_bufs_sub .., unary_bufs_sub .., binary_bufs_sub ..⟩
theorem ops11_fresh : (ops11 : List (HloOp τ sig (Elt F))).Forall fun op => op.fresh = ∅ := by
  simp only [List.Forall]; repeat' constructor

abbrev ops11_W : List (Ref sig .tc) := [main_v55, main_cst_10, main_v56, main_cst_11, main_v57, main_v58, main_v59, main_v60, main_v61, main_cst_12, main_v62, main_v63]
theorem ops11_writes : (ops11 : List (HloOp τ sig (Elt F))).Forall fun op => op.writes ⊆ (ops11_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

theorem ops12_sub : (ops12 : List (HloOp τ sig (Elt F))).Forall fun op => op.bufs ⊆ tcRefs τ sig :=
  ⟨unary_bufs_sub .., unary_bufs_sub .., unary_bufs_sub .., binary_bufs_sub .., unary_bufs_sub .., unary_bufs_sub .., binary_bufs_sub .., unary_bufs_sub .., unary_bufs_sub .., binary_bufs_sub .., binary_bufs_sub ..⟩
theorem ops12_fresh : (ops12 : List (HloOp τ sig (Elt F))).Forall fun op => op.fresh = ∅ := by
  simp only [List.Forall]; repeat' constructor

abbrev ops12_W : List (Ref sig .tc) := [main_v64, main_v65, main_v66, main_v67, main_v68, main_v69, main_v70, main_v71, main_v72, main_v73, main_v74]
theorem ops12_writes : (ops12 : List (HloOp τ sig (Elt F))).Forall fun op => op.writes ⊆ (ops12_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

theorem ops13_sub : (ops13 : List (HloOp τ sig (Elt F))).Forall fun op => op.bufs ⊆ tcRefs τ sig :=
  ⟨unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub ..⟩
theorem ops13_fresh : (ops13 : List (HloOp τ sig (Elt F))).Forall fun op => op.fresh = ∅ := by
  simp only [List.Forall]; repeat' constructor

abbrev ops13_W : List (Ref sig .tc) := [main_v75, main_c_13, main_v76, main_v77, main_c_14, main_v78, main_v79, main_v80, main_v81, main_v82, main_v83, main_v84, main_cst_15]
theorem ops13_writes : (ops13 : List (HloOp τ sig (Elt F))).Forall fun op => op.writes ⊆ (ops13_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

theorem ops14_sub : (ops14 : List (HloOp τ sig (Elt F))).Forall fun op => op.bufs ⊆ tcRefs τ sig :=
  ⟨unary_bufs_sub .., unary_bufs_sub .., ternary_bufs_sub .., unary_bufs_sub .., unary_bufs_sub .., binary_bufs_sub .., binary_bufs_sub .., unary_bufs_sub .., unary_bufs_sub .., binary_bufs_sub .., nullary_bufs_sub .., unary_bufs_sub .., binary_bufs_sub ..⟩
theorem ops14_fresh : (ops14 : List (HloOp τ sig (Elt F))).Forall fun op => op.fresh = ∅ := by
  simp only [List.Forall]; repeat' constructor

abbrev ops14_W : List (Ref sig .tc) := [main_v85, main_v86, main_v87, main_v88, main_v89, main_v90, main_v91, main_v92, main_v93, main_v94, main_call1_cst, main_call1_v0, main_v95]
theorem ops14_writes : (ops14 : List (HloOp τ sig (Elt F))).Forall fun op => op.writes ⊆ (ops14_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

theorem ops15_sub : (ops15 : List (HloOp τ sig (Elt F))).Forall fun op => op.bufs ⊆ tcRefs τ sig :=
  ⟨nullary_bufs_sub .., binary_bufs_sub .., nullary_bufs_sub .., unary_bufs_sub .., binary_bufs_sub ..⟩
theorem ops15_fresh : (ops15 : List (HloOp τ sig (Elt F))).Forall fun op => op.fresh = ∅ := by
  simp only [List.Forall]; repeat' constructor

abbrev ops15_W : List (Ref sig .tc) := [main_cst_16, main_v96, main_cst_17, main_v97, main_v98]
theorem ops15_writes : (ops15 : List (HloOp τ sig (Elt F))).Forall fun op => op.writes ⊆ (ops15_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

theorem ops16_sub : (ops16 : List (HloOp τ sig (Elt F))).Forall fun op => op.bufs ⊆ tcRefs τ sig :=
  ⟨unary_bufs_sub .., unary_bufs_sub .., binary_bufs_sub ..⟩
theorem ops16_fresh : (ops16 : List (HloOp τ sig (Elt F))).Forall fun op => op.fresh = ∅ := by
  simp only [List.Forall]; repeat' constructor

abbrev ops16_W : List (Ref sig .tc) := [main_v99, main_v100, main_v101]
theorem ops16_writes : (ops16 : List (HloOp τ sig (Elt F))).Forall fun op => op.writes ⊆ (ops16_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

theorem ops17_sub : (ops17 : List (HloOp τ sig (Elt F))).Forall fun op => op.bufs ⊆ tcRefs τ sig :=
  ⟨binary_bufs_sub .., nullary_bufs_sub .., binary_bufs_sub .., nullary_bufs_sub .., unary_bufs_sub .., binary_bufs_sub .., unary_bufs_sub .., unary_bufs_sub .., binary_bufs_sub .., nullary_bufs_sub .., unary_bufs_sub .., binary_bufs_sub ..⟩
theorem ops17_fresh : (ops17 : List (HloOp τ sig (Elt F))).Forall fun op => op.fresh = ∅ := by
  simp only [List.Forall]; repeat' constructor

abbrev ops17_W : List (Ref sig .tc) := [main_v102, main_cst_18, main_v103, main_cst_19, main_v104, main_v105, main_v106, main_v107, main_v108, main_cst_20, main_v109, main_v110]
theorem ops17_writes : (ops17 : List (HloOp τ sig (Elt F))).Forall fun op => op.writes ⊆ (ops17_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

theorem ops18_sub : (ops18 : List (HloOp τ sig (Elt F))).Forall fun op => op.bufs ⊆ tcRefs τ sig :=
  ⟨unary_bufs_sub .., unary_bufs_sub .., unary_bufs_sub .., binary_bufs_sub .., unary_bufs_sub .., unary_bufs_sub .., binary_bufs_sub .., unary_bufs_sub .., unary_bufs_sub .., binary_bufs_sub .., binary_bufs_sub ..⟩
theorem ops18_fresh : (ops18 : List (HloOp τ sig (Elt F))).Forall fun op => op.fresh = ∅ := by
  simp only [List.Forall]; repeat' constructor

abbrev ops18_W : List (Ref sig .tc) := [main_v111, main_v112, main_v113, main_v114, main_v115, main_v116, main_v117, main_v118, main_v119, main_v120, main_v121]
theorem ops18_writes : (ops18 : List (HloOp τ sig (Elt F))).Forall fun op => op.writes ⊆ (ops18_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

theorem ops19_sub : (ops19 : List (HloOp τ sig (Elt F))).Forall fun op => op.bufs ⊆ tcRefs τ sig :=
  ⟨unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub ..⟩
theorem ops19_fresh : (ops19 : List (HloOp τ sig (Elt F))).Forall fun op => op.fresh = ∅ := by
  simp only [List.Forall]; repeat' constructor

abbrev ops19_W : List (Ref sig .tc) := [main_v122, main_c_21, main_v123, main_v124, main_c_22, main_v125, main_v126, main_v127, main_v128, main_v129, main_v130, main_v131, main_cst_23]
theorem ops19_writes : (ops19 : List (HloOp τ sig (Elt F))).Forall fun op => op.writes ⊆ (ops19_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

theorem ops20_sub : (ops20 : List (HloOp τ sig (Elt F))).Forall fun op => op.bufs ⊆ tcRefs τ sig :=
  ⟨unary_bufs_sub .., unary_bufs_sub .., ternary_bufs_sub .., unary_bufs_sub .., unary_bufs_sub .., binary_bufs_sub .., binary_bufs_sub .., unary_bufs_sub .., unary_bufs_sub .., binary_bufs_sub .., nullary_bufs_sub .., unary_bufs_sub .., binary_bufs_sub ..⟩
theorem ops20_fresh : (ops20 : List (HloOp τ sig (Elt F))).Forall fun op => op.fresh = ∅ := by
  simp only [List.Forall]; repeat' constructor

abbrev ops20_W : List (Ref sig .tc) := [main_v132, main_v133, main_v134, main_v135, main_v136, main_v137, main_v138, main_v139, main_v140, main_v141, main_call2_cst, main_call2_v0, main_v142]
theorem ops20_writes : (ops20 : List (HloOp τ sig (Elt F))).Forall fun op => op.writes ⊆ (ops20_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

theorem ops21_sub : (ops21 : List (HloOp τ sig (Elt F))).Forall fun op => op.bufs ⊆ tcRefs τ sig :=
  ⟨nullary_bufs_sub .., binary_bufs_sub .., nullary_bufs_sub .., unary_bufs_sub .., binary_bufs_sub ..⟩
theorem ops21_fresh : (ops21 : List (HloOp τ sig (Elt F))).Forall fun op => op.fresh = ∅ := by
  simp only [List.Forall]; repeat' constructor

abbrev ops21_W : List (Ref sig .tc) := [main_cst_24, main_v143, main_cst_25, main_v144, main_v145]
theorem ops21_writes : (ops21 : List (HloOp τ sig (Elt F))).Forall fun op => op.writes ⊆ (ops21_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

theorem ops22_sub : (ops22 : List (HloOp τ sig (Elt F))).Forall fun op => op.bufs ⊆ tcRefs τ sig :=
  ⟨unary_bufs_sub .., unary_bufs_sub .., binary_bufs_sub ..⟩
theorem ops22_fresh : (ops22 : List (HloOp τ sig (Elt F))).Forall fun op => op.fresh = ∅ := by
  simp only [List.Forall]; repeat' constructor

abbrev ops22_W : List (Ref sig .tc) := [main_v146, main_v147, main_v148]
theorem ops22_writes : (ops22 : List (HloOp τ sig (Elt F))).Forall fun op => op.writes ⊆ (ops22_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

theorem ops23_sub : (ops23 : List (HloOp τ sig (Elt F))).Forall fun op => op.bufs ⊆ tcRefs τ sig :=
  ⟨binary_bufs_sub .., nullary_bufs_sub .., binary_bufs_sub .., nullary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub ..⟩
theorem ops23_fresh : (ops23 : List (HloOp τ sig (Elt F))).Forall fun op => op.fresh = ∅ := by
  simp only [List.Forall]; repeat' constructor

abbrev ops23_W : List (Ref sig .tc) := [main_v149, main_cst_26, main_v150, main_cst_27, main_v151, main_v152, main_v153, main_v154, main_v155, main_cst_28, main_v156, main_v157, main_v158, main_v159, main_v160]
theorem ops23_writes : (ops23 : List (HloOp τ sig (Elt F))).Forall fun op => op.writes ⊆ (ops23_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

theorem ops24_sub : (ops24 : List (HloOp τ sig (Elt F))).Forall fun op => op.bufs ⊆ tcRefs τ sig :=
  ⟨binary_bufs_sub .., unary_bufs_sub .., unary_bufs_sub .., binary_bufs_sub .., unary_bufs_sub .., unary_bufs_sub .., binary_bufs_sub .., nullary_bufs_sub .., unary_bufs_sub .., unary_bufs_sub .., ternary_bufs_sub .., nullary_bufs_sub .., unary_bufs_sub .., nullary_bufs_sub .., unary_bufs_sub ..⟩
theorem ops24_fresh : (ops24 : List (HloOp τ sig (Elt F))).Forall fun op => op.fresh = ∅ := by
  simp only [List.Forall]; repeat' constructor

abbrev ops24_W : List (Ref sig .tc) := [main_v161, main_v162, main_v163, main_v164, main_v165, main_v166, main_v167, main_cst_29, main_v168, main_v169, main_v170, main_cst_30, main_v171, main_cst_31, main_v172]
theorem ops24_writes : (ops24 : List (HloOp τ sig (Elt F))).Forall fun op => op.writes ⊆ (ops24_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

theorem ops25_sub : (ops25 : List (HloOp τ sig (Elt F))).Forall fun op => op.bufs ⊆ tcRefs τ sig :=
  ⟨unary_bufs_sub .., ternary_bufs_sub .., nullary_bufs_sub .., unary_bufs_sub .., binary_bufs_sub .., unary_bufs_sub .., unary_bufs_sub .., binary_bufs_sub .., binary_bufs_sub .., binary_bufs_sub .., unary_bufs_sub .., unary_bufs_sub .., binary_bufs_sub ..⟩
theorem ops25_fresh : (ops25 : List (HloOp τ sig (Elt F))).Forall fun op => op.fresh = ∅ := by
  simp only [List.Forall]; repeat' constructor

abbrev ops25_W : List (Ref sig .tc) := [main_v173, main_v174, main_cst_32, main_v175, main_v176, main_v177, main_v178, main_v179, main_v180, main_v181, main_v182, main_v183, main_v184]
theorem ops25_writes : (ops25 : List (HloOp τ sig (Elt F))).Forall fun op => op.writes ⊆ (ops25_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

theorem opsAll_sub : (opsAll : List (HloOp τ sig (Elt F))).Forall fun op => op.bufs ⊆ tcRefs τ sig :=
  List.forall_append.mpr ⟨ops0_sub, List.forall_append.mpr ⟨ops1_sub, List.forall_append.mpr ⟨ops2_sub, List.forall_append.mpr ⟨ops3_sub, List.forall_append.mpr ⟨ops4_sub, List.forall_append.mpr ⟨ops5_sub, List.forall_append.mpr ⟨ops6_sub, List.forall_append.mpr ⟨ops7_sub, List.forall_append.mpr ⟨ops8_sub, List.forall_append.mpr ⟨ops9_sub, List.forall_append.mpr ⟨ops10_sub, List.forall_append.mpr ⟨ops11_sub, List.forall_append.mpr ⟨ops12_sub, List.forall_append.mpr ⟨ops13_sub, List.forall_append.mpr ⟨ops14_sub, List.forall_append.mpr ⟨ops15_sub, List.forall_append.mpr ⟨ops16_sub, List.forall_append.mpr ⟨ops17_sub, List.forall_append.mpr ⟨ops18_sub, List.forall_append.mpr ⟨ops19_sub, List.forall_append.mpr ⟨ops20_sub, List.forall_append.mpr ⟨ops21_sub, List.forall_append.mpr ⟨ops22_sub, List.forall_append.mpr ⟨ops23_sub, List.forall_append.mpr ⟨ops24_sub, ops25_sub⟩⟩⟩⟩⟩⟩⟩⟩⟩⟩⟩⟩⟩⟩⟩⟩⟩⟩⟩⟩⟩⟩⟩⟩⟩

theorem opsAll_fresh : ∀ op ∈ (opsAll : List (HloOp τ sig (Elt F))), op.fresh = ∅ :=
  List.forall_iff_forall_mem.mp (List.forall_append.mpr ⟨ops0_fresh, List.forall_append.mpr ⟨ops1_fresh, List.forall_append.mpr ⟨ops2_fresh, List.forall_append.mpr ⟨ops3_fresh, List.forall_append.mpr ⟨ops4_fresh, List.forall_append.mpr ⟨ops5_fresh, List.forall_append.mpr ⟨ops6_fresh, List.forall_append.mpr ⟨ops7_fresh, List.forall_append.mpr ⟨ops8_fresh, List.forall_append.mpr ⟨ops9_fresh, List.forall_append.mpr ⟨ops10_fresh, List.forall_append.mpr ⟨ops11_fresh, List.forall_append.mpr ⟨ops12_fresh, List.forall_append.mpr ⟨ops13_fresh, List.forall_append.mpr ⟨ops14_fresh, List.forall_append.mpr ⟨ops15_fresh, List.forall_append.mpr ⟨ops16_fresh, List.forall_append.mpr ⟨ops17_fresh, List.forall_append.mpr ⟨ops18_fresh, List.forall_append.mpr ⟨ops19_fresh, List.forall_append.mpr ⟨ops20_fresh, List.forall_append.mpr ⟨ops21_fresh, List.forall_append.mpr ⟨ops22_fresh, List.forall_append.mpr ⟨ops23_fresh, List.forall_append.mpr ⟨ops24_fresh, ops25_fresh⟩⟩⟩⟩⟩⟩⟩⟩⟩⟩⟩⟩⟩⟩⟩⟩⟩⟩⟩⟩⟩⟩⟩⟩⟩)

theorem after_append (l₁ l₂ : List (HloOp τ sig (Elt F))) (V : Valuation τ sig (Elt F)) : after (l₁ ++ l₂) V = after l₂ (after l₁ V) := by
  induction l₁ generalizing V with
  | nil => rfl
  | cons op l ih => exact ih (op.result V)

theorem pass0 (W : Valuation τ sig (Elt F)) (r : Ref sig .tc) (h : r ∉ ops0_W) : after ops0 W (Proc.devRef .tc r) = W (Proc.devRef .tc r) :=
  after_of_writes_sub ops0 _ ops0_writes h
theorem pass1 (W : Valuation τ sig (Elt F)) (r : Ref sig .tc) (h : r ∉ ops1_W) : after ops1 W (Proc.devRef .tc r) = W (Proc.devRef .tc r) :=
  after_of_writes_sub ops1 _ ops1_writes h
theorem pass2 (W : Valuation τ sig (Elt F)) (r : Ref sig .tc) (h : r ∉ ops2_W) : after ops2 W (Proc.devRef .tc r) = W (Proc.devRef .tc r) :=
  after_of_writes_sub ops2 _ ops2_writes h
theorem pass3 (W : Valuation τ sig (Elt F)) (r : Ref sig .tc) (h : r ∉ ops3_W) : after ops3 W (Proc.devRef .tc r) = W (Proc.devRef .tc r) :=
  after_of_writes_sub ops3 _ ops3_writes h
theorem pass4 (W : Valuation τ sig (Elt F)) (r : Ref sig .tc) (h : r ∉ ops4_W) : after ops4 W (Proc.devRef .tc r) = W (Proc.devRef .tc r) :=
  after_of_writes_sub ops4 _ ops4_writes h
theorem pass5 (W : Valuation τ sig (Elt F)) (r : Ref sig .tc) (h : r ∉ ops5_W) : after ops5 W (Proc.devRef .tc r) = W (Proc.devRef .tc r) :=
  after_of_writes_sub ops5 _ ops5_writes h
theorem pass6 (W : Valuation τ sig (Elt F)) (r : Ref sig .tc) (h : r ∉ ops6_W) : after ops6 W (Proc.devRef .tc r) = W (Proc.devRef .tc r) :=
  after_of_writes_sub ops6 _ ops6_writes h
theorem pass7 (W : Valuation τ sig (Elt F)) (r : Ref sig .tc) (h : r ∉ ops7_W) : after ops7 W (Proc.devRef .tc r) = W (Proc.devRef .tc r) :=
  after_of_writes_sub ops7 _ ops7_writes h
theorem pass8 (W : Valuation τ sig (Elt F)) (r : Ref sig .tc) (h : r ∉ ops8_W) : after ops8 W (Proc.devRef .tc r) = W (Proc.devRef .tc r) :=
  after_of_writes_sub ops8 _ ops8_writes h
theorem pass9 (W : Valuation τ sig (Elt F)) (r : Ref sig .tc) (h : r ∉ ops9_W) : after ops9 W (Proc.devRef .tc r) = W (Proc.devRef .tc r) :=
  after_of_writes_sub ops9 _ ops9_writes h
theorem pass10 (W : Valuation τ sig (Elt F)) (r : Ref sig .tc) (h : r ∉ ops10_W) : after ops10 W (Proc.devRef .tc r) = W (Proc.devRef .tc r) :=
  after_of_writes_sub ops10 _ ops10_writes h
theorem pass11 (W : Valuation τ sig (Elt F)) (r : Ref sig .tc) (h : r ∉ ops11_W) : after ops11 W (Proc.devRef .tc r) = W (Proc.devRef .tc r) :=
  after_of_writes_sub ops11 _ ops11_writes h
theorem pass12 (W : Valuation τ sig (Elt F)) (r : Ref sig .tc) (h : r ∉ ops12_W) : after ops12 W (Proc.devRef .tc r) = W (Proc.devRef .tc r) :=
  after_of_writes_sub ops12 _ ops12_writes h
theorem pass13 (W : Valuation τ sig (Elt F)) (r : Ref sig .tc) (h : r ∉ ops13_W) : after ops13 W (Proc.devRef .tc r) = W (Proc.devRef .tc r) :=
  after_of_writes_sub ops13 _ ops13_writes h
theorem pass14 (W : Valuation τ sig (Elt F)) (r : Ref sig .tc) (h : r ∉ ops14_W) : after ops14 W (Proc.devRef .tc r) = W (Proc.devRef .tc r) :=
  after_of_writes_sub ops14 _ ops14_writes h
theorem pass15 (W : Valuation τ sig (Elt F)) (r : Ref sig .tc) (h : r ∉ ops15_W) : after ops15 W (Proc.devRef .tc r) = W (Proc.devRef .tc r) :=
  after_of_writes_sub ops15 _ ops15_writes h
theorem pass16 (W : Valuation τ sig (Elt F)) (r : Ref sig .tc) (h : r ∉ ops16_W) : after ops16 W (Proc.devRef .tc r) = W (Proc.devRef .tc r) :=
  after_of_writes_sub ops16 _ ops16_writes h
theorem pass17 (W : Valuation τ sig (Elt F)) (r : Ref sig .tc) (h : r ∉ ops17_W) : after ops17 W (Proc.devRef .tc r) = W (Proc.devRef .tc r) :=
  after_of_writes_sub ops17 _ ops17_writes h
theorem pass18 (W : Valuation τ sig (Elt F)) (r : Ref sig .tc) (h : r ∉ ops18_W) : after ops18 W (Proc.devRef .tc r) = W (Proc.devRef .tc r) :=
  after_of_writes_sub ops18 _ ops18_writes h
theorem pass19 (W : Valuation τ sig (Elt F)) (r : Ref sig .tc) (h : r ∉ ops19_W) : after ops19 W (Proc.devRef .tc r) = W (Proc.devRef .tc r) :=
  after_of_writes_sub ops19 _ ops19_writes h
theorem pass20 (W : Valuation τ sig (Elt F)) (r : Ref sig .tc) (h : r ∉ ops20_W) : after ops20 W (Proc.devRef .tc r) = W (Proc.devRef .tc r) :=
  after_of_writes_sub ops20 _ ops20_writes h
theorem pass21 (W : Valuation τ sig (Elt F)) (r : Ref sig .tc) (h : r ∉ ops21_W) : after ops21 W (Proc.devRef .tc r) = W (Proc.devRef .tc r) :=
  after_of_writes_sub ops21 _ ops21_writes h
theorem pass22 (W : Valuation τ sig (Elt F)) (r : Ref sig .tc) (h : r ∉ ops22_W) : after ops22 W (Proc.devRef .tc r) = W (Proc.devRef .tc r) :=
  after_of_writes_sub ops22 _ ops22_writes h
theorem pass23 (W : Valuation τ sig (Elt F)) (r : Ref sig .tc) (h : r ∉ ops23_W) : after ops23 W (Proc.devRef .tc r) = W (Proc.devRef .tc r) :=
  after_of_writes_sub ops23 _ ops23_writes h
theorem pass24 (W : Valuation τ sig (Elt F)) (r : Ref sig .tc) (h : r ∉ ops24_W) : after ops24 W (Proc.devRef .tc r) = W (Proc.devRef .tc r) :=
  after_of_writes_sub ops24 _ ops24_writes h
theorem pass25 (W : Valuation τ sig (Elt F)) (r : Ref sig .tc) (h : r ∉ ops25_W) : after ops25 W (Proc.devRef .tc r) = W (Proc.devRef .tc r) :=
  after_of_writes_sub ops25 _ ops25_writes h

theorem run_after (m : (ℓ : Loc nD τ sig) → Buf (Elt F) ℓ) (ρ : Dev nD → PrngReg) :
    θ_run defs (onTc (τ := τ) (main (F := F))) ⟨m, fun _ => 0, ρ⟩ fun r => ∀ (d : Dev nD) (b : Ref sig .tc),
      r.2.mem ((d.tc : Thread nD τ).loc b) = after opsAll (launchContents m d) (Proc.devRef .tc b) :=
  run_seq scopedRefs_eq scopedSems_eq defs main (fun _ => opsAll) main_eq (fun _ => opsAll_sub) m ρ (fun _ => opsAll_fresh)

end Cert.ReferenceIdeal.RunHand

end
-- ==== Proof.Ref.RunHandStages.lean ====
import proofs.«418928_j70858370450169_1_alg».proof.Proof.Ref.ReadR
import proofs.«418928_j70858370450169_1_alg».proof.Proof.Ref.RunHandOps

noncomputable section

namespace Cert.ReferenceIdeal.RunHand

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

set_option maxHeartbeats 1000000 in
theorem st0_main_v1 (W : Valuation τ sig (Elt F)) (x1 : (⟨S2x1600000, .i32⟩ : BufTy).Contents (Elt F))
    (h_main_arg1 : W (Proc.devRef .tc main_arg1) = x1) :
    after ops0 W (Proc.devRef .tc main_v1) = val_main_v1 (F := F) x1 := by
  dsimp only [ops0]
  after_results
  rw [h_main_arg1]
  rfl

set_option maxHeartbeats 1000000 in
theorem st1_main_v3 (W : Valuation τ sig (Elt F)) (x1 : (⟨S2x1600000, .i32⟩ : BufTy).Contents (Elt F))
    (h_main_arg1 : W (Proc.devRef .tc main_arg1) = x1) :
    after ops1 W (Proc.devRef .tc main_v3) = val_main_v3 (F := F) x1 := by
  dsimp only [ops1]
  after_results
  rw [h_main_arg1]
  rfl

set_option maxHeartbeats 1000000 in
theorem st2_main_v10 (W : Valuation τ sig (Elt F)) (x1 : (⟨S2x1600000, .i32⟩ : BufTy).Contents (Elt F))
    (h_main_v3 : W (Proc.devRef .tc main_v3) = val_main_v3 (F := F) x1) :
    after ops2 W (Proc.devRef .tc main_v10) = val_main_v10 (F := F) x1 := by
  dsimp only [ops2]
  after_results
  rw [h_main_v3]
  rfl

set_option maxHeartbeats 1000000 in
theorem st3_main_c_3 (W : Valuation τ sig (Elt F))
     :
    after ops3 W (Proc.devRef .tc main_c_3) = val_main_c_3 (F := F) := by
  dsimp only [ops3]
  after_results
  rfl

set_option maxHeartbeats 1000000 in
theorem st3_main_v17 (W : Valuation τ sig (Elt F)) (x1 : (⟨S2x1600000, .i32⟩ : BufTy).Contents (Elt F))
    (h_main_v10 : W (Proc.devRef .tc main_v10) = val_main_v10 (F := F) x1)
    (h_main_v1 : W (Proc.devRef .tc main_v1) = val_main_v1 (F := F) x1) :
    after ops3 W (Proc.devRef .tc main_v17) = val_main_v17 (F := F) x1 := by
  dsimp only [ops3]
  after_results
  rw [h_main_v10, h_main_v1]
  rfl

set_option maxHeartbeats 1000000 in
theorem st4_main_v25 (W : Valuation τ sig (Elt F)) (x1 : (⟨S2x1600000, .i32⟩ : BufTy).Contents (Elt F))
    (h_main_v17 : W (Proc.devRef .tc main_v17) = val_main_v17 (F := F) x1)
    (h_main_v10 : W (Proc.devRef .tc main_v10) = val_main_v10 (F := F) x1)
    (h_main_v3 : W (Proc.devRef .tc main_v3) = val_main_v3 (F := F) x1)
    (h_main_c_3 : W (Proc.devRef .tc main_c_3) = val_main_c_3 (F := F)) :
    after ops4 W (Proc.devRef .tc main_v25) = val_main_v25 (F := F) x1 := by
  dsimp only [ops4]
  after_results
  rw [h_main_v17, h_main_v10, h_main_v3, h_main_c_3]
  rfl

set_option maxHeartbeats 1000000 in
theorem st5_main_v26 (W : Valuation τ sig (Elt F)) (x1 : (⟨S2x1600000, .i32⟩ : BufTy).Contents (Elt F))
    (h_main_v10 : W (Proc.devRef .tc main_v10) = val_main_v10 (F := F) x1) :
    after ops5 W (Proc.devRef .tc main_v26) = val_main_v26 (F := F) x1 := by
  dsimp only [ops5]
  after_results
  rw [h_main_v10]
  rfl

set_option maxHeartbeats 1000000 in
theorem st6_main_v27 (W : Valuation τ sig (Elt F)) (x0 : (⟨S100000x128, .f32⟩ : BufTy).Contents (Elt F)) (x4 : (⟨S128x128, .f32⟩ : BufTy).Contents (Elt F))
    (h_main_arg0 : W (Proc.devRef .tc main_arg0) = x0)
    (h_main_arg4 : W (Proc.devRef .tc main_arg4) = x4) :
    after ops6 W (Proc.devRef .tc main_v27) = val_main_v27 (F := F) x0 x4 := by
  dsimp only [ops6]
  after_results
  rw [h_main_arg0, h_main_arg4]
  rfl

set_option maxHeartbeats 1000000 in
theorem st7_main_cst_7 (W : Valuation τ sig (Elt F))
     :
    after ops7 W (Proc.devRef .tc main_cst_7) = val_main_cst_7 (F := F) := by
  dsimp only [ops7]
  after_results
  rfl

set_option maxHeartbeats 1000000 in
theorem st7_main_v37 (W : Valuation τ sig (Elt F)) (x0 : (⟨S100000x128, .f32⟩ : BufTy).Contents (Elt F)) (x1 : (⟨S2x1600000, .i32⟩ : BufTy).Contents (Elt F)) (x4 : (⟨S128x128, .f32⟩ : BufTy).Contents (Elt F))
    (h_main_v25 : W (Proc.devRef .tc main_v25) = val_main_v25 (F := F) x1)
    (h_main_v27 : W (Proc.devRef .tc main_v27) = val_main_v27 (F := F) x0 x4)
    (h_main_v1 : W (Proc.devRef .tc main_v1) = val_main_v1 (F := F) x1) :
    after ops7 W (Proc.devRef .tc main_v37) = val_main_v37 (F := F) x0 x1 x4 := by
  dsimp only [ops7]
  after_results
  rw [h_main_v25, h_main_v27, h_main_v1]
  rfl

set_option maxHeartbeats 1000000 in
theorem st8_main_v48 (W : Valuation τ sig (Elt F)) (x0 : (⟨S100000x128, .f32⟩ : BufTy).Contents (Elt F)) (x1 : (⟨S2x1600000, .i32⟩ : BufTy).Contents (Elt F)) (x4 : (⟨S128x128, .f32⟩ : BufTy).Contents (Elt F)) (x5 : (⟨S128, .f32⟩ : BufTy).Contents (Elt F))
    (h_main_cst_7 : W (Proc.devRef .tc main_cst_7) = val_main_cst_7 (F := F))
    (h_main_v3 : W (Proc.devRef .tc main_v3) = val_main_v3 (F := F) x1)
    (h_main_v37 : W (Proc.devRef .tc main_v37) = val_main_v37 (F := F) x0 x1 x4)
    (h_main_v26 : W (Proc.devRef .tc main_v26) = val_main_v26 (F := F) x1)
    (h_main_v27 : W (Proc.devRef .tc main_v27) = val_main_v27 (F := F) x0 x4)
    (h_main_arg5 : W (Proc.devRef .tc main_arg5) = x5) :
    after ops8 W (Proc.devRef .tc main_v48) = val_main_v48 (F := F) x0 x1 x4 x5 := by
  dsimp only [ops8]
  after_results
  rw [h_main_cst_7, h_main_v3, h_main_v37, h_main_v26, h_main_v27, h_main_arg5]
  try simp only [TRef.ofBuf, TRef.toBuf, cast_eq]
  rfl

set_option maxHeartbeats 1000000 in
theorem st9_main_v51 (W : Valuation τ sig (Elt F)) (x0 : (⟨S100000x128, .f32⟩ : BufTy).Contents (Elt F)) (x1 : (⟨S2x1600000, .i32⟩ : BufTy).Contents (Elt F)) (x4 : (⟨S128x128, .f32⟩ : BufTy).Contents (Elt F)) (x5 : (⟨S128, .f32⟩ : BufTy).Contents (Elt F))
    (h_main_v48 : W (Proc.devRef .tc main_v48) = val_main_v48 (F := F) x0 x1 x4 x5) :
    after ops9 W (Proc.devRef .tc main_v51) = val_main_v51 (F := F) x0 x1 x4 x5 := by
  dsimp only [ops9]
  after_results
  rw [h_main_v48]
  rfl

set_option maxHeartbeats 1000000 in
theorem st10_main_v54 (W : Valuation τ sig (Elt F)) (x0 : (⟨S100000x128, .f32⟩ : BufTy).Contents (Elt F)) (x1 : (⟨S2x1600000, .i32⟩ : BufTy).Contents (Elt F)) (x4 : (⟨S128x128, .f32⟩ : BufTy).Contents (Elt F)) (x5 : (⟨S128, .f32⟩ : BufTy).Contents (Elt F))
    (h_main_v48 : W (Proc.devRef .tc main_v48) = val_main_v48 (F := F) x0 x1 x4 x5)
    (h_main_v51 : W (Proc.devRef .tc main_v51) = val_main_v51 (F := F) x0 x1 x4 x5) :
    after ops10 W (Proc.devRef .tc main_v54) = val_main_v54 (F := F) x0 x1 x4 x5 := by
  dsimp only [ops10]
  after_results
  rw [h_main_v48, h_main_v51]
  rfl

set_option maxHeartbeats 1000000 in
theorem st11_main_v63 (W : Valuation τ sig (Elt F)) (x0 : (⟨S100000x128, .f32⟩ : BufTy).Contents (Elt F)) (x1 : (⟨S2x1600000, .i32⟩ : BufTy).Contents (Elt F)) (x4 : (⟨S128x128, .f32⟩ : BufTy).Contents (Elt F)) (x5 : (⟨S128, .f32⟩ : BufTy).Contents (Elt F))
    (h_main_v54 : W (Proc.devRef .tc main_v54) = val_main_v54 (F := F) x0 x1 x4 x5) :
    after ops11 W (Proc.devRef .tc main_v63) = val_main_v63 (F := F) x0 x1 x4 x5 := by
  dsimp only [ops11]
  after_results
  rw [h_main_v54]
  rfl

set_option maxHeartbeats 1000000 in
theorem st11_main_v61 (W : Valuation τ sig (Elt F)) (x0 : (⟨S100000x128, .f32⟩ : BufTy).Contents (Elt F)) (x1 : (⟨S2x1600000, .i32⟩ : BufTy).Contents (Elt F)) (x4 : (⟨S128x128, .f32⟩ : BufTy).Contents (Elt F)) (x5 : (⟨S128, .f32⟩ : BufTy).Contents (Elt F))
    (h_main_v48 : W (Proc.devRef .tc main_v48) = val_main_v48 (F := F) x0 x1 x4 x5)
    (h_main_v51 : W (Proc.devRef .tc main_v51) = val_main_v51 (F := F) x0 x1 x4 x5) :
    after ops11 W (Proc.devRef .tc main_v61) = val_main_v61 (F := F) x0 x1 x4 x5 := by
  dsimp only [ops11]
  after_results
  rw [h_main_v48, h_main_v51]
  rfl

set_option maxHeartbeats 1000000 in
theorem st12_main_v74 (W : Valuation τ sig (Elt F)) (x0 : (⟨S100000x128, .f32⟩ : BufTy).Contents (Elt F)) (x1 : (⟨S2x1600000, .i32⟩ : BufTy).Contents (Elt F)) (x4 : (⟨S128x128, .f32⟩ : BufTy).Contents (Elt F)) (x5 : (⟨S128, .f32⟩ : BufTy).Contents (Elt F)) (x6 : (⟨S128x128, .f32⟩ : BufTy).Contents (Elt F)) (x10 : (⟨S128, .f32⟩ : BufTy).Contents (Elt F)) (x11 : (⟨S128, .f32⟩ : BufTy).Contents (Elt F))
    (h_main_v61 : W (Proc.devRef .tc main_v61) = val_main_v61 (F := F) x0 x1 x4 x5)
    (h_main_v63 : W (Proc.devRef .tc main_v63) = val_main_v63 (F := F) x0 x1 x4 x5)
    (h_main_arg10 : W (Proc.devRef .tc main_arg10) = x10)
    (h_main_arg11 : W (Proc.devRef .tc main_arg11) = x11)
    (h_main_arg6 : W (Proc.devRef .tc main_arg6) = x6) :
    after ops12 W (Proc.devRef .tc main_v74) = val_main_v74 (F := F) x0 x1 x4 x5 x6 x10 x11 := by
  dsimp only [ops12]
  after_results
  rw [h_main_v61, h_main_v63, h_main_arg10, h_main_arg11, h_main_arg6]
  rfl

set_option maxHeartbeats 1000000 in
theorem st13_main_cst_15 (W : Valuation τ sig (Elt F))
     :
    after ops13 W (Proc.devRef .tc main_cst_15) = val_main_cst_15 (F := F) := by
  dsimp only [ops13]
  after_results
  rfl

set_option maxHeartbeats 1000000 in
theorem st13_main_v84 (W : Valuation τ sig (Elt F)) (x0 : (⟨S100000x128, .f32⟩ : BufTy).Contents (Elt F)) (x1 : (⟨S2x1600000, .i32⟩ : BufTy).Contents (Elt F)) (x4 : (⟨S128x128, .f32⟩ : BufTy).Contents (Elt F)) (x5 : (⟨S128, .f32⟩ : BufTy).Contents (Elt F)) (x6 : (⟨S128x128, .f32⟩ : BufTy).Contents (Elt F)) (x10 : (⟨S128, .f32⟩ : BufTy).Contents (Elt F)) (x11 : (⟨S128, .f32⟩ : BufTy).Contents (Elt F))
    (h_main_v25 : W (Proc.devRef .tc main_v25) = val_main_v25 (F := F) x1)
    (h_main_v74 : W (Proc.devRef .tc main_v74) = val_main_v74 (F := F) x0 x1 x4 x5 x6 x10 x11)
    (h_main_v1 : W (Proc.devRef .tc main_v1) = val_main_v1 (F := F) x1) :
    after ops13 W (Proc.devRef .tc main_v84) = val_main_v84 (F := F) x0 x1 x4 x5 x6 x10 x11 := by
  dsimp only [ops13]
  after_results
  rw [h_main_v25, h_main_v74, h_main_v1]
  rfl

set_option maxHeartbeats 1000000 in
theorem st14_main_v95 (W : Valuation τ sig (Elt F)) (x0 : (⟨S100000x128, .f32⟩ : BufTy).Contents (Elt F)) (x1 : (⟨S2x1600000, .i32⟩ : BufTy).Contents (Elt F)) (x4 : (⟨S128x128, .f32⟩ : BufTy).Contents (Elt F)) (x5 : (⟨S128, .f32⟩ : BufTy).Contents (Elt F)) (x6 : (⟨S128x128, .f32⟩ : BufTy).Contents (Elt F)) (x7 : (⟨S128, .f32⟩ : BufTy).Contents (Elt F)) (x10 : (⟨S128, .f32⟩ : BufTy).Contents (Elt F)) (x11 : (⟨S128, .f32⟩ : BufTy).Contents (Elt F))
    (h_main_cst_15 : W (Proc.devRef .tc main_cst_15) = val_main_cst_15 (F := F))
    (h_main_v3 : W (Proc.devRef .tc main_v3) = val_main_v3 (F := F) x1)
    (h_main_v84 : W (Proc.devRef .tc main_v84) = val_main_v84 (F := F) x0 x1 x4 x5 x6 x10 x11)
    (h_main_v26 : W (Proc.devRef .tc main_v26) = val_main_v26 (F := F) x1)
    (h_main_v74 : W (Proc.devRef .tc main_v74) = val_main_v74 (F := F) x0 x1 x4 x5 x6 x10 x11)
    (h_main_arg7 : W (Proc.devRef .tc main_arg7) = x7) :
    after ops14 W (Proc.devRef .tc main_v95) = val_main_v95 (F := F) x0 x1 x4 x5 x6 x7 x10 x11 := by
  dsimp only [ops14]
  after_results
  rw [h_main_cst_15, h_main_v3, h_main_v84, h_main_v26, h_main_v74, h_main_arg7]
  try simp only [TRef.ofBuf, TRef.toBuf, cast_eq]
  rfl

set_option maxHeartbeats 1000000 in
theorem st15_main_v98 (W : Valuation τ sig (Elt F)) (x0 : (⟨S100000x128, .f32⟩ : BufTy).Contents (Elt F)) (x1 : (⟨S2x1600000, .i32⟩ : BufTy).Contents (Elt F)) (x4 : (⟨S128x128, .f32⟩ : BufTy).Contents (Elt F)) (x5 : (⟨S128, .f32⟩ : BufTy).Contents (Elt F)) (x6 : (⟨S128x128, .f32⟩ : BufTy).Contents (Elt F)) (x7 : (⟨S128, .f32⟩ : BufTy).Contents (Elt F)) (x10 : (⟨S128, .f32⟩ : BufTy).Contents (Elt F)) (x11 : (⟨S128, .f32⟩ : BufTy).Contents (Elt F))
    (h_main_v95 : W (Proc.devRef .tc main_v95) = val_main_v95 (F := F) x0 x1 x4 x5 x6 x7 x10 x11) :
    after ops15 W (Proc.devRef .tc main_v98) = val_main_v98 (F := F) x0 x1 x4 x5 x6 x7 x10 x11 := by
  dsimp only [ops15]
  after_results
  rw [h_main_v95]
  rfl

set_option maxHeartbeats 1000000 in
theorem st16_main_v101 (W : Valuation τ sig (Elt F)) (x0 : (⟨S100000x128, .f32⟩ : BufTy).Contents (Elt F)) (x1 : (⟨S2x1600000, .i32⟩ : BufTy).Contents (Elt F)) (x4 : (⟨S128x128, .f32⟩ : BufTy).Contents (Elt F)) (x5 : (⟨S128, .f32⟩ : BufTy).Contents (Elt F)) (x6 : (⟨S128x128, .f32⟩ : BufTy).Contents (Elt F)) (x7 : (⟨S128, .f32⟩ : BufTy).Contents (Elt F)) (x10 : (⟨S128, .f32⟩ : BufTy).Contents (Elt F)) (x11 : (⟨S128, .f32⟩ : BufTy).Contents (Elt F))
    (h_main_v95 : W (Proc.devRef .tc main_v95) = val_main_v95 (F := F) x0 x1 x4 x5 x6 x7 x10 x11)
    (h_main_v98 : W (Proc.devRef .tc main_v98) = val_main_v98 (F := F) x0 x1 x4 x5 x6 x7 x10 x11) :
    after ops16 W (Proc.devRef .tc main_v101) = val_main_v101 (F := F) x0 x1 x4 x5 x6 x7 x10 x11 := by
  dsimp only [ops16]
  after_results
  rw [h_main_v95, h_main_v98]
  rfl

set_option maxHeartbeats 1000000 in
theorem st17_main_v110 (W : Valuation τ sig (Elt F)) (x0 : (⟨S100000x128, .f32⟩ : BufTy).Contents (Elt F)) (x1 : (⟨S2x1600000, .i32⟩ : BufTy).Contents (Elt F)) (x4 : (⟨S128x128, .f32⟩ : BufTy).Contents (Elt F)) (x5 : (⟨S128, .f32⟩ : BufTy).Contents (Elt F)) (x6 : (⟨S128x128, .f32⟩ : BufTy).Contents (Elt F)) (x7 : (⟨S128, .f32⟩ : BufTy).Contents (Elt F)) (x10 : (⟨S128, .f32⟩ : BufTy).Contents (Elt F)) (x11 : (⟨S128, .f32⟩ : BufTy).Contents (Elt F))
    (h_main_v101 : W (Proc.devRef .tc main_v101) = val_main_v101 (F := F) x0 x1 x4 x5 x6 x7 x10 x11) :
    after ops17 W (Proc.devRef .tc main_v110) = val_main_v110 (F := F) x0 x1 x4 x5 x6 x7 x10 x11 := by
  dsimp only [ops17]
  after_results
  rw [h_main_v101]
  rfl

set_option maxHeartbeats 1000000 in
theorem st17_main_v108 (W : Valuation τ sig (Elt F)) (x0 : (⟨S100000x128, .f32⟩ : BufTy).Contents (Elt F)) (x1 : (⟨S2x1600000, .i32⟩ : BufTy).Contents (Elt F)) (x4 : (⟨S128x128, .f32⟩ : BufTy).Contents (Elt F)) (x5 : (⟨S128, .f32⟩ : BufTy).Contents (Elt F)) (x6 : (⟨S128x128, .f32⟩ : BufTy).Contents (Elt F)) (x7 : (⟨S128, .f32⟩ : BufTy).Contents (Elt F)) (x10 : (⟨S128, .f32⟩ : BufTy).Contents (Elt F)) (x11 : (⟨S128, .f32⟩ : BufTy).Contents (Elt F))
    (h_main_v95 : W (Proc.devRef .tc main_v95) = val_main_v95 (F := F) x0 x1 x4 x5 x6 x7 x10 x11)
    (h_main_v98 : W (Proc.devRef .tc main_v98) = val_main_v98 (F := F) x0 x1 x4 x5 x6 x7 x10 x11) :
    after ops17 W (Proc.devRef .tc main_v108) = val_main_v108 (F := F) x0 x1 x4 x5 x6 x7 x10 x11 := by
  dsimp only [ops17]
  after_results
  rw [h_main_v95, h_main_v98]
  rfl

set_option maxHeartbeats 1000000 in
theorem st18_main_v121 (W : Valuation τ sig (Elt F)) (x0 : (⟨S100000x128, .f32⟩ : BufTy).Contents (Elt F)) (x1 : (⟨S2x1600000, .i32⟩ : BufTy).Contents (Elt F)) (x4 : (⟨S128x128, .f32⟩ : BufTy).Contents (Elt F)) (x5 : (⟨S128, .f32⟩ : BufTy).Contents (Elt F)) (x6 : (⟨S128x128, .f32⟩ : BufTy).Contents (Elt F)) (x7 : (⟨S128, .f32⟩ : BufTy).Contents (Elt F)) (x8 : (⟨S128x128, .f32⟩ : BufTy).Contents (Elt F)) (x10 : (⟨S128, .f32⟩ : BufTy).Contents (Elt F)) (x11 : (⟨S128, .f32⟩ : BufTy).Contents (Elt F)) (x12 : (⟨S128, .f32⟩ : BufTy).Contents (Elt F)) (x13 : (⟨S128, .f32⟩ : BufTy).Contents (Elt F))
    (h_main_v108 : W (Proc.devRef .tc main_v108) = val_main_v108 (F := F) x0 x1 x4 x5 x6 x7 x10 x11)
    (h_main_v110 : W (Proc.devRef .tc main_v110) = val_main_v110 (F := F) x0 x1 x4 x5 x6 x7 x10 x11)
    (h_main_arg12 : W (Proc.devRef .tc main_arg12) = x12)
    (h_main_arg13 : W (Proc.devRef .tc main_arg13) = x13)
    (h_main_arg8 : W (Proc.devRef .tc main_arg8) = x8) :
    after ops18 W (Proc.devRef .tc main_v121) = val_main_v121 (F := F) x0 x1 x4 x5 x6 x7 x8 x10 x11 x12 x13 := by
  dsimp only [ops18]
  after_results
  rw [h_main_v108, h_main_v110, h_main_arg12, h_main_arg13, h_main_arg8]
  rfl

set_option maxHeartbeats 1000000 in
theorem st19_main_cst_23 (W : Valuation τ sig (Elt F))
     :
    after ops19 W (Proc.devRef .tc main_cst_23) = val_main_cst_23 (F := F) := by
  dsimp only [ops19]
  after_results
  rfl

set_option maxHeartbeats 1000000 in
theorem st19_main_v131 (W : Valuation τ sig (Elt F)) (x0 : (⟨S100000x128, .f32⟩ : BufTy).Contents (Elt F)) (x1 : (⟨S2x1600000, .i32⟩ : BufTy).Contents (Elt F)) (x4 : (⟨S128x128, .f32⟩ : BufTy).Contents (Elt F)) (x5 : (⟨S128, .f32⟩ : BufTy).Contents (Elt F)) (x6 : (⟨S128x128, .f32⟩ : BufTy).Contents (Elt F)) (x7 : (⟨S128, .f32⟩ : BufTy).Contents (Elt F)) (x8 : (⟨S128x128, .f32⟩ : BufTy).Contents (Elt F)) (x10 : (⟨S128, .f32⟩ : BufTy).Contents (Elt F)) (x11 : (⟨S128, .f32⟩ : BufTy).Contents (Elt F)) (x12 : (⟨S128, .f32⟩ : BufTy).Contents (Elt F)) (x13 : (⟨S128, .f32⟩ : BufTy).Contents (Elt F))
    (h_main_v25 : W (Proc.devRef .tc main_v25) = val_main_v25 (F := F) x1)
    (h_main_v121 : W (Proc.devRef .tc main_v121) = val_main_v121 (F := F) x0 x1 x4 x5 x6 x7 x8 x10 x11 x12 x13)
    (h_main_v1 : W (Proc.devRef .tc main_v1) = val_main_v1 (F := F) x1) :
    after ops19 W (Proc.devRef .tc main_v131) = val_main_v131 (F := F) x0 x1 x4 x5 x6 x7 x8 x10 x11 x12 x13 := by
  dsimp only [ops19]
  after_results
  rw [h_main_v25, h_main_v121, h_main_v1]
  rfl

set_option maxHeartbeats 1000000 in
theorem st20_main_v142 (W : Valuation τ sig (Elt F)) (x0 : (⟨S100000x128, .f32⟩ : BufTy).Contents (Elt F)) (x1 : (⟨S2x1600000, .i32⟩ : BufTy).Contents (Elt F)) (x4 : (⟨S128x128, .f32⟩ : BufTy).Contents (Elt F)) (x5 : (⟨S128, .f32⟩ : BufTy).Contents (Elt F)) (x6 : (⟨S128x128, .f32⟩ : BufTy).Contents (Elt F)) (x7 : (⟨S128, .f32⟩ : BufTy).Contents (Elt F)) (x8 : (⟨S128x128, .f32⟩ : BufTy).Contents (Elt F)) (x9 : (⟨S128, .f32⟩ : BufTy).Contents (Elt F)) (x10 : (⟨S128, .f32⟩ : BufTy).Contents (Elt F)) (x11 : (⟨S128, .f32⟩ : BufTy).Contents (Elt F)) (x12 : (⟨S128, .f32⟩ : BufTy).Contents (Elt F)) (x13 : (⟨S128, .f32⟩ : BufTy).Contents (Elt F))
    (h_main_cst_23 : W (Proc.devRef .tc main_cst_23) = val_main_cst_23 (F := F))
    (h_main_v3 : W (Proc.devRef .tc main_v3) = val_main_v3 (F := F) x1)
    (h_main_v131 : W (Proc.devRef .tc main_v131) = val_main_v131 (F := F) x0 x1 x4 x5 x6 x7 x8 x10 x11 x12 x13)
    (h_main_v26 : W (Proc.devRef .tc main_v26) = val_main_v26 (F := F) x1)
    (h_main_v121 : W (Proc.devRef .tc main_v121) = val_main_v121 (F := F) x0 x1 x4 x5 x6 x7 x8 x10 x11 x12 x13)
    (h_main_arg9 : W (Proc.devRef .tc main_arg9) = x9) :
    after ops20 W (Proc.devRef .tc main_v142) = val_main_v142 (F := F) x0 x1 x4 x5 x6 x7 x8 x9 x10 x11 x12 x13 := by
  dsimp only [ops20]
  after_results
  rw [h_main_cst_23, h_main_v3, h_main_v131, h_main_v26, h_main_v121, h_main_arg9]
  try simp only [TRef.ofBuf, TRef.toBuf, cast_eq]
  rfl

set_option maxHeartbeats 1000000 in
theorem st21_main_v145 (W : Valuation τ sig (Elt F)) (x0 : (⟨S100000x128, .f32⟩ : BufTy).Contents (Elt F)) (x1 : (⟨S2x1600000, .i32⟩ : BufTy).Contents (Elt F)) (x4 : (⟨S128x128, .f32⟩ : BufTy).Contents (Elt F)) (x5 : (⟨S128, .f32⟩ : BufTy).Contents (Elt F)) (x6 : (⟨S128x128, .f32⟩ : BufTy).Contents (Elt F)) (x7 : (⟨S128, .f32⟩ : BufTy).Contents (Elt F)) (x8 : (⟨S128x128, .f32⟩ : BufTy).Contents (Elt F)) (x9 : (⟨S128, .f32⟩ : BufTy).Contents (Elt F)) (x10 : (⟨S128, .f32⟩ : BufTy).Contents (Elt F)) (x11 : (⟨S128, .f32⟩ : BufTy).Contents (Elt F)) (x12 : (⟨S128, .f32⟩ : BufTy).Contents (Elt F)) (x13 : (⟨S128, .f32⟩ : BufTy).Contents (Elt F))
    (h_main_v142 : W (Proc.devRef .tc main_v142) = val_main_v142 (F := F) x0 x1 x4 x5 x6 x7 x8 x9 x10 x11 x12 x13) :
    after ops21 W (Proc.devRef .tc main_v145) = val_main_v145 (F := F) x0 x1 x4 x5 x6 x7 x8 x9 x10 x11 x12 x13 := by
  dsimp only [ops21]
  after_results
  rw [h_main_v142]
  rfl

set_option maxHeartbeats 1000000 in
theorem st22_main_v148 (W : Valuation τ sig (Elt F)) (x0 : (⟨S100000x128, .f32⟩ : BufTy).Contents (Elt F)) (x1 : (⟨S2x1600000, .i32⟩ : BufTy).Contents (Elt F)) (x4 : (⟨S128x128, .f32⟩ : BufTy).Contents (Elt F)) (x5 : (⟨S128, .f32⟩ : BufTy).Contents (Elt F)) (x6 : (⟨S128x128, .f32⟩ : BufTy).Contents (Elt F)) (x7 : (⟨S128, .f32⟩ : BufTy).Contents (Elt F)) (x8 : (⟨S128x128, .f32⟩ : BufTy).Contents (Elt F)) (x9 : (⟨S128, .f32⟩ : BufTy).Contents (Elt F)) (x10 : (⟨S128, .f32⟩ : BufTy).Contents (Elt F)) (x11 : (⟨S128, .f32⟩ : BufTy).Contents (Elt F)) (x12 : (⟨S128, .f32⟩ : BufTy).Contents (Elt F)) (x13 : (⟨S128, .f32⟩ : BufTy).Contents (Elt F))
    (h_main_v142 : W (Proc.devRef .tc main_v142) = val_main_v142 (F := F) x0 x1 x4 x5 x6 x7 x8 x9 x10 x11 x12 x13)
    (h_main_v145 : W (Proc.devRef .tc main_v145) = val_main_v145 (F := F) x0 x1 x4 x5 x6 x7 x8 x9 x10 x11 x12 x13) :
    after ops22 W (Proc.devRef .tc main_v148) = val_main_v148 (F := F) x0 x1 x4 x5 x6 x7 x8 x9 x10 x11 x12 x13 := by
  dsimp only [ops22]
  after_results
  rw [h_main_v142, h_main_v145]
  rfl

set_option maxHeartbeats 1000000 in
theorem st23_main_v155 (W : Valuation τ sig (Elt F)) (x0 : (⟨S100000x128, .f32⟩ : BufTy).Contents (Elt F)) (x1 : (⟨S2x1600000, .i32⟩ : BufTy).Contents (Elt F)) (x4 : (⟨S128x128, .f32⟩ : BufTy).Contents (Elt F)) (x5 : (⟨S128, .f32⟩ : BufTy).Contents (Elt F)) (x6 : (⟨S128x128, .f32⟩ : BufTy).Contents (Elt F)) (x7 : (⟨S128, .f32⟩ : BufTy).Contents (Elt F)) (x8 : (⟨S128x128, .f32⟩ : BufTy).Contents (Elt F)) (x9 : (⟨S128, .f32⟩ : BufTy).Contents (Elt F)) (x10 : (⟨S128, .f32⟩ : BufTy).Contents (Elt F)) (x11 : (⟨S128, .f32⟩ : BufTy).Contents (Elt F)) (x12 : (⟨S128, .f32⟩ : BufTy).Contents (Elt F)) (x13 : (⟨S128, .f32⟩ : BufTy).Contents (Elt F))
    (h_main_v142 : W (Proc.devRef .tc main_v142) = val_main_v142 (F := F) x0 x1 x4 x5 x6 x7 x8 x9 x10 x11 x12 x13)
    (h_main_v145 : W (Proc.devRef .tc main_v145) = val_main_v145 (F := F) x0 x1 x4 x5 x6 x7 x8 x9 x10 x11 x12 x13) :
    after ops23 W (Proc.devRef .tc main_v155) = val_main_v155 (F := F) x0 x1 x4 x5 x6 x7 x8 x9 x10 x11 x12 x13 := by
  dsimp only [ops23]
  after_results
  rw [h_main_v142, h_main_v145]
  rfl

set_option maxHeartbeats 1000000 in
theorem st23_main_v160 (W : Valuation τ sig (Elt F)) (x0 : (⟨S100000x128, .f32⟩ : BufTy).Contents (Elt F)) (x1 : (⟨S2x1600000, .i32⟩ : BufTy).Contents (Elt F)) (x4 : (⟨S128x128, .f32⟩ : BufTy).Contents (Elt F)) (x5 : (⟨S128, .f32⟩ : BufTy).Contents (Elt F)) (x6 : (⟨S128x128, .f32⟩ : BufTy).Contents (Elt F)) (x7 : (⟨S128, .f32⟩ : BufTy).Contents (Elt F)) (x8 : (⟨S128x128, .f32⟩ : BufTy).Contents (Elt F)) (x9 : (⟨S128, .f32⟩ : BufTy).Contents (Elt F)) (x10 : (⟨S128, .f32⟩ : BufTy).Contents (Elt F)) (x11 : (⟨S128, .f32⟩ : BufTy).Contents (Elt F)) (x12 : (⟨S128, .f32⟩ : BufTy).Contents (Elt F)) (x13 : (⟨S128, .f32⟩ : BufTy).Contents (Elt F))
    (h_main_v148 : W (Proc.devRef .tc main_v148) = val_main_v148 (F := F) x0 x1 x4 x5 x6 x7 x8 x9 x10 x11 x12 x13) :
    after ops23 W (Proc.devRef .tc main_v160) = val_main_v160 (F := F) x0 x1 x4 x5 x6 x7 x8 x9 x10 x11 x12 x13 := by
  dsimp only [ops23]
  after_results
  rw [h_main_v148]
  rfl

set_option maxHeartbeats 1000000 in
theorem st24_main_v172 (W : Valuation τ sig (Elt F))
     :
    after ops24 W (Proc.devRef .tc main_v172) = val_main_v172 (F := F) := by
  dsimp only [ops24]
  after_results
  rfl

set_option maxHeartbeats 1000000 in
theorem st24_main_v171 (W : Valuation τ sig (Elt F))
     :
    after ops24 W (Proc.devRef .tc main_v171) = val_main_v171 (F := F) := by
  dsimp only [ops24]
  after_results
  rfl

set_option maxHeartbeats 1000000 in
theorem st24_main_v170 (W : Valuation τ sig (Elt F)) (x0 : (⟨S100000x128, .f32⟩ : BufTy).Contents (Elt F)) (x1 : (⟨S2x1600000, .i32⟩ : BufTy).Contents (Elt F)) (x2 : (⟨S100000, .i32⟩ : BufTy).Contents (Elt F)) (x4 : (⟨S128x128, .f32⟩ : BufTy).Contents (Elt F)) (x5 : (⟨S128, .f32⟩ : BufTy).Contents (Elt F)) (x6 : (⟨S128x128, .f32⟩ : BufTy).Contents (Elt F)) (x7 : (⟨S128, .f32⟩ : BufTy).Contents (Elt F)) (x8 : (⟨S128x128, .f32⟩ : BufTy).Contents (Elt F)) (x9 : (⟨S128, .f32⟩ : BufTy).Contents (Elt F)) (x10 : (⟨S128, .f32⟩ : BufTy).Contents (Elt F)) (x11 : (⟨S128, .f32⟩ : BufTy).Contents (Elt F)) (x12 : (⟨S128, .f32⟩ : BufTy).Contents (Elt F)) (x13 : (⟨S128, .f32⟩ : BufTy).Contents (Elt F)) (x14 : (⟨S128, .f32⟩ : BufTy).Contents (Elt F)) (x15 : (⟨S128, .f32⟩ : BufTy).Contents (Elt F))
    (h_main_v155 : W (Proc.devRef .tc main_v155) = val_main_v155 (F := F) x0 x1 x4 x5 x6 x7 x8 x9 x10 x11 x12 x13)
    (h_main_v160 : W (Proc.devRef .tc main_v160) = val_main_v160 (F := F) x0 x1 x4 x5 x6 x7 x8 x9 x10 x11 x12 x13)
    (h_main_arg2 : W (Proc.devRef .tc main_arg2) = x2)
    (h_main_arg14 : W (Proc.devRef .tc main_arg14) = x14)
    (h_main_arg15 : W (Proc.devRef .tc main_arg15) = x15) :
    after ops24 W (Proc.devRef .tc main_v170) = val_main_v170 (F := F) x0 x1 x2 x4 x5 x6 x7 x8 x9 x10 x11 x12 x13 x14 x15 := by
  dsimp only [ops24]
  after_results
  rw [h_main_v155, h_main_v160, h_main_arg2, h_main_arg14, h_main_arg15]
  rfl

set_option maxHeartbeats 1000000 in
theorem st25_main_v184 (W : Valuation τ sig (Elt F)) (x0 : (⟨S100000x128, .f32⟩ : BufTy).Contents (Elt F)) (x1 : (⟨S2x1600000, .i32⟩ : BufTy).Contents (Elt F)) (x2 : (⟨S100000, .i32⟩ : BufTy).Contents (Elt F)) (x3 : (⟨S256x16, .f32⟩ : BufTy).Contents (Elt F)) (x4 : (⟨S128x128, .f32⟩ : BufTy).Contents (Elt F)) (x5 : (⟨S128, .f32⟩ : BufTy).Contents (Elt F)) (x6 : (⟨S128x128, .f32⟩ : BufTy).Contents (Elt F)) (x7 : (⟨S128, .f32⟩ : BufTy).Contents (Elt F)) (x8 : (⟨S128x128, .f32⟩ : BufTy).Contents (Elt F)) (x9 : (⟨S128, .f32⟩ : BufTy).Contents (Elt F)) (x10 : (⟨S128, .f32⟩ : BufTy).Contents (Elt F)) (x11 : (⟨S128, .f32⟩ : BufTy).Contents (Elt F)) (x12 : (⟨S128, .f32⟩ : BufTy).Contents (Elt F)) (x13 : (⟨S128, .f32⟩ : BufTy).Contents (Elt F)) (x14 : (⟨S128, .f32⟩ : BufTy).Contents (Elt F)) (x15 : (⟨S128, .f32⟩ : BufTy).Contents (Elt F)) (x16 : (⟨S144x2, .f32⟩ : BufTy).Contents (Elt F)) (x17 : (⟨S2, .f32⟩ : BufTy).Contents (Elt F))
    (h_main_v170 : W (Proc.devRef .tc main_v170) = val_main_v170 (F := F) x0 x1 x2 x4 x5 x6 x7 x8 x9 x10 x11 x12 x13 x14 x15)
    (h_main_v172 : W (Proc.devRef .tc main_v172) = val_main_v172 (F := F))
    (h_main_v171 : W (Proc.devRef .tc main_v171) = val_main_v171 (F := F))
    (h_main_arg2 : W (Proc.devRef .tc main_arg2) = x2)
    (h_main_arg3 : W (Proc.devRef .tc main_arg3) = x3)
    (h_main_arg16 : W (Proc.devRef .tc main_arg16) = x16)
    (h_main_arg17 : W (Proc.devRef .tc main_arg17) = x17) :
    after ops25 W (Proc.devRef .tc main_v184) = val_main_v184 (F := F) x0 x1 x2 x3 x4 x5 x6 x7 x8 x9 x10 x11 x12 x13 x14 x15 x16 x17 := by
  dsimp only [ops25]
  after_results
  rw [h_main_v170, h_main_v172, h_main_v171, h_main_arg2, h_main_arg3, h_main_arg16, h_main_arg17]
  rfl

abbrev A_0 (V : Valuation τ sig (Elt F)) : (⟨S100000x128, .f32⟩ : BufTy).Contents (Elt F) := V (Proc.devRef .tc main_arg0)

abbrev A_1 (V : Valuation τ sig (Elt F)) : (⟨S2x1600000, .i32⟩ : BufTy).Contents (Elt F) := V (Proc.devRef .tc main_arg1)

abbrev A_2 (V : Valuation τ sig (Elt F)) : (⟨S100000, .i32⟩ : BufTy).Contents (Elt F) := V (Proc.devRef .tc main_arg2)

abbrev A_3 (V : Valuation τ sig (Elt F)) : (⟨S256x16, .f32⟩ : BufTy).Contents (Elt F) := V (Proc.devRef .tc main_arg3)

abbrev A_4 (V : Valuation τ sig (Elt F)) : (⟨S128x128, .f32⟩ : BufTy).Contents (Elt F) := V (Proc.devRef .tc main_arg4)

abbrev A_5 (V : Valuation τ sig (Elt F)) : (⟨S128, .f32⟩ : BufTy).Contents (Elt F) := V (Proc.devRef .tc main_arg5)

abbrev A_6 (V : Valuation τ sig (Elt F)) : (⟨S128x128, .f32⟩ : BufTy).Contents (Elt F) := V (Proc.devRef .tc main_arg6)

abbrev A_7 (V : Valuation τ sig (Elt F)) : (⟨S128, .f32⟩ : BufTy).Contents (Elt F) := V (Proc.devRef .tc main_arg7)

abbrev A_8 (V : Valuation τ sig (Elt F)) : (⟨S128x128, .f32⟩ : BufTy).Contents (Elt F) := V (Proc.devRef .tc main_arg8)

abbrev A_9 (V : Valuation τ sig (Elt F)) : (⟨S128, .f32⟩ : BufTy).Contents (Elt F) := V (Proc.devRef .tc main_arg9)

abbrev A_10 (V : Valuation τ sig (Elt F)) : (⟨S128, .f32⟩ : BufTy).Contents (Elt F) := V (Proc.devRef .tc main_arg10)

abbrev A_11 (V : Valuation τ sig (Elt F)) : (⟨S128, .f32⟩ : BufTy).Contents (Elt F) := V (Proc.devRef .tc main_arg11)

abbrev A_12 (V : Valuation τ sig (Elt F)) : (⟨S128, .f32⟩ : BufTy).Contents (Elt F) := V (Proc.devRef .tc main_arg12)

abbrev A_13 (V : Valuation τ sig (Elt F)) : (⟨S128, .f32⟩ : BufTy).Contents (Elt F) := V (Proc.devRef .tc main_arg13)

abbrev A_14 (V : Valuation τ sig (Elt F)) : (⟨S128, .f32⟩ : BufTy).Contents (Elt F) := V (Proc.devRef .tc main_arg14)

abbrev A_15 (V : Valuation τ sig (Elt F)) : (⟨S128, .f32⟩ : BufTy).Contents (Elt F) := V (Proc.devRef .tc main_arg15)

abbrev A_16 (V : Valuation τ sig (Elt F)) : (⟨S144x2, .f32⟩ : BufTy).Contents (Elt F) := V (Proc.devRef .tc main_arg16)

abbrev A_17 (V : Valuation τ sig (Elt F)) : (⟨S2, .f32⟩ : BufTy).Contents (Elt F) := V (Proc.devRef .tc main_arg17)

abbrev U0 (V : Valuation τ sig (Elt F)) : Valuation τ sig (Elt F) := V
abbrev U1 (V : Valuation τ sig (Elt F)) : Valuation τ sig (Elt F) := after ops0 (U0 V)
abbrev U2 (V : Valuation τ sig (Elt F)) : Valuation τ sig (Elt F) := after ops1 (U1 V)
abbrev U3 (V : Valuation τ sig (Elt F)) : Valuation τ sig (Elt F) := after ops2 (U2 V)
abbrev U4 (V : Valuation τ sig (Elt F)) : Valuation τ sig (Elt F) := after ops3 (U3 V)
abbrev U5 (V : Valuation τ sig (Elt F)) : Valuation τ sig (Elt F) := after ops4 (U4 V)
abbrev U6 (V : Valuation τ sig (Elt F)) : Valuation τ sig (Elt F) := after ops5 (U5 V)
abbrev U7 (V : Valuation τ sig (Elt F)) : Valuation τ sig (Elt F) := after ops6 (U6 V)
abbrev U8 (V : Valuation τ sig (Elt F)) : Valuation τ sig (Elt F) := after ops7 (U7 V)
abbrev U9 (V : Valuation τ sig (Elt F)) : Valuation τ sig (Elt F) := after ops8 (U8 V)
abbrev U10 (V : Valuation τ sig (Elt F)) : Valuation τ sig (Elt F) := after ops9 (U9 V)
abbrev U11 (V : Valuation τ sig (Elt F)) : Valuation τ sig (Elt F) := after ops10 (U10 V)
abbrev U12 (V : Valuation τ sig (Elt F)) : Valuation τ sig (Elt F) := after ops11 (U11 V)
abbrev U13 (V : Valuation τ sig (Elt F)) : Valuation τ sig (Elt F) := after ops12 (U12 V)
abbrev U14 (V : Valuation τ sig (Elt F)) : Valuation τ sig (Elt F) := after ops13 (U13 V)
abbrev U15 (V : Valuation τ sig (Elt F)) : Valuation τ sig (Elt F) := after ops14 (U14 V)
abbrev U16 (V : Valuation τ sig (Elt F)) : Valuation τ sig (Elt F) := after ops15 (U15 V)
abbrev U17 (V : Valuation τ sig (Elt F)) : Valuation τ sig (Elt F) := after ops16 (U16 V)
abbrev U18 (V : Valuation τ sig (Elt F)) : Valuation τ sig (Elt F) := after ops17 (U17 V)
abbrev U19 (V : Valuation τ sig (Elt F)) : Valuation τ sig (Elt F) := after ops18 (U18 V)
abbrev U20 (V : Valuation τ sig (Elt F)) : Valuation τ sig (Elt F) := after ops19 (U19 V)
abbrev U21 (V : Valuation τ sig (Elt F)) : Valuation τ sig (Elt F) := after ops20 (U20 V)
abbrev U22 (V : Valuation τ sig (Elt F)) : Valuation τ sig (Elt F) := after ops21 (U21 V)
abbrev U23 (V : Valuation τ sig (Elt F)) : Valuation τ sig (Elt F) := after ops22 (U22 V)
abbrev U24 (V : Valuation τ sig (Elt F)) : Valuation τ sig (Elt F) := after ops23 (U23 V)
abbrev U25 (V : Valuation τ sig (Elt F)) : Valuation τ sig (Elt F) := after ops24 (U24 V)
abbrev U26 (V : Valuation τ sig (Elt F)) : Valuation τ sig (Elt F) := after ops25 (U25 V)

abbrev argRefs : List (Ref sig .tc) := [main_arg0, main_arg1, main_arg2, main_arg3, main_arg4, main_arg5, main_arg6, main_arg7, main_arg8, main_arg9, main_arg10, main_arg11, main_arg12, main_arg13, main_arg14, main_arg15, main_arg16, main_arg17]

theorem argAt0 (V : Valuation τ sig (Elt F)) (r : Ref sig .tc) (hr : r ∈ argRefs) : U0 V (Proc.devRef .tc r) = V (Proc.devRef .tc r) := rfl
theorem argAt1 (V : Valuation τ sig (Elt F)) (r : Ref sig .tc) (hr : r ∈ argRefs) : U1 V (Proc.devRef .tc r) = V (Proc.devRef .tc r) :=
  (pass0 (U0 V) r ((by decide : ∀ r ∈ argRefs, r ∉ ops0_W) r hr)).trans (argAt0 V r hr)
theorem argAt2 (V : Valuation τ sig (Elt F)) (r : Ref sig .tc) (hr : r ∈ argRefs) : U2 V (Proc.devRef .tc r) = V (Proc.devRef .tc r) :=
  (pass1 (U1 V) r ((by decide : ∀ r ∈ argRefs, r ∉ ops1_W) r hr)).trans (argAt1 V r hr)
theorem argAt3 (V : Valuation τ sig (Elt F)) (r : Ref sig .tc) (hr : r ∈ argRefs) : U3 V (Proc.devRef .tc r) = V (Proc.devRef .tc r) :=
  (pass2 (U2 V) r ((by decide : ∀ r ∈ argRefs, r ∉ ops2_W) r hr)).trans (argAt2 V r hr)
theorem argAt4 (V : Valuation τ sig (Elt F)) (r : Ref sig .tc) (hr : r ∈ argRefs) : U4 V (Proc.devRef .tc r) = V (Proc.devRef .tc r) :=
  (pass3 (U3 V) r ((by decide : ∀ r ∈ argRefs, r ∉ ops3_W) r hr)).trans (argAt3 V r hr)
theorem argAt5 (V : Valuation τ sig (Elt F)) (r : Ref sig .tc) (hr : r ∈ argRefs) : U5 V (Proc.devRef .tc r) = V (Proc.devRef .tc r) :=
  (pass4 (U4 V) r ((by decide : ∀ r ∈ argRefs, r ∉ ops4_W) r hr)).trans (argAt4 V r hr)
theorem argAt6 (V : Valuation τ sig (Elt F)) (r : Ref sig .tc) (hr : r ∈ argRefs) : U6 V (Proc.devRef .tc r) = V (Proc.devRef .tc r) :=
  (pass5 (U5 V) r ((by decide : ∀ r ∈ argRefs, r ∉ ops5_W) r hr)).trans (argAt5 V r hr)
theorem argAt7 (V : Valuation τ sig (Elt F)) (r : Ref sig .tc) (hr : r ∈ argRefs) : U7 V (Proc.devRef .tc r) = V (Proc.devRef .tc r) :=
  (pass6 (U6 V) r ((by decide : ∀ r ∈ argRefs, r ∉ ops6_W) r hr)).trans (argAt6 V r hr)
theorem argAt8 (V : Valuation τ sig (Elt F)) (r : Ref sig .tc) (hr : r ∈ argRefs) : U8 V (Proc.devRef .tc r) = V (Proc.devRef .tc r) :=
  (pass7 (U7 V) r ((by decide : ∀ r ∈ argRefs, r ∉ ops7_W) r hr)).trans (argAt7 V r hr)
theorem argAt9 (V : Valuation τ sig (Elt F)) (r : Ref sig .tc) (hr : r ∈ argRefs) : U9 V (Proc.devRef .tc r) = V (Proc.devRef .tc r) :=
  (pass8 (U8 V) r ((by decide : ∀ r ∈ argRefs, r ∉ ops8_W) r hr)).trans (argAt8 V r hr)
theorem argAt10 (V : Valuation τ sig (Elt F)) (r : Ref sig .tc) (hr : r ∈ argRefs) : U10 V (Proc.devRef .tc r) = V (Proc.devRef .tc r) :=
  (pass9 (U9 V) r ((by decide : ∀ r ∈ argRefs, r ∉ ops9_W) r hr)).trans (argAt9 V r hr)
theorem argAt11 (V : Valuation τ sig (Elt F)) (r : Ref sig .tc) (hr : r ∈ argRefs) : U11 V (Proc.devRef .tc r) = V (Proc.devRef .tc r) :=
  (pass10 (U10 V) r ((by decide : ∀ r ∈ argRefs, r ∉ ops10_W) r hr)).trans (argAt10 V r hr)
theorem argAt12 (V : Valuation τ sig (Elt F)) (r : Ref sig .tc) (hr : r ∈ argRefs) : U12 V (Proc.devRef .tc r) = V (Proc.devRef .tc r) :=
  (pass11 (U11 V) r ((by decide : ∀ r ∈ argRefs, r ∉ ops11_W) r hr)).trans (argAt11 V r hr)
theorem argAt13 (V : Valuation τ sig (Elt F)) (r : Ref sig .tc) (hr : r ∈ argRefs) : U13 V (Proc.devRef .tc r) = V (Proc.devRef .tc r) :=
  (pass12 (U12 V) r ((by decide : ∀ r ∈ argRefs, r ∉ ops12_W) r hr)).trans (argAt12 V r hr)
theorem argAt14 (V : Valuation τ sig (Elt F)) (r : Ref sig .tc) (hr : r ∈ argRefs) : U14 V (Proc.devRef .tc r) = V (Proc.devRef .tc r) :=
  (pass13 (U13 V) r ((by decide : ∀ r ∈ argRefs, r ∉ ops13_W) r hr)).trans (argAt13 V r hr)
theorem argAt15 (V : Valuation τ sig (Elt F)) (r : Ref sig .tc) (hr : r ∈ argRefs) : U15 V (Proc.devRef .tc r) = V (Proc.devRef .tc r) :=
  (pass14 (U14 V) r ((by decide : ∀ r ∈ argRefs, r ∉ ops14_W) r hr)).trans (argAt14 V r hr)
theorem argAt16 (V : Valuation τ sig (Elt F)) (r : Ref sig .tc) (hr : r ∈ argRefs) : U16 V (Proc.devRef .tc r) = V (Proc.devRef .tc r) :=
  (pass15 (U15 V) r ((by decide : ∀ r ∈ argRefs, r ∉ ops15_W) r hr)).trans (argAt15 V r hr)
theorem argAt17 (V : Valuation τ sig (Elt F)) (r : Ref sig .tc) (hr : r ∈ argRefs) : U17 V (Proc.devRef .tc r) = V (Proc.devRef .tc r) :=
  (pass16 (U16 V) r ((by decide : ∀ r ∈ argRefs, r ∉ ops16_W) r hr)).trans (argAt16 V r hr)
theorem argAt18 (V : Valuation τ sig (Elt F)) (r : Ref sig .tc) (hr : r ∈ argRefs) : U18 V (Proc.devRef .tc r) = V (Proc.devRef .tc r) :=
  (pass17 (U17 V) r ((by decide : ∀ r ∈ argRefs, r ∉ ops17_W) r hr)).trans (argAt17 V r hr)
theorem argAt19 (V : Valuation τ sig (Elt F)) (r : Ref sig .tc) (hr : r ∈ argRefs) : U19 V (Proc.devRef .tc r) = V (Proc.devRef .tc r) :=
  (pass18 (U18 V) r ((by decide : ∀ r ∈ argRefs, r ∉ ops18_W) r hr)).trans (argAt18 V r hr)
theorem argAt20 (V : Valuation τ sig (Elt F)) (r : Ref sig .tc) (hr : r ∈ argRefs) : U20 V (Proc.devRef .tc r) = V (Proc.devRef .tc r) :=
  (pass19 (U19 V) r ((by decide : ∀ r ∈ argRefs, r ∉ ops19_W) r hr)).trans (argAt19 V r hr)
theorem argAt21 (V : Valuation τ sig (Elt F)) (r : Ref sig .tc) (hr : r ∈ argRefs) : U21 V (Proc.devRef .tc r) = V (Proc.devRef .tc r) :=
  (pass20 (U20 V) r ((by decide : ∀ r ∈ argRefs, r ∉ ops20_W) r hr)).trans (argAt20 V r hr)
theorem argAt22 (V : Valuation τ sig (Elt F)) (r : Ref sig .tc) (hr : r ∈ argRefs) : U22 V (Proc.devRef .tc r) = V (Proc.devRef .tc r) :=
  (pass21 (U21 V) r ((by decide : ∀ r ∈ argRefs, r ∉ ops21_W) r hr)).trans (argAt21 V r hr)
theorem argAt23 (V : Valuation τ sig (Elt F)) (r : Ref sig .tc) (hr : r ∈ argRefs) : U23 V (Proc.devRef .tc r) = V (Proc.devRef .tc r) :=
  (pass22 (U22 V) r ((by decide : ∀ r ∈ argRefs, r ∉ ops22_W) r hr)).trans (argAt22 V r hr)
theorem argAt24 (V : Valuation τ sig (Elt F)) (r : Ref sig .tc) (hr : r ∈ argRefs) : U24 V (Proc.devRef .tc r) = V (Proc.devRef .tc r) :=
  (pass23 (U23 V) r ((by decide : ∀ r ∈ argRefs, r ∉ ops23_W) r hr)).trans (argAt23 V r hr)
theorem argAt25 (V : Valuation τ sig (Elt F)) (r : Ref sig .tc) (hr : r ∈ argRefs) : U25 V (Proc.devRef .tc r) = V (Proc.devRef .tc r) :=
  (pass24 (U24 V) r ((by decide : ∀ r ∈ argRefs, r ∉ ops24_W) r hr)).trans (argAt24 V r hr)
theorem argAt26 (V : Valuation τ sig (Elt F)) (r : Ref sig .tc) (hr : r ∈ argRefs) : U26 V (Proc.devRef .tc r) = V (Proc.devRef .tc r) :=
  (pass25 (U25 V) r ((by decide : ∀ r ∈ argRefs, r ∉ ops25_W) r hr)).trans (argAt25 V r hr)

theorem v1_main_v1 (V : Valuation τ sig (Elt F)) : U1 V (Proc.devRef .tc main_v1) = val_main_v1 (F := F) (A_1 V) :=
  st0_main_v1 (U0 V) (A_1 V) (argAt0 V main_arg1 (by decide))
theorem v2_main_v1 (V : Valuation τ sig (Elt F)) : U2 V (Proc.devRef .tc main_v1) = val_main_v1 (F := F) (A_1 V) :=
  (pass1 (U1 V) main_v1 (by decide)).trans (v1_main_v1 V)
theorem v3_main_v1 (V : Valuation τ sig (Elt F)) : U3 V (Proc.devRef .tc main_v1) = val_main_v1 (F := F) (A_1 V) :=
  (pass2 (U2 V) main_v1 (by decide)).trans (v2_main_v1 V)
theorem v4_main_v1 (V : Valuation τ sig (Elt F)) : U4 V (Proc.devRef .tc main_v1) = val_main_v1 (F := F) (A_1 V) :=
  (pass3 (U3 V) main_v1 (by decide)).trans (v3_main_v1 V)
theorem v5_main_v1 (V : Valuation τ sig (Elt F)) : U5 V (Proc.devRef .tc main_v1) = val_main_v1 (F := F) (A_1 V) :=
  (pass4 (U4 V) main_v1 (by decide)).trans (v4_main_v1 V)
theorem v6_main_v1 (V : Valuation τ sig (Elt F)) : U6 V (Proc.devRef .tc main_v1) = val_main_v1 (F := F) (A_1 V) :=
  (pass5 (U5 V) main_v1 (by decide)).trans (v5_main_v1 V)
theorem v7_main_v1 (V : Valuation τ sig (Elt F)) : U7 V (Proc.devRef .tc main_v1) = val_main_v1 (F := F) (A_1 V) :=
  (pass6 (U6 V) main_v1 (by decide)).trans (v6_main_v1 V)
theorem v8_main_v1 (V : Valuation τ sig (Elt F)) : U8 V (Proc.devRef .tc main_v1) = val_main_v1 (F := F) (A_1 V) :=
  (pass7 (U7 V) main_v1 (by decide)).trans (v7_main_v1 V)
theorem v9_main_v1 (V : Valuation τ sig (Elt F)) : U9 V (Proc.devRef .tc main_v1) = val_main_v1 (F := F) (A_1 V) :=
  (pass8 (U8 V) main_v1 (by decide)).trans (v8_main_v1 V)
theorem v10_main_v1 (V : Valuation τ sig (Elt F)) : U10 V (Proc.devRef .tc main_v1) = val_main_v1 (F := F) (A_1 V) :=
  (pass9 (U9 V) main_v1 (by decide)).trans (v9_main_v1 V)
theorem v11_main_v1 (V : Valuation τ sig (Elt F)) : U11 V (Proc.devRef .tc main_v1) = val_main_v1 (F := F) (A_1 V) :=
  (pass10 (U10 V) main_v1 (by decide)).trans (v10_main_v1 V)
theorem v12_main_v1 (V : Valuation τ sig (Elt F)) : U12 V (Proc.devRef .tc main_v1) = val_main_v1 (F := F) (A_1 V) :=
  (pass11 (U11 V) main_v1 (by decide)).trans (v11_main_v1 V)
theorem v13_main_v1 (V : Valuation τ sig (Elt F)) : U13 V (Proc.devRef .tc main_v1) = val_main_v1 (F := F) (A_1 V) :=
  (pass12 (U12 V) main_v1 (by decide)).trans (v12_main_v1 V)
theorem v14_main_v1 (V : Valuation τ sig (Elt F)) : U14 V (Proc.devRef .tc main_v1) = val_main_v1 (F := F) (A_1 V) :=
  (pass13 (U13 V) main_v1 (by decide)).trans (v13_main_v1 V)
theorem v15_main_v1 (V : Valuation τ sig (Elt F)) : U15 V (Proc.devRef .tc main_v1) = val_main_v1 (F := F) (A_1 V) :=
  (pass14 (U14 V) main_v1 (by decide)).trans (v14_main_v1 V)
theorem v16_main_v1 (V : Valuation τ sig (Elt F)) : U16 V (Proc.devRef .tc main_v1) = val_main_v1 (F := F) (A_1 V) :=
  (pass15 (U15 V) main_v1 (by decide)).trans (v15_main_v1 V)
theorem v17_main_v1 (V : Valuation τ sig (Elt F)) : U17 V (Proc.devRef .tc main_v1) = val_main_v1 (F := F) (A_1 V) :=
  (pass16 (U16 V) main_v1 (by decide)).trans (v16_main_v1 V)
theorem v18_main_v1 (V : Valuation τ sig (Elt F)) : U18 V (Proc.devRef .tc main_v1) = val_main_v1 (F := F) (A_1 V) :=
  (pass17 (U17 V) main_v1 (by decide)).trans (v17_main_v1 V)
theorem v19_main_v1 (V : Valuation τ sig (Elt F)) : U19 V (Proc.devRef .tc main_v1) = val_main_v1 (F := F) (A_1 V) :=
  (pass18 (U18 V) main_v1 (by decide)).trans (v18_main_v1 V)
theorem v2_main_v3 (V : Valuation τ sig (Elt F)) : U2 V (Proc.devRef .tc main_v3) = val_main_v3 (F := F) (A_1 V) :=
  st1_main_v3 (U1 V) (A_1 V) (argAt1 V main_arg1 (by decide))
theorem v3_main_v3 (V : Valuation τ sig (Elt F)) : U3 V (Proc.devRef .tc main_v3) = val_main_v3 (F := F) (A_1 V) :=
  (pass2 (U2 V) main_v3 (by decide)).trans (v2_main_v3 V)
theorem v4_main_v3 (V : Valuation τ sig (Elt F)) : U4 V (Proc.devRef .tc main_v3) = val_main_v3 (F := F) (A_1 V) :=
  (pass3 (U3 V) main_v3 (by decide)).trans (v3_main_v3 V)
theorem v5_main_v3 (V : Valuation τ sig (Elt F)) : U5 V (Proc.devRef .tc main_v3) = val_main_v3 (F := F) (A_1 V) :=
  (pass4 (U4 V) main_v3 (by decide)).trans (v4_main_v3 V)
theorem v6_main_v3 (V : Valuation τ sig (Elt F)) : U6 V (Proc.devRef .tc main_v3) = val_main_v3 (F := F) (A_1 V) :=
  (pass5 (U5 V) main_v3 (by decide)).trans (v5_main_v3 V)
theorem v7_main_v3 (V : Valuation τ sig (Elt F)) : U7 V (Proc.devRef .tc main_v3) = val_main_v3 (F := F) (A_1 V) :=
  (pass6 (U6 V) main_v3 (by decide)).trans (v6_main_v3 V)
theorem v8_main_v3 (V : Valuation τ sig (Elt F)) : U8 V (Proc.devRef .tc main_v3) = val_main_v3 (F := F) (A_1 V) :=
  (pass7 (U7 V) main_v3 (by decide)).trans (v7_main_v3 V)
theorem v9_main_v3 (V : Valuation τ sig (Elt F)) : U9 V (Proc.devRef .tc main_v3) = val_main_v3 (F := F) (A_1 V) :=
  (pass8 (U8 V) main_v3 (by decide)).trans (v8_main_v3 V)
theorem v10_main_v3 (V : Valuation τ sig (Elt F)) : U10 V (Proc.devRef .tc main_v3) = val_main_v3 (F := F) (A_1 V) :=
  (pass9 (U9 V) main_v3 (by decide)).trans (v9_main_v3 V)
theorem v11_main_v3 (V : Valuation τ sig (Elt F)) : U11 V (Proc.devRef .tc main_v3) = val_main_v3 (F := F) (A_1 V) :=
  (pass10 (U10 V) main_v3 (by decide)).trans (v10_main_v3 V)
theorem v12_main_v3 (V : Valuation τ sig (Elt F)) : U12 V (Proc.devRef .tc main_v3) = val_main_v3 (F := F) (A_1 V) :=
  (pass11 (U11 V) main_v3 (by decide)).trans (v11_main_v3 V)
theorem v13_main_v3 (V : Valuation τ sig (Elt F)) : U13 V (Proc.devRef .tc main_v3) = val_main_v3 (F := F) (A_1 V) :=
  (pass12 (U12 V) main_v3 (by decide)).trans (v12_main_v3 V)
theorem v14_main_v3 (V : Valuation τ sig (Elt F)) : U14 V (Proc.devRef .tc main_v3) = val_main_v3 (F := F) (A_1 V) :=
  (pass13 (U13 V) main_v3 (by decide)).trans (v13_main_v3 V)
theorem v15_main_v3 (V : Valuation τ sig (Elt F)) : U15 V (Proc.devRef .tc main_v3) = val_main_v3 (F := F) (A_1 V) :=
  (pass14 (U14 V) main_v3 (by decide)).trans (v14_main_v3 V)
theorem v16_main_v3 (V : Valuation τ sig (Elt F)) : U16 V (Proc.devRef .tc main_v3) = val_main_v3 (F := F) (A_1 V) :=
  (pass15 (U15 V) main_v3 (by decide)).trans (v15_main_v3 V)
theorem v17_main_v3 (V : Valuation τ sig (Elt F)) : U17 V (Proc.devRef .tc main_v3) = val_main_v3 (F := F) (A_1 V) :=
  (pass16 (U16 V) main_v3 (by decide)).trans (v16_main_v3 V)
theorem v18_main_v3 (V : Valuation τ sig (Elt F)) : U18 V (Proc.devRef .tc main_v3) = val_main_v3 (F := F) (A_1 V) :=
  (pass17 (U17 V) main_v3 (by decide)).trans (v17_main_v3 V)
theorem v19_main_v3 (V : Valuation τ sig (Elt F)) : U19 V (Proc.devRef .tc main_v3) = val_main_v3 (F := F) (A_1 V) :=
  (pass18 (U18 V) main_v3 (by decide)).trans (v18_main_v3 V)
theorem v20_main_v3 (V : Valuation τ sig (Elt F)) : U20 V (Proc.devRef .tc main_v3) = val_main_v3 (F := F) (A_1 V) :=
  (pass19 (U19 V) main_v3 (by decide)).trans (v19_main_v3 V)
theorem v3_main_v10 (V : Valuation τ sig (Elt F)) : U3 V (Proc.devRef .tc main_v10) = val_main_v10 (F := F) (A_1 V) :=
  st2_main_v10 (U2 V) (A_1 V) (v2_main_v3 V)
theorem v4_main_v10 (V : Valuation τ sig (Elt F)) : U4 V (Proc.devRef .tc main_v10) = val_main_v10 (F := F) (A_1 V) :=
  (pass3 (U3 V) main_v10 (by decide)).trans (v3_main_v10 V)
theorem v5_main_v10 (V : Valuation τ sig (Elt F)) : U5 V (Proc.devRef .tc main_v10) = val_main_v10 (F := F) (A_1 V) :=
  (pass4 (U4 V) main_v10 (by decide)).trans (v4_main_v10 V)
theorem v4_main_c_3 (V : Valuation τ sig (Elt F)) : U4 V (Proc.devRef .tc main_c_3) = val_main_c_3 (F := F) :=
  st3_main_c_3 (U3 V)
theorem v4_main_v17 (V : Valuation τ sig (Elt F)) : U4 V (Proc.devRef .tc main_v17) = val_main_v17 (F := F) (A_1 V) :=
  st3_main_v17 (U3 V) (A_1 V) (v3_main_v10 V) (v3_main_v1 V)
theorem v5_main_v25 (V : Valuation τ sig (Elt F)) : U5 V (Proc.devRef .tc main_v25) = val_main_v25 (F := F) (A_1 V) :=
  st4_main_v25 (U4 V) (A_1 V) (v4_main_v17 V) (v4_main_v10 V) (v4_main_v3 V) (v4_main_c_3 V)
theorem v6_main_v25 (V : Valuation τ sig (Elt F)) : U6 V (Proc.devRef .tc main_v25) = val_main_v25 (F := F) (A_1 V) :=
  (pass5 (U5 V) main_v25 (by decide)).trans (v5_main_v25 V)
theorem v7_main_v25 (V : Valuation τ sig (Elt F)) : U7 V (Proc.devRef .tc main_v25) = val_main_v25 (F := F) (A_1 V) :=
  (pass6 (U6 V) main_v25 (by decide)).trans (v6_main_v25 V)
theorem v8_main_v25 (V : Valuation τ sig (Elt F)) : U8 V (Proc.devRef .tc main_v25) = val_main_v25 (F := F) (A_1 V) :=
  (pass7 (U7 V) main_v25 (by decide)).trans (v7_main_v25 V)
theorem v9_main_v25 (V : Valuation τ sig (Elt F)) : U9 V (Proc.devRef .tc main_v25) = val_main_v25 (F := F) (A_1 V) :=
  (pass8 (U8 V) main_v25 (by decide)).trans (v8_main_v25 V)
theorem v10_main_v25 (V : Valuation τ sig (Elt F)) : U10 V (Proc.devRef .tc main_v25) = val_main_v25 (F := F) (A_1 V) :=
  (pass9 (U9 V) main_v25 (by decide)).trans (v9_main_v25 V)
theorem v11_main_v25 (V : Valuation τ sig (Elt F)) : U11 V (Proc.devRef .tc main_v25) = val_main_v25 (F := F) (A_1 V) :=
  (pass10 (U10 V) main_v25 (by decide)).trans (v10_main_v25 V)
theorem v12_main_v25 (V : Valuation τ sig (Elt F)) : U12 V (Proc.devRef .tc main_v25) = val_main_v25 (F := F) (A_1 V) :=
  (pass11 (U11 V) main_v25 (by decide)).trans (v11_main_v25 V)
theorem v13_main_v25 (V : Valuation τ sig (Elt F)) : U13 V (Proc.devRef .tc main_v25) = val_main_v25 (F := F) (A_1 V) :=
  (pass12 (U12 V) main_v25 (by decide)).trans (v12_main_v25 V)
theorem v14_main_v25 (V : Valuation τ sig (Elt F)) : U14 V (Proc.devRef .tc main_v25) = val_main_v25 (F := F) (A_1 V) :=
  (pass13 (U13 V) main_v25 (by decide)).trans (v13_main_v25 V)
theorem v15_main_v25 (V : Valuation τ sig (Elt F)) : U15 V (Proc.devRef .tc main_v25) = val_main_v25 (F := F) (A_1 V) :=
  (pass14 (U14 V) main_v25 (by decide)).trans (v14_main_v25 V)
theorem v16_main_v25 (V : Valuation τ sig (Elt F)) : U16 V (Proc.devRef .tc main_v25) = val_main_v25 (F := F) (A_1 V) :=
  (pass15 (U15 V) main_v25 (by decide)).trans (v15_main_v25 V)
theorem v17_main_v25 (V : Valuation τ sig (Elt F)) : U17 V (Proc.devRef .tc main_v25) = val_main_v25 (F := F) (A_1 V) :=
  (pass16 (U16 V) main_v25 (by decide)).trans (v16_main_v25 V)
theorem v18_main_v25 (V : Valuation τ sig (Elt F)) : U18 V (Proc.devRef .tc main_v25) = val_main_v25 (F := F) (A_1 V) :=
  (pass17 (U17 V) main_v25 (by decide)).trans (v17_main_v25 V)
theorem v19_main_v25 (V : Valuation τ sig (Elt F)) : U19 V (Proc.devRef .tc main_v25) = val_main_v25 (F := F) (A_1 V) :=
  (pass18 (U18 V) main_v25 (by decide)).trans (v18_main_v25 V)
theorem v6_main_v26 (V : Valuation τ sig (Elt F)) : U6 V (Proc.devRef .tc main_v26) = val_main_v26 (F := F) (A_1 V) :=
  st5_main_v26 (U5 V) (A_1 V) (v5_main_v10 V)
theorem v7_main_v26 (V : Valuation τ sig (Elt F)) : U7 V (Proc.devRef .tc main_v26) = val_main_v26 (F := F) (A_1 V) :=
  (pass6 (U6 V) main_v26 (by decide)).trans (v6_main_v26 V)
theorem v8_main_v26 (V : Valuation τ sig (Elt F)) : U8 V (Proc.devRef .tc main_v26) = val_main_v26 (F := F) (A_1 V) :=
  (pass7 (U7 V) main_v26 (by decide)).trans (v7_main_v26 V)
theorem v9_main_v26 (V : Valuation τ sig (Elt F)) : U9 V (Proc.devRef .tc main_v26) = val_main_v26 (F := F) (A_1 V) :=
  (pass8 (U8 V) main_v26 (by decide)).trans (v8_main_v26 V)
theorem v10_main_v26 (V : Valuation τ sig (Elt F)) : U10 V (Proc.devRef .tc main_v26) = val_main_v26 (F := F) (A_1 V) :=
  (pass9 (U9 V) main_v26 (by decide)).trans (v9_main_v26 V)
theorem v11_main_v26 (V : Valuation τ sig (Elt F)) : U11 V (Proc.devRef .tc main_v26) = val_main_v26 (F := F) (A_1 V) :=
  (pass10 (U10 V) main_v26 (by decide)).trans (v10_main_v26 V)
theorem v12_main_v26 (V : Valuation τ sig (Elt F)) : U12 V (Proc.devRef .tc main_v26) = val_main_v26 (F := F) (A_1 V) :=
  (pass11 (U11 V) main_v26 (by decide)).trans (v11_main_v26 V)
theorem v13_main_v26 (V : Valuation τ sig (Elt F)) : U13 V (Proc.devRef .tc main_v26) = val_main_v26 (F := F) (A_1 V) :=
  (pass12 (U12 V) main_v26 (by decide)).trans (v12_main_v26 V)
theorem v14_main_v26 (V : Valuation τ sig (Elt F)) : U14 V (Proc.devRef .tc main_v26) = val_main_v26 (F := F) (A_1 V) :=
  (pass13 (U13 V) main_v26 (by decide)).trans (v13_main_v26 V)
theorem v15_main_v26 (V : Valuation τ sig (Elt F)) : U15 V (Proc.devRef .tc main_v26) = val_main_v26 (F := F) (A_1 V) :=
  (pass14 (U14 V) main_v26 (by decide)).trans (v14_main_v26 V)
theorem v16_main_v26 (V : Valuation τ sig (Elt F)) : U16 V (Proc.devRef .tc main_v26) = val_main_v26 (F := F) (A_1 V) :=
  (pass15 (U15 V) main_v26 (by decide)).trans (v15_main_v26 V)
theorem v17_main_v26 (V : Valuation τ sig (Elt F)) : U17 V (Proc.devRef .tc main_v26) = val_main_v26 (F := F) (A_1 V) :=
  (pass16 (U16 V) main_v26 (by decide)).trans (v16_main_v26 V)
theorem v18_main_v26 (V : Valuation τ sig (Elt F)) : U18 V (Proc.devRef .tc main_v26) = val_main_v26 (F := F) (A_1 V) :=
  (pass17 (U17 V) main_v26 (by decide)).trans (v17_main_v26 V)
theorem v19_main_v26 (V : Valuation τ sig (Elt F)) : U19 V (Proc.devRef .tc main_v26) = val_main_v26 (F := F) (A_1 V) :=
  (pass18 (U18 V) main_v26 (by decide)).trans (v18_main_v26 V)
theorem v20_main_v26 (V : Valuation τ sig (Elt F)) : U20 V (Proc.devRef .tc main_v26) = val_main_v26 (F := F) (A_1 V) :=
  (pass19 (U19 V) main_v26 (by decide)).trans (v19_main_v26 V)
theorem v7_main_v27 (V : Valuation τ sig (Elt F)) : U7 V (Proc.devRef .tc main_v27) = val_main_v27 (F := F) (A_0 V) (A_4 V) :=
  st6_main_v27 (U6 V) (A_0 V) (A_4 V) (argAt6 V main_arg0 (by decide)) (argAt6 V main_arg4 (by decide))
theorem v8_main_v27 (V : Valuation τ sig (Elt F)) : U8 V (Proc.devRef .tc main_v27) = val_main_v27 (F := F) (A_0 V) (A_4 V) :=
  (pass7 (U7 V) main_v27 (by decide)).trans (v7_main_v27 V)
theorem v8_main_cst_7 (V : Valuation τ sig (Elt F)) : U8 V (Proc.devRef .tc main_cst_7) = val_main_cst_7 (F := F) :=
  st7_main_cst_7 (U7 V)
theorem v8_main_v37 (V : Valuation τ sig (Elt F)) : U8 V (Proc.devRef .tc main_v37) = val_main_v37 (F := F) (A_0 V) (A_1 V) (A_4 V) :=
  st7_main_v37 (U7 V) (A_0 V) (A_1 V) (A_4 V) (v7_main_v25 V) (v7_main_v27 V) (v7_main_v1 V)
theorem v9_main_v48 (V : Valuation τ sig (Elt F)) : U9 V (Proc.devRef .tc main_v48) = val_main_v48 (F := F) (A_0 V) (A_1 V) (A_4 V) (A_5 V) :=
  st8_main_v48 (U8 V) (A_0 V) (A_1 V) (A_4 V) (A_5 V) (v8_main_cst_7 V) (v8_main_v3 V) (v8_main_v37 V) (v8_main_v26 V) (v8_main_v27 V) (argAt8 V main_arg5 (by decide))
theorem v10_main_v48 (V : Valuation τ sig (Elt F)) : U10 V (Proc.devRef .tc main_v48) = val_main_v48 (F := F) (A_0 V) (A_1 V) (A_4 V) (A_5 V) :=
  (pass9 (U9 V) main_v48 (by decide)).trans (v9_main_v48 V)
theorem v11_main_v48 (V : Valuation τ sig (Elt F)) : U11 V (Proc.devRef .tc main_v48) = val_main_v48 (F := F) (A_0 V) (A_1 V) (A_4 V) (A_5 V) :=
  (pass10 (U10 V) main_v48 (by decide)).trans (v10_main_v48 V)
theorem v10_main_v51 (V : Valuation τ sig (Elt F)) : U10 V (Proc.devRef .tc main_v51) = val_main_v51 (F := F) (A_0 V) (A_1 V) (A_4 V) (A_5 V) :=
  st9_main_v51 (U9 V) (A_0 V) (A_1 V) (A_4 V) (A_5 V) (v9_main_v48 V)
theorem v11_main_v51 (V : Valuation τ sig (Elt F)) : U11 V (Proc.devRef .tc main_v51) = val_main_v51 (F := F) (A_0 V) (A_1 V) (A_4 V) (A_5 V) :=
  (pass10 (U10 V) main_v51 (by decide)).trans (v10_main_v51 V)
theorem v11_main_v54 (V : Valuation τ sig (Elt F)) : U11 V (Proc.devRef .tc main_v54) = val_main_v54 (F := F) (A_0 V) (A_1 V) (A_4 V) (A_5 V) :=
  st10_main_v54 (U10 V) (A_0 V) (A_1 V) (A_4 V) (A_5 V) (v10_main_v48 V) (v10_main_v51 V)
theorem v12_main_v63 (V : Valuation τ sig (Elt F)) : U12 V (Proc.devRef .tc main_v63) = val_main_v63 (F := F) (A_0 V) (A_1 V) (A_4 V) (A_5 V) :=
  st11_main_v63 (U11 V) (A_0 V) (A_1 V) (A_4 V) (A_5 V) (v11_main_v54 V)
theorem v12_main_v61 (V : Valuation τ sig (Elt F)) : U12 V (Proc.devRef .tc main_v61) = val_main_v61 (F := F) (A_0 V) (A_1 V) (A_4 V) (A_5 V) :=
  st11_main_v61 (U11 V) (A_0 V) (A_1 V) (A_4 V) (A_5 V) (v11_main_v48 V) (v11_main_v51 V)
theorem v13_main_v74 (V : Valuation τ sig (Elt F)) : U13 V (Proc.devRef .tc main_v74) = val_main_v74 (F := F) (A_0 V) (A_1 V) (A_4 V) (A_5 V) (A_6 V) (A_10 V) (A_11 V) :=
  st12_main_v74 (U12 V) (A_0 V) (A_1 V) (A_4 V) (A_5 V) (A_6 V) (A_10 V) (A_11 V) (v12_main_v61 V) (v12_main_v63 V) (argAt12 V main_arg10 (by decide)) (argAt12 V main_arg11 (by decide)) (argAt12 V main_arg6 (by decide))
theorem v14_main_v74 (V : Valuation τ sig (Elt F)) : U14 V (Proc.devRef .tc main_v74) = val_main_v74 (F := F) (A_0 V) (A_1 V) (A_4 V) (A_5 V) (A_6 V) (A_10 V) (A_11 V) :=
  (pass13 (U13 V) main_v74 (by decide)).trans (v13_main_v74 V)
theorem v14_main_cst_15 (V : Valuation τ sig (Elt F)) : U14 V (Proc.devRef .tc main_cst_15) = val_main_cst_15 (F := F) :=
  st13_main_cst_15 (U13 V)
theorem v14_main_v84 (V : Valuation τ sig (Elt F)) : U14 V (Proc.devRef .tc main_v84) = val_main_v84 (F := F) (A_0 V) (A_1 V) (A_4 V) (A_5 V) (A_6 V) (A_10 V) (A_11 V) :=
  st13_main_v84 (U13 V) (A_0 V) (A_1 V) (A_4 V) (A_5 V) (A_6 V) (A_10 V) (A_11 V) (v13_main_v25 V) (v13_main_v74 V) (v13_main_v1 V)
theorem v15_main_v95 (V : Valuation τ sig (Elt F)) : U15 V (Proc.devRef .tc main_v95) = val_main_v95 (F := F) (A_0 V) (A_1 V) (A_4 V) (A_5 V) (A_6 V) (A_7 V) (A_10 V) (A_11 V) :=
  st14_main_v95 (U14 V) (A_0 V) (A_1 V) (A_4 V) (A_5 V) (A_6 V) (A_7 V) (A_10 V) (A_11 V) (v14_main_cst_15 V) (v14_main_v3 V) (v14_main_v84 V) (v14_main_v26 V) (v14_main_v74 V) (argAt14 V main_arg7 (by decide))
theorem v16_main_v95 (V : Valuation τ sig (Elt F)) : U16 V (Proc.devRef .tc main_v95) = val_main_v95 (F := F) (A_0 V) (A_1 V) (A_4 V) (A_5 V) (A_6 V) (A_7 V) (A_10 V) (A_11 V) :=
  (pass15 (U15 V) main_v95 (by decide)).trans (v15_main_v95 V)
theorem v17_main_v95 (V : Valuation τ sig (Elt F)) : U17 V (Proc.devRef .tc main_v95) = val_main_v95 (F := F) (A_0 V) (A_1 V) (A_4 V) (A_5 V) (A_6 V) (A_7 V) (A_10 V) (A_11 V) :=
  (pass16 (U16 V) main_v95 (by decide)).trans (v16_main_v95 V)
theorem v16_main_v98 (V : Valuation τ sig (Elt F)) : U16 V (Proc.devRef .tc main_v98) = val_main_v98 (F := F) (A_0 V) (A_1 V) (A_4 V) (A_5 V) (A_6 V) (A_7 V) (A_10 V) (A_11 V) :=
  st15_main_v98 (U15 V) (A_0 V) (A_1 V) (A_4 V) (A_5 V) (A_6 V) (A_7 V) (A_10 V) (A_11 V) (v15_main_v95 V)
theorem v17_main_v98 (V : Valuation τ sig (Elt F)) : U17 V (Proc.devRef .tc main_v98) = val_main_v98 (F := F) (A_0 V) (A_1 V) (A_4 V) (A_5 V) (A_6 V) (A_7 V) (A_10 V) (A_11 V) :=
  (pass16 (U16 V) main_v98 (by decide)).trans (v16_main_v98 V)
theorem v17_main_v101 (V : Valuation τ sig (Elt F)) : U17 V (Proc.devRef .tc main_v101) = val_main_v101 (F := F) (A_0 V) (A_1 V) (A_4 V) (A_5 V) (A_6 V) (A_7 V) (A_10 V) (A_11 V) :=
  st16_main_v101 (U16 V) (A_0 V) (A_1 V) (A_4 V) (A_5 V) (A_6 V) (A_7 V) (A_10 V) (A_11 V) (v16_main_v95 V) (v16_main_v98 V)
theorem v18_main_v110 (V : Valuation τ sig (Elt F)) : U18 V (Proc.devRef .tc main_v110) = val_main_v110 (F := F) (A_0 V) (A_1 V) (A_4 V) (A_5 V) (A_6 V) (A_7 V) (A_10 V) (A_11 V) :=
  st17_main_v110 (U17 V) (A_0 V) (A_1 V) (A_4 V) (A_5 V) (A_6 V) (A_7 V) (A_10 V) (A_11 V) (v17_main_v101 V)
theorem v18_main_v108 (V : Valuation τ sig (Elt F)) : U18 V (Proc.devRef .tc main_v108) = val_main_v108 (F := F) (A_0 V) (A_1 V) (A_4 V) (A_5 V) (A_6 V) (A_7 V) (A_10 V) (A_11 V) :=
  st17_main_v108 (U17 V) (A_0 V) (A_1 V) (A_4 V) (A_5 V) (A_6 V) (A_7 V) (A_10 V) (A_11 V) (v17_main_v95 V) (v17_main_v98 V)
theorem v19_main_v121 (V : Valuation τ sig (Elt F)) : U19 V (Proc.devRef .tc main_v121) = val_main_v121 (F := F) (A_0 V) (A_1 V) (A_4 V) (A_5 V) (A_6 V) (A_7 V) (A_8 V) (A_10 V) (A_11 V) (A_12 V) (A_13 V) :=
  st18_main_v121 (U18 V) (A_0 V) (A_1 V) (A_4 V) (A_5 V) (A_6 V) (A_7 V) (A_8 V) (A_10 V) (A_11 V) (A_12 V) (A_13 V) (v18_main_v108 V) (v18_main_v110 V) (argAt18 V main_arg12 (by decide)) (argAt18 V main_arg13 (by decide)) (argAt18 V main_arg8 (by decide))
theorem v20_main_v121 (V : Valuation τ sig (Elt F)) : U20 V (Proc.devRef .tc main_v121) = val_main_v121 (F := F) (A_0 V) (A_1 V) (A_4 V) (A_5 V) (A_6 V) (A_7 V) (A_8 V) (A_10 V) (A_11 V) (A_12 V) (A_13 V) :=
  (pass19 (U19 V) main_v121 (by decide)).trans (v19_main_v121 V)
theorem v20_main_cst_23 (V : Valuation τ sig (Elt F)) : U20 V (Proc.devRef .tc main_cst_23) = val_main_cst_23 (F := F) :=
  st19_main_cst_23 (U19 V)
theorem v20_main_v131 (V : Valuation τ sig (Elt F)) : U20 V (Proc.devRef .tc main_v131) = val_main_v131 (F := F) (A_0 V) (A_1 V) (A_4 V) (A_5 V) (A_6 V) (A_7 V) (A_8 V) (A_10 V) (A_11 V) (A_12 V) (A_13 V) :=
  st19_main_v131 (U19 V) (A_0 V) (A_1 V) (A_4 V) (A_5 V) (A_6 V) (A_7 V) (A_8 V) (A_10 V) (A_11 V) (A_12 V) (A_13 V) (v19_main_v25 V) (v19_main_v121 V) (v19_main_v1 V)
theorem v21_main_v142 (V : Valuation τ sig (Elt F)) : U21 V (Proc.devRef .tc main_v142) = val_main_v142 (F := F) (A_0 V) (A_1 V) (A_4 V) (A_5 V) (A_6 V) (A_7 V) (A_8 V) (A_9 V) (A_10 V) (A_11 V) (A_12 V) (A_13 V) :=
  st20_main_v142 (U20 V) (A_0 V) (A_1 V) (A_4 V) (A_5 V) (A_6 V) (A_7 V) (A_8 V) (A_9 V) (A_10 V) (A_11 V) (A_12 V) (A_13 V) (v20_main_cst_23 V) (v20_main_v3 V) (v20_main_v131 V) (v20_main_v26 V) (v20_main_v121 V) (argAt20 V main_arg9 (by decide))
theorem v22_main_v142 (V : Valuation τ sig (Elt F)) : U22 V (Proc.devRef .tc main_v142) = val_main_v142 (F := F) (A_0 V) (A_1 V) (A_4 V) (A_5 V) (A_6 V) (A_7 V) (A_8 V) (A_9 V) (A_10 V) (A_11 V) (A_12 V) (A_13 V) :=
  (pass21 (U21 V) main_v142 (by decide)).trans (v21_main_v142 V)
theorem v23_main_v142 (V : Valuation τ sig (Elt F)) : U23 V (Proc.devRef .tc main_v142) = val_main_v142 (F := F) (A_0 V) (A_1 V) (A_4 V) (A_5 V) (A_6 V) (A_7 V) (A_8 V) (A_9 V) (A_10 V) (A_11 V) (A_12 V) (A_13 V) :=
  (pass22 (U22 V) main_v142 (by decide)).trans (v22_main_v142 V)
theorem v22_main_v145 (V : Valuation τ sig (Elt F)) : U22 V (Proc.devRef .tc main_v145) = val_main_v145 (F := F) (A_0 V) (A_1 V) (A_4 V) (A_5 V) (A_6 V) (A_7 V) (A_8 V) (A_9 V) (A_10 V) (A_11 V) (A_12 V) (A_13 V) :=
  st21_main_v145 (U21 V) (A_0 V) (A_1 V) (A_4 V) (A_5 V) (A_6 V) (A_7 V) (A_8 V) (A_9 V) (A_10 V) (A_11 V) (A_12 V) (A_13 V) (v21_main_v142 V)
theorem v23_main_v145 (V : Valuation τ sig (Elt F)) : U23 V (Proc.devRef .tc main_v145) = val_main_v145 (F := F) (A_0 V) (A_1 V) (A_4 V) (A_5 V) (A_6 V) (A_7 V) (A_8 V) (A_9 V) (A_10 V) (A_11 V) (A_12 V) (A_13 V) :=
  (pass22 (U22 V) main_v145 (by decide)).trans (v22_main_v145 V)
theorem v23_main_v148 (V : Valuation τ sig (Elt F)) : U23 V (Proc.devRef .tc main_v148) = val_main_v148 (F := F) (A_0 V) (A_1 V) (A_4 V) (A_5 V) (A_6 V) (A_7 V) (A_8 V) (A_9 V) (A_10 V) (A_11 V) (A_12 V) (A_13 V) :=
  st22_main_v148 (U22 V) (A_0 V) (A_1 V) (A_4 V) (A_5 V) (A_6 V) (A_7 V) (A_8 V) (A_9 V) (A_10 V) (A_11 V) (A_12 V) (A_13 V) (v22_main_v142 V) (v22_main_v145 V)
theorem v24_main_v155 (V : Valuation τ sig (Elt F)) : U24 V (Proc.devRef .tc main_v155) = val_main_v155 (F := F) (A_0 V) (A_1 V) (A_4 V) (A_5 V) (A_6 V) (A_7 V) (A_8 V) (A_9 V) (A_10 V) (A_11 V) (A_12 V) (A_13 V) :=
  st23_main_v155 (U23 V) (A_0 V) (A_1 V) (A_4 V) (A_5 V) (A_6 V) (A_7 V) (A_8 V) (A_9 V) (A_10 V) (A_11 V) (A_12 V) (A_13 V) (v23_main_v142 V) (v23_main_v145 V)
theorem v24_main_v160 (V : Valuation τ sig (Elt F)) : U24 V (Proc.devRef .tc main_v160) = val_main_v160 (F := F) (A_0 V) (A_1 V) (A_4 V) (A_5 V) (A_6 V) (A_7 V) (A_8 V) (A_9 V) (A_10 V) (A_11 V) (A_12 V) (A_13 V) :=
  st23_main_v160 (U23 V) (A_0 V) (A_1 V) (A_4 V) (A_5 V) (A_6 V) (A_7 V) (A_8 V) (A_9 V) (A_10 V) (A_11 V) (A_12 V) (A_13 V) (v23_main_v148 V)
theorem v25_main_v172 (V : Valuation τ sig (Elt F)) : U25 V (Proc.devRef .tc main_v172) = val_main_v172 (F := F) :=
  st24_main_v172 (U24 V)
theorem v25_main_v171 (V : Valuation τ sig (Elt F)) : U25 V (Proc.devRef .tc main_v171) = val_main_v171 (F := F) :=
  st24_main_v171 (U24 V)
theorem v25_main_v170 (V : Valuation τ sig (Elt F)) : U25 V (Proc.devRef .tc main_v170) = val_main_v170 (F := F) (A_0 V) (A_1 V) (A_2 V) (A_4 V) (A_5 V) (A_6 V) (A_7 V) (A_8 V) (A_9 V) (A_10 V) (A_11 V) (A_12 V) (A_13 V) (A_14 V) (A_15 V) :=
  st24_main_v170 (U24 V) (A_0 V) (A_1 V) (A_2 V) (A_4 V) (A_5 V) (A_6 V) (A_7 V) (A_8 V) (A_9 V) (A_10 V) (A_11 V) (A_12 V) (A_13 V) (A_14 V) (A_15 V) (v24_main_v155 V) (v24_main_v160 V) (argAt24 V main_arg2 (by decide)) (argAt24 V main_arg14 (by decide)) (argAt24 V main_arg15 (by decide))
theorem v26_main_v184 (V : Valuation τ sig (Elt F)) : U26 V (Proc.devRef .tc main_v184) = val_main_v184 (F := F) (A_0 V) (A_1 V) (A_2 V) (A_3 V) (A_4 V) (A_5 V) (A_6 V) (A_7 V) (A_8 V) (A_9 V) (A_10 V) (A_11 V) (A_12 V) (A_13 V) (A_14 V) (A_15 V) (A_16 V) (A_17 V) :=
  st25_main_v184 (U25 V) (A_0 V) (A_1 V) (A_2 V) (A_3 V) (A_4 V) (A_5 V) (A_6 V) (A_7 V) (A_8 V) (A_9 V) (A_10 V) (A_11 V) (A_12 V) (A_13 V) (A_14 V) (A_15 V) (A_16 V) (A_17 V) (v25_main_v170 V) (v25_main_v172 V) (v25_main_v171 V) (argAt25 V main_arg2 (by decide)) (argAt25 V main_arg3 (by decide)) (argAt25 V main_arg16 (by decide)) (argAt25 V main_arg17 (by decide))

theorem after_all_eq (V : Valuation τ sig (Elt F)) : after (opsAll : List (HloOp τ sig (Elt F))) V = U26 V := by
  simp only [opsAll, after_append]

theorem after_all (V : Valuation τ sig (Elt F)) :
    after (opsAll : List (HloOp τ sig (Elt F))) V (Proc.devRef .tc main_v184) = val_main_v184 (F := F) (A_0 V) (A_1 V) (A_2 V) (A_3 V) (A_4 V) (A_5 V) (A_6 V) (A_7 V) (A_8 V) (A_9 V) (A_10 V) (A_11 V) (A_12 V) (A_13 V) (A_14 V) (A_15 V) (A_16 V) (A_17 V) := by
  rw [after_all_eq]; exact v26_main_v184 V

theorem after_all_arg0 (V : Valuation τ sig (Elt F)) : after (opsAll : List (HloOp τ sig (Elt F))) V (Proc.devRef .tc main_arg0) = V (Proc.devRef .tc main_arg0) := by
  rw [after_all_eq]; exact argAt26 V main_arg0 (by decide)
theorem after_all_arg1 (V : Valuation τ sig (Elt F)) : after (opsAll : List (HloOp τ sig (Elt F))) V (Proc.devRef .tc main_arg1) = V (Proc.devRef .tc main_arg1) := by
  rw [after_all_eq]; exact argAt26 V main_arg1 (by decide)
theorem after_all_arg2 (V : Valuation τ sig (Elt F)) : after (opsAll : List (HloOp τ sig (Elt F))) V (Proc.devRef .tc main_arg2) = V (Proc.devRef .tc main_arg2) := by
  rw [after_all_eq]; exact argAt26 V main_arg2 (by decide)
theorem after_all_arg3 (V : Valuation τ sig (Elt F)) : after (opsAll : List (HloOp τ sig (Elt F))) V (Proc.devRef .tc main_arg3) = V (Proc.devRef .tc main_arg3) := by
  rw [after_all_eq]; exact argAt26 V main_arg3 (by decide)
theorem after_all_arg4 (V : Valuation τ sig (Elt F)) : after (opsAll : List (HloOp τ sig (Elt F))) V (Proc.devRef .tc main_arg4) = V (Proc.devRef .tc main_arg4) := by
  rw [after_all_eq]; exact argAt26 V main_arg4 (by decide)
theorem after_all_arg5 (V : Valuation τ sig (Elt F)) : after (opsAll : List (HloOp τ sig (Elt F))) V (Proc.devRef .tc main_arg5) = V (Proc.devRef .tc main_arg5) := by
  rw [after_all_eq]; exact argAt26 V main_arg5 (by decide)
theorem after_all_arg6 (V : Valuation τ sig (Elt F)) : after (opsAll : List (HloOp τ sig (Elt F))) V (Proc.devRef .tc main_arg6) = V (Proc.devRef .tc main_arg6) := by
  rw [after_all_eq]; exact argAt26 V main_arg6 (by decide)
theorem after_all_arg7 (V : Valuation τ sig (Elt F)) : after (opsAll : List (HloOp τ sig (Elt F))) V (Proc.devRef .tc main_arg7) = V (Proc.devRef .tc main_arg7) := by
  rw [after_all_eq]; exact argAt26 V main_arg7 (by decide)
theorem after_all_arg8 (V : Valuation τ sig (Elt F)) : after (opsAll : List (HloOp τ sig (Elt F))) V (Proc.devRef .tc main_arg8) = V (Proc.devRef .tc main_arg8) := by
  rw [after_all_eq]; exact argAt26 V main_arg8 (by decide)
theorem after_all_arg9 (V : Valuation τ sig (Elt F)) : after (opsAll : List (HloOp τ sig (Elt F))) V (Proc.devRef .tc main_arg9) = V (Proc.devRef .tc main_arg9) := by
  rw [after_all_eq]; exact argAt26 V main_arg9 (by decide)
theorem after_all_arg10 (V : Valuation τ sig (Elt F)) : after (opsAll : List (HloOp τ sig (Elt F))) V (Proc.devRef .tc main_arg10) = V (Proc.devRef .tc main_arg10) := by
  rw [after_all_eq]; exact argAt26 V main_arg10 (by decide)
theorem after_all_arg11 (V : Valuation τ sig (Elt F)) : after (opsAll : List (HloOp τ sig (Elt F))) V (Proc.devRef .tc main_arg11) = V (Proc.devRef .tc main_arg11) := by
  rw [after_all_eq]; exact argAt26 V main_arg11 (by decide)
theorem after_all_arg12 (V : Valuation τ sig (Elt F)) : after (opsAll : List (HloOp τ sig (Elt F))) V (Proc.devRef .tc main_arg12) = V (Proc.devRef .tc main_arg12) := by
  rw [after_all_eq]; exact argAt26 V main_arg12 (by decide)
theorem after_all_arg13 (V : Valuation τ sig (Elt F)) : after (opsAll : List (HloOp τ sig (Elt F))) V (Proc.devRef .tc main_arg13) = V (Proc.devRef .tc main_arg13) := by
  rw [after_all_eq]; exact argAt26 V main_arg13 (by decide)
theorem after_all_arg14 (V : Valuation τ sig (Elt F)) : after (opsAll : List (HloOp τ sig (Elt F))) V (Proc.devRef .tc main_arg14) = V (Proc.devRef .tc main_arg14) := by
  rw [after_all_eq]; exact argAt26 V main_arg14 (by decide)
theorem after_all_arg15 (V : Valuation τ sig (Elt F)) : after (opsAll : List (HloOp τ sig (Elt F))) V (Proc.devRef .tc main_arg15) = V (Proc.devRef .tc main_arg15) := by
  rw [after_all_eq]; exact argAt26 V main_arg15 (by decide)
theorem after_all_arg16 (V : Valuation τ sig (Elt F)) : after (opsAll : List (HloOp τ sig (Elt F))) V (Proc.devRef .tc main_arg16) = V (Proc.devRef .tc main_arg16) := by
  rw [after_all_eq]; exact argAt26 V main_arg16 (by decide)
theorem after_all_arg17 (V : Valuation τ sig (Elt F)) : after (opsAll : List (HloOp τ sig (Elt F))) V (Proc.devRef .tc main_arg17) = V (Proc.devRef .tc main_arg17) := by
  rw [after_all_eq]; exact argAt26 V main_arg17 (by decide)

end Cert.ReferenceIdeal.RunHand

end
-- ==== Proof.Ref.RunHand.lean ====
/-
  The reference program's run, stated over the stage definitions: every execution terminates with the result buffer
  at the last stage's term of the arguments' launch contents and the arguments unchanged. The run of a straight line
  of operations leaves every buffer at the fold of the operations' results over the launch contents; the fold at the
  result buffer and at the arguments is read chunk by chunk in the stages module.
-/
import proofs.«418928_j70858370450169_1_alg».proof.Proof.Ref.RunHandStages

noncomputable section

namespace Cert.ReferenceIdeal.Value

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

/-- The result's term of the arguments: the last stage of the program read stage by stage. -/
def res_main_v184 (m : (ℓ : Loc nD τ sig) → Buf (Elt F) ℓ) (c : Dev nD) : Buf (Elt F) ((c.tc : Thread nD τ).loc main_v184) :=
  val_main_v184 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17))

/-- The same term by its position among the values the program returns. -/
abbrev res_out0 (m : (ℓ : Loc nD τ sig) → Buf (Elt F) ℓ) (c : Dev nD) : Buf (Elt F) ((c.tc : Thread nD τ).loc main_v184) := res_main_v184 m c

/-- On every device, for any float values, from any memory with zero counters: every weakly fair execution of the
    program terminates with the result at the last stage's term of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v184) = res_main_v184 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17) :=
  (θ_run defs _ _).mono (fun _ h c => ⟨(h c main_v184).trans (RunHand.after_all (launchContents m c)),
      (h c main_arg0).trans (RunHand.after_all_arg0 (launchContents m c)),
      (h c main_arg1).trans (RunHand.after_all_arg1 (launchContents m c)),
      (h c main_arg2).trans (RunHand.after_all_arg2 (launchContents m c)),
      (h c main_arg3).trans (RunHand.after_all_arg3 (launchContents m c)),
      (h c main_arg4).trans (RunHand.after_all_arg4 (launchContents m c)),
      (h c main_arg5).trans (RunHand.after_all_arg5 (launchContents m c)),
      (h c main_arg6).trans (RunHand.after_all_arg6 (launchContents m c)),
      (h c main_arg7).trans (RunHand.after_all_arg7 (launchContents m c)),
      (h c main_arg8).trans (RunHand.after_all_arg8 (launchContents m c)),
      (h c main_arg9).trans (RunHand.after_all_arg9 (launchContents m c)),
      (h c main_arg10).trans (RunHand.after_all_arg10 (launchContents m c)),
      (h c main_arg11).trans (RunHand.after_all_arg11 (launchContents m c)),
      (h c main_arg12).trans (RunHand.after_all_arg12 (launchContents m c)),
      (h c main_arg13).trans (RunHand.after_all_arg13 (launchContents m c)),
      (h c main_arg14).trans (RunHand.after_all_arg14 (launchContents m c)),
      (h c main_arg15).trans (RunHand.after_all_arg15 (launchContents m c)),
      (h c main_arg16).trans (RunHand.after_all_arg16 (launchContents m c)),
      (h c main_arg17).trans (RunHand.after_all_arg17 (launchContents m c))⟩)
    (RunHand.run_after m ρ)

end Cert.ReferenceIdeal.Value

namespace Cert.ReferenceIdeal.Read

open Cert.ReferenceIdeal Cert.ReferenceIdeal.Gen Idealize.ShloMosaic Idealize.ShloMosaic.TcCoe Idealize.SL.Sem Idealize.ShloMosaic.StableHlo

variable {F : FTy → Type} [FloatOps F]

/-- The term the run names is the last stage. -/
theorem val_main_v184_eq (m : (ℓ : Loc nD τ sig) → Buf (Elt F) ℓ) (c : Dev nD) :
    Cert.ReferenceIdeal.Value.res_main_v184 m c = val_main_v184 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) := rfl

end Cert.ReferenceIdeal.Read

end
-- ==== Proof.RefSide.lean ====
import proofs.«418928_j70858370450169_1_alg».proof.Proof.Ref.RunHand
-- ==== Proof.LibRows.lean ====
import Idealize.ShloMosaic.PureOps.Ideal
import Idealize.ShloMosaic.PureOps.ShapeOps
import Idealize.ShloMosaic.PureOps.Contract
import Idealize.ShloMosaic.Lib.ValueIdx

noncomputable section

open scoped BigOperators

namespace Cert.LibRows

open Idealize.ShloMosaic Idealize.ShloMosaic.ValueIdx

theorem mem_kept {s : Shape} (axes : List (Fin s.rank)) (a : Fin s.rank) : a ∈ s.kept axes ↔ a ∉ axes := by
  simp [Shape.kept, List.mem_filter, List.mem_finRange]

theorem fin2_one_nmem : (1 : Fin 2) ∉ ([0] : List (Fin 2)) := by decide

theorem fin3_one_nmem : (1 : Fin 3) ∉ ([0] : List (Fin 3)) := by decide

theorem fin3_two_nmem : (2 : Fin 3) ∉ ([0] : List (Fin 3)) := by decide

section Scatter2
variable {N C E w : Nat} (d : ScatterDims ⟨2, ![N, C]⟩ ⟨2, ![E, 1]⟩ ⟨2, ![E, C]⟩)

theorem sc2_start0 (huw : d.updateWindowDims = [1]) (hsd : d.scatterDimsToOperandDims = [0])
    (hivd : d.indexVectorDim = 1) (idx : IVec ⟨2, ![E, 1]⟩ w) (j : (⟨2, ![E, C]⟩ : Shape).Idx) :
    d.start j idx 0 = (idx (ix2 (j 0) (0 : Fin 1))).toInt := by
  obtain ⟨uw, iw, sd, ivd, wf⟩ := d
  simp only at huw hsd hivd
  subst huw hsd hivd
  unfold ScatterDims.start
  rw [dif_pos (List.mem_singleton.mpr rfl)]
  congr 2
  funext b
  match b with
  | ⟨0, _⟩ => rfl
  | ⟨1, _⟩ => rfl

theorem sc2_start1 (hsd : d.scatterDimsToOperandDims = [0])
    (idx : IVec ⟨2, ![E, 1]⟩ w) (j : (⟨2, ![E, C]⟩ : Shape).Idx) :
    d.start j idx 1 = 0 := by
  unfold ScatterDims.start
  rw [dif_neg (by rw [hsd]; exact fin2_one_nmem)]

theorem sc2_window0 (hiw : d.insertedWindowDims = [0]) (j : (⟨2, ![E, C]⟩ : Shape).Idx) :
    d.window j 0 = 0 := by
  unfold ScatterDims.window
  rw [dif_neg (by rw [ScatterDims.sKept, mem_kept, hiw]; exact fun h => h (List.mem_singleton.mpr rfl))]

theorem sc2_window1 (huw : d.updateWindowDims = [1]) (hiw : d.insertedWindowDims = [0])
    (j : (⟨2, ![E, C]⟩ : Shape).Idx) :
    d.window j 1 = (j 1).val := by
  obtain ⟨uw, iw, sd, ivd, wf⟩ := d
  simp only at huw hiw
  subst huw hiw
  unfold ScatterDims.window
  rw [dif_pos (by rw [ScatterDims.sKept, mem_kept]; exact fin2_one_nmem)]
  rfl

theorem sc2_resultIdx (huw : d.updateWindowDims = [1]) (hiw : d.insertedWindowDims = [0])
    (hsd : d.scatterDimsToOperandDims = [0]) (hivd : d.indexVectorDim = 1)
    (idx : IVec ⟨2, ![E, 1]⟩ w) (e : Fin E) (c : Fin C) (n : Fin N) (c' : Fin C) :
    d.resultIdx? (ix2 e c) idx = some (ix2 n c') ↔ (idx (ix2 e (0 : Fin 1))).toInt = (n.val : Int) ∧ c = c' := by
  have hs0 : d.start (ix2 e c) idx 0 = (idx (ix2 e (0 : Fin 1))).toInt := sc2_start0 d huw hsd hivd idx _
  have hs1 : d.start (ix2 e c) idx 1 = 0 := sc2_start1 d hsd idx _
  have hw0 : d.window (ix2 e c) 0 = 0 := sc2_window0 d hiw _
  have hw1 : d.window (ix2 e c) 1 = c.val := sc2_window1 d huw hiw _
  generalize (idx (ix2 e (0 : Fin 1))).toInt = z at hs0 ⊢
  have hn := n.isLt
  have hc := c.isLt
  unfold ScatterDims.resultIdx?
  split
  · next h =>
    rw [Option.some.injEq]
    constructor
    · intro hf
      have h0 : (d.start (ix2 e c) idx 0 + (d.window (ix2 e c) 0 : Int)).toNat = n.val :=
        congrArg (fun f : (⟨2, ![N, C]⟩ : Shape).Idx => (f 0).val) hf
      have h1 : (d.start (ix2 e c) idx 1 + (d.window (ix2 e c) 1 : Int)).toNat = c'.val :=
        congrArg (fun f : (⟨2, ![N, C]⟩ : Shape).Idx => (f 1).val) hf
      have h00 := (h 0).1
      rw [hs0, hw0] at h0 h00
      rw [hs1, hw1] at h1
      exact ⟨by omega, Fin.ext (by omega)⟩
    · rintro ⟨hz, rfl⟩
      funext a
      match a with
      | ⟨0, _⟩ =>
        refine Fin.ext ?_
        show (d.start (ix2 e c) idx 0 + (d.window (ix2 e c) 0 : Int)).toNat = n.val
        rw [hs0, hw0]; omega
      | ⟨1, _⟩ =>
        refine Fin.ext ?_
        show (d.start (ix2 e c) idx 1 + (d.window (ix2 e c) 1 : Int)).toNat = c.val
        rw [hs1, hw1]; omega
  · next h =>
    constructor
    · intro hf; cases hf
    · rintro ⟨hz, rfl⟩
      refine absurd ?_ h
      intro a
      match a with
      | ⟨0, _⟩ =>
        show 0 ≤ d.start (ix2 e c) idx 0 + (d.window (ix2 e c) 0 : Int)
          ∧ d.start (ix2 e c) idx 0 + (d.window (ix2 e c) 0 : Int) < (N : Int)
        rw [hs0, hw0]; omega
      | ⟨1, _⟩ =>
        show 0 ≤ d.start (ix2 e c) idx 1 + (d.window (ix2 e c) 1 : Int)
          ∧ d.start (ix2 e c) idx 1 + (d.window (ix2 e c) 1 : Int) < (C : Int)
        rw [hs1, hw1]; omega

theorem scatterAdd_rows2 (huw : d.updateWindowDims = [1]) (hiw : d.insertedWindowDims = [0])
    (hsd : d.scatterDimsToOperandDims = [0]) (hivd : d.indexVectorDim = 1)
    (x : (⟨2, ![N, C]⟩ : Shape).Idx → EReal) (idx : IVec ⟨2, ![E, 1]⟩ w) (upd : (⟨2, ![E, C]⟩ : Shape).Idx → EReal)
    (n : Fin N) (c : Fin C) :
    Ideal.hostScatterAdd d x idx upd (ix2 n c) = x (ix2 n c)
      + ∑ e ∈ Finset.univ.filter (fun e : Fin E => (idx (ix2 e (0 : Fin 1))).toInt = (n.val : Int)), upd (ix2 e c) := by
  unfold Ideal.hostScatterAdd
  congr 1
  refine Finset.sum_bij' (fun j _ => (j 0 : Fin E)) (fun e _ => ix2 e c) ?_ ?_ ?_ ?_ ?_
  · intro j hj
    obtain ⟨e, c', rfl⟩ : ∃ (e : Fin E) (c' : Fin C), j = ix2 e c' := ⟨j 0, j 1, eq_ix2 j⟩
    exact Finset.mem_filter.2 ⟨Finset.mem_univ _,
      ((sc2_resultIdx d huw hiw hsd hivd idx e c' n c).1 (Finset.mem_filter.1 hj).2).1⟩
  · intro e he
    exact Finset.mem_filter.2 ⟨Finset.mem_univ _,
      (sc2_resultIdx d huw hiw hsd hivd idx e c n c).2 ⟨(Finset.mem_filter.1 he).2, rfl⟩⟩
  · intro j hj
    obtain ⟨e, c', rfl⟩ : ∃ (e : Fin E) (c' : Fin C), j = ix2 e c' := ⟨j 0, j 1, eq_ix2 j⟩
    obtain rfl := ((sc2_resultIdx d huw hiw hsd hivd idx e c' n c).1 (Finset.mem_filter.1 hj).2).2
    rfl
  · intro e _
    rfl
  · intro j hj
    obtain ⟨e, c', rfl⟩ : ∃ (e : Fin E) (c' : Fin C), j = ix2 e c' := ⟨j 0, j 1, eq_ix2 j⟩
    obtain rfl := ((sc2_resultIdx d huw hiw hsd hivd idx e c' n c).1 (Finset.mem_filter.1 hj).2).2
    rfl

end Scatter2

section Scatter3
variable {N H K E w : Nat} (d : ScatterDims ⟨3, ![N, H, K]⟩ ⟨2, ![E, 1]⟩ ⟨3, ![E, H, K]⟩)

theorem sc3_start0 (huw : d.updateWindowDims = [1, 2]) (hsd : d.scatterDimsToOperandDims = [0])
    (hivd : d.indexVectorDim = 1) (idx : IVec ⟨2, ![E, 1]⟩ w) (j : (⟨3, ![E, H, K]⟩ : Shape).Idx) :
    d.start j idx 0 = (idx (ix2 (j 0) (0 : Fin 1))).toInt := by
  obtain ⟨uw, iw, sd, ivd, wf⟩ := d
  simp only at huw hsd hivd
  subst huw hsd hivd
  unfold ScatterDims.start
  rw [dif_pos (List.mem_singleton.mpr rfl)]
  congr 2
  funext b
  match b with
  | ⟨0, _⟩ => rfl
  | ⟨1, _⟩ => rfl

theorem sc3_start1 (hsd : d.scatterDimsToOperandDims = [0])
    (idx : IVec ⟨2, ![E, 1]⟩ w) (j : (⟨3, ![E, H, K]⟩ : Shape).Idx) :
    d.start j idx 1 = 0 := by
  unfold ScatterDims.start
  rw [dif_neg (by rw [hsd]; exact fin3_one_nmem)]

theorem sc3_start2 (hsd : d.scatterDimsToOperandDims = [0])
    (idx : IVec ⟨2, ![E, 1]⟩ w) (j : (⟨3, ![E, H, K]⟩ : Shape).Idx) :
    d.start j idx 2 = 0 := by
  unfold ScatterDims.start
  rw [dif_neg (by rw [hsd]; exact fin3_two_nmem)]

theorem sc3_window0 (hiw : d.insertedWindowDims = [0]) (j : (⟨3, ![E, H, K]⟩ : Shape).Idx) :
    d.window j 0 = 0 := by
  unfold ScatterDims.window
  rw [dif_neg (by rw [ScatterDims.sKept, mem_kept, hiw]; exact fun h => h (List.mem_singleton.mpr rfl))]

theorem sc3_window1 (huw : d.updateWindowDims = [1, 2]) (hiw : d.insertedWindowDims = [0])
    (j : (⟨3, ![E, H, K]⟩ : Shape).Idx) :
    d.window j 1 = (j 1).val := by
  obtain ⟨uw, iw, sd, ivd, wf⟩ := d
  simp only at huw hiw
  subst huw hiw
  unfold ScatterDims.window
  rw [dif_pos (by rw [ScatterDims.sKept, mem_kept]; exact fin3_one_nmem)]
  rfl

theorem sc3_window2 (huw : d.updateWindowDims = [1, 2]) (hiw : d.insertedWindowDims = [0])
    (j : (⟨3, ![E, H, K]⟩ : Shape).Idx) :
    d.window j 2 = (j 2).val := by
  obtain ⟨uw, iw, sd, ivd, wf⟩ := d
  simp only at huw hiw
  subst huw hiw
  unfold ScatterDims.window
  rw [dif_pos (by rw [ScatterDims.sKept, mem_kept]; exact fin3_two_nmem)]
  rfl

theorem sc3_resultIdx (huw : d.updateWindowDims = [1, 2]) (hiw : d.insertedWindowDims = [0])
    (hsd : d.scatterDimsToOperandDims = [0]) (hivd : d.indexVectorDim = 1)
    (idx : IVec ⟨2, ![E, 1]⟩ w) (e : Fin E) (h : Fin H) (k : Fin K) (n : Fin N) (h' : Fin H) (k' : Fin K) :
    d.resultIdx? (ix3 e h k) idx = some (ix3 n h' k')
      ↔ (idx (ix2 e (0 : Fin 1))).toInt = (n.val : Int) ∧ h = h' ∧ k = k' := by
  have hs0 : d.start (ix3 e h k) idx 0 = (idx (ix2 e (0 : Fin 1))).toInt := sc3_start0 d huw hsd hivd idx _
  have hs1 : d.start (ix3 e h k) idx 1 = 0 := sc3_start1 d hsd idx _
  have hs2 : d.start (ix3 e h k) idx 2 = 0 := sc3_start2 d hsd idx _
  have hw0 : d.window (ix3 e h k) 0 = 0 := sc3_window0 d hiw _
  have hw1 : d.window (ix3 e h k) 1 = h.val := sc3_window1 d huw hiw _
  have hw2 : d.window (ix3 e h k) 2 = k.val := sc3_window2 d huw hiw _
  generalize (idx (ix2 e (0 : Fin 1))).toInt = z at hs0 ⊢
  have hn := n.isLt
  have hh := h.isLt
  have hk := k.isLt
  unfold ScatterDims.resultIdx?
  split
  · next hin =>
    rw [Option.some.injEq]
    constructor
    · intro hf
      have h0 : (d.start (ix3 e h k) idx 0 + (d.window (ix3 e h k) 0 : Int)).toNat = n.val :=
        congrArg (fun f : (⟨3, ![N, H, K]⟩ : Shape).Idx => (f 0).val) hf
      have h1 : (d.start (ix3 e h k) idx 1 + (d.window (ix3 e h k) 1 : Int)).toNat = h'.val :=
        congrArg (fun f : (⟨3, ![N, H, K]⟩ : Shape).Idx => (f 1).val) hf
      have h2 : (d.start (ix3 e h k) idx 2 + (d.window (ix3 e h k) 2 : Int)).toNat = k'.val :=
        congrArg (fun f : (⟨3, ![N, H, K]⟩ : Shape).Idx => (f 2).val) hf
      have h00 := (hin 0).1
      rw [hs0, hw0] at h0 h00
      rw [hs1, hw1] at h1
      rw [hs2, hw2] at h2
      exact ⟨by omega, Fin.ext (by omega), Fin.ext (by omega)⟩
    · rintro ⟨hz, rfl, rfl⟩
      funext a
      match a with
      | ⟨0, _⟩ =>
        refine Fin.ext ?_
        show (d.start (ix3 e h k) idx 0 + (d.window (ix3 e h k) 0 : Int)).toNat = n.val
        rw [hs0, hw0]; omega
      | ⟨1, _⟩ =>
        refine Fin.ext ?_
        show (d.start (ix3 e h k) idx 1 + (d.window (ix3 e h k) 1 : Int)).toNat = h.val
        rw [hs1, hw1]; omega
      | ⟨2, _⟩ =>
        refine Fin.ext ?_
        show (d.start (ix3 e h k) idx 2 + (d.window (ix3 e h k) 2 : Int)).toNat = k.val
        rw [hs2, hw2]; omega
  · next hin =>
    constructor
    · intro hf; cases hf
    · rintro ⟨hz, rfl, rfl⟩
      refine absurd ?_ hin
      intro a
      match a with
      | ⟨0, _⟩ =>
        show 0 ≤ d.start (ix3 e h k) idx 0 + (d.window (ix3 e h k) 0 : Int)
          ∧ d.start (ix3 e h k) idx 0 + (d.window (ix3 e h k) 0 : Int) < (N : Int)
        rw [hs0, hw0]; omega
      | ⟨1, _⟩ =>
        show 0 ≤ d.start (ix3 e h k) idx 1 + (d.window (ix3 e h k) 1 : Int)
          ∧ d.start (ix3 e h k) idx 1 + (d.window (ix3 e h k) 1 : Int) < (H : Int)
        rw [hs1, hw1]; omega
      | ⟨2, _⟩ =>
        show 0 ≤ d.start (ix3 e h k) idx 2 + (d.window (ix3 e h k) 2 : Int)
          ∧ d.start (ix3 e h k) idx 2 + (d.window (ix3 e h k) 2 : Int) < (K : Int)
        rw [hs2, hw2]; omega

theorem scatterAdd_rows3 (huw : d.updateWindowDims = [1, 2]) (hiw : d.insertedWindowDims = [0])
    (hsd : d.scatterDimsToOperandDims = [0]) (hivd : d.indexVectorDim = 1)
    (x : (⟨3, ![N, H, K]⟩ : Shape).Idx → EReal) (idx : IVec ⟨2, ![E, 1]⟩ w)
    (upd : (⟨3, ![E, H, K]⟩ : Shape).Idx → EReal) (n : Fin N) (h : Fin H) (k : Fin K) :
    Ideal.hostScatterAdd d x idx upd (ix3 n h k) = x (ix3 n h k)
      + ∑ e ∈ Finset.univ.filter (fun e : Fin E => (idx (ix2 e (0 : Fin 1))).toInt = (n.val : Int)), upd (ix3 e h k) := by
  unfold Ideal.hostScatterAdd
  congr 1
  refine Finset.sum_bij' (fun j _ => (j 0 : Fin E)) (fun e _ => ix3 e h k) ?_ ?_ ?_ ?_ ?_
  · intro j hj
    obtain ⟨e, h', k', rfl⟩ : ∃ (e : Fin E) (h' : Fin H) (k' : Fin K), j = ix3 e h' k' := ⟨j 0, j 1, j 2, eq_ix3 j⟩
    exact Finset.mem_filter.2 ⟨Finset.mem_univ _,
      ((sc3_resultIdx d huw hiw hsd hivd idx e h' k' n h k).1 (Finset.mem_filter.1 hj).2).1⟩
  · intro e he
    exact Finset.mem_filter.2 ⟨Finset.mem_univ _,
      (sc3_resultIdx d huw hiw hsd hivd idx e h k n h k).2 ⟨(Finset.mem_filter.1 he).2, rfl, rfl⟩⟩
  · intro j hj
    obtain ⟨e, h', k', rfl⟩ : ∃ (e : Fin E) (h' : Fin H) (k' : Fin K), j = ix3 e h' k' := ⟨j 0, j 1, j 2, eq_ix3 j⟩
    obtain ⟨-, rfl, rfl⟩ := (sc3_resultIdx d huw hiw hsd hivd idx e h' k' n h k).1 (Finset.mem_filter.1 hj).2
    rfl
  · intro e _
    rfl
  · intro j hj
    obtain ⟨e, h', k', rfl⟩ : ∃ (e : Fin E) (h' : Fin H) (k' : Fin K), j = ix3 e h' k' := ⟨j 0, j 1, j 2, eq_ix3 j⟩
    obtain ⟨-, rfl, rfl⟩ := (sc3_resultIdx d huw hiw hsd hivd idx e h' k' n h k).1 (Finset.mem_filter.1 hj).2
    rfl

end Scatter3

section Gather2
variable {N C E w : Nat} (d : GatherDims ⟨2, ![N, C]⟩ ⟨2, ![E, 1]⟩ ⟨2, ![E, C]⟩)

theorem g2_start0 (hoff : d.offsetDims = [1]) (hcoll : d.collapsedSliceDims = [0])
    (hsim : d.startIndexMap = [0]) (hivd : d.indexVectorDim = 1)
    (idx : IVec ⟨2, ![E, 1]⟩ w) (j : (⟨2, ![E, C]⟩ : Shape).Idx) :
    d.start j idx 0 = min (idx (ix2 (j 0) (0 : Fin 1))).toInt.toNat (N - 1) := by
  have hsl : d.sliceSizes 0 = 1 := d.slice_collapsed 0 (by rw [hcoll]; exact List.mem_singleton.mpr rfl)
  obtain ⟨od, cd, ob, sb, sm, ivd, ss, wf⟩ := d
  simp only at hoff hsim hivd hsl
  subst hoff hsim hivd
  unfold GatherDims.start
  rw [dif_pos (List.mem_singleton.mpr rfl)]
  show min _ (N - ss 0) = _
  rw [hsl]
  congr 3
  congr 1
  funext b
  match b with
  | ⟨0, _⟩ => rfl
  | ⟨1, _⟩ => rfl

theorem g2_start1 (hsim : d.startIndexMap = [0]) (idx : IVec ⟨2, ![E, 1]⟩ w) (j : (⟨2, ![E, C]⟩ : Shape).Idx) :
    d.start j idx 1 = 0 := by
  unfold GatherDims.start
  rw [dif_neg (by rw [hsim]; exact fin2_one_nmem)]

theorem g2_off0 (hcoll : d.collapsedSliceDims = [0]) (j : (⟨2, ![E, C]⟩ : Shape).Idx) :
    d.offCoord j 0 = 0 :=
  d.offCoord_eq_zero j 0 fun h => ((d.mem_sKept 0).1 h).1 (by rw [hcoll]; exact List.mem_singleton.mpr rfl)

theorem g2_off1 (hoff : d.offsetDims = [1]) (hcoll : d.collapsedSliceDims = [0]) (hob : d.operandBatchingDims = [])
    (j : (⟨2, ![E, C]⟩ : Shape).Idx) :
    d.offCoord j 1 = (j 1).val := by
  obtain ⟨od, cd, ob, sb, sm, ivd, ss, wf⟩ := d
  simp only at hoff hcoll hob
  subst hoff hcoll hob
  unfold GatherDims.offCoord
  rw [dif_pos (by rw [GatherDims.mem_sKept]; exact ⟨fin2_one_nmem, List.not_mem_nil⟩)]
  rfl

end Gather2

theorem gather_rows2 {α : Type} {N C E w : Nat} (hN : 0 < N) (d : GatherDims ⟨2, ![N, C]⟩ ⟨2, ![E, 1]⟩ ⟨2, ![E, C]⟩)
    (hoff : d.offsetDims = [1]) (hcoll : d.collapsedSliceDims = [0])
    (hob : d.operandBatchingDims = []) (hsim : d.startIndexMap = [0]) (hivd : d.indexVectorDim = 1)
    (x : (⟨2, ![N, C]⟩ : Shape).Idx → α) (idx : IVec ⟨2, ![E, 1]⟩ w) (e : Fin E) (c : Fin C) :
    Host.gather d x idx (ix2 e c)
      = x (ix2 ⟨min (idx (ix2 e (0 : Fin 1))).toInt.toNat (N - 1), by omega⟩ c) := by
  have hb : ∀ a, d.batchCoord (ix2 e c) a = 0 := fun a =>
    d.batchCoord_eq_zero _ a (by rw [hob]; exact List.not_mem_nil)
  unfold Host.gather
  congr 1
  funext a
  refine Fin.ext ?_
  match a with
  | ⟨0, _⟩ =>
    show d.start (ix2 e c) idx 0 + d.batchCoord (ix2 e c) 0 + d.offCoord (ix2 e c) 0 = _
    rw [hb, g2_off0 d hcoll, g2_start0 d hoff hcoll hsim hivd]
    rfl
  | ⟨1, _⟩ =>
    show d.start (ix2 e c) idx 1 + d.batchCoord (ix2 e c) 1 + d.offCoord (ix2 e c) 1 = _
    rw [hb, g2_off1 d hoff hcoll hob, g2_start1 d hsim]
    show 0 + 0 + c.val = c.val
    omega

section Gather3
variable {N H K E w : Nat} (d : GatherDims ⟨3, ![N, H, K]⟩ ⟨2, ![E, 1]⟩ ⟨3, ![E, H, K]⟩)

theorem g3_start0 (hoff : d.offsetDims = [1, 2]) (hcoll : d.collapsedSliceDims = [0])
    (hsim : d.startIndexMap = [0]) (hivd : d.indexVectorDim = 1)
    (idx : IVec ⟨2, ![E, 1]⟩ w) (j : (⟨3, ![E, H, K]⟩ : Shape).Idx) :
    d.start j idx 0 = min (idx (ix2 (j 0) (0 : Fin 1))).toInt.toNat (N - 1) := by
  have hsl : d.sliceSizes 0 = 1 := d.slice_collapsed 0 (by rw [hcoll]; exact List.mem_singleton.mpr rfl)
  obtain ⟨od, cd, ob, sb, sm, ivd, ss, wf⟩ := d
  simp only at hoff hsim hivd hsl
  subst hoff hsim hivd
  unfold GatherDims.start
  rw [dif_pos (List.mem_singleton.mpr rfl)]
  show min _ (N - ss 0) = _
  rw [hsl]
  congr 3
  congr 1
  funext b
  match b with
  | ⟨0, _⟩ => rfl
  | ⟨1, _⟩ => rfl

theorem g3_start1 (hsim : d.startIndexMap = [0]) (idx : IVec ⟨2, ![E, 1]⟩ w) (j : (⟨3, ![E, H, K]⟩ : Shape).Idx) :
    d.start j idx 1 = 0 := by
  unfold GatherDims.start
  rw [dif_neg (by rw [hsim]; exact fin3_one_nmem)]

theorem g3_start2 (hsim : d.startIndexMap = [0]) (idx : IVec ⟨2, ![E, 1]⟩ w) (j : (⟨3, ![E, H, K]⟩ : Shape).Idx) :
    d.start j idx 2 = 0 := by
  unfold GatherDims.start
  rw [dif_neg (by rw [hsim]; exact fin3_two_nmem)]

theorem g3_off0 (hcoll : d.collapsedSliceDims = [0]) (j : (⟨3, ![E, H, K]⟩ : Shape).Idx) :
    d.offCoord j 0 = 0 :=
  d.offCoord_eq_zero j 0 fun h => ((d.mem_sKept 0).1 h).1 (by rw [hcoll]; exact List.mem_singleton.mpr rfl)

theorem g3_off1 (hoff : d.offsetDims = [1, 2]) (hcoll : d.collapsedSliceDims = [0]) (hob : d.operandBatchingDims = [])
    (j : (⟨3, ![E, H, K]⟩ : Shape).Idx) :
    d.offCoord j 1 = (j 1).val := by
  obtain ⟨od, cd, ob, sb, sm, ivd, ss, wf⟩ := d
  simp only at hoff hcoll hob
  subst hoff hcoll hob
  unfold GatherDims.offCoord
  rw [dif_pos (by rw [GatherDims.mem_sKept]; exact ⟨fin3_one_nmem, List.not_mem_nil⟩)]
  rfl

theorem g3_off2 (hoff : d.offsetDims = [1, 2]) (hcoll : d.collapsedSliceDims = [0]) (hob : d.operandBatchingDims = [])
    (j : (⟨3, ![E, H, K]⟩ : Shape).Idx) :
    d.offCoord j 2 = (j 2).val := by
  obtain ⟨od, cd, ob, sb, sm, ivd, ss, wf⟩ := d
  simp only at hoff hcoll hob
  subst hoff hcoll hob
  unfold GatherDims.offCoord
  rw [dif_pos (by rw [GatherDims.mem_sKept]; exact ⟨fin3_two_nmem, List.not_mem_nil⟩)]
  rfl

end Gather3

theorem gather_rows3 {α : Type} {N H K E w : Nat} (hN : 0 < N)
    (d : GatherDims ⟨3, ![N, H, K]⟩ ⟨2, ![E, 1]⟩ ⟨3, ![E, H, K]⟩)
    (hoff : d.offsetDims = [1, 2]) (hcoll : d.collapsedSliceDims = [0])
    (hob : d.operandBatchingDims = []) (hsim : d.startIndexMap = [0]) (hivd : d.indexVectorDim = 1)
    (x : (⟨3, ![N, H, K]⟩ : Shape).Idx → α) (idx : IVec ⟨2, ![E, 1]⟩ w) (e : Fin E) (h : Fin H) (k : Fin K) :
    Host.gather d x idx (ix3 e h k)
      = x (ix3 ⟨min (idx (ix2 e (0 : Fin 1))).toInt.toNat (N - 1), by omega⟩ h k) := by
  have hb : ∀ a, d.batchCoord (ix3 e h k) a = 0 := fun a =>
    d.batchCoord_eq_zero _ a (by rw [hob]; exact List.not_mem_nil)
  unfold Host.gather
  congr 1
  funext a
  refine Fin.ext ?_
  match a with
  | ⟨0, _⟩ =>
    show d.start (ix3 e h k) idx 0 + d.batchCoord (ix3 e h k) 0 + d.offCoord (ix3 e h k) 0 = _
    rw [hb, g3_off0 d hcoll, g3_start0 d hoff hcoll hsim hivd]
    rfl
  | ⟨1, _⟩ =>
    show d.start (ix3 e h k) idx 1 + d.batchCoord (ix3 e h k) 1 + d.offCoord (ix3 e h k) 1 = _
    rw [hb, g3_off1 d hoff hcoll hob, g3_start1 d hsim]
    show 0 + 0 + h.val = h.val
    omega
  | ⟨2, _⟩ =>
    show d.start (ix3 e h k) idx 2 + d.batchCoord (ix3 e h k) 2 + d.offCoord (ix3 e h k) 2 = _
    rw [hb, g3_off2 d hoff hcoll hob, g3_start2 d hsim]
    show 0 + 0 + k.val = k.val
    omega

end Cert.LibRows

end
-- ==== Proof.LibRows1.lean ====
import proofs.«418928_j70858370450169_1_alg».proof.Proof.LibRows

noncomputable section

open scoped BigOperators

namespace Cert.LibRows

open Idealize.ShloMosaic Idealize.ShloMosaic.ValueIdx

section Scatter1
variable {N E w : Nat} (d : ScatterDims ⟨1, ![N]⟩ ⟨2, ![E, 1]⟩ ⟨1, ![E]⟩)

theorem sc1_start0 (huw : d.updateWindowDims = []) (hsd : d.scatterDimsToOperandDims = [0])
    (hivd : d.indexVectorDim = 1) (idx : IVec ⟨2, ![E, 1]⟩ w) (j : (⟨1, ![E]⟩ : Shape).Idx) :
    d.start j idx 0 = (idx (ix2 (j 0) (0 : Fin 1))).toInt := by
  obtain ⟨uw, iw, sd, ivd, wf⟩ := d
  simp only at huw hsd hivd
  subst huw hsd hivd
  unfold ScatterDims.start
  rw [dif_pos (List.mem_singleton.mpr rfl)]
  congr 2
  funext b
  match b with
  | ⟨0, _⟩ => rfl
  | ⟨1, _⟩ => rfl

theorem sc1_window0 (hiw : d.insertedWindowDims = [0]) (j : (⟨1, ![E]⟩ : Shape).Idx) :
    d.window j 0 = 0 := by
  unfold ScatterDims.window
  rw [dif_neg (by rw [ScatterDims.sKept, mem_kept, hiw]; exact fun h => h (List.mem_singleton.mpr rfl))]

theorem sc1_resultIdx (huw : d.updateWindowDims = []) (hiw : d.insertedWindowDims = [0])
    (hsd : d.scatterDimsToOperandDims = [0]) (hivd : d.indexVectorDim = 1)
    (idx : IVec ⟨2, ![E, 1]⟩ w) (e : Fin E) (n : Fin N) :
    d.resultIdx? (ix1 e) idx = some (ix1 n) ↔ (idx (ix2 e (0 : Fin 1))).toInt = (n.val : Int) := by
  have hs0 : d.start (ix1 e) idx 0 = (idx (ix2 e (0 : Fin 1))).toInt := sc1_start0 d huw hsd hivd idx _
  have hw0 : d.window (ix1 e) 0 = 0 := sc1_window0 d hiw _
  generalize (idx (ix2 e (0 : Fin 1))).toInt = z at hs0 ⊢
  have hn := n.isLt
  unfold ScatterDims.resultIdx?
  split
  · next h =>
    rw [Option.some.injEq]
    constructor
    · intro hf
      have h0 : (d.start (ix1 e) idx 0 + (d.window (ix1 e) 0 : Int)).toNat = n.val :=
        congrArg (fun f : (⟨1, ![N]⟩ : Shape).Idx => (f 0).val) hf
      have h00 := (h 0).1
      rw [hs0, hw0] at h0 h00
      omega
    · intro hz
      funext a
      match a with
      | ⟨0, _⟩ =>
        refine Fin.ext ?_
        show (d.start (ix1 e) idx 0 + (d.window (ix1 e) 0 : Int)).toNat = n.val
        rw [hs0, hw0]; omega
  · next h =>
    constructor
    · intro hf; cases hf
    · intro hz
      refine absurd ?_ h
      intro a
      match a with
      | ⟨0, _⟩ =>
        show 0 ≤ d.start (ix1 e) idx 0 + (d.window (ix1 e) 0 : Int)
          ∧ d.start (ix1 e) idx 0 + (d.window (ix1 e) 0 : Int) < (N : Int)
        rw [hs0, hw0]; omega

theorem scatterAdd_rows1 (huw : d.updateWindowDims = []) (hiw : d.insertedWindowDims = [0])
    (hsd : d.scatterDimsToOperandDims = [0]) (hivd : d.indexVectorDim = 1)
    (x : (⟨1, ![N]⟩ : Shape).Idx → EReal) (idx : IVec ⟨2, ![E, 1]⟩ w) (upd : (⟨1, ![E]⟩ : Shape).Idx → EReal)
    (n : Fin N) :
    Ideal.hostScatterAdd d x idx upd (ix1 n) = x (ix1 n)
      + ∑ e ∈ Finset.univ.filter (fun e : Fin E => (idx (ix2 e (0 : Fin 1))).toInt = (n.val : Int)), upd (ix1 e) := by
  unfold Ideal.hostScatterAdd
  congr 1
  refine Finset.sum_bij' (fun j _ => (j 0 : Fin E)) (fun e _ => ix1 e) ?_ ?_ ?_ ?_ ?_
  · intro j hj
    obtain ⟨e, rfl⟩ : ∃ e : Fin E, j = ix1 e := ⟨j 0, eq_ix1 j⟩
    exact Finset.mem_filter.2 ⟨Finset.mem_univ _,
      (sc1_resultIdx d huw hiw hsd hivd idx e n).1 (Finset.mem_filter.1 hj).2⟩
  · intro e he
    exact Finset.mem_filter.2 ⟨Finset.mem_univ _,
      (sc1_resultIdx d huw hiw hsd hivd idx e n).2 (Finset.mem_filter.1 he).2⟩
  · intro j _
    exact (eq_ix1 j).symm
  · intro e _
    rfl
  · intro j _
    exact congrArg upd (eq_ix1 j)

end Scatter1

end Cert.LibRows

end
-- ==== Proof.Ref.HostTermsR.lean ====
import proofs.«418928_j70858370450169_1_alg».proof.Proof.Gen.ReferenceIdeal
import proofs.«418928_j70858370450169_1_alg».proof.Proof.Model

noncomputable section

namespace Cert.ReferenceIdeal.RefValue

open Cert.ReferenceIdeal Cert.ReferenceIdeal.Gen
open Idealize.ShloMosaic
open Cert.Spec Cert.Model

abbrev ArrF (s : Shape) : Type := FVec Ideal s .f32
abbrev ArrI (s : Shape) : Type := IVec s 32

def srcR (ei : ArrI S2x1600000) : ArrI S1600000 :=
  shapeCast S1600000 (extractStridedSlice S1x1600000 ![0, 0] ei slices_S2x1600000_S1x1600000_0_0) shapeCasts_S1x1600000_S1600000

def dstR (ei : ArrI S2x1600000) : ArrI S1600000 :=
  shapeCast S1600000 (extractStridedSlice S1x1600000 ![1, 0] ei slices_S2x1600000_S1x1600000_1_0) shapeCasts_S1x1600000_S1600000

def wrapR (i : ArrI S1600000) : ArrI S1600000 :=
  select (cmpi .slt i (broadcastInDim S1600000 ![] bcast_S_S1600000 (constantI S_ 32 0#32)))
    (addi i (broadcastInDim S1600000 ![] bcast_S_S1600000 (constantI S_ 32 100000#32))) i

def degR (ei : ArrI S2x1600000) : ArrF S100000 :=
  addf
    (Host.scatterAdd scatter_S100000_S1600000x1_S1600000_n_0_0_1
      (broadcastInDim S100000 ![] bcast_S_S100000 (constant (F := Ideal) S_ .f32 0x00000000#32))
      (broadcastInDim S1600000x1 ![0] bcast_S1600000_S1600000x1_0 (dstR ei))
      (broadcastInDim S1600000 ![] bcast_S_S1600000 (constant (F := Ideal) S_ .f32 0x3F800000#32)))
    (broadcastInDim S100000 ![] bcast_S_S100000 (constant (F := Ideal) S_ .f32 0x3F800000#32))

def disR (ei : ArrI S2x1600000) : ArrF S100000 := Host.rsqrt (degR ei)

def normR (ei : ArrI S2x1600000) : ArrF S1600000 :=
  mulf
    (Host.gather gather_S100000_S1600000x1_S1600000_n_0_n_n_0_1_1 (disR ei)
      (broadcastInDim S1600000x1 ![0] bcast_S1600000_S1600000x1_0 (wrapR (srcR ei))))
    (Host.gather gather_S100000_S1600000x1_S1600000_n_0_n_n_0_1_1 (disR ei)
      (broadcastInDim S1600000x1 ![0] bcast_S1600000_S1600000x1_0 (wrapR (dstR ei))))

def selfR (ei : ArrI S2x1600000) : ArrF S100000 := mulf (disR ei) (disR ei)

def aggTR (nrm : ArrF S1600000) (src dst : ArrI S1600000) (f : ArrF S100000x128) : ArrF S100000x128 :=
  Host.scatterAdd scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 dst)
    (mulf
      (broadcastInDim S1600000x128 ![0, 1] bcast_S1600000x1_S1600000x128_0_1
        (broadcastInDim S1600000x1 ![0] bcast_S1600000_S1600000x1_0 nrm))
      (Host.gather gather_S100000x128_S1600000x1_S1600000x128_1_0_n_n_0_1_1128 f
        (broadcastInDim S1600000x1 ![0] bcast_S1600000_S1600000x1_0 (wrapR src))))

def aggR (ei : ArrI S2x1600000) (f : SNH.Idx → EReal) : SNH.Idx → EReal :=
  aggTR (normR ei) (srcR ei) (dstR ei) f

def snR (ei : ArrI S2x1600000) : SN1.Idx → EReal :=
  broadcastInDim S100000x1 ![0] bcast_S100000_S100000x1_0 (selfR ei)

def catR (a : SGH.Idx → EReal) (b : SGC.Idx → EReal) : SGZ.Idx → EReal :=
  concatenate S256x144 1 [⟨S256x128, a⟩, ⟨S256x16, b⟩] concatenates_S256x128_S256x16_S256x144_d1

def btR (b : ArrI S100000) : SN1.Idx → BitVec 32 :=
  broadcastInDim S100000x1 ![0] bcast_S100000_S100000x1_0 b

end Cert.ReferenceIdeal.RefValue

end
-- ==== Proof.Ref.FrameR.lean ====
import proofs.«418928_j70858370450169_1_alg».proof.Defs
import proofs.«418928_j70858370450169_1_alg».proof.Proof.Gen.ReferenceIdeal
import proofs.«418928_j70858370450169_1_alg».proof.Proof.Gen.Pre_finite_inputs
import proofs.«418928_j70858370450169_1_alg».proof.Proof.RefSide

noncomputable section

namespace Cert.ReferenceIdeal.RefValue

open Idealize.ShloMosaic Idealize.SL.Sem

theorem frame_ri : Cert.frame_ReferenceIdeal :=
  fun m ρ _ => (θ_run Cert.ReferenceIdeal.defs _ _).mono (fun _ h c => (h c).2)
    (Cert.ReferenceIdeal.Value.run (F := Ideal) m ρ)

end Cert.ReferenceIdeal.RefValue

end
-- ==== Proof.Ref.RefNet.lean ====
import proofs.«418928_j70858370450169_1_alg».proof.Proof.RefSide
import proofs.«418928_j70858370450169_1_alg».proof.Proof.Model
import proofs.«418928_j70858370450169_1_alg».proof.Proof.LibRows
import proofs.«418928_j70858370450169_1_alg».proof.Proof.LibRows1
import proofs.«418928_j70858370450169_1_alg».proof.Proof.Ref.HostTermsR
import proofs.«418928_j70858370450169_1_alg».proof.Proof.Ref.FrameR
import Idealize.ShloMosaic.Lib.IdealHost

noncomputable section

namespace Cert.ReferenceIdeal.RefValue

open Cert.ReferenceIdeal Cert.ReferenceIdeal.Gen Cert.ReferenceIdeal.Read
open Idealize.ShloMosaic Idealize.ShloMosaic.ValueIdx
open Cert.Spec Cert.Model
open scoped BigOperators

abbrev TNH := (⟨S100000x128, .f32⟩ : BufTy).Contents (Elt Ideal)

abbrev THH := (⟨S128x128, .f32⟩ : BufTy).Contents (Elt Ideal)

abbrev TH := (⟨S128, .f32⟩ : BufTy).Contents (Elt Ideal)

abbrev TE := (⟨S2x1600000, .i32⟩ : BufTy).Contents (Elt Ideal)

theorem mm_eq (h : TNH) (W : THH) : val_main_v27 (F := Ideal) h W = mm h W := by
  funext i
  rw [val_main_v27_apply]
  unfold mm
  refine Finset.sum_congr rfl fun k _ => ?_
  have e1 : lidx_main_v27 i k = ix2 (i 0) k :=
    funext fun a => Fin.ext (by match a with | ⟨0, _⟩ => rfl | ⟨1, _⟩ => rfl)
  have e2 : ridx_main_v27 i k = ix2 k (i 1) :=
    funext fun a => Fin.ext (by match a with | ⟨0, _⟩ => rfl | ⟨1, _⟩ => rfl)
  rw [e1, e2]
  rfl

set_option maxHeartbeats 1000000 in

theorem agg_eq (h : TNH) (x1 : TE) (W : THH) :
    val_main_v40 (F := Ideal) h x1 W = aggR x1 (mm h W) := by
  rw [← mm_eq]
  rfl

set_option maxHeartbeats 1000000 in

theorem sn_eq (x1 : TE) : val_main_v41 (F := Ideal) x1 = snR x1 := rfl

theorem conv_eq (h : TNH) (x1 : TE) (W : THH) (b : TH) :
    val_main_v48 (F := Ideal) h x1 W b = conv (aggR x1) (snR x1) h W b := by
  funext i
  obtain ⟨p, q, rfl⟩ : ∃ (p : Fin 100000) (q : Fin 128), i = ix2 p q := ⟨i 0, i 1, eq_ix2 i⟩
  rw [val_main_v48_apply, val_main_v47_apply, val_main_v44_apply, val_main_v43_apply, val_main_v42_apply,
    val_main_v46_apply, val_main_v45_apply, val_main_call0_v0_apply, val_main_call0_cst_apply, agg_eq, mm_eq, sn_eq]
  have e1 : idx_main_v42 (ix2 p q) = ix2 p 0 :=
    funext fun a => Fin.ext (by match a with | ⟨0, _⟩ => rfl | ⟨1, _⟩ => rfl)
  have e2 : idx_main_v45 (idx_main_v46 (ix2 p q)) = ix1 q :=
    funext fun a => Fin.ext (by match a with | ⟨0, _⟩ => rfl)
  rw [e1, e2]
  simp only [Ideal.addf_def, Ideal.mulf_def, Ideal.maximumf_def, Ideal.ofBits_def, Ideal.ofBits_zero_f32]
  rfl

section Norm
variable (h : TNH) (x1 : TE) (W : THH) (b : TH)

theorem mean_eq (j : Fin 128) :
    val_main_v51 (F := Ideal) h x1 W b (ix1 j) = mean (val_main_v48 (F := Ideal) h x1 W b) j := by
  have hs : (∑ k : Fin 100000, val_main_v48 (F := Ideal) h x1 W b (idx_main_v49 (ix1 j) k))
      = ∑ n : Fin 100000, val_main_v48 (F := Ideal) h x1 W b (ix2 n j) :=
    Finset.sum_congr rfl fun k _ => congrArg (val_main_v48 (F := Ideal) h x1 W b)
      (funext fun a => Fin.ext (by match a with | ⟨0, _⟩ => rfl | ⟨1, _⟩ => rfl))
  rw [val_main_v51_apply, val_main_v49_apply, val_main_v50_apply, val_main_cst_8_apply, val_main_cst_9_apply, hs]
  simp only [Ideal.hostDivf_def, Ideal.ofBits_def, Ideal.ofBits_zero_f32, zero_add]
  unfold mean cN
  rfl

theorem var_eq (j : Fin 128) :
    val_main_v58 (F := Ideal) h x1 W b (ix1 j) = varRef (val_main_v48 (F := Ideal) h x1 W b) j := by
  have hs : (∑ k : Fin 100000, val_main_v55 (F := Ideal) h x1 W b (idx_main_v56 (ix1 j) k))
      = ∑ n : Fin 100000, (val_main_v48 (F := Ideal) h x1 W b (ix2 n j) - mean (val_main_v48 (F := Ideal) h x1 W b) j)
          * (val_main_v48 (F := Ideal) h x1 W b (ix2 n j) - mean (val_main_v48 (F := Ideal) h x1 W b) j) := by
    refine Finset.sum_congr rfl fun k _ => ?_
    have e0 : idx_main_v56 (ix1 j) k = ix2 k j :=
      funext fun a => Fin.ext (by match a with | ⟨0, _⟩ => rfl | ⟨1, _⟩ => rfl)
    rw [e0, val_main_v55_apply, val_main_v54_apply, val_main_v53_apply, val_main_v52_apply]
    have e : idx_main_v52 (idx_main_v53 (ix2 k j)) = ix1 j :=
      funext fun a => Fin.ext (by match a with | ⟨0, _⟩ => rfl)
    rw [e, mean_eq]
    simp only [Ideal.mulf_def, Ideal.subf_def]
  rw [val_main_v58_apply, val_main_v56_apply, val_main_v57_apply, val_main_cst_10_apply, val_main_cst_11_apply, hs]
  simp only [Ideal.hostDivf_def, Ideal.ofBits_def, Ideal.ofBits_zero_f32, zero_add]
  unfold varRef cN
  rfl

theorem bn_eq (γ β : TH) :
    val_main_v73 (F := Ideal) h x1 W b γ β = bnRef (val_main_v48 (F := Ideal) h x1 W b) γ β := by
  funext i
  obtain ⟨p, q, rfl⟩ : ∃ (p : Fin 100000) (q : Fin 128), i = ix2 p q := ⟨i 0, i 1, eq_ix2 i⟩
  rw [val_main_v73_apply, val_main_v72_apply, val_main_v71_apply, val_main_v70_apply, val_main_v69_apply,
    val_main_v68_apply, val_main_v67_apply, val_main_v66_apply, val_main_v65_apply, val_main_v64_apply,
    val_main_v63_apply, val_main_v62_apply, val_main_cst_12_apply, val_main_v61_apply, val_main_v60_apply,
    val_main_v59_apply]
  have e1 : idx_main_v71 (idx_main_v72 (ix2 p q)) = ix1 q :=
    funext fun a => Fin.ext (by match a with | ⟨0, _⟩ => rfl)
  have e2 : idx_main_v68 (idx_main_v69 (ix2 p q)) = ix1 q :=
    funext fun a => Fin.ext (by match a with | ⟨0, _⟩ => rfl)
  have e3 : idx_main_v65 (idx_main_v66 (ix2 p q)) = ix1 q :=
    funext fun a => Fin.ext (by match a with | ⟨0, _⟩ => rfl)
  have e4 : idx_main_v59 (idx_main_v60 (ix2 p q)) = ix1 q :=
    funext fun a => Fin.ext (by match a with | ⟨0, _⟩ => rfl)
  rw [e1, e2, e3, e4, var_eq, mean_eq]
  simp only [Ideal.addf_def, Ideal.mulf_def, Ideal.subf_def, Ideal.hostUnary_rsqrt_def, Ideal.ofBits_def]
  rfl

end Norm

theorem layer_eq (h : TNH) (x1 : TE) (W : THH) (b γ β : TH) :
    val_main_v73 (F := Ideal) h x1 W b γ β = layerRef (aggR x1) (snR x1) h W b γ β := by
  rw [bn_eq, conv_eq]; rfl

section Compose
variable (x0 : TNH) (x1 : TE) (x4 : THH) (x5 : TH) (x6 : THH) (x7 : TH) (x8 : THH) (x9 x10 x11 x12 x13 x14 x15 : TH)

set_option maxHeartbeats 1000000 in
theorem layer2_term :
    val_main_v120 (F := Ideal) x0 x1 x4 x5 x6 x7 x10 x11 x12 x13
      = val_main_v73 (F := Ideal) (val_main_v73 (F := Ideal) x0 x1 x4 x5 x10 x11) x1 x6 x7 x12 x13 := rfl

set_option maxHeartbeats 1000000 in
theorem layer3_term :
    val_main_v167 (F := Ideal) x0 x1 x4 x5 x6 x7 x8 x9 x10 x11 x12 x13 x14 x15
      = val_main_v73 (F := Ideal) (val_main_v120 (F := Ideal) x0 x1 x4 x5 x6 x7 x10 x11 x12 x13) x1 x8 x9 x14 x15 := rfl

end Compose

abbrev TB := (⟨S100000, .i32⟩ : BufTy).Contents (Elt Ideal)

abbrev TGH := (⟨S256x128, .f32⟩ : BufTy).Contents (Elt Ideal)

abbrev TGC := (⟨S256x16, .f32⟩ : BufTy).Contents (Elt Ideal)

abbrev TZK := (⟨S144x2, .f32⟩ : BufTy).Contents (Elt Ideal)

abbrev TK := (⟨S2, .f32⟩ : BufTy).Contents (Elt Ideal)

set_option maxHeartbeats 1000000 in

theorem bt_eq (x2 : TB) : val_main_v169 (F := Ideal) x2 = btR x2 := rfl
set_option maxHeartbeats 1000000 in
theorem bt_eq' (x2 : TB) : val_main_v173 (F := Ideal) x2 = btR x2 := rfl

def poolT (x2 : TB) (u : TNH) : TGH :=
  Host.divf (F := Ideal) (φ := .f32)
    (Host.scatterAdd (F := Ideal) (φ := .f32) scatter_S256x128_S100000x1_S100000x128_1_0_0_1
      (val_main_v168 (F := Ideal)) (val_main_v169 (F := Ideal) x2) u)
    (val_main_v178 (F := Ideal) x2)

theorem count_eq (x2 : TB) (g : Fin 256) :
    val_main_v174 (F := Ideal) x2 (ix1 g)
      = ∑ _n ∈ Finset.univ.filter (fun n : Fin 100000 => (btR x2 (ix2 n 0)).toInt = (g.val : Int)), (1 : EReal) := by
  unfold val_main_v174 Host.scatterAdd
  rw [Ideal.hostScatterAdd_def, LibRows.scatterAdd_rows1 _ rfl rfl rfl rfl, val_main_v172_apply, val_main_cst_31_apply,
    bt_eq']
  simp only [Ideal.ofBits_def, Ideal.ofBits_zero_f32, zero_add]
  refine Finset.sum_congr rfl fun n _ => ?_
  rw [val_main_v171_apply, val_main_cst_30_apply]
  simp only [Ideal.ofBits_def, Ideal.ofBits_one_f32]

theorem poolT_eq (x2 : TB) (u : TNH) : poolT x2 u = poolRef u (btR x2) := by
  funext i
  obtain ⟨g, q, rfl⟩ : ∃ (g : Fin 256) (q : Fin 128), i = ix2 g q := ⟨i 0, i 1, eq_ix2 i⟩
  have hnum : Host.scatterAdd (F := Ideal) (φ := .f32) scatter_S256x128_S100000x1_S100000x128_1_0_0_1
      (val_main_v168 (F := Ideal)) (val_main_v169 (F := Ideal) x2) u (ix2 g q)
      = ∑ n ∈ Finset.univ.filter (fun n : Fin 100000 => (btR x2 (ix2 n 0)).toInt = (g.val : Int)), u (ix2 n q) := by
    unfold Host.scatterAdd
    rw [Ideal.hostScatterAdd_def, LibRows.scatterAdd_rows2 _ rfl rfl rfl rfl, val_main_v168_apply, val_main_cst_29_apply,
      bt_eq]
    simp only [Ideal.ofBits_def, Ideal.ofBits_zero_f32, zero_add]
  have hden : val_main_v178 (F := Ideal) x2 (ix2 g q)
      = max (∑ _n ∈ Finset.univ.filter (fun n : Fin 100000 => (btR x2 (ix2 n 0)).toInt = (g.val : Int)), (1 : EReal)) 1 := by
    rw [val_main_v178_apply, val_main_v177_apply, val_main_v176_apply, val_main_v175_apply, val_main_cst_32_apply]
    have e : idx_main_v177 (idx_main_v178 (ix2 g q)) = ix1 g :=
      funext fun a => Fin.ext (by match a with | ⟨0, _⟩ => rfl)
    rw [e, count_eq]
    simp only [Ideal.maximumf_def, Ideal.ofBits_def, Ideal.ofBits_one_f32]
  unfold poolT
  rw [hostDivf_apply, hnum, hden]
  unfold poolRef
  rfl

section Net
variable (x0 : TNH) (x1 : TE) (x2 : TB) (x3 : TGC) (x4 : THH) (x5 : TH) (x6 : THH) (x7 : TH) (x8 : THH)
  (x9 x10 x11 x12 x13 x14 x15 : TH) (x16 : TZK) (x17 : TK)

set_option maxHeartbeats 1000000 in

theorem pool_term :
    val_main_v179 (F := Ideal) x0 x1 x2 x4 x5 x6 x7 x8 x9 x10 x11 x12 x13 x14 x15
      = poolT x2 (val_main_v167 (F := Ideal) x0 x1 x4 x5 x6 x7 x8 x9 x10 x11 x12 x13 x14 x15) := rfl

set_option maxHeartbeats 1000000 in

theorem cat_term :
    val_main_v180 (F := Ideal) x0 x1 x2 x3 x4 x5 x6 x7 x8 x9 x10 x11 x12 x13 x14 x15
      = catR (val_main_v179 (F := Ideal) x0 x1 x2 x4 x5 x6 x7 x8 x9 x10 x11 x12 x13 x14 x15) x3 := rfl

set_option maxHeartbeats 1000000 in

theorem val_net :
    val_main_v184 (F := Ideal) x0 x1 x2 x3 x4 x5 x6 x7 x8 x9 x10 x11 x12 x13 x14 x15 x16 x17
      = netRef (aggR x1) (snR x1) catR x0 (btR x2) x3 x4 x5 x6 x7 x8 x9 x10 x11 x12 x13 x14 x15 x16 x17 := by
  have h3 : val_main_v167 (F := Ideal) x0 x1 x4 x5 x6 x7 x8 x9 x10 x11 x12 x13 x14 x15
      = layerRef (aggR x1) (snR x1) (layerRef (aggR x1) (snR x1) (layerRef (aggR x1) (snR x1) x0 x4 x5 x10 x11)
          x6 x7 x12 x13) x8 x9 x14 x15 := by
    rw [layer3_term, layer2_term, layer_eq, layer_eq, layer_eq]
  have hz : val_main_v180 (F := Ideal) x0 x1 x2 x3 x4 x5 x6 x7 x8 x9 x10 x11 x12 x13 x14 x15
      = catR (poolRef (layerRef (aggR x1) (snR x1) (layerRef (aggR x1) (snR x1)
          (layerRef (aggR x1) (snR x1) x0 x4 x5 x10 x11) x6 x7 x12 x13) x8 x9 x14 x15) (btR x2)) x3 := by
    rw [cat_term, pool_term, poolT_eq, h3]
  funext i
  obtain ⟨g, c, rfl⟩ : ∃ (g : Fin 256) (c : Fin 2), i = ix2 g c := ⟨i 0, i 1, eq_ix2 i⟩
  rw [val_main_v184_apply, val_main_v183_apply, val_main_v182_apply, val_main_v181_apply, hz]
  have e : idx_main_v182 (idx_main_v183 (ix2 g c)) = ix1 c :=
    funext fun a => Fin.ext (by match a with | ⟨0, _⟩ => rfl)
  rw [e]
  simp only [Ideal.addf_def]
  unfold netRef cls row2
  refine congrArg₂ (· + ·) (Finset.sum_congr rfl fun k _ => ?_) rfl
  have e1 : lidx_main_v181 (ix2 g c) k = ix2 g k :=
    funext fun a => Fin.ext (by match a with | ⟨0, _⟩ => rfl | ⟨1, _⟩ => rfl)
  have e2 : ridx_main_v181 (ix2 g c) k = ix2 k c :=
    funext fun a => Fin.ext (by match a with | ⟨0, _⟩ => rfl | ⟨1, _⟩ => rfl)
  rw [e1, e2]

end Net

open Idealize.ShloMosaic.TcCoe Idealize.SL.Sem Idealize.ShloMosaic.StableHlo

set_option maxHeartbeats 1000000 in

theorem ref_net (m : (ℓ : Loc nD τ sig) → Buf (Elt Ideal) ℓ) (c : Dev nD) :
    Cert.ReferenceIdeal.Value.res_main_v184 (F := Ideal) m c
      = netRef (aggR (m ((c.tc : Thread nD τ).loc main_arg1))) (snR (m ((c.tc : Thread nD τ).loc main_arg1))) catR
          (m ((c.tc : Thread nD τ).loc main_arg0)) (btR (m ((c.tc : Thread nD τ).loc main_arg2)))
          (m ((c.tc : Thread nD τ).loc main_arg3)) (m ((c.tc : Thread nD τ).loc main_arg4))
          (m ((c.tc : Thread nD τ).loc main_arg5)) (m ((c.tc : Thread nD τ).loc main_arg6))
          (m ((c.tc : Thread nD τ).loc main_arg7)) (m ((c.tc : Thread nD τ).loc main_arg8))
          (m ((c.tc : Thread nD τ).loc main_arg9)) (m ((c.tc : Thread nD τ).loc main_arg10))
          (m ((c.tc : Thread nD τ).loc main_arg11)) (m ((c.tc : Thread nD τ).loc main_arg12))
          (m ((c.tc : Thread nD τ).loc main_arg13)) (m ((c.tc : Thread nD τ).loc main_arg14))
          (m ((c.tc : Thread nD τ).loc main_arg15)) (m ((c.tc : Thread nD τ).loc main_arg16))
          (m ((c.tc : Thread nD τ).loc main_arg17)) := by
  rw [val_main_v184_eq]
  exact val_net _ _ _ _ _ _ _ _ _ _ _ _ _ _ _ _ _ _

end Cert.ReferenceIdeal.RefValue

end
-- ==== Proof.Algebra.lean ====
import proofs.«418928_j70858370450169_1_alg».proof.Proof.Model

noncomputable section

open scoped BigOperators
open Idealize.ShloMosaic Idealize.ShloMosaic.ValueIdx

namespace Cert.Algebra

open Cert.Spec Cert.Model

theorem cN_eq : cN = ((100000 : ℝ) : EReal) := by
  simp [cN, Ideal.ofBits, Ideal.ieee, -EReal.coe_mul]; norm_num

def epsR : ℝ := 10995116 * (2 : ℝ) ^ (-40 : ℤ)

theorem epsR_pos : 0 < epsR := by unfold epsR; positivity

theorem cEps_eq : cEps = (epsR : EReal) := by
  simp [cEps, epsR, Ideal.ofBits, Ideal.ieee, -EReal.coe_mul]

def ofR {s : Shape} (f : s.Idx → ℝ) : s.Idx → EReal := fun i => (f i : EReal)

theorem ofR_apply {s : Shape} (f : s.Idx → ℝ) (i : s.Idx) : ofR f i = (f i : EReal) := rfl

theorem isReal_ofR {s : Shape} (f : s.Idx → ℝ) : IsReal (ofR f) := fun i => ⟨f i, rfl⟩

theorem exists_ofR {s : Shape} {a : s.Idx → EReal} (h : IsReal a) : ∃ f : s.Idx → ℝ, a = ofR f :=
  ⟨fun i => (h i).choose, funext fun i => (h i).choose_spec⟩

theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem coe_max (x y : ℝ) : ((max x y : ℝ) : EReal) = max (x : EReal) (y : EReal) :=
  EReal.coe_strictMono.monotone.map_max

theorem isReal_mm {a : SNH.Idx → EReal} {w : SHH.Idx → EReal} (ha : IsReal a) (hw : IsReal w) : IsReal (mm a w) := by
  obtain ⟨f, rfl⟩ := exists_ofR ha
  obtain ⟨g, rfl⟩ := exists_ofR hw
  intro i
  exact ⟨∑ k : Fin 128, f (ix2 (i 0) k) * g (ix2 k (i 1)), by simp only [mm, ofR, coe_sum, EReal.coe_mul]⟩

theorem isReal_row {b : SH.Idx → EReal} (hb : IsReal b) : IsReal (row b) := fun j => hb (ix1 (j 1))

theorem isReal_comb {a xw : SNH.Idx → EReal} {sn : SN1.Idx → EReal} {b : S1H.Idx → EReal}
    (ha : IsReal a) (hxw : IsReal xw) (hsn : IsReal sn) (hb : IsReal b) : IsReal (comb a xw sn b) := by
  intro i
  obtain ⟨p, hp⟩ := ha i
  obtain ⟨x, hx⟩ := hxw i
  obtain ⟨s, hs⟩ := hsn (ix2 (i 0) 0)
  obtain ⟨c, hc⟩ := hb (ix2 0 (i 1))
  refine ⟨max ((p + s * x) + c) 0, ?_⟩
  simp only [comb, hp, hx, hs, hc, coe_max, EReal.coe_add, EReal.coe_mul, EReal.coe_zero]

section Layer

variable (agg : (SNH.Idx → EReal) → SNH.Idx → EReal) (sn : SN1.Idx → EReal)

theorem isReal_conv (hagg : ∀ a, IsReal a → IsReal (agg a)) (hsn : IsReal sn)
    {h : SNH.Idx → EReal} {W : SHH.Idx → EReal} {b : SH.Idx → EReal}
    (hh : IsReal h) (hW : IsReal W) (hb : IsReal b) : IsReal (conv agg sn h W b) :=
  isReal_comb (hagg _ (isReal_mm hh hW)) (isReal_mm hh hW) hsn (isReal_row hb)

end Layer

def meanR (f : SNH.Idx → ℝ) (j : Fin 128) : ℝ := (∑ n : Fin 100000, f (ix2 n j)) * (1 / 100000)

def varR (f : SNH.Idx → ℝ) (j : Fin 128) : ℝ :=
  (∑ n : Fin 100000, (f (ix2 n j) - meanR f j) * (f (ix2 n j) - meanR f j)) * (1 / 100000)

theorem mean_ofR (f : SNH.Idx → ℝ) (j : Fin 128) : mean (ofR f) j = (meanR f j : EReal) := by
  unfold mean meanR
  rw [cN_eq, Ideal.div_coe (by norm_num), EReal.coe_mul, coe_sum]
  rfl

theorem varRef_ofR (f : SNH.Idx → ℝ) (j : Fin 128) : varRef (ofR f) j = (varR f j : EReal) := by
  unfold varRef varR
  rw [mean_ofR, cN_eq, Ideal.div_coe (by norm_num), EReal.coe_mul, coe_sum]
  simp only [ofR_apply, EReal.coe_mul, EReal.coe_sub]

theorem var_identity (f : SNH.Idx → ℝ) (j : Fin 128) :
    (∑ n : Fin 100000, f (ix2 n j) * f (ix2 n j)) * (1 / 100000) - meanR f j * meanR f j = varR f j := by
  unfold varR
  have hsq : ∀ n : Fin 100000, (f (ix2 n j) - meanR f j) * (f (ix2 n j) - meanR f j)
      = f (ix2 n j) * f (ix2 n j) - 2 * meanR f j * f (ix2 n j) + meanR f j * meanR f j := fun n => by ring
  rw [Finset.sum_congr rfl (fun n _ => hsq n), Finset.sum_add_distrib, Finset.sum_sub_distrib, ← Finset.mul_sum,
    Finset.sum_const, Finset.card_univ, Fintype.card_fin, nsmul_eq_mul]
  have hS : (∑ n : Fin 100000, f (ix2 n j)) = 100000 * meanR f j := by unfold meanR; ring
  rw [hS]; push_cast; ring

theorem varKer_ofR (f : SNH.Idx → ℝ) (j : Fin 128) : varKer (ofR f) j = (varR f j : EReal) := by
  rw [← var_identity]
  unfold varKer
  rw [mean_ofR, cN_eq, Ideal.div_coe (by norm_num), EReal.coe_sub, EReal.coe_mul, EReal.coe_mul, coe_sum]
  simp only [ofR_apply, EReal.coe_mul]

theorem varR_nonneg (f : SNH.Idx → ℝ) (j : Fin 128) : 0 ≤ varR f j := by
  unfold varR
  exact mul_nonneg (Finset.sum_nonneg fun n _ => mul_self_nonneg _) (by norm_num)

def rstdR (f : SNH.Idx → ℝ) (j : Fin 128) : ℝ := (Real.sqrt (varR f j + epsR))⁻¹

theorem rsqrt_var (f : SNH.Idx → ℝ) (j : Fin 128) :
    Ideal.rsqrt ((varR f j : EReal) + cEps) = (rstdR f j : EReal) := by
  have hpos : 0 < varR f j + epsR := add_pos_of_nonneg_of_pos (varR_nonneg f j) epsR_pos
  rw [cEps_eq, ← EReal.coe_add, Ideal.rsqrt_coe, if_neg (not_lt.mpr hpos.le), if_neg hpos.ne']
  rfl

def bnR (f : SNH.Idx → ℝ) (g b : SH.Idx → ℝ) : SNH.Idx → ℝ :=
  fun i => ((f i - meanR f (i 1)) * rstdR f (i 1)) * g (ix1 (i 1)) + b (ix1 (i 1))

theorem bnRef_ofR (f : SNH.Idx → ℝ) (g b : SH.Idx → ℝ) : bnRef (ofR f) (ofR g) (ofR b) = ofR (bnR f g b) := by
  have key : ∀ (x : ℝ) (j : Fin 128),
      ((x : EReal) - mean (ofR f) j) * Ideal.rsqrt (varRef (ofR f) j + cEps) * ofR g (ix1 j) + ofR b (ix1 j)
        = (((x - meanR f j) * rstdR f j * g (ix1 j) + b (ix1 j) : ℝ) : EReal) := by
    intro x j
    rw [mean_ofR, varRef_ofR, rsqrt_var]
    simp only [ofR_apply, EReal.coe_add, EReal.coe_mul, EReal.coe_sub]
  funext i
  exact key (f i) (i 1)

theorem bnKer_ofR (f : SNH.Idx → ℝ) (g b : SH.Idx → ℝ) : bnKer (ofR f) (ofR g) (ofR b) = ofR (bnR f g b) := by
  have key : ∀ (x : ℝ) (j : Fin 128),
      (x : EReal) * (ofR g (ix1 j) * Ideal.rsqrt (varKer (ofR f) j + cEps))
          + (ofR b (ix1 j) - mean (ofR f) j * (ofR g (ix1 j) * Ideal.rsqrt (varKer (ofR f) j + cEps)))
        = (((x - meanR f j) * rstdR f j * g (ix1 j) + b (ix1 j) : ℝ) : EReal) := by
    intro x j
    rw [mean_ofR, varKer_ofR, rsqrt_var]
    simp only [ofR_apply, ← EReal.coe_add, ← EReal.coe_mul, ← EReal.coe_sub]
    congr 1
    ring
  funext i
  exact key (f i) (i 1)

section Net

variable (agg : (SNH.Idx → EReal) → SNH.Idx → EReal) (sn : SN1.Idx → EReal)

theorem layer_eq (hagg : ∀ a, IsReal a → IsReal (agg a)) (hsn : IsReal sn)
    {h : SNH.Idx → EReal} {W : SHH.Idx → EReal} {b γ β : SH.Idx → EReal}
    (hh : IsReal h) (hW : IsReal W) (hb : IsReal b) (hγ : IsReal γ) (hβ : IsReal β) :
    layerKer agg sn h W b γ β = layerRef agg sn h W b γ β := by
  obtain ⟨f, hf⟩ := exists_ofR (isReal_conv agg sn hagg hsn hh hW hb)
  obtain ⟨g, rfl⟩ := exists_ofR hγ
  obtain ⟨c, rfl⟩ := exists_ofR hβ
  unfold layerKer layerRef
  rw [hf, bnKer_ofR, bnRef_ofR]

theorem isReal_layerRef (hagg : ∀ a, IsReal a → IsReal (agg a)) (hsn : IsReal sn)
    {h : SNH.Idx → EReal} {W : SHH.Idx → EReal} {b γ β : SH.Idx → EReal}
    (hh : IsReal h) (hW : IsReal W) (hb : IsReal b) (hγ : IsReal γ) (hβ : IsReal β) :
    IsReal (layerRef agg sn h W b γ β) := by
  obtain ⟨f, hf⟩ := exists_ofR (isReal_conv agg sn hagg hsn hh hW hb)
  obtain ⟨g, rfl⟩ := exists_ofR hγ
  obtain ⟨c, rfl⟩ := exists_ofR hβ
  unfold layerRef
  rw [hf, bnRef_ofR]
  exact isReal_ofR _

end Net

theorem toInt_eq_iff (b : BitVec 32) (g : Fin 256) : b.toInt = ((g.val : ℕ) : ℤ) ↔ b = BitVec.ofNat 32 g.val := by
  constructor
  · intro h
    rw [← BitVec.ofInt_natCast, ← h, BitVec.ofInt_toInt]
  · rintro rfl
    have hg := g.isLt
    simp only [BitVec.toInt, BitVec.toNat_ofNat]
    omega

theorem pool_eq (h : SNH.Idx → EReal) (bt : SN1.Idx → BitVec 32) : pool h bt = poolRef h bt := by
  funext i
  unfold pool poolRef
  rw [Finset.sum_filter, Finset.sum_filter]
  have hw : ∀ (n : Fin 100000) (x : EReal), hit (bt (ix2 n 0)) (i 0) * x
      = if (bt (ix2 n 0)).toInt = (((i 0).val : ℕ) : ℤ) then x else 0 := by
    intro n x
    unfold hit
    by_cases hc : bt (ix2 n 0) = BitVec.ofNat 32 (i 0).val
    · rw [if_pos hc, if_pos ((toInt_eq_iff _ _).mpr hc), one_mul]
    · rw [if_neg hc, if_neg (mt (toInt_eq_iff _ _).mp hc), zero_mul]
  refine congrArg₂ Ideal.div ?_ (congrArg (fun t => max t 1) ?_)
  · exact Finset.sum_congr rfl fun n _ => hw n _
  · exact Finset.sum_congr rfl fun n _ => by rw [← hw n 1, mul_one]

theorem net_eq (agg : (SNH.Idx → EReal) → SNH.Idx → EReal) (sn : SN1.Idx → EReal)
    (cat : (SGH.Idx → EReal) → (SGC.Idx → EReal) → SGZ.Idx → EReal)
    (hagg : ∀ a, IsReal a → IsReal (agg a)) (hsn : IsReal sn)
    (x : SNH.Idx → EReal) (bt : SN1.Idx → BitVec 32) (cl : SGC.Idx → EReal)
    (W1 : SHH.Idx → EReal) (b1 : SH.Idx → EReal) (W2 : SHH.Idx → EReal) (b2 : SH.Idx → EReal)
    (W3 : SHH.Idx → EReal) (b3 : SH.Idx → EReal) (g1 be1 g2 be2 g3 be3 : SH.Idx → EReal)
    (Wc : SZK.Idx → EReal) (bc : SK.Idx → EReal)
    (hx : IsReal x) (hW1 : IsReal W1) (hb1 : IsReal b1) (hW2 : IsReal W2) (hb2 : IsReal b2)
    (hW3 : IsReal W3) (hb3 : IsReal b3) (hg1 : IsReal g1) (hbe1 : IsReal be1) (hg2 : IsReal g2) (hbe2 : IsReal be2)
    (hg3 : IsReal g3) (hbe3 : IsReal be3) :
    netKer agg sn cat x bt cl W1 b1 W2 b2 W3 b3 g1 be1 g2 be2 g3 be3 Wc bc
      = netRef agg sn cat x bt cl W1 b1 W2 b2 W3 b3 g1 be1 g2 be2 g3 be3 Wc bc := by
  have h1 := isReal_layerRef agg sn hagg hsn hx hW1 hb1 hg1 hbe1
  have h2 := isReal_layerRef agg sn hagg hsn h1 hW2 hb2 hg2 hbe2
  unfold netKer netRef
  rw [layer_eq agg sn hagg hsn hx hW1 hb1 hg1 hbe1, layer_eq agg sn hagg hsn h1 hW2 hb2 hg2 hbe2,
    layer_eq agg sn hagg hsn h2 hW3 hb3 hg3 hbe3, pool_eq]

end Cert.Algebra

end
-- ==== Proof.HostFin.lean ====
import proofs.«418928_j70858370450169_1_alg».proof.Defs
import proofs.«418928_j70858370450169_1_alg».proof.Proof.Model
import proofs.«418928_j70858370450169_1_alg».proof.Proof.KI.HostTerms
import Idealize.ShloMosaic.Lib.ReduceAll
import Idealize.ShloMosaic.PureOps.Contract
import Idealize.ShloMosaic.PureOps.ShapeOps

noncomputable section
open scoped BigOperators
open Idealize.ShloMosaic Idealize.ShloMosaic.ValueIdx Idealize.SL.Sem

namespace Cert.HostFin

open Cert.Model

theorem inf_eq_top : Ideal.ofBits .f32 0x7F800000#32 = (⊤ : EReal) := by
  simp [Ideal.ofBits, Ideal.ieee]

theorem real_of_abs_lt_inf (x : EReal)
    (h : Ideal.cmp .olt (max x (-x)) (Ideal.ofBits .f32 0x7F800000#32) = 1#1) : ∃ r : ℝ, x = (r : EReal) := by
  rw [inf_eq_top] at h
  induction x using EReal.rec with
  | bot => simp [Ideal.cmp] at h
  | coe r => exact ⟨r, rfl⟩
  | top => simp [Ideal.cmp] at h

instance : Subsingleton Cert.Pre_finite_inputs.S_.Idx := ⟨fun a b => funext fun d => d.elim0⟩

theorem isReal_of_all {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (e : Host.reduce IntOp.andi
          (cmpf .olt (Host.absf x) (broadcastInDim s ![] hb (constant (F := Ideal) Cert.Pre_finite_inputs.S_ .f32 0x7F800000#32)))
          (constantI Cert.Pre_finite_inputs.S_ 1 1#1) hr hu ix0 = 1#1) : IsReal x := by
  intro i
  have h := Host.reduce_andi_all _ _ hr hu ix0 e i
  exact real_of_abs_lt_inf (x i) h

open Cert.Pre_finite_inputs in

theorem fn_real [Cert.Pre_finite_inputs.Facts]
    (a0 : FVec Ideal S100000x128 .f32) (a1 : IVec S2x1600000 32) (a2 : IVec S100000 32) (a3 : FVec Ideal S256x16 .f32)
    (a4 : FVec Ideal S128x128 .f32) (a5 : FVec Ideal S128 .f32) (a6 : FVec Ideal S128x128 .f32) (a7 : FVec Ideal S128 .f32)
    (a8 : FVec Ideal S128x128 .f32) (a9 a10 a11 a12 a13 a14 a15 : FVec Ideal S128 .f32)
    (a16 : FVec Ideal S144x2 .f32) (a17 : FVec Ideal S2 .f32)
    (h : Cert.Pre_finite_inputs.fn (F := Ideal) a0 a1 a2 a3 a4 a5 a6 a7 a8 a9 a10 a11 a12 a13 a14 a15 a16 a17 = fun _ => 1#1) :
    IsReal a0 ∧ IsReal a3 ∧ IsReal a4 ∧ IsReal a5 ∧ IsReal a6 ∧ IsReal a7 ∧ IsReal a8 ∧ IsReal a9 ∧ IsReal a10
      ∧ IsReal a11 ∧ IsReal a12 ∧ IsReal a13 ∧ IsReal a14 ∧ IsReal a15 ∧ IsReal a16 ∧ IsReal a17 := by
  have h0 := congrFun h ix0
  dsimp only [fn, fn_part1, fn_part2, fn_part3, fn_part4, andi] at h0
  simp only [IntOp.andi_eq_one, and_assoc] at h0
  obtain ⟨e0, e3, e4, e5, e6, e7, e8, e9, e10, e11, e12, e13, e14, e15, e16, e17⟩ := h0
  exact ⟨isReal_of_all _ _ _ _ e0, isReal_of_all _ _ _ _ e3, isReal_of_all _ _ _ _ e4, isReal_of_all _ _ _ _ e5,
    isReal_of_all _ _ _ _ e6, isReal_of_all _ _ _ _ e7, isReal_of_all _ _ _ _ e8, isReal_of_all _ _ _ _ e9,
    isReal_of_all _ _ _ _ e10, isReal_of_all _ _ _ _ e11, isReal_of_all _ _ _ _ e12, isReal_of_all _ _ _ _ e13,
    isReal_of_all _ _ _ _ e14, isReal_of_all _ _ _ _ e15, isReal_of_all _ _ _ _ e16, isReal_of_all _ _ _ _ e17⟩

section Pre
open Cert.KernelIdeal Cert.Spec

variable [Cert.Pre_finite_inputs.Facts]
  (m : (ℓ : Loc Cert.KernelIdeal.nD Cert.KernelIdeal.τ Cert.KernelIdeal.sig) → Buf (Elt Ideal) ℓ)

theorem pre_real (h : Cert.Pre_KernelIdeal m) (c : Dev Cert.KernelIdeal.nD) :
    IsReal (s := SNH) (m ((c.tc : Thread nD τ).loc main_arg0))
      ∧ IsReal (s := SGC) (m ((c.tc : Thread nD τ).loc main_arg3))
      ∧ IsReal (s := SHH) (m ((c.tc : Thread nD τ).loc main_arg4))
      ∧ IsReal (s := SH) (m ((c.tc : Thread nD τ).loc main_arg5))
      ∧ IsReal (s := SHH) (m ((c.tc : Thread nD τ).loc main_arg6))
      ∧ IsReal (s := SH) (m ((c.tc : Thread nD τ).loc main_arg7))
      ∧ IsReal (s := SHH) (m ((c.tc : Thread nD τ).loc main_arg8))
      ∧ IsReal (s := SH) (m ((c.tc : Thread nD τ).loc main_arg9))
      ∧ IsReal (s := SH) (m ((c.tc : Thread nD τ).loc main_arg10))
      ∧ IsReal (s := SH) (m ((c.tc : Thread nD τ).loc main_arg11))
      ∧ IsReal (s := SH) (m ((c.tc : Thread nD τ).loc main_arg12))
      ∧ IsReal (s := SH) (m ((c.tc : Thread nD τ).loc main_arg13))
      ∧ IsReal (s := SH) (m ((c.tc : Thread nD τ).loc main_arg14))
      ∧ IsReal (s := SH) (m ((c.tc : Thread nD τ).loc main_arg15))
      ∧ IsReal (s := SZK) (m ((c.tc : Thread nD τ).loc main_arg16))
      ∧ IsReal (s := SK) (m ((c.tc : Thread nD τ).loc main_arg17)) :=
  fn_real _ _ _ _ _ _ _ _ _ _ _ _ _ _ _ _ _ _ (h c)

theorem real_arg0 (h : Cert.Pre_KernelIdeal m) (c : Dev Cert.KernelIdeal.nD) :
    IsReal (s := SNH) (m ((c.tc : Thread nD τ).loc main_arg0)) := (pre_real m h c).1
theorem real_arg3 (h : Cert.Pre_KernelIdeal m) (c : Dev Cert.KernelIdeal.nD) :
    IsReal (s := SGC) (m ((c.tc : Thread nD τ).loc main_arg3)) := (pre_real m h c).2.1
theorem real_arg4 (h : Cert.Pre_KernelIdeal m) (c : Dev Cert.KernelIdeal.nD) :
    IsReal (s := SHH) (m ((c.tc : Thread nD τ).loc main_arg4)) := (pre_real m h c).2.2.1
theorem real_arg5 (h : Cert.Pre_KernelIdeal m) (c : Dev Cert.KernelIdeal.nD) :
    IsReal (s := SH) (m ((c.tc : Thread nD τ).loc main_arg5)) := (pre_real m h c).2.2.2.1
theorem real_arg6 (h : Cert.Pre_KernelIdeal m) (c : Dev Cert.KernelIdeal.nD) :
    IsReal (s := SHH) (m ((c.tc : Thread nD τ).loc main_arg6)) := (pre_real m h c).2.2.2.2.1
theorem real_arg7 (h : Cert.Pre_KernelIdeal m) (c : Dev Cert.KernelIdeal.nD) :
    IsReal (s := SH) (m ((c.tc : Thread nD τ).loc main_arg7)) := (pre_real m h c).2.2.2.2.2.1
theorem real_arg8 (h : Cert.Pre_KernelIdeal m) (c : Dev Cert.KernelIdeal.nD) :
    IsReal (s := SHH) (m ((c.tc : Thread nD τ).loc main_arg8)) := (pre_real m h c).2.2.2.2.2.2.1
theorem real_arg9 (h : Cert.Pre_KernelIdeal m) (c : Dev Cert.KernelIdeal.nD) :
    IsReal (s := SH) (m ((c.tc : Thread nD τ).loc main_arg9)) := (pre_real m h c).2.2.2.2.2.2.2.1
theorem real_arg10 (h : Cert.Pre_KernelIdeal m) (c : Dev Cert.KernelIdeal.nD) :
    IsReal (s := SH) (m ((c.tc : Thread nD τ).loc main_arg10)) := (pre_real m h c).2.2.2.2.2.2.2.2.1
theorem real_arg11 (h : Cert.Pre_KernelIdeal m) (c : Dev Cert.KernelIdeal.nD) :
    IsReal (s := SH) (m ((c.tc : Thread nD τ).loc main_arg11)) := (pre_real m h c).2.2.2.2.2.2.2.2.2.1
theorem real_arg12 (h : Cert.Pre_KernelIdeal m) (c : Dev Cert.KernelIdeal.nD) :
    IsReal (s := SH) (m ((c.tc : Thread nD τ).loc main_arg12)) := (pre_real m h c).2.2.2.2.2.2.2.2.2.2.1
theorem real_arg13 (h : Cert.Pre_KernelIdeal m) (c : Dev Cert.KernelIdeal.nD) :
    IsReal (s := SH) (m ((c.tc : Thread nD τ).loc main_arg13)) := (pre_real m h c).2.2.2.2.2.2.2.2.2.2.2.1
theorem real_arg14 (h : Cert.Pre_KernelIdeal m) (c : Dev Cert.KernelIdeal.nD) :
    IsReal (s := SH) (m ((c.tc : Thread nD τ).loc main_arg14)) := (pre_real m h c).2.2.2.2.2.2.2.2.2.2.2.2.1
theorem real_arg15 (h : Cert.Pre_KernelIdeal m) (c : Dev Cert.KernelIdeal.nD) :
    IsReal (s := SH) (m ((c.tc : Thread nD τ).loc main_arg15)) := (pre_real m h c).2.2.2.2.2.2.2.2.2.2.2.2.2.1
theorem real_arg16 (h : Cert.Pre_KernelIdeal m) (c : Dev Cert.KernelIdeal.nD) :
    IsReal (s := SZK) (m ((c.tc : Thread nD τ).loc main_arg16)) := (pre_real m h c).2.2.2.2.2.2.2.2.2.2.2.2.2.2.1
theorem real_arg17 (h : Cert.Pre_KernelIdeal m) (c : Dev Cert.KernelIdeal.nD) :
    IsReal (s := SK) (m ((c.tc : Thread nD τ).loc main_arg17)) := (pre_real m h c).2.2.2.2.2.2.2.2.2.2.2.2.2.2.2

end Pre

theorem sum_coe_of {ι : Type} (P : ℝ → Prop) (h0 : P 0) (hadd : ∀ a b, P a → P b → P (a + b))
    (S : Finset ι) (f : ι → EReal) (hf : ∀ i ∈ S, ∃ r : ℝ, P r ∧ f i = (r : EReal)) :
    ∃ r : ℝ, P r ∧ ∑ i ∈ S, f i = (r : EReal) := by
  classical
  induction S using Finset.induction_on with
  | empty => exact ⟨0, h0, by simp⟩
  | insert a S ha ih =>
    obtain ⟨r, hr, er⟩ := hf a (Finset.mem_insert_self a S)
    obtain ⟨q, hq, eq⟩ := ih fun i hi => hf i (Finset.mem_insert_of_mem hi)
    exact ⟨r + q, hadd r q hr hq, by rw [Finset.sum_insert ha, er, eq, EReal.coe_add]⟩

theorem zero_eq : Ideal.ofBits .f32 0x00000000#32 = (0 : EReal) := by
  simp [Ideal.ofBits, Ideal.ieee]

theorem one_eq : Ideal.ofBits .f32 0x3F800000#32 = (1 : EReal) := by
  simp [Ideal.ofBits, Ideal.ieee, -EReal.coe_mul]; norm_num

section Ops
variable {s t si : Shape} {w : Nat}

def AllP (P : ℝ → Prop) (a : s.Idx → EReal) : Prop := ∀ i, ∃ r : ℝ, P r ∧ a i = (r : EReal)

theorem isReal_of_allP {P : ℝ → Prop} {a : s.Idx → EReal} (h : AllP P a) : IsReal a :=
  fun i => let ⟨r, _, e⟩ := h i; ⟨r, e⟩

theorem allP_true {a : s.Idx → EReal} (h : IsReal a) : AllP (fun _ => True) a :=
  fun i => let ⟨r, e⟩ := h i; ⟨r, trivial, e⟩

theorem allP_gather {P : ℝ → Prop} (d : GatherDims s si t) (x : s.Idx → EReal) (idx : IVec si w) (hx : AllP P x) :
    AllP P (Host.gather d x idx) := fun j => hx _

theorem allP_broadcastInDim {P : ℝ → Prop} (dims : Fin s.rank → Fin t.rank) (h : s.BroadcastsInDim t dims)
    (x : s.Idx → EReal) (hx : AllP P x) : AllP P (broadcastInDim t dims h x) := fun j => hx _

theorem allP_shapeCast {P : ℝ → Prop} (x : s.Idx → EReal) (h : s.ShapeCasts t) (hx : AllP P x) :
    AllP P (shapeCast t x h) := fun j => hx _

theorem allP_zero {P : ℝ → Prop} (h0 : P 0) : AllP P (constant (F := Ideal) s .f32 0x00000000#32) :=
  fun _ => ⟨0, h0, zero_eq⟩

theorem allP_one {P : ℝ → Prop} (h1 : P 1) : AllP P (constant (F := Ideal) s .f32 0x3F800000#32) :=
  fun _ => ⟨1, h1, one_eq⟩

theorem allP_mulf {P Q R : ℝ → Prop} (hmul : ∀ a b, P a → Q b → R (a * b)) (x y : FVec Ideal s .f32)
    (hx : AllP P x) (hy : AllP Q y) : AllP R (mulf x y) := fun i => by
  obtain ⟨a, ha, ea⟩ := hx i
  obtain ⟨b, hb, eb⟩ := hy i
  exact ⟨a * b, hmul a b ha hb, by show x i * y i = _; rw [ea, eb, EReal.coe_mul]⟩

theorem allP_addf {P Q R : ℝ → Prop} (hadd : ∀ a b, P a → Q b → R (a + b)) (x y : FVec Ideal s .f32)
    (hx : AllP P x) (hy : AllP Q y) : AllP R (addf x y) := fun i => by
  obtain ⟨a, ha, ea⟩ := hx i
  obtain ⟨b, hb, eb⟩ := hy i
  exact ⟨a + b, hadd a b ha hb, by show x i + y i = _; rw [ea, eb, EReal.coe_add]⟩

theorem allP_scatterAdd {P : ℝ → Prop} (h0 : P 0) (hadd : ∀ a b, P a → P b → P (a + b))
    {su : Shape} (d : ScatterDims s si su) (x : FVec Ideal s .f32) (idx : IVec si w) (upd : FVec Ideal su .f32)
    (hx : AllP P x) (hu : AllP P upd) : AllP P (Host.scatterAdd d x idx upd) := fun i => by
  obtain ⟨a, ha, ea⟩ := hx i
  obtain ⟨b, hb, eb⟩ := sum_coe_of P h0 hadd (Finset.univ.filter (fun j => d.resultIdx? j idx = some i)) upd
    (fun j _ => hu j)
  exact ⟨a + b, hadd a b ha hb, by
    show x i + ∑ j ∈ Finset.univ.filter (fun j => d.resultIdx? j idx = some i), upd j = _
    rw [ea, eb, EReal.coe_add]⟩

theorem allP_rsqrt (x : FVec Ideal s .f32) (hx : AllP (fun r => 0 < r) x) : AllP (fun r => 0 < r) (Host.rsqrt x) :=
  fun i => by
  obtain ⟨a, ha, ea⟩ := hx i
  refine ⟨(Real.sqrt a)⁻¹, inv_pos.mpr (Real.sqrt_pos.mpr ha), ?_⟩
  show Ideal.rsqrt (x i) = _
  rw [ea, Ideal.rsqrt_coe, if_neg (not_lt.mpr ha.le), if_neg ha.ne']

end Ops

section Terms
open Cert.KernelIdeal Cert.KernelIdeal.Gen Cert.KernelIdeal.Hand

theorem degK_pos (ei : ArrI S2x1600000) : AllP (fun r => 0 < r) (degK ei) :=
  allP_addf (P := fun r => 0 ≤ r) (Q := fun r => 0 < r) (fun _ _ ha hb => add_pos_of_nonneg_of_pos ha hb) _ _
    (allP_scatterAdd (P := fun r => 0 ≤ r) le_rfl (fun _ _ => add_nonneg) _ _ _ _
      (allP_broadcastInDim _ _ _ (allP_zero le_rfl)) (allP_broadcastInDim _ _ _ (allP_one zero_le_one)))
    (allP_broadcastInDim _ _ _ (allP_one zero_lt_one))

theorem disK_pos (ei : ArrI S2x1600000) : AllP (fun r => 0 < r) (disK ei) := allP_rsqrt _ (degK_pos ei)

theorem normK_real (ei : ArrI S2x1600000) : IsReal (normK ei) :=
  isReal_of_allP (allP_mulf (R := fun _ => True) (fun _ _ _ _ => trivial) _ _
    (allP_gather _ _ _ (disK_pos ei)) (allP_gather _ _ _ (disK_pos ei)))

theorem snK_real (ei : ArrI S2x1600000) : IsReal (snK ei) :=
  isReal_of_allP (allP_shapeCast _ _ (allP_mulf (R := fun _ => True) (fun _ _ _ _ => trivial) _ _
    (disK_pos ei) (disK_pos ei)))

theorem aggK_real (ei : ArrI S2x1600000) (f : Cert.Spec.SNH.Idx → EReal) (hf : IsReal f) : IsReal (aggK ei f) :=
  isReal_of_allP (allP_scatterAdd (P := fun _ => True) trivial (fun _ _ _ _ => trivial) _ _ _ _
    (allP_broadcastInDim _ _ _ (allP_zero trivial))
    (allP_mulf (P := fun _ => True) (Q := fun _ => True) (fun _ _ _ _ => trivial) _ _
      (allP_broadcastInDim _ _ _ (allP_broadcastInDim _ _ _ (allP_true (normK_real ei))))
      (allP_gather _ _ _ (allP_true hf))))

end Terms

end Cert.HostFin

end
-- ==== Proof.HostEq.lean ====
import proofs.«418928_j70858370450169_1_alg».proof.Proof.Model
import proofs.«418928_j70858370450169_1_alg».proof.Proof.KI.HostTerms
import proofs.«418928_j70858370450169_1_alg».proof.Proof.Ref.HostTermsR
import Idealize.ShloMosaic.Lib.Pipeline.Value

noncomputable section
open Idealize.ShloMosaic Idealize.ShloMosaic.ValueIdx

namespace Cert.HostEq

open Cert.Spec Cert.Model
open Cert.KernelIdeal.Hand Cert.ReferenceIdeal.RefValue

theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

theorem broadcastInDim_a_a1_apply {α : Type} {a : ℕ} (x : (⟨1, ![a]⟩ : Shape).Idx → α)
    (h : (⟨1, ![a]⟩ : Shape).BroadcastsInDim ⟨2, ![a, 1]⟩ (![0] : Fin 1 → Fin 2)) (i : Fin a) (u : Fin 1) :
    broadcastInDim ⟨2, ![a, 1]⟩ ![0] h x (ix2 i u) = x (ix1 i) :=
  broadcastInDim_apply _ h x _ _ (fun d => by
    match d with
    | ⟨0, _⟩ =>
      show i.val = if a = 1 then 0 else i.val
      have := i.isLt
      split <;> omega)

abbrev EI : Type := IVec ⟨2, ![2, 1600000]⟩ 32

theorem srcR_eq (ei : EI) : srcR ei = srcK ei := rfl
theorem dstR_eq (ei : EI) : dstR ei = dstK ei := rfl
theorem wrapR_eq (i : IVec ⟨1, ![1600000]⟩ 32) : wrapR i = wrapK i := rfl
theorem degR_eq (ei : EI) : degR ei = degK ei := rfl
theorem disR_eq (ei : EI) : disR ei = disK ei := rfl
theorem normR_eq (ei : EI) : normR ei = normK ei := rfl
theorem selfR_eq (ei : EI) : selfR ei = selfK ei := rfl
theorem aggTR_eq (nrm : FVec Ideal ⟨1, ![1600000]⟩ .f32) (src dst : IVec ⟨1, ![1600000]⟩ 32)
    (f : FVec Ideal ⟨2, ![100000, 128]⟩ .f32) : aggTR nrm src dst f = aggT nrm src dst f := rfl

theorem aggR_eq (ei : EI) : aggR ei = aggK ei := rfl

theorem snR_eq (ei : EI) : snR ei = snK ei := by
  funext i
  obtain ⟨n, u, rfl⟩ : ∃ (n : Fin 100000) (u : Fin 1), i = ix2 n u := ⟨i 0, i 1, eq_ix2 i⟩
  show broadcastInDim ⟨2, ![100000, 1]⟩ ![0] _ (selfR ei) (ix2 n u) = shapeCast ⟨2, ![100000, 1]⟩ (selfK ei) _ (ix2 n u)
  rw [broadcastInDim_a_a1_apply, shapeCast_a_a1_apply, selfR_eq]

theorem catR_eq : catR = catK := rfl

theorem btR_eq (b : IVec ⟨1, ![100000]⟩ 32) : btR b = btK b := by
  funext i
  obtain ⟨n, u, rfl⟩ : ∃ (n : Fin 100000) (u : Fin 1), i = ix2 n u := ⟨i 0, i 1, eq_ix2 i⟩
  show broadcastInDim ⟨2, ![100000, 1]⟩ ![0] _ b (ix2 n u) = shapeCast ⟨2, ![100000, 1]⟩ b _ (ix2 n u)
  rw [broadcastInDim_a_a1_apply, shapeCast_a_a1_apply]

end Cert.HostEq

end
-- ==== Proof.Claims.lean ====
import proofs.«418928_j70858370450169_1_alg».proof.Defs
import proofs.«418928_j70858370450169_1_alg».proof.Proof.Gen.Kernel
import proofs.«418928_j70858370450169_1_alg».proof.Proof.Gen.KernelIdeal
import proofs.«418928_j70858370450169_1_alg».proof.Proof.Gen.ReferenceIdeal
import proofs.«418928_j70858370450169_1_alg».proof.Proof.Gen.Pre_finite_inputs
import proofs.«418928_j70858370450169_1_alg».proof.Proof.KI.Segs
import proofs.«418928_j70858370450169_1_alg».proof.Proof.K.Segs
import proofs.«418928_j70858370450169_1_alg».proof.Proof.KI.Chain
import proofs.«418928_j70858370450169_1_alg».proof.Proof.Ref.RefNet
import proofs.«418928_j70858370450169_1_alg».proof.Proof.Algebra
import proofs.«418928_j70858370450169_1_alg».proof.Proof.HostFin
import proofs.«418928_j70858370450169_1_alg».proof.Proof.HostEq

noncomputable section

namespace Cert.Proof.Claims

open Idealize.ShloMosaic Idealize.SL.Sem

theorem frame_k : Cert.frame_Kernel := fun m ρ _ =>
  (θ_run Cert.Kernel.defs _ _).mono (fun _ h c => (h c).2) (Cert.Kernel.Hand.run_all (F := Bits) m ρ)

theorem frame_ki : Cert.frame_KernelIdeal := fun m ρ _ =>
  (θ_run Cert.KernelIdeal.defs _ _).mono (fun _ h c => (h c).2) (Cert.KernelIdeal.Hand.run_all (F := Ideal) m ρ)

theorem frame_ri : Cert.frame_ReferenceIdeal := Cert.ReferenceIdeal.RefValue.frame_ri

theorem preserves : Cert.preserves_Kernel_KernelIdeal := trivial

theorem algebraic : Cert.algebraic_KernelIdeal_ReferenceIdeal := by
  intro m g m' g' hpre hagree
  refine ⟨fun c => Cert.KernelIdeal.Hand.U20 (F := Ideal) m c (Proc.devRef .tc Cert.KernelIdeal.main_v133),
    Cert.KernelIdeal.Hand.run_all (F := Ideal) m g, ?_⟩
  refine (θ_run Cert.ReferenceIdeal.defs _ _).mono (fun r h c => ⟨(h c).1.trans ?_, (h c).2⟩)
    (Cert.ReferenceIdeal.Value.run (F := Ideal) m' g')
  obtain ⟨a0, a1, a2, a3, a4, a5, a6, a7, a8, a9, a10, a11, a12, a13, a14, a15, a16, a17⟩ := hagree c
  rw [Cert.ReferenceIdeal.RefValue.ref_net m' c, a0, a1, a2, a3, a4, a5, a6, a7, a8, a9, a10, a11, a12, a13, a14, a15,
    a16, a17, Cert.HostEq.aggR_eq, Cert.HostEq.snR_eq, Cert.HostEq.catR_eq, Cert.HostEq.btR_eq]
  exact ((Cert.KernelIdeal.Hand.chain m c).trans
    (Cert.Algebra.net_eq _ _ _ (fun a ha => Cert.HostFin.aggK_real _ a ha) (Cert.HostFin.snK_real _)
      _ _ _ _ _ _ _ _ _ _ _ _ _ _ _ _ _
      (Cert.HostFin.real_arg0 m hpre c) (Cert.HostFin.real_arg4 m hpre c) (Cert.HostFin.real_arg5 m hpre c)
      (Cert.HostFin.real_arg6 m hpre c) (Cert.HostFin.real_arg7 m hpre c) (Cert.HostFin.real_arg8 m hpre c)
      (Cert.HostFin.real_arg9 m hpre c) (Cert.HostFin.real_arg10 m hpre c) (Cert.HostFin.real_arg11 m hpre c)
      (Cert.HostFin.real_arg12 m hpre c) (Cert.HostFin.real_arg13 m hpre c) (Cert.HostFin.real_arg14 m hpre c)
      (Cert.HostFin.real_arg15 m hpre c))).symm

end Cert.Proof.Claims

end
-- ==== Proof.lean ====
import proofs.«418928_j70858370450169_1_alg».proof.Defs
import proofs.«418928_j70858370450169_1_alg».proof.Proof.Gen.Kernel
import proofs.«418928_j70858370450169_1_alg».proof.Proof.Gen.KernelIdeal
import proofs.«418928_j70858370450169_1_alg».proof.Proof.Gen.ReferenceIdeal
import proofs.«418928_j70858370450169_1_alg».proof.Proof.Gen.Pre_finite_inputs
import proofs.«418928_j70858370450169_1_alg».proof.Proof.Claims
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
